-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S4096x1024 : Shape := ⟨2, ![4096, 1024]⟩
abbrev S3584x1024 : Shape := ⟨2, ![3584, 1024]⟩
abbrev S3x14 : Shape := ⟨2, ![3, 14]⟩
abbrev S_ : Shape := ⟨0, ![]⟩
abbrev S352x1024 : Shape := ⟨2, ![352, 1024]⟩
abbrev S1x1 : Shape := ⟨2, ![1, 1]⟩
abbrev S176x1024 : Shape := ⟨2, ![176, 1024]⟩
abbrev S320x1024 : Shape := ⟨2, ![320, 1024]⟩
abbrev S160x1024 : Shape := ⟨2, ![160, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .bf16⟩
  | .local _ .vmem, ⟨3, _⟩ => ⟨S3584x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c1_i32_108 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v145 : BitVec 32 := Scalar.subi c1_i32_108 v21
  let c352_i32_109 : BitVec 32 := 352#32
  let v146 : BitVec 32 := Scalar.muli v145 c352_i32_109
  let v147 : BitVec 32 := Scalar.addi v29 v146
  let v148 : Index := Scalar.indexCast v147
  let c0 : Index := 0#32
  ![v148.toNat, 0]
def k0_off2 (d0 : Dev nD) : Fin 2 → Nat :=
  let c0_i32_30 : BitVec 32 := 0#32
  let c1_i32_28 : BitVec 32 := 1#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v40 : BitVec 32 := Scalar.subi c1_i32_28 v21
  let c352_i32_29 : BitVec 32 := 352#32
  let v41 : BitVec 32 := Scalar.muli v40 c352_i32_29
  let v42 : BitVec 32 := Scalar.addi c0_i32_30 v41
  let c1_i32_113 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v159 : BitVec 32 := Scalar.subi c1_i32_113 v24
  let c176_i32_114 : BitVec 32 := 176#32
  let v160 : BitVec 32 := Scalar.muli v159 c176_i32_114
  let v161 : BitVec 32 := Scalar.addi v42 v160
  let c0_i32_122 : BitVec 32 := 0#32
  ![v161.toNat, 0]
def k0_off3 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c1_i32_108 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v145 : BitVec 32 := Scalar.subi c1_i32_108 v21
  let c352_i32_109 : BitVec 32 := 352#32
  let v146 : BitVec 32 := Scalar.muli v145 c352_i32_109
  let v147 : BitVec 32 := Scalar.addi v29 v146
  let c1_i32_111 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v156 : BitVec 32 := Scalar.subi c1_i32_111 v24
  let c176_i32_112 : BitVec 32 := 176#32
  let v157 : BitVec 32 := Scalar.muli v156 c176_i32_112
  let v158 : BitVec 32 := Scalar.addi v147 v157
  let c0_i32_123 : BitVec 32 := 0#32
  ![v158.toNat, 0]
def k0_dev4 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v162 : BitVec 32 := Scalar.xori v2 c1_i32_115
  let c1_i32_120 : BitVec 32 := 1#32
  let v163 : BitVec 32 := Scalar.muli v162 c1_i32_120
  let v164 : BitVec 32 := Scalar.addi c0_i32_121 v163
  v164.toNat
def k0_off4 (d0 : Dev nD) : Fin 2 → Nat :=
  let c0_i32_30 : BitVec 32 := 0#32
  let c1_i32_28 : BitVec 32 := 1#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v40 : BitVec 32 := Scalar.subi c1_i32_28 v21
  let c352_i32_29 : BitVec 32 := 352#32
  let v41 : BitVec 32 := Scalar.muli v40 c352_i32_29
  let v42 : BitVec 32 := Scalar.addi c0_i32_30 v41
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_125 : BitVec 32 := 176#32
  let v173 : BitVec 32 := Scalar.muli v24 c176_i32_125
  let v174 : BitVec 32 := Scalar.addi v42 v173
  let c0_i32_133 : BitVec 32 := 0#32
  ![v174.toNat, 0]
def k0_off5 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c1_i32_108 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v145 : BitVec 32 := Scalar.subi c1_i32_108 v21
  let c352_i32_109 : BitVec 32 := 352#32
  let v146 : BitVec 32 := Scalar.muli v145 c352_i32_109
  let v147 : BitVec 32 := Scalar.addi v29 v146
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_124 : BitVec 32 := 176#32
  let v171 : BitVec 32 := Scalar.muli v24 c176_i32_124
  let v172 : BitVec 32 := Scalar.addi v147 v171
  let c0_i32_134 : BitVec 32 := 0#32
  ![v172.toNat, 0]
def k0_dev5 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v175 : BitVec 32 := Scalar.xori v2 c1_i32_126
  let c1_i32_131 : BitVec 32 := 1#32
  let v176 : BitVec 32 := Scalar.muli v175 c1_i32_131
  let v177 : BitVec 32 := Scalar.addi c0_i32_132 v176
  v177.toNat
def k0_off6 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c1_i32_135 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v184 : BitVec 32 := Scalar.subi c1_i32_135 v62
  let c352_i32_136 : BitVec 32 := 352#32
  let v185 : BitVec 32 := Scalar.muli v184 c352_i32_136
  let v186 : BitVec 32 := Scalar.addi v73 v185
  let v187 : Index := Scalar.indexCast v186
  let c0_137 : Index := 0#32
  ![v187.toNat, 0]
def k0_off7 (d0 : Dev nD) : Fin 2 → Nat :=
  let c1232_i32 : BitVec 32 := 1232#32
  let c1_i32_64 : BitVec 32 := 1#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v84 : BitVec 32 := Scalar.subi c1_i32_64 v62
  let c352_i32_65 : BitVec 32 := 352#32
  let v85 : BitVec 32 := Scalar.muli v84 c352_i32_65
  let v86 : BitVec 32 := Scalar.addi c1232_i32 v85
  let c1_i32_141 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v198 : BitVec 32 := Scalar.subi c1_i32_141 v68
  let c176_i32_142 : BitVec 32 := 176#32
  let v199 : BitVec 32 := Scalar.muli v198 c176_i32_142
  let v200 : BitVec 32 := Scalar.addi v86 v199
  let c0_i32_150 : BitVec 32 := 0#32
  ![v200.toNat, 0]
def k0_off8 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c1_i32_135 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v184 : BitVec 32 := Scalar.subi c1_i32_135 v62
  let c352_i32_136 : BitVec 32 := 352#32
  let v185 : BitVec 32 := Scalar.muli v184 c352_i32_136
  let v186 : BitVec 32 := Scalar.addi v73 v185
  let c1_i32_139 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v195 : BitVec 32 := Scalar.subi c1_i32_139 v68
  let c176_i32_140 : BitVec 32 := 176#32
  let v196 : BitVec 32 := Scalar.muli v195 c176_i32_140
  let v197 : BitVec 32 := Scalar.addi v186 v196
  let c0_i32_151 : BitVec 32 := 0#32
  ![v197.toNat, 0]
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_143 : BitVec 32 := 3#32
  let v201 : BitVec 32 := Scalar.xori v2 c3_i32_143
  let c1_i32_148 : BitVec 32 := 1#32
  let v202 : BitVec 32 := Scalar.muli v201 c1_i32_148
  let v203 : BitVec 32 := Scalar.addi c0_i32_149 v202
  v203.toNat
def k0_off9 (d0 : Dev nD) : Fin 2 → Nat :=
  let c1232_i32 : BitVec 32 := 1232#32
  let c1_i32_64 : BitVec 32 := 1#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v84 : BitVec 32 := Scalar.subi c1_i32_64 v62
  let c352_i32_65 : BitVec 32 := 352#32
  let v85 : BitVec 32 := Scalar.muli v84 c352_i32_65
  let v86 : BitVec 32 := Scalar.addi c1232_i32 v85
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_153 : BitVec 32 := 176#32
  let v212 : BitVec 32 := Scalar.muli v68 c176_i32_153
  let v213 : BitVec 32 := Scalar.addi v86 v212
  let c0_i32_161 : BitVec 32 := 0#32
  ![v213.toNat, 0]
def k0_off10 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c1_i32_135 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v184 : BitVec 32 := Scalar.subi c1_i32_135 v62
  let c352_i32_136 : BitVec 32 := 352#32
  let v185 : BitVec 32 := Scalar.muli v184 c352_i32_136
  let v186 : BitVec 32 := Scalar.addi v73 v185
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_152 : BitVec 32 := 176#32
  let v210 : BitVec 32 := Scalar.muli v68 c176_i32_152
  let v211 : BitVec 32 := Scalar.addi v186 v210
  let c0_i32_162 : BitVec 32 := 0#32
  ![v211.toNat, 0]
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_154 : BitVec 32 := 3#32
  let v214 : BitVec 32 := Scalar.xori v2 c3_i32_154
  let c1_i32_159 : BitVec 32 := 1#32
  let v215 : BitVec 32 := Scalar.muli v214 c1_i32_159
  let v216 : BitVec 32 := Scalar.addi c0_i32_160 v215
  v216.toNat
def k0_off11 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c1_i32_163 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v223 : BitVec 32 := Scalar.subi c1_i32_163 v109
  let c320_i32_164 : BitVec 32 := 320#32
  let v224 : BitVec 32 := Scalar.muli v223 c320_i32_164
  let v225 : BitVec 32 := Scalar.addi v117 v224
  let v226 : Index := Scalar.indexCast v225
  let c0_165 : Index := 0#32
  ![v226.toNat, 0]
def k0_off12 (d0 : Dev nD) : Fin 2 → Nat :=
  let c2464_i32 : BitVec 32 := 2464#32
  let c1_i32_95 : BitVec 32 := 1#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v128 : BitVec 32 := Scalar.subi c1_i32_95 v109
  let c320_i32_96 : BitVec 32 := 320#32
  let v129 : BitVec 32 := Scalar.muli v128 c320_i32_96
  let v130 : BitVec 32 := Scalar.addi c2464_i32 v129
  let c1_i32_169 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v237 : BitVec 32 := Scalar.subi c1_i32_169 v112
  let c160_i32_170 : BitVec 32 := 160#32
  let v238 : BitVec 32 := Scalar.muli v237 c160_i32_170
  let v239 : BitVec 32 := Scalar.addi v130 v238
  let c0_i32_178 : BitVec 32 := 0#32
  ![v239.toNat, 0]
def k0_off13 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c1_i32_163 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v223 : BitVec 32 := Scalar.subi c1_i32_163 v109
  let c320_i32_164 : BitVec 32 := 320#32
  let v224 : BitVec 32 := Scalar.muli v223 c320_i32_164
  let v225 : BitVec 32 := Scalar.addi v117 v224
  let c1_i32_167 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v234 : BitVec 32 := Scalar.subi c1_i32_167 v112
  let c160_i32_168 : BitVec 32 := 160#32
  let v235 : BitVec 32 := Scalar.muli v234 c160_i32_168
  let v236 : BitVec 32 := Scalar.addi v225 v235
  let c0_i32_179 : BitVec 32 := 0#32
  ![v236.toNat, 0]
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v240 : BitVec 32 := Scalar.xori v2 c4_i32_171
  let c1_i32_176 : BitVec 32 := 1#32
  let v241 : BitVec 32 := Scalar.muli v240 c1_i32_176
  let v242 : BitVec 32 := Scalar.addi c0_i32_177 v241
  v242.toNat
def k0_off14 (d0 : Dev nD) : Fin 2 → Nat :=
  let c2464_i32 : BitVec 32 := 2464#32
  let c1_i32_95 : BitVec 32 := 1#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v128 : BitVec 32 := Scalar.subi c1_i32_95 v109
  let c320_i32_96 : BitVec 32 := 320#32
  let v129 : BitVec 32 := Scalar.muli v128 c320_i32_96
  let v130 : BitVec 32 := Scalar.addi c2464_i32 v129
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_181 : BitVec 32 := 160#32
  let v251 : BitVec 32 := Scalar.muli v112 c160_i32_181
  let v252 : BitVec 32 := Scalar.addi v130 v251
  let c0_i32_189 : BitVec 32 := 0#32
  ![v252.toNat, 0]
def k0_off15 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c1_i32_163 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v223 : BitVec 32 := Scalar.subi c1_i32_163 v109
  let c320_i32_164 : BitVec 32 := 320#32
  let v224 : BitVec 32 := Scalar.muli v223 c320_i32_164
  let v225 : BitVec 32 := Scalar.addi v117 v224
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_180 : BitVec 32 := 160#32
  let v249 : BitVec 32 := Scalar.muli v112 c160_i32_180
  let v250 : BitVec 32 := Scalar.addi v225 v249
  let c0_i32_190 : BitVec 32 := 0#32
  ![v250.toNat, 0]
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v253 : BitVec 32 := Scalar.xori v2 c4_i32_182
  let c1_i32_187 : BitVec 32 := 1#32
  let v254 : BitVec 32 := Scalar.muli v253 c1_i32_187
  let v255 : BitVec 32 := Scalar.addi c0_i32_188 v254
  v255.toNat
def k0_off16 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_191 : BitVec 32 := 352#32
  let v262 : BitVec 32 := Scalar.muli v21 c352_i32_191
  let v263 : BitVec 32 := Scalar.addi v29 v262
  let v264 : Index := Scalar.indexCast v263
  let c0_192 : Index := 0#32
  ![v264.toNat, 0]
def k0_off17 (d0 : Dev nD) : Fin 2 → Nat :=
  let c0_i32_32 : BitVec 32 := 0#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_31 : BitVec 32 := 352#32
  let v43 : BitVec 32 := Scalar.muli v21 c352_i32_31
  let v44 : BitVec 32 := Scalar.addi c0_i32_32 v43
  let c1_i32_33 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v45 : BitVec 32 := Scalar.subi c1_i32_33 v24
  let c176_i32_34 : BitVec 32 := 176#32
  let v46 : BitVec 32 := Scalar.muli v45 c176_i32_34
  let v47 : BitVec 32 := Scalar.addi v44 v46
  let c0_i32_203 : BitVec 32 := 0#32
  ![v47.toNat, 0]
def k0_off18 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_191 : BitVec 32 := 352#32
  let v262 : BitVec 32 := Scalar.muli v21 c352_i32_191
  let v263 : BitVec 32 := Scalar.addi v29 v262
  let c1_i32_194 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v272 : BitVec 32 := Scalar.subi c1_i32_194 v24
  let c176_i32_195 : BitVec 32 := 176#32
  let v273 : BitVec 32 := Scalar.muli v272 c176_i32_195
  let v274 : BitVec 32 := Scalar.addi v263 v273
  let c0_i32_204 : BitVec 32 := 0#32
  ![v274.toNat, 0]
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_196 : BitVec 32 := 1#32
  let v275 : BitVec 32 := Scalar.xori v2 c1_i32_196
  let c1_i32_201 : BitVec 32 := 1#32
  let v276 : BitVec 32 := Scalar.muli v275 c1_i32_201
  let v277 : BitVec 32 := Scalar.addi c0_i32_202 v276
  v277.toNat
def k0_off19 (d0 : Dev nD) : Fin 2 → Nat :=
  let c0_i32_36 : BitVec 32 := 0#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_35 : BitVec 32 := 352#32
  let v48 : BitVec 32 := Scalar.muli v21 c352_i32_35
  let v49 : BitVec 32 := Scalar.addi c0_i32_36 v48
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_37 : BitVec 32 := 176#32
  let v50 : BitVec 32 := Scalar.muli v24 c176_i32_37
  let v51 : BitVec 32 := Scalar.addi v49 v50
  let c0_i32_213 : BitVec 32 := 0#32
  ![v51.toNat, 0]
def k0_off20 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_191 : BitVec 32 := 352#32
  let v262 : BitVec 32 := Scalar.muli v21 c352_i32_191
  let v263 : BitVec 32 := Scalar.addi v29 v262
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_205 : BitVec 32 := 176#32
  let v284 : BitVec 32 := Scalar.muli v24 c176_i32_205
  let v285 : BitVec 32 := Scalar.addi v263 v284
  let c0_i32_214 : BitVec 32 := 0#32
  ![v285.toNat, 0]
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_206 : BitVec 32 := 1#32
  let v286 : BitVec 32 := Scalar.xori v2 c1_i32_206
  let c1_i32_211 : BitVec 32 := 1#32
  let v287 : BitVec 32 := Scalar.muli v286 c1_i32_211
  let v288 : BitVec 32 := Scalar.addi c0_i32_212 v287
  v288.toNat
def k0_off21 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_215 : BitVec 32 := 352#32
  let v295 : BitVec 32 := Scalar.muli v62 c352_i32_215
  let v296 : BitVec 32 := Scalar.addi v73 v295
  let v297 : Index := Scalar.indexCast v296
  let c0_216 : Index := 0#32
  ![v297.toNat, 0]
def k0_off22 (d0 : Dev nD) : Fin 2 → Nat :=
  let c1232_i32_67 : BitVec 32 := 1232#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_66 : BitVec 32 := 352#32
  let v87 : BitVec 32 := Scalar.muli v62 c352_i32_66
  let v88 : BitVec 32 := Scalar.addi c1232_i32_67 v87
  let c1_i32_68 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v89 : BitVec 32 := Scalar.subi c1_i32_68 v68
  let c176_i32_69 : BitVec 32 := 176#32
  let v90 : BitVec 32 := Scalar.muli v89 c176_i32_69
  let v91 : BitVec 32 := Scalar.addi v88 v90
  let c0_i32_227 : BitVec 32 := 0#32
  ![v91.toNat, 0]
def k0_off23 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_215 : BitVec 32 := 352#32
  let v295 : BitVec 32 := Scalar.muli v62 c352_i32_215
  let v296 : BitVec 32 := Scalar.addi v73 v295
  let c1_i32_218 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v305 : BitVec 32 := Scalar.subi c1_i32_218 v68
  let c176_i32_219 : BitVec 32 := 176#32
  let v306 : BitVec 32 := Scalar.muli v305 c176_i32_219
  let v307 : BitVec 32 := Scalar.addi v296 v306
  let c0_i32_228 : BitVec 32 := 0#32
  ![v307.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_220 : BitVec 32 := 3#32
  let v308 : BitVec 32 := Scalar.xori v2 c3_i32_220
  let c1_i32_225 : BitVec 32 := 1#32
  let v309 : BitVec 32 := Scalar.muli v308 c1_i32_225
  let v310 : BitVec 32 := Scalar.addi c0_i32_226 v309
  v310.toNat
def k0_off24 (d0 : Dev nD) : Fin 2 → Nat :=
  let c1232_i32_71 : BitVec 32 := 1232#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_70 : BitVec 32 := 352#32
  let v92 : BitVec 32 := Scalar.muli v62 c352_i32_70
  let v93 : BitVec 32 := Scalar.addi c1232_i32_71 v92
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_72 : BitVec 32 := 176#32
  let v94 : BitVec 32 := Scalar.muli v68 c176_i32_72
  let v95 : BitVec 32 := Scalar.addi v93 v94
  let c0_i32_237 : BitVec 32 := 0#32
  ![v95.toNat, 0]
def k0_off25 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_215 : BitVec 32 := 352#32
  let v295 : BitVec 32 := Scalar.muli v62 c352_i32_215
  let v296 : BitVec 32 := Scalar.addi v73 v295
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_229 : BitVec 32 := 176#32
  let v317 : BitVec 32 := Scalar.muli v68 c176_i32_229
  let v318 : BitVec 32 := Scalar.addi v296 v317
  let c0_i32_238 : BitVec 32 := 0#32
  ![v318.toNat, 0]
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_230 : BitVec 32 := 3#32
  let v319 : BitVec 32 := Scalar.xori v2 c3_i32_230
  let c1_i32_235 : BitVec 32 := 1#32
  let v320 : BitVec 32 := Scalar.muli v319 c1_i32_235
  let v321 : BitVec 32 := Scalar.addi c0_i32_236 v320
  v321.toNat
def k0_off26 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_239 : BitVec 32 := 320#32
  let v328 : BitVec 32 := Scalar.muli v109 c320_i32_239
  let v329 : BitVec 32 := Scalar.addi v117 v328
  let v330 : Index := Scalar.indexCast v329
  let c0_240 : Index := 0#32
  ![v330.toNat, 0]
def k0_off27 (d0 : Dev nD) : Fin 2 → Nat :=
  let c2464_i32_98 : BitVec 32 := 2464#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_97 : BitVec 32 := 320#32
  let v131 : BitVec 32 := Scalar.muli v109 c320_i32_97
  let v132 : BitVec 32 := Scalar.addi c2464_i32_98 v131
  let c1_i32_99 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v133 : BitVec 32 := Scalar.subi c1_i32_99 v112
  let c160_i32_100 : BitVec 32 := 160#32
  let v134 : BitVec 32 := Scalar.muli v133 c160_i32_100
  let v135 : BitVec 32 := Scalar.addi v132 v134
  let c0_i32_251 : BitVec 32 := 0#32
  ![v135.toNat, 0]
def k0_off28 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_239 : BitVec 32 := 320#32
  let v328 : BitVec 32 := Scalar.muli v109 c320_i32_239
  let v329 : BitVec 32 := Scalar.addi v117 v328
  let c1_i32_242 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v338 : BitVec 32 := Scalar.subi c1_i32_242 v112
  let c160_i32_243 : BitVec 32 := 160#32
  let v339 : BitVec 32 := Scalar.muli v338 c160_i32_243
  let v340 : BitVec 32 := Scalar.addi v329 v339
  let c0_i32_252 : BitVec 32 := 0#32
  ![v340.toNat, 0]
def k0_dev14 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_244 : BitVec 32 := 4#32
  let v341 : BitVec 32 := Scalar.xori v2 c4_i32_244
  let c1_i32_249 : BitVec 32 := 1#32
  let v342 : BitVec 32 := Scalar.muli v341 c1_i32_249
  let v343 : BitVec 32 := Scalar.addi c0_i32_250 v342
  v343.toNat
def k0_off29 (d0 : Dev nD) : Fin 2 → Nat :=
  let c2464_i32_102 : BitVec 32 := 2464#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_101 : BitVec 32 := 320#32
  let v136 : BitVec 32 := Scalar.muli v109 c320_i32_101
  let v137 : BitVec 32 := Scalar.addi c2464_i32_102 v136
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_103 : BitVec 32 := 160#32
  let v138 : BitVec 32 := Scalar.muli v112 c160_i32_103
  let v139 : BitVec 32 := Scalar.addi v137 v138
  let c0_i32_261 : BitVec 32 := 0#32
  ![v139.toNat, 0]
def k0_off30 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_239 : BitVec 32 := 320#32
  let v328 : BitVec 32 := Scalar.muli v109 c320_i32_239
  let v329 : BitVec 32 := Scalar.addi v117 v328
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_253 : BitVec 32 := 160#32
  let v350 : BitVec 32 := Scalar.muli v112 c160_i32_253
  let v351 : BitVec 32 := Scalar.addi v329 v350
  let c0_i32_262 : BitVec 32 := 0#32
  ![v351.toNat, 0]
def k0_dev15 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_254 : BitVec 32 := 4#32
  let v352 : BitVec 32 := Scalar.xori v2 c4_i32_254
  let c1_i32_259 : BitVec 32 := 1#32
  let v353 : BitVec 32 := Scalar.muli v352 c1_i32_259
  let v354 : BitVec 32 := Scalar.addi c0_i32_260 v353
  v354.toNat
def k0_off31 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c1_i32_24 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v32 : BitVec 32 := Scalar.subi c1_i32_24 v21
  let c352_i32_25 : BitVec 32 := 352#32
  let v33 : BitVec 32 := Scalar.muli v32 c352_i32_25
  let v34 : BitVec 32 := Scalar.addi v26 v33
  let c1_i32_271 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v367 : BitVec 32 := Scalar.subi c1_i32_271 v24
  let c176_i32_272 : BitVec 32 := 176#32
  let v368 : BitVec 32 := Scalar.muli v367 c176_i32_272
  let v369 : BitVec 32 := Scalar.addi v34 v368
  let v373 : Index := Scalar.indexCast v369
  let c0_275 : Index := 0#32
  ![v373.toNat, 0]
def k0_off32 (d0 : Dev nD) : Fin 2 → Nat :=
  let c0_i32_30 : BitVec 32 := 0#32
  let c1_i32_28 : BitVec 32 := 1#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v40 : BitVec 32 := Scalar.subi c1_i32_28 v21
  let c352_i32_29 : BitVec 32 := 352#32
  let v41 : BitVec 32 := Scalar.muli v40 c352_i32_29
  let v42 : BitVec 32 := Scalar.addi c0_i32_30 v41
  let c1_i32_273 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v370 : BitVec 32 := Scalar.subi c1_i32_273 v24
  let c176_i32_274 : BitVec 32 := 176#32
  let v371 : BitVec 32 := Scalar.muli v370 c176_i32_274
  let v372 : BitVec 32 := Scalar.addi v42 v371
  let v376 : Index := Scalar.indexCast v372
  let c0_276 : Index := 0#32
  ![v376.toNat, 0]
def k0_off33 (d0 : Dev nD) : Fin 2 → Nat :=
  let c704_i32_40 : BitVec 32 := 704#32
  let c1_i32_38 : BitVec 32 := 1#32
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v52 : BitVec 32 := Scalar.subi c1_i32_38 v24
  let c176_i32_39 : BitVec 32 := 176#32
  let v53 : BitVec 32 := Scalar.muli v52 c176_i32_39
  let v54 : BitVec 32 := Scalar.addi c704_i32_40 v53
  let c0_i32_291 : BitVec 32 := 0#32
  ![v54.toNat, 0]
def k0_off34 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c1_i32_24 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v32 : BitVec 32 := Scalar.subi c1_i32_24 v21
  let c352_i32_25 : BitVec 32 := 352#32
  let v33 : BitVec 32 := Scalar.muli v32 c352_i32_25
  let v34 : BitVec 32 := Scalar.addi v26 v33
  let c1_i32_282 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v393 : BitVec 32 := Scalar.subi c1_i32_282 v24
  let c176_i32_283 : BitVec 32 := 176#32
  let v394 : BitVec 32 := Scalar.muli v393 c176_i32_283
  let v395 : BitVec 32 := Scalar.addi v34 v394
  let c0_i32_292 : BitVec 32 := 0#32
  ![v395.toNat, 0]
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v396 : BitVec 32 := Scalar.xori v2 c3_i32_284
  let c1_i32_289 : BitVec 32 := 1#32
  let v397 : BitVec 32 := Scalar.muli v396 c1_i32_289
  let v398 : BitVec 32 := Scalar.addi c0_i32_290 v397
  v398.toNat
def k0_off35 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c1_i32_59 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v76 : BitVec 32 := Scalar.subi c1_i32_59 v62
  let c352_i32_60 : BitVec 32 := 352#32
  let v77 : BitVec 32 := Scalar.muli v76 c352_i32_60
  let v78 : BitVec 32 := Scalar.addi v70 v77
  let c1_i32_301 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v411 : BitVec 32 := Scalar.subi c1_i32_301 v68
  let c176_i32_302 : BitVec 32 := 176#32
  let v412 : BitVec 32 := Scalar.muli v411 c176_i32_302
  let v413 : BitVec 32 := Scalar.addi v78 v412
  let v417 : Index := Scalar.indexCast v413
  let c0_305 : Index := 0#32
  ![v417.toNat, 0]
def k0_off36 (d0 : Dev nD) : Fin 2 → Nat :=
  let c1232_i32 : BitVec 32 := 1232#32
  let c1_i32_64 : BitVec 32 := 1#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v84 : BitVec 32 := Scalar.subi c1_i32_64 v62
  let c352_i32_65 : BitVec 32 := 352#32
  let v85 : BitVec 32 := Scalar.muli v84 c352_i32_65
  let v86 : BitVec 32 := Scalar.addi c1232_i32 v85
  let c1_i32_303 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v414 : BitVec 32 := Scalar.subi c1_i32_303 v68
  let c176_i32_304 : BitVec 32 := 176#32
  let v415 : BitVec 32 := Scalar.muli v414 c176_i32_304
  let v416 : BitVec 32 := Scalar.addi v86 v415
  let v420 : Index := Scalar.indexCast v416
  let c0_306 : Index := 0#32
  ![v420.toNat, 0]
def k0_off37 (d0 : Dev nD) : Fin 2 → Nat :=
  let c1936_i32 : BitVec 32 := 1936#32
  let c1_i32_73 : BitVec 32 := 1#32
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v96 : BitVec 32 := Scalar.subi c1_i32_73 v68
  let c176_i32_74 : BitVec 32 := 176#32
  let v97 : BitVec 32 := Scalar.muli v96 c176_i32_74
  let v98 : BitVec 32 := Scalar.addi c1936_i32 v97
  let c0_i32_321 : BitVec 32 := 0#32
  ![v98.toNat, 0]
def k0_off38 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c1_i32_59 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v76 : BitVec 32 := Scalar.subi c1_i32_59 v62
  let c352_i32_60 : BitVec 32 := 352#32
  let v77 : BitVec 32 := Scalar.muli v76 c352_i32_60
  let v78 : BitVec 32 := Scalar.addi v70 v77
  let c1_i32_312 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v437 : BitVec 32 := Scalar.subi c1_i32_312 v68
  let c176_i32_313 : BitVec 32 := 176#32
  let v438 : BitVec 32 := Scalar.muli v437 c176_i32_313
  let v439 : BitVec 32 := Scalar.addi v78 v438
  let c0_i32_322 : BitVec 32 := 0#32
  ![v439.toNat, 0]
def k0_dev17 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_314 : BitVec 32 := 4#32
  let v440 : BitVec 32 := Scalar.xori v2 c4_i32_314
  let c1_i32_319 : BitVec 32 := 1#32
  let v441 : BitVec 32 := Scalar.muli v440 c1_i32_319
  let v442 : BitVec 32 := Scalar.addi c0_i32_320 v441
  v442.toNat
def k0_off39 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c1_i32_91 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v120 : BitVec 32 := Scalar.subi c1_i32_91 v109
  let c320_i32_92 : BitVec 32 := 320#32
  let v121 : BitVec 32 := Scalar.muli v120 c320_i32_92
  let v122 : BitVec 32 := Scalar.addi v114 v121
  let c1_i32_331 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v455 : BitVec 32 := Scalar.subi c1_i32_331 v112
  let c160_i32_332 : BitVec 32 := 160#32
  let v456 : BitVec 32 := Scalar.muli v455 c160_i32_332
  let v457 : BitVec 32 := Scalar.addi v122 v456
  let v461 : Index := Scalar.indexCast v457
  let c0_335 : Index := 0#32
  ![v461.toNat, 0]
def k0_off40 (d0 : Dev nD) : Fin 2 → Nat :=
  let c2464_i32 : BitVec 32 := 2464#32
  let c1_i32_95 : BitVec 32 := 1#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v128 : BitVec 32 := Scalar.subi c1_i32_95 v109
  let c320_i32_96 : BitVec 32 := 320#32
  let v129 : BitVec 32 := Scalar.muli v128 c320_i32_96
  let v130 : BitVec 32 := Scalar.addi c2464_i32 v129
  let c1_i32_333 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v458 : BitVec 32 := Scalar.subi c1_i32_333 v112
  let c160_i32_334 : BitVec 32 := 160#32
  let v459 : BitVec 32 := Scalar.muli v458 c160_i32_334
  let v460 : BitVec 32 := Scalar.addi v130 v459
  let v464 : Index := Scalar.indexCast v460
  let c0_336 : Index := 0#32
  ![v464.toNat, 0]
def k0_off41 (d0 : Dev nD) : Fin 2 → Nat :=
  let c3104_i32 : BitVec 32 := 3104#32
  let c1_i32_104 : BitVec 32 := 1#32
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v140 : BitVec 32 := Scalar.subi c1_i32_104 v112
  let c160_i32_105 : BitVec 32 := 160#32
  let v141 : BitVec 32 := Scalar.muli v140 c160_i32_105
  let v142 : BitVec 32 := Scalar.addi c3104_i32 v141
  let c0_i32_351 : BitVec 32 := 0#32
  ![v142.toNat, 0]
def k0_off42 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c1_i32_91 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v120 : BitVec 32 := Scalar.subi c1_i32_91 v109
  let c320_i32_92 : BitVec 32 := 320#32
  let v121 : BitVec 32 := Scalar.muli v120 c320_i32_92
  let v122 : BitVec 32 := Scalar.addi v114 v121
  let c1_i32_342 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v481 : BitVec 32 := Scalar.subi c1_i32_342 v112
  let c160_i32_343 : BitVec 32 := 160#32
  let v482 : BitVec 32 := Scalar.muli v481 c160_i32_343
  let v483 : BitVec 32 := Scalar.addi v122 v482
  let c0_i32_352 : BitVec 32 := 0#32
  ![v483.toNat, 0]
def k0_dev18 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_344 : BitVec 32 := 1#32
  let v484 : BitVec 32 := Scalar.xori v2 c1_i32_344
  let c1_i32_349 : BitVec 32 := 1#32
  let v485 : BitVec 32 := Scalar.muli v484 c1_i32_349
  let v486 : BitVec 32 := Scalar.addi c0_i32_350 v485
  v486.toNat
def k0_off43 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c1_i32_24 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v32 : BitVec 32 := Scalar.subi c1_i32_24 v21
  let c352_i32_25 : BitVec 32 := 352#32
  let v33 : BitVec 32 := Scalar.muli v32 c352_i32_25
  let v34 : BitVec 32 := Scalar.addi v26 v33
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_361 : BitVec 32 := 176#32
  let v499 : BitVec 32 := Scalar.muli v24 c176_i32_361
  let v500 : BitVec 32 := Scalar.addi v34 v499
  let v503 : Index := Scalar.indexCast v500
  let c0_363 : Index := 0#32
  ![v503.toNat, 0]
def k0_off44 (d0 : Dev nD) : Fin 2 → Nat :=
  let c0_i32_30 : BitVec 32 := 0#32
  let c1_i32_28 : BitVec 32 := 1#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v40 : BitVec 32 := Scalar.subi c1_i32_28 v21
  let c352_i32_29 : BitVec 32 := 352#32
  let v41 : BitVec 32 := Scalar.muli v40 c352_i32_29
  let v42 : BitVec 32 := Scalar.addi c0_i32_30 v41
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_362 : BitVec 32 := 176#32
  let v501 : BitVec 32 := Scalar.muli v24 c176_i32_362
  let v502 : BitVec 32 := Scalar.addi v42 v501
  let v506 : Index := Scalar.indexCast v502
  let c0_364 : Index := 0#32
  ![v506.toNat, 0]
def k0_off45 (d0 : Dev nD) : Fin 2 → Nat :=
  let c704_i32_42 : BitVec 32 := 704#32
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_41 : BitVec 32 := 176#32
  let v55 : BitVec 32 := Scalar.muli v24 c176_i32_41
  let v56 : BitVec 32 := Scalar.addi c704_i32_42 v55
  let c0_i32_376 : BitVec 32 := 0#32
  ![v56.toNat, 0]
def k0_off46 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c1_i32_24 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v32 : BitVec 32 := Scalar.subi c1_i32_24 v21
  let c352_i32_25 : BitVec 32 := 352#32
  let v33 : BitVec 32 := Scalar.muli v32 c352_i32_25
  let v34 : BitVec 32 := Scalar.addi v26 v33
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_369 : BitVec 32 := 176#32
  let v522 : BitVec 32 := Scalar.muli v24 c176_i32_369
  let v523 : BitVec 32 := Scalar.addi v34 v522
  let c0_i32_377 : BitVec 32 := 0#32
  ![v523.toNat, 0]
def k0_dev19 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_370 : BitVec 32 := 3#32
  let v524 : BitVec 32 := Scalar.xori v2 c3_i32_370
  let c1_i32_374 : BitVec 32 := 1#32
  let v525 : BitVec 32 := Scalar.muli v524 c1_i32_374
  let v526 : BitVec 32 := Scalar.addi c0_i32_375 v525
  v526.toNat
def k0_off47 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c1_i32_59 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v76 : BitVec 32 := Scalar.subi c1_i32_59 v62
  let c352_i32_60 : BitVec 32 := 352#32
  let v77 : BitVec 32 := Scalar.muli v76 c352_i32_60
  let v78 : BitVec 32 := Scalar.addi v70 v77
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_386 : BitVec 32 := 176#32
  let v539 : BitVec 32 := Scalar.muli v68 c176_i32_386
  let v540 : BitVec 32 := Scalar.addi v78 v539
  let v543 : Index := Scalar.indexCast v540
  let c0_388 : Index := 0#32
  ![v543.toNat, 0]
def k0_off48 (d0 : Dev nD) : Fin 2 → Nat :=
  let c1232_i32 : BitVec 32 := 1232#32
  let c1_i32_64 : BitVec 32 := 1#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v84 : BitVec 32 := Scalar.subi c1_i32_64 v62
  let c352_i32_65 : BitVec 32 := 352#32
  let v85 : BitVec 32 := Scalar.muli v84 c352_i32_65
  let v86 : BitVec 32 := Scalar.addi c1232_i32 v85
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_387 : BitVec 32 := 176#32
  let v541 : BitVec 32 := Scalar.muli v68 c176_i32_387
  let v542 : BitVec 32 := Scalar.addi v86 v541
  let v546 : Index := Scalar.indexCast v542
  let c0_389 : Index := 0#32
  ![v546.toNat, 0]
def k0_off49 (d0 : Dev nD) : Fin 2 → Nat :=
  let c1936_i32_76 : BitVec 32 := 1936#32
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_75 : BitVec 32 := 176#32
  let v99 : BitVec 32 := Scalar.muli v68 c176_i32_75
  let v100 : BitVec 32 := Scalar.addi c1936_i32_76 v99
  let c0_i32_402 : BitVec 32 := 0#32
  ![v100.toNat, 0]
def k0_off50 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c1_i32_59 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v76 : BitVec 32 := Scalar.subi c1_i32_59 v62
  let c352_i32_60 : BitVec 32 := 352#32
  let v77 : BitVec 32 := Scalar.muli v76 c352_i32_60
  let v78 : BitVec 32 := Scalar.addi v70 v77
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_394 : BitVec 32 := 176#32
  let v562 : BitVec 32 := Scalar.muli v68 c176_i32_394
  let v563 : BitVec 32 := Scalar.addi v78 v562
  let c0_i32_403 : BitVec 32 := 0#32
  ![v563.toNat, 0]
def k0_dev20 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v564 : BitVec 32 := Scalar.xori v2 c4_i32_395
  let c1_i32_400 : BitVec 32 := 1#32
  let v565 : BitVec 32 := Scalar.muli v564 c1_i32_400
  let v566 : BitVec 32 := Scalar.addi c0_i32_401 v565
  v566.toNat
def k0_off51 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c1_i32_91 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v120 : BitVec 32 := Scalar.subi c1_i32_91 v109
  let c320_i32_92 : BitVec 32 := 320#32
  let v121 : BitVec 32 := Scalar.muli v120 c320_i32_92
  let v122 : BitVec 32 := Scalar.addi v114 v121
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_412 : BitVec 32 := 160#32
  let v579 : BitVec 32 := Scalar.muli v112 c160_i32_412
  let v580 : BitVec 32 := Scalar.addi v122 v579
  let v583 : Index := Scalar.indexCast v580
  let c0_414 : Index := 0#32
  ![v583.toNat, 0]
def k0_off52 (d0 : Dev nD) : Fin 2 → Nat :=
  let c2464_i32 : BitVec 32 := 2464#32
  let c1_i32_95 : BitVec 32 := 1#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v128 : BitVec 32 := Scalar.subi c1_i32_95 v109
  let c320_i32_96 : BitVec 32 := 320#32
  let v129 : BitVec 32 := Scalar.muli v128 c320_i32_96
  let v130 : BitVec 32 := Scalar.addi c2464_i32 v129
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_413 : BitVec 32 := 160#32
  let v581 : BitVec 32 := Scalar.muli v112 c160_i32_413
  let v582 : BitVec 32 := Scalar.addi v130 v581
  let v586 : Index := Scalar.indexCast v582
  let c0_415 : Index := 0#32
  ![v586.toNat, 0]
def k0_off53 (d0 : Dev nD) : Fin 2 → Nat :=
  let c3104_i32_107 : BitVec 32 := 3104#32
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_106 : BitVec 32 := 160#32
  let v143 : BitVec 32 := Scalar.muli v112 c160_i32_106
  let v144 : BitVec 32 := Scalar.addi c3104_i32_107 v143
  let c0_i32_428 : BitVec 32 := 0#32
  ![v144.toNat, 0]
def k0_off54 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c1_i32_91 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v120 : BitVec 32 := Scalar.subi c1_i32_91 v109
  let c320_i32_92 : BitVec 32 := 320#32
  let v121 : BitVec 32 := Scalar.muli v120 c320_i32_92
  let v122 : BitVec 32 := Scalar.addi v114 v121
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_420 : BitVec 32 := 160#32
  let v602 : BitVec 32 := Scalar.muli v112 c160_i32_420
  let v603 : BitVec 32 := Scalar.addi v122 v602
  let c0_i32_429 : BitVec 32 := 0#32
  ![v603.toNat, 0]
def k0_dev21 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_421 : BitVec 32 := 1#32
  let v604 : BitVec 32 := Scalar.xori v2 c1_i32_421
  let c1_i32_426 : BitVec 32 := 1#32
  let v605 : BitVec 32 := Scalar.muli v604 c1_i32_426
  let v606 : BitVec 32 := Scalar.addi c0_i32_427 v605
  v606.toNat
def k0_off55 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32 : BitVec 32 := 352#32
  let v30 : BitVec 32 := Scalar.muli v21 c352_i32
  let v31 : BitVec 32 := Scalar.addi v26 v30
  let c1_i32_26 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v37 : BitVec 32 := Scalar.subi c1_i32_26 v24
  let c176_i32_27 : BitVec 32 := 176#32
  let v38 : BitVec 32 := Scalar.muli v37 c176_i32_27
  let v39 : BitVec 32 := Scalar.addi v31 v38
  let v619 : Index := Scalar.indexCast v39
  let c0_438 : Index := 0#32
  ![v619.toNat, 0]
def k0_off56 (d0 : Dev nD) : Fin 2 → Nat :=
  let c0_i32_32 : BitVec 32 := 0#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_31 : BitVec 32 := 352#32
  let v43 : BitVec 32 := Scalar.muli v21 c352_i32_31
  let v44 : BitVec 32 := Scalar.addi c0_i32_32 v43
  let c1_i32_33 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v45 : BitVec 32 := Scalar.subi c1_i32_33 v24
  let c176_i32_34 : BitVec 32 := 176#32
  let v46 : BitVec 32 := Scalar.muli v45 c176_i32_34
  let v47 : BitVec 32 := Scalar.addi v44 v46
  let v622 : Index := Scalar.indexCast v47
  let c0_439 : Index := 0#32
  ![v622.toNat, 0]
def k0_off57 (d0 : Dev nD) : Fin 2 → Nat :=
  let c704_i32_40 : BitVec 32 := 704#32
  let c1_i32_38 : BitVec 32 := 1#32
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v52 : BitVec 32 := Scalar.subi c1_i32_38 v24
  let c176_i32_39 : BitVec 32 := 176#32
  let v53 : BitVec 32 := Scalar.muli v52 c176_i32_39
  let v54 : BitVec 32 := Scalar.addi c704_i32_40 v53
  let v637 : Index := Scalar.indexCast v54
  let c0_450 : Index := 0#32
  ![v637.toNat, 0]
def k0_off58 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32 : BitVec 32 := 352#32
  let v30 : BitVec 32 := Scalar.muli v21 c352_i32
  let v31 : BitVec 32 := Scalar.addi v26 v30
  let c1_i32_26 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v37 : BitVec 32 := Scalar.subi c1_i32_26 v24
  let c176_i32_27 : BitVec 32 := 176#32
  let v38 : BitVec 32 := Scalar.muli v37 c176_i32_27
  let v39 : BitVec 32 := Scalar.addi v31 v38
  let c0_i32_461 : BitVec 32 := 0#32
  ![v39.toNat, 0]
def k0_dev22 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_454 : BitVec 32 := 4#32
  let v651 : BitVec 32 := Scalar.xori v2 c4_i32_454
  let c1_i32_458 : BitVec 32 := 1#32
  let v652 : BitVec 32 := Scalar.muli v651 c1_i32_458
  let v653 : BitVec 32 := Scalar.addi c0_i32_459 v652
  v653.toNat
def k0_off59 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_58 : BitVec 32 := 352#32
  let v74 : BitVec 32 := Scalar.muli v62 c352_i32_58
  let v75 : BitVec 32 := Scalar.addi v70 v74
  let c1_i32_62 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v81 : BitVec 32 := Scalar.subi c1_i32_62 v68
  let c176_i32_63 : BitVec 32 := 176#32
  let v82 : BitVec 32 := Scalar.muli v81 c176_i32_63
  let v83 : BitVec 32 := Scalar.addi v75 v82
  let v666 : Index := Scalar.indexCast v83
  let c0_470 : Index := 0#32
  ![v666.toNat, 0]
def k0_off60 (d0 : Dev nD) : Fin 2 → Nat :=
  let c1232_i32_67 : BitVec 32 := 1232#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_66 : BitVec 32 := 352#32
  let v87 : BitVec 32 := Scalar.muli v62 c352_i32_66
  let v88 : BitVec 32 := Scalar.addi c1232_i32_67 v87
  let c1_i32_68 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v89 : BitVec 32 := Scalar.subi c1_i32_68 v68
  let c176_i32_69 : BitVec 32 := 176#32
  let v90 : BitVec 32 := Scalar.muli v89 c176_i32_69
  let v91 : BitVec 32 := Scalar.addi v88 v90
  let v669 : Index := Scalar.indexCast v91
  let c0_471 : Index := 0#32
  ![v669.toNat, 0]
def k0_off61 (d0 : Dev nD) : Fin 2 → Nat :=
  let c1936_i32 : BitVec 32 := 1936#32
  let c1_i32_73 : BitVec 32 := 1#32
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v96 : BitVec 32 := Scalar.subi c1_i32_73 v68
  let c176_i32_74 : BitVec 32 := 176#32
  let v97 : BitVec 32 := Scalar.muli v96 c176_i32_74
  let v98 : BitVec 32 := Scalar.addi c1936_i32 v97
  let v684 : Index := Scalar.indexCast v98
  let c0_482 : Index := 0#32
  ![v684.toNat, 0]
def k0_off62 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_58 : BitVec 32 := 352#32
  let v74 : BitVec 32 := Scalar.muli v62 c352_i32_58
  let v75 : BitVec 32 := Scalar.addi v70 v74
  let c1_i32_62 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v81 : BitVec 32 := Scalar.subi c1_i32_62 v68
  let c176_i32_63 : BitVec 32 := 176#32
  let v82 : BitVec 32 := Scalar.muli v81 c176_i32_63
  let v83 : BitVec 32 := Scalar.addi v75 v82
  let c0_i32_494 : BitVec 32 := 0#32
  ![v83.toNat, 0]
def k0_dev23 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v698 : BitVec 32 := Scalar.xori v2 c1_i32_486
  let c1_i32_491 : BitVec 32 := 1#32
  let v699 : BitVec 32 := Scalar.muli v698 c1_i32_491
  let v700 : BitVec 32 := Scalar.addi c0_i32_492 v699
  v700.toNat
def k0_off63 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32 : BitVec 32 := 320#32
  let v118 : BitVec 32 := Scalar.muli v109 c320_i32
  let v119 : BitVec 32 := Scalar.addi v114 v118
  let c1_i32_93 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v125 : BitVec 32 := Scalar.subi c1_i32_93 v112
  let c160_i32_94 : BitVec 32 := 160#32
  let v126 : BitVec 32 := Scalar.muli v125 c160_i32_94
  let v127 : BitVec 32 := Scalar.addi v119 v126
  let v713 : Index := Scalar.indexCast v127
  let c0_503 : Index := 0#32
  ![v713.toNat, 0]
def k0_off64 (d0 : Dev nD) : Fin 2 → Nat :=
  let c2464_i32_98 : BitVec 32 := 2464#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_97 : BitVec 32 := 320#32
  let v131 : BitVec 32 := Scalar.muli v109 c320_i32_97
  let v132 : BitVec 32 := Scalar.addi c2464_i32_98 v131
  let c1_i32_99 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v133 : BitVec 32 := Scalar.subi c1_i32_99 v112
  let c160_i32_100 : BitVec 32 := 160#32
  let v134 : BitVec 32 := Scalar.muli v133 c160_i32_100
  let v135 : BitVec 32 := Scalar.addi v132 v134
  let v716 : Index := Scalar.indexCast v135
  let c0_504 : Index := 0#32
  ![v716.toNat, 0]
def k0_off65 (d0 : Dev nD) : Fin 2 → Nat :=
  let c3104_i32 : BitVec 32 := 3104#32
  let c1_i32_104 : BitVec 32 := 1#32
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v140 : BitVec 32 := Scalar.subi c1_i32_104 v112
  let c160_i32_105 : BitVec 32 := 160#32
  let v141 : BitVec 32 := Scalar.muli v140 c160_i32_105
  let v142 : BitVec 32 := Scalar.addi c3104_i32 v141
  let v731 : Index := Scalar.indexCast v142
  let c0_515 : Index := 0#32
  ![v731.toNat, 0]
def k0_off66 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32 : BitVec 32 := 320#32
  let v118 : BitVec 32 := Scalar.muli v109 c320_i32
  let v119 : BitVec 32 := Scalar.addi v114 v118
  let c1_i32_93 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v125 : BitVec 32 := Scalar.subi c1_i32_93 v112
  let c160_i32_94 : BitVec 32 := 160#32
  let v126 : BitVec 32 := Scalar.muli v125 c160_i32_94
  let v127 : BitVec 32 := Scalar.addi v119 v126
  let c0_i32_527 : BitVec 32 := 0#32
  ![v127.toNat, 0]
def k0_dev24 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_519 : BitVec 32 := 3#32
  let v745 : BitVec 32 := Scalar.xori v2 c3_i32_519
  let c1_i32_524 : BitVec 32 := 1#32
  let v746 : BitVec 32 := Scalar.muli v745 c1_i32_524
  let v747 : BitVec 32 := Scalar.addi c0_i32_525 v746
  v747.toNat
def k0_off67 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32 : BitVec 32 := 352#32
  let v30 : BitVec 32 := Scalar.muli v21 c352_i32
  let v31 : BitVec 32 := Scalar.addi v26 v30
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32 : BitVec 32 := 176#32
  let v35 : BitVec 32 := Scalar.muli v24 c176_i32
  let v36 : BitVec 32 := Scalar.addi v31 v35
  let v760 : Index := Scalar.indexCast v36
  let c0_536 : Index := 0#32
  ![v760.toNat, 0]
def k0_off68 (d0 : Dev nD) : Fin 2 → Nat :=
  let c0_i32_36 : BitVec 32 := 0#32
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_35 : BitVec 32 := 352#32
  let v48 : BitVec 32 := Scalar.muli v21 c352_i32_35
  let v49 : BitVec 32 := Scalar.addi c0_i32_36 v48
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_37 : BitVec 32 := 176#32
  let v50 : BitVec 32 := Scalar.muli v24 c176_i32_37
  let v51 : BitVec 32 := Scalar.addi v49 v50
  let v763 : Index := Scalar.indexCast v51
  let c0_537 : Index := 0#32
  ![v763.toNat, 0]
def k0_off69 (d0 : Dev nD) : Fin 2 → Nat :=
  let c704_i32_42 : BitVec 32 := 704#32
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_41 : BitVec 32 := 176#32
  let v55 : BitVec 32 := Scalar.muli v24 c176_i32_41
  let v56 : BitVec 32 := Scalar.addi c704_i32_42 v55
  let v778 : Index := Scalar.indexCast v56
  let c0_548 : Index := 0#32
  ![v778.toNat, 0]
def k0_off70 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_58 : BitVec 32 := 352#32
  let v74 : BitVec 32 := Scalar.muli v62 c352_i32_58
  let v75 : BitVec 32 := Scalar.addi v70 v74
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_61 : BitVec 32 := 176#32
  let v79 : BitVec 32 := Scalar.muli v68 c176_i32_61
  let v80 : BitVec 32 := Scalar.addi v75 v79
  let v790 : Index := Scalar.indexCast v80
  let c0_558 : Index := 0#32
  ![v790.toNat, 0]
def k0_off71 (d0 : Dev nD) : Fin 2 → Nat :=
  let c1232_i32_71 : BitVec 32 := 1232#32
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_70 : BitVec 32 := 352#32
  let v92 : BitVec 32 := Scalar.muli v62 c352_i32_70
  let v93 : BitVec 32 := Scalar.addi c1232_i32_71 v92
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_72 : BitVec 32 := 176#32
  let v94 : BitVec 32 := Scalar.muli v68 c176_i32_72
  let v95 : BitVec 32 := Scalar.addi v93 v94
  let v793 : Index := Scalar.indexCast v95
  let c0_559 : Index := 0#32
  ![v793.toNat, 0]
def k0_off72 (d0 : Dev nD) : Fin 2 → Nat :=
  let c1936_i32_76 : BitVec 32 := 1936#32
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_75 : BitVec 32 := 176#32
  let v99 : BitVec 32 := Scalar.muli v68 c176_i32_75
  let v100 : BitVec 32 := Scalar.addi c1936_i32_76 v99
  let v808 : Index := Scalar.indexCast v100
  let c0_570 : Index := 0#32
  ![v808.toNat, 0]
def k0_off73 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32 : BitVec 32 := 320#32
  let v118 : BitVec 32 := Scalar.muli v109 c320_i32
  let v119 : BitVec 32 := Scalar.addi v114 v118
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32 : BitVec 32 := 160#32
  let v123 : BitVec 32 := Scalar.muli v112 c160_i32
  let v124 : BitVec 32 := Scalar.addi v119 v123
  let v820 : Index := Scalar.indexCast v124
  let c0_580 : Index := 0#32
  ![v820.toNat, 0]
def k0_off74 (d0 : Dev nD) : Fin 2 → Nat :=
  let c2464_i32_102 : BitVec 32 := 2464#32
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_101 : BitVec 32 := 320#32
  let v136 : BitVec 32 := Scalar.muli v109 c320_i32_101
  let v137 : BitVec 32 := Scalar.addi c2464_i32_102 v136
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_103 : BitVec 32 := 160#32
  let v138 : BitVec 32 := Scalar.muli v112 c160_i32_103
  let v139 : BitVec 32 := Scalar.addi v137 v138
  let v823 : Index := Scalar.indexCast v139
  let c0_581 : Index := 0#32
  ![v823.toNat, 0]
def k0_off75 (d0 : Dev nD) : Fin 2 → Nat :=
  let c3104_i32_107 : BitVec 32 := 3104#32
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_106 : BitVec 32 := 160#32
  let v143 : BitVec 32 := Scalar.muli v112 c160_i32_106
  let v144 : BitVec 32 := Scalar.addi c3104_i32_107 v143
  let v838 : Index := Scalar.indexCast v144
  let c0_592 : Index := 0#32
  ![v838.toNat, 0]
def k0_off76 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32 : BitVec 32 := 352#32
  let v30 : BitVec 32 := Scalar.muli v21 c352_i32
  let v31 : BitVec 32 := Scalar.addi v26 v30
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32 : BitVec 32 := 176#32
  let v35 : BitVec 32 := Scalar.muli v24 c176_i32
  let v36 : BitVec 32 := Scalar.addi v31 v35
  let c0_i32_614 : BitVec 32 := 0#32
  ![v36.toNat, 0]
def k0_dev25 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_608 : BitVec 32 := 4#32
  let v866 : BitVec 32 := Scalar.xori v2 c4_i32_608
  let c1_i32_612 : BitVec 32 := 1#32
  let v867 : BitVec 32 := Scalar.muli v866 c1_i32_612
  let v868 : BitVec 32 := Scalar.addi c0_i32_613 v867
  v868.toNat
def k0_dev26 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_616 : BitVec 32 := 3#32
  let v875 : BitVec 32 := Scalar.xori v2 c3_i32_616
  let c1_i32_621 : BitVec 32 := 1#32
  let v876 : BitVec 32 := Scalar.muli v875 c1_i32_621
  let v877 : BitVec 32 := Scalar.addi c0_i32_622 v876
  v877.toNat
def k0_dev27 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_625 : BitVec 32 := 1#32
  let v884 : BitVec 32 := Scalar.xori v2 c1_i32_625
  let c1_i32_629 : BitVec 32 := 1#32
  let v885 : BitVec 32 := Scalar.muli v884 c1_i32_629
  let v886 : BitVec 32 := Scalar.addi c0_i32_630 v885
  v886.toNat
def k0_off77 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_58 : BitVec 32 := 352#32
  let v74 : BitVec 32 := Scalar.muli v62 c352_i32_58
  let v75 : BitVec 32 := Scalar.addi v70 v74
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_61 : BitVec 32 := 176#32
  let v79 : BitVec 32 := Scalar.muli v68 c176_i32_61
  let v80 : BitVec 32 := Scalar.addi v75 v79
  let c0_i32_656 : BitVec 32 := 0#32
  ![v80.toNat, 0]
def k0_dev28 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_649 : BitVec 32 := 1#32
  let v920 : BitVec 32 := Scalar.xori v2 c1_i32_649
  let c1_i32_654 : BitVec 32 := 1#32
  let v921 : BitVec 32 := Scalar.muli v920 c1_i32_654
  let v922 : BitVec 32 := Scalar.addi c0_i32_655 v921
  v922.toNat
def k0_dev29 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_658 : BitVec 32 := 4#32
  let v929 : BitVec 32 := Scalar.xori v2 c4_i32_658
  let c1_i32_663 : BitVec 32 := 1#32
  let v930 : BitVec 32 := Scalar.muli v929 c1_i32_663
  let v931 : BitVec 32 := Scalar.addi c0_i32_664 v930
  v931.toNat
def k0_dev30 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_667 : BitVec 32 := 3#32
  let v938 : BitVec 32 := Scalar.xori v2 c3_i32_667
  let c1_i32_672 : BitVec 32 := 1#32
  let v939 : BitVec 32 := Scalar.muli v938 c1_i32_672
  let v940 : BitVec 32 := Scalar.addi c0_i32_673 v939
  v940.toNat
def k0_off78 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32 : BitVec 32 := 320#32
  let v118 : BitVec 32 := Scalar.muli v109 c320_i32
  let v119 : BitVec 32 := Scalar.addi v114 v118
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32 : BitVec 32 := 160#32
  let v123 : BitVec 32 := Scalar.muli v112 c160_i32
  let v124 : BitVec 32 := Scalar.addi v119 v123
  let c0_i32_699 : BitVec 32 := 0#32
  ![v124.toNat, 0]
def k0_dev31 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_692 : BitVec 32 := 3#32
  let v974 : BitVec 32 := Scalar.xori v2 c3_i32_692
  let c1_i32_697 : BitVec 32 := 1#32
  let v975 : BitVec 32 := Scalar.muli v974 c1_i32_697
  let v976 : BitVec 32 := Scalar.addi c0_i32_698 v975
  v976.toNat
def k0_dev32 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_701 : BitVec 32 := 1#32
  let v983 : BitVec 32 := Scalar.xori v2 c1_i32_701
  let c1_i32_706 : BitVec 32 := 1#32
  let v984 : BitVec 32 := Scalar.muli v983 c1_i32_706
  let v985 : BitVec 32 := Scalar.addi c0_i32_707 v984
  v985.toNat
def k0_dev33 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_710 : BitVec 32 := 4#32
  let v992 : BitVec 32 := Scalar.xori v2 c4_i32_710
  let c1_i32_715 : BitVec 32 := 1#32
  let v993 : BitVec 32 := Scalar.muli v992 c1_i32_715
  let v994 : BitVec 32 := Scalar.addi c0_i32_716 v993
  v994.toNat
def k0_dev34 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_729 : BitVec 32 := 3#32
  let v1012 : BitVec 32 := Scalar.xori v2 c3_i32_729
  let c1_i32_733 : BitVec 32 := 1#32
  let v1013 : BitVec 32 := Scalar.muli v1012 c1_i32_733
  let v1014 : BitVec 32 := Scalar.addi c0_i32_734 v1013
  v1014.toNat
def k0_dev35 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_737 : BitVec 32 := 1#32
  let v1021 : BitVec 32 := Scalar.xori v2 c1_i32_737
  let c1_i32_741 : BitVec 32 := 1#32
  let v1022 : BitVec 32 := Scalar.muli v1021 c1_i32_741
  let v1023 : BitVec 32 := Scalar.addi c0_i32_742 v1022
  v1023.toNat
def k0_dev36 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_755 : BitVec 32 := 4#32
  let v1041 : BitVec 32 := Scalar.xori v2 c4_i32_755
  let c1_i32_760 : BitVec 32 := 1#32
  let v1042 : BitVec 32 := Scalar.muli v1041 c1_i32_760
  let v1043 : BitVec 32 := Scalar.addi c0_i32_761 v1042
  v1043.toNat
def k0_dev37 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_764 : BitVec 32 := 3#32
  let v1050 : BitVec 32 := Scalar.xori v2 c3_i32_764
  let c1_i32_769 : BitVec 32 := 1#32
  let v1051 : BitVec 32 := Scalar.muli v1050 c1_i32_769
  let v1052 : BitVec 32 := Scalar.addi c0_i32_770 v1051
  v1052.toNat
def k0_dev38 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_783 : BitVec 32 := 1#32
  let v1070 : BitVec 32 := Scalar.xori v2 c1_i32_783
  let c1_i32_788 : BitVec 32 := 1#32
  let v1071 : BitVec 32 := Scalar.muli v1070 c1_i32_788
  let v1072 : BitVec 32 := Scalar.addi c0_i32_789 v1071
  v1072.toNat
def k0_dev39 (d0 : Dev nD) : Nat :=
  let c0_i32_798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_792 : BitVec 32 := 4#32
  let v1079 : BitVec 32 := Scalar.xori v2 c4_i32_792
  let c1_i32_797 : BitVec 32 := 1#32
  let v1080 : BitVec 32 := Scalar.muli v1079 c1_i32_797
  let v1081 : BitVec 32 := Scalar.addi c0_i32_798 v1080
  v1081.toNat
def k0_dev40 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_813 : BitVec 32 := 1#32
  let v1103 : BitVec 32 := Scalar.xori v2 c1_i32_813
  let c1_i32_817 : BitVec 32 := 1#32
  let v1104 : BitVec 32 := Scalar.muli v1103 c1_i32_817
  let v1105 : BitVec 32 := Scalar.addi c0_i32_818 v1104
  v1105.toNat
def k0_dev41 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_833 : BitVec 32 := 1#32
  let v1124 : BitVec 32 := Scalar.xori v2 c1_i32_833
  let c1_i32_837 : BitVec 32 := 1#32
  let v1125 : BitVec 32 := Scalar.muli v1124 c1_i32_837
  let v1126 : BitVec 32 := Scalar.addi c0_i32_838 v1125
  v1126.toNat
def k0_off79 (d0 : Dev nD) : Fin 2 → Nat :=
  let c0_i32_20 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let c704_i32 : BitVec 32 := 704#32
  let v25 : BitVec 32 := Scalar.muli v18 c704_i32
  let v26 : BitVec 32 := Scalar.addi c0_i32_20 v25
  let c1_i32_24 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v32 : BitVec 32 := Scalar.subi c1_i32_24 v21
  let c352_i32_25 : BitVec 32 := 352#32
  let v33 : BitVec 32 := Scalar.muli v32 c352_i32_25
  let v34 : BitVec 32 := Scalar.addi v26 v33
  let v1133 : Index := Scalar.indexCast v34
  let c0_841 : Index := 0#32
  ![v1133.toNat, 0]
def k0_dev42 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_853 : BitVec 32 := 3#32
  let v1148 : BitVec 32 := Scalar.xori v2 c3_i32_853
  let c1_i32_858 : BitVec 32 := 1#32
  let v1149 : BitVec 32 := Scalar.muli v1148 c1_i32_858
  let v1150 : BitVec 32 := Scalar.addi c0_i32_859 v1149
  v1150.toNat
def k0_dev43 (d0 : Dev nD) : Nat :=
  let c0_i32_880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_874 : BitVec 32 := 3#32
  let v1169 : BitVec 32 := Scalar.xori v2 c3_i32_874
  let c1_i32_879 : BitVec 32 := 1#32
  let v1170 : BitVec 32 := Scalar.muli v1169 c1_i32_879
  let v1171 : BitVec 32 := Scalar.addi c0_i32_880 v1170
  v1171.toNat
def k0_off80 (d0 : Dev nD) : Fin 2 → Nat :=
  let c1408_i32 : BitVec 32 := 1408#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let c704_i32_54 : BitVec 32 := 704#32
  let v69 : BitVec 32 := Scalar.muli v59 c704_i32_54
  let v70 : BitVec 32 := Scalar.addi c1408_i32 v69
  let c1_i32_59 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v76 : BitVec 32 := Scalar.subi c1_i32_59 v62
  let c352_i32_60 : BitVec 32 := 352#32
  let v77 : BitVec 32 := Scalar.muli v76 c352_i32_60
  let v78 : BitVec 32 := Scalar.addi v70 v77
  let v1178 : Index := Scalar.indexCast v78
  let c0_883 : Index := 0#32
  ![v1178.toNat, 0]
def k0_dev44 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_895 : BitVec 32 := 4#32
  let v1193 : BitVec 32 := Scalar.xori v2 c4_i32_895
  let c1_i32_900 : BitVec 32 := 1#32
  let v1194 : BitVec 32 := Scalar.muli v1193 c1_i32_900
  let v1195 : BitVec 32 := Scalar.addi c0_i32_901 v1194
  v1195.toNat
def k0_dev45 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_916 : BitVec 32 := 4#32
  let v1214 : BitVec 32 := Scalar.xori v2 c4_i32_916
  let c1_i32_921 : BitVec 32 := 1#32
  let v1215 : BitVec 32 := Scalar.muli v1214 c1_i32_921
  let v1216 : BitVec 32 := Scalar.addi c0_i32_922 v1215
  v1216.toNat
def k0_off81 (d0 : Dev nD) : Fin 2 → Nat :=
  let c2816_i32 : BitVec 32 := 2816#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let c640_i32 : BitVec 32 := 640#32
  let v113 : BitVec 32 := Scalar.muli v103 c640_i32
  let v114 : BitVec 32 := Scalar.addi c2816_i32 v113
  let c1_i32_91 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v120 : BitVec 32 := Scalar.subi c1_i32_91 v109
  let c320_i32_92 : BitVec 32 := 320#32
  let v121 : BitVec 32 := Scalar.muli v120 c320_i32_92
  let v122 : BitVec 32 := Scalar.addi v114 v121
  let v1223 : Index := Scalar.indexCast v122
  let c0_925 : Index := 0#32
  ![v1223.toNat, 0]
def k0_off82 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_935 : BitVec 32 := 352#32
  let v1234 : BitVec 32 := Scalar.muli v21 c352_i32_935
  let v1235 : BitVec 32 := Scalar.addi v29 v1234
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_936 : BitVec 32 := 176#32
  let v1236 : BitVec 32 := Scalar.muli v24 c176_i32_936
  let v1237 : BitVec 32 := Scalar.addi v1235 v1236
  let v1238 : Index := Scalar.indexCast v1237
  let c0_937 : Index := 0#32
  ![v1238.toNat, 0]
def k0_off83 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let c352_i32_947 : BitVec 32 := 352#32
  let v1249 : BitVec 32 := Scalar.muli v21 c352_i32_947
  let v1250 : BitVec 32 := Scalar.addi v29 v1249
  let c1_i32_948 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v1251 : BitVec 32 := Scalar.subi c1_i32_948 v24
  let c176_i32_949 : BitVec 32 := 176#32
  let v1252 : BitVec 32 := Scalar.muli v1251 c176_i32_949
  let v1253 : BitVec 32 := Scalar.addi v1250 v1252
  let v1254 : Index := Scalar.indexCast v1253
  let c0_950 : Index := 0#32
  ![v1254.toNat, 0]
def k0_off84 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_960 : BitVec 32 := 352#32
  let v1265 : BitVec 32 := Scalar.muli v62 c352_i32_960
  let v1266 : BitVec 32 := Scalar.addi v73 v1265
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_961 : BitVec 32 := 176#32
  let v1267 : BitVec 32 := Scalar.muli v68 c176_i32_961
  let v1268 : BitVec 32 := Scalar.addi v1266 v1267
  let v1269 : Index := Scalar.indexCast v1268
  let c0_962 : Index := 0#32
  ![v1269.toNat, 0]
def k0_off85 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let c352_i32_972 : BitVec 32 := 352#32
  let v1280 : BitVec 32 := Scalar.muli v62 c352_i32_972
  let v1281 : BitVec 32 := Scalar.addi v73 v1280
  let c1_i32_973 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v1282 : BitVec 32 := Scalar.subi c1_i32_973 v68
  let c176_i32_974 : BitVec 32 := 176#32
  let v1283 : BitVec 32 := Scalar.muli v1282 c176_i32_974
  let v1284 : BitVec 32 := Scalar.addi v1281 v1283
  let v1285 : Index := Scalar.indexCast v1284
  let c0_975 : Index := 0#32
  ![v1285.toNat, 0]
def k0_off86 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_985 : BitVec 32 := 320#32
  let v1296 : BitVec 32 := Scalar.muli v109 c320_i32_985
  let v1297 : BitVec 32 := Scalar.addi v117 v1296
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_986 : BitVec 32 := 160#32
  let v1298 : BitVec 32 := Scalar.muli v112 c160_i32_986
  let v1299 : BitVec 32 := Scalar.addi v1297 v1298
  let v1300 : Index := Scalar.indexCast v1299
  let c0_987 : Index := 0#32
  ![v1300.toNat, 0]
def k0_off87 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let c320_i32_997 : BitVec 32 := 320#32
  let v1311 : BitVec 32 := Scalar.muli v109 c320_i32_997
  let v1312 : BitVec 32 := Scalar.addi v117 v1311
  let c1_i32_998 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v1313 : BitVec 32 := Scalar.subi c1_i32_998 v112
  let c160_i32_999 : BitVec 32 := 160#32
  let v1314 : BitVec 32 := Scalar.muli v1313 c160_i32_999
  let v1315 : BitVec 32 := Scalar.addi v1312 v1314
  let v1316 : Index := Scalar.indexCast v1315
  let c0_1000 : Index := 0#32
  ![v1316.toNat, 0]
def k0_off88 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c1_i32_1010 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v1327 : BitVec 32 := Scalar.subi c1_i32_1010 v21
  let c352_i32_1011 : BitVec 32 := 352#32
  let v1328 : BitVec 32 := Scalar.muli v1327 c352_i32_1011
  let v1329 : BitVec 32 := Scalar.addi v29 v1328
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let c176_i32_1012 : BitVec 32 := 176#32
  let v1330 : BitVec 32 := Scalar.muli v24 c176_i32_1012
  let v1331 : BitVec 32 := Scalar.addi v1329 v1330
  let v1332 : Index := Scalar.indexCast v1331
  let c0_1013 : Index := 0#32
  ![v1332.toNat, 0]
def k0_off89 (d0 : Dev nD) : Fin 2 → Nat :=
  let c0_i32_23 : BitVec 32 := 0#32
  let c1_i32_21 : BitVec 32 := 1#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v13 : BitVec 32 := Scalar.shrsi v2 c0_i32_10
  let c1_i32_11 : BitVec 32 := 1#32
  let v14 : BitVec 32 := Scalar.andi v13 c1_i32_11
  let v15 : BitVec 32 := Scalar.xori c0_i32_12 v14
  let c1_i32_13 : BitVec 32 := 1#32
  let v16 : BitVec 32 := Scalar.shrsi v2 c1_i32_13
  let c1_i32_14 : BitVec 32 := 1#32
  let v17 : BitVec 32 := Scalar.andi v16 c1_i32_14
  let v18 : BitVec 32 := Scalar.xori v15 v17
  let v27 : BitVec 32 := Scalar.subi c1_i32_21 v18
  let c704_i32_22 : BitVec 32 := 704#32
  let v28 : BitVec 32 := Scalar.muli v27 c704_i32_22
  let v29 : BitVec 32 := Scalar.addi c0_i32_23 v28
  let c1_i32_1023 : BitVec 32 := 1#32
  let c0_i32_17 : BitVec 32 := 0#32
  let c1_i32_15 : BitVec 32 := 1#32
  let v19 : BitVec 32 := Scalar.shrsi v2 c1_i32_15
  let c1_i32_16 : BitVec 32 := 1#32
  let v20 : BitVec 32 := Scalar.andi v19 c1_i32_16
  let v21 : BitVec 32 := Scalar.xori c0_i32_17 v20
  let v1343 : BitVec 32 := Scalar.subi c1_i32_1023 v21
  let c352_i32_1024 : BitVec 32 := 352#32
  let v1344 : BitVec 32 := Scalar.muli v1343 c352_i32_1024
  let v1345 : BitVec 32 := Scalar.addi v29 v1344
  let c1_i32_1025 : BitVec 32 := 1#32
  let c0_i32_19 : BitVec 32 := 0#32
  let c2_i32 : BitVec 32 := 2#32
  let v22 : BitVec 32 := Scalar.shrsi v2 c2_i32
  let c1_i32_18 : BitVec 32 := 1#32
  let v23 : BitVec 32 := Scalar.andi v22 c1_i32_18
  let v24 : BitVec 32 := Scalar.xori c0_i32_19 v23
  let v1346 : BitVec 32 := Scalar.subi c1_i32_1025 v24
  let c176_i32_1026 : BitVec 32 := 176#32
  let v1347 : BitVec 32 := Scalar.muli v1346 c176_i32_1026
  let v1348 : BitVec 32 := Scalar.addi v1345 v1347
  let v1349 : Index := Scalar.indexCast v1348
  let c0_1027 : Index := 0#32
  ![v1349.toNat, 0]
def k0_off90 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c1_i32_1037 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v1360 : BitVec 32 := Scalar.subi c1_i32_1037 v62
  let c352_i32_1038 : BitVec 32 := 352#32
  let v1361 : BitVec 32 := Scalar.muli v1360 c352_i32_1038
  let v1362 : BitVec 32 := Scalar.addi v73 v1361
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let c176_i32_1039 : BitVec 32 := 176#32
  let v1363 : BitVec 32 := Scalar.muli v68 c176_i32_1039
  let v1364 : BitVec 32 := Scalar.addi v1362 v1363
  let v1365 : Index := Scalar.indexCast v1364
  let c0_1040 : Index := 0#32
  ![v1365.toNat, 0]
def k0_off91 (d0 : Dev nD) : Fin 2 → Nat :=
  let c1408_i32_57 : BitVec 32 := 1408#32
  let c1_i32_55 : BitVec 32 := 1#32
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v57 : BitVec 32 := Scalar.shrsi v2 c1_i32_43
  let c1_i32_44 : BitVec 32 := 1#32
  let v58 : BitVec 32 := Scalar.andi v57 c1_i32_44
  let v59 : BitVec 32 := Scalar.xori c0_i32_45 v58
  let v71 : BitVec 32 := Scalar.subi c1_i32_55 v59
  let c704_i32_56 : BitVec 32 := 704#32
  let v72 : BitVec 32 := Scalar.muli v71 c704_i32_56
  let v73 : BitVec 32 := Scalar.addi c1408_i32_57 v72
  let c1_i32_1050 : BitVec 32 := 1#32
  let c0_i32_48 : BitVec 32 := 0#32
  let c2_i32_46 : BitVec 32 := 2#32
  let v60 : BitVec 32 := Scalar.shrsi v2 c2_i32_46
  let c1_i32_47 : BitVec 32 := 1#32
  let v61 : BitVec 32 := Scalar.andi v60 c1_i32_47
  let v62 : BitVec 32 := Scalar.xori c0_i32_48 v61
  let v1376 : BitVec 32 := Scalar.subi c1_i32_1050 v62
  let c352_i32_1051 : BitVec 32 := 352#32
  let v1377 : BitVec 32 := Scalar.muli v1376 c352_i32_1051
  let v1378 : BitVec 32 := Scalar.addi v73 v1377
  let c1_i32_1052 : BitVec 32 := 1#32
  let c0_i32_51 : BitVec 32 := 0#32
  let c0_i32_49 : BitVec 32 := 0#32
  let v63 : BitVec 32 := Scalar.shrsi v2 c0_i32_49
  let c1_i32_50 : BitVec 32 := 1#32
  let v64 : BitVec 32 := Scalar.andi v63 c1_i32_50
  let v65 : BitVec 32 := Scalar.xori c0_i32_51 v64
  let c1_i32_52 : BitVec 32 := 1#32
  let v66 : BitVec 32 := Scalar.shrsi v2 c1_i32_52
  let c1_i32_53 : BitVec 32 := 1#32
  let v67 : BitVec 32 := Scalar.andi v66 c1_i32_53
  let v68 : BitVec 32 := Scalar.xori v65 v67
  let v1379 : BitVec 32 := Scalar.subi c1_i32_1052 v68
  let c176_i32_1053 : BitVec 32 := 176#32
  let v1380 : BitVec 32 := Scalar.muli v1379 c176_i32_1053
  let v1381 : BitVec 32 := Scalar.addi v1378 v1380
  let v1382 : Index := Scalar.indexCast v1381
  let c0_1054 : Index := 0#32
  ![v1382.toNat, 0]
def k0_off92 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c1_i32_1064 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v1393 : BitVec 32 := Scalar.subi c1_i32_1064 v109
  let c320_i32_1065 : BitVec 32 := 320#32
  let v1394 : BitVec 32 := Scalar.muli v1393 c320_i32_1065
  let v1395 : BitVec 32 := Scalar.addi v117 v1394
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let c160_i32_1066 : BitVec 32 := 160#32
  let v1396 : BitVec 32 := Scalar.muli v112 c160_i32_1066
  let v1397 : BitVec 32 := Scalar.addi v1395 v1396
  let v1398 : Index := Scalar.indexCast v1397
  let c0_1067 : Index := 0#32
  ![v1398.toNat, 0]
def k0_off93 (d0 : Dev nD) : Fin 2 → Nat :=
  let c2816_i32_90 : BitVec 32 := 2816#32
  let c1_i32_88 : BitVec 32 := 1#32
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v101 : BitVec 32 := Scalar.shrsi v2 c2_i32_77
  let c1_i32_78 : BitVec 32 := 1#32
  let v102 : BitVec 32 := Scalar.andi v101 c1_i32_78
  let v103 : BitVec 32 := Scalar.xori c0_i32_79 v102
  let v115 : BitVec 32 := Scalar.subi c1_i32_88 v103
  let c640_i32_89 : BitVec 32 := 640#32
  let v116 : BitVec 32 := Scalar.muli v115 c640_i32_89
  let v117 : BitVec 32 := Scalar.addi c2816_i32_90 v116
  let c1_i32_1077 : BitVec 32 := 1#32
  let c0_i32_82 : BitVec 32 := 0#32
  let c0_i32_80 : BitVec 32 := 0#32
  let v104 : BitVec 32 := Scalar.shrsi v2 c0_i32_80
  let c1_i32_81 : BitVec 32 := 1#32
  let v105 : BitVec 32 := Scalar.andi v104 c1_i32_81
  let v106 : BitVec 32 := Scalar.xori c0_i32_82 v105
  let c1_i32_83 : BitVec 32 := 1#32
  let v107 : BitVec 32 := Scalar.shrsi v2 c1_i32_83
  let c1_i32_84 : BitVec 32 := 1#32
  let v108 : BitVec 32 := Scalar.andi v107 c1_i32_84
  let v109 : BitVec 32 := Scalar.xori v106 v108
  let v1409 : BitVec 32 := Scalar.subi c1_i32_1077 v109
  let c320_i32_1078 : BitVec 32 := 320#32
  let v1410 : BitVec 32 := Scalar.muli v1409 c320_i32_1078
  let v1411 : BitVec 32 := Scalar.addi v117 v1410
  let c1_i32_1079 : BitVec 32 := 1#32
  let c0_i32_87 : BitVec 32 := 0#32
  let c1_i32_85 : BitVec 32 := 1#32
  let v110 : BitVec 32 := Scalar.shrsi v2 c1_i32_85
  let c1_i32_86 : BitVec 32 := 1#32
  let v111 : BitVec 32 := Scalar.andi v110 c1_i32_86
  let v112 : BitVec 32 := Scalar.xori c0_i32_87 v111
  let v1412 : BitVec 32 := Scalar.subi c1_i32_1079 v112
  let c160_i32_1080 : BitVec 32 := 160#32
  let v1413 : BitVec 32 := Scalar.muli v1412 c160_i32_1080
  let v1414 : BitVec 32 := Scalar.addi v1411 v1413
  let v1415 : Index := Scalar.indexCast v1414
  let c0_1081 : Index := 0#32
  ![v1415.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S352x1024 : 0 < S352x1024.numel
  shapeCasts_S352x1024_S352x1024 : S352x1024.ShapeCasts S352x1024
  bitsLt_bf16_f32 : FTy.bits .bf16 < FTy.bits .f32
  inb_S3x14_S1x1_0_0 : ∀ a, (![0, 0] : Fin 2 → Nat) a + S1x1.size a ≤ S3x14.size a
  squeezes_S1x1_S_ : S1x1.Squeezes S_
  inb_S3x14_S1x1_0_1 : ∀ a, (![0, 1] : Fin 2 → Nat) a + S1x1.size a ≤ S3x14.size a
  inb_S3x14_S1x1_1_0 : ∀ a, (![1, 0] : Fin 2 → Nat) a + S1x1.size a ≤ S3x14.size a
  inb_S3x14_S1x1_1_1 : ∀ a, (![1, 1] : Fin 2 → Nat) a + S1x1.size a ≤ S3x14.size a
  h_S320x1024 : 0 < S320x1024.numel
  shapeCasts_S320x1024_S320x1024 : S320x1024.ShapeCasts S320x1024
  inb_S3x14_S1x1_2_0 : ∀ a, (![2, 0] : Fin 2 → Nat) a + S1x1.size a ≤ S3x14.size a
  inb_S3x14_S1x1_2_1 : ∀ a, (![2, 1] : Fin 2 → Nat) a + S1x1.size a ≤ S3x14.size a
  inb_S3x14_S1x1_0_2 : ∀ a, (![0, 2] : Fin 2 → Nat) a + S1x1.size a ≤ S3x14.size a
  inb_S3x14_S1x1_0_3 : ∀ a, (![0, 3] : Fin 2 → Nat) a + S1x1.size a ≤ S3x14.size a
  inb_S3x14_S1x1_1_2 : ∀ a, (![1, 2] : Fin 2 → Nat) a + S1x1.size a ≤ S3x14.size a
  inb_S3x14_S1x1_1_3 : ∀ a, (![1, 3] : Fin 2 → Nat) a + S1x1.size a ≤ S3x14.size a
  inb_S3x14_S1x1_2_2 : ∀ a, (![2, 2] : Fin 2 → Nat) a + S1x1.size a ≤ S3x14.size a
  inb_S3x14_S1x1_2_3 : ∀ a, (![2, 3] : Fin 2 → Nat) a + S1x1.size a ≤ S3x14.size a
  h_S176x1024 : 0 < S176x1024.numel
  shapeCasts_S176x1024_S176x1024 : S176x1024.ShapeCasts S176x1024
  inb_S3x14_S1x1_0_4 : ∀ a, (![0, 4] : Fin 2 → Nat) a + S1x1.size a ≤ S3x14.size a
  inb_S3x14_S1x1_1_4 : ∀ a, (![1, 4] : Fin 2 → Nat) a + S1x1.size a ≤ S3x14.size a
  h_S160x1024 : 0 < S160x1024.numel
  shapeCasts_S160x1024_S160x1024 : S160x1024.ShapeCasts S160x1024
  inb_S3x14_S1x1_2_4 : ∀ a, (![2, 4] : Fin 2 → Nat) a + S1x1.size a ≤ S3x14.size a
  inb_S3x14_S1x1_0_5 : ∀ a, (![0, 5] : Fin 2 → Nat) a + S1x1.size a ≤ S3x14.size a
  inb_S3x14_S1x1_1_5 : ∀ a, (![1, 5] : Fin 2 → Nat) a + S1x1.size a ≤ S3x14.size a
  inb_S3x14_S1x1_2_5 : ∀ a, (![2, 5] : Fin 2 → Nat) a + S1x1.size a ≤ S3x14.size a
  inb_S3x14_S1x1_0_6 : ∀ a, (![0, 6] : Fin 2 → Nat) a + S1x1.size a ≤ S3x14.size a
  inb_S3584x1024_S176x1024_1056_0 : ∀ a, (![1056, 0] : Fin 2 → Nat) a + S176x1024.size a ≤ S3584x1024.size a
  wordsbf16_S3584x1024_S176x1024_1056_0 : (Rect.unit (s := S3584x1024) ![1056, 0] S176x1024.size inb_S3584x1024_S176x1024_1056_0).WholeWords (EltTy.packing .bf16)
  inb_S3x14_S1x1_1_6 : ∀ a, (![1, 6] : Fin 2 → Nat) a + S1x1.size a ≤ S3x14.size a
  inb_S3584x1024_S176x1024_2288_0 : ∀ a, (![2288, 0] : Fin 2 → Nat) a + S176x1024.size a ≤ S3584x1024.size a
  wordsbf16_S3584x1024_S176x1024_2288_0 : (Rect.unit (s := S3584x1024) ![2288, 0] S176x1024.size inb_S3584x1024_S176x1024_2288_0).WholeWords (EltTy.packing .bf16)
  inb_S3x14_S1x1_2_6 : ∀ a, (![2, 6] : Fin 2 → Nat) a + S1x1.size a ≤ S3x14.size a
  inb_S3584x1024_S160x1024_3424_0 : ∀ a, (![3424, 0] : Fin 2 → Nat) a + S160x1024.size a ≤ S3584x1024.size a
  wordsbf16_S3584x1024_S160x1024_3424_0 : (Rect.unit (s := S3584x1024) ![3424, 0] S160x1024.size inb_S3584x1024_S160x1024_3424_0).WholeWords (EltTy.packing .bf16)
  inb_S3x14_S1x1_0_7 : ∀ a, (![0, 7] : Fin 2 → Nat) a + S1x1.size a ≤ S3x14.size a
  inb_S3x14_S1x1_0_8 : ∀ a, (![0, 8] : Fin 2 → Nat) a + S1x1.size a ≤ S3x14.size a
  inb_S3x14_S1x1_0_10 : ∀ a, (![0, 10] : Fin 2 → Nat) a + S1x1.size a ≤ S3x14.size a
  inb_S3x14_S1x1_1_7 : ∀ a, (![1, 7] : Fin 2 → Nat) a + S1x1.size a ≤ S3x14.size a
  inb_S3x14_S1x1_1_8 : ∀ a, (![1, 8] : Fin 2 → Nat) a + S1x1.size a ≤ S3x14.size a
  inb_S3x14_S1x1_1_10 : ∀ a, (![1, 10] : Fin 2 → Nat) a + S1x1.size a ≤ S3x14.size a
  inb_S3x14_S1x1_2_7 : ∀ a, (![2, 7] : Fin 2 → Nat) a + S1x1.size a ≤ S3x14.size a
  inb_S3x14_S1x1_2_8 : ∀ a, (![2, 8] : Fin 2 → Nat) a + S1x1.size a ≤ S3x14.size a
  inb_S3x14_S1x1_2_10 : ∀ a, (![2, 10] : Fin 2 → Nat) a + S1x1.size a ≤ S3x14.size a
  inb_S3x14_S1x1_0_9 : ∀ a, (![0, 9] : Fin 2 → Nat) a + S1x1.size a ≤ S3x14.size a
  inb_S3x14_S1x1_0_11 : ∀ a, (![0, 11] : Fin 2 → Nat) a + S1x1.size a ≤ S3x14.size a
  inb_S3x14_S1x1_1_9 : ∀ a, (![1, 9] : Fin 2 → Nat) a + S1x1.size a ≤ S3x14.size a
  inb_S3x14_S1x1_1_11 : ∀ a, (![1, 11] : Fin 2 → Nat) a + S1x1.size a ≤ S3x14.size a
  inb_S3x14_S1x1_2_9 : ∀ a, (![2, 9] : Fin 2 → Nat) a + S1x1.size a ≤ S3x14.size a
  inb_S3x14_S1x1_2_11 : ∀ a, (![2, 11] : Fin 2 → Nat) a + S1x1.size a ≤ S3x14.size a
  inb_S3x14_S1x1_0_12 : ∀ a, (![0, 12] : Fin 2 → Nat) a + S1x1.size a ≤ S3x14.size a
  inb_S3x14_S1x1_0_13 : ∀ a, (![0, 13] : Fin 2 → Nat) a + S1x1.size a ≤ S3x14.size a
  inb_S3x14_S1x1_1_12 : ∀ a, (![1, 12] : Fin 2 → Nat) a + S1x1.size a ≤ S3x14.size a
  inb_S3x14_S1x1_1_13 : ∀ a, (![1, 13] : Fin 2 → Nat) a + S1x1.size a ≤ S3x14.size a
  inb_S3x14_S1x1_2_12 : ∀ a, (![2, 12] : Fin 2 → Nat) a + S1x1.size a ≤ S3x14.size a
  inb_S3x14_S1x1_2_13 : ∀ a, (![2, 13] : Fin 2 → Nat) a + S1x1.size a ≤ S3x14.size a
  hcc0_scratch2 : 2 + S3x14.numel ≤ 86
  hcc0_scratch3 : 44 + S3x14.numel ≤ 86
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S352x1024.size a ≤ S4096x1024.size a
  k0_off1_packedbf16 : ∀ d0 : Dev nD, (Rect.unit (s := S4096x1024) (k0_off1 d0) S352x1024.size (k0_off1_inb d0)).PackedRows (EltTy.packing .bf16)
  k0_off2_inb : ∀ d0 : Dev nD, ∀ a, (k0_off2 d0) a + S176x1024.size a ≤ S3584x1024.size a
  k0_off3_inb : ∀ d0 : Dev nD, ∀ a, (k0_off3 d0) a + S176x1024.size a ≤ S4096x1024.size a
  k0_off3_wordsbf16 : ∀ d0 : Dev nD, (Rect.unit (s := S4096x1024) (k0_off3 d0) S176x1024.size (k0_off3_inb d0)).WholeWords (EltTy.packing .bf16)
  k0_off2_wordsbf16 : ∀ d0 : Dev nD, (Rect.unit (s := S3584x1024) (k0_off2 d0) S176x1024.size (k0_off2_inb d0)).WholeWords (EltTy.packing .bf16)
  k0_dev4_lt : ∀ d0 : Dev nD, (k0_dev4 d0) < nD
  k0_off4_inb : ∀ d0 : Dev nD, ∀ a, (k0_off4 d0) a + S176x1024.size a ≤ S3584x1024.size a
  k0_off5_inb : ∀ d0 : Dev nD, ∀ a, (k0_off5 d0) a + S176x1024.size a ≤ S4096x1024.size a
  k0_off5_wordsbf16 : ∀ d0 : Dev nD, (Rect.unit (s := S4096x1024) (k0_off5 d0) S176x1024.size (k0_off5_inb d0)).WholeWords (EltTy.packing .bf16)
  k0_off4_wordsbf16 : ∀ d0 : Dev nD, (Rect.unit (s := S3584x1024) (k0_off4 d0) S176x1024.size (k0_off4_inb d0)).WholeWords (EltTy.packing .bf16)
  k0_dev5_lt : ∀ d0 : Dev nD, (k0_dev5 d0) < nD
  k0_off6_inb : ∀ d0 : Dev nD, ∀ a, (k0_off6 d0) a + S352x1024.size a ≤ S4096x1024.size a
  k0_off6_packedbf16 : ∀ d0 : Dev nD, (Rect.unit (s := S4096x1024) (k0_off6 d0) S352x1024.size (k0_off6_inb d0)).PackedRows (EltTy.packing .bf16)
  k0_off7_inb : ∀ d0 : Dev nD, ∀ a, (k0_off7 d0) a + S176x1024.size a ≤ S3584x1024.size a
  k0_off8_inb : ∀ d0 : Dev nD, ∀ a, (k0_off8 d0) a + S176x1024.size a ≤ S4096x1024.size a
  k0_off8_wordsbf16 : ∀ d0 : Dev nD, (Rect.unit (s := S4096x1024) (k0_off8 d0) S176x1024.size (k0_off8_inb d0)).WholeWords (EltTy.packing .bf16)
  k0_off7_wordsbf16 : ∀ d0 : Dev nD, (Rect.unit (s := S3584x1024) (k0_off7 d0) S176x1024.size (k0_off7_inb d0)).WholeWords (EltTy.packing .bf16)
  k0_dev6_lt : ∀ d0 : Dev nD, (k0_dev6 d0) < nD
  k0_off9_inb : ∀ d0 : Dev nD, ∀ a, (k0_off9 d0) a + S176x1024.size a ≤ S3584x1024.size a
  k0_off10_inb : ∀ d0 : Dev nD, ∀ a, (k0_off10 d0) a + S176x1024.size a ≤ S4096x1024.size a
  k0_off10_wordsbf16 : ∀ d0 : Dev nD, (Rect.unit (s := S4096x1024) (k0_off10 d0) S176x1024.size (k0_off10_inb d0)).WholeWords (EltTy.packing .bf16)
  k0_off9_wordsbf16 : ∀ d0 : Dev nD, (Rect.unit (s := S3584x1024) (k0_off9 d0) S176x1024.size (k0_off9_inb d0)).WholeWords (EltTy.packing .bf16)
  k0_dev7_lt : ∀ d0 : Dev nD, (k0_dev7 d0) < nD
  k0_off11_inb : ∀ d0 : Dev nD, ∀ a, (k0_off11 d0) a + S320x1024.size a ≤ S4096x1024.size a
  k0_off11_packedbf16 : ∀ d0 : Dev nD, (Rect.unit (s := S4096x1024) (k0_off11 d0) S320x1024.size (k0_off11_inb d0)).PackedRows (EltTy.packing .bf16)
  k0_off12_inb : ∀ d0 : Dev nD, ∀ a, (k0_off12 d0) a + S160x1024.size a ≤ S3584x1024.size a
  k0_off13_inb : ∀ d0 : Dev nD, ∀ a, (k0_off13 d0) a + S160x1024.size a ≤ S4096x1024.size a
  k0_off13_wordsbf16 : ∀ d0 : Dev nD, (Rect.unit (s := S4096x1024) (k0_off13 d0) S160x1024.size (k0_off13_inb d0)).WholeWords (EltTy.packing .bf16)
  k0_off12_wordsbf16 : ∀ d0 : Dev nD, (Rect.unit (s := S3584x1024) (k0_off12 d0) S160x1024.size (k0_off12_inb d0)).WholeWords (EltTy.packing .bf16)
  k0_dev8_lt : ∀ d0 : Dev nD, (k0_dev8 d0) < nD
  k0_off14_inb : ∀ d0 : Dev nD, ∀ a, (k0_off14 d0) a + S160x1024.size a ≤ S3584x1024.size a
  k0_off15_inb : ∀ d0 : Dev nD, ∀ a, (k0_off15 d0) a + S160x1024.size a ≤ S4096x1024.size a
  k0_off15_wordsbf16 : ∀ d0 : Dev nD, (Rect.unit (s := S4096x1024) (k0_off15 d0) S160x1024.size (k0_off15_inb d0)).WholeWords (EltTy.packing .bf16)
  k0_off14_wordsbf16 : ∀ d0 : Dev nD, (Rect.unit (s := S3584x1024) (k0_off14 d0) S160x1024.size (k0_off14_inb d0)).WholeWords (EltTy.packing .bf16)
  k0_dev9_lt : ∀ d0 : Dev nD, (k0_dev9 d0) < nD
  k0_off16_inb : ∀ d0 : Dev nD, ∀ a, (k0_off16 d0) a + S352x1024.size a ≤ S4096x1024.size a
  k0_off16_packedbf16 : ∀ d0 : Dev nD, (Rect.unit (s := S4096x1024) (k0_off16 d0) S352x1024.size (k0_off16_inb d0)).PackedRows (EltTy.packing .bf16)
  k0_off17_inb : ∀ d0 : Dev nD, ∀ a, (k0_off17 d0) a + S176x1024.size a ≤ S3584x1024.size a
  k0_off18_inb : ∀ d0 : Dev nD, ∀ a, (k0_off18 d0) a + S176x1024.size a ≤ S4096x1024.size a
  k0_off18_wordsbf16 : ∀ d0 : Dev nD, (Rect.unit (s := S4096x1024) (k0_off18 d0) S176x1024.size (k0_off18_inb d0)).WholeWords (EltTy.packing .bf16)
  k0_off17_wordsbf16 : ∀ d0 : Dev nD, (Rect.unit (s := S3584x1024) (k0_off17 d0) S176x1024.size (k0_off17_inb d0)).WholeWords (EltTy.packing .bf16)
  k0_dev10_lt : ∀ d0 : Dev nD, (k0_dev10 d0) < nD
  k0_off19_inb : ∀ d0 : Dev nD, ∀ a, (k0_off19 d0) a + S176x1024.size a ≤ S3584x1024.size a
  k0_off20_inb : ∀ d0 : Dev nD, ∀ a, (k0_off20 d0) a + S176x1024.size a ≤ S4096x1024.size a
  k0_off20_wordsbf16 : ∀ d0 : Dev nD, (Rect.unit (s := S4096x1024) (k0_off20 d0) S176x1024.size (k0_off20_inb d0)).WholeWords (EltTy.packing .bf16)
  k0_off19_wordsbf16 : ∀ d0 : Dev nD, (Rect.unit (s := S3584x1024) (k0_off19 d0) S176x1024.size (k0_off19_inb d0)).WholeWords (EltTy.packing .bf16)
  k0_dev11_lt : ∀ d0 : Dev nD, (k0_dev11 d0) < nD
  k0_off21_inb : ∀ d0 : Dev nD, ∀ a, (k0_off21 d0) a + S352x1024.size a ≤ S4096x1024.size a
  k0_off21_packedbf16 : ∀ d0 : Dev nD, (Rect.unit (s := S4096x1024) (k0_off21 d0) S352x1024.size (k0_off21_inb d0)).PackedRows (EltTy.packing .bf16)
  k0_off22_inb : ∀ d0 : Dev nD, ∀ a, (k0_off22 d0) a + S176x1024.size a ≤ S3584x1024.size a
  k0_off23_inb : ∀ d0 : Dev nD, ∀ a, (k0_off23 d0) a + S176x1024.size a ≤ S4096x1024.size a
  k0_off23_wordsbf16 : ∀ d0 : Dev nD, (Rect.unit (s := S4096x1024) (k0_off23 d0) S176x1024.size (k0_off23_inb d0)).WholeWords (EltTy.packing .bf16)
  k0_off22_wordsbf16 : ∀ d0 : Dev nD, (Rect.unit (s := S3584x1024) (k0_off22 d0) S176x1024.size (k0_off22_inb d0)).WholeWords (EltTy.packing .bf16)
  k0_dev12_lt : ∀ d0 : Dev nD, (k0_dev12 d0) < nD
  k0_off24_inb : ∀ d0 : Dev nD, ∀ a, (k0_off24 d0) a + S176x1024.size a ≤ S3584x1024.size a
  k0_off25_inb : ∀ d0 : Dev nD, ∀ a, (k0_off25 d0) a + S176x1024.size a ≤ S4096x1024.size a
  k0_off25_wordsbf16 : ∀ d0 : Dev nD, (Rect.unit (s := S4096x1024) (k0_off25 d0) S176x1024.size (k0_off25_inb d0)).WholeWords (EltTy.packing .bf16)
  k0_off24_wordsbf16 : ∀ d0 : Dev nD, (Rect.unit (s := S3584x1024) (k0_off24 d0) S176x1024.size (k0_off24_inb d0)).WholeWords (EltTy.packing .bf16)
  k0_dev13_lt : ∀ d0 : Dev nD, (k0_dev13 d0) < nD
  k0_off26_inb : ∀ d0 : Dev nD, ∀ a, (k0_off26 d0) a + S320x1024.size a ≤ S4096x1024.size a
  k0_off26_packedbf16 : ∀ d0 : Dev nD, (Rect.unit (s := S4096x1024) (k0_off26 d0) S320x1024.size (k0_off26_inb d0)).PackedRows (EltTy.packing .bf16)
  k0_off27_inb : ∀ d0 : Dev nD, ∀ a, (k0_off27 d0) a + S160x1024.size a ≤ S3584x1024.size a
  k0_off28_inb : ∀ d0 : Dev nD, ∀ a, (k0_off28 d0) a + S160x1024.size a ≤ S4096x1024.size a
  k0_off28_wordsbf16 : ∀ d0 : Dev nD, (Rect.unit (s := S4096x1024) (k0_off28 d0) S160x1024.size (k0_off28_inb d0)).WholeWords (EltTy.packing .bf16)
  k0_off27_wordsbf16 : ∀ d0 : Dev nD, (Rect.unit (s := S3584x1024) (k0_off27 d0) S160x1024.size (k0_off27_inb d0)).WholeWords (EltTy.packing .bf16)
  k0_dev14_lt : ∀ d0 : Dev nD, (k0_dev14 d0) < nD
  k0_off29_inb : ∀ d0 : Dev nD, ∀ a, (k0_off29 d0) a + S160x1024.size a ≤ S3584x1024.size a
  k0_off30_inb : ∀ d0 : Dev nD, ∀ a, (k0_off30 d0) a + S160x1024.size a ≤ S4096x1024.size a
  k0_off30_wordsbf16 : ∀ d0 : Dev nD, (Rect.unit (s := S4096x1024) (k0_off30 d0) S160x1024.size (k0_off30_inb d0)).WholeWords (EltTy.packing .bf16)
  k0_off29_wordsbf16 : ∀ d0 : Dev nD, (Rect.unit (s := S3584x1024) (k0_off29 d0) S160x1024.size (k0_off29_inb d0)).WholeWords (EltTy.packing .bf16)
  k0_dev15_lt : ∀ d0 : Dev nD, (k0_dev15 d0) < nD
  k0_off31_inb : ∀ d0 : Dev nD, ∀ a, (k0_off31 d0) a + S176x1024.size a ≤ S4096x1024.size a
  k0_off32_inb : ∀ d0 : Dev nD, ∀ a, (k0_off32 d0) a + S176x1024.size a ≤ S3584x1024.size a
  k0_off31_packedbf16 : ∀ d0 : Dev nD, (Rect.unit (s := S4096x1024) (k0_off31 d0) S176x1024.size (k0_off31_inb d0)).PackedRows (EltTy.packing .bf16)
  k0_off33_inb : ∀ d0 : Dev nD, ∀ a, (k0_off33 d0) a + S176x1024.size a ≤ S3584x1024.size a
  k0_off34_inb : ∀ d0 : Dev nD, ∀ a, (k0_off34 d0) a + S176x1024.size a ≤ S4096x1024.size a
  k0_off34_wordsbf16 : ∀ d0 : Dev nD, (Rect.unit (s := S4096x1024) (k0_off34 d0) S176x1024.size (k0_off34_inb d0)).WholeWords (EltTy.packing .bf16)
  k0_off33_wordsbf16 : ∀ d0 : Dev nD, (Rect.unit (s := S3584x1024) (k0_off33 d0) S176x1024.size (k0_off33_inb d0)).WholeWords (EltTy.packing .bf16)
  k0_dev16_lt : ∀ d0 : Dev nD, (k0_dev16 d0) < nD
  k0_off35_inb : ∀ d0 : Dev nD, ∀ a, (k0_off35 d0) a + S176x1024.size a ≤ S4096x1024.size a
  k0_off36_inb : ∀ d0 : Dev nD, ∀ a, (k0_off36 d0) a + S176x1024.size a ≤ S3584x1024.size a
  k0_off35_packedbf16 : ∀ d0 : Dev nD, (Rect.unit (s := S4096x1024) (k0_off35 d0) S176x1024.size (k0_off35_inb d0)).PackedRows (EltTy.packing .bf16)
  k0_off37_inb : ∀ d0 : Dev nD, ∀ a, (k0_off37 d0) a + S176x1024.size a ≤ S3584x1024.size a
  k0_off38_inb : ∀ d0 : Dev nD, ∀ a, (k0_off38 d0) a + S176x1024.size a ≤ S4096x1024.size a
  k0_off38_wordsbf16 : ∀ d0 : Dev nD, (Rect.unit (s := S4096x1024) (k0_off38 d0) S176x1024.size (k0_off38_inb d0)).WholeWords (EltTy.packing .bf16)
  k0_off37_wordsbf16 : ∀ d0 : Dev nD, (Rect.unit (s := S3584x1024) (k0_off37 d0) S176x1024.size (k0_off37_inb d0)).WholeWords (EltTy.packing .bf16)
  k0_dev17_lt : ∀ d0 : Dev nD, (k0_dev17 d0) < nD
  k0_off39_inb : ∀ d0 : Dev nD, ∀ a, (k0_off39 d0) a + S160x1024.size a ≤ S4096x1024.size a
  k0_off40_inb : ∀ d0 : Dev nD, ∀ a, (k0_off40 d0) a + S160x1024.size a ≤ S3584x1024.size a
  k0_off39_packedbf16 : ∀ d0 : Dev nD, (Rect.unit (s := S4096x1024) (k0_off39 d0) S160x1024.size (k0_off39_inb d0)).PackedRows (EltTy.packing .bf16)
  k0_off41_inb : ∀ d0 : Dev nD, ∀ a, (k0_off41 d0) a + S160x1024.size a ≤ S3584x1024.size a
  k0_off42_inb : ∀ d0 : Dev nD, ∀ a, (k0_off42 d0) a + S160x1024.size a ≤ S4096x1024.size a
  k0_off42_wordsbf16 : ∀ d0 : Dev nD, (Rect.unit (s := S4096x1024) (k0_off42 d0) S160x1024.size (k0_off42_inb d0)).WholeWords (EltTy.packing .bf16)
  k0_off41_wordsbf16 : ∀ d0 : Dev nD, (Rect.unit (s := S3584x1024) (k0_off41 d0) S160x1024.size (k0_off41_inb d0)).WholeWords (EltTy.packing .bf16)
  k0_dev18_lt : ∀ d0 : Dev nD, (k0_dev18 d0) < nD
  k0_off43_inb : ∀ d0 : Dev nD, ∀ a, (k0_off43 d0) a + S176x1024.size a ≤ S4096x1024.size a
  k0_off44_inb : ∀ d0 : Dev nD, ∀ a, (k0_off44 d0) a + S176x1024.size a ≤ S3584x1024.size a
  k0_off43_packedbf16 : ∀ d0 : Dev nD, (Rect.unit (s := S4096x1024) (k0_off43 d0) S176x1024.size (k0_off43_inb d0)).PackedRows (EltTy.packing .bf16)
  k0_off45_inb : ∀ d0 : Dev nD, ∀ a, (k0_off45 d0) a + S176x1024.size a ≤ S3584x1024.size a
  k0_off46_inb : ∀ d0 : Dev nD, ∀ a, (k0_off46 d0) a + S176x1024.size a ≤ S4096x1024.size a
  k0_off46_wordsbf16 : ∀ d0 : Dev nD, (Rect.unit (s := S4096x1024) (k0_off46 d0) S176x1024.size (k0_off46_inb d0)).WholeWords (EltTy.packing .bf16)
  k0_off45_wordsbf16 : ∀ d0 : Dev nD, (Rect.unit (s := S3584x1024) (k0_off45 d0) S176x1024.size (k0_off45_inb d0)).WholeWords (EltTy.packing .bf16)
  k0_dev19_lt : ∀ d0 : Dev nD, (k0_dev19 d0) < nD
  k0_off47_inb : ∀ d0 : Dev nD, ∀ a, (k0_off47 d0) a + S176x1024.size a ≤ S4096x1024.size a
  k0_off48_inb : ∀ d0 : Dev nD, ∀ a, (k0_off48 d0) a + S176x1024.size a ≤ S3584x1024.size a
  k0_off47_packedbf16 : ∀ d0 : Dev nD, (Rect.unit (s := S4096x1024) (k0_off47 d0) S176x1024.size (k0_off47_inb d0)).PackedRows (EltTy.packing .bf16)
  k0_off49_inb : ∀ d0 : Dev nD, ∀ a, (k0_off49 d0) a + S176x1024.size a ≤ S3584x1024.size a
  k0_off50_inb : ∀ d0 : Dev nD, ∀ a, (k0_off50 d0) a + S176x1024.size a ≤ S4096x1024.size a
  k0_off50_wordsbf16 : ∀ d0 : Dev nD, (Rect.unit (s := S4096x1024) (k0_off50 d0) S176x1024.size (k0_off50_inb d0)).WholeWords (EltTy.packing .bf16)
  k0_off49_wordsbf16 : ∀ d0 : Dev nD, (Rect.unit (s := S3584x1024) (k0_off49 d0) S176x1024.size (k0_off49_inb d0)).WholeWords (EltTy.packing .bf16)
  k0_dev20_lt : ∀ d0 : Dev nD, (k0_dev20 d0) < nD
  k0_off51_inb : ∀ d0 : Dev nD, ∀ a, (k0_off51 d0) a + S160x1024.size a ≤ S4096x1024.size a
  k0_off52_inb : ∀ d0 : Dev nD, ∀ a, (k0_off52 d0) a + S160x1024.size a ≤ S3584x1024.size a
  k0_off51_packedbf16 : ∀ d0 : Dev nD, (Rect.unit (s := S4096x1024) (k0_off51 d0) S160x1024.size (k0_off51_inb d0)).PackedRows (EltTy.packing .bf16)
  k0_off53_inb : ∀ d0 : Dev nD, ∀ a, (k0_off53 d0) a + S160x1024.size a ≤ S3584x1024.size a
  k0_off54_inb : ∀ d0 : Dev nD, ∀ a, (k0_off54 d0) a + S160x1024.size a ≤ S4096x1024.size a
  k0_off54_wordsbf16 : ∀ d0 : Dev nD, (Rect.unit (s := S4096x1024) (k0_off54 d0) S160x1024.size (k0_off54_inb d0)).WholeWords (EltTy.packing .bf16)
  k0_off53_wordsbf16 : ∀ d0 : Dev nD, (Rect.unit (s := S3584x1024) (k0_off53 d0) S160x1024.size (k0_off53_inb d0)).WholeWords (EltTy.packing .bf16)
  k0_dev21_lt : ∀ d0 : Dev nD, (k0_dev21 d0) < nD
  k0_off55_inb : ∀ d0 : Dev nD, ∀ a, (k0_off55 d0) a + S176x1024.size a ≤ S4096x1024.size a
  k0_off56_inb : ∀ d0 : Dev nD, ∀ a, (k0_off56 d0) a + S176x1024.size a ≤ S3584x1024.size a
  k0_off57_inb : ∀ d0 : Dev nD, ∀ a, (k0_off57 d0) a + S176x1024.size a ≤ S3584x1024.size a
  k0_off55_packedbf16 : ∀ d0 : Dev nD, (Rect.unit (s := S4096x1024) (k0_off55 d0) S176x1024.size (k0_off55_inb d0)).PackedRows (EltTy.packing .bf16)
  k0_off58_inb : ∀ d0 : Dev nD, ∀ a, (k0_off58 d0) a + S176x1024.size a ≤ S4096x1024.size a
  k0_off58_wordsbf16 : ∀ d0 : Dev nD, (Rect.unit (s := S4096x1024) (k0_off58 d0) S176x1024.size (k0_off58_inb d0)).WholeWords (EltTy.packing .bf16)
  k0_dev22_lt : ∀ d0 : Dev nD, (k0_dev22 d0) < nD
  k0_off59_inb : ∀ d0 : Dev nD, ∀ a, (k0_off59 d0) a + S176x1024.size a ≤ S4096x1024.size a
  k0_off60_inb : ∀ d0 : Dev nD, ∀ a, (k0_off60 d0) a + S176x1024.size a ≤ S3584x1024.size a
  k0_off61_inb : ∀ d0 : Dev nD, ∀ a, (k0_off61 d0) a + S176x1024.size a ≤ S3584x1024.size a
  k0_off59_packedbf16 : ∀ d0 : Dev nD, (Rect.unit (s := S4096x1024) (k0_off59 d0) S176x1024.size (k0_off59_inb d0)).PackedRows (EltTy.packing .bf16)
  k0_off62_inb : ∀ d0 : Dev nD, ∀ a, (k0_off62 d0) a + S176x1024.size a ≤ S4096x1024.size a
  k0_off62_wordsbf16 : ∀ d0 : Dev nD, (Rect.unit (s := S4096x1024) (k0_off62 d0) S176x1024.size (k0_off62_inb d0)).WholeWords (EltTy.packing .bf16)
  k0_dev23_lt : ∀ d0 : Dev nD, (k0_dev23 d0) < nD
  k0_off63_inb : ∀ d0 : Dev nD, ∀ a, (k0_off63 d0) a + S160x1024.size a ≤ S4096x1024.size a
  k0_off64_inb : ∀ d0 : Dev nD, ∀ a, (k0_off64 d0) a + S160x1024.size a ≤ S3584x1024.size a
  k0_off65_inb : ∀ d0 : Dev nD, ∀ a, (k0_off65 d0) a + S160x1024.size a ≤ S3584x1024.size a
  k0_off63_packedbf16 : ∀ d0 : Dev nD, (Rect.unit (s := S4096x1024) (k0_off63 d0) S160x1024.size (k0_off63_inb d0)).PackedRows (EltTy.packing .bf16)
  k0_off66_inb : ∀ d0 : Dev nD, ∀ a, (k0_off66 d0) a + S160x1024.size a ≤ S4096x1024.size a
  k0_off66_wordsbf16 : ∀ d0 : Dev nD, (Rect.unit (s := S4096x1024) (k0_off66 d0) S160x1024.size (k0_off66_inb d0)).WholeWords (EltTy.packing .bf16)
  k0_dev24_lt : ∀ d0 : Dev nD, (k0_dev24 d0) < nD
  k0_off67_inb : ∀ d0 : Dev nD, ∀ a, (k0_off67 d0) a + S176x1024.size a ≤ S4096x1024.size a
  k0_off68_inb : ∀ d0 : Dev nD, ∀ a, (k0_off68 d0) a + S176x1024.size a ≤ S3584x1024.size a
  k0_off69_inb : ∀ d0 : Dev nD, ∀ a, (k0_off69 d0) a + S176x1024.size a ≤ S3584x1024.size a
  k0_off70_inb : ∀ d0 : Dev nD, ∀ a, (k0_off70 d0) a + S176x1024.size a ≤ S4096x1024.size a
  k0_off71_inb : ∀ d0 : Dev nD, ∀ a, (k0_off71 d0) a + S176x1024.size a ≤ S3584x1024.size a
  k0_off72_inb : ∀ d0 : Dev nD, ∀ a, (k0_off72 d0) a + S176x1024.size a ≤ S3584x1024.size a
  k0_off73_inb : ∀ d0 : Dev nD, ∀ a, (k0_off73 d0) a + S160x1024.size a ≤ S4096x1024.size a
  k0_off74_inb : ∀ d0 : Dev nD, ∀ a, (k0_off74 d0) a + S160x1024.size a ≤ S3584x1024.size a
  k0_off75_inb : ∀ d0 : Dev nD, ∀ a, (k0_off75 d0) a + S160x1024.size a ≤ S3584x1024.size a
  k0_off67_packedbf16 : ∀ d0 : Dev nD, (Rect.unit (s := S4096x1024) (k0_off67 d0) S176x1024.size (k0_off67_inb d0)).PackedRows (EltTy.packing .bf16)
  k0_off76_inb : ∀ d0 : Dev nD, ∀ a, (k0_off76 d0) a + S176x1024.size a ≤ S4096x1024.size a
  k0_off76_wordsbf16 : ∀ d0 : Dev nD, (Rect.unit (s := S4096x1024) (k0_off76 d0) S176x1024.size (k0_off76_inb d0)).WholeWords (EltTy.packing .bf16)
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off70_packedbf16 : ∀ d0 : Dev nD, (Rect.unit (s := S4096x1024) (k0_off70 d0) S176x1024.size (k0_off70_inb d0)).PackedRows (EltTy.packing .bf16)
  k0_off77_inb : ∀ d0 : Dev nD, ∀ a, (k0_off77 d0) a + S176x1024.size a ≤ S4096x1024.size a
  k0_off77_wordsbf16 : ∀ d0 : Dev nD, (Rect.unit (s := S4096x1024) (k0_off77 d0) S176x1024.size (k0_off77_inb d0)).WholeWords (EltTy.packing .bf16)
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off73_packedbf16 : ∀ d0 : Dev nD, (Rect.unit (s := S4096x1024) (k0_off73 d0) S160x1024.size (k0_off73_inb d0)).PackedRows (EltTy.packing .bf16)
  k0_off78_inb : ∀ d0 : Dev nD, ∀ a, (k0_off78 d0) a + S160x1024.size a ≤ S4096x1024.size a
  k0_off78_wordsbf16 : ∀ d0 : Dev nD, (Rect.unit (s := S4096x1024) (k0_off78 d0) S160x1024.size (k0_off78_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_off79_inb : ∀ d0 : Dev nD, ∀ a, (k0_off79 d0) a + S352x1024.size a ≤ S4096x1024.size a
  k0_dev42_lt : ∀ d0 : Dev nD, (k0_dev42 d0) < nD
  k0_dev43_lt : ∀ d0 : Dev nD, (k0_dev43 d0) < nD
  k0_off80_inb : ∀ d0 : Dev nD, ∀ a, (k0_off80 d0) a + S352x1024.size a ≤ S4096x1024.size a
  k0_dev44_lt : ∀ d0 : Dev nD, (k0_dev44 d0) < nD
  k0_dev45_lt : ∀ d0 : Dev nD, (k0_dev45 d0) < nD
  k0_off81_inb : ∀ d0 : Dev nD, ∀ a, (k0_off81 d0) a + S320x1024.size a ≤ S4096x1024.size a
  k0_off82_inb : ∀ d0 : Dev nD, ∀ a, (k0_off82 d0) a + S176x1024.size a ≤ S4096x1024.size a
  k0_off83_inb : ∀ d0 : Dev nD, ∀ a, (k0_off83 d0) a + S176x1024.size a ≤ S4096x1024.size a
  k0_off84_inb : ∀ d0 : Dev nD, ∀ a, (k0_off84 d0) a + S176x1024.size a ≤ S4096x1024.size a
  k0_off85_inb : ∀ d0 : Dev nD, ∀ a, (k0_off85 d0) a + S176x1024.size a ≤ S4096x1024.size a
  k0_off86_inb : ∀ d0 : Dev nD, ∀ a, (k0_off86 d0) a + S160x1024.size a ≤ S4096x1024.size a
  k0_off87_inb : ∀ d0 : Dev nD, ∀ a, (k0_off87 d0) a + S160x1024.size a ≤ S4096x1024.size a
  k0_off88_inb : ∀ d0 : Dev nD, ∀ a, (k0_off88 d0) a + S176x1024.size a ≤ S4096x1024.size a
  k0_off89_inb : ∀ d0 : Dev nD, ∀ a, (k0_off89 d0) a + S176x1024.size a ≤ S4096x1024.size a
  k0_off90_inb : ∀ d0 : Dev nD, ∀ a, (k0_off90 d0) a + S176x1024.size a ≤ S4096x1024.size a
  k0_off91_inb : ∀ d0 : Dev nD, ∀ a, (k0_off91 d0) a + S176x1024.size a ≤ S4096x1024.size a
  k0_off92_inb : ∀ d0 : Dev nD, ∀ a, (k0_off92 d0) a + S160x1024.size a ≤ S4096x1024.size a
  k0_off93_inb : ∀ d0 : Dev nD, ∀ a, (k0_off93 d0) a + S160x1024.size a ≤ S4096x1024.size a
  hstage0_0 : ∀ j, (stage0_0 j).IsWhole
  hstage0_1 : ∀ j, (stage0_1 j).IsWhole

variable [Facts₀]

abbrev cc0_scratch2 : DmaSems sig S3x14 := SemArray.consecutive 2 S3x14 hcc0_scratch2
abbrev cc0_scratch3 : DmaSems sig S3x14 := SemArray.consecutive 44 S3x14 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S_, .f32⟩
  | .hbm, ⟨3, _⟩ => ⟨S4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S32768x1024_S8x4096x1024 : S32768x1024.ShapeCasts S8x4096x1024
  reducesTo_S8x4096x1024_S4096x1024_d0 : S8x4096x1024.ReducesTo [0] S4096x1024
  h_S_ : 0 < S_.numel

variable [Facts₀]

class Facts : Prop extends Facts₀ where

variable [Facts]
-- ==== Proof.Layout.lean ====
import Mathlib.Data.Fin.VecNotation
import Mathlib.Data.Nat.Bitwise

namespace Cert.RsAg

def digit (c : Fin 8) (k : Nat) : Nat := (c.val / 2 ^ k) % 2

def keep (M : Nat) (c : Fin 8) : Nat :=
  if M = 1 then (digit c 0 + digit c 1) % 2 else if M = 3 then digit c 1 else digit c 2

def msk (p k : Fin 3) : Nat := (![![1, 3, 4], ![3, 4, 1], ![4, 1, 3]] : Fin 3 → Fin 3 → Nat) p k

def flip (M : Nat) (c : Fin 8) : Fin 8 := ⟨(c.val ^^^ M) % 8, Nat.mod_lt _ (by decide)⟩

def peer (p k : Fin 3) (c : Fin 8) : Fin 8 := flip (msk p k) c

def bt (p k : Fin 3) (c : Fin 8) : Nat := keep (msk p k) c

def eRows (p : Fin 3) : Nat := (![176, 176, 160] : Fin 3 → Nat) p
def base (p : Fin 3) : Nat := (![0, 1408, 2816] : Fin 3 → Nat) p
def rbase (p : Fin 3) : Nat := (![0, 1232, 2464] : Fin 3 → Nat) p

def slab (p : Fin 3) (j : Nat) : Nat := base p + j * eRows p

def dig (j0 j1 j2 : Nat) : Nat := 4 * j0 + 2 * j1 + j2

def nb (b : Nat) : Nat := 1 - b
def jK2 (p : Fin 3) (c : Fin 8) : Nat := dig (bt p 0 c) (bt p 1 c) (bt p 2 c)
def jS2 (p : Fin 3) (c : Fin 8) : Nat := dig (bt p 0 c) (bt p 1 c) (nb (bt p 2 c))
def jS1a (p : Fin 3) (c : Fin 8) : Nat := dig (bt p 0 c) (nb (bt p 1 c)) (nb (bt p 2 c))
def jS1b (p : Fin 3) (c : Fin 8) : Nat := dig (bt p 0 c) (nb (bt p 1 c)) (bt p 2 c)
def jFa (p : Fin 3) (c : Fin 8) : Nat := dig (nb (bt p 0 c)) (nb (bt p 1 c)) (nb (bt p 2 c))
def jFb (p : Fin 3) (c : Fin 8) : Nat := dig (nb (bt p 0 c)) (nb (bt p 1 c)) (bt p 2 c)
def jLa (p : Fin 3) (c : Fin 8) : Nat := dig (nb (bt p 0 c)) (bt p 1 c) (nb (bt p 2 c))
def jLb (p : Fin 3) (c : Fin 8) : Nat := dig (nb (bt p 0 c)) (bt p 1 c) (bt p 2 c)

def oK2 (p : Fin 3) (c : Fin 8) : Nat := slab p (jK2 p c)
def oS2 (p : Fin 3) (c : Fin 8) : Nat := slab p (jS2 p c)
def oS1a (p : Fin 3) (c : Fin 8) : Nat := slab p (jS1a p c)
def oS1b (p : Fin 3) (c : Fin 8) : Nat := slab p (jS1b p c)
def oFa (p : Fin 3) (c : Fin 8) : Nat := slab p (jFa p c)
def oFb (p : Fin 3) (c : Fin 8) : Nat := slab p (jFb p c)
def oLa (p : Fin 3) (c : Fin 8) : Nat := slab p (jLa p c)
def oLb (p : Fin 3) (c : Fin 8) : Nat := slab p (jLb p c)
def oS1 (p : Fin 3) (c : Fin 8) : Nat := slab p (dig (bt p 0 c) (nb (bt p 1 c)) 0)
def oFwd (p : Fin 3) (c : Fin 8) : Nat := slab p (dig (nb (bt p 0 c)) (nb (bt p 1 c)) 0)
def oLate (p : Fin 3) (c : Fin 8) : Nat := slab p (dig (nb (bt p 0 c)) (bt p 1 c) 0)

def rFa (p : Fin 3) (c : Fin 8) : Nat := rbase p + dig 0 (nb (bt p 1 c)) (nb (bt p 2 c)) * eRows p
def rFb (p : Fin 3) (c : Fin 8) : Nat := rbase p + dig 0 (nb (bt p 1 c)) (bt p 2 c) * eRows p
def rS2₀ (p : Fin 3) (c : Fin 8) : Nat := rbase p + dig 0 (bt p 1 c) (nb (bt p 2 c)) * eRows p
def rK2₀ (p : Fin 3) (c : Fin 8) : Nat := rbase p + dig 0 (bt p 1 c) (bt p 2 c) * eRows p
def rS2₁ (p : Fin 3) (c : Fin 8) : Nat := rbase p + (4 + nb (bt p 2 c)) * eRows p
def rK2₁ (p : Fin 3) (c : Fin 8) : Nat := rbase p + (4 + bt p 2 c) * eRows p
def rK2₂ (p : Fin 3) (c : Fin 8) : Nat := rbase p + 6 * eRows p

theorem peer_peer (p k : Fin 3) (c : Fin 8) : peer p k (peer p k c) = c := by
  revert p k c; decide
theorem bt_le_one (p k : Fin 3) (c : Fin 8) : bt p k c ≤ 1 := by revert p k c; decide

end Cert.RsAg
-- ==== Proof.Spec.lean ====
import proofs.«901015_g7700000000001016_dist_rs_then_ag_i_m4096_n1024_v7x_i8_f32_1_alg».proof.Proof.Layout
import Idealize.ShloMosaic.PureOps

noncomputable section

namespace Cert.RsAg

open Idealize.ShloMosaic

variable {F : FTy → Type} [FloatOps F]

abbrev W : Shape := ⟨2, ![4096, 1024]⟩
abbrev WR : Shape := ⟨2, ![3584, 1024]⟩

theorem bf16_lt_f32 : FTy.bits .bf16 < FTy.bits .f32 := by decide

def snd (v : FVec F W .f32) : FVec F W .bf16 := truncf .bf16 v bf16_lt_f32
def rcv (v : FVec F W .bf16) : FVec F W .f32 := extf .f32 v bf16_lt_f32

variable (X : Fin 8 → FVec F W .f32)

def P1 (p : Fin 3) (c : Fin 8) : FVec F W .f32 := addf (X c) (rcv (snd (X (peer p 0 c))))
def P2 (p : Fin 3) (c : Fin 8) : FVec F W .f32 := addf (P1 X p c) (rcv (snd (P1 X p (peer p 1 c))))
def P3 (p : Fin 3) (c : Fin 8) : FVec F W .f32 := addf (P2 X p c) (rcv (snd (P2 X p (peer p 2 c))))

def partOf (r : Nat) : Fin 3 := if r < 1408 then 0 else if r < 2816 then 1 else 2
def slabOf (r : Nat) : Nat := (r - base (partOf r)) / eRows (partOf r)

def owner (p : Fin 3) (j : Nat) : Fin 8 :=
  if jK2 p 0 = j then 0 else if jK2 p 1 = j then 1 else if jK2 p 2 = j then 2 else if jK2 p 3 = j then 3
  else if jK2 p 4 = j then 4 else if jK2 p 5 = j then 5 else if jK2 p 6 = j then 6 else 7

theorem owner_jK2 : ∀ (p : Fin 3) (c : Fin 8), owner p (jK2 p c) = c := by decide

def Out (c : Fin 8) : FVec F W .f32 := fun i =>
  let p := partOf (i 0).val
  let j := slabOf (i 0).val
  if j = jK2 p c then P3 X p c i else rcv (snd (P3 X p (owner p j))) i

def Stg (p : Fin 3) (j : Nat) : FVec F W .bf16 := snd (P3 X p (owner p j))

end Cert.RsAg

end
-- ==== Proof.RefValue.lean ====
import proofs.«901015_g7700000000001016_dist_rs_then_ag_i_m4096_n1024_v7x_i8_f32_1_alg».proof.Defs
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.Gen.ReferenceIdeal.Run
import proofs.«901015_g7700000000001016_dist_rs_then_ag_i_m4096_n1024_v7x_i8_f32_1_alg».proof.Proof.Gen.ReferenceIdeal.Read
import Idealize.ShloMosaic.Lib.ValueIdx
import Idealize.ShloMosaic.Lib.IdealHost
import Idealize.ShloMosaic.Lib.Layout

noncomputable section

namespace Cert.RsAg.Ref

open Idealize.ShloMosaic Idealize.SL.Sem
open scoped BigOperators

theorem orbit_eq_univ : ∀ (p : Fin 3) (d : Fin 8),
    (d ::ₘ peer p 0 d ::ₘ peer p 1 d ::ₘ peer p 0 (peer p 1 d) ::ₘ peer p 2 d ::ₘ peer p 0 (peer p 2 d)
      ::ₘ peer p 1 (peer p 2 d) ::ₘ peer p 0 (peer p 1 (peer p 2 d)) ::ₘ (0 : Multiset (Fin 8)))
      = (Finset.univ : Finset (Fin 8)).val := by decide

theorem sum_orbit {M : Type} [AddCommMonoid M] (f : Fin 8 → M) (p : Fin 3) (d : Fin 8) :
    ((f d + f (peer p 0 d)) + (f (peer p 1 d) + f (peer p 0 (peer p 1 d))))
      + ((f (peer p 2 d) + f (peer p 0 (peer p 2 d))) + (f (peer p 1 (peer p 2 d)) + f (peer p 0 (peer p 1 (peer p 2 d)))))
      = ∑ e : Fin 8, f e := by
  rw [Finset.sum_eq_multiset_sum, ← orbit_eq_univ p d]
  simp only [Multiset.map_cons, Multiset.sum_cons, Multiset.map_zero, Multiset.sum_zero, add_zero]
  abel

variable (X : Fin 8 → FVec Ideal W .f32)

theorem rcv_snd (v : FVec Ideal W .f32) : rcv (snd v) = v := rfl

theorem P3_eq_sum (p : Fin 3) (c : Fin 8) (i : W.Idx) :
    P3 X p c i = ∑ d : Fin 8, (show EReal from X d i) :=
  sum_orbit (fun e => (show EReal from X e i)) p c

theorem Out_ideal (c : Fin 8) : Out (F := Ideal) X c = fun i => ∑ d : Fin 8, X d i := by
  funext i
  unfold Out
  simp only []
  split
  · exact P3_eq_sum X _ c i
  · rw [rcv_snd]; exact P3_eq_sum X _ _ i

open Cert.ReferenceIdeal

def refVal (A : FVec Ideal ⟨2, ![32768, 1024]⟩ .f32) : FVec Ideal ⟨2, ![4096, 1024]⟩ .f32 :=
  fun i => ∑ d : Fin 8, (Layout.block ⟨2, ![4096, 1024]⟩ ⟨2, ![32768, 1024]⟩ 0 8 d A) i

theorem reshaped_idx (h : Layout.Tiles ⟨2, ![4096, 1024]⟩ ⟨2, ![32768, 1024]⟩ 0 8) (i : S4096x1024.Idx) (k : Fin 8) :
    Read.idx_main_v0 (Read.idx_main_v1 i k) = h.idx k i := by
  have h0 : (i 0).val < 4096 := (i 0).isLt
  have h1 : (i 1).val < 1024 := (i 1).isLt
  have hk : k.val < 8 := k.isLt
  funext a
  apply Fin.ext
  match a with
  | ⟨0, _⟩ =>
    show ((k.val * 4096 + (i 0).val) * 1024 + (i 1).val) / 1024 = k.val * 4096 + (i 0).val
    omega
  | ⟨1, _⟩ =>
    show ((k.val * 4096 + (i 0).val) * 1024 + (i 1).val) % 1024 = (i 1).val
    omega

theorem val_eq_refVal (A : (⟨S32768x1024, .f32⟩ : BufTy).Contents (Elt Ideal)) :
    Read.val_main_v1 (F := Ideal) A = refVal A := by
  funext i
  rw [Read.val_main_v1_apply, Read.val_main_cst_apply]
  show (Ideal.ofBits .f32 0x00000000#32 : EReal) + _ = _
  rw [Ideal.ofBits_zero_f32, zero_add]
  unfold refVal
  refine Finset.sum_congr rfl fun k _ => ?_
  rw [Read.val_main_v0_apply, Layout.block_apply, reshaped_idx]

theorem ref_run (m' : (ℓ : Loc nD τ sig) → Buf (Elt Ideal) ℓ)
    (ρ' : Dev nD → PrngReg) :
    θ_run (defs (F := Ideal)) (onTc (τ := τ) (main (F := Ideal)))
      ⟨m', fun _ => 0, ρ'⟩ (fun r =>
        r.2.mem (((0 : Dev nD).tc : Thread nD τ).loc main_v1)
            = refVal (m' (((0 : Dev nD).tc : Thread nD τ).loc main_arg0))
        ∧ r.2.mem (((0 : Dev nD).tc : Thread nD τ).loc main_arg0)
            = m' (((0 : Dev nD).tc : Thread nD τ).loc main_arg0)) :=
  (θ_run (defs (F := Ideal)) _ _).mono
    (fun _ h => ⟨(h 0).1.trans ((Read.val_main_v1_eq _).trans (val_eq_refVal _)), (h 0).2⟩)
    (Value.run (F := Ideal) m' ρ')

end Cert.RsAg.Ref

end
-- ==== Proof.Accum.lean ====
import proofs.«901015_g7700000000001016_dist_rs_then_ag_i_m4096_n1024_v7x_i8_f32_1_alg».proof.Proof.Spec
import Mathlib.Tactic.SplitIfs

noncomputable section

namespace Cert.RsAg

open Idealize.ShloMosaic

def inSlab (p : Fin 3) (j r : Nat) : Prop := slab p j ≤ r ∧ r < slab p j + eRows p

instance (p : Fin 3) (j r : Nat) : Decidable (inSlab p j r) :=
  inferInstanceAs (Decidable (slab p j ≤ r ∧ r < slab p j + eRows p))

theorem part_cases (p : Fin 3) :
    (p = 0 ∧ base p = 0 ∧ eRows p = 176) ∨ (p = 1 ∧ base p = 1408 ∧ eRows p = 176) ∨ (p = 2 ∧ base p = 2816 ∧ eRows p = 160) := by
  revert p; decide

theorem partOf_val (r : Nat) :
    (r < 1408 ∧ partOf r = 0) ∨ (1408 ≤ r ∧ r < 2816 ∧ partOf r = 1) ∨ (2816 ≤ r ∧ partOf r = 2) := by
  unfold partOf
  by_cases h1 : r < 1408
  · exact .inl ⟨h1, if_pos h1⟩
  · by_cases h2 : r < 2816
    · exact .inr (.inl ⟨by omega, h2, by rw [if_neg h1, if_pos h2]⟩)
    · exact .inr (.inr ⟨by omega, by rw [if_neg h1, if_neg h2]⟩)

theorem partOf_of_inSlab {p : Fin 3} {j r : Nat} (hj : j < 8) (h : inSlab p j r) : partOf r = p := by
  obtain ⟨h1, h2⟩ := h
  unfold slab at h1 h2
  rcases part_cases p with ⟨rfl, hb, he⟩ | ⟨rfl, hb, he⟩ | ⟨rfl, hb, he⟩ <;> rw [hb, he] at h1 h2 <;>
    rcases partOf_val r with ⟨h, hp⟩ | ⟨h, h', hp⟩ | ⟨h, hp⟩ <;> first | exact hp | (exfalso; omega)

theorem slabOf_of_inSlab {p : Fin 3} {j r : Nat} (hj : j < 8) (h : inSlab p j r) : slabOf r = j := by
  unfold slabOf; rw [partOf_of_inSlab hj h]
  obtain ⟨h1, h2⟩ := h
  unfold slab at h1 h2
  exact Nat.div_eq_of_lt_le (by omega) (by rw [Nat.succ_mul]; omega)

theorem slabOf_spec {r : Nat} (hr : r < 4096) : inSlab (partOf r) (slabOf r) r ∧ slabOf r < 8 := by
  unfold inSlab slab slabOf
  rcases partOf_val r with ⟨h, hp⟩ | ⟨h, h', hp⟩ | ⟨h, hp⟩ <;> rw [hp]
  · rw [show base 0 = 0 from rfl, show eRows 0 = 176 from rfl]; omega
  · rw [show base 1 = 1408 from rfl, show eRows 1 = 176 from rfl]; omega
  · rw [show base 2 = 2816 from rfl, show eRows 2 = 160 from rfl]; omega

theorem inSlab_partOf_slabOf {r : Nat} (hr : r < 4096) : inSlab (partOf r) (slabOf r) r := (slabOf_spec hr).1

theorem slabOf_lt {r : Nat} (hr : r < 4096) : slabOf r < 8 := (slabOf_spec hr).2

theorem inSlab_of_eq {p : Fin 3} {j r : Nat} (hr : r < 4096) (hp : partOf r = p) (hs : slabOf r = j) : inSlab p j r := by
  subst hp; subst hs; exact inSlab_partOf_slabOf hr

theorem row_lt (i : W.Idx) : (i 0).val < 4096 := (i 0).isLt

theorem jK2_lt : ∀ (p : Fin 3) (c : Fin 8), jK2 p c < 8 := by decide
theorem jS2_lt : ∀ (p : Fin 3) (c : Fin 8), jS2 p c < 8 := by decide
theorem jS1a_lt : ∀ (p : Fin 3) (c : Fin 8), jS1a p c < 8 := by decide
theorem jS1b_lt : ∀ (p : Fin 3) (c : Fin 8), jS1b p c < 8 := by decide

variable {F : FTy → Type} [FloatOps F]

variable (X : Fin 8 → FVec F W .f32)

def Pn (p : Fin 3) (c : Fin 8) : Nat → FVec F W .f32
  | 0 => X c
  | 1 => P1 X p c
  | 2 => P2 X p c
  | _ + 3 => P3 X p c

theorem Pn_succ (p : Fin 3) (c : Fin 8) (k : Nat) (hk : k < 3) :
    Pn X p c (k + 1) = addf (Pn X p c k) (rcv (snd (Pn X p (peer p ⟨k, hk⟩ c) k))) := by
  rcases k with _ | _ | _ | k
  · rfl
  · rfl
  · rfl
  · omega

def Xlev (c : Fin 8) (n : Fin 3 → Nat → Nat) : FVec F W .f32 := fun i =>
  Pn X (partOf (i 0).val) c (n (partOf (i 0).val) (slabOf (i 0).val)) i

def bump (n : Fin 3 → Nat → Nat) (p : Fin 3) (j : Nat) (p' : Fin 3) (j' : Nat) : Nat :=
  if p' = p ∧ j' = j then n p' j' + 1 else n p' j'

theorem bump_same (n : Fin 3 → Nat → Nat) (p : Fin 3) (j : Nat) : bump n p j p j = n p j + 1 := if_pos ⟨rfl, rfl⟩
theorem bump_other (n : Fin 3 → Nat → Nat) (p : Fin 3) (j : Nat) (p' : Fin 3) (j' : Nat) (h : ¬(p' = p ∧ j' = j)) :
    bump n p j p' j' = n p' j' := if_neg h

theorem Xlev_zero (c : Fin 8) : Xlev X c (fun _ _ => 0) = X c := rfl

theorem Xlev_bump_in (c : Fin 8) (n : Fin 3 → Nat → Nat) {p : Fin 3} {j k : Nat} (i : W.Idx)
    (hin : inSlab p j (i 0).val) (hj : j < 8) (hk : n p j = k) (hk3 : k < 3) :
    Xlev X c (bump n p j) i = addf (Xlev X c n) (rcv (snd (Pn X p (peer p ⟨k, hk3⟩ c) k))) i := by
  have hp := partOf_of_inSlab hj hin
  have hs := slabOf_of_inSlab hj hin
  show Pn X (partOf (i 0).val) c (bump n p j (partOf (i 0).val) (slabOf (i 0).val)) i
    = FloatOps.addf (Pn X (partOf (i 0).val) c (n (partOf (i 0).val) (slabOf (i 0).val)) i) (rcv (snd (Pn X p (peer p ⟨k, hk3⟩ c) k)) i)
  rw [hp, hs, bump_same, hk, Pn_succ X p c k hk3]
  rfl

theorem Xlev_bump_out (c : Fin 8) (n : Fin 3 → Nat → Nat) {p : Fin 3} {j : Nat} (i : W.Idx)
    (hout : ¬ inSlab p j (i 0).val) : Xlev X c (bump n p j) i = Xlev X c n i := by
  show Pn X (partOf (i 0).val) c (bump n p j (partOf (i 0).val) (slabOf (i 0).val)) i
    = Pn X (partOf (i 0).val) c (n (partOf (i 0).val) (slabOf (i 0).val)) i
  rw [bump_other n p j (partOf (i 0).val) (slabOf (i 0).val) fun h => hout (inSlab_of_eq (row_lt i) h.1 h.2)]

theorem Xlev_store (c : Fin 8) (n : Fin 3 → Nat → Nat) {p : Fin 3} {j k : Nat} (hj : j < 8) (hk : n p j = k) (hk3 : k < 3)
    (g : FVec F W .f32)
    (hin : ∀ i : W.Idx, inSlab p j (i 0).val → g i = addf (Xlev X c n) (rcv (snd (Pn X p (peer p ⟨k, hk3⟩ c) k))) i)
    (hout : ∀ i : W.Idx, ¬ inSlab p j (i 0).val → g i = Xlev X c n i) : g = Xlev X c (bump n p j) := by
  funext i
  by_cases h : inSlab p j (i 0).val
  · rw [hin i h, Xlev_bump_in X c n i h hj hk hk3]
  · rw [hout i h, Xlev_bump_out X c n i h]

def nMid (c : Fin 8) (p : Fin 3) (j : Nat) : Nat :=
  if j = jK2 p c ∨ j = jS2 p c then 2 else if j = jS1a p c ∨ j = jS1b p c then 1 else 0

def nFin (c : Fin 8) (p : Fin 3) (j : Nat) : Nat :=
  if j = jK2 p c then 3 else if j = jS2 p c then 2 else if j = jS1a p c ∨ j = jS1b p c then 1 else 0

theorem bump_nMid (c : Fin 8) (p : Fin 3) (j : Nat) : bump (nMid c) p (jK2 p c) p j = nFin c p j := by
  unfold bump nMid nFin
  by_cases h : j = jK2 p c
  · rw [if_pos ⟨rfl, h⟩, if_pos (.inl h), if_pos h]
  rw [if_neg fun hh => h hh.2, if_neg h]
  by_cases h2 : j = jS2 p c
  · rw [if_pos (.inr h2), if_pos h2]
  · rw [if_neg fun hh => hh.elim h h2, if_neg h2]

theorem Xlev_nFin_fun (c : Fin 8) :
    Xlev X c (nFin c) = fun i =>
      let p := partOf (i 0).val
      let j := slabOf (i 0).val
      if j = jK2 p c then P3 X p c i else if j = jS2 p c then P2 X p c i
      else if j = jS1a p c ∨ j = jS1b p c then P1 X p c i else X c i := by
  funext i
  unfold Xlev nFin
  dsimp only
  split_ifs <;> rfl

theorem Out_apply (c : Fin 8) (i : W.Idx) :
    Out X c i = if slabOf (i 0).val = jK2 (partOf (i 0).val) c then P3 X (partOf (i 0).val) c i
      else rcv (snd (P3 X (partOf (i 0).val) (owner (partOf (i 0).val) (slabOf (i 0).val)))) i := rfl

theorem Out_on_own (c : Fin 8) {p : Fin 3} (i : W.Idx) (hin : inSlab p (jK2 p c) (i 0).val) : P3 X p c i = Out X c i := by
  rw [Out_apply, partOf_of_inSlab (jK2_lt p c) hin, slabOf_of_inSlab (jK2_lt p c) hin, if_pos rfl]

theorem Out_on_other (c : Fin 8) {p : Fin 3} {j : Nat} (i : W.Idx) (hj : j < 8) (hne : j ≠ jK2 p c)
    (hin : inSlab p j (i 0).val) : rcv (Stg X p j) i = Out X c i := by
  rw [Out_apply, partOf_of_inSlab hj hin, slabOf_of_inSlab hj hin, if_neg hne]
  rfl

def OutAt (c : Fin 8) (done : Fin 3 → Nat → Prop) [∀ p j, Decidable (done p j)] (f₀ : FVec F W .f32) : FVec F W .f32 := fun i =>
  if done (partOf (i 0).val) (slabOf (i 0).val) then Out X c i else f₀ i

abbrev doneAdd (done : Fin 3 → Nat → Prop) (p : Fin 3) (j : Nat) : Fin 3 → Nat → Prop := fun p' j' => done p' j' ∨ (p' = p ∧ j' = j)

theorem OutAt_add_in (c : Fin 8) (done : Fin 3 → Nat → Prop) [∀ p j, Decidable (done p j)] (f₀ : FVec F W .f32)
    {p : Fin 3} {j : Nat} (i : W.Idx) (hin : inSlab p j (i 0).val) (hj : j < 8) :
    OutAt X c (doneAdd done p j) f₀ i = Out X c i :=
  if_pos (Or.inr ⟨partOf_of_inSlab hj hin, slabOf_of_inSlab hj hin⟩)

theorem OutAt_add_out (c : Fin 8) (done : Fin 3 → Nat → Prop) [∀ p j, Decidable (done p j)] (f₀ : FVec F W .f32)
    {p : Fin 3} {j : Nat} (i : W.Idx) (hout : ¬ inSlab p j (i 0).val) :
    OutAt X c (doneAdd done p j) f₀ i = OutAt X c done f₀ i :=
  if_congr ⟨fun h => h.elim id fun h => (hout (inSlab_of_eq (row_lt i) h.1 h.2)).elim, .inl⟩ rfl rfl

theorem OutAt_store (c : Fin 8) (done : Fin 3 → Nat → Prop) [∀ p j, Decidable (done p j)] (f₀ : FVec F W .f32)
    {p : Fin 3} {j : Nat} (hj : j < 8) (v g : FVec F W .f32)
    (hv : ∀ i : W.Idx, inSlab p j (i 0).val → v i = Out X c i)
    (hin : ∀ i : W.Idx, inSlab p j (i 0).val → g i = v i)
    (hout : ∀ i : W.Idx, ¬ inSlab p j (i 0).val → g i = OutAt X c done f₀ i) :
    g = OutAt X c (doneAdd done p j) f₀ := by
  funext i
  by_cases h : inSlab p j (i 0).val
  · rw [hin i h, hv i h, OutAt_add_in X c done f₀ i h hj]
  · rw [hout i h, OutAt_add_out X c done f₀ i h]

theorem OutAt_congr (c : Fin 8) (done done' : Fin 3 → Nat → Prop) [∀ p j, Decidable (done p j)] [∀ p j, Decidable (done' p j)]
    (f₀ : FVec F W .f32) (h : ∀ p j, j < 8 → (done p j ↔ done' p j)) : OutAt X c done f₀ = OutAt X c done' f₀ :=
  funext fun i => if_congr (h _ _ (slabOf_lt (row_lt i))) rfl rfl

theorem OutAt_of_all (c : Fin 8) (done : Fin 3 → Nat → Prop) [∀ p j, Decidable (done p j)] (f₀ : FVec F W .f32)
    (h : ∀ p j, j < 8 → done p j) : OutAt X c done f₀ = Out X c :=
  funext fun i => if_pos (h _ _ (slabOf_lt (row_lt i)))

end Cert.RsAg

end
-- ==== Proof.Common.lean ====
import proofs.«901015_g7700000000001016_dist_rs_then_ag_i_m4096_n1024_v7x_i8_f32_1_alg».proof.Proof.Accum
import Idealize.ShloMosaic.Lib.Pipeline.Launch
import Idealize.ShloMosaic.Lib.Pipeline.Kit
import Idealize.ShloMosaic.Lib.Tactic
import Idealize.ShloMosaic.Lib.Pipeline.Value

noncomputable section

namespace Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def roleRow (p : Fin 3) (r : Fin 8) (c : Fin 8) : Nat :=
  (![oK2 p c, oS2 p c, oS1a p c, oS1b p c, oFa p c, oFb p c, oLa p c, oLb p c] : Fin 8 → Nat) r

def rowsSet {S : Shape} (a : Fin S.rank) (o n : Nat) : Finset S.Idx :=
  Finset.univ.filter fun i => o ≤ (i a).val ∧ (i a).val < o + n

def stp (i : Fin 14) : Fin 3 := (![0, 0, 0, 0, 1, 1, 2, 2, 1, 1, 0, 0, 0, 0] : Fin 14 → Fin 3) i

def barMask (k : Fin 3) : Nat := (![1, 3, 4] : Fin 3 → Nat) k

def stepOf (k p : Fin 3) : Fin 3 := ⟨(k.val + 3 - p.val) % 3, Nat.mod_lt _ (by decide)⟩

def mkW (r : Fin 4096) (k : Fin 1024) : W.Idx := fun a => match a with | ⟨0, _⟩ => r | ⟨1, _⟩ => k | ⟨_ + 2, h⟩ => absurd h (Nat.not_lt.2 (Nat.le_add_left _ _))

def reRow {e : FTy} (src slot : Nat) (f : FVec F W e) : FVec F WR e := fun i =>
  f (mkW ⟨((i ⟨0, by decide⟩).val - slot + src) % 4096, Nat.mod_lt _ (by decide)⟩ ⟨(i ⟨1, by decide⟩).val % 1024, Nat.mod_lt _ (by decide)⟩)

def slot (p : Fin 3) (c : Fin 8) (i : Fin 14) : Nat :=
  (![rFa p c, rFb p c, rS2₀ p c, rK2₀ p c, rS2₁ p c, rK2₁ p c, rK2₂ p c, 0, 0, 0, 0, 0, 0, 0] : Fin 14 → Nat) i

def srcRow (p : Fin 3) (c : Fin 8) (i : Fin 14) : Nat :=
  (![oS1a p c, oS1b p c, oS2 p c, oK2 p c, oS2 p c, oK2 p c, oK2 p c, 0, 0, 0, 0, 0, 0, 0] : Fin 14 → Nat) i

def landRow (p : Fin 3) (c : Fin 8) (i : Fin 14) : Nat :=
  (![0, 0, 0, 0, 0, 0, 0, oS2 p c, oS1b p c, oS1a p c, oLb p c, oLa p c, oFb p c, oFa p c] : Fin 14 → Nat) i

def landJ (p : Fin 3) (c : Fin 8) (i : Fin 14) : Nat :=
  (![0, 0, 0, 0, 0, 0, 0, jS2 p c, jS1b p c, jS1a p c, jLb p c, jLa p c, jFb p c, jFa p c] : Fin 14 → Nat) i

def gSrcRow (p : Fin 3) (c : Fin 8) (i : Fin 14) : Nat :=
  (![0, 0, 0, 0, 0, 0, 0, oK2 p c, oK2 p c, oS2 p c, oK2 p c, oS2 p c, oS1b p c, oS1a p c] : Fin 14 → Nat) i

def gSrcJ (p : Fin 3) (c : Fin 8) (i : Fin 14) : Nat :=
  (![0, 0, 0, 0, 0, 0, 0, jK2 p c, jK2 p c, jS2 p c, jK2 p c, jS2 p c, jS1b p c, jS1a p c] : Fin 14 → Nat) i

def gShare (i : Fin 14) : PosShare TreeShare :=
  (![fullShare, fullShare, fullShare, fullShare, fullShare, fullShare, fullShare,
     fullShare.left, fullShare.right.left, fullShare.left, fullShare.right.right, fullShare.right.left, fullShare.left, fullShare.left] :
    Fin 14 → PosShare TreeShare) i

def phN (n : Nat) : Nat := ([0, 0, 1, 1, 2, 3, 4, 5, 5, 6, 5, 6, 7, 7] : List Nat).getD n 0

def ph (i : Fin 14) : Nat := phN i.val

def sendOrder : List (Fin 3 × Fin 14) :=
  [(0, 0), (0, 1), (1, 0), (1, 1), (2, 0), (2, 1),
   (0, 2), (0, 3), (1, 2), (1, 3), (2, 2), (2, 3),
   (0, 4), (1, 4), (2, 4),
   (0, 5), (1, 5), (2, 5),
   (0, 6), (1, 6), (2, 6),
   (0, 7), (0, 8), (0, 10), (1, 7), (1, 8), (1, 10), (2, 7), (2, 8), (2, 10),
   (0, 9), (0, 11), (1, 9), (1, 11), (2, 9), (2, 11),
   (0, 12), (0, 13), (1, 12), (1, 13), (2, 12), (2, 13)]

def nBefore (p : Fin 3) (i : Fin 14) : Nat :=
  (![12 + p.val, 15 + p.val, 18 + p.val, 21, 18 + p.val, 21, 21 + 3 * p.val, 30 + 2 * p.val, 36 + 2 * p.val, 37 + 2 * p.val,
     42, 42, 42, 42] : Fin 14 → Nat) i

theorem ph_lt_of_later : ∀ (p : Fin 3) (i : Fin 14), ∀ x ∈ sendOrder.drop (nBefore p i), ph i < ph x.2 := by decide

theorem sendOrder_nodup : sendOrder.Nodup := by decide

theorem mem_sendOrder : ∀ x : Fin 3 × Fin 14, x ∈ sendOrder := by decide

theorem flip_flip (j : Fin 3) (c : Fin 8) : Cert.RsAg.flip (barMask j) (Cert.RsAg.flip (barMask j) c) = c := by
  revert j c; decide

abbrev 𝒱₀ : Variants := Variants.none

abbrev shL : PosShare TreeShare := fullShare.left

abbrev shR : PosShare TreeShare := fullShare.right

abbrev shRL : PosShare TreeShare := fullShare.right.left

abbrev shRR : PosShare TreeShare := fullShare.right.right

section Rows
variable {d : Fin 2 → Nat} {h0 : 0 < (⟨2, d⟩ : Shape).rank}

theorem mem_rowsSet {o n : Nat} {i : Shape.Idx ⟨2, d⟩} :
    i ∈ rowsSet (S := ⟨2, d⟩) ⟨0, h0⟩ o n ↔ o ≤ (i ⟨0, h0⟩).val ∧ (i ⟨0, h0⟩).val < o + n := by
  simp only [rowsSet, Finset.mem_filter, Finset.mem_univ, true_and]

theorem rowsSet_disjoint {o n o' n' : Nat} (h : o + n ≤ o') :
    Disjoint (rowsSet (S := ⟨2, d⟩) ⟨0, h0⟩ o n) (rowsSet (S := ⟨2, d⟩) ⟨0, h0⟩ o' n') := by
  rw [Finset.disjoint_left]
  intro i h₁ h₂
  rw [mem_rowsSet] at h₁ h₂
  omega

theorem rowsSet_add (o n n' : Nat) :
    rowsSet (S := ⟨2, d⟩) ⟨0, h0⟩ o (n + n') = rowsSet (S := ⟨2, d⟩) ⟨0, h0⟩ o n ∪ rowsSet (S := ⟨2, d⟩) ⟨0, h0⟩ (o + n) n' := by
  ext i
  simp only [Finset.mem_union, mem_rowsSet]
  omega

theorem set_unit_rows (off size : Fin 2 → Nat)
    (inb : ∀ a, off a + size a ≤ (⟨2, d⟩ : Shape).size a) (h1 : off 1 = 0) (hs : size 1 = d 1) :
    (Rect.unit (s := ⟨2, d⟩) off size inb).set = rowsSet (S := ⟨2, d⟩) ⟨0, h0⟩ (off 0) (size 0) := by
  ext i
  rw [mem_rowsSet, LoadRect.mem_set]
  show (∀ a : Fin 2, ∃ j < size a, (i a : Nat) = off a + 1 * j)
    ↔ off 0 ≤ (i 0 : Nat) ∧ (i 0 : Nat) < off 0 + size 0
  rw [Fin.forall_fin_two]
  constructor
  · rintro ⟨⟨j, hj, e⟩, _⟩
    exact ⟨by omega, by omega⟩
  · rintro ⟨hlo, hhi⟩
    have h1' : (i 1 : Nat) < d 1 := (i 1).isLt
    exact ⟨⟨(i 0 : Nat) - off 0, by omega, by omega⟩, ⟨(i 1 : Nat), by omega, by omega⟩⟩

end Rows

section Whole
variable {sig' : RefSig} {κ : Kind} (b : Ref sig' κ) {Val : EltTy → Type}

theorem setOn_whole (M : Finset b.ty.shape.Idx) : (View.whole b : View sig' κ _ _ _).setOn M = M := by
  ext i
  simp only [View.setOn, Finset.mem_map, View.emb_whole, Function.Embedding.refl_apply, exists_eq_right]

theorem write_whole_emb (r : Rect b.ty.shape) (f : b.ty.Contents Val) (w : r.shape.Idx → Val b.ty.elt) (j : r.shape.Idx) :
    ((View.whole b : View sig' κ _ _ _).slice r).write Val f w Finset.univ (r.emb j) = w j := by
  have h := View.write_emb_of_mem (v := (View.whole b : View sig' κ _ _ _).slice r) (Val := Val) f w
    (M := Finset.univ) (x := j) (Finset.mem_univ _)
  exact h

theorem write_whole_of_not_mem (r : Rect b.ty.shape) (f : b.ty.Contents Val) (w : r.shape.Idx → Val b.ty.elt)
    {i : b.ty.shape.Idx} (hi : i ∉ r.set) :
    ((View.whole b : View sig' κ _ _ _).slice r).write Val f w Finset.univ i = f i := by
  apply View.write_of_not_mem
  rw [View.setOn_univ, View.set_slice_whole]
  exact hi

end Whole

section Pointwise
variable {s : Shape}

theorem shapeCast_same {α : Type} (v : s.Idx → α) (h : s.ShapeCasts s) : shapeCast s v h = v :=
  funext fun i => congrArg v (Shape.reshapeEquiv_self _ i)

end Pointwise

namespace Tiles

def red : Finset (Fin 3 × Fin 14) := Finset.univ.filter fun pi => pi.2.val < 7

theorem mem_red {pi : Fin 3 × Fin 14} : pi ∈ red ↔ pi.2.val < 7 := by
  simp only [red, Finset.mem_filter, Finset.mem_univ, true_and]

theorem slots_apart : ∀ (c : Fin 8) (p p' : Fin 3) (i i' : Fin 14), i.val < 7 → i'.val < 7 → (p, i) ≠ (p', i') →
    slot p c i + eRows p ≤ slot p' c i' ∨ slot p' c i' + eRows p' ≤ slot p c i := by decide +kernel

theorem slots_onto : ∀ (c : Fin 8) (p : Fin 3) (j : Fin 7), ∃ i : Fin 14, i.val < 7 ∧ slot p c i = rbase p + j.val * eRows p := by
  decide +kernel

theorem rrow_cases (r : Nat) (hr : r < 3584) :
    ∃ (p : Fin 3) (j : Fin 7), rbase p + j.val * eRows p ≤ r ∧ r < rbase p + j.val * eRows p + eRows p := by
  by_cases h1 : r < 1232
  · refine ⟨0, ⟨r / 176, by omega⟩, ?_, ?_⟩
    · show 0 + r / 176 * 176 ≤ r; omega
    · show r < 0 + r / 176 * 176 + 176; omega
  · by_cases h2 : r < 2464
    · refine ⟨1, ⟨(r - 1232) / 176, by omega⟩, ?_, ?_⟩
      · show 1232 + (r - 1232) / 176 * 176 ≤ r; omega
      · show r < 1232 + (r - 1232) / 176 * 176 + 176; omega
    · refine ⟨2, ⟨(r - 2464) / 160, by omega⟩, ?_, ?_⟩
      · show 2464 + (r - 2464) / 160 * 160 ≤ r; omega
      · show r < 2464 + (r - 2464) / 160 * 160 + 160; omega

def rRow (p : Fin 3) (r : Fin 8) (c : Fin 8) : Nat :=
  (![oK2 p c, oS2 p c, oS1a p c, oS1b p c, oFa p c, oFb p c, oLa p c, oLb p c] : Fin 8 → Nat) r

theorem roles_apart : ∀ (c : Fin 8) (p p' : Fin 3) (r r' : Fin 8), (p, r) ≠ (p', r') →
    rRow p r c + eRows p ≤ rRow p' r' c ∨ rRow p' r' c + eRows p' ≤ rRow p r c := by decide +kernel

theorem roles_onto : ∀ (c : Fin 8) (p : Fin 3) (j : Fin 8), ∃ r : Fin 8, rRow p r c = base p + j.val * eRows p := by
  decide +kernel

theorem row_cases (r : Nat) (hr : r < 4096) :
    ∃ (p : Fin 3) (j : Fin 8), base p + j.val * eRows p ≤ r ∧ r < base p + j.val * eRows p + eRows p := by
  by_cases h1 : r < 1408
  · refine ⟨0, ⟨r / 176, by omega⟩, ?_, ?_⟩
    · show 0 + r / 176 * 176 ≤ r; omega
    · show r < 0 + r / 176 * 176 + 176; omega
  · by_cases h2 : r < 2816
    · refine ⟨1, ⟨(r - 1408) / 176, by omega⟩, ?_, ?_⟩
      · show 1408 + (r - 1408) / 176 * 176 ≤ r; omega
      · show r < 1408 + (r - 1408) / 176 * 176 + 176; omega
    · refine ⟨2, ⟨(r - 2816) / 160, by omega⟩, ?_, ?_⟩
      · show 2816 + (r - 2816) / 160 * 160 ≤ r; omega
      · show r < 2816 + (r - 2816) / 160 * 160 + 160; omega

end Tiles

def sroleJ (p : Fin 3) (r : Fin 8) (c : Fin 8) : Nat :=
  (![jK2 p c, jS2 p c, jS1a p c, jS1b p c, jFa p c, jFb p c, jLa p c, jLb p c] : Fin 8 → Nat) r

def sroleOf (p : Fin 3) (j : Fin 8) (c : Fin 8) : Fin 8 :=
  if j.val = jK2 p c then 0 else if j.val = jS2 p c then 1 else if j.val = jS1a p c then 2 else if j.val = jS1b p c then 3
  else if j.val = jFa p c then 4 else if j.val = jFb p c then 5 else if j.val = jLa p c then 6 else 7

theorem sroleJ_lt : ∀ (p : Fin 3) (r : Fin 8) (c : Fin 8), sroleJ p r c < 8 := by decide +kernel

theorem sroleRow_eq : ∀ (p : Fin 3) (r : Fin 8) (c : Fin 8), roleRow p r c = slab p (sroleJ p r c) := by decide +kernel

theorem sroleOf_sroleJ : ∀ (p : Fin 3) (r : Fin 8) (c : Fin 8), sroleOf p ⟨sroleJ p r c, sroleJ_lt p r c⟩ c = r := by decide +kernel

theorem sroleJ_sroleOf : ∀ (p : Fin 3) (j : Fin 8) (c : Fin 8), sroleJ p (sroleOf p j c) c = j.val := by decide +kernel

def sroleE (c : Fin 8) : Fin 3 × Fin 8 ≃ Fin 3 × Fin 8 where
  toFun pr := (pr.1, ⟨sroleJ pr.1 pr.2 c, sroleJ_lt pr.1 pr.2 c⟩)
  invFun pj := (pj.1, sroleOf pj.1 pj.2 c)
  left_inv pr := Prod.ext rfl (sroleOf_sroleJ pr.1 pr.2 c)
  right_inv pj := Prod.ext rfl (Fin.ext (sroleJ_sroleOf pj.1 pj.2 c))

theorem fwd_rows : ∀ (p : Fin 3) (c : Fin 8),
    (oFa p c = oFwd p c ∧ oFb p c = oFwd p c + eRows p) ∨ (oFb p c = oFwd p c ∧ oFa p c = oFwd p c + eRows p) := by
  decide +kernel

theorem late_rows : ∀ (p : Fin 3) (c : Fin 8),
    (oLa p c = oLate p c ∧ oLb p c = oLate p c + eRows p) ∨ (oLb p c = oLate p c ∧ oLa p c = oLate p c + eRows p) := by
  decide +kernel

def slotR (p : Fin 3) (c : Fin 8) (r : Fin 7) : Nat :=
  (![rFa p c, rFb p c, rS2₀ p c, rK2₀ p c, rS2₁ p c, rK2₁ p c, rK2₂ p c] : Fin 7 → Nat) r

def slotB (p : Fin 3) (b1 b2 : Nat) (r : Fin 7) : Nat :=
  (![rbase p + dig 0 (nb b1) (nb b2) * eRows p, rbase p + dig 0 (nb b1) b2 * eRows p, rbase p + dig 0 b1 (nb b2) * eRows p,
     rbase p + dig 0 b1 b2 * eRows p, rbase p + (4 + nb b2) * eRows p, rbase p + (4 + b2) * eRows p,
     rbase p + 6 * eRows p] : Fin 7 → Nat) r

theorem slotR_eq_slotB (p : Fin 3) (c : Fin 8) (r : Fin 7) : slotR p c r = slotB p (bt p 1 c) (bt p 2 c) r := rfl

theorem slotB_range : ∀ (p : Fin 3) (b1 b2 : Fin 2) (r : Fin 7),
    rbase p ≤ slotB p b1.val b2.val r ∧ slotB p b1.val b2.val r + eRows p ≤ rbase p + 7 * eRows p := by decide +kernel

theorem slotB_sep : ∀ (p : Fin 3) (b1 b2 : Fin 2) (r r' : Fin 7), r ≠ r' →
    slotB p b1.val b2.val r + eRows p ≤ slotB p b1.val b2.val r' ∨ slotB p b1.val b2.val r' + eRows p ≤ slotB p b1.val b2.val r := by
  decide +kernel

theorem part_sep : ∀ (p p' : Fin 3), p ≠ p' →
    rbase p + 7 * eRows p ≤ rbase p' ∨ rbase p' + 7 * eRows p' ≤ rbase p := by decide +kernel

theorem slotB_pos : ∀ (p : Fin 3) (b1 b2 : Fin 2) (s : Fin 7), ∃ r : Fin 7, slotB p b1.val b2.val r = rbase p + s.val * eRows p := by
  decide +kernel

theorem slotR_sep (c : Fin 8) (p : Fin 3) (r : Fin 7) (p' : Fin 3) (r' : Fin 7) (h : (p, r) ≠ (p', r')) :
    slotR p c r + eRows p ≤ slotR p' c r' ∨ slotR p' c r' + eRows p' ≤ slotR p c r := by
  have hb1 := bt_le_one p 1 c
  have hb2 := bt_le_one p 2 c
  have hb1' := bt_le_one p' 1 c
  have hb2' := bt_le_one p' 2 c
  rw [slotR_eq_slotB, slotR_eq_slotB]
  by_cases hp : p = p'
  · subst hp
    have hr : r ≠ r' := fun e => h (by rw [e])
    exact slotB_sep p ⟨bt p 1 c, by omega⟩ ⟨bt p 2 c, by omega⟩ r r' hr
  · have A := slotB_range p ⟨bt p 1 c, by omega⟩ ⟨bt p 2 c, by omega⟩ r
    have B := slotB_range p' ⟨bt p' 1 c, by omega⟩ ⟨bt p' 2 c, by omega⟩ r'
    rcases part_sep p p' hp with h1 | h1
    · exact Or.inl (le_trans A.2 (le_trans h1 B.1))
    · exact Or.inr (le_trans B.2 (le_trans h1 A.1))

theorem slotR_pos (c : Fin 8) (p : Fin 3) (s : Fin 7) : ∃ r : Fin 7, slotR p c r = rbase p + s.val * eRows p := by
  have hb1 := bt_le_one p 1 c
  have hb2 := bt_le_one p 2 c
  obtain ⟨r, hr⟩ := slotB_pos p ⟨bt p 1 c, by omega⟩ ⟨bt p 2 c, by omega⟩ s
  exact ⟨r, (slotR_eq_slotB p c r).trans hr⟩

theorem flipM_flipM : ∀ (k : Fin 3) (c : Fin 8), Cert.RsAg.flip (barMask k) (Cert.RsAg.flip (barMask k) c) = c := by decide

def started (ns : Nat) : Finset (Fin 3 × Fin 14) := (sendOrder.take ns).toFinset

def nx13 (c : Fin 8) : Fin 3 → Nat → Nat := bump (fun _ _ => 0) 0 (jS1a 0 c)

def waited13 : Finset (Fin 3 × Fin 14) := {(0, 0), (1, 0)}

def own13 : Finset (Fin 3 × Fin 8) := {(0, 0), (0, 1), (0, 3), (1, 0), (1, 1), (1, 2), (1, 3), (2, 0), (2, 1), (2, 2), (2, 3)}

def waitedMid : Finset (Fin 3 × Fin 14) := (Finset.univ.filter fun pi : Fin 3 × Fin 14 => pi.2.val < 6) ∪ {(0, 6)}

def ownMid : Finset (Fin 3 × Fin 8) := {(0, 0), (1, 0), (2, 0)}

def roleJ (p : Fin 3) (r : Fin 8) (c : Fin 8) : Nat :=
  (![jK2 p c, jS2 p c, jS1a p c, jS1b p c, jFa p c, jFb p c, jLa p c, jLb p c] : Fin 8 → Nat) r

def shOf (t : Fin 5) : PosShare TreeShare :=
  (![fullShare, fullShare.left, fullShare.right, fullShare.right.left, fullShare.right.right] : Fin 5 → PosShare TreeShare) t

def slotsAll : Finset (Fin 3 × Fin 14) := Finset.univ.filter fun pi => pi.2.val < 7

def waited40 : Finset (Fin 3 × Fin 14) :=
  (Finset.univ.filter fun pi : Fin 3 × Fin 14 => pi.2.val < 10) ∪ {(0, 10), (0, 11), (1, 10)}

def done40 (c : Fin 8) : Fin 3 → Nat → Prop := fun p j =>
  j = jK2 p c ∨ j = jS2 p c ∨ j = jS1a p c ∨ j = jS1b p c ∨ (p = 0 ∧ (j = jLb 0 c ∨ j = jLa 0 c))

instance (c : Fin 8) (p : Fin 3) (j : Nat) : Decidable (done40 c p j) := by unfold done40; infer_instance

def hold40 : Finset (Fin 3 × Fin 8 × Fin 5) :=
  {(0, 1, 4), (0, 2, 2), (0, 3, 2), (0, 7, 0), (0, 6, 0),
   (1, 1, 4), (1, 2, 2), (1, 3, 2), (1, 7, 0),
   (2, 1, 4), (2, 2, 2), (2, 3, 2)}

theorem bigSep_univ_option {M : Type} [URA M] {α : Type} [Fintype α] [DecidableEq α] (Φ : Option α → sProp M) :
    bigSep Finset.univ Φ = iprop(Φ none ∗ bigSep Finset.univ fun a => Φ (some a)) := by
  have h : (Finset.univ : Finset (Option α)) = insert none (Finset.univ.map Function.Embedding.some) := by
    ext o; cases o <;> simp
  rw [h, bigSep_insert (by simp), bigSep_map]
  rfl

theorem bigSep_univ_bool {M : Type} [URA M] (Φ : Bool → sProp M) : bigSep Finset.univ Φ = iprop(Φ false ∗ Φ true) := by
  rw [show (Finset.univ : Finset Bool) = {false, true} from by decide, bigSep_insert (by decide), bigSep_singleton]
  rfl

section Levels

variable {sig : RefSig}

def lvS : SemLoc sig → Nat
  | .reg _ => 1
  | .dma q => if 44 ≤ q.val then 2 + phN ((q.val - 44) % 14) else 0

def L (g : GSem 8 Topo.v7x sig) : Finset Unit := if g.1.2 = .tc then {()} else ∅
def lv (g : GSem 8 Topo.v7x sig) (_ : Unit) : Nat := lvS g.2

theorem L_of_ne (g : GSem 8 Topo.v7x sig) (h : g.1.2 ≠ .tc) : L g = ∅ := if_neg h
theorem L_tc (c : Dev 8) (sm : SemLoc sig) : L ((c : Thread 8 Topo.v7x), sm) = {()} := if_pos rfl

theorem lvS_reg (s : Sem sig) : lvS (.reg s) = 1 := rfl
theorem lvS_low (q : DmaSem sig) (h : q.val < 44) : lvS (.dma q) = 0 := if_neg (Nat.not_le.mpr h)
theorem lvS_recv (q : DmaSem sig) (p : Fin 3) (i : Fin 14) (h : q.val = 44 + 14 * p.val + i.val) : lvS (.dma q) = 2 + ph i := by
  have hi := i.isLt
  show (if 44 ≤ q.val then 2 + phN ((q.val - 44) % 14) else 0) = 2 + phN i.val
  rw [if_pos (by omega), show (q.val - 44) % 14 = i.val by omega]

section Dues

variable (bS : Sem sig) (rS : Fin 3 → Fin 14 → DmaSem sig) (amt : Fin 3 → Fin 14 → Nat)

def barDue (c : Dev 8) (j : Fin 3) : GSem 8 Topo.v7x sig × Nat :=
  (((Dev.tc (Cert.RsAg.flip (barMask j) c) : Thread 8 Topo.v7x), .reg bS), 1)

def sendDue (c : Dev 8) (x : Fin 3 × Fin 14) : GSem 8 Topo.v7x sig × Nat :=
  (((Dev.tc (peer x.1 (stp x.2) c) : Thread 8 Topo.v7x), .dma (rS x.1 x.2)), amt x.1 x.2)

def dues (c : Dev 8) : List (GSem 8 Topo.v7x sig × Nat) :=
  barDue bS c 0 :: barDue bS c 1 :: barDue bS c 2 :: sendOrder.map (sendDue rS amt c)

def sumDues : List (GSem 8 Topo.v7x sig × Nat) → CellTallies 8 Topo.v7x sig Unit
  | [] => 0
  | d :: ds => sumDues ds + tallyAt d.1 () d.2

def owedAfter (c : Dev 8) (k : Nat) : CellTallies 8 Topo.v7x sig Unit := sumDues ((dues bS rS amt c).drop k)

def O₀ (c : Dev 8) : CellTallies 8 Topo.v7x sig Unit := owedAfter bS rS amt c 0

theorem sumDues_cons (d : GSem 8 Topo.v7x sig × Nat) (ds : List (GSem 8 Topo.v7x sig × Nat)) :
    sumDues (d :: ds) = sumDues ds + tallyAt d.1 () d.2 := rfl

theorem dues_length (c : Dev 8) : (dues bS rS amt c).length = 45 := by
  unfold dues; simp only [List.length_cons, List.length_map]; rfl

theorem owedAfter_succ (c : Dev 8) (k : Nat) (h : k < (dues bS rS amt c).length) :
    owedAfter bS rS amt c k = owedAfter bS rS amt c (k + 1) + tallyAt ((dues bS rS amt c)[k]).1 () ((dues bS rS amt c)[k]).2 := by
  unfold owedAfter
  rw [List.drop_eq_getElem_cons h, sumDues_cons]

theorem owedAfter_all (c : Dev 8) (k : Nat) (h : 45 ≤ k) : owedAfter bS rS amt c k = 0 := by
  unfold owedAfter
  rw [List.drop_of_length_le (by rw [dues_length]; exact h)]; rfl

theorem dues_drop_sends (c : Dev 8) (n : Nat) :
    (dues bS rS amt c).drop (3 + n) = (sendOrder.drop n).map (sendDue rS amt c) := by
  unfold dues
  rw [Nat.add_comm 3 n, List.drop_succ_cons, List.drop_succ_cons, List.drop_succ_cons, List.map_drop]

theorem sumDues_pos {ds : List (GSem 8 Topo.v7x sig × Nat)} {g : GSem 8 Topo.v7x sig} {u : Unit} (h : 0 < sumDues ds g u) : ∃ d ∈ ds, g = d.1 := by
  induction ds with
  | nil => exact absurd h (Nat.lt_irrefl 0)
  | cons d ds ih =>
    rw [sumDues_cons] at h
    rcases Pipeline.add_pos_cases h with h | h
    · obtain ⟨d', hd', hg⟩ := ih h
      exact ⟨d', List.mem_cons_of_mem _ hd', hg⟩
    · exact ⟨d, List.mem_cons_self, (Pipeline.tallyAt_pos h).1⟩

end Dues

section Waits

variable {Val : EltTy → Type} {Name : Type} [DecidableEq Name] {U : Type} [URA U]

local notation "𝕄" => MT 8 Topo.v7x sig Unit Val Name U Nat

variable (bS : Sem sig) (rS : Fin 3 → Fin 14 → DmaSem sig) (amt : Fin 3 → Fin 14 → Nat)

theorem mayWait_lev (c : Dev 8) (s : SemLoc sig) (O : CellTallies 8 Topo.v7x sig Unit)
    (h : ∀ (g : GSem 8 Topo.v7x sig) (u : Unit), 0 < O g u → g.1.2 = .tc ∧ lvS s < lvS g.2) :
    (levAts L lv : sProp 𝕄) ⊢ MayWait (c : Thread 8 Topo.v7x) s () O :=
  Pipeline.mayWait_of_levAts (by rw [L_tc]; exact Finset.mem_singleton_self _) fun g u hg => by
    obtain ⟨h1, h2⟩ := h g u hg
    refine ⟨?_, h2⟩
    unfold L; rw [if_pos h1]; exact Finset.mem_singleton_self _

theorem mayWait_owedAfter (c : Dev 8) (s : SemLoc sig) (k : Nat)
    (h : ∀ d ∈ (dues bS rS amt c).drop k, lvS s < lvS d.1.2 ∧ d.1.1.2 = .tc) :
    (levAts L lv : sProp 𝕄) ⊢ MayWait (c : Thread 8 Topo.v7x) s () (owedAfter bS rS amt c k) :=
  mayWait_lev c s _ fun g u hg => by
    obtain ⟨d, hd, rfl⟩ := sumDues_pos hg
    exact ⟨(h d hd).2, (h d hd).1⟩

variable (hr : ∀ p i, (rS p i).val = 44 + 14 * p.val + i.val)
include hr

theorem dues_lev (c : Dev 8) : ∀ d ∈ dues bS rS amt c, 1 ≤ lvS d.1.2 ∧ d.1.1.2 = .tc := by
  intro d hd
  unfold dues at hd
  simp only [List.mem_cons, List.mem_map] at hd
  rcases hd with rfl | rfl | rfl | ⟨x, -, rfl⟩
  · exact ⟨Nat.le_refl 1, rfl⟩
  · exact ⟨Nat.le_refl 1, rfl⟩
  · exact ⟨Nat.le_refl 1, rfl⟩
  · refine ⟨?_, rfl⟩
    show 1 ≤ lvS (.dma (rS x.1 x.2))
    rw [lvS_recv _ x.1 x.2 (hr x.1 x.2)]; omega

theorem mayWait_low (c : Dev 8) (q : DmaSem sig) (hq : q.val < 44) (k : Nat) :
    (levAts L lv : sProp 𝕄) ⊢ MayWait (c : Thread 8 Topo.v7x) (.dma q) () (owedAfter bS rS amt c k) :=
  mayWait_owedAfter bS rS amt c _ k fun d hd => by
    rw [lvS_low q hq]
    obtain ⟨h1, h2⟩ := dues_lev bS rS amt hr c d (List.mem_of_mem_drop hd)
    exact ⟨h1, h2⟩

theorem mayWait_bar (c : Dev 8) :
    (levAts L lv : sProp 𝕄) ⊢ MayWait (c : Thread 8 Topo.v7x) (.reg bS) () (owedAfter bS rS amt c 3) :=
  mayWait_owedAfter bS rS amt c _ 3 fun d hd => by
    rw [show (3 : Nat) = 3 + 0 from rfl, dues_drop_sends] at hd
    obtain ⟨x, -, rfl⟩ := List.mem_map.mp hd
    refine ⟨?_, rfl⟩
    show lvS (.reg bS) < lvS (.dma (rS x.1 x.2))
    rw [lvS_reg, lvS_recv _ x.1 x.2 (hr x.1 x.2)]; omega

theorem mayWait_recv (c : Dev 8) (p : Fin 3) (i : Fin 14) :
    (levAts L lv : sProp 𝕄) ⊢ MayWait (c : Thread 8 Topo.v7x) (.dma (rS p i)) () (owedAfter bS rS amt c (3 + nBefore p i)) :=
  mayWait_owedAfter bS rS amt c _ _ fun d hd => by
    rw [dues_drop_sends] at hd
    obtain ⟨x, hx, rfl⟩ := List.mem_map.mp hd
    refine ⟨?_, rfl⟩
    show lvS (.dma (rS p i)) < lvS (.dma (rS x.1 x.2))
    rw [lvS_recv _ p i (hr p i), lvS_recv _ x.1 x.2 (hr x.1 x.2)]
    have := ph_lt_of_later p i x hx
    omega

end Waits

end Levels

def doneOf (D : Finset (Fin 3 × Fin 8)) (c : Fin 8) : Fin 3 → Nat → Prop := fun p j => ∃ r : Fin 8, (p, r) ∈ D ∧ j = roleJ p r c

instance doneOf_dec (D : Finset (Fin 3 × Fin 8)) (c : Fin 8) (p : Fin 3) (j : Nat) : Decidable (doneOf D c p j) := by
  unfold doneOf; infer_instance

def n27 (c : Fin 8) : Fin 3 → Nat → Nat := bump (nMid c) 0 (jK2 0 c)

def n28 (c : Fin 8) : Fin 3 → Nat → Nat := bump (n27 c) 1 (jK2 1 c)

def n30 (c : Fin 8) : Fin 3 → Nat → Nat := bump (n28 c) 2 (jK2 2 c)

def w28 : Finset (Fin 3 × Fin 14) := insert (1, 6) waitedMid

def w30 : Finset (Fin 3 × Fin 14) := insert (2, 6) w28

def w32 : Finset (Fin 3 × Fin 14) := insert (0, 7) w30

def w33 : Finset (Fin 3 × Fin 14) := insert (1, 7) w32

def w34 : Finset (Fin 3 × Fin 14) := insert (2, 7) w33

def w35 : Finset (Fin 3 × Fin 14) := insert (0, 9) (insert (0, 8) w34)

def w36 : Finset (Fin 3 × Fin 14) := insert (1, 8) w35

def w37 : Finset (Fin 3 × Fin 14) := insert (1, 9) w36

def w38 : Finset (Fin 3 × Fin 14) := insert (2, 9) (insert (2, 8) w37)

def w39 : Finset (Fin 3 × Fin 14) := insert (0, 10) w38

def w40 : Finset (Fin 3 × Fin 14) := insert (1, 10) (insert (0, 11) w39)

def l27 : Finset (Fin 3 × Fin 14) := (waitedMid.erase (0, 6)).erase (0, 5)

def l28 : Finset (Fin 3 × Fin 14) := insert (1, 6) (l27.erase (0, 3))

def l29 : Finset (Fin 3 × Fin 14) := (l28.erase (1, 6)).erase (1, 5)

def l30 : Finset (Fin 3 × Fin 14) := insert (2, 6) (l29.erase (1, 3))

def l31 : Finset (Fin 3 × Fin 14) := ((l30.erase (2, 6)).erase (2, 5)).erase (2, 3)

def l32 : Finset (Fin 3 × Fin 14) := (l31.erase (0, 4)).erase (0, 2)

def l33 : Finset (Fin 3 × Fin 14) := (l32.erase (1, 4)).erase (1, 2)

def l34 : Finset (Fin 3 × Fin 14) := (l33.erase (2, 4)).erase (2, 2)

def l35 : Finset (Fin 3 × Fin 14) := l34.erase (0, 1)

def l36 : Finset (Fin 3 × Fin 14) := l35.erase (0, 0)

def l37 : Finset (Fin 3 × Fin 14) := (l36.erase (1, 1)).erase (1, 0)

def l38 : Finset (Fin 3 × Fin 14) := l37.erase (2, 1)

def h34 : Finset (Fin 3 × Fin 8 × Fin 5) := {(0, 1, 4), (1, 1, 4), (2, 1, 4)}

def h35 : Finset (Fin 3 × Fin 8 × Fin 5) := insert (0, 2, 0) (insert (0, 3, 2) h34)

def h36 : Finset (Fin 3 × Fin 8 × Fin 5) := insert (1, 3, 0) (insert (0, 2, 2) (insert (0, 3, 2) h34))

def h37 : Finset (Fin 3 × Fin 8 × Fin 5) := insert (1, 2, 2) (insert (1, 3, 2) (insert (0, 2, 2) (insert (0, 3, 2) h34)))

def h38 : Finset (Fin 3 × Fin 8 × Fin 5) := insert (2, 2, 0) (insert (2, 3, 2) h37)

def h39 : Finset (Fin 3 × Fin 8 × Fin 5) := insert (0, 7, 0) (insert (2, 2, 2) (insert (2, 3, 2) h37))

def d28 : Finset (Fin 3 × Fin 8) := insert (0, 0) ∅

def d30 : Finset (Fin 3 × Fin 8) := insert (1, 0) d28

def d31 : Finset (Fin 3 × Fin 8) := insert (2, 0) d30

def d32 : Finset (Fin 3 × Fin 8) := insert (0, 1) d31

def d33 : Finset (Fin 3 × Fin 8) := insert (1, 1) d32

def d34 : Finset (Fin 3 × Fin 8) := insert (2, 1) d33

def d36 : Finset (Fin 3 × Fin 8) := insert (0, 3) (insert (0, 2) d34)

def d38 : Finset (Fin 3 × Fin 8) := insert (1, 3) (insert (1, 2) d36)

def d39 : Finset (Fin 3 × Fin 8) := insert (2, 3) (insert (2, 2) d38)

def d40 : Finset (Fin 3 × Fin 8) := insert (0, 6) (insert (0, 7) d39)

theorem w30_slots : w30 = slotsAll := by decide

theorem w40_eq : w40 = waited40 := by decide

theorem l38_erase : l38.erase (2, 0) = ∅ := by decide

theorem h40_eq : insert (1, 7, 0) (insert (0, 6, 0) h39) = hold40 := by decide

theorem n30_eq (c : Fin 8) : ∀ (p : Fin 3) (j : Nat), n30 c p j = nFin c p j := by
  intro p j
  rw [← bump_nMid c p j]
  fin_cases p <;> simp [n30, n28, n27, bump]

theorem d40_iff : ∀ (c : Fin 8) (p : Fin 3) (j : Fin 8), doneOf d40 c p j.val ↔ done40 c p j.val := by decide

theorem roleRow_eq (p : Fin 3) (r : Fin 8) (c : Fin 8) : roleRow p r c = slab p (roleJ p r c) := by
  fin_cases r <;> rfl

theorem roleJ_lt : ∀ (p : Fin 3) (r : Fin 8) (c : Fin 8), roleJ p r c < 8 := by decide

theorem part_slab_iff {p : Fin 3} {j : Nat} (hj : j < 8) (i : W.Idx) :
    partOf (i 0).val = p ∧ slabOf (i 0).val = j ↔ inSlab p j (i 0).val :=
  ⟨fun ⟨hp, hs⟩ => hp ▸ hs ▸ inSlab_partOf_slabOf (row_lt i), fun h => ⟨partOf_of_inSlab hj h, slabOf_of_inSlab hj h⟩⟩

theorem doneOf_insert (D : Finset (Fin 3 × Fin 8)) (c : Fin 8) (p0 : Fin 3) (r0 : Fin 8) (p : Fin 3) (j : Nat) :
    doneOf (insert (p0, r0) D) c p j ↔ doneOf D c p j ∨ (p = p0 ∧ j = roleJ p0 r0 c) := by
  unfold doneOf
  constructor
  · rintro ⟨r, hr, hj⟩
    obtain h | h := Finset.mem_insert.mp hr
    · cases h; exact .inr ⟨rfl, hj⟩
    · exact .inl ⟨r, h, hj⟩
  · rintro (⟨r, hr, hj⟩ | ⟨rfl, hj⟩)
    · exact ⟨r, Finset.mem_insert_of_mem hr, hj⟩
    · exact ⟨r0, Finset.mem_insert_self _ _, hj⟩

theorem roleJ_ne_jK2 : ∀ (p : Fin 3) (r : Fin 8) (c : Fin 8), r ≠ 0 → roleJ p r c ≠ jK2 p c := by decide

theorem ownMid_image : ownMid = (({0, 1, 2} : Finset (Fin 3)).image fun p => ((p, 0) : Fin 3 × Fin 8)) := by decide

section Block

theorem s1_cases : ∀ (p : Fin 3) (c : Fin 8),
    (oS1a p c = oS1 p c ∧ oS1b p c = oS1 p c + eRows p) ∨ (oS1b p c = oS1 p c ∧ oS1a p c = oS1 p c + eRows p) := by decide

end Block

theorem landRow_peer : ∀ (p : Fin 3) (i : Fin 14) (c : Fin 8), 7 ≤ i.val → landRow p (peer p (stp i) c) i = gSrcRow p c i := by
  decide +kernel

theorem landJ_peer : ∀ (p : Fin 3) (i : Fin 14) (c : Fin 8), 7 ≤ i.val → landJ p (peer p (stp i) c) i = gSrcJ p c i := by
  decide +kernel

section BigSepForms
variable {M : Type} [URA M] {I : Type} [DecidableEq I]

theorem bigSep_insert' {s : Finset I} {i : I} (hi : i ∉ s) {Φ : I → sProp M} :
    bigSep (insert i s) Φ = iprop(Φ i ∗ bigSep s Φ) := bigSep_insert hi

theorem bigSep_erase' {s : Finset I} {i : I} (hi : i ∈ s) {Φ : I → sProp M} :
    bigSep s Φ = iprop(Φ i ∗ bigSep (s.erase i) Φ) := bigSep_erase hi

theorem bigSep_compl_take [Fintype I] {s : Finset I} {i : I} (hi : i ∉ s) {Φ : I → sProp M} :
    bigSep (Finset.univ \ s) Φ = iprop(Φ i ∗ bigSep (Finset.univ \ insert i s) Φ) := by
  rw [bigSep_erase (Finset.mem_sdiff.mpr ⟨Finset.mem_univ i, hi⟩), Finset.sdiff_insert]; rfl

-- The summand at `i` passes from the rest to the members of `s`.

theorem bigSep_mark [Fintype I] {s : Finset I} {i : I} (hi : i ∉ s) (Φ : I → ℕ → sProp M) :
    bigSep Finset.univ (fun x => Φ x (if x ∈ s then 1 else 0))
      ⊢ iprop(Φ i 0 ∗ (Φ i 1 -∗ bigSep Finset.univ fun x => Φ x (if x ∈ insert i s then 1 else 0))) := by
  have h := bigSep_univ_update (Φ := fun x => Φ x (if x ∈ s then 1 else 0))
    (Ψ := fun x => Φ x (if x ∈ insert i s then 1 else 0)) i
    (fun j hj => by simp only [Finset.mem_insert, hj, false_or])
  rwa [if_neg hi, if_pos (Finset.mem_insert_self _ _)] at h

end BigSepForms

theorem started_succ {ns : Nat} {pi : Fin 3 × Fin 14} (h : sendOrder[ns]? = some pi) :
    started (ns + 1) = insert pi (started ns) := by
  ext x
  simp only [started, List.mem_toFinset, Finset.mem_insert, List.take_succ, h, Option.toList_some, List.mem_append,
    List.mem_singleton]
  exact or_comm

theorem not_mem_started_all : ∀ ns : Fin 42, sendOrder.getD ns.val (0, 0) ∉ started ns.val := by decide

theorem not_mem_started {ns : Nat} {pi : Fin 3 × Fin 14} (h : sendOrder[ns]? = some pi) : pi ∉ started ns := by
  have hl : ns < 42 := (List.getElem?_eq_some_iff.mp h).1
  have := not_mem_started_all ⟨ns, hl⟩
  rwa [List.getD_eq_getElem?_getD, h] at this

theorem started_all : started 42 = Finset.univ := by decide

theorem Xlev_in (Xv : Fin 8 → FVec F W .f32) (c : Fin 8) (n : Fin 3 → Nat → Nat) {p : Fin 3} {j : Nat} (i : W.Idx) (hj : j < 8)
    (hin : inSlab p j (i 0).val) : Xlev Xv c n i = Pn Xv p c (n p j) i := by
  show Pn Xv (partOf (i 0).val) c (n (partOf (i 0).val) (slabOf (i 0).val)) i = _
  rw [partOf_of_inSlab hj hin, slabOf_of_inSlab hj hin]

abbrev nx0 : Fin 3 → Nat → Nat := fun _ _ => 0

abbrev own5 : Finset (Fin 3 × Fin 8) := Finset.univ \ {(0, 4), (0, 5)}

abbrev own7 : Finset (Fin 3 × Fin 8) := own5 \ {(1, 4), (1, 5)}

abbrev own8 : Finset (Fin 3 × Fin 8) := own7 \ {(2, 4), (2, 5)}

abbrev own9 : Finset (Fin 3 × Fin 8) := own8 \ {(0, 6), (0, 7)}

abbrev own10 : Finset (Fin 3 × Fin 8) := own9 \ {(1, 6), (1, 7)}

abbrev own11 : Finset (Fin 3 × Fin 8) := own10 \ {(2, 6), (2, 7)}

def sendRole (i : Fin 14) : Fin 8 := (![4, 5, 6, 7, 2, 3, 1, 0, 0, 0, 0, 0, 0, 0] : Fin 14 → Fin 8) i

theorem unsent_succ {ns : Nat} {pi : Fin 3 × Fin 14} (h : sendOrder[ns]? = some pi) :
    ((Finset.univ \ started (ns + 1)).filter fun q : Fin 3 × Fin 14 => q.2.val < 7)
      = ((Finset.univ \ started ns).filter fun q : Fin 3 × Fin 14 => q.2.val < 7).erase pi := by
  rw [started_succ h, Finset.sdiff_insert, Finset.filter_erase]

theorem trunc_cast {s : Shape} (v : Vec F s .f32) (h1 h2 : s.ShapeCasts s) (hb : FTy.bits .bf16 < FTy.bits .f32) :
    shapeCast s (truncf .bf16 (shapeCast s v h1) hb) h2 = fun j => FloatOps.truncf .bf16 hb (v j) := by
  simp only [shapeCast_same]
  rfl

def adds (c : Fin 8) : List (Fin 3 × Nat) :=
  [(1, jS1a 1 c), (2, jS1a 2 c), (0, jS1b 0 c), (1, jS1b 1 c), (2, jS1b 2 c), (0, jS2 0 c), (0, jS2 0 c), (1, jS2 1 c), (1, jS2 1 c),
   (2, jS2 2 c), (2, jS2 2 c), (0, jK2 0 c), (0, jK2 0 c), (1, jK2 1 c), (1, jK2 1 c), (2, jK2 2 c), (2, jK2 2 c)]

def waitList : List (Fin 3 × Fin 14) :=
  [(2, 0), (0, 1), (1, 1), (2, 1), (0, 2), (0, 4), (1, 2), (1, 4), (2, 2), (2, 4), (0, 3), (0, 5), (1, 3), (1, 5), (2, 3), (2, 5), (0, 6)]

def gone : List (Fin 3 × Fin 8) := [(1, 2), (2, 2), (0, 3), (1, 3), (2, 3), (0, 1), (1, 1), (2, 1)]

def nxA (c : Fin 8) (n : Nat) : Fin 3 → Nat → Nat := ((adds c).take n).foldl (fun nx a => bump nx a.1 a.2) (nx13 c)

def wA (n : Nat) : Finset (Fin 3 × Fin 14) := (waitList.take n).foldl (fun s a => insert a s) waited13

def ownA (n : Nat) : Finset (Fin 3 × Fin 8) := (gone.take n).foldl Finset.erase own13

theorem nx26_eq : ∀ (c : Fin 8) (p : Fin 3) (j : Fin 8), nxA c 17 p j.val = nMid c p j.val := by decide +kernel

theorem Xlev_nx26 (Xv : Fin 8 → FVec F W .f32) (c : Fin 8) : Xlev Xv c (nxA c 17) = Xlev Xv c (nMid c) := by
  funext i
  exact congrArg (fun n => Pn Xv (partOf (i 0).val) c n i)
    (nx26_eq c (partOf (i 0).val) ⟨slabOf (i 0).val, slabOf_lt (row_lt i)⟩)

theorem w26_eq : wA 17 = waitedMid := by decide +kernel

theorem own23_eq : ownA 8 = ownMid := by decide +kernel

theorem src4 : ∀ (p : Fin 3) (c : Fin 8), slab p (jS1a p c) = srcRow p (peer p (stp 4) c) 4 := by decide +kernel

theorem src5 : ∀ (p : Fin 3) (c : Fin 8), slab p (jS1b p c) = srcRow p (peer p (stp 5) c) 5 := by decide +kernel

theorem src6 : ∀ (p : Fin 3) (c : Fin 8), slab p (jS2 p c) = srcRow p (peer p (stp 6) c) 6 := by decide +kernel

theorem slot4 : ∀ (p : Fin 3) (c : Fin 8), rS2₁ p c = slot p (peer p (stp 4) c) 4 := by decide +kernel

theorem slot5 : ∀ (p : Fin 3) (c : Fin 8), rK2₁ p c = slot p (peer p (stp 5) c) 5 := by decide +kernel

theorem slot6 : ∀ (p : Fin 3) (c : Fin 8), rK2₂ p c = slot p (peer p (stp 6) c) 6 := by decide +kernel

theorem nxA_at (c : Fin 8) (n : Nat) (p : Fin 3) (J : Fin 3 → Fin 8 → Nat) (k : Nat)
    (h : ∀ c, nxA c n p (J p c) = k := by decide +kernel) : nxA c n p (J p c) = k := h c

theorem nMid_kept : ∀ (c : Fin 8) (p : Fin 3), nMid c p (jK2 p c) = 2 := by decide

theorem n27_kept : ∀ c : Fin 8, n27 c 0 (jK2 0 c) = 3 := by decide

theorem n27_at1 : ∀ c : Fin 8, n27 c 1 (jK2 1 c) = 2 := by decide

theorem n28_kept1 : ∀ c : Fin 8, n28 c 1 (jK2 1 c) = 3 := by decide

theorem n28_at2 : ∀ c : Fin 8, n28 c 2 (jK2 2 c) = 2 := by decide

theorem n30_kept2 : ∀ c : Fin 8, n30 c 2 (jK2 2 c) = 3 := by decide

def holdEnd : Finset (Fin 3 × Fin 8 × Fin 5) :=
  {(0, 1, 4), (0, 2, 2), (0, 3, 2), (0, 4, 0), (0, 5, 0), (0, 6, 0), (0, 7, 0),
   (1, 1, 4), (1, 2, 2), (1, 3, 2), (1, 4, 0), (1, 5, 0), (1, 6, 0), (1, 7, 0),
   (2, 1, 4), (2, 2, 2), (2, 3, 2), (2, 4, 0), (2, 5, 0), (2, 6, 0), (2, 7, 0)}

def swN (n : Nat) : Finset (Fin 3 × Fin 14) := Finset.univ.filter fun pi => 14 * pi.1.val + pi.2.val < n

theorem mem_swN {n : Nat} {pi : Fin 3 × Fin 14} : pi ∈ swN n ↔ 14 * pi.1.val + pi.2.val < n := by
  simp only [swN, Finset.mem_filter, Finset.mem_univ, true_and]

theorem swN_zero : swN 0 = ∅ := by decide

theorem swN_all : swN 42 = Finset.univ := by decide

theorem not_mem_swN {n : Nat} {p : Fin 3} {i : Fin 14} (hn : n = 14 * p.val + i.val) : (p, i) ∉ swN n := by
  rw [mem_swN]; show ¬ (14 * p.val + i.val < n); omega

theorem swN_succ {n : Nat} {p : Fin 3} {i : Fin 14} (hn : n = 14 * p.val + i.val) : swN (n + 1) = insert (p, i) (swN n) := by
  ext ⟨q, j⟩
  have := j.isLt; have := i.isLt
  simp only [Finset.mem_insert, mem_swN, Prod.mk.injEq, Fin.ext_iff]
  omega

abbrev gw2 : Finset (Fin 3 × Fin 14) := insert (2, 10) (insert (1, 11) waited40)

abbrev gw4 : Finset (Fin 3 × Fin 14) := insert (0, 12) (insert (2, 11) gw2)

abbrev gw6 : Finset (Fin 3 × Fin 14) := insert (1, 12) (insert (0, 13) gw4)

abbrev gw8 : Finset (Fin 3 × Fin 14) := insert (2, 12) (insert (1, 13) gw6)

abbrev gh2 : Finset (Fin 3 × Fin 8 × Fin 5) := insert (2, 7, 0) (insert (1, 6, 0) hold40)

abbrev gh4 : Finset (Fin 3 × Fin 8 × Fin 5) := insert (0, 5, 0) (insert (2, 6, 0) gh2)

abbrev gh5 : Finset (Fin 3 × Fin 8 × Fin 5) := insert (0, 4, 0) gh4

abbrev gh7 : Finset (Fin 3 × Fin 8 × Fin 5) := insert (1, 4, 0) (insert (1, 5, 0) gh5)

abbrev gd2 (c : Fin 8) : Fin 3 → Nat → Prop := doneAdd (doneAdd (done40 c) 1 (roleJ 1 7 c)) 1 (roleJ 1 6 c)

abbrev gd4 (c : Fin 8) : Fin 3 → Nat → Prop := doneAdd (doneAdd (gd2 c) 2 (roleJ 2 7 c)) 2 (roleJ 2 6 c)

abbrev gd6 (c : Fin 8) : Fin 3 → Nat → Prop := doneAdd (doneAdd (gd4 c) 0 (roleJ 0 5 c)) 0 (roleJ 0 4 c)

abbrev gd8 (c : Fin 8) : Fin 3 → Nat → Prop := doneAdd (doneAdd (gd6 c) 1 (roleJ 1 5 c)) 1 (roleJ 1 4 c)

abbrev gd10 (c : Fin 8) : Fin 3 → Nat → Prop := doneAdd (doneAdd (gd8 c) 2 (roleJ 2 5 c)) 2 (roleJ 2 4 c)

theorem d10_all (c : Fin 8) : ∀ (p : Fin 3) (j : Nat), j < 8 → gd10 c p j := by
  have h : ∀ (c : Fin 8) (p : Fin 3) (j : Fin 8), gd10 c p j.val := by decide
  exact fun p j hj => h c p ⟨j, hj⟩

end Cert.RsAg

end
-- ==== Proof.KI.Sched.lean ====
import proofs.«901015_g7700000000001016_dist_rs_then_ag_i_m4096_n1024_v7x_i8_f32_1_alg».proof.Proof.Gen.KernelIdeal
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.Common
import Idealize.ShloMosaic.Lib.Pipeline.Launch
import Idealize.ShloMosaic.Lib.Pipeline.Kit
import Idealize.ShloMosaic.Lib.Tactic

noncomputable section

namespace Cert.KernelIdeal.RsAg

open Cert.KernelIdeal Cert.KernelIdeal.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def X (d : Fin 8) : FVec F W .f32 := m ((Dev.tc d : Thread nD τ).loc main_arg0)

abbrev xL (c : Dev nD) : Loc nD τ sig := (Dev.tc c : Thread nD τ).loc cc0_stg0_0
abbrev oL (c : Dev nD) : Loc nD τ sig := (Dev.tc c : Thread nD τ).loc cc0_stg1_0
abbrev sL (c : Dev nD) : Loc nD τ sig := (Dev.tc c : Thread nD τ).loc cc0_scratch0
abbrev rL (c : Dev nD) : Loc nD τ sig := (Dev.tc c : Thread nD τ).loc cc0_scratch1

def stgRows (c : Dev nD) (p : Fin 3) (o : Nat) (q : PosShare TreeShare) (f : FVec F W .bf16) : sProp 𝕄 :=
  sL c ↦[rowsSet (S := S4096x1024) ⟨0, by decide⟩ o (eRows p)]{q} f
def rsrRows (c : Dev nD) (p : Fin 3) (o : Nat) (f : FVec F WR .bf16) : sProp 𝕄 :=
  rL c ↦[rowsSet (S := S3584x1024) ⟨0, by decide⟩ o (eRows p)]{fullShare} f

abbrev barS : Sem sig := (SemArray.scalar (sig.barrier 0 rfl) : Sems sig S_).sem
def sSem (p : Fin 3) (i : Fin 14) : DmaSem sig :=
  ⟨2 + 14 * p.val + i.val, by have hp := p.isLt; have hi := i.isLt; have h : sig.nDmaSem = 86 := (by decide); omega⟩
def rSem (p : Fin 3) (i : Fin 14) : DmaSem sig :=
  ⟨44 + 14 * p.val + i.val, by have hp := p.isLt; have hi := i.isLt; have h : sig.nDmaSem = 86 := (by decide); omega⟩

abbrev barCell (c : Dev nD) : GSem nD τ sig := ((Dev.tc c : Thread nD τ), .reg barS)
abbrev sendCell (c : Dev nD) (p : Fin 3) (i : Fin 14) : GSem nD τ sig := ((Dev.tc c : Thread nD τ), .dma (sSem p i))
abbrev recvCell (c : Dev nD) (p : Fin 3) (i : Fin 14) : GSem nD τ sig := ((Dev.tc c : Thread nD τ), .dma (rSem p i))

def semPart (s : DmaSem sig) : Fin 3 := ⟨((s.val - 2) % 42) / 14, by omega⟩
def semCopy (s : DmaSem sig) : Fin 14 := ⟨((s.val - 2) % 42) % 14, by omega⟩
def semIsRecv (s : DmaSem sig) : Bool := decide (44 ≤ s.val)

theorem semPart_sSem : ∀ (p : Fin 3) (i : Fin 14), semPart (sSem p i) = p := by decide
theorem semCopy_sSem : ∀ (p : Fin 3) (i : Fin 14), semCopy (sSem p i) = i := by decide
theorem semPart_rSem : ∀ (p : Fin 3) (i : Fin 14), semPart (rSem p i) = p := by decide
theorem semCopy_rSem : ∀ (p : Fin 3) (i : Fin 14), semCopy (rSem p i) = i := by decide
theorem semIsRecv_sSem : ∀ (p : Fin 3) (i : Fin 14), semIsRecv (sSem p i) = false := by decide
theorem semIsRecv_rSem : ∀ (p : Fin 3) (i : Fin 14), semIsRecv (rSem p i) = true := by decide

theorem inb0_r176 : ∀ a, (![0, 0] : Fin 2 → Nat) a + S176x1024.size a ≤ S3584x1024.size a := by decide
theorem inb0_r160 : ∀ a, (![0, 0] : Fin 2 → Nat) a + S160x1024.size a ≤ S3584x1024.size a := by decide
theorem inb0_s176 : ∀ a, (![0, 0] : Fin 2 → Nat) a + S176x1024.size a ≤ S4096x1024.size a := by decide
theorem inb0_s160 : ∀ a, (![0, 0] : Fin 2 → Nat) a + S160x1024.size a ≤ S4096x1024.size a := by decide

def cr176r : ℕ := ((Memref.whole cc0_scratch1 : Memref sig .tc .vmem S3584x1024 .bf16).slice (Rect.unit (s := S3584x1024) ![0, 0] S176x1024.size inb0_r176) (fun _ => rfl)).view.dmaCredit
def cr160r : ℕ := ((Memref.whole cc0_scratch1 : Memref sig .tc .vmem S3584x1024 .bf16).slice (Rect.unit (s := S3584x1024) ![0, 0] S160x1024.size inb0_r160) (fun _ => rfl)).view.dmaCredit
def cr176s : ℕ := ((Memref.whole cc0_scratch0 : Memref sig .tc .vmem S4096x1024 .bf16).slice (Rect.unit (s := S4096x1024) ![0, 0] S176x1024.size inb0_s176) (fun _ => rfl)).view.dmaCredit
def cr160s : ℕ := ((Memref.whole cc0_scratch0 : Memref sig .tc .vmem S4096x1024 .bf16).slice (Rect.unit (s := S4096x1024) ![0, 0] S160x1024.size inb0_s160) (fun _ => rfl)).view.dmaCredit
def amt (p : Fin 3) (i : Fin 14) : ℕ :=
  if i.val < 7 then (if p.val < 2 then cr176r else cr160r) else (if p.val < 2 then cr176s else cr160s)

theorem amt_pos (p : Fin 3) (i : Fin 14) : 0 < amt p i := by
  unfold amt cr176r cr160r cr176s cr160s; split <;> split <;> exact View.dmaCredit_pos _ (by decide)

def sent (p : Fin 3) (d : Fin 8) (i : Fin 14) : FVec F W .bf16 :=
  if i.val < 4 then snd (X m d) else if i.val < 6 then snd (P1 (X m) p d) else snd (P2 (X m) p d)

def recvPay (c : Fin 8) (p : Fin 3) (i : Fin 14) : sProp 𝕄 :=
  if i.val < 7 then
    iprop(rsrRows c p (slot p c i) (reRow (srcRow p c i) (slot p c i) (sent m p (peer p (stp i) c) i))
      ∗ stgRows (peer p (stp i) c) p (srcRow p c i) fullShare (sent m p (peer p (stp i) c) i))
  else stgRows c p (landRow p c i) fullShare (Stg (X m) p (landJ p c i))

def sendPay (c : Fin 8) (p : Fin 3) (i : Fin 14) : sProp 𝕄 :=
  if i.val < 7 then iprop(emp) else stgRows c p (gSrcRow p c i) (gShare i) (Stg (X m) p (gSrcJ p c i))

def slotsOf (d : Fin 8) (p k' : Fin 3) : sProp 𝕄 :=
  if k'.val = 0 then iprop((∃ f, rsrRows d p (rFa p d) f) ∗ (∃ f, rsrRows d p (rFb p d) f) ∗ (∃ f, rsrRows d p (rS2₀ p d) f) ∗ (∃ f, rsrRows d p (rK2₀ p d) f))
  else if k'.val = 1 then iprop((∃ f, rsrRows d p (rS2₁ p d) f) ∗ (∃ f, rsrRows d p (rK2₁ p d) f))
  else iprop(∃ f, rsrRows d p (rK2₂ p d) f)

def barPay (c : Fin 8) (k : Fin 3) : sProp 𝕄 :=
  iprop(slotsOf (flip (barMask k) c) 0 (stepOf k 0) ∗ slotsOf (flip (barMask k) c) 1 (stepOf k 1) ∗ slotsOf (flip (barMask k) c) 2 (stepOf k 2))

def sched : Rounds.Schedule (GSem nD τ sig) (Fin 3) 𝕄 where
  duties g r :=
    if r = 0 ∧ g.1.2 = .tc then
      (match g.2 with
        | .reg s => if s = barS then Finset.univ else ∅
        | .dma s => if 2 ≤ s.val then {0} else ∅)
    else ∅
  unitless _ := False
  amount g _ _ := match g.2 with
    | .reg _ => 1
    | .dma s => amt (semPart s) (semCopy s)
  payload g _ d := match g.2 with
    | .reg _ => barPay g.1.1 d
    | .dma s => if semIsRecv s then recvPay m g.1.1 (semPart s) (semCopy s) else sendPay m g.1.1 (semPart s) (semCopy s)
  amount_pos g _ _ _ := by
    cases hg : g.2 with
    | reg s => simp only [hg]; exact Nat.one_pos
    | dma s => simp only [hg]; exact amt_pos _ _

instance sched_payload_storable (g : GSem nD τ sig) (r : ℕ) (d : Fin 3) :
    BI.Storable (upEmb : UEmb _ 𝕄) ((sched (F := F) m).payload g r d) := by
  show BI.Storable upEmb (match g.2 with
    | .reg _ => barPay g.1.1 d
    | .dma s => if semIsRecv s then recvPay m g.1.1 (semPart s) (semCopy s) else sendPay m g.1.1 (semPart s) (semCopy s))
  unfold barPay slotsOf recvPay sendPay stgRows rsrRows
  (repeat' split) <;> infer_instance

end Cert.KernelIdeal.RsAg

end
-- ==== Proof.KI.Credit.lean ====
import proofs.«901015_g7700000000001016_dist_rs_then_ag_i_m4096_n1024_v7x_i8_f32_1_alg».proof.Proof.KI.Sched
import Idealize.ShloMosaic.Lib.Pipeline.Launch

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

def flipE (j : Fin 3) : Dev nD ≃ Dev nD := ⟨Cert.RsAg.flip (barMask j), Cert.RsAg.flip (barMask j), flip_flip j, flip_flip j⟩
def peerE (p k : Fin 3) : Dev nD ≃ Dev nD := ⟨peer p k, peer p k, peer_peer p k, peer_peer p k⟩

def ownCredit (c : Dev nD) : CellTallies nD τ sig Unit :=
  tallyAt (barCell c) () 3 + ∑ x : Fin 3 × Fin 14, tallyAt (recvCell c x.1 x.2) () (amt x.1 x.2)

theorem sumDues_eq_sum (ds : List (GSem nD τ sig × Nat)) :
    sumDues ds = (ds.map fun d => (tallyAt d.1 () d.2 : CellTallies nD τ sig Unit)).sum := by
  induction ds with
  | nil => rfl
  | cons d ds ih => rw [sumDues_cons, ih, List.map_cons, List.sum_cons, add_comm]

theorem O₀_eq (c : Dev nD) :
    O₀ barS rSem amt c = (tallyAt (barCell (Cert.RsAg.flip (barMask 0) c)) () 1 + (tallyAt (barCell (Cert.RsAg.flip (barMask 1) c)) () 1
        + (tallyAt (barCell (Cert.RsAg.flip (barMask 2) c)) () 1
          + ∑ x : Fin 3 × Fin 14, (tallyAt (recvCell (peer x.1 (stp x.2) c) x.1 x.2) () (amt x.1 x.2) : CellTallies nD τ sig Unit)))) := by
  unfold O₀ owedAfter
  rw [List.drop_zero, sumDues_eq_sum]
  unfold dues
  rw [List.map_cons, List.map_cons, List.map_cons, List.sum_cons, List.sum_cons, List.sum_cons, List.map_map]
  have hu : (Finset.univ : Finset (Fin 3 × Fin 14)) = sendOrder.toFinset :=
    (Finset.eq_univ_iff_forall.mpr fun x => List.mem_toFinset.mpr (mem_sendOrder x)).symm
  rw [hu, List.sum_toFinset _ sendOrder_nodup]
  rfl

theorem sum_O₀ : (∑ d : Dev nD, O₀ barS rSem amt d) = ∑ d : Dev nD, ownCredit d := by
  have hb (j : Fin 3) : (∑ d : Dev nD, (tallyAt (barCell (Cert.RsAg.flip (barMask j) d)) () 1 : CellTallies nD τ sig Unit))
      = ∑ d : Dev nD, tallyAt (barCell d) () 1 :=
    Equiv.sum_comp (flipE j) fun d => (tallyAt (barCell d) () 1 : CellTallies nD τ sig Unit)
  have hs (x : Fin 3 × Fin 14) : (∑ d : Dev nD, (tallyAt (recvCell (peer x.1 (stp x.2) d) x.1 x.2) () (amt x.1 x.2) : CellTallies nD τ sig Unit))
      = ∑ d : Dev nD, tallyAt (recvCell d x.1 x.2) () (amt x.1 x.2) :=
    Equiv.sum_comp (peerE x.1 (stp x.2)) fun d => (tallyAt (recvCell d x.1 x.2) () (amt x.1 x.2) : CellTallies nD τ sig Unit)
  simp only [O₀_eq, ownCredit, Finset.sum_add_distrib]
  rw [hb 0, hb 1, hb 2, Finset.sum_comm, Finset.sum_congr rfl (fun x _ => hs x), Finset.sum_comm,
    ← add_assoc, ← add_assoc, ← Finset.sum_add_distrib, ← Finset.sum_add_distrib]
  congr 1
  refine Finset.sum_congr rfl fun d _ => ?_
  rw [tallyAt_add, tallyAt_add]

theorem ownCredit_core (d : Dev nD) (g : GSem nD τ sig) (h : ownCredit d g ≠ 0) : g.1 = (d.tc : Thread nD τ) := by
  by_contra hne
  apply h
  unfold ownCredit
  rw [Pi.add_apply, Finset.sum_apply, tallyAt_ne_cell (fun hg => hne (by rw [hg])),
    Finset.sum_eq_zero (fun x _ => tallyAt_ne_cell (fun hg => hne (by rw [hg])) _ _), add_zero]

section Credit

variable {Val : EltTy → Type} {Name : Type} [DecidableEq Name] {U : Type} [URA U]

local notation "𝕄" => MT nD τ sig Unit Val Name U Nat

theorem launchCred_O₀ (c : Dev nD) :
    (Pipeline.launchCred (O₀ barS rSem amt) c : sProp 𝕄)
      ⊢ iprop(cred (tallyAt (barCell c) () 3) ∗ bigSep Finset.univ fun x : Fin 3 × Fin 14 => cred (tallyAt (recvCell c x.1 x.2) () (amt x.1 x.2))) := by
  rw [Pipeline.launchCred_of_sum (O₀ barS rSem amt) ownCredit sum_O₀ ownCredit_core c]
  unfold ownCredit
  refine (cred_add _ _).1.trans (sep_mono_right ?_)
  rw [Pipeline.cred_finsetSum]

end Credit

end Cert.KernelIdeal.RsAg

end
-- ==== Proof.KI.Inv.lean ====
import proofs.«901015_g7700000000001016_dist_rs_then_ag_i_m4096_n1024_v7x_i8_f32_1_alg».proof.Proof.KI.Sched
import proofs.«901015_g7700000000001016_dist_rs_then_ag_i_m4096_n1024_v7x_i8_f32_1_alg».proof.Proof.Gen.KernelIdeal.Launch

noncomputable section

namespace Cert.KernelIdeal.RsAg

open Cert.KernelIdeal Cert.KernelIdeal.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev CellIx : Type := Dev nD × Option (Bool × Fin 3 × Fin 14)
def kcell (ck : CellIx) : GSem nD τ sig := match ck.2 with
  | none => barCell ck.1
  | some (false, p, i) => sendCell ck.1 p i
  | some (true, p, i) => recvCell ck.1 p i

def records (K : CellIx → ℕ) : sProp 𝕄 :=
  iprop((bigSep Finset.univ fun ck : CellIx => cellInv ER (sched m) (K ck) (kcell ck))
    ∗ bigSep Finset.univ fun ck : CellIx => reached ER (kcell ck) 0)

instance records_persistent (K : CellIx → ℕ) : BI.Persistent (records m K) := by unfold records; infer_instance

def payToks (c : Dev nD) : sProp 𝕄 :=
  iprop((bigSep Finset.univ fun k : Fin 3 => dutyTok ER (barCell (flip (barMask k) c)) 0 k)
    ∗ bigSep Finset.univ fun pi : Fin 3 × Fin 14 =>
        iprop(dutyTok ER (sendCell c pi.1 pi.2) 0 0 ∗ dutyTok ER (recvCell (peer pi.1 (stp pi.2) c) pi.1 pi.2) 0 0))

def positions (c : Dev nD) : sProp 𝕄 :=
  iprop(atPos ER (barCell c) 0 ∅ 0
    ∗ bigSep Finset.univ fun pi : Fin 3 × Fin 14 =>
        iprop(atPos ER (sendCell c pi.1 pi.2) 0 ∅ 0 ∗ atPos ER (recvCell c pi.1 pi.2) 0 ∅ 0))

def creds (c : Dev nD) : sProp 𝕄 :=
  iprop(cred (tallyAt (barCell c) () 3)
    ∗ bigSep Finset.univ fun pi : Fin 3 × Fin 14 => cred (tallyAt (recvCell c pi.1 pi.2) () (amt pi.1 pi.2)))

def ghost (K : CellIx → ℕ) (c : Dev nD) : sProp 𝕄 := iprop(records m K ∗ positions c ∗ payToks c)

def start (c : Dev nD) : sProp 𝕄 := iprop((∃ K, ghost m K c) ∗ creds c ∗ levAts L lv)

def scratch (c : Dev nD) : sProp 𝕄 := iprop((∃ f, sL c ↦{fullShare} f) ∗ (∃ f, rL c ↦{fullShare} f))

def Φ₀ (c : Dev nD) : sProp 𝕄 := iprop(start m c ∗ scratch c)
def Φ₁ (c : Dev nD) : sProp 𝕄 :=
  iprop(scratch c ∗ bigSep Finset.univ fun pi : Fin 3 × Fin 14 =>
    iprop(semVal (sendCell c pi.1 pi.2) 0 ∗ semVal (recvCell c pi.1 pi.2) 0))

def XFin (c : Fin 8) : FVec F W .f32 := fun i =>
  let p := partOf (i 0).val
  let j := slabOf (i 0).val
  if j = jK2 p c then P3 (X m) p c i else if j = jS2 p c then P2 (X m) p c i
  else if j = jS1a p c ∨ j = jS1b p c then P1 (X m) p c i else X m c i

def dats (_ : Fin 1) (c : Dev nD) : Dat τ (Elt F) Unit ℕ UU ℕ cfg0 c where
  A w := (s₀ m ρ).mem ((cfg0.win w).arr.view.loc (Dev.tc c : Thread nD τ))
  after w _ := match w with
    | ⟨0, _⟩ => XFin m c
    | ⟨1, _⟩ => Out (X m) c
  Φ t := match t with
    | ⟨0, _⟩ => Φ₀ m c
    | ⟨_ + 1, _⟩ => Φ₁ c
  q _ := fullShare
  owed t := match t with
    | ⟨0, _⟩ => O₀ barS rSem amt c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (Y : b.ty.Contents (Elt F)) : sProp 𝕄 :=
  iprop(∃ f : Buf (Elt F) ((Dev.tc c : Thread nD τ).loc b), ⌜f = Y⌝ ∗ (((Dev.tc c : Thread nD τ).loc b) ↦{fullShare} f))

def bodyPre (K : CellIx → ℕ) (c : Dev nD) : sProp 𝕄 :=
  iprop((ghost m K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (XFin m c) ∗ stg c cc0_stg1_0 (Out (X m) c))

end Cert.KernelIdeal.RsAg

end
-- ==== Proof.KI.Launch.lean ====
import proofs.«901015_g7700000000001016_dist_rs_then_ag_i_m4096_n1024_v7x_i8_f32_1_alg».proof.Proof.KI.Sched
import proofs.«901015_g7700000000001016_dist_rs_then_ag_i_m4096_n1024_v7x_i8_f32_1_alg».proof.Proof.KI.Credit
import proofs.«901015_g7700000000001016_dist_rs_then_ag_i_m4096_n1024_v7x_i8_f32_1_alg».proof.Proof.KI.Inv
import proofs.«901015_g7700000000001016_dist_rs_then_ag_i_m4096_n1024_v7x_i8_f32_1_alg».proof.Proof.Gen.KernelIdeal.Launch
import proofs.«901015_g7700000000001016_dist_rs_then_ag_i_m4096_n1024_v7x_i8_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ownSem : Bool × Fin 3 × Fin 14 → SemLoc sig
  | (false, p, i) => .dma (sSem p i)
  | (true, p, i) => .dma (rSem p i)

theorem ownSem_injective : Function.Injective ownSem := by
  rintro ⟨b, p, i⟩ ⟨b', p', i'⟩ h
  have hp := p.isLt; have hi := i.isLt; have hp' := p'.isLt; have hi' := i'.isLt
  cases b <;> cases b' <;> have hv := congrArg Fin.val (SemLoc.dma.inj h) <;> simp only [sSem, rSem] at hv <;>
    first | omega | (obtain rfl : p = p' := Fin.ext (by omega); obtain rfl : i = i' := Fin.ext (by omega); rfl)

theorem ownSem_facts : Pipeline.OwnSemFacts cfg0.spec ownSem where
  isScoped := by decide
  inj := ownSem_injective
  disj := by decide

def csem : Option (Bool × Fin 3 × Fin 14) → SemLoc sig
  | none => .reg barS
  | some k => ownSem k

theorem kcell_none (c : Dev nD) : kcell (c, none) = barCell c := rfl
theorem kcell_some (c : Dev nD) (k : Bool × Fin 3 × Fin 14) : kcell (c, some k) = ((Dev.tc c : Thread nD τ), ownSem k) := by
  obtain ⟨b, p, i⟩ := k; cases b <;> rfl
theorem kcell_eq (ck : CellIx) : kcell ck = ((Dev.tc ck.1 : Thread nD τ), csem ck.2) := by
  obtain ⟨c, o⟩ := ck
  rcases o with _ | k
  · rfl
  · exact kcell_some c k

theorem csem_injective : Function.Injective csem := by
  rintro (_ | k) (_ | k') h
  · rfl
  · obtain ⟨b, p, i⟩ := k'; cases b <;> first | cases h | exact absurd h (by simp [csem, ownSem])
  · obtain ⟨b, p, i⟩ := k; cases b <;> first | cases h | exact absurd h (by simp [csem, ownSem])
  · exact congrArg some (ownSem_injective h)

theorem kcell_injective : Function.Injective kcell := by
  intro ck ck' h
  rw [kcell_eq, kcell_eq] at h
  have h1 : ck.1 = ck'.1 := congrArg (fun g : GSem nD τ sig => g.1.1) h
  have h2 : ck.2 = ck'.2 := csem_injective (congrArg Prod.snd h)
  exact Prod.ext h1 h2

def ringCells : Finset (GSem nD τ sig) := Finset.univ.map ⟨kcell, kcell_injective⟩

abbrev TokIx : Type := Dev nD × (Fin 3 ⊕ (Bool × Fin 3 × Fin 14))
def tokOf (t : TokIx) : GSem nD τ sig × ℕ × Fin 3 :=
  (kcell (t.1, t.2.elim (fun _ => none) some), 0, t.2.elim id fun _ => 0)

theorem tokOf_injective : Function.Injective tokOf := by
  rintro ⟨c, s⟩ ⟨c', s'⟩ h
  have h1 := kcell_injective (congrArg (fun x : GSem nD τ sig × ℕ × Fin 3 => x.1) h)
  have h2 : s.elim id (fun _ => 0) = s'.elim id fun _ => 0 := congrArg (fun x : GSem nD τ sig × ℕ × Fin 3 => x.2.2) h
  rcases s with k | b <;> rcases s' with k' | b' <;> cases h1
  · cases (h2 : k = k'); rfl
  · rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def ownToks (c : Dev nD) : sProp 𝕄 :=
  iprop((bigSep Finset.univ fun k : Fin 3 => dutyTok ER (barCell c) 0 k)
    ∗ bigSep Finset.univ fun b : Bool × Fin 3 × Fin 14 => dutyTok ER (kcell (c, some b)) 0 0)

def G (c : Dev nD) : sProp 𝕄 :=
  iprop((bigSep Finset.univ fun o : Option (Bool × Fin 3 × Fin 14) => roundState ER (sched m) (kcell (c, o)) 0)
    ∗ (bigSep Finset.univ fun o : Option (Bool × Fin 3 × Fin 14) => iprop(atPos ER (kcell (c, o)) 0 ∅ 0 ∗ reached ER (kcell (c, o)) 0))
    ∗ ownToks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun o : Option (Bool × Fin 3 × Fin 14) => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum]; rfl
  have h := Rounds.fund ER (sched m) ringCells ringToks
  rw [hX, hX, hX, hT] at h
  unfold G; simp only [bigSep_sep']
  iintro HX
  imod h $$ HX with ⟨Hst, Hr, Hat, Htok⟩
  imodintro
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_pairs (c : Dev nD) :
    (Pipeline.ownSems0 (Ix := Unit) (Name := ℕ) (U := UU) (Lvl := ℕ) (Val := Elt F) (τ := τ) ownSem c : sProp 𝕄)
      = bigSep Finset.univ fun pi : Fin 3 × Fin 14 => iprop(semVal (sendCell c pi.1 pi.2) 0 ∗ semVal (recvCell c pi.1 pi.2) 0) := by
  unfold Pipeline.ownSems0
  rw [bigSep_univ_prod (fun k : Bool × (Fin 3 × Fin 14) => (semVal ((Dev.tc c : Thread nD τ), ownSem k) 0 : sProp 𝕄)), bigSep_univ_bool, ← bigSep_sep']
  rfl

theorem sems0_eq (c : Dev nD) :
    iprop(Pipeline.ownSems0 (Ix := Unit) (Name := ℕ) (U := UU) (Lvl := ℕ) (Val := Elt F) (τ := τ) ownSem c ∗ unscopedSems0 c)
      ⊢ (bigSep Finset.univ fun o : Option (Bool × Fin 3 × Fin 14) => semVal (kcell (c, o)) 0 : sProp 𝕄) := by
  rw [unscopedSems0_eq, bigSep_univ_option]
  simp only [kcell_some, kcell_none]
  unfold Pipeline.ownSems0
  iintro ⟨HO, HB⟩
  isplitl [HB] <;> iassumption

def GI (c : Dev nD) : sProp 𝕄 :=
  iprop((bigSep Finset.univ fun o : Option (Bool × Fin 3 × Fin 14) => iprop(∃ κ : ℕ, cellInv ER (sched m) κ (kcell (c, o))))
    ∗ (bigSep Finset.univ fun o : Option (Bool × Fin 3 × Fin 14) => iprop(atPos ER (kcell (c, o)) 0 ∅ 0 ∗ reached ER (kcell (c, o)) 0))
    ∗ ownToks c)

theorem core_alloc (c : Dev nD) :
    iprop(Pipeline.ownSems0 (Ix := Unit) (Name := ℕ) (U := UU) (Lvl := ℕ) (Val := Elt F) (τ := τ) ownSem c ∗ unscopedSems0 c ∗ G m c)
      ⊢ |={Set.univ}=> GI m c := by
  unfold G GI
  iintro ⟨Hos, Hus, Hst, Hat, Htok⟩
  ihave Hv := (sems0_eq (F := F) c) $$ [$]
  imod (show iprop((bigSep Finset.univ fun o : Option (Bool × Fin 3 × Fin 14) => semVal (kcell (c, o)) 0)
        ∗ bigSep Finset.univ fun o : Option (Bool × Fin 3 × Fin 14) => roundState ER (sched m) (kcell (c, o)) 0)
      ⊢ (|={Set.univ}=> bigSep Finset.univ fun o : Option (Bool × Fin 3 × Fin 14) => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [$] with Hinv
  imodintro
  iframe

theorem positions_eq (c : Dev nD) :
    (bigSep Finset.univ fun o : Option (Bool × Fin 3 × Fin 14) => (atPos ER (kcell (c, o)) 0 ∅ 0 : sProp 𝕄)) = positions c := by
  unfold positions
  rw [bigSep_univ_option, bigSep_univ_prod (fun k : Bool × (Fin 3 × Fin 14) => (atPos ER (kcell (c, some k)) 0 ∅ 0 : sProp 𝕄)), bigSep_univ_bool, ← bigSep_sep']
  rfl

theorem bigSep_univ_reindex {A B : Type} [Fintype A] [DecidableEq A] [Fintype B] [DecidableEq B] (σ : B → A ≃ A) (Φ : A → B → sProp 𝕄) :
    (bigSep Finset.univ fun a => bigSep Finset.univ fun b => Φ a b) = bigSep Finset.univ fun a => bigSep Finset.univ fun b => Φ (σ b a) b :=
  (bigSep_univ_comm Φ).trans ((bigSep_congr fun b _ => bigSep_univ_equiv (σ b) fun a => Φ a b).trans (bigSep_univ_comm fun b a => Φ (σ b a) b))

theorem toks_around : (bigSep Finset.univ fun c : Dev nD => (ownToks c : sProp 𝕄)) ⊢ bigSep Finset.univ fun c : Dev nD => payToks c := by
  have hK (c : Dev nD) : (bigSep Finset.univ fun b : Bool × Fin 3 × Fin 14 => (dutyTok ER (kcell (c, some b)) 0 0 : sProp 𝕄))
      = iprop((bigSep Finset.univ fun pi : Fin 3 × Fin 14 => dutyTok ER (sendCell c pi.1 pi.2) 0 0)
          ∗ bigSep Finset.univ fun pi : Fin 3 × Fin 14 => dutyTok ER (recvCell c pi.1 pi.2) 0 0) := by
    rw [bigSep_univ_prod (fun k : Bool × (Fin 3 × Fin 14) => (dutyTok ER (kcell (c, some k)) 0 0 : sProp 𝕄)), bigSep_univ_bool]
    rfl
  unfold ownToks payToks
  simp only [hK, bigSep_sep']
  rw [bigSep_univ_reindex flipE fun c k => dutyTok ER (barCell c) 0 k,
    bigSep_univ_reindex (fun pi : Fin 3 × Fin 14 => peerE pi.1 (stp pi.2)) fun c pi => dutyTok ER (recvCell c pi.1 pi.2) 0 0]
  rfl

theorem regroup : (bigSep Finset.univ fun c : Dev nD => GI m c) ⊢ bigSep Finset.univ (G' m) := by
  unfold GI
  rw [bigSep_sep', bigSep_sep', ← bigSep_univ_prod (fun ck : CellIx => iprop(∃ κ : ℕ, cellInv ER (sched m) κ (kcell ck))),
    bigSep_congr (s := Finset.univ) (fun (c : Dev nD) _ => bigSep_sep' Finset.univ
      (fun o : Option (Bool × Fin 3 × Fin 14) => (atPos ER (kcell (c, o)) 0 ∅ 0 : sProp 𝕄)) (fun o => reached ER (kcell (c, o)) 0)),
    bigSep_sep', ← bigSep_univ_prod (fun ck : CellIx => (reached ER (kcell ck) 0 : sProp 𝕄)),
    bigSep_congr (s := Finset.univ) (fun (c : Dev nD) _ => positions_eq (F := F) c)]
  iintro ⟨HI, ⟨Hat, #HR⟩, Htok⟩
  ihave HK := (BI.bigSep_exists_pi Finset.univ (fun (ck : CellIx) (κ : ℕ) => (cellInv ER (sched m) κ (kcell ck) : sProp 𝕄))) $$ HI
  icases HK with ⟨%K, #HI⟩
  ihave Htk := (toks_around (F := F)) $$ Htok
  iapply (bigSep_with_persistent (R := records m K) (Ψ := G' m) fun c _ => by unfold G' ghost; iintro H; iexists K; iexact H)
  unfold records
  rw [bigSep_sep']
  iframe # ∗

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low barS rSem amt (fun _ _ => rfl) c _ (by fin_cases w <;> fin_cases s <;> decide) 0
    · rw [show (dats m ρ 0 c).owed ⟨_ + 1, ht⟩ = 0 from rfl, MayWait_zero]; iintro -; iempintro

def SoundBody : Prop :=
  ∀ (K : CellIx → ℕ) (c : Dev nD) (Kt : PUnit → sProp 𝕄),
    iprop(bodyPre m ρ K c ∗ (bodyPost m ρ c -∗ Kt ⟨⟩))
      ⊢ wp frame (wpE (defs₀ (F := F)) 𝒱₀ (Dev.tc c) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt

theorem owns_whole_eq (c : Dev nD) (b : Ref sig .tc) (Y : b.ty.Contents (Elt F)) :
    (owns (Ix := Unit) (Name := ℕ) (U := UU) (Lvl := ℕ) (Dev.tc c : Thread nD τ) (Memref.whole b) fullShare Y : sProp 𝕄)
      = iprop(∃ f : Buf (Elt F) ((Dev.tc c : Thread nD τ).loc b), ⌜f = Y⌝ ∗ (((Dev.tc c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (hb : SoundBody m ρ) (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (Dev.tc c) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hcr, Hlev⟩, Hscr⟩, Ho, Hx, Hout⟩
  iapply (hb K c fun _ => bodyPost m ρ c)
  unfold bodyPre
  iframe
  iintro H; iexact H

def finalA (c : Dev nD) (w : Fin cfg0.W) : Buf (Elt F) ((cfg0.win w).arr.view.loc (Dev.tc c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (Dev.tc c : Thread nD τ)) = finalA m ρ c w

theorem run_main (hb : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := fun c => (body_obligation m ρ hb c).loose) (hne := block_pos0) (harr := arr_whole0) (hstage := stage_whole0) (hshare := fun _ _ => by unfold Dat.share; split <;> rfl)
    (hdistinct := winFacts0.arr_inj)
    (O₀ := O₀ barS rSem amt) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := ((bigSep_mono fun c _ => core_alloc m c).trans (bigSep_fupd _ _)).trans (BI.fupd_mono (regroup m)))
    (hA := fun _ _ => rfl) (hpf := fun _ k => k.elim0)
    (X := start m) (Y := fun _ => iprop(emp)) (Z := fun _ => iprop(emp))
    (hX := fun c => by
      iintro ⟨-, Hlev, Hcr, -, HG⟩
      ihave Hc := (launchCred_O₀ (Val := Elt F) (Name := ℕ) (U := UU) c) $$ Hcr
      imodintro
      unfold start G' creds
      iframe)
    (hin := fun c => by
      rw [show (dats m ρ 0 c).Φ 0 = Φ₀ m c from rfl, scopedRest0_eq]
      unfold Φ₀ scratch
      iintro ⟨Hs, -, Hsc⟩
      iframe)
    (hout := fun c => by
      rw [show (dats m ρ 0 c).Φ (Fin.last cfg0.N) = Φ₁ c from rfl, scopedRest0_eq, ownSems0_pairs]
      unfold Φ₁ scratch
      iintro ⟨Hsc, Hz⟩
      iframe)
    (QY := fun _ _ => True)
    (hY := fun c s' => by
      iintro ⟨-, -, HSI⟩
      imodintro
      isplitr; · ipureintro; trivial
      iexact HSI)
    (hQ := fun _ h c w => (h c).1 w)

theorem out_off (t : Fin cfg0.N) : (fun a => (win0_1.index t) a * main_v1.ty.shape.size a) = fun _ => 0 := by
  obtain rfl := fin_N t
  exact funext fun a => by fin_cases a <;> decide

theorem finalA_o (c : Dev nD) : finalA m ρ c (1 : Fin 2) = Out (X m) c :=
  (dats (F := F) m ρ 0 c).arrAt_eq_of_cover (1 : Fin 2) (Out (X m) c)
    (fun t _ => by
      show (cfg0.win (1 : Fin 2)).cut (grid0.coords t) (Out (X m) c) = _
      exact (Memref.read_access_unit_zero (Elt F) main_v1 (out_off t) (fun a => by rw [congrFun (out_off t) a]; simp) (Out (X m) c)).symm)
    (fun i => ⟨t₀, flush0_1 t₀, by
      show i ∈ ((View.whole main_v1).slice (win0_1.rect t₀)).set
      rw [View.set_slice_whole]
      exact View.mem_set_unit_zero (out_off t₀) (fun a => by rw [congrFun (out_off t₀) a]; simp) i⟩)

theorem run_of (hb : SoundBody m ρ) :
    θ_run (defs (F := F)) (onTc (τ := τ) (main (F := F))) ⟨m, fun _ => 0, ρ⟩ (fun r => ∀ c : Dev nD,
      r.2.mem ((c.tc : Thread nD τ).loc main_v1) = Cert.RsAg.Out (fun d : Fin 8 => m ((Dev.tc d : Thread nD τ).loc main_arg0)) c
      ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans ((dats (F := F) m ρ 0 c).arrAt_in (0 : Fin 2) rfl _)⟩) (run_main m ρ hb)

end Cert.KernelIdeal.RsAg

end
-- ==== Proof.KI.Open.lean ====
import proofs.«901015_g7700000000001016_dist_rs_then_ag_i_m4096_n1024_v7x_i8_f32_1_alg».proof.Proof.KI.Inv
import Idealize.ShloMosaic.Lib.Pipeline.Value

set_option maxRecDepth 16384

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

theorem in_off (t : Fin cfg0.N) : (fun a => (win0_0.index t) a * main_arg0.ty.shape.size a) = fun _ => 0 := by
  obtain rfl := fin_N t
  exact funext fun a => by fin_cases a <;> decide

theorem before_x (c : Dev nD) (d) : (dats m ρ 0 c).before (0 : Fin 2) t₀ d = X m c := by
  unfold Dat.before
  rw [if_pos (fetch_0 t₀)]
  show (dats m ρ 0 c).blockOf (0 : Fin 2) t₀ = _
  unfold Dat.blockOf
  exact Memref.read_access_unit_zero (Elt F) main_arg0 (in_off t₀) (fun a => by rw [congrFun (in_off t₀) a]; simp) _

def St0 (K : CellIx → ℕ) (c : Dev nD) : sProp 𝕄 :=
  iprop(ghost m K c ∗ creds c ∗ levAts L lv ∗ scratch c
    ∗ (∃ W, owes (Dev.tc c : Thread nD τ) (O₀ barS rSem amt c) W)
    ∗ (xL c ↦{fullShare} X m c) ∗ (∃ f, oL c ↦{fullShare} f))

theorem bodyPre_open (K : CellIx → ℕ) (c : Dev nD) : bodyPre m ρ K c ⊢ St0 m K c := by
  unfold bodyPre St0
  iintro ⟨⟨Hg, Hc, Hl, Hs⟩, Ho, ⟨%d0, %g0, %hg0, Hx⟩, ⟨%d1, %g1, %hg1, Hout⟩⟩
  have hx : g0 = X m c := hg0.trans (before_x m ρ c d0)
  subst hx
  unfold Dat.owesAt Pipeline.owesWithin
  icases Ho with ⟨%W, %hW, HO⟩
  rw [show (dats m ρ 0 c).owed t₀.castSucc = O₀ barS rSem amt c from rfl]
  iframe
  isplitl [HO]; · iexists W; iexact HO
  iexists g1; iexact Hout

theorem bodyPost_intro (c : Dev nD) :
    iprop(Φ₁ c ∗ (∃ W, owes (Dev.tc c : Thread nD τ) 0 W) ∗ (xL c ↦{fullShare} XFin m c) ∗ (oL c ↦{fullShare} Out (X m) c))
      ⊢ bodyPost m ρ c := by
  unfold bodyPost Dat.owesAt Pipeline.owesWithin
  rw [show (dats m ρ 0 c).owed t₀.succ = 0 from rfl]
  iintro ⟨HΦ, ⟨%W, HO⟩, Hx, Hout⟩
  iframe
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.RsAg

end
-- ==== Proof.KI.Mid.lean ====
import proofs.«901015_g7700000000001016_dist_rs_then_ag_i_m4096_n1024_v7x_i8_f32_1_alg».proof.Proof.KI.Inv
import proofs.«901015_g7700000000001016_dist_rs_then_ag_i_m4096_n1024_v7x_i8_f32_1_alg».proof.Proof.Accum

noncomputable section

namespace Cert.KernelIdeal.RsAg

open Cert.KernelIdeal Cert.KernelIdeal.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def ghostAt (K : CellIx → ℕ) (c : Dev nD) (ns : Nat) (waited : Finset (Fin 3 × Fin 14)) : sProp 𝕄 :=
  iprop(records m K
    ∗ atPos ER (barCell c) 1 ∅ 0
    ∗ (bigSep Finset.univ fun pi : Fin 3 × Fin 14 => atPos ER (recvCell c pi.1 pi.2) (if pi ∈ waited then 1 else 0) ∅ 0)
    ∗ (bigSep Finset.univ fun pi : Fin 3 × Fin 14 => atPos ER (sendCell c pi.1 pi.2) 0 ∅ 0)
    ∗ (bigSep (started ns) fun pi => cred (tallyAt (sendCell c pi.1 pi.2) () (amt pi.1 pi.2)))
    ∗ (bigSep (Finset.univ \ waited) fun pi => cred (tallyAt (recvCell c pi.1 pi.2) () (amt pi.1 pi.2)))
    ∗ (bigSep (Finset.univ \ started ns) fun pi =>
        iprop(dutyTok ER (sendCell c pi.1 pi.2) 0 0 ∗ dutyTok ER (recvCell (peer pi.1 (stp pi.2) c) pi.1 pi.2) 0 0))
    ∗ (∃ W, owes (Dev.tc c : Thread nD τ) (owedAfter barS rSem amt c (3 + ns)) W)
    ∗ levAts L lv)

def cutState (K : CellIx → ℕ) (c : Dev nD) (nx : Fin 3 → Nat → Nat) (ns : Nat)
    (waited : Finset (Fin 3 × Fin 14)) (own : Finset (Fin 3 × Fin 8)) : sProp 𝕄 :=
  iprop(ghostAt m K c ns waited
    ∗ (xL c ↦{fullShare} Xlev (X m) c nx)
    ∗ (∃ f, oL c ↦{fullShare} f)
    ∗ (bigSep own fun pr => iprop(∃ f, stgRows (F := F) c pr.1 (roleRow pr.1 pr.2 c) fullShare f))
    ∗ (bigSep ((Finset.univ \ started ns).filter fun pi => pi.2.val < 7) fun pi =>
        iprop(∃ f, rsrRows (F := F) (peer pi.1 (stp pi.2) c) pi.1 (slot pi.1 (peer pi.1 (stp pi.2) c) pi.2) f))
    ∗ (bigSep waited fun pi => recvPay m c pi.1 pi.2))

def Cut13 (K : CellIx → ℕ) (c : Dev nD) (v423 : FVec F S176x1024 .f32) : sProp 𝕄 :=
  iprop(cutState m K c (nx13 c) 13 waited13 own13
    ∗ ⌜∀ j, v423 j = addf (Xlev (X m) c (nx13 c)) (rcv (snd (X m (peer 1 0 c))))
        ((Rect.unit (s := S4096x1024) (k0_off35 c) S176x1024.size (k0_off35_inb c)).emb j)⌝)

def Mid (K : CellIx → ℕ) (c : Dev nD) (v852 : FVec F S176x1024 .f32) : sProp 𝕄 :=
  iprop(cutState m K c (nMid c) 21 waitedMid ownMid
    ∗ ⌜∀ j, v852 j = Xlev (X m) c (nMid c)
        ((Rect.unit (s := S4096x1024) (k0_off67 c) S176x1024.size (k0_off67_inb c)).emb j)⌝)

end Cert.KernelIdeal.RsAg

end
-- ==== Proof.KI.SchedTables.lean ====
import proofs.«901015_g7700000000001016_dist_rs_then_ag_i_m4096_n1024_v7x_i8_f32_1_alg».proof.Proof.KI.Sched

noncomputable section

namespace Cert.KernelIdeal.RsAg

open Cert.KernelIdeal Cert.KernelIdeal.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Cells
variable (c : Dev nD) (p : Fin 3) (i : Fin 14)

theorem sSem_val : (sSem p i).val = 2 + 14 * p.val + i.val := rfl
theorem rSem_val : (rSem p i).val = 44 + 14 * p.val + i.val := rfl

@[sl_rounds] theorem duties_bar : (sched (F := F) m).duties (barCell c) 0 = Finset.univ := by
  dsimp only [sched]; rw [if_pos ⟨rfl, rfl⟩, if_pos rfl]

@[sl_rounds] theorem duties_send : (sched (F := F) m).duties (sendCell c p i) 0 = {0} := by
  dsimp only [sched]; rw [if_pos ⟨rfl, rfl⟩, if_pos (by rw [sSem_val]; omega)]

@[sl_rounds] theorem duties_recv : (sched (F := F) m).duties (recvCell c p i) 0 = {0} := by
  dsimp only [sched]; rw [if_pos ⟨rfl, rfl⟩, if_pos (by rw [rSem_val]; omega)]

theorem duties_later (g : GSem nD τ sig) : ∀ r, 1 ≤ r → (sched (F := F) m).duties g r = ∅ :=
  fun r hr => by dsimp only [sched]; rw [if_neg fun h => absurd h.1 (by omega)]

@[sl_rounds] theorem amount_bar (d : Fin 3) : (sched (F := F) m).amount (barCell c) 0 d = 1 := rfl

@[sl_rounds] theorem amount_send (d : Fin 3) : (sched (F := F) m).amount (sendCell c p i) 0 d = amt p i := by
  show amt (semPart (sSem p i)) (semCopy (sSem p i)) = amt p i
  rw [semPart_sSem, semCopy_sSem]

@[sl_rounds] theorem amount_recv (d : Fin 3) : (sched (F := F) m).amount (recvCell c p i) 0 d = amt p i := by
  show amt (semPart (rSem p i)) (semCopy (rSem p i)) = amt p i
  rw [semPart_rSem, semCopy_rSem]

@[sl_rounds] theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]

@[sl_rounds] theorem expect_send : (sched (F := F) m).expect (sendCell c p i) 0 = amt p i := by
  unfold Schedule.expect Schedule.amountOf; rw [duties_send, Finset.sum_singleton, amount_send]

@[sl_rounds] theorem expect_recv : (sched (F := F) m).expect (recvCell c p i) 0 = amt p i := by
  unfold Schedule.expect Schedule.amountOf; rw [duties_recv, Finset.sum_singleton, amount_recv]

@[sl_rounds] theorem payload_bar (k : Fin 3) : (sched (F := F) m).payload (barCell c) 0 k = barPay c k := rfl

@[sl_rounds] theorem payload_send (d : Fin 3) : (sched (F := F) m).payload (sendCell c p i) 0 d = sendPay m c p i := by
  show (if semIsRecv (sSem p i) then recvPay m c (semPart (sSem p i)) (semCopy (sSem p i))
    else sendPay m c (semPart (sSem p i)) (semCopy (sSem p i))) = sendPay m c p i
  rw [semIsRecv_sSem, semPart_sSem, semCopy_sSem]; rfl

@[sl_rounds] theorem payload_recv (d : Fin 3) : (sched (F := F) m).payload (recvCell c p i) 0 d = recvPay m c p i := by
  show (if semIsRecv (rSem p i) then recvPay m c (semPart (rSem p i)) (semCopy (rSem p i))
    else sendPay m c (semPart (rSem p i)) (semCopy (rSem p i))) = recvPay m c p i
  rw [semIsRecv_rSem, semPart_rSem, semCopy_rSem]; rfl

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]
  rfl

theorem rest_send : bigSep ((sched (F := F) m).duties (sendCell c p i) 0 \ ∅) (fun d => (sched (F := F) m).payload (sendCell c p i) 0 d)
    = sendPay m c p i := by
  rw [Finset.sdiff_empty, duties_send, bigSep_singleton, payload_send]

theorem rest_recv : bigSep ((sched (F := F) m).duties (recvCell c p i) 0 \ ∅) (fun d => (sched (F := F) m).payload (recvCell c p i) 0 d)
    = recvPay m c p i := by
  rw [Finset.sdiff_empty, duties_recv, bigSep_singleton, payload_recv]

end Cells

theorem recvPay_0 (c : Fin 8) (p : Fin 3) : recvPay (F := F) m c p 0
    = iprop(rsrRows c p (rFa p c) (reRow (oS1a p c) (rFa p c) (snd (X m (peer p 0 c)))) ∗ stgRows (peer p 0 c) p (oS1a p c) fullShare (snd (X m (peer p 0 c)))) := rfl

theorem slotsOf_0 (d : Fin 8) (p : Fin 3) : slotsOf (F := F) d p 0
    = iprop((∃ f, rsrRows d p (rFa p d) f) ∗ (∃ f, rsrRows d p (rFb p d) f) ∗ (∃ f, rsrRows d p (rS2₀ p d) f) ∗ (∃ f, rsrRows d p (rK2₀ p d) f)) := rfl
theorem slotsOf_1 (d : Fin 8) (p : Fin 3) : slotsOf (F := F) d p 1
    = iprop((∃ f, rsrRows d p (rS2₁ p d) f) ∗ (∃ f, rsrRows d p (rK2₁ p d) f)) := rfl
theorem slotsOf_2 (d : Fin 8) (p : Fin 3) : slotsOf (F := F) d p 2 = iprop(∃ f, rsrRows d p (rK2₂ p d) f) := rfl

end Cert.KernelIdeal.RsAg

end
-- ==== Proof.KI.Tables.lean ====
import proofs.«901015_g7700000000001016_dist_rs_then_ag_i_m4096_n1024_v7x_i8_f32_1_alg».proof.Proof.Gen.KernelIdeal
import proofs.«901015_g7700000000001016_dist_rs_then_ag_i_m4096_n1024_v7x_i8_f32_1_alg».proof.Proof.Layout

set_option Elab.async false

namespace Cert.KernelIdeal.RsAg

open Idealize.ShloMosaic Cert.KernelIdeal Cert.KernelIdeal.Gen Cert.RsAg

theorem dev1_eq : ∀ c : Dev nD, (⟨k0_dev1 c, k0_dev1_lt c⟩ : Dev nD) = flip 1 c := by decide +kernel
theorem dev2_eq : ∀ c : Dev nD, (⟨k0_dev2 c, k0_dev2_lt c⟩ : Dev nD) = flip 3 c := by decide +kernel
theorem dev3_eq : ∀ c : Dev nD, (⟨k0_dev3 c, k0_dev3_lt c⟩ : Dev nD) = flip 4 c := by decide +kernel

theorem dev4_eq : ∀ c : Dev nD, (⟨k0_dev4 c, k0_dev4_lt c⟩ : Dev nD) = peer 0 0 c := by decide +kernel
theorem dev5_eq : ∀ c : Dev nD, (⟨k0_dev5 c, k0_dev5_lt c⟩ : Dev nD) = peer 0 0 c := by decide +kernel
theorem dev6_eq : ∀ c : Dev nD, (⟨k0_dev6 c, k0_dev6_lt c⟩ : Dev nD) = peer 1 0 c := by decide +kernel
theorem dev7_eq : ∀ c : Dev nD, (⟨k0_dev7 c, k0_dev7_lt c⟩ : Dev nD) = peer 1 0 c := by decide +kernel
theorem dev8_eq : ∀ c : Dev nD, (⟨k0_dev8 c, k0_dev8_lt c⟩ : Dev nD) = peer 2 0 c := by decide +kernel
theorem dev9_eq : ∀ c : Dev nD, (⟨k0_dev9 c, k0_dev9_lt c⟩ : Dev nD) = peer 2 0 c := by decide +kernel

theorem dev10_eq : ∀ c : Dev nD, (⟨k0_dev10 c, k0_dev10_lt c⟩ : Dev nD) = peer 0 0 c := by decide +kernel
theorem dev11_eq : ∀ c : Dev nD, (⟨k0_dev11 c, k0_dev11_lt c⟩ : Dev nD) = peer 0 0 c := by decide +kernel
theorem dev12_eq : ∀ c : Dev nD, (⟨k0_dev12 c, k0_dev12_lt c⟩ : Dev nD) = peer 1 0 c := by decide +kernel
theorem dev13_eq : ∀ c : Dev nD, (⟨k0_dev13 c, k0_dev13_lt c⟩ : Dev nD) = peer 1 0 c := by decide +kernel
theorem dev14_eq : ∀ c : Dev nD, (⟨k0_dev14 c, k0_dev14_lt c⟩ : Dev nD) = peer 2 0 c := by decide +kernel
theorem dev15_eq : ∀ c : Dev nD, (⟨k0_dev15 c, k0_dev15_lt c⟩ : Dev nD) = peer 2 0 c := by decide +kernel

theorem dev16_eq : ∀ c : Dev nD, (⟨k0_dev16 c, k0_dev16_lt c⟩ : Dev nD) = peer 0 1 c := by decide +kernel
theorem dev17_eq : ∀ c : Dev nD, (⟨k0_dev17 c, k0_dev17_lt c⟩ : Dev nD) = peer 1 1 c := by decide +kernel
theorem dev18_eq : ∀ c : Dev nD, (⟨k0_dev18 c, k0_dev18_lt c⟩ : Dev nD) = peer 2 1 c := by decide +kernel
theorem dev19_eq : ∀ c : Dev nD, (⟨k0_dev19 c, k0_dev19_lt c⟩ : Dev nD) = peer 0 1 c := by decide +kernel
theorem dev20_eq : ∀ c : Dev nD, (⟨k0_dev20 c, k0_dev20_lt c⟩ : Dev nD) = peer 1 1 c := by decide +kernel
theorem dev21_eq : ∀ c : Dev nD, (⟨k0_dev21 c, k0_dev21_lt c⟩ : Dev nD) = peer 2 1 c := by decide +kernel

theorem dev22_eq : ∀ c : Dev nD, (⟨k0_dev22 c, k0_dev22_lt c⟩ : Dev nD) = peer 0 2 c := by decide +kernel
theorem dev23_eq : ∀ c : Dev nD, (⟨k0_dev23 c, k0_dev23_lt c⟩ : Dev nD) = peer 1 2 c := by decide +kernel
theorem dev24_eq : ∀ c : Dev nD, (⟨k0_dev24 c, k0_dev24_lt c⟩ : Dev nD) = peer 2 2 c := by decide +kernel

theorem dev25_eq : ∀ c : Dev nD, (⟨k0_dev25 c, k0_dev25_lt c⟩ : Dev nD) = peer 0 2 c := by decide +kernel
theorem dev26_eq : ∀ c : Dev nD, (⟨k0_dev26 c, k0_dev26_lt c⟩ : Dev nD) = peer 0 1 c := by decide +kernel
theorem dev27_eq : ∀ c : Dev nD, (⟨k0_dev27 c, k0_dev27_lt c⟩ : Dev nD) = peer 0 0 c := by decide +kernel
theorem dev28_eq : ∀ c : Dev nD, (⟨k0_dev28 c, k0_dev28_lt c⟩ : Dev nD) = peer 1 2 c := by decide +kernel
theorem dev29_eq : ∀ c : Dev nD, (⟨k0_dev29 c, k0_dev29_lt c⟩ : Dev nD) = peer 1 1 c := by decide +kernel
theorem dev30_eq : ∀ c : Dev nD, (⟨k0_dev30 c, k0_dev30_lt c⟩ : Dev nD) = peer 1 0 c := by decide +kernel
theorem dev31_eq : ∀ c : Dev nD, (⟨k0_dev31 c, k0_dev31_lt c⟩ : Dev nD) = peer 2 2 c := by decide +kernel
theorem dev32_eq : ∀ c : Dev nD, (⟨k0_dev32 c, k0_dev32_lt c⟩ : Dev nD) = peer 2 1 c := by decide +kernel
theorem dev33_eq : ∀ c : Dev nD, (⟨k0_dev33 c, k0_dev33_lt c⟩ : Dev nD) = peer 2 0 c := by decide +kernel

theorem dev34_eq : ∀ c : Dev nD, (⟨k0_dev34 c, k0_dev34_lt c⟩ : Dev nD) = peer 0 1 c := by decide +kernel
theorem dev35_eq : ∀ c : Dev nD, (⟨k0_dev35 c, k0_dev35_lt c⟩ : Dev nD) = peer 0 0 c := by decide +kernel
theorem dev36_eq : ∀ c : Dev nD, (⟨k0_dev36 c, k0_dev36_lt c⟩ : Dev nD) = peer 1 1 c := by decide +kernel
theorem dev37_eq : ∀ c : Dev nD, (⟨k0_dev37 c, k0_dev37_lt c⟩ : Dev nD) = peer 1 0 c := by decide +kernel
theorem dev38_eq : ∀ c : Dev nD, (⟨k0_dev38 c, k0_dev38_lt c⟩ : Dev nD) = peer 2 1 c := by decide +kernel
theorem dev39_eq : ∀ c : Dev nD, (⟨k0_dev39 c, k0_dev39_lt c⟩ : Dev nD) = peer 2 0 c := by decide +kernel

theorem dev40_eq : ∀ c : Dev nD, (⟨k0_dev40 c, k0_dev40_lt c⟩ : Dev nD) = peer 0 0 c := by decide +kernel
theorem dev41_eq : ∀ c : Dev nD, (⟨k0_dev41 c, k0_dev41_lt c⟩ : Dev nD) = peer 0 0 c := by decide +kernel
theorem dev42_eq : ∀ c : Dev nD, (⟨k0_dev42 c, k0_dev42_lt c⟩ : Dev nD) = peer 1 0 c := by decide +kernel
theorem dev43_eq : ∀ c : Dev nD, (⟨k0_dev43 c, k0_dev43_lt c⟩ : Dev nD) = peer 1 0 c := by decide +kernel
theorem dev44_eq : ∀ c : Dev nD, (⟨k0_dev44 c, k0_dev44_lt c⟩ : Dev nD) = peer 2 0 c := by decide +kernel
theorem dev45_eq : ∀ c : Dev nD, (⟨k0_dev45 c, k0_dev45_lt c⟩ : Dev nD) = peer 2 0 c := by decide +kernel

theorem off1_eq : ∀ c : Dev nD, k0_off1 c = ![oFwd 0 c, 0] := by decide +kernel
theorem off2_eq : ∀ c : Dev nD, k0_off2 c = ![rFa 0 c, 0] := by decide +kernel
theorem off3_eq : ∀ c : Dev nD, k0_off3 c = ![oFa 0 c, 0] := by decide +kernel
theorem off4_eq : ∀ c : Dev nD, k0_off4 c = ![rFb 0 c, 0] := by decide +kernel
theorem off5_eq : ∀ c : Dev nD, k0_off5 c = ![oFb 0 c, 0] := by decide +kernel
theorem off6_eq : ∀ c : Dev nD, k0_off6 c = ![oFwd 1 c, 0] := by decide +kernel
theorem off7_eq : ∀ c : Dev nD, k0_off7 c = ![rFa 1 c, 0] := by decide +kernel
theorem off8_eq : ∀ c : Dev nD, k0_off8 c = ![oFa 1 c, 0] := by decide +kernel
theorem off9_eq : ∀ c : Dev nD, k0_off9 c = ![rFb 1 c, 0] := by decide +kernel
theorem off10_eq : ∀ c : Dev nD, k0_off10 c = ![oFb 1 c, 0] := by decide +kernel
theorem off11_eq : ∀ c : Dev nD, k0_off11 c = ![oFwd 2 c, 0] := by decide +kernel
theorem off12_eq : ∀ c : Dev nD, k0_off12 c = ![rFa 2 c, 0] := by decide +kernel
theorem off13_eq : ∀ c : Dev nD, k0_off13 c = ![oFa 2 c, 0] := by decide +kernel
theorem off14_eq : ∀ c : Dev nD, k0_off14 c = ![rFb 2 c, 0] := by decide +kernel
theorem off15_eq : ∀ c : Dev nD, k0_off15 c = ![oFb 2 c, 0] := by decide +kernel

theorem off16_eq : ∀ c : Dev nD, k0_off16 c = ![oLate 0 c, 0] := by decide +kernel
theorem off17_eq : ∀ c : Dev nD, k0_off17 c = ![rS2₀ 0 c, 0] := by decide +kernel
theorem off18_eq : ∀ c : Dev nD, k0_off18 c = ![oLa 0 c, 0] := by decide +kernel
theorem off19_eq : ∀ c : Dev nD, k0_off19 c = ![rK2₀ 0 c, 0] := by decide +kernel
theorem off20_eq : ∀ c : Dev nD, k0_off20 c = ![oLb 0 c, 0] := by decide +kernel
theorem off21_eq : ∀ c : Dev nD, k0_off21 c = ![oLate 1 c, 0] := by decide +kernel
theorem off22_eq : ∀ c : Dev nD, k0_off22 c = ![rS2₀ 1 c, 0] := by decide +kernel
theorem off23_eq : ∀ c : Dev nD, k0_off23 c = ![oLa 1 c, 0] := by decide +kernel
theorem off24_eq : ∀ c : Dev nD, k0_off24 c = ![rK2₀ 1 c, 0] := by decide +kernel
theorem off25_eq : ∀ c : Dev nD, k0_off25 c = ![oLb 1 c, 0] := by decide +kernel
theorem off26_eq : ∀ c : Dev nD, k0_off26 c = ![oLate 2 c, 0] := by decide +kernel
theorem off27_eq : ∀ c : Dev nD, k0_off27 c = ![rS2₀ 2 c, 0] := by decide +kernel
theorem off28_eq : ∀ c : Dev nD, k0_off28 c = ![oLa 2 c, 0] := by decide +kernel
theorem off29_eq : ∀ c : Dev nD, k0_off29 c = ![rK2₀ 2 c, 0] := by decide +kernel
theorem off30_eq : ∀ c : Dev nD, k0_off30 c = ![oLb 2 c, 0] := by decide +kernel

theorem off31_eq : ∀ c : Dev nD, k0_off31 c = ![oS1a 0 c, 0] := by decide +kernel
theorem off32_eq : ∀ c : Dev nD, k0_off32 c = ![rFa 0 c, 0] := by decide +kernel
theorem off33_eq : ∀ c : Dev nD, k0_off33 c = ![rS2₁ 0 c, 0] := by decide +kernel
theorem off34_eq : ∀ c : Dev nD, k0_off34 c = ![oS1a 0 c, 0] := by decide +kernel
theorem off35_eq : ∀ c : Dev nD, k0_off35 c = ![oS1a 1 c, 0] := by decide +kernel
theorem off36_eq : ∀ c : Dev nD, k0_off36 c = ![rFa 1 c, 0] := by decide +kernel
theorem off37_eq : ∀ c : Dev nD, k0_off37 c = ![rS2₁ 1 c, 0] := by decide +kernel
theorem off38_eq : ∀ c : Dev nD, k0_off38 c = ![oS1a 1 c, 0] := by decide +kernel
theorem off39_eq : ∀ c : Dev nD, k0_off39 c = ![oS1a 2 c, 0] := by decide +kernel
theorem off40_eq : ∀ c : Dev nD, k0_off40 c = ![rFa 2 c, 0] := by decide +kernel
theorem off41_eq : ∀ c : Dev nD, k0_off41 c = ![rS2₁ 2 c, 0] := by decide +kernel
theorem off42_eq : ∀ c : Dev nD, k0_off42 c = ![oS1a 2 c, 0] := by decide +kernel

theorem off43_eq : ∀ c : Dev nD, k0_off43 c = ![oS1b 0 c, 0] := by decide +kernel
theorem off44_eq : ∀ c : Dev nD, k0_off44 c = ![rFb 0 c, 0] := by decide +kernel
theorem off45_eq : ∀ c : Dev nD, k0_off45 c = ![rK2₁ 0 c, 0] := by decide +kernel
theorem off46_eq : ∀ c : Dev nD, k0_off46 c = ![oS1b 0 c, 0] := by decide +kernel
theorem off47_eq : ∀ c : Dev nD, k0_off47 c = ![oS1b 1 c, 0] := by decide +kernel
theorem off48_eq : ∀ c : Dev nD, k0_off48 c = ![rFb 1 c, 0] := by decide +kernel
theorem off49_eq : ∀ c : Dev nD, k0_off49 c = ![rK2₁ 1 c, 0] := by decide +kernel
theorem off50_eq : ∀ c : Dev nD, k0_off50 c = ![oS1b 1 c, 0] := by decide +kernel
theorem off51_eq : ∀ c : Dev nD, k0_off51 c = ![oS1b 2 c, 0] := by decide +kernel
theorem off52_eq : ∀ c : Dev nD, k0_off52 c = ![rFb 2 c, 0] := by decide +kernel
theorem off53_eq : ∀ c : Dev nD, k0_off53 c = ![rK2₁ 2 c, 0] := by decide +kernel
theorem off54_eq : ∀ c : Dev nD, k0_off54 c = ![oS1b 2 c, 0] := by decide +kernel

theorem off55_eq : ∀ c : Dev nD, k0_off55 c = ![oS2 0 c, 0] := by decide +kernel
theorem off56_eq : ∀ c : Dev nD, k0_off56 c = ![rS2₀ 0 c, 0] := by decide +kernel
theorem off57_eq : ∀ c : Dev nD, k0_off57 c = ![rS2₁ 0 c, 0] := by decide +kernel
theorem off58_eq : ∀ c : Dev nD, k0_off58 c = ![oS2 0 c, 0] := by decide +kernel
theorem off59_eq : ∀ c : Dev nD, k0_off59 c = ![oS2 1 c, 0] := by decide +kernel
theorem off60_eq : ∀ c : Dev nD, k0_off60 c = ![rS2₀ 1 c, 0] := by decide +kernel
theorem off61_eq : ∀ c : Dev nD, k0_off61 c = ![rS2₁ 1 c, 0] := by decide +kernel
theorem off62_eq : ∀ c : Dev nD, k0_off62 c = ![oS2 1 c, 0] := by decide +kernel
theorem off63_eq : ∀ c : Dev nD, k0_off63 c = ![oS2 2 c, 0] := by decide +kernel
theorem off64_eq : ∀ c : Dev nD, k0_off64 c = ![rS2₀ 2 c, 0] := by decide +kernel
theorem off65_eq : ∀ c : Dev nD, k0_off65 c = ![rS2₁ 2 c, 0] := by decide +kernel
theorem off66_eq : ∀ c : Dev nD, k0_off66 c = ![oS2 2 c, 0] := by decide +kernel

theorem off67_eq : ∀ c : Dev nD, k0_off67 c = ![oK2 0 c, 0] := by decide +kernel
theorem off68_eq : ∀ c : Dev nD, k0_off68 c = ![rK2₀ 0 c, 0] := by decide +kernel
theorem off69_eq : ∀ c : Dev nD, k0_off69 c = ![rK2₁ 0 c, 0] := by decide +kernel
theorem off70_eq : ∀ c : Dev nD, k0_off70 c = ![oK2 1 c, 0] := by decide +kernel
theorem off71_eq : ∀ c : Dev nD, k0_off71 c = ![rK2₀ 1 c, 0] := by decide +kernel
theorem off72_eq : ∀ c : Dev nD, k0_off72 c = ![rK2₁ 1 c, 0] := by decide +kernel
theorem off73_eq : ∀ c : Dev nD, k0_off73 c = ![oK2 2 c, 0] := by decide +kernel
theorem off74_eq : ∀ c : Dev nD, k0_off74 c = ![rK2₀ 2 c, 0] := by decide +kernel
theorem off75_eq : ∀ c : Dev nD, k0_off75 c = ![rK2₁ 2 c, 0] := by decide +kernel
theorem off76_eq : ∀ c : Dev nD, k0_off76 c = ![oK2 0 c, 0] := by decide +kernel
theorem off77_eq : ∀ c : Dev nD, k0_off77 c = ![oK2 1 c, 0] := by decide +kernel
theorem off78_eq : ∀ c : Dev nD, k0_off78 c = ![oK2 2 c, 0] := by decide +kernel

theorem off79_eq : ∀ c : Dev nD, k0_off79 c = ![oS1 0 c, 0] := by decide +kernel
theorem off80_eq : ∀ c : Dev nD, k0_off80 c = ![oS1 1 c, 0] := by decide +kernel
theorem off81_eq : ∀ c : Dev nD, k0_off81 c = ![oS1 2 c, 0] := by decide +kernel

theorem off82_eq : ∀ c : Dev nD, k0_off82 c = ![oLb 0 c, 0] := by decide +kernel
theorem off83_eq : ∀ c : Dev nD, k0_off83 c = ![oLa 0 c, 0] := by decide +kernel
theorem off84_eq : ∀ c : Dev nD, k0_off84 c = ![oLb 1 c, 0] := by decide +kernel
theorem off85_eq : ∀ c : Dev nD, k0_off85 c = ![oLa 1 c, 0] := by decide +kernel
theorem off86_eq : ∀ c : Dev nD, k0_off86 c = ![oLb 2 c, 0] := by decide +kernel
theorem off87_eq : ∀ c : Dev nD, k0_off87 c = ![oLa 2 c, 0] := by decide +kernel
theorem off88_eq : ∀ c : Dev nD, k0_off88 c = ![oFb 0 c, 0] := by decide +kernel
theorem off89_eq : ∀ c : Dev nD, k0_off89 c = ![oFa 0 c, 0] := by decide +kernel
theorem off90_eq : ∀ c : Dev nD, k0_off90 c = ![oFb 1 c, 0] := by decide +kernel
theorem off91_eq : ∀ c : Dev nD, k0_off91 c = ![oFa 1 c, 0] := by decide +kernel
theorem off92_eq : ∀ c : Dev nD, k0_off92 c = ![oFb 2 c, 0] := by decide +kernel
theorem off93_eq : ∀ c : Dev nD, k0_off93 c = ![oFa 2 c, 0] := by decide +kernel

end Cert.KernelIdeal.RsAg
-- ==== Proof.KI.Remote.lean ====
import proofs.«901015_g7700000000001016_dist_rs_then_ag_i_m4096_n1024_v7x_i8_f32_1_alg».proof.Proof.Gen.KernelIdeal.Skeleton
import proofs.«901015_g7700000000001016_dist_rs_then_ag_i_m4096_n1024_v7x_i8_f32_1_alg».proof.Proof.KI.SchedTables
import proofs.«901015_g7700000000001016_dist_rs_then_ag_i_m4096_n1024_v7x_i8_f32_1_alg».proof.Proof.KI.Tables

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev stgSl (o sz : Fin 2 → Nat) (inb : ∀ a, o a + sz a ≤ S4096x1024.size a)
    (hst : ∀ a, (Rect.unit (s := S4096x1024) o sz inb).stride a = 1) :
    Memref sig .tc .vmem (Rect.unit (s := S4096x1024) o sz inb).shape .bf16 :=
  (Memref.whole cc0_scratch0 : Memref sig .tc .vmem S4096x1024 .bf16).slice (Rect.unit (s := S4096x1024) o sz inb) hst

abbrev rsrSl (o sz : Fin 2 → Nat) (inb : ∀ a, o a + sz a ≤ S3584x1024.size a)
    (hst : ∀ a, (Rect.unit (s := S3584x1024) o sz inb).stride a = 1) :
    Memref sig .tc .vmem (Rect.unit (s := S3584x1024) o sz inb).shape .bf16 :=
  (Memref.whole cc0_scratch1 : Memref sig .tc .vmem S3584x1024 .bf16).slice (Rect.unit (s := S3584x1024) o sz inb) hst

theorem amt_eq : ∀ (p : Fin 3) (i : Fin 14), amt p i = RefSig.tileCredit ⟨2, ![eRows p, 1024]⟩ .bf16 := by decide +kernel

theorem slab_credit (p : Fin 3) (i : Fin 14) {sp : Space} (v : View sig .tc sp ⟨2, ![eRows p, 1024]⟩ .bf16) :
    v.dmaCredit = amt p i :=
  (rfl : v.dmaCredit = RefSig.tileCredit ⟨2, ![eRows p, 1024]⟩ .bf16).trans (amt_eq p i).symm

theorem pay_sendRS (c : Dev nD) (p : Fin 3) (i : Fin 14) (hi : i.val < 7) : (emp : sProp 𝕄) ⊢ sendPay m c p i := by
  unfold sendPay; rw [if_pos hi]

theorem wp_barSignal (c n : Dev nD) (k' : Fin 3) (hn : n = flip (barMask k') c)
    {α : Type} {Q : α → sProp 𝕄} {k : PUnit → Prog (TpuEff nD τ sig (Elt F) Λ₀ .tc) α}
    (κ : ℕ) (O₀ O : CellTallies nD τ sig Unit) (hO : O₀ = O + tallyAt (barCell n) () 1) (W : Waits sig Unit) :
    iprop(cellInv ER (sched m) κ (barCell n) ∗ owes (Dev.tc c : Thread nD τ) O₀ W ∗ dutyTok ER (barCell n) 0 k'
        ∗ barPay (F := F) n k' ∗ reached ER (barCell n) 0)
      ⊢ iprop((owes (Dev.tc c : Thread nD τ) O W
              -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.semSignal (Dev.tc n : Thread nD τ) barS 1) k) Q) := by
  subst hn
  exact Rounds.wp_signal Variants.none ER (sched m) (Dev.tc c : Thread nD τ) none
    (dst := (Dev.tc (flip (barMask k') c) : Thread nD τ)) (sem := barS) (r := 0) (d := k') (κ := κ)
    (by rw [duties_bar]; exact Finset.mem_univ _) (amount_bar m (flip (barMask k') c) k') () O hO (W := W)

theorem wp_barWait (c : Dev nD)
    {α : Type} {Q : α → sProp 𝕄} {k : PUnit → Prog (TpuEff nD τ sig (Elt F) Λ₀ .tc) α}
    (κ : ℕ) (O : CellTallies nD τ sig Unit) (W : Waits sig Unit) :
    iprop(cellInv ER (sched m) κ (barCell c) ∗ cred (tallyAt (barCell c) () 3)
        ∗ owes (Dev.tc c : Thread nD τ) O W ∗ MayWait (Dev.tc c : Thread nD τ) (.reg barS) () O
        ∗ atPos ER (barCell c) 0 ∅ 0)
      ⊢ iprop(((owes (Dev.tc c : Thread nD τ) O (insert (SemLoc.reg barS, ()) W)
              ∗ atPos ER (barCell c) 1 ∅ 0 ∗ reached ER (barCell c) 1
              ∗ barPay (F := F) c 0 ∗ barPay (F := F) c 1 ∗ barPay (F := F) c 2)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.semWait barS 3) k) Q) := by
  have h := Rounds.wp_wait_rest_token (defs := defs₀ (F := F)) (Γ := .empty) Variants.none ER (sched m) (Dev.tc c : Thread nD τ) none
    (w := .semWait barS 3) (sm := .reg barS) (k' := 3) (Es := Set.univ) (κ := κ)
    (wpE_semWait_eq Variants.none (Dev.tc c : Thread nD τ) none Set.univ)
    (Set.mem_univ _) (k := k) (Q := Q) () (O := O) (W := W) (R := 0) (m := 0) (T := ∅)
    (by rw [expect_bar])
  rw [rest_bar] at h
  exact h

end Cert.KernelIdeal.RsAg

end
-- ==== Proof.KI.Slabs.lean ====
import proofs.«901015_g7700000000001016_dist_rs_then_ag_i_m4096_n1024_v7x_i8_f32_1_alg».proof.Proof.Gen.KernelIdeal
import proofs.«901015_g7700000000001016_dist_rs_then_ag_i_m4096_n1024_v7x_i8_f32_1_alg».proof.Proof.Gen.KernelIdeal.Skeleton
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.KI.Sched

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Whole

variable {sig' : RefSig} {κ : Kind} (b : Ref sig' κ) {Val : EltTy → Type}

theorem write_whole_eq_on (r : Rect b.ty.shape) (f G : b.ty.Contents Val) (w : r.shape.Idx → Val b.ty.elt)
    (hw : ∀ j, w j = G (r.emb j)) :
    ∀ i ∈ r.set, ((View.whole b : View sig' κ _ _ _).slice r).write Val f w Finset.univ i = G i := by
  intro i hi
  obtain ⟨j, rfl⟩ := r.exists_idx_of_mem hi
  exact (write_whole_emb b r f w j).trans (hw j)

end Whole

section Contents

variable {sig' : RefSig} {κ : Kind} (b : Ref sig' κ) {Val : EltTy → Type}

theorem write_whole_eq (r : Rect b.ty.shape) (f G : b.ty.Contents Val) (w : r.shape.Idx → Val b.ty.elt)
    (hw : ∀ j, w j = G (r.emb j)) (hG : ∀ i, i ∉ r.set → G i = f i) :
    ((View.whole b : View sig' κ _ _ _).slice r).write Val f w Finset.univ = G := by
  funext i
  by_cases hi : i ∈ r.set
  · exact write_whole_eq_on b r f G w hw i hi
  · rw [write_whole_of_not_mem b r f w hi, hG i hi]

end Contents

theorem mkW_emb {n o : Nat} (inb : ∀ a, (![o, 0] : Fin 2 → Nat) a + (![n, 1024] : Fin 2 → Nat) a ≤ S4096x1024.size a)
    (j : Shape.Idx ⟨2, ![n, 1024]⟩) (h₀ : o + (j 0).val < 4096) (h₁ : (j 1).val < 1024) :
    mkW ⟨o + (j 0).val, h₀⟩ ⟨(j 1).val, h₁⟩ = (Rect.unit (s := S4096x1024) ![o, 0] ![n, 1024] inb).emb j := by
  funext a
  apply Fin.ext
  match a with
  | ⟨0, _⟩ => show o + (j 0).val = o + 1 * (j 0).val; omega
  | ⟨1, _⟩ => show (j 1).val = 0 + 1 * (j 1).val; omega

theorem reRow_emb {e : FTy} {n o slot : Nat} (f : FVec F W e)
    (inbr : ∀ a, (![slot, 0] : Fin 2 → Nat) a + (![n, 1024] : Fin 2 → Nat) a ≤ S3584x1024.size a)
    (inbx : ∀ a, (![o, 0] : Fin 2 → Nat) a + (![n, 1024] : Fin 2 → Nat) a ≤ S4096x1024.size a)
    (j : Shape.Idx ⟨2, ![n, 1024]⟩) :
    reRow o slot f ((Rect.unit (s := S3584x1024) ![slot, 0] ![n, 1024] inbr).emb j)
      = f ((Rect.unit (s := S4096x1024) ![o, 0] ![n, 1024] inbx).emb j) := by
  have hj0 : (j 0).val < n := (j 0).isLt
  have hj1 : (j 1).val < 1024 := (j 1).isLt
  have hx0 : o + n ≤ 4096 := inbx 0
  have h₀ : o + (j 0).val < 4096 := by omega
  rw [← mkW_emb inbx j h₀ hj1]
  unfold reRow
  congr 1
  have e0 : (((Rect.unit (s := S3584x1024) ![slot, 0] ![n, 1024] inbr).emb j) ⟨0, by decide⟩).val = slot + 1 * (j 0).val := rfl
  have e1 : (((Rect.unit (s := S3584x1024) ![slot, 0] ![n, 1024] inbr).emb j) ⟨1, by decide⟩).val = 0 + 1 * (j 1).val := rfl
  congr 1
  · apply Fin.ext
    show (_ - slot + o) % 4096 = o + (j 0).val
    rw [e0, Nat.mod_eq_of_lt (by omega)]; omega
  · apply Fin.ext
    show _ % 1024 = (j 1).val
    rw [e1, Nat.mod_eq_of_lt (by omega)]; omega

theorem rcv_apply (v : FVec F W .bf16) (i : W.Idx) : rcv v i = FloatOps.extf .f32 bf16_lt_f32 (v i) := rfl

abbrev xM : Memref sig .tc .vmem S4096x1024 .f32 := Memref.whole cc0_stg0_0
abbrev oM : Memref sig .tc .vmem S4096x1024 .f32 := Memref.whole cc0_stg1_0
abbrev sM : Memref sig .tc .vmem S4096x1024 .bf16 := Memref.whole cc0_scratch0
abbrev rM : Memref sig .tc .vmem S3584x1024 .bf16 := Memref.whole cc0_scratch1
theorem hxM : (xM).IsWhole := Memref.isWhole_whole _
theorem hoM : (oM).IsWhole := Memref.isWhole_whole _
theorem hsM : (sM).IsWhole := Memref.isWhole_whole _
theorem hrM : (rM).IsWhole := Memref.isWhole_whole _

theorem rows4096_set {n o : Nat} (inb : ∀ a, (![o, 0] : Fin 2 → Nat) a + (![n, 1024] : Fin 2 → Nat) a ≤ S4096x1024.size a) :
    (Rect.unit (s := S4096x1024) ![o, 0] ![n, 1024] inb).set = rowsSet (S := S4096x1024) ⟨0, by decide⟩ o n :=
  set_unit_rows (d := ![4096, 1024]) ![o, 0] ![n, 1024] inb rfl rfl

theorem rows3584_set {n o : Nat} (inb : ∀ a, (![o, 0] : Fin 2 → Nat) a + (![n, 1024] : Fin 2 → Nat) a ≤ S3584x1024.size a) :
    (Rect.unit (s := S3584x1024) ![o, 0] ![n, 1024] inb).set = rowsSet (S := S3584x1024) ⟨0, by decide⟩ o n :=
  set_unit_rows (d := ![3584, 1024]) ![o, 0] ![n, 1024] inb rfl rfl

section Steps

variable {Ix : Type} [DecidableEq Ix] {Name : Type} [DecidableEq Name] {U : Type} [URA U] {Lvl : Type} [Preorder Lvl] {Λ : Labels}
variable {defs : Defs nD τ sig (Elt F) Λ} (𝒱 : Variants) (c : Dev nD) (bd : Option 𝒱.V) {Γ : PendingWaitsCtx sig Ix} (E : Set Name)
variable {α : Type} {Q : α → sProp (MT nD τ sig Ix (Elt F) Name U Lvl)}

local notation "𝕄'" => MT nD τ sig Ix (Elt F) Name U Lvl

theorem wp_load_stage {n o : Nat} {off : Fin 2 → Nat} (hoff : off = ![o, 0])
    {inb : ∀ a, off a + (![n, 1024] : Fin 2 → Nat) a ≤ S4096x1024.size a}
    {hl : (sM).view.LoadsAt (Rect.unit (s := S4096x1024) off ![n, 1024] inb).toLoadRect}
    {k : ((Rect.unit (s := S4096x1024) off ![n, 1024] inb).toLoadRect.shape.Idx → Elt F .bf16) → Prog (TpuEff nD τ sig (Elt F) Λ .tc) α}
    {I : Finset (Idx (sL c))} {q : PosShare TreeShare} {f : Buf (Elt F) (sL c)}
    (hI : rowsSet (S := S4096x1024) ⟨0, by decide⟩ o n ⊆ I) :
    (sL c ↦[I]{q} f : sProp 𝕄')
      ⊢ iprop(((sL c ↦[I]{q} f) -∗ wp frame (wpE' defs 𝒱 (Dev.tc c : Thread nD τ) bd Γ) E
            (k ((sM).view.readAt (Elt F) (Rect.unit (s := S4096x1024) off ![n, 1024] inb).toLoadRect f)) Q)
        -∗ wp frame (wpE' defs 𝒱 (Dev.tc c : Thread nD τ) bd Γ) E
            (.op (.load sM (Rect.unit (s := S4096x1024) off ![n, 1024] inb).toLoadRect hl) k) Q) := by
  subst hoff
  refine wp_load 𝒱 (Dev.tc c : Thread nD τ) bd E (m := sM) ?_
  intro i hi
  have h := setOn_whole cc0_scratch0 (Rect.unit (s := S4096x1024) ![o, 0] ![n, 1024] inb).set
  have hi' : i ∈ (Rect.unit (s := S4096x1024) ![o, 0] ![n, 1024] inb).set := (congrArg (fun s => i ∈ s) h).mp hi
  exact hI ((congrArg (fun s => i ∈ s) (rows4096_set inb)).mp hi')

theorem wp_store_stage {n o : Nat} {off : Fin 2 → Nat} (hoff : off = ![o, 0])
    {inb : ∀ a, off a + (![n, 1024] : Fin 2 → Nat) a ≤ S4096x1024.size a}
    {w : (Rect.unit (s := S4096x1024) off ![n, 1024] inb).shape.Idx → Elt F .bf16}
    {hx : ((sM).access (Rect.unit (s := S4096x1024) off ![n, 1024] inb)).Stores Finset.univ}
    {hm : (Finset.univ : Finset (Rect.unit (s := S4096x1024) off ![n, 1024] inb).shape.Idx) = Finset.univ
      ∨ ∀ a, (Rect.unit (s := S4096x1024) off ![n, 1024] inb).stride a = 1}
    {k : PUnit.{1} → Prog (TpuEff nD τ sig (Elt F) Λ .tc) α}
    {I : Finset (Idx (sL c))} {f : Buf (Elt F) (sL c)}
    (hI : rowsSet (S := S4096x1024) ⟨0, by decide⟩ o n ⊆ I) :
    (sL c ↦[I]{fullShare} f : sProp 𝕄')
      ⊢ iprop(((sL c ↦[I]{fullShare} (((sM).access (Rect.unit (s := S4096x1024) off ![n, 1024] inb)).write (Elt F) f w Finset.univ))
            -∗ wp frame (wpE' defs 𝒱 (Dev.tc c : Thread nD τ) bd Γ) E (k ⟨⟩) Q)
        -∗ wp frame (wpE' defs 𝒱 (Dev.tc c : Thread nD τ) bd Γ) E
            (.op (.store sM (Rect.unit (s := S4096x1024) off ![n, 1024] inb) w Finset.univ hx hm) k) Q) := by
  subst hoff
  refine wp_store (defs := defs) (Γ := Γ) (Q := Q) (k := k) 𝒱 (Dev.tc c : Thread nD τ) bd E (m := sM)
    (r := Rect.unit (s := S4096x1024) ![o, 0] ![n, 1024] inb) (w := w) (Mk := Finset.univ) (hx := hx) (hm := hm)
    (S := I) (f := f) ?_
  intro i hi
  have h := View.set_slice_whole cc0_scratch0 (Rect.unit (s := S4096x1024) ![o, 0] ![n, 1024] inb)
  have hi' : i ∈ (Rect.unit (s := S4096x1024) ![o, 0] ![n, 1024] inb).set := (congrArg (fun s => i ∈ s) h).mp hi
  exact hI ((congrArg (fun s => i ∈ s) (rows4096_set inb)).mp hi')

theorem stage_rows_write {n o : Nat} {off : Fin 2 → Nat} (hoff : off = ![o, 0])
    (inb : ∀ a, off a + (![n, 1024] : Fin 2 → Nat) a ≤ S4096x1024.size a)
    (f G : Buf (Elt F) (sL c)) (w : (Rect.unit (s := S4096x1024) off ![n, 1024] inb).shape.Idx → Elt F .bf16)
    (hw : ∀ j, w j = G ((Rect.unit (s := S4096x1024) off ![n, 1024] inb).emb j)) {q : PosShare TreeShare} :
    (sL c ↦[rowsSet (S := S4096x1024) ⟨0, by decide⟩ o n]{q}
        (((sM).access (Rect.unit (s := S4096x1024) off ![n, 1024] inb)).write (Elt F) f w Finset.univ) : sProp 𝕄')
      = (sL c ↦[rowsSet (S := S4096x1024) ⟨0, by decide⟩ o n]{q} G) := by
  subst hoff
  exact pointsTo_congr fun i hi =>
    write_whole_eq_on cc0_scratch0 (Rect.unit (s := S4096x1024) ![o, 0] ![n, 1024] inb) f G w hw i
      ((congrArg (fun s => i ∈ s) (rows4096_set inb)).mpr hi)

end Steps

end Cert.KernelIdeal.RsAg

end
-- ==== Proof.KI.RemoteSend.lean ====
import proofs.«901015_g7700000000001016_dist_rs_then_ag_i_m4096_n1024_v7x_i8_f32_1_alg».proof.Proof.KI.Remote
import proofs.«901015_g7700000000001016_dist_rs_then_ag_i_m4096_n1024_v7x_i8_f32_1_alg».proof.Proof.KI.Slabs

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem stgSl_set (r n : Nat) (inb : ∀ a, (![r, 0] : Fin 2 → Nat) a + (![n, 1024] : Fin 2 → Nat) a ≤ S4096x1024.size a)
    (hst : ∀ a, (Rect.unit (s := S4096x1024) ![r, 0] ![n, 1024] inb).stride a = 1) :
    (stgSl ![r, 0] ![n, 1024] inb hst).view.set = rowsSet (S := S4096x1024) ⟨0, by decide⟩ r n :=
  (View.set_slice_whole cc0_scratch0 (Rect.unit (s := S4096x1024) ![r, 0] ![n, 1024] inb)).trans (rows4096_set inb)

theorem rsrSl_set (r n : Nat) (inb : ∀ a, (![r, 0] : Fin 2 → Nat) a + (![n, 1024] : Fin 2 → Nat) a ≤ S3584x1024.size a)
    (hst : ∀ a, (Rect.unit (s := S3584x1024) ![r, 0] ![n, 1024] inb).stride a = 1) :
    (rsrSl ![r, 0] ![n, 1024] inb hst).view.set = rowsSet (S := S3584x1024) ⟨0, by decide⟩ r n :=
  (View.set_slice_whole cc0_scratch1 (Rect.unit (s := S3584x1024) ![r, 0] ![n, 1024] inb)).trans (rows3584_set inb)

theorem landed_stg (r n : Nat) (fs fd : FVec F W .bf16)
    {inbS inbD : ∀ a, (![r, 0] : Fin 2 → Nat) a + (![n, 1024] : Fin 2 → Nat) a ≤ S4096x1024.size a}
    {hstS : ∀ a, (Rect.unit (s := S4096x1024) ![r, 0] ![n, 1024] inbS).stride a = 1}
    {hstD : ∀ a, (Rect.unit (s := S4096x1024) ![r, 0] ![n, 1024] inbD).stride a = 1} :
    ∀ x ∈ rowsSet (S := S4096x1024) ⟨0, by decide⟩ r n,
      (stgSl ![r, 0] ![n, 1024] inbD hstD).view.write (Elt F) fd
          ((stgSl ![r, 0] ![n, 1024] inbS hstS).view.read (Elt F) fs) Finset.univ x = fs x := by
  intro x hx
  have hx' : x ∈ (Rect.unit (s := S4096x1024) ![r, 0] ![n, 1024] inbD).set := by
    rw [rows4096_set inbD]; exact hx
  exact write_whole_eq_on (Val := Elt F) cc0_scratch0 (Rect.unit (s := S4096x1024) ![r, 0] ![n, 1024] inbD) fd fs _ (fun j => rfl) x hx'

theorem landed_rsr (src sl n : Nat) (fs : FVec F W .bf16) (fd : FVec F WR .bf16)
    {inbS : ∀ a, (![src, 0] : Fin 2 → Nat) a + (![n, 1024] : Fin 2 → Nat) a ≤ S4096x1024.size a}
    {inbD : ∀ a, (![sl, 0] : Fin 2 → Nat) a + (![n, 1024] : Fin 2 → Nat) a ≤ S3584x1024.size a}
    {hstS : ∀ a, (Rect.unit (s := S4096x1024) ![src, 0] ![n, 1024] inbS).stride a = 1}
    {hstD : ∀ a, (Rect.unit (s := S3584x1024) ![sl, 0] ![n, 1024] inbD).stride a = 1} :
    ∀ x ∈ rowsSet (S := S3584x1024) ⟨0, by decide⟩ sl n,
      (rsrSl ![sl, 0] ![n, 1024] inbD hstD).view.write (Elt F) fd
          ((stgSl ![src, 0] ![n, 1024] inbS hstS).view.read (Elt F) fs) Finset.univ x = reRow src sl fs x := by
  intro x hx
  have hx' : x ∈ (Rect.unit (s := S3584x1024) ![sl, 0] ![n, 1024] inbD).set := by
    rw [rows3584_set inbD]; exact hx
  exact write_whole_eq_on (Val := Elt F) cc0_scratch1 (Rect.unit (s := S3584x1024) ![sl, 0] ![n, 1024] inbD) fd (reRow src sl fs) _
    (fun j => (reRow_emb fs inbD inbS j).symm) x hx'

theorem pay_recvRS (c : Dev nD) (p : Fin 3) (i : Fin 14) (hi : i.val < 7) (f : FVec F WR .bf16)
    {inbS : ∀ a, (![srcRow p (peer p (stp i) c) i, 0] : Fin 2 → Nat) a + (![eRows p, 1024] : Fin 2 → Nat) a ≤ S4096x1024.size a}
    {inbD : ∀ a, (![slot p (peer p (stp i) c) i, 0] : Fin 2 → Nat) a + (![eRows p, 1024] : Fin 2 → Nat) a ≤ S3584x1024.size a}
    {hstS : ∀ a, (Rect.unit (s := S4096x1024) ![srcRow p (peer p (stp i) c) i, 0] ![eRows p, 1024] inbS).stride a = 1}
    {hstD : ∀ a, (Rect.unit (s := S3584x1024) ![slot p (peer p (stp i) c) i, 0] ![eRows p, 1024] inbD).stride a = 1} :
    iprop((rL (peer p (stp i) c) ↦[(rsrSl ![slot p (peer p (stp i) c) i, 0] ![eRows p, 1024] inbD hstD).view.set]{fullShare}
          ((rsrSl ![slot p (peer p (stp i) c) i, 0] ![eRows p, 1024] inbD hstD).view.write (Elt F) f
            ((stgSl ![srcRow p (peer p (stp i) c) i, 0] ![eRows p, 1024] inbS hstS).view.read (Elt F) (sent m p c i)) Finset.univ))
        ∗ (sL c ↦[(stgSl ![srcRow p (peer p (stp i) c) i, 0] ![eRows p, 1024] inbS hstS).view.set]{fullShare} (sent m p c i)))
      ⊢ recvPay m (peer p (stp i) c) p i := by
  unfold recvPay rsrRows stgRows
  rw [if_pos hi, peer_peer, rsrSl_set, stgSl_set,
    pointsTo_congr (ℓ := rL (peer p (stp i) c))
      (landed_rsr (srcRow p (peer p (stp i) c) i) (slot p (peer p (stp i) c) i) (eRows p) (sent m p c i) f)]

theorem pay_sendAG (c : Dev nD) (p : Fin 3) (i : Fin 14) (hi : 7 ≤ i.val)
    {inbS : ∀ a, (![gSrcRow p c i, 0] : Fin 2 → Nat) a + (![eRows p, 1024] : Fin 2 → Nat) a ≤ S4096x1024.size a}
    {hstS : ∀ a, (Rect.unit (s := S4096x1024) ![gSrcRow p c i, 0] ![eRows p, 1024] inbS).stride a = 1} :
    (sL c ↦[(stgSl ![gSrcRow p c i, 0] ![eRows p, 1024] inbS hstS).view.set]{gShare i} (Stg (X m) p (gSrcJ p c i)) : sProp 𝕄)
      ⊢ sendPay m c p i := by
  unfold sendPay stgRows
  rw [if_neg (Nat.not_lt.2 hi), stgSl_set]

theorem pay_recvAG (c : Dev nD) (p : Fin 3) (i : Fin 14) (hi : 7 ≤ i.val) (f : FVec F W .bf16)
    {inbS inbD : ∀ a, (![gSrcRow p c i, 0] : Fin 2 → Nat) a + (![eRows p, 1024] : Fin 2 → Nat) a ≤ S4096x1024.size a}
    {hstS : ∀ a, (Rect.unit (s := S4096x1024) ![gSrcRow p c i, 0] ![eRows p, 1024] inbS).stride a = 1}
    {hstD : ∀ a, (Rect.unit (s := S4096x1024) ![gSrcRow p c i, 0] ![eRows p, 1024] inbD).stride a = 1} :
    (sL (peer p (stp i) c) ↦[(stgSl ![gSrcRow p c i, 0] ![eRows p, 1024] inbD hstD).view.set]{fullShare}
        ((stgSl ![gSrcRow p c i, 0] ![eRows p, 1024] inbD hstD).view.write (Elt F) f
          ((stgSl ![gSrcRow p c i, 0] ![eRows p, 1024] inbS hstS).view.read (Elt F) (Stg (X m) p (gSrcJ p c i))) Finset.univ) : sProp 𝕄)
      ⊢ recvPay m (peer p (stp i) c) p i := by
  unfold recvPay stgRows
  rw [if_neg (Nat.not_lt.2 hi), landRow_peer p i c hi, landJ_peer p i c hi, stgSl_set,
    pointsTo_congr (ℓ := sL (peer p (stp i) c)) (landed_stg (gSrcRow p c i) (eRows p) (Stg (X m) p (gSrcJ p c i)) f)]

end Cert.KernelIdeal.RsAg

end
-- ==== Proof.KI.Steps.lean ====
import proofs.«901015_g7700000000001016_dist_rs_then_ag_i_m4096_n1024_v7x_i8_f32_1_alg».proof.Proof.KI.Mid
import proofs.«901015_g7700000000001016_dist_rs_then_ag_i_m4096_n1024_v7x_i8_f32_1_alg».proof.Proof.KI.Remote
import proofs.«901015_g7700000000001016_dist_rs_then_ag_i_m4096_n1024_v7x_i8_f32_1_alg».proof.Proof.KI.RemoteSend

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev wpc (c : Dev nD) {α : Type} (e : Prog (TpuEff nD τ sig (Elt F) Λ₀ .tc) α) (Q : α → sProp 𝕄) : sProp 𝕄 :=
  wp frame (wpE (defs₀ (F := F)) Variants.none (Dev.tc c : Thread nD τ) none) Set.univ e Q

theorem owedAfter_send (c : Dev nD) {ns : Nat} {p : Fin 3} {i : Fin 14} (h : sendOrder[ns]? = some (p, i)) :
    owedAfter barS rSem amt c (3 + ns)
      = owedAfter barS rSem amt c (3 + (ns + 1)) + tallyAt (recvCell (peer p (stp i) c) p i) () (amt p i) := by
  obtain ⟨hl, he⟩ := List.getElem?_eq_some_iff.mp h
  unfold owedAfter
  rw [dues_drop_sends, dues_drop_sends, List.drop_eq_getElem_cons hl, he]
  rfl

theorem hrS : ∀ (p : Fin 3) (i : Fin 14), (rSem p i).val = 44 + 14 * p.val + i.val := fun _ _ => rfl

theorem records_cellInv (K : CellIx → ℕ) (ck : CellIx) : records m K ⊢ cellInv ER (sched m) (K ck) (kcell ck) :=
  sep_elim_left.trans ((Entails.of_eq (bigSep_univ_at _ ck)).trans sep_elim_left)

theorem records_reached (K : CellIx → ℕ) (ck : CellIx) : records m K ⊢ (reached ER (kcell ck) 0 : sProp 𝕄) :=
  sep_elim_right.trans ((Entails.of_eq (bigSep_univ_at _ ck)).trans sep_elim_left)

theorem step_waitRecv (K : CellIx → ℕ) (c : Dev nD) (ns : Nat) (waited : Finset (Fin 3 × Fin 14)) (p : Fin 3) (i : Fin 14)
    (hw : (p, i) ∉ waited) (hns : ns = nBefore p i)
    {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    {α : Type} {Q : α → sProp 𝕄} {k : PUnit → Prog (TpuEff nD τ sig (Elt F) Λ₀ .tc) α} :
    ghostAt m K c ns waited
      ⊢ iprop(((ghostAt m K c ns (insert (p, i) waited) ∗ recvPay m c p i)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.waitDma2 (rSem p i) src dst hsrc hdst) k) Q) := by
  subst hns
  unfold ghostAt
  rw [bigSep_compl_take hw]
  iintro ⟨#Hrec, Hbar, Hrp, Hsp, Hsc, ⟨Hcr, Hrc⟩, Htok, ⟨%W, Ho⟩, #Hlev⟩ Hk
  ihave #Hinv := (records_cellInv m K (c, some (true, p, i))) $$ Hrec
  ihave ⟨Hat, Hrp⟩ := (bigSep_mark hw fun pi n => atPos ER (recvCell c pi.1 pi.2) n ∅ 0) $$ Hrp
  ihave #Hmw := (mayWait_recv (Val := Elt F) (Name := ℕ) (U := UU) barS rSem amt hrS c p i) $$ Hlev
  dsimp only [kcell]
  iapply (Rounds.wp_wait_rest_token (defs := defs₀ (F := F)) (Γ := .empty) Variants.none ER (sched m) (Dev.tc c : Thread nD τ) none
    (w := .waitDma2 (rSem p i) src dst hsrc hdst) (sm := .dma (rSem p i)) (k' := amt p i) (Es := Set.univ)
    (fun K => by rw [← hamt]; exact wpE_waitDma2_eq Variants.none (Dev.tc c : Thread nD τ) none Set.univ K)
    (Set.mem_univ _) () (W := W) (R := 0) (m := 0) (T := ∅) (by rw [expect_recv, Nat.zero_add])) $$ [$]
  rw [rest_recv]
  iintro ⟨Ho, Hat, -, Hpay⟩
  iapply Hk
  iframe # ∗
  isplitl [Hrp Hat]; · iapply Hrp $$ Hat
  iexists _; iexact Ho

theorem step_sendAG (K : CellIx → ℕ) (c : Dev nD) (ns : Nat) (waited : Finset (Fin 3 × Fin 14)) (p : Fin 3) (i : Fin 14)
    (hns : sendOrder[ns]? = some (p, i)) (hi : 7 ≤ i.val) (n : Dev nD) (hn : n = peer p (stp i) c)
    (os sz : Fin 2 → Nat) (hsz : sz = ![eRows p, 1024]) (hos : os = ![gSrcRow p c i, 0])
    {inbS inbD : ∀ a, os a + sz a ≤ S4096x1024.size a}
    {hstS : ∀ a, (Rect.unit (s := S4096x1024) os sz inbS).stride a = 1}
    {hstD : ∀ a, (Rect.unit (s := S4096x1024) os sz inbD).stride a = 1}
    {hsc : (stgSl os sz inbD hstD).view.ref.isScScratch = false}
    {hsrc : (stgSl os sz inbS hstS).view.WordExact} {hdst : (stgSl os sz inbD hstD).view.WordExact}
    {hsem : DmaTarget.Typed .vmem (.dma (rSem p i)) (.remote (Dev.tc n : Thread nD τ) (stgSl os sz inbD hstD) (.dma (sSem p i)) hsc)}
    {α : Type} {Q : α → sProp 𝕄} {k : PUnit → Prog (TpuEff nD τ sig (Elt F) Λ₀ .tc) α} :
    iprop(ghostAt m K c ns waited
        ∗ stgRows c p (gSrcRow p c i) (gShare i) (Stg (X m) p (gSrcJ p c i)) ∗ (∃ f, stgRows (F := F) n p (gSrcRow p c i) fullShare f))
      ⊢ iprop((ghostAt m K c (ns + 1) waited
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.enqueueDma (stgSl os sz inbS hstS) (.remote (Dev.tc n : Thread nD τ) (stgSl os sz inbD hstD) (.dma (sSem p i)) hsc)
                (.dma (rSem p i)) hsrc hdst hsem) k) Q) := by
  subst hn hos hsz
  unfold ghostAt stgRows
  rw [started_succ hns, bigSep_compl_take (not_mem_started hns), bigSep_insert' (not_mem_started hns),
    ← stgSl_set (gSrcRow p c i) (eRows p) inbS hstS]
  iintro ⟨⟨#Hrec, Hbar, Hrp, Hsp, Hsc, Hrc, ⟨⟨Ht1, Ht2⟩, Htok⟩, ⟨%W, Ho⟩, #Hlev⟩, Hsrc, ⟨%f, Hdst⟩⟩ Hk
  ihave #Hi1 := (records_cellInv m K (c, some (false, p, i))) $$ Hrec
  ihave #Hi2 := (records_cellInv m K (peer p (stp i) c, some (true, p, i))) $$ Hrec
  ihave #Hr1 := (records_reached m K (c, some (false, p, i))) $$ Hrec
  ihave #Hr2 := (records_reached m K (peer p (stp i) c, some (true, p, i))) $$ Hrec
  dsimp only [kcell]
  iapply (Rounds.wp_send_pointsTo Variants.none ER (sched m) (Dev.tc c : Thread nD τ) none
    (hsc := hsc) (hsrc := hsrc) (hdst := hdst) (hsem := hsem) (r₁ := 0) (r₂ := 0) (d₁ := 0) (d₂ := 0) (fd := f)
    (by rw [duties_send]; exact Finset.mem_singleton_self _) (by rw [duties_recv]; exact Finset.mem_singleton_self _)
    () () (amt p i) (slab_credit p i _) (amount_send m c p i 0) (amount_recv m (peer p (stp i) c) p i 0) _ (owedAfter_send c hns) (W := W)
    (by rw [payload_send]; exact pay_sendAG m c p i hi)
    (by rw [payload_recv]; exact pay_recvAG m c p i hi f)) $$ [$]
  iintro ⟨Hcr, Ho⟩
  iapply Hk
  iframe # ∗
  iexists _; iexact Ho

theorem step_sendRS (K : CellIx → ℕ) (c : Dev nD) (ns : Nat) (waited : Finset (Fin 3 × Fin 14)) (p : Fin 3) (i : Fin 14)
    (hns : sendOrder[ns]? = some (p, i)) (hi : i.val < 7) (n : Dev nD) (hn : n = peer p (stp i) c)
    (os od sz : Fin 2 → Nat) (hsz : sz = ![eRows p, 1024]) (hos : os = ![srcRow p n i, 0]) (hod : od = ![slot p n i, 0])
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    {α : Type} {Q : α → sProp 𝕄} {k : PUnit → Prog (TpuEff nD τ sig (Elt F) Λ₀ .tc) α} :
    iprop(ghostAt m K c ns waited
        ∗ stgRows c p (srcRow p n i) fullShare (sent m p c i) ∗ (∃ f, rsrRows (F := F) n p (slot p n i) f))
      ⊢ iprop((ghostAt m K c (ns + 1) waited
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.enqueueDma (stgSl os sz inbS hstS) (.remote (Dev.tc n : Thread nD τ) (rsrSl od sz inbD hstD) (.dma (sSem p i)) hsc)
                (.dma (rSem p i)) hsrc hdst hsem) k) Q) := by
  subst hn hos hod hsz
  unfold ghostAt stgRows rsrRows
  rw [started_succ hns, bigSep_compl_take (not_mem_started hns), bigSep_insert' (not_mem_started hns),
    ← stgSl_set (srcRow p (peer p (stp i) c) i) (eRows p) inbS hstS, ← rsrSl_set (slot p (peer p (stp i) c) i) (eRows p) inbD hstD]
  iintro ⟨⟨#Hrec, Hbar, Hrp, Hsp, Hsc, Hrc, ⟨⟨Ht1, Ht2⟩, Htok⟩, ⟨%W, Ho⟩, #Hlev⟩, Hsrc, ⟨%f, Hdst⟩⟩ Hk
  ihave #Hi1 := (records_cellInv m K (c, some (false, p, i))) $$ Hrec
  ihave #Hi2 := (records_cellInv m K (peer p (stp i) c, some (true, p, i))) $$ Hrec
  ihave #Hr1 := (records_reached m K (c, some (false, p, i))) $$ Hrec
  ihave #Hr2 := (records_reached m K (peer p (stp i) c, some (true, p, i))) $$ Hrec
  dsimp only [kcell]
  iapply (Rounds.wp_send_landing_pointsTo Variants.none ER (sched m) (Dev.tc c : Thread nD τ) none
    (hsc := hsc) (hsrc := hsrc) (hdst := hdst) (hsem := hsem) (r₁ := 0) (r₂ := 0) (d₁ := 0) (d₂ := 0) (fd := f)
    (by rw [duties_send]; exact Finset.mem_singleton_self _) (by rw [duties_recv]; exact Finset.mem_singleton_self _)
    () () (amt p i) (slab_credit p i _) (amount_send m c p i 0) (amount_recv m (peer p (stp i) c) p i 0) _ (owedAfter_send c hns) (W := W)
    (by rw [payload_send]; exact pay_sendRS m c p i hi)
    (by rw [payload_recv]; exact pay_recvRS m c p i hi f)) $$ [$]
  iintro ⟨Hcr, Ho⟩
  iapply Hk
  iframe # ∗
  iexists _; iexact Ho

def ghostEnd (K : CellIx → ℕ) (c : Dev nD) (sw : Finset (Fin 3 × Fin 14)) : sProp 𝕄 :=
  iprop(records m K
    ∗ (bigSep Finset.univ fun pi : Fin 3 × Fin 14 => atPos ER (recvCell c pi.1 pi.2) 1 ∅ 0)
    ∗ (bigSep Finset.univ fun pi : Fin 3 × Fin 14 => atPos ER (sendCell c pi.1 pi.2) (if pi ∈ sw then 1 else 0) ∅ 0)
    ∗ (bigSep (Finset.univ \ sw) fun pi => cred (tallyAt (sendCell c pi.1 pi.2) () (amt pi.1 pi.2)))
    ∗ (∃ W, owes (Dev.tc c : Thread nD τ) 0 W))

theorem ghostEnd_of_ghostAt (K : CellIx → ℕ) (c : Dev nD) : ghostAt m K c 42 Finset.univ ⊢ ghostEnd m K c ∅ := by
  unfold ghostAt ghostEnd
  rw [show owedAfter barS rSem amt c (3 + 42) = 0 from owedAfter_all barS rSem amt c 45 (Nat.le_refl 45)]
  simp only [Finset.mem_univ, if_true, Finset.notMem_empty, if_false, started_all, Finset.sdiff_empty]
  iintro ⟨#Hrec, -, Hrp, Hsp, Hsc, -, -, Ho, -⟩
  iframe # ∗

theorem step_waitSend (K : CellIx → ℕ) (c : Dev nD) (sw : Finset (Fin 3 × Fin 14)) (p : Fin 3) (i : Fin 14)
    (hw : (p, i) ∉ sw)
    {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    {α : Type} {Q : α → sProp 𝕄} {k : PUnit → Prog (TpuEff nD τ sig (Elt F) Λ₀ .tc) α} :
    ghostEnd m K c sw
      ⊢ iprop(((ghostEnd m K c (insert (p, i) sw) ∗ sendPay m c p i)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.waitDma2 (sSem p i) src dst hsrc hdst) k) Q) := by
  unfold ghostEnd
  rw [bigSep_compl_take hw]
  iintro ⟨#Hrec, Hrp, Hsp, ⟨Hcr, Hsc⟩, ⟨%W, Ho⟩⟩ Hk
  ihave #Hinv := (records_cellInv m K (c, some (false, p, i))) $$ Hrec
  ihave ⟨Hat, Hsp⟩ := (bigSep_mark hw fun pi n => atPos ER (sendCell c pi.1 pi.2) n ∅ 0) $$ Hsp
  dsimp only [kcell]
  iapply (Rounds.wp_wait_rest_token (defs := defs₀ (F := F)) (Γ := .empty) Variants.none ER (sched m) (Dev.tc c : Thread nD τ) none
    (w := .waitDma2 (sSem p i) src dst hsrc hdst) (sm := .dma (sSem p i)) (k' := amt p i) (Es := Set.univ)
    (fun K => by rw [← hamt]; exact wpE_waitDma2_eq Variants.none (Dev.tc c : Thread nD τ) none Set.univ K)
    (Set.mem_univ _) () (O := 0) (W := W) (R := 0) (m := 0) (T := ∅) (by rw [expect_send, Nat.zero_add])) $$ [Hcr Ho Hat]
  · rw [MayWait_zero]; iframe # ∗; iempintro
  rw [rest_send]
  iintro ⟨Ho, Hat, -, Hpay⟩
  iapply Hk
  iframe # ∗
  isplitl [Hsp Hat]; · iapply Hsp $$ Hat
  iexists _; iexact Ho

theorem close_cell (K : CellIx → ℕ) (ck : CellIx) :
    iprop(records m K ∗ atPos ER (kcell ck) 1 ∅ 0) ⊢ (iprop(|={Set.univ}=> semVal (kcell ck) 0) : sProp 𝕄) := by
  iintro ⟨#Hr, Hat⟩
  ihave #Hinv := (records_cellInv m K ck) $$ Hr
  iapply (cell_close ER (sched m) (Set.mem_univ (K ck)) (fun h => h) (duties_later m (kcell ck))) $$ [$]

theorem close_pair (K : CellIx → ℕ) (c : Dev nD) (pi : Fin 3 × Fin 14) :
    iprop(records m K ∗ (atPos ER (sendCell c pi.1 pi.2) 1 ∅ 0 ∗ atPos ER (recvCell c pi.1 pi.2) 1 ∅ 0))
      ⊢ (iprop(|={Set.univ}=> (semVal (sendCell c pi.1 pi.2) 0 ∗ semVal (recvCell c pi.1 pi.2) 0)) : sProp 𝕄) := by
  iintro ⟨#Hr, Hs, Hv⟩
  ihave H1 := (close_cell m K (c, some (false, pi.1, pi.2))) $$ [Hs]
  · iframe #; iexact Hs
  ihave H2 := (close_cell m K (c, some (true, pi.1, pi.2))) $$ [Hv]
  · iframe #; iexact Hv
  imod H1
  imod H2
  imodintro
  dsimp only [kcell]
  iframe

theorem close_all (K : CellIx → ℕ) (c : Dev nD) :
    ghostEnd m K c Finset.univ
      ⊢ iprop(|={Set.univ}=> ((bigSep Finset.univ fun pi : Fin 3 × Fin 14 =>
            iprop(semVal (sendCell c pi.1 pi.2) 0 ∗ semVal (recvCell c pi.1 pi.2) 0)) ∗ ∃ W, owes (Dev.tc c : Thread nD τ) 0 W)) := by
  unfold ghostEnd
  simp only [Finset.mem_univ, if_true]
  iintro ⟨#Hrec, Hrp, Hsp, -, Ho⟩
  ihave Hcl := ((bigSep_with_persistent (S := Finset.univ) (R := records m K) (fun pi _ => close_pair m K c pi)).trans
    (bigSep_fupd Finset.univ _)) $$ [Hsp Hrp]
  · rw [bigSep_sep']; iframe # ∗
  imod Hcl
  imodintro
  iframe

end Cert.KernelIdeal.RsAg

end
-- ==== Proof.KI.Basics.lean ====
import proofs.«901015_g7700000000001016_dist_rs_then_ag_i_m4096_n1024_v7x_i8_f32_1_alg».proof.Proof.Gen.KernelIdeal
import proofs.«901015_g7700000000001016_dist_rs_then_ag_i_m4096_n1024_v7x_i8_f32_1_alg».proof.Proof.Gen.KernelIdeal.Skeleton
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.KI.Sched

noncomputable section

namespace Cert.KernelIdeal.RsAg

open Cert.KernelIdeal Cert.KernelIdeal.Gen Cert.RsAg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Shares

variable {Ix : Type} [DecidableEq Ix] {Val : EltTy → Type} {Name : Type} [DecidableEq Name] {U : Type} [URA U] {Lvl : Type}
variable {ℓ : Loc nD τ sig} {I : Finset (Idx ℓ)} {f : Buf Val ℓ}

local notation "𝕄" => MT nD τ sig Ix Val Name U Lvl

theorem pointsTo_halves :
    (ℓ ↦[I]{fullShare} f : sProp 𝕄) ⊣⊢ iprop((ℓ ↦[I]{shL} f) ∗ ℓ ↦[I]{shR} f) :=
  pointsTo_share (PosShare.mem_left_op_right fullShare)

theorem pointsTo_right_halves :
    (ℓ ↦[I]{shR} f : sProp 𝕄) ⊣⊢ iprop((ℓ ↦[I]{shRL} f) ∗ ℓ ↦[I]{shRR} f) :=
  pointsTo_share (PosShare.mem_left_op_right fullShare.right)

theorem pointsTo_thirds :
    (ℓ ↦[I]{fullShare} f : sProp 𝕄) ⊣⊢ iprop((ℓ ↦[I]{shL} f) ∗ (ℓ ↦[I]{shRL} f) ∗ ℓ ↦[I]{shRR} f) :=
  ⟨pointsTo_halves.1.trans (sep_mono_right pointsTo_right_halves.1),
   (sep_mono_right pointsTo_right_halves.2).trans pointsTo_halves.2⟩

theorem pointsTo_halves_join : iprop((ℓ ↦[I]{shL} f) ∗ ℓ ↦[I]{shR} f) ⊢ (ℓ ↦[I]{fullShare} f : sProp 𝕄) := pointsTo_halves.2
theorem pointsTo_thirds_join :
    iprop((ℓ ↦[I]{shL} f) ∗ (ℓ ↦[I]{shRL} f) ∗ ℓ ↦[I]{shRR} f) ⊢ (ℓ ↦[I]{fullShare} f : sProp 𝕄) := pointsTo_thirds.2

end Shares

namespace Cover

abbrev ax0 : Fin S4096x1024.rank := ⟨0, by decide⟩

abbrev slabRows (pj : Fin 3 × Fin 8) : Finset S4096x1024.Idx := rowsSet (S := S4096x1024) ax0 (slab pj.1 pj.2.val) (eRows pj.1)

theorem slabRows_disjoint (pj pj' : Fin 3 × Fin 8) (h : pj ≠ pj') : Disjoint (slabRows pj) (slabRows pj') := by
  rw [Finset.disjoint_left]
  intro i h₁ h₂
  rw [mem_rowsSet] at h₁ h₂
  exact h (Prod.ext ((partOf_of_inSlab pj.2.isLt h₁).symm.trans (partOf_of_inSlab pj'.2.isLt h₂))
    (Fin.ext ((slabOf_of_inSlab pj.2.isLt h₁).symm.trans (slabOf_of_inSlab pj'.2.isLt h₂))))

theorem slabRows_cover : (Finset.univ : Finset (Fin 3 × Fin 8)).biUnion slabRows = Finset.univ := by
  ext i
  simp only [Finset.mem_biUnion, Finset.mem_univ, true_and, iff_true]
  have hr : (i ax0).val < 4096 := (i ax0).isLt
  exact ⟨(partOf (i ax0).val, ⟨slabOf (i ax0).val, slabOf_lt hr⟩), mem_rowsSet.mpr (inSlab_partOf_slabOf hr)⟩

end Cover

end Cert.KernelIdeal.RsAg

end
-- ==== Proof.KI.Cuts.lean ====
import proofs.«901015_g7700000000001016_dist_rs_then_ag_i_m4096_n1024_v7x_i8_f32_1_alg».proof.Proof.KI.Basics
import proofs.«901015_g7700000000001016_dist_rs_then_ag_i_m4096_n1024_v7x_i8_f32_1_alg».proof.Proof.KI.Slabs

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem slab_as_role (c : Dev nD) (pr : Fin 3 × Fin 8) (f : Buf (Elt F) (sL c)) :
    (sL c ↦[(Cover.slabRows (sroleE c pr) : Finset (Idx (sL c)))]{fullShare} f : sProp 𝕄)
      ⊢ iprop(∃ g, stgRows (F := F) c pr.1 (roleRow pr.1 pr.2 c) fullShare g) := by
  iintro H
  iexists f
  unfold stgRows
  rw [sroleRow_eq pr.1 pr.2 c]
  iexact H

theorem stage_cut (c : Dev nD) (f : Buf (Elt F) (sL c)) :
    (sL c ↦{fullShare} f : sProp 𝕄)
      ⊢ bigSep Finset.univ fun pr : Fin 3 × Fin 8 =>
          iprop(∃ g, stgRows (F := F) c pr.1 (roleRow pr.1 pr.2 c) fullShare g) := by
  have hc : (Finset.univ : Finset (Idx (sL c)))
      = (Finset.univ : Finset (Fin 3 × Fin 8)).biUnion (Cover.slabRows : Fin 3 × Fin 8 → Finset (Idx (sL c))) :=
    Cover.slabRows_cover.symm
  have h1 : (sL c ↦{fullShare} f : sProp 𝕄)
      = bigSep (Finset.univ : Finset (Fin 3 × Fin 8))
          fun pj => (sL c ↦[(Cover.slabRows pj : Finset (Idx (sL c)))]{fullShare} f : sProp 𝕄) :=
    (congrArg (fun S => (sL c ↦[S]{fullShare} f : sProp 𝕄)) hc).trans
      (pointsTo_biUnion (ℓ := sL c) (q := fullShare) (f := f) (Finset.univ : Finset (Fin 3 × Fin 8))
        (Cover.slabRows : Fin 3 × Fin 8 → Finset (Idx (sL c))) (fun t _ t' _ h => Cover.slabRows_disjoint t t' h))
  rw [h1, bigSep_univ_equiv (sroleE c)]
  exact bigSep_mono fun pr _ => slab_as_role c pr f

section Block

theorem block_split (c : Dev nD) {o oa ob E : Nat} (h : (oa = o ∧ ob = o + E) ∨ (ob = o ∧ oa = o + E))
    (f : Buf (Elt F) (sL c)) {q : PosShare TreeShare} :
    (sL c ↦[rowsSet (S := S4096x1024) ⟨0, by decide⟩ o (E + E)]{q} f : sProp 𝕄)
      ⊣⊢ iprop((sL c ↦[rowsSet (S := S4096x1024) ⟨0, by decide⟩ oa E]{q} f)
          ∗ (sL c ↦[rowsSet (S := S4096x1024) ⟨0, by decide⟩ ob E]{q} f)) := by
  rw [rowsSet_add o E E]
  rcases h with ⟨rfl, rfl⟩ | ⟨rfl, rfl⟩
  · exact pointsTo_union (rowsSet_disjoint (Nat.le_refl _))
  · exact ⟨(pointsTo_union (rowsSet_disjoint (Nat.le_refl _))).1.trans sep_comm.1,
      sep_comm.1.trans (pointsTo_union (rowsSet_disjoint (Nat.le_refl _))).2⟩

theorem block_join (c : Dev nD) {o oa ob E : Nat} (h : (oa = o ∧ ob = o + E) ∨ (ob = o ∧ oa = o + E)) :
    iprop((∃ f, (sL c ↦[rowsSet (S := S4096x1024) ⟨0, by decide⟩ oa E]{fullShare} f : sProp 𝕄))
        ∗ (∃ g, (sL c ↦[rowsSet (S := S4096x1024) ⟨0, by decide⟩ ob E]{fullShare} g : sProp 𝕄)))
      ⊢ iprop(∃ b, (sL c ↦[rowsSet (S := S4096x1024) ⟨0, by decide⟩ o (E + E)]{fullShare} b : sProp 𝕄)) := by
  rw [rowsSet_add o E E]
  iintro ⟨⟨%f, Hf⟩, ⟨%g, Hg⟩⟩
  rcases h with ⟨rfl, rfl⟩ | ⟨rfl, rfl⟩
  all_goals
    iexists _
    iapply (pointsTo_join (rowsSet_disjoint (Nat.le_refl _)))
    iframe

end Block

end Cert.KernelIdeal.RsAg

end
-- ==== Proof.KI.Tiles.lean ====
import proofs.«901015_g7700000000001016_dist_rs_then_ag_i_m4096_n1024_v7x_i8_f32_1_alg».proof.Proof.KI.Sched

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

namespace Tiles

open Cert.RsAg.Tiles

abbrev ax : Fin S4096x1024.rank := ⟨0, by decide⟩
abbrev rax : Fin S3584x1024.rank := ⟨0, by decide⟩

abbrev slotRows (c : Fin 8) (pi : Fin 3 × Fin 14) : Finset S3584x1024.Idx :=
  rowsSet (S := S3584x1024) rax (slot pi.1 c pi.2) (eRows pi.1)

theorem slotRows_disjoint (c : Fin 8) (pi : Fin 3 × Fin 14) (hpi : pi ∈ red) (pi' : Fin 3 × Fin 14) (hpi' : pi' ∈ red)
    (h : pi ≠ pi') : Disjoint (slotRows c pi) (slotRows c pi') := by
  rcases slots_apart c pi.1 pi'.1 pi.2 pi'.2 (mem_red.mp hpi) (mem_red.mp hpi') h with h' | h'
  · exact rowsSet_disjoint h'
  · exact (rowsSet_disjoint h').symm

theorem slotRows_cover (c : Fin 8) : red.biUnion (slotRows c) = Finset.univ := by
  ext x
  simp only [Finset.mem_biUnion, Finset.mem_univ, iff_true]
  obtain ⟨p, j, hlo, hhi⟩ := rrow_cases (x rax).val (x rax).isLt
  obtain ⟨i, hi, hs⟩ := slots_onto c p j
  exact ⟨(p, i), mem_red.mpr hi, mem_rowsSet.mpr ⟨by rw [hs]; exact hlo, by rw [hs]; exact hhi⟩⟩

theorem rsr_whole (c : Dev nD) (g : Fin 3 × Fin 14 → FVec F WR .bf16) :
    bigSep red (fun pi => rsrRows (F := F) c pi.1 (slot pi.1 c pi.2) (g pi)) ⊢ (iprop(∃ f, rL c ↦{fullShare} f) : sProp 𝕄) := by
  have h := pointsTo_biUnion_join (Ix := Unit) (Val := Elt F) (Name := ℕ) (U := UU) (Lvl := ℕ) (ℓ := rL c) (q := fullShare)
    red (fun pi => (slotRows c pi : Finset (Idx (rL c)))) (fun pi => (g pi : Buf (Elt F) (rL c))) (g (0, 0))
    (fun t ht t' ht' hne => slotRows_disjoint c t ht t' ht' hne)
  rw [slotRows_cover] at h
  refine h.trans ?_
  iintro ⟨%f, -, H⟩
  iexists f
  iexact H

abbrev roleRows (c : Fin 8) (pr : Fin 3 × Fin 8) : Finset S4096x1024.Idx :=
  rowsSet (S := S4096x1024) ax (rRow pr.1 pr.2 c) (eRows pr.1)

theorem roleRows_disjoint (c : Fin 8) (pr pr' : Fin 3 × Fin 8) (h : pr ≠ pr') : Disjoint (roleRows c pr) (roleRows c pr') := by
  rcases roles_apart c pr.1 pr'.1 pr.2 pr'.2 h with h' | h'
  · exact rowsSet_disjoint h'
  · exact (rowsSet_disjoint h').symm

theorem roleRows_cover (c : Fin 8) : (Finset.univ : Finset (Fin 3 × Fin 8)).biUnion (roleRows c) = Finset.univ := by
  ext x
  simp only [Finset.mem_biUnion, Finset.mem_univ, true_and, iff_true]
  obtain ⟨p, j, hlo, hhi⟩ := row_cases (x ax).val (x ax).isLt
  obtain ⟨r, hs⟩ := roles_onto c p j
  exact ⟨(p, r), mem_rowsSet.mpr ⟨by rw [hs]; exact hlo, by rw [hs]; exact hhi⟩⟩

theorem stg_whole (c : Dev nD) (g : Fin 3 × Fin 8 → FVec F W .bf16) :
    bigSep Finset.univ (fun pr : Fin 3 × Fin 8 => stgRows (F := F) c pr.1 (rRow pr.1 pr.2 c) fullShare (g pr))
      ⊢ (iprop(∃ f, sL c ↦{fullShare} f) : sProp 𝕄) := by
  have h := pointsTo_biUnion_join (Ix := Unit) (Val := Elt F) (Name := ℕ) (U := UU) (Lvl := ℕ) (ℓ := sL c) (q := fullShare)
    (Finset.univ : Finset (Fin 3 × Fin 8)) (fun pr => (roleRows c pr : Finset (Idx (sL c)))) (fun pr => (g pr : Buf (Elt F) (sL c))) (g (0, 0))
    (fun t _ t' _ hne => roleRows_disjoint c t t' hne)
  rw [roleRows_cover] at h
  refine h.trans ?_
  iintro ⟨%f, -, H⟩
  iexists f
  iexact H

end Tiles

end Cert.KernelIdeal.RsAg

end
-- ==== Proof.KI.RsrCut.lean ====
import proofs.«901015_g7700000000001016_dist_rs_then_ag_i_m4096_n1024_v7x_i8_f32_1_alg».proof.Proof.KI.Sched
import proofs.«901015_g7700000000001016_dist_rs_then_ag_i_m4096_n1024_v7x_i8_f32_1_alg».proof.Proof.KI.Tiles
import proofs.«901015_g7700000000001016_dist_rs_then_ag_i_m4096_n1024_v7x_i8_f32_1_alg».proof.Proof.KI.Slabs
import proofs.«901015_g7700000000001016_dist_rs_then_ag_i_m4096_n1024_v7x_i8_f32_1_alg».proof.Proof.KI.SchedTables

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev rsrSlotRows (c : Fin 8) (pr : Fin 3 × Fin 7) : Finset S3584x1024.Idx :=
  rowsSet (S := S3584x1024) ⟨0, by decide⟩ (slotR pr.1 c pr.2) (eRows pr.1)

theorem rsrSlotRows_disjoint (c : Fin 8) (pr pr' : Fin 3 × Fin 7) (h : pr ≠ pr') : Disjoint (rsrSlotRows c pr) (rsrSlotRows c pr') := by
  rcases slotR_sep c pr.1 pr.2 pr'.1 pr'.2 h with h' | h'
  · exact rowsSet_disjoint h'
  · exact (rowsSet_disjoint h').symm

theorem rsrSlotRows_cover (c : Fin 8) : (Finset.univ : Finset (Fin 3 × Fin 7)).biUnion (rsrSlotRows c) = Finset.univ := by
  ext i
  simp only [Finset.mem_biUnion, Finset.mem_univ, true_and, iff_true]
  obtain ⟨p, s, lo, hi⟩ := Tiles.rrow_cases _ (i (⟨0, by decide⟩ : Fin S3584x1024.rank)).isLt
  obtain ⟨r, e⟩ := slotR_pos c p s
  exact ⟨(p, r), mem_rowsSet.mpr ⟨by rw [e]; exact lo, by rw [e]; exact hi⟩⟩

theorem rsr_cut (c : Dev nD) (f : Buf (Elt F) (rL c)) :
    (rL c ↦{fullShare} f : sProp 𝕄)
      = bigSep (Finset.univ : Finset (Fin 3 × Fin 7))
          fun pr => (rL c ↦[(rsrSlotRows c pr : Finset (Idx (rL c)))]{fullShare} f : sProp 𝕄) := by
  have hc : (Finset.univ : Finset (Idx (rL c)))
      = (Finset.univ : Finset (Fin 3 × Fin 7)).biUnion (rsrSlotRows c : Fin 3 × Fin 7 → Finset (Idx (rL c))) :=
    (rsrSlotRows_cover c).symm
  exact (congrArg (fun S => (rL c ↦[S]{fullShare} f : sProp 𝕄)) hc).trans
    (pointsTo_biUnion (ℓ := rL c) (q := fullShare) (f := f) (Finset.univ : Finset (Fin 3 × Fin 7))
      (rsrSlotRows c : Fin 3 × Fin 7 → Finset (Idx (rL c))) (fun t _ t' _ h => rsrSlotRows_disjoint c t t' h))

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slots_of_part (c : Dev nD) (p : Fin 3) (f : Buf (Elt F) (rL c)) :
    (bigSep (Finset.univ : Finset (Fin 7)) fun r => (rL c ↦[(rsrSlotRows c (p, r) : Finset (Idx (rL c)))]{fullShare} f : sProp 𝕄))
      ⊢ iprop(slotsOf (F := F) c p 0 ∗ slotsOf (F := F) c p 1 ∗ slotsOf (F := F) c p 2) := by
  rw [bigSep_fin7, slotsOf_0, slotsOf_1, slotsOf_2]
  unfold rsrRows
  iintro ⟨H0, H1, H2, H3, H4, H5, H6⟩
  isplitl [H0 H1 H2 H3]
  · isplitl [H0]; · iexists f; iexact H0
    isplitl [H1]; · iexists f; iexact H1
    isplitl [H2]; · iexists f; iexact H2
    iexists f; iexact H3
  isplitl [H4 H5]
  · isplitl [H4]; · iexists f; iexact H4
    iexists f; iexact H5
  iexists f; iexact H6

theorem barPay_flip (k : Fin 3) (c : Fin 8) : barPay (F := F) (Cert.RsAg.flip (barMask k) c) k
    = iprop(slotsOf (F := F) c 0 (stepOf k 0) ∗ slotsOf (F := F) c 1 (stepOf k 1) ∗ slotsOf (F := F) c 2 (stepOf k 2)) := by
  unfold barPay; rw [flipM_flipM k c]

theorem rsr_parts (c : Dev nD) (f : Buf (Elt F) (rL c)) :
    (rL c ↦{fullShare} f : sProp 𝕄)
      ⊢ iprop((bigSep (Finset.univ : Finset (Fin 7)) fun r => (rL c ↦[(rsrSlotRows c (0, r) : Finset (Idx (rL c)))]{fullShare} f : sProp 𝕄))
          ∗ (bigSep (Finset.univ : Finset (Fin 7)) fun r => (rL c ↦[(rsrSlotRows c (1, r) : Finset (Idx (rL c)))]{fullShare} f : sProp 𝕄))
          ∗ (bigSep (Finset.univ : Finset (Fin 7)) fun r => (rL c ↦[(rsrSlotRows c (2, r) : Finset (Idx (rL c)))]{fullShare} f : sProp 𝕄))) := by
  rw [rsr_cut c f, bigSep_univ_prod, bigSep_fin3]

theorem regroup9 (A0 A1 A2 B0 B1 B2 C0 C1 C2 : sProp 𝕄) :
    iprop((A0 ∗ A1 ∗ A2) ∗ (B0 ∗ B1 ∗ B2) ∗ (C0 ∗ C1 ∗ C2)) ⊢ iprop((A0 ∗ B2 ∗ C1) ∗ (A1 ∗ B0 ∗ C2) ∗ (A2 ∗ B1 ∗ C0)) := by
  iintro ⟨⟨HA0, HA1, HA2⟩, ⟨HB0, HB1, HB2⟩, ⟨HC0, HC1, HC2⟩⟩
  iframe

theorem rsr_to_barPays (c : Dev nD) (f : Buf (Elt F) (rL c)) :
    (rL c ↦{fullShare} f : sProp 𝕄)
      ⊢ iprop(barPay (F := F) (Cert.RsAg.flip (barMask 0) c) 0 ∗ barPay (F := F) (Cert.RsAg.flip (barMask 1) c) 1
          ∗ barPay (F := F) (Cert.RsAg.flip (barMask 2) c) 2) := by
  rw [barPay_flip, barPay_flip, barPay_flip]
  exact (rsr_parts (F := F) c f).trans
    ((BI.sep_mono (slots_of_part (F := F) c 0 f) (BI.sep_mono (slots_of_part (F := F) c 1 f) (slots_of_part (F := F) c 2 f))).trans
      (regroup9 _ _ _ _ _ _ _ _ _))

end Cert.KernelIdeal.RsAg

end
-- ==== Proof.KI.Part1Cut.lean ====
import proofs.«901015_g7700000000001016_dist_rs_then_ag_i_m4096_n1024_v7x_i8_f32_1_alg».proof.Proof.KI.Open
import proofs.«901015_g7700000000001016_dist_rs_then_ag_i_m4096_n1024_v7x_i8_f32_1_alg».proof.Proof.KI.Steps
import proofs.«901015_g7700000000001016_dist_rs_then_ag_i_m4096_n1024_v7x_i8_f32_1_alg».proof.Proof.KI.Cuts
import proofs.«901015_g7700000000001016_dist_rs_then_ag_i_m4096_n1024_v7x_i8_f32_1_alg».proof.Proof.KI.RsrCut

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-- The 21 reduction copies, grouped by the neighbour whose barrier signal brings their slot. -/
theorem unsent_regroup (Φ : Fin 3 × Fin 14 → sProp 𝕄) :
    iprop(((Φ (0, 0) ∗ Φ (0, 1) ∗ Φ (0, 2) ∗ Φ (0, 3)) ∗ Φ (1, 6) ∗ (Φ (2, 4) ∗ Φ (2, 5)))
        ∗ ((Φ (0, 4) ∗ Φ (0, 5)) ∗ (Φ (1, 0) ∗ Φ (1, 1) ∗ Φ (1, 2) ∗ Φ (1, 3)) ∗ Φ (2, 6))
        ∗ (Φ (0, 6) ∗ (Φ (1, 4) ∗ Φ (1, 5)) ∗ (Φ (2, 0) ∗ Φ (2, 1) ∗ Φ (2, 2) ∗ Φ (2, 3))))
      ⊢ bigSep (Finset.univ.filter fun pi : Fin 3 × Fin 14 => pi.2.val < 7) Φ := by
  rw [bigSep_eq_bigSepL_of_eq [(0, 0), (0, 1), (0, 2), (0, 3), (1, 6), (2, 4), (2, 5), (0, 4), (0, 5), (1, 0), (1, 1), (1, 2),
    (1, 3), (2, 6), (0, 6), (1, 4), (1, 5), (2, 0), (2, 1), (2, 2), (2, 3)] (by decide +kernel) (by decide)]
  simp only [bigSepL_cons_cons, bigSepL_singleton, show ∀ P R : sProp 𝕄, BI.sep P R = iprop(P ∗ R) from fun _ _ => rfl]
  iintro ⟨⟨⟨H00, H01, H02, H03⟩, H16, H24, H25⟩, ⟨⟨H04, H05⟩, ⟨H10, H11, H12, H13⟩, H26⟩, H06, ⟨H14, H15⟩, H20, H21, H22, H23⟩
  iframe

theorem exec_part1_cut
    (Q : (Σ' (d0 : Dev nD) (v2 : BitVec 32) (v18 : BitVec 32) (v21 : BitVec 32) (v24 : BitVec 32) (v25 : BitVec 32), BitVec 32) → sProp 𝕄)
    (h : ∀ v2 v18 v21 v24 v25 z, cutState m K c (fun _ _ => 0) 0 ∅ Finset.univ ⊢ Q ⟨c, v2, v18, v21, v24, v25, z⟩) :
    St0 m K c ⊢ wp frame (wpE (defs₀ (F := F)) 𝒱₀ (Dev.tc c : Thread nD τ) none) Set.univ
      (k0_part1 (F := F) xM hxM oM hoM sM hsM rM hrM cc0_scratch2 cc0_scratch3) Q := by
  have e : (fun pi : Fin 3 × Fin 14 =>
        (atPos ER (recvCell c pi.1 pi.2) (if pi ∈ (∅ : Finset (Fin 3 × Fin 14)) then 1 else 0) ∅ 0 : sProp 𝕄))
      = fun pi => atPos ER (recvCell c pi.1 pi.2) 0 ∅ 0 :=
    funext fun pi => by rw [if_neg (Finset.notMem_empty pi)]
  have hci : ∀ d, records m K ⊢ cellInv ER (sched m) (K (d, none)) (barCell d) := fun d => records_cellInv m K (d, none)
  have hre : ∀ d, records m K ⊢ (reached ER (barCell d) 0 : sProp 𝕄) := fun d => records_reached m K (d, none)
  have hps : iprop(barPay (F := F) c 0 ∗ barPay (F := F) c 1 ∗ barPay (F := F) c 2) ⊢ _ := unsent_regroup fun pi =>
    iprop(∃ f, rsrRows (F := F) (peer pi.1 (stp pi.2) c) pi.1 (slot pi.1 (peer pi.1 (stp pi.2) c) pi.2) f)
  rw [k0_part1_eq_skeleton]
  unfold k0_part1_skel
  simp only [semSignalWord, semWaitWord, Prog.lift, Prog.bind_op, Prog.bind_ret, Prog.pure_eq_ret, wp_deviceId]
  rw [dev1_eq c, dev2_eq c, dev3_eq c]
  unfold St0 ghost positions payToks creds scratch
  rw [bigSep_fin3, bigSep_sep' Finset.univ (fun pi : Fin 3 × Fin 14 => (atPos ER (sendCell c pi.1 pi.2) 0 ∅ 0 : sProp 𝕄))
    (fun pi : Fin 3 × Fin 14 => (atPos ER (recvCell c pi.1 pi.2) 0 ∅ 0 : sProp 𝕄))]
  iintro ⟨⟨#Hrec, ⟨Hbp, Hsp, Hrp⟩, ⟨⟨Hbt0, Hbt1, Hbt2⟩, Htok⟩⟩, ⟨Hbc, Hrc⟩, #Hlev, ⟨⟨%fs, Hs⟩, ⟨%fr, Hr⟩⟩, ⟨%W, HO⟩, Hx, Hout⟩
  icases (rsr_to_barPays (F := F) c fr) $$ Hr with ⟨Hp0, Hp1, Hp2⟩
  ihave #Hi0 := (hci (Cert.RsAg.flip (barMask 0) c)) $$ Hrec
  ihave #Hr0 := (hre (Cert.RsAg.flip (barMask 0) c)) $$ Hrec
  iapply (wp_barSignal m c _ 0 rfl _ (O₀ barS rSem amt c) (owedAfter barS rSem amt c 1)
    (owedAfter_succ barS rSem amt c 0 (by rw [dues_length]; decide)) W) $$ [$]
  iintro HO
  ihave #Hi1 := (hci (Cert.RsAg.flip (barMask 1) c)) $$ Hrec
  ihave #Hr1 := (hre (Cert.RsAg.flip (barMask 1) c)) $$ Hrec
  iapply (wp_barSignal m c _ 1 rfl _ (owedAfter barS rSem amt c 1) (owedAfter barS rSem amt c 2)
    (owedAfter_succ barS rSem amt c 1 (by rw [dues_length]; decide)) W) $$ [$]
  iintro HO
  ihave #Hi2 := (hci (Cert.RsAg.flip (barMask 2) c)) $$ Hrec
  ihave #Hr2 := (hre (Cert.RsAg.flip (barMask 2) c)) $$ Hrec
  iapply (wp_barSignal m c _ 2 rfl _ (owedAfter barS rSem amt c 2) (owedAfter barS rSem amt c 3)
    (owedAfter_succ barS rSem amt c 2 (by rw [dues_length]; decide)) W) $$ [$]
  iintro HO
  ihave #Hic := (hci c) $$ Hrec
  ihave Hmw := (mayWait_bar (Val := Elt F) (Name := ℕ) (U := UU) barS rSem amt hrS c) $$ Hlev
  iapply (wp_barWait m c _ (owedAfter barS rSem amt c 3) W) $$ [$]
  iintro ⟨HO, Hbp, -, Hq⟩
  iapply (le_wp_ret _ _)
  iapply (h _ _ _ _ _ _)
  unfold cutState ghostAt
  rw [e, show started 0 = ∅ by decide, Finset.sdiff_empty, bigSep_empty, bigSep_empty, Xlev_zero]
  ihave Hcut := (stage_cut (F := F) c fs) $$ Hs
  ihave Hslots := hps $$ Hq
  iframe # ∗
  isplitl
  · isplitr
    · iempintro
    iexists _
    iexact HO
  iempintro

end Cert.KernelIdeal.RsAg

end
-- ==== Proof.KI.Local.lean ====
import proofs.«901015_g7700000000001016_dist_rs_then_ag_i_m4096_n1024_v7x_i8_f32_1_alg».proof.Proof.Gen.KernelIdeal.Skeleton
import proofs.«901015_g7700000000001016_dist_rs_then_ag_i_m4096_n1024_v7x_i8_f32_1_alg».proof.Proof.KI.Sched
import proofs.«901015_g7700000000001016_dist_rs_then_ag_i_m4096_n1024_v7x_i8_f32_1_alg».proof.Proof.KI.Slabs
import proofs.«901015_g7700000000001016_dist_rs_then_ag_i_m4096_n1024_v7x_i8_f32_1_alg».proof.Proof.Accum

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
abbrev mX : Memref sig .tc .vmem S4096x1024 .f32 := Memref.whole cc0_stg0_0
abbrev mS : Memref sig .tc .vmem S4096x1024 .bf16 := Memref.whole cc0_scratch0
abbrev mR : Memref sig .tc .vmem S3584x1024 .bf16 := Memref.whole cc0_scratch1

theorem mem_rows_inSlab (p : Fin 3) (j : Nat) (i : W.Idx) :
    i ∈ rowsSet (S := S4096x1024) ⟨0, by decide⟩ (slab p j) (eRows p) ↔ inSlab p j (i 0).val :=
  mem_rowsSet

section Steps

variable (Xv : Fin 8 → FVec F W .f32) (c : Dev nD)

theorem wp_x_load (R : Rect S4096x1024) {hl : (mX).view.LoadsAt R.toLoadRect}
    (f : FVec F W .f32) {α : Type} {Q : α → sProp 𝕄} {k : Vec F R.shape .f32 → Prog (TpuEff nD τ sig (Elt F) Λ₀ .tc) α} :
    (xL c ↦{fullShare} f : sProp 𝕄)
      ⊢ iprop(((xL c ↦{fullShare} f) -∗ wp frame (wpE (defs₀ (F := F)) Variants.none (Dev.tc c : Thread nD τ) none) Set.univ (k fun jj => f (R.emb jj)) Q)
          -∗ wp frame (wpE (defs₀ (F := F)) Variants.none (Dev.tc c : Thread nD τ) none) Set.univ (.op (.load mX R.toLoadRect hl) k) Q) :=
  wp_load Variants.none (Dev.tc c : Thread nD τ) none Set.univ (m := mX) (Finset.subset_univ _)

theorem wp_x_store_add (p : Fin 3) (j : Nat) (hj : j < 8) (nx : Fin 3 → Nat → Nat) (kk : Nat) (hk3 : kk < 3) (hk : nx p j = kk)
    (off sz : Fin 2 → Nat) (hsz : sz = ![eRows p, 1024]) (hoff : off = ![slab p j, 0])
    {inb : ∀ a, off a + sz a ≤ S4096x1024.size a}
    {hx : ((mX).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (w : FVec F ⟨2, sz⟩ .f32)
    (hw : ∀ jj, w jj = addf (Xlev Xv c nx) (rcv (snd (Pn Xv p (peer p ⟨kk, hk3⟩ c) kk))) ((Rect.unit (s := S4096x1024) off sz inb).emb jj))
    {α : Type} {Q : α → sProp 𝕄} {k : PUnit → Prog (TpuEff nD τ sig (Elt F) Λ₀ .tc) α} :
    (xL c ↦{fullShare} Xlev Xv c nx : sProp 𝕄)
      ⊢ iprop(((xL c ↦{fullShare} Xlev Xv c (bump nx p j)) -∗ wp frame (wpE (defs₀ (F := F)) Variants.none (Dev.tc c : Thread nD τ) none) Set.univ (k ⟨⟩) Q)
          -∗ wp frame (wpE (defs₀ (F := F)) Variants.none (Dev.tc c : Thread nD τ) none) Set.univ (.op (.store mX (Rect.unit (s := S4096x1024) off sz inb) w Finset.univ hx hm) k) Q) := by
  subst hsz hoff
  have h := wp_store (defs := defs₀ (F := F)) (Γ := .empty) (Q := Q) (k := k) Variants.none (Dev.tc c : Thread nD τ) none Set.univ (m := mX)
    (w := w) (hx := hx) (hm := hm) (f := Xlev Xv c nx) (Finset.subset_univ _)
  rwa [write_whole_eq (Val := Elt F) cc0_stg0_0 (Rect.unit (s := S4096x1024) _ _ inb) (Xlev Xv c nx) (Xlev Xv c (bump nx p j)) w
    (fun jj => (hw jj).trans (Xlev_bump_in Xv c nx _ ((mem_rows_inSlab p j _).mp
      (rows4096_set inb ▸ (Rect.unit (s := S4096x1024) _ _ inb).toLoadRect.idx_mem jj)) hj hk hk3).symm)
    fun i hi => Xlev_bump_out Xv c nx i fun h => hi (rows4096_set inb ▸ (mem_rows_inSlab p j i).mpr h)] at h

theorem wp_slot_load (p : Fin 3) (s : Nat) (offr sz : Fin 2 → Nat) (hsz : sz = ![eRows p, 1024]) (hoffr : offr = ![s, 0])
    {inbr : ∀ a, offr a + sz a ≤ S3584x1024.size a} {hl : (mR).view.LoadsAt (Rect.unit (s := S3584x1024) offr sz inbr).toLoadRect}
    (g : FVec F WR .bf16) {α : Type} {Q : α → sProp 𝕄} {k : Vec F ⟨2, sz⟩ .bf16 → Prog (TpuEff nD τ sig (Elt F) Λ₀ .tc) α} :
    (rsrRows c p s g : sProp 𝕄)
      ⊢ iprop((rsrRows c p s g -∗ wp frame (wpE (defs₀ (F := F)) Variants.none (Dev.tc c : Thread nD τ) none) Set.univ (k fun jj => g ((Rect.unit (s := S3584x1024) offr sz inbr).emb jj)) Q)
          -∗ wp frame (wpE (defs₀ (F := F)) Variants.none (Dev.tc c : Thread nD τ) none) Set.univ (.op (.load mR (Rect.unit (s := S3584x1024) offr sz inbr).toLoadRect hl) k) Q) := by
  subst hsz hoffr
  exact wp_load Variants.none (Dev.tc c : Thread nD τ) none Set.univ (m := mR) ((setOn_whole cc0_scratch1 _).trans (rows3584_set inbr)).le

theorem wp_stg_load (p : Fin 3) (o : Nat) (q : PosShare TreeShare) (off sz : Fin 2 → Nat) (hsz : sz = ![eRows p, 1024]) (hoff : off = ![o, 0])
    {inb : ∀ a, off a + sz a ≤ S4096x1024.size a} {hl : (mS).view.LoadsAt (Rect.unit (s := S4096x1024) off sz inb).toLoadRect}
    (f : FVec F W .bf16) {α : Type} {Q : α → sProp 𝕄} {k : Vec F ⟨2, sz⟩ .bf16 → Prog (TpuEff nD τ sig (Elt F) Λ₀ .tc) α} :
    (stgRows c p o q f : sProp 𝕄)
      ⊢ iprop((stgRows c p o q f -∗ wp frame (wpE (defs₀ (F := F)) Variants.none (Dev.tc c : Thread nD τ) none) Set.univ (k fun jj => f ((Rect.unit (s := S4096x1024) off sz inb).emb jj)) Q)
          -∗ wp frame (wpE (defs₀ (F := F)) Variants.none (Dev.tc c : Thread nD τ) none) Set.univ (.op (.load mS (Rect.unit (s := S4096x1024) off sz inb).toLoadRect hl) k) Q) := by
  subst hsz
  exact wp_load_stage Variants.none c none Set.univ hoff (Finset.Subset.refl _)

theorem wp_stg_store (p : Fin 3) (o : Nat) (off sz : Fin 2 → Nat) (hsz : sz = ![eRows p, 1024]) (hoff : off = ![o, 0])
    {inb : ∀ a, off a + sz a ≤ S4096x1024.size a}
    {hx : ((mS).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (f G : FVec F W .bf16) (w : FVec F ⟨2, sz⟩ .bf16) (hw : ∀ jj, w jj = G ((Rect.unit (s := S4096x1024) off sz inb).emb jj))
    {α : Type} {Q : α → sProp 𝕄} {k : PUnit → Prog (TpuEff nD τ sig (Elt F) Λ₀ .tc) α} :
    (stgRows c p o fullShare f : sProp 𝕄)
      ⊢ iprop((stgRows c p o fullShare G -∗ wp frame (wpE (defs₀ (F := F)) Variants.none (Dev.tc c : Thread nD τ) none) Set.univ (k ⟨⟩) Q)
          -∗ wp frame (wpE (defs₀ (F := F)) Variants.none (Dev.tc c : Thread nD τ) none) Set.univ (.op (.store mS (Rect.unit (s := S4096x1024) off sz inb) w Finset.univ hx hm) k) Q) := by
  subst hsz
  have h := wp_store_stage (defs := defs₀ (F := F)) (Γ := .empty) (Q := Q) (k := k) (w := w) (hx := hx) (hm := hm) (f := f)
    Variants.none c none Set.univ hoff (Finset.Subset.refl _)
  rwa [stage_rows_write c hoff inb f G w hw] at h

theorem add_val (p : Fin 3) (j : Nat) (nx : Fin 3 → Nat → Nat) (G' : FVec F W .bf16) (s : Nat)
    (off offr sz : Fin 2 → Nat) (hsz : sz = ![eRows p, 1024]) (hoff : off = ![slab p j, 0]) (hoffr : offr = ![s, 0])
    {inb : ∀ a, off a + sz a ≤ S4096x1024.size a} {inbr : ∀ a, offr a + sz a ≤ S3584x1024.size a}
    (pay : Vec F ⟨2, sz⟩ .f32 → Vec F ⟨2, sz⟩ .bf16 → FVec F ⟨2, sz⟩ .f32)
    (hpay : ∀ v w jj, pay v w jj = FloatOps.addf (v jj) (FloatOps.extf .f32 bf16_lt_f32 (w jj))) :
    ∀ jj, pay (fun jj => Xlev Xv c nx ((Rect.unit (s := S4096x1024) off sz inb).emb jj)) (fun jj => reRow (slab p j) s G' ((Rect.unit (s := S3584x1024) offr sz inbr).emb jj)) jj
      = addf (Xlev Xv c nx) (rcv G') ((Rect.unit (s := S4096x1024) off sz inb).emb jj) := by
  subst hsz hoff hoffr
  intro jj
  rw [hpay, reRow_emb G' inbr inb jj]
  rfl

theorem round_val (p : Fin 3) (j : Nat) (hj : j < 8) (nx : Fin 3 → Nat → Nat) (kk : Nat) (hk : nx p j = kk)
    (off sz : Fin 2 → Nat) (hsz : sz = ![eRows p, 1024]) (hoff : off = ![slab p j, 0])
    {inb : ∀ a, off a + sz a ≤ S4096x1024.size a}
    (pay : Vec F ⟨2, sz⟩ .f32 → FVec F ⟨2, sz⟩ .bf16)
    (hpay : ∀ v jj, pay v jj = FloatOps.truncf .bf16 bf16_lt_f32 (v jj)) :
    ∀ jj, pay (fun jj => Xlev Xv c nx ((Rect.unit (s := S4096x1024) off sz inb).emb jj)) jj = snd (Pn Xv p c kk) ((Rect.unit (s := S4096x1024) off sz inb).emb jj) := by
  subst hsz hoff
  intro jj
  rw [hpay, Xlev_in Xv c nx _ hj ((mem_rows_inSlab p j _).mp (rows4096_set inb ▸ (Rect.unit (s := S4096x1024) _ _ inb).toLoadRect.idx_mem jj)), hk]
  rfl

theorem wp_add (p : Fin 3) (j : Nat) (hj : j < 8) (nx : Fin 3 → Nat → Nat) (kk : Nat) (hk3 : kk < 3) (hk : nx p j = kk) (s : Nat)
    (off offr sz : Fin 2 → Nat) (hsz : sz = ![eRows p, 1024]) (hoff : off = ![slab p j, 0]) (hoffr : offr = ![s, 0])
    {inb : ∀ a, off a + sz a ≤ S4096x1024.size a} {inbr : ∀ a, offr a + sz a ≤ S3584x1024.size a}
    {hl₁ hl₃ : (mX).view.LoadsAt (Rect.unit (s := S4096x1024) off sz inb).toLoadRect} {hl₂ : (mR).view.LoadsAt (Rect.unit (s := S3584x1024) offr sz inbr).toLoadRect}
    {hx : ((mX).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : Vec F ⟨2, sz⟩ .f32 → Vec F ⟨2, sz⟩ .bf16 → FVec F ⟨2, sz⟩ .f32)
    (hpay : ∀ v w jj, pay v w jj = FloatOps.addf (v jj) (FloatOps.extf .f32 bf16_lt_f32 (w jj)))
    {α : Type} {Q : α → sProp 𝕄} {k : PUnit → Prog (TpuEff nD τ sig (Elt F) Λ₀ .tc) α} :
    iprop((xL c ↦{fullShare} Xlev Xv c nx) ∗ rsrRows c p s (reRow (slab p j) s (snd (Pn Xv p (peer p ⟨kk, hk3⟩ c) kk))))
      ⊢ iprop((((xL c ↦{fullShare} Xlev Xv c (bump nx p j))
              ∗ rsrRows c p s (reRow (slab p j) s (snd (Pn Xv p (peer p ⟨kk, hk3⟩ c) kk)))) -∗ wp frame (wpE (defs₀ (F := F)) Variants.none (Dev.tc c : Thread nD τ) none) Set.univ (k ⟨⟩) Q)
          -∗ wp frame (wpE (defs₀ (F := F)) Variants.none (Dev.tc c : Thread nD τ) none) Set.univ
            (.op (.load mX (Rect.unit (s := S4096x1024) off sz inb).toLoadRect hl₁) fun v₁ =>
             .op (.load mR (Rect.unit (s := S3584x1024) offr sz inbr).toLoadRect hl₂) fun v₂ =>
             .op (.load mX (Rect.unit (s := S4096x1024) off sz inb).toLoadRect hl₃) fun _ =>
             .op (.store mX (Rect.unit (s := S4096x1024) off sz inb) (pay v₁ v₂) Finset.univ hx hm) k) Q) := by
  iintro ⟨Hx, Hs⟩ Hk
  iapply (wp_x_load c (Rect.unit (s := S4096x1024) off sz inb) (Xlev Xv c nx)) $$ Hx
  iintro Hx
  iapply (wp_slot_load c p s offr sz hsz hoffr _) $$ Hs
  iintro Hs
  iapply (wp_x_load c (Rect.unit (s := S4096x1024) off sz inb) (Xlev Xv c nx)) $$ Hx
  iintro Hx
  iapply (wp_x_store_add Xv c p j hj nx kk hk3 hk off sz hsz hoff _
    (add_val Xv c p j nx _ s off offr sz hsz hoff hoffr pay hpay)) $$ Hx
  iintro Hx
  iapply Hk
  iframe

theorem wp_round (p : Fin 3) (j : Nat) (hj : j < 8) (nx : Fin 3 → Nat → Nat) (kk : Nat) (hk : nx p j = kk)
    (off sz : Fin 2 → Nat) (hsz : sz = ![eRows p, 1024]) (hoff : off = ![slab p j, 0])
    {inb : ∀ a, off a + sz a ≤ S4096x1024.size a}
    {hl₁ : (mX).view.LoadsAt (Rect.unit (s := S4096x1024) off sz inb).toLoadRect} {hl₂ : (mS).view.LoadsAt (Rect.unit (s := S4096x1024) off sz inb).toLoadRect}
    {hx : ((mS).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : Vec F ⟨2, sz⟩ .f32 → FVec F ⟨2, sz⟩ .bf16)
    (hpay : ∀ v jj, pay v jj = FloatOps.truncf .bf16 bf16_lt_f32 (v jj))
    (f₀ : FVec F W .bf16) {α : Type} {Q : α → sProp 𝕄} {k : PUnit → Prog (TpuEff nD τ sig (Elt F) Λ₀ .tc) α} :
    iprop((xL c ↦{fullShare} Xlev Xv c nx) ∗ stgRows c p (slab p j) fullShare f₀)
      ⊢ iprop((((xL c ↦{fullShare} Xlev Xv c nx) ∗ stgRows c p (slab p j) fullShare (snd (Pn Xv p c kk))) -∗ wp frame (wpE (defs₀ (F := F)) Variants.none (Dev.tc c : Thread nD τ) none) Set.univ (k ⟨⟩) Q)
          -∗ wp frame (wpE (defs₀ (F := F)) Variants.none (Dev.tc c : Thread nD τ) none) Set.univ
            (.op (.load mX (Rect.unit (s := S4096x1024) off sz inb).toLoadRect hl₁) fun v =>
             .op (.load mS (Rect.unit (s := S4096x1024) off sz inb).toLoadRect hl₂) fun _ =>
             .op (.store mS (Rect.unit (s := S4096x1024) off sz inb) (pay v) Finset.univ hx hm) k) Q) := by
  iintro ⟨Hx, Hs⟩ Hk
  iapply (wp_x_load c (Rect.unit (s := S4096x1024) off sz inb) (Xlev Xv c nx)) $$ Hx
  iintro Hx
  iapply (wp_stg_load c p (slab p j) fullShare off sz hsz hoff f₀) $$ Hs
  iintro Hs
  iapply (wp_stg_store c p (slab p j) off sz hsz hoff f₀ _ _ (round_val Xv c p j hj nx kk hk off sz hsz hoff pay hpay)) $$ Hs
  iintro Hs
  iapply Hk
  iframe

end Steps

end Cert.KernelIdeal.RsAg

end
-- ==== Proof.KI.PartsA.lean ====
import proofs.«901015_g7700000000001016_dist_rs_then_ag_i_m4096_n1024_v7x_i8_f32_1_alg».proof.Proof.KI.Mid
import proofs.«901015_g7700000000001016_dist_rs_then_ag_i_m4096_n1024_v7x_i8_f32_1_alg».proof.Proof.KI.Cuts
import proofs.«901015_g7700000000001016_dist_rs_then_ag_i_m4096_n1024_v7x_i8_f32_1_alg».proof.Proof.KI.Slabs
import proofs.«901015_g7700000000001016_dist_rs_then_ag_i_m4096_n1024_v7x_i8_f32_1_alg».proof.Proof.KI.Tables
import proofs.«901015_g7700000000001016_dist_rs_then_ag_i_m4096_n1024_v7x_i8_f32_1_alg».proof.Proof.KI.Steps
import proofs.«901015_g7700000000001016_dist_rs_then_ag_i_m4096_n1024_v7x_i8_f32_1_alg».proof.Proof.KI.Local
import proofs.«901015_g7700000000001016_dist_rs_then_ag_i_m4096_n1024_v7x_i8_f32_1_alg».proof.Proof.KI.SchedTables
import proofs.«901015_g7700000000001016_dist_rs_then_ag_i_m4096_n1024_v7x_i8_f32_1_alg».proof.Proof.Gen.KernelIdeal.Skeleton

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

def StA (nx : Fin 3 → Nat → Nat) (ns : Nat)
    (waited : Finset (Fin 3 × Fin 14)) (own held : Finset (Fin 3 × Fin 8)) : sProp 𝕄 :=
  iprop(cutState m K c nx ns waited own
    ∗ bigSep held fun pr : Fin 3 × Fin 8 =>
        stgRows (F := F) c pr.1 (roleRow pr.1 pr.2 c) fullShare (snd (Xlev (X m) c nx)))

/-- The role, on the sender, of the slab that reduction copy `i` reads. -/
theorem srcRow_sender : ∀ (p : Fin 3) (c : Fin 8) (i : Fin 14), i.val < 7 →
    srcRow p (peer p (stp i) c) i = roleRow p (sendRole i) c := by decide +kernel

theorem slot_sender : ∀ (p : Fin 3) (c : Fin 8) (i : Fin 14), i.val < 7 →
    slot p (peer p (stp i) c) i = slot p c i := by decide +kernel

/-- Starting the next reduction copy gives its rounded slab and the partner's slot to the landing. -/
theorem sendRS_A {nx : Fin 3 → Nat → Nat} {ns : Nat} {waited : Finset (Fin 3 × Fin 14)}
    {own held : Finset (Fin 3 × Fin 8)} (held' : Finset (Fin 3 × Fin 8)) (p : Fin 3) (i : Fin 14)
    {n : Dev nD} (hn : n = peer p (stp i) c)
    {os od sz : Fin 2 → Nat} (hos : os = ![roleRow p (sendRole i) c, 0]) (hod : od = ![slot p c i, 0])
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    {α : Type} {Q : α → sProp 𝕄} {k : PUnit → Prog (TpuEff nD τ sig (Elt F) Λ₀ .tc) α}
    (hk : StA m K c nx (ns + 1) waited own held' ⊢ wp frame (wpE (defs₀ (F := F)) 𝒱₀ (Dev.tc c : Thread nD τ) none) Set.univ (k ⟨⟩) Q)
    (hsz : sz = ![eRows p, 1024] := by rfl)
    (hns : sendOrder[ns]? = some (p, i) := by decide) (hi : i.val < 7 := by decide)
    (hh : (p, sendRole i) ∈ held ∧ held.erase (p, sendRole i) = held' := by decide)
    (hval : ∀ x ∈ rowsSet (S := S4096x1024) ⟨0, by decide⟩ (roleRow p (sendRole i) c) (eRows p),
      snd (Xlev (X m) c nx) x = sent m p c i x := by exact fun _ _ => rfl) :
    StA m K c nx ns waited own held
      ⊢ wp frame (wpE (defs₀ (F := F)) 𝒱₀ (Dev.tc c : Thread nD τ) none) Set.univ
          (.op (.enqueueDma (stgSl os sz inbS hstS) (.remote (Dev.tc n : Thread nD τ) (rsrSl od sz inbD hstD) (.dma (sSem p i)) hsc)
            (.dma (rSem p i)) hsrc hdst hsem) k) Q := by
  subst hn
  obtain ⟨hheld, rfl⟩ := hh
  have hmem : (p, i) ∈ (Finset.univ \ started ns).filter fun q : Fin 3 × Fin 14 => q.2.val < 7 :=
    Finset.mem_filter.mpr ⟨Finset.mem_sdiff.mpr ⟨Finset.mem_univ _, not_mem_started hns⟩, hi⟩
  unfold StA cutState
  rw [bigSep_erase' hheld, bigSep_erase' hmem]
  iintro ⟨⟨Hg, Hx, Hout, Hown, ⟨Hslot, Hslots⟩, Hrp⟩, ⟨Hsrc, Hheld⟩⟩
  iapply (step_sendRS m K c ns waited p i hns hi (peer p (stp i) c) rfl os od sz hsz
    (hos.trans (by rw [srcRow_sender p c i hi])) (hod.trans (by rw [slot_sender p c i hi]))) $$ [Hg Hsrc Hslot]
  · rw [srcRow_sender p c i hi]
    unfold stgRows
    iframe Hg Hslot
    iapply (Entails.of_eq (pointsTo_congr hval)) $$ Hsrc
  iintro Hg
  iapply hk
  unfold StA cutState
  rw [unsent_succ hns]
  iframe

/-- Loads of the rows of two adjacent slabs, from the block and from its rounded copy, change nothing. -/
theorem loadBlock_A {nx : Fin 3 → Nat → Nat} {ns : Nat} {waited : Finset (Fin 3 × Fin 14)}
    {own held : Finset (Fin 3 × Fin 8)} (p : Fin 3) (ra rb : Fin 8) {o : Nat}
    (hadj : (roleRow p ra c = o ∧ roleRow p rb c = o + eRows p) ∨ (roleRow p rb c = o ∧ roleRow p ra c = o + eRows p))
    {off sz : Fin 2 → Nat} (hoff : off = ![o, 0])
    {inb : ∀ a, off a + sz a ≤ S4096x1024.size a}
    {hl1 : (xM).view.LoadsAt (Rect.unit (s := S4096x1024) off sz inb).toLoadRect} {hl2 : (sM).view.LoadsAt (Rect.unit (s := S4096x1024) off sz inb).toLoadRect}
    {α : Type} {Q : α → sProp 𝕄}
    {k : ((Rect.unit (s := S4096x1024) off sz inb).toLoadRect.shape.Idx → Elt F .f32) → ((Rect.unit (s := S4096x1024) off sz inb).toLoadRect.shape.Idx → Elt F .bf16) → Prog (TpuEff nD τ sig (Elt F) Λ₀ .tc) α}
    (hk : ∀ w, StA m K c nx ns waited own held
      ⊢ wp frame (wpE (defs₀ (F := F)) 𝒱₀ (Dev.tc c : Thread nD τ) none) Set.univ (k ((xM).view.readAt (Elt F) (Rect.unit (s := S4096x1024) off sz inb).toLoadRect (Xlev (X m) c nx)) w) Q)
    (hsz : sz = ![eRows p + eRows p, 1024] := by rfl) (hab : (p, ra) ≠ (p, rb) := by decide)
    (hsub : ({(p, ra), (p, rb)} : Finset (Fin 3 × Fin 8)) ⊆ own := by decide) :
    StA m K c nx ns waited own held
      ⊢ wp frame (wpE (defs₀ (F := F)) 𝒱₀ (Dev.tc c : Thread nD τ) none) Set.univ
          (.op (.load xM (Rect.unit (s := S4096x1024) off sz inb).toLoadRect hl1) fun v => .op (.load sM (Rect.unit (s := S4096x1024) off sz inb).toLoadRect hl2) (k v)) Q := by
  subst hsz
  unfold StA cutState stgRows
  rw [SparseCore.bigSep_sdiff_split' hsub, bigSep_insert' (Finset.notMem_singleton.mpr hab), bigSep_singleton]
  iintro ⟨⟨Hg, Hx, Hout, ⟨Hab, Hown⟩, Hslots, Hrp⟩, Hheld⟩
  icases (block_join (F := F) c hadj) $$ Hab with ⟨%g, Hblk⟩
  iapply (wp_load 𝒱₀ (Dev.tc c : Thread nD τ) none Set.univ (m := xM) (Finset.subset_univ _)) $$ Hx; iintro Hx
  iapply (wp_load_stage 𝒱₀ c none Set.univ hoff (Finset.Subset.refl _)) $$ Hblk; iintro Hblk
  icases (block_split (F := F) c hadj g).1 $$ Hblk with ⟨Ha, Hb⟩
  iapply (hk _)
  unfold StA cutState stgRows
  rw [SparseCore.bigSep_sdiff_split' hsub, bigSep_insert' (Finset.notMem_singleton.mpr hab), bigSep_singleton]
  iframe
  isplitl [Ha] <;> iexists g <;> iassumption

/-- Storing the rounded rows of two adjacent slabs moves them from the slabs held unrounded to those held rounded. -/
theorem storeBlock_A {nx : Fin 3 → Nat → Nat} {ns : Nat} {waited : Finset (Fin 3 × Fin 14)}
    {own held : Finset (Fin 3 × Fin 8)} (held' : Finset (Fin 3 × Fin 8)) (p : Fin 3) (ra rb : Fin 8) {o : Nat}
    (hadj : (roleRow p ra c = o ∧ roleRow p rb c = o + eRows p) ∨ (roleRow p rb c = o ∧ roleRow p ra c = o + eRows p))
    {off sz : Fin 2 → Nat} (hoff : off = ![o, 0])
    {inb : ∀ a, off a + sz a ≤ S4096x1024.size a}
    {w : (Rect.unit (s := S4096x1024) off sz inb).shape.Idx → Elt F .bf16}
    {hx : ((sM).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    {α : Type} {Q : α → sProp 𝕄} {k : PUnit.{1} → Prog (TpuEff nD τ sig (Elt F) Λ₀ .tc) α}
    (hk : StA m K c nx ns waited (own \ {(p, ra), (p, rb)}) held' ⊢ wp frame (wpE (defs₀ (F := F)) 𝒱₀ (Dev.tc c : Thread nD τ) none) Set.univ (k ⟨⟩) Q)
    (hw : ∀ j, w j = snd (Xlev (X m) c nx) ((Rect.unit (s := S4096x1024) off sz inb).emb j) := by exact congrFun (trunc_cast _ _ _ _))
    (hsz : sz = ![eRows p + eRows p, 1024] := by rfl) (hab : (p, ra) ≠ (p, rb) := by decide)
    (hsub : ({(p, ra), (p, rb)} : Finset (Fin 3 × Fin 8)) ⊆ own := by decide)
    (hh : (p, rb) ∉ held ∧ (p, ra) ∉ insert (p, rb) held ∧ insert (p, ra) (insert (p, rb) held) = held' := by decide) :
    StA m K c nx ns waited own held
      ⊢ wp frame (wpE (defs₀ (F := F)) 𝒱₀ (Dev.tc c : Thread nD τ) none) Set.univ (.op (.store sM (Rect.unit (s := S4096x1024) off sz inb) w Finset.univ hx hm) k) Q := by
  subst hsz
  obtain ⟨hnb, hna, rfl⟩ := hh
  unfold StA cutState stgRows
  rw [SparseCore.bigSep_sdiff_split' hsub, bigSep_insert' (Finset.notMem_singleton.mpr hab), bigSep_singleton]
  iintro ⟨⟨Hg, Hx, Hout, ⟨Hab, Hown⟩, Hslots, Hrp⟩, Hheld⟩
  icases (block_join (F := F) c hadj) $$ Hab with ⟨%g, Hblk⟩
  iapply (wp_store_stage 𝒱₀ c none Set.univ hoff (Finset.Subset.refl _)) $$ Hblk; iintro Hblk
  icases (Entails.of_eq (stage_rows_write c hoff inb g (snd (Xlev (X m) c nx)) _ hw)) $$ Hblk with Hblk
  icases (block_split (F := F) c hadj (snd (Xlev (X m) c nx))).1 $$ Hblk with ⟨Ha, Hb⟩
  iapply hk
  unfold StA cutState stgRows
  rw [bigSep_insert' hna, bigSep_insert' hnb]
  iframe

theorem exec_part5 (v21 v24 v29 v109 v112 v119 : BitVec 32)
    (Q : (Σ' (v127 : BitVec 32) (v130 : BitVec 32) (v135 : BitVec 32) (v139 : BitVec 32) (v142 : BitVec 32) (v144 : BitVec 32) (v147 : BitVec 32), BitVec 32) → sProp 𝕄)
    (h : ∀ b, StA m K c nx0 0 ∅ own5 {(0, 4), (0, 5)} ⊢ Q b) :
    StA m K c nx0 0 ∅ Finset.univ ∅
      ⊢ wp frame (wpE (defs₀ (F := F)) 𝒱₀ (Dev.tc c : Thread nD τ) none) Set.univ (k0_part5 (F := F) xM hxM oM hoM sM hsM rM hrM cc0_scratch2 cc0_scratch3 c v21 v24 v29 v109 v112 v119) Q := by
  rw [k0_part5_eq_skeleton]
  unfold k0_part5_skel
  refine loadBlock_A m K c 0 4 5 (fwd_rows 0 c) (off1_eq c) fun _ => ?_
  exact storeBlock_A m K c _ 0 4 5 (fwd_rows 0 c) (off1_eq c) ((h _).trans (le_wp_ret _ _ _ _ _))

theorem of_pure_right {P R : sProp 𝕄} {φ : Prop} (h : φ → P ⊢ R) : iprop(P ∗ ⌜φ⌝) ⊢ R := by
  iintro ⟨H, %hφ⟩
  iapply (h hφ) $$ H

theorem exec_part6 (v2 v24 v42 v62 v73 v147 v159 : BitVec 32)
    (Q : (Σ' (v162 : BitVec 32) (v175 : BitVec 32) (v186 : BitVec 32) (v190 : FVec F S352x1024 .bf16), Vec F S352x1024 .bf16) → sProp 𝕄)
    (h : ∀ v162 v175 v186 v190 v192,
      iprop(StA m K c nx0 2 ∅ own5 ∅
        ∗ ⌜∀ j, v190 j = snd (Xlev (X m) c nx0) ((Rect.unit (s := S4096x1024) (k0_off6 c) S352x1024.size (k0_off6_inb c)).emb j)⌝)
      ⊢ Q ⟨v162, v175, v186, v190, v192⟩) :
    StA m K c nx0 0 ∅ own5 {(0, 4), (0, 5)}
      ⊢ wp frame (wpE (defs₀ (F := F)) 𝒱₀ (Dev.tc c : Thread nD τ) none) Set.univ (k0_part6 (F := F) xM hxM oM hoM sM hsM rM hrM cc0_scratch2 cc0_scratch3 c v2 v24 v42 v62 v73 v147 v159) Q := by
  rw [k0_part6_eq_skeleton]
  unfold k0_part6_skel
  refine sendRS_A m K c {(0, 5)} 0 0 (dev4_eq c) (off3_eq c) (off2_eq c) ?_
  refine sendRS_A m K c ∅ 0 1 (dev5_eq c) (off5_eq c) (off4_eq c) ?_
  refine loadBlock_A m K c 1 4 5 (fwd_rows 1 c) (off6_eq c) fun _ => ?_
  iintro H
  iapply (le_wp_ret _ _)
  iapply (h _ _ _ _ _)
  iframe H
  ipureintro
  intro j
  unfold k0_pay2
  simp only [shapeCast_same]
  rfl

theorem exec_part7 (v2 v68 v86 v109 v186 : BitVec 32)
    (v190 : FVec F S352x1024 .bf16) (v192 : Vec F S352x1024 .bf16)
    (Q : (Σ' (v201 : BitVec 32) (v214 : BitVec 32) (v223 : BitVec 32), BitVec 32) → sProp 𝕄)
    (h : ∀ b, StA m K c nx0 4 ∅ own7 ∅ ⊢ Q b) :
    iprop(StA m K c nx0 2 ∅ own5 ∅
        ∗ ⌜∀ j, v190 j = snd (Xlev (X m) c nx0) ((Rect.unit (s := S4096x1024) (k0_off6 c) S352x1024.size (k0_off6_inb c)).emb j)⌝)
      ⊢ wp frame (wpE (defs₀ (F := F)) 𝒱₀ (Dev.tc c : Thread nD τ) none) Set.univ (k0_part7 (F := F) xM hxM oM hoM sM hsM rM hrM cc0_scratch2 cc0_scratch3 c v2 v68 v86 v109 v186 v190 v192) Q := by
  refine of_pure_right fun hv => ?_
  rw [k0_part7_eq_skeleton]
  unfold k0_part7_skel
  refine storeBlock_A m K c {(1, 4), (1, 5)} 1 4 5 (fwd_rows 1 c) (off6_eq c) ?_
    fun j => (congrFun (shapeCast_same _ _) j).trans (hv j)
  refine sendRS_A m K c {(1, 5)} 1 0 (dev6_eq c) (off8_eq c) (off7_eq c) ?_
  refine sendRS_A m K c ∅ 1 1 (dev7_eq c) (off10_eq c) (off9_eq c) ?_
  exact (h _).trans (le_wp_ret _ _ _ _ _)

theorem exec_part8 (v2 v112 v117 v130 v223 z : BitVec 32)
    (Q : (Σ' (v240 : BitVec 32), BitVec 32) → sProp 𝕄)
    (h : ∀ b, StA m K c nx0 5 ∅ own8 {(2, 5)} ⊢ Q b) :
    StA m K c nx0 4 ∅ own7 ∅
      ⊢ wp frame (wpE (defs₀ (F := F)) 𝒱₀ (Dev.tc c : Thread nD τ) none) Set.univ (k0_part8 (F := F) xM hxM oM hoM sM hsM rM hrM cc0_scratch2 cc0_scratch3 c v2 v112 v117 v130 v223 z) Q := by
  rw [k0_part8_eq_skeleton]
  unfold k0_part8_skel
  refine loadBlock_A m K c 2 4 5 (fwd_rows 2 c) (off11_eq c) fun _ => ?_
  refine storeBlock_A m K c {(2, 4), (2, 5)} 2 4 5 (fwd_rows 2 c) (off11_eq c) ?_
  refine sendRS_A m K c {(2, 5)} 2 0 (dev8_eq c) (off13_eq c) (off12_eq c) ?_
  exact (h _).trans (le_wp_ret _ _ _ _ _)

end Cert.KernelIdeal.RsAg

end
-- ==== Proof.KI.Part1.lean ====
import proofs.«901015_g7700000000001016_dist_rs_then_ag_i_m4096_n1024_v7x_i8_f32_1_alg».proof.Proof.KI.Part1Cut
import proofs.«901015_g7700000000001016_dist_rs_then_ag_i_m4096_n1024_v7x_i8_f32_1_alg».proof.Proof.KI.PartsA

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

theorem exec_part1
    (Q : (Σ' (d0 : Dev nD) (v2 : BitVec 32) (v18 : BitVec 32) (v21 : BitVec 32) (v24 : BitVec 32) (v25 : BitVec 32), BitVec 32) → sProp 𝕄)
    (h : ∀ v2 v18 v21 v24 v25 z, StA m K c nx0 0 ∅ Finset.univ ∅ ⊢ Q ⟨c, v2, v18, v21, v24, v25, z⟩) :
    St0 m K c ⊢ wp frame (wpE (defs₀ (F := F)) 𝒱₀ (Dev.tc c : Thread nD τ) none) Set.univ
      (k0_part1 (F := F) xM hxM oM hoM sM hsM rM hrM cc0_scratch2 cc0_scratch3) Q :=
  exec_part1_cut m K c Q fun v2 v18 v21 v24 v25 z =>
    .trans (by unfold StA; rw [bigSep_empty]; exact Laws.sep_emp.2) (h v2 v18 v21 v24 v25 z)

end Cert.KernelIdeal.RsAg

end
-- ==== Proof.KI.PartsPure.lean ====
import proofs.«901015_g7700000000001016_dist_rs_then_ag_i_m4096_n1024_v7x_i8_f32_1_alg».proof.Proof.KI.Mid
import proofs.«901015_g7700000000001016_dist_rs_then_ag_i_m4096_n1024_v7x_i8_f32_1_alg».proof.Proof.Gen.KernelIdeal.Skeleton
import proofs.«901015_g7700000000001016_dist_rs_then_ag_i_m4096_n1024_v7x_i8_f32_1_alg».proof.Proof.KI.Slabs

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem exec_part2 (c : Dev nD) (P : sProp 𝕄) (v2 v18 v21 v24 v25 z : BitVec 32)
    (Q : (Σ' (v29 : BitVec 32) (v34 : BitVec 32) (v36 : BitVec 32) (v39 : BitVec 32) (v42 : BitVec 32) (v47 : BitVec 32) (v51 : BitVec 32) (v54 : BitVec 32) (v56 : BitVec 32) (v58 : BitVec 32), BitVec 32) → sProp 𝕄)
    (h : ∀ b, P ⊢ Q b) :
    P ⊢ wp frame (wpE (defs₀ (F := F)) 𝒱₀ (Dev.tc c : Thread nD τ) none) Set.univ (k0_part2 (F := F) xM hxM oM hoM sM hsM rM hrM cc0_scratch2 cc0_scratch3 v2 v18 v21 v24 v25 z) Q := by
  rw [k0_part2_eq_skeleton]
  exact (h _).trans (le_wp_ret _ _ _ _ _)

theorem exec_part3 (c : Dev nD) (P : sProp 𝕄) (v2 v58 z : BitVec 32)
    (Q : (Σ' (v62 : BitVec 32) (v68 : BitVec 32) (v73 : BitVec 32) (v78 : BitVec 32) (v80 : BitVec 32) (v83 : BitVec 32) (v86 : BitVec 32) (v91 : BitVec 32), BitVec 32) → sProp 𝕄)
    (h : ∀ b, P ⊢ Q b) :
    P ⊢ wp frame (wpE (defs₀ (F := F)) 𝒱₀ (Dev.tc c : Thread nD τ) none) Set.univ (k0_part3 (F := F) xM hxM oM hoM sM hsM rM hrM cc0_scratch2 cc0_scratch3 v2 v58 z) Q := by
  rw [k0_part3_eq_skeleton]
  exact (h _).trans (le_wp_ret _ _ _ _ _)

theorem exec_part4 (c : Dev nD) (P : sProp 𝕄) (v2 v62 v68 z : BitVec 32)
    (Q : (Σ' (v95 : BitVec 32) (v98 : BitVec 32) (v100 : BitVec 32) (v109 : BitVec 32) (v112 : BitVec 32) (v117 : BitVec 32) (v119 : BitVec 32) (v122 : BitVec 32), BitVec 32) → sProp 𝕄)
    (h : ∀ b, P ⊢ Q b) :
    P ⊢ wp frame (wpE (defs₀ (F := F)) 𝒱₀ (Dev.tc c : Thread nD τ) none) Set.univ (k0_part4 (F := F) xM hxM oM hoM sM hsM rM hrM cc0_scratch2 cc0_scratch3 v2 v62 v68 z) Q := by
  rw [k0_part4_eq_skeleton]
  exact (h _).trans (le_wp_ret _ _ _ _ _)

end Cert.KernelIdeal.RsAg

end
-- ==== Proof.KI.PartsA9.lean ====
import proofs.«901015_g7700000000001016_dist_rs_then_ag_i_m4096_n1024_v7x_i8_f32_1_alg».proof.Proof.KI.PartsA

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

theorem exec_part9 (v2 v21 v24 v29 : BitVec 32)
    (Q : (Σ' (v275 : BitVec 32), BitVec 32) → sProp 𝕄)
    (h : ∀ b, StA m K c nx0 7 ∅ own9 {(0, 7)} ⊢ Q b) :
    StA m K c nx0 5 ∅ own8 {(2, 5)}
      ⊢ wp frame (wpE (defs₀ (F := F)) 𝒱₀ (Dev.tc c : Thread nD τ) none) Set.univ (k0_part9 (F := F) xM hxM oM hoM sM hsM rM hrM cc0_scratch2 cc0_scratch3 c v2 v21 v24 v29) Q := by
  rw [k0_part9_eq_skeleton]
  unfold k0_part9_skel
  refine sendRS_A m K c ∅ 2 1 (dev9_eq c) (off15_eq c) (off14_eq c) ?_
  refine loadBlock_A m K c 0 6 7 (late_rows 0 c) (off16_eq c) fun _ => ?_
  refine storeBlock_A m K c {(0, 6), (0, 7)} 0 6 7 (late_rows 0 c) (off16_eq c) ?_
  refine sendRS_A m K c {(0, 7)} 0 2 (dev10_eq c) (off18_eq c) (off17_eq c) ?_
  exact (h _).trans (le_wp_ret _ _ _ _ _)

theorem exec_part10 (v2 v62 v68 v73 : BitVec 32)
    (Q : (Σ' (v308 : BitVec 32), BitVec 32) → sProp 𝕄)
    (h : ∀ b, StA m K c nx0 9 ∅ own10 {(1, 7)} ⊢ Q b) :
    StA m K c nx0 7 ∅ own9 {(0, 7)}
      ⊢ wp frame (wpE (defs₀ (F := F)) 𝒱₀ (Dev.tc c : Thread nD τ) none) Set.univ (k0_part10 (F := F) xM hxM oM hoM sM hsM rM hrM cc0_scratch2 cc0_scratch3 c v2 v62 v68 v73) Q := by
  rw [k0_part10_eq_skeleton]
  unfold k0_part10_skel
  refine sendRS_A m K c ∅ 0 3 (dev11_eq c) (off20_eq c) (off19_eq c) ?_
  refine loadBlock_A m K c 1 6 7 (late_rows 1 c) (off21_eq c) fun _ => ?_
  refine storeBlock_A m K c {(1, 6), (1, 7)} 1 6 7 (late_rows 1 c) (off21_eq c) ?_
  refine sendRS_A m K c {(1, 7)} 1 2 (dev12_eq c) (off23_eq c) (off22_eq c) ?_
  exact (h _).trans (le_wp_ret _ _ _ _ _)

theorem exec_part11 (v2 v109 v112 v117 : BitVec 32)
    (Q : (Σ' (v341 : BitVec 32), BitVec 32) → sProp 𝕄)
    (h : ∀ b, StA m K c nx0 11 ∅ own11 {(2, 7)} ⊢ Q b) :
    StA m K c nx0 9 ∅ own10 {(1, 7)}
      ⊢ wp frame (wpE (defs₀ (F := F)) 𝒱₀ (Dev.tc c : Thread nD τ) none) Set.univ (k0_part11 (F := F) xM hxM oM hoM sM hsM rM hrM cc0_scratch2 cc0_scratch3 c v2 v109 v112 v117) Q := by
  rw [k0_part11_eq_skeleton]
  unfold k0_part11_skel
  refine sendRS_A m K c ∅ 1 3 (dev13_eq c) (off25_eq c) (off24_eq c) ?_
  refine loadBlock_A m K c 2 6 7 (late_rows 2 c) (off26_eq c) fun _ => ?_
  refine storeBlock_A m K c {(2, 6), (2, 7)} 2 6 7 (late_rows 2 c) (off26_eq c) ?_
  refine sendRS_A m K c {(2, 7)} 2 2 (dev14_eq c) (off28_eq c) (off27_eq c) ?_
  exact (h _).trans (le_wp_ret _ _ _ _ _)

theorem pay8_apply (v : Vec F S176x1024 .f32) (w : Vec F S176x1024 .bf16) (j : S176x1024.Idx) :
    k0_pay8 v w j = FloatOps.addf (v j) (FloatOps.extf .f32 bf16_lt_f32 (w j)) := by
  unfold k0_pay8
  simp only [shapeCast_same]
  rfl

theorem pay10_apply (v : Vec F S176x1024 .f32) (w : Vec F S176x1024 .bf16) (j : S176x1024.Idx) :
    k0_pay10 v w j = FloatOps.addf (v j) (FloatOps.extf .f32 bf16_lt_f32 (w j)) := by
  unfold k0_pay10
  simp only [shapeCast_same]
  rfl

theorem sent4_rows (c : Fin 8) :
    ∀ x ∈ rowsSet (S := S4096x1024) ⟨0, by decide⟩ (roleRow 0 (sendRole 4) c) (eRows 0),
      snd (Xlev (X m) c (nx13 c)) x = sent m 0 c 4 x := by
  intro x hx
  have hin : inSlab 0 (jS1a 0 c) (x 0).val := (mem_rows_inSlab 0 (jS1a 0 c) x).mp hx
  show FloatOps.truncf .bf16 bf16_lt_f32 (Xlev (X m) c (nx13 c) x) = FloatOps.truncf .bf16 bf16_lt_f32 (P1 (X m) 0 c x)
  rw [Xlev_in (X m) c (nx13 c) x (jS1a_lt 0 c) hin, show nx13 c 0 (jS1a 0 c) = 1 from bump_same _ _ _]
  rfl

theorem exec_part12 (v24 v34 v42 v162 : BitVec 32)
    (Q : (FVec F S176x1024 .bf16) → sProp 𝕄)
    (h : ∀ v392,
      iprop(StA m K c (nx13 c) 12 {(0, 0)} own11 ∅
        ∗ ⌜∀ j, v392 j = snd (Xlev (X m) c (nx13 c)) ((Rect.unit (s := S4096x1024) (k0_off31 c) S176x1024.size (k0_off31_inb c)).emb j)⌝)
      ⊢ Q v392) :
    StA m K c nx0 11 ∅ own11 {(2, 7)}
      ⊢ wp frame (wpE (defs₀ (F := F)) 𝒱₀ (Dev.tc c : Thread nD τ) none) Set.univ (k0_part12 (F := F) xM hxM oM hoM sM hsM rM hrM cc0_scratch2 cc0_scratch3 c v24 v34 v42 v162) Q := by
  rw [k0_part12_eq_skeleton]
  unfold k0_part12_skel
  refine sendRS_A m K c ∅ 2 3 (dev15_eq c) (off30_eq c) (off29_eq c) ?_
  unfold StA cutState
  rw [bigSep_erase' (s := own11) (i := ((0 : Fin 3), (2 : Fin 8))) (by decide)]
  iintro ⟨⟨Hg, Hx, Hout, ⟨⟨%g, Hs⟩, Hown⟩, Hslots, Hrp⟩, He⟩
  iapply (step_waitRecv m K c 12 ∅ 0 0 (by decide) (by decide) (by rfl)) $$ Hg
  rw [insert_empty_eq, recvPay_0]
  iintro ⟨Hg, Hslot, Hpeer⟩
  iapply (wp_add (X m) c 0 (jS1a 0 c) (jS1a_lt 0 c) nx0 0 (by decide) rfl (rFa 0 c) (k0_off31 c) (k0_off32 c) S176x1024.size rfl
    (off31_eq c) (off32_eq c) k0_pay8 pay8_apply) $$ [$Hx Hslot]
  · iexact Hslot
  iintro ⟨Hx, Hslot⟩
  iapply (wp_x_load c (Rect.unit (s := S4096x1024) (k0_off31 c) S176x1024.size (k0_off31_inb c)) _) $$ Hx; iintro Hx
  iapply (wp_stg_load c 0 (roleRow 0 2 c) fullShare (k0_off31 c) S176x1024.size rfl (off31_eq c) g) $$ Hs; iintro Hs
  iapply (le_wp_ret _ _)
  iapply (h _)
  unfold StA cutState nx13
  rw [bigSep_erase' (s := own11) (i := ((0 : Fin 3), (2 : Fin 8))) (by decide), bigSep_singleton, recvPay_0]
  iframe
  isplitl [Hs Hslot He]
  · isplitl [Hs Hslot]
    · isplitl [Hs]
      · iexists g
        iexact Hs
      iexact Hslot
    iexact He
  ipureintro
  exact congrFun (trunc_cast _ _ _ _)

theorem exec_part13 (v2 v24 v34 v68 v78 v86 v201 : BitVec 32) (v392 : FVec F S176x1024 .bf16)
    (Q : (Σ' (v396 : BitVec 32), FVec F S176x1024 .f32) → sProp 𝕄)
    (h : ∀ v396 v423, Cut13 m K c v423 ⊢ Q ⟨v396, v423⟩) :
    iprop(StA m K c (nx13 c) 12 {(0, 0)} own11 ∅
        ∗ ⌜∀ j, v392 j = snd (Xlev (X m) c (nx13 c)) ((Rect.unit (s := S4096x1024) (k0_off31 c) S176x1024.size (k0_off31_inb c)).emb j)⌝)
      ⊢ wp frame (wpE (defs₀ (F := F)) 𝒱₀ (Dev.tc c : Thread nD τ) none) Set.univ (k0_part13 (F := F) xM hxM oM hoM sM hsM rM hrM cc0_scratch2 cc0_scratch3 c v2 v24 v34 v68 v78 v86 v201 v392) Q := by
  refine of_pure_right fun hv => ?_
  rw [k0_part13_eq_skeleton]
  unfold k0_part13_skel StA cutState
  rw [bigSep_erase' (s := own11) (i := ((0 : Fin 3), (2 : Fin 8))) (by decide)]
  iintro ⟨⟨Hg, Hx, Hout, ⟨⟨%g, Hs⟩, Hown⟩, Hslots, Hrp⟩, He⟩
  iapply (wp_stg_store c 0 (roleRow 0 2 c) (k0_off31 c) S176x1024.size rfl (off31_eq c) g (snd (Xlev (X m) c (nx13 c))) v392 hv) $$ Hs; iintro Hs
  iapply (sendRS_A (ns := 12) (waited := {(0, 0)}) (held := {((0 : Fin 3), (2 : Fin 8))}) (own := own11.erase ((0 : Fin 3), (2 : Fin 8))) m K c ∅ 0 4 (dev16_eq c) (off34_eq c) (off33_eq c) ?_
    (hval := sent4_rows m c))
  swap
  · unfold StA cutState
    rw [bigSep_singleton (i := ((0 : Fin 3), (2 : Fin 8)))]
    iframe
  unfold StA cutState
  iintro ⟨⟨Hg, Hx, Hout, Hown, Hslots, Hrp⟩, -⟩
  iapply (step_waitRecv m K c 13 {(0, 0)} 1 0 (by decide) (by decide) (by rfl)) $$ Hg
  rw [recvPay_0]
  iintro ⟨Hg, Hslot, Hpeer⟩
  iapply (wp_x_load c (Rect.unit (s := S4096x1024) (k0_off35 c) S176x1024.size (k0_off35_inb c)) _) $$ Hx; iintro Hx
  iapply (wp_slot_load c 1 (rFa 1 c) (k0_off36 c) S176x1024.size rfl (off36_eq c) _) $$ Hslot; iintro Hslot
  iapply (le_wp_ret _ _)
  iapply (h _ _)
  unfold Cut13 cutState
  rw [show waited13 = insert ((1 : Fin 3), (0 : Fin 14)) {(0, 0)} by decide, show own13 = own11.erase ((0 : Fin 3), (2 : Fin 8)) by decide,
    bigSep_insert' (by decide), recvPay_0 m c 1]
  iframe
  ipureintro
  exact add_val (X m) c 1 (jS1a 1 c) (nx13 c) (snd (X m (peer 1 0 c))) (rFa 1 c) (k0_off35 c) (k0_off36 c) S176x1024.size rfl
    (off35_eq c) (off36_eq c) k0_pay10 pay10_apply

end Cert.KernelIdeal.RsAg

end
-- ==== Proof.KI.BodyBDefs.lean ====
import proofs.«901015_g7700000000001016_dist_rs_then_ag_i_m4096_n1024_v7x_i8_f32_1_alg».proof.Proof.KI.Mid

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section States
variable (K : CellIx → ℕ) (c : Dev nD)

/-- The cut state after `nb` additions, `ns` copies started, `nw` waits and `no` roundings. -/
abbrev cutAt (nb ns nw no : Nat) : sProp 𝕄 := cutState m K c (nxA c nb) ns (wA nw) (ownA no)

abbrev St14 : sProp 𝕄 := cutAt m K c 1 14 1 1
abbrev St15 : sProp 𝕄 := iprop(cutAt m K c 2 14 1 2 ∗ stgRows c 2 (slab 2 (jS1a 2 c)) fullShare (snd (Pn (X m) 2 c 1)))
abbrev St16 : sProp 𝕄 := iprop(cutAt m K c 3 15 2 3 ∗ stgRows c 0 (slab 0 (jS1b 0 c)) fullShare (snd (Pn (X m) 0 c 1)))
abbrev St17 : sProp 𝕄 := iprop(cutAt m K c 4 16 3 4 ∗ stgRows c 1 (slab 1 (jS1b 1 c)) fullShare (snd (Pn (X m) 1 c 1)))
abbrev St18 : sProp 𝕄 := cutAt m K c 5 17 4 4
abbrev St19 : sProp 𝕄 := cutAt m K c 6 18 5 5
abbrev St20 : sProp 𝕄 := cutAt m K c 7 19 6 6
abbrev St21 (v693 : FVec F S176x1024 .bf16) : sProp 𝕄 :=
  iprop(cutAt m K c 9 19 8 6
    ∗ ⌜∀ jj, v693 jj = snd (Pn (X m) 1 c 2) ((Rect.unit (s := S4096x1024) (k0_off59 c) S176x1024.size (k0_off59_inb c)).emb jj)⌝)
abbrev St22 : sProp 𝕄 := cutAt m K c 10 20 9 7
abbrev St23 : sProp 𝕄 := cutAt m K c 11 21 10 8
abbrev St24 : sProp 𝕄 := cutAt m K c 13 21 12 8
abbrev St25 : sProp 𝕄 := cutAt m K c 15 21 15 8

end States

end Cert.KernelIdeal.RsAg

end
-- ==== Proof.KI.CutSteps.lean ====
import proofs.«901015_g7700000000001016_dist_rs_then_ag_i_m4096_n1024_v7x_i8_f32_1_alg».proof.Proof.KI.Mid
import proofs.«901015_g7700000000001016_dist_rs_then_ag_i_m4096_n1024_v7x_i8_f32_1_alg».proof.Proof.KI.Steps
import proofs.«901015_g7700000000001016_dist_rs_then_ag_i_m4096_n1024_v7x_i8_f32_1_alg».proof.Proof.KI.Local

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem recvPay_lt (c : Fin 8) (p : Fin 3) (i : Fin 14) (hi : i.val < 7) :
    recvPay m c p i = iprop(rsrRows c p (slot p c i) (reRow (srcRow p c i) (slot p c i) (sent m p (peer p (stp i) c) i))
      ∗ stgRows (peer p (stp i) c) p (srcRow p c i) fullShare (sent m p (peer p (stp i) c) i)) := if_pos hi

/-- A product over the copies not started, the factor of the copy started next set apart. -/
theorem slots_take {ns : Nat} {p : Fin 3} {i : Fin 14} (h : sendOrder[ns]? = some (p, i)) (hi : i.val < 7) (Φ : Fin 3 × Fin 14 → sProp 𝕄) :
    bigSep ((Finset.univ \ started ns).filter fun pi => pi.2.val < 7) Φ
      = iprop(Φ (p, i) ∗ bigSep ((Finset.univ \ started (ns + 1)).filter fun pi => pi.2.val < 7) Φ) := by
  rw [started_succ h, Finset.sdiff_insert, Finset.filter_erase]
  exact bigSep_erase (Finset.mem_filter.mpr ⟨Finset.mem_sdiff.mpr ⟨Finset.mem_univ _, not_mem_started h⟩, hi⟩)

section Steps

variable {K : CellIx → ℕ} {c : Dev nD} {nx : Fin 3 → Nat → Nat} {ns : Nat} {waited : Finset (Fin 3 × Fin 14)}
  {own : Finset (Fin 3 × Fin 8)} {α : Type} {Q : α → sProp (MT nD τ sig Unit (Elt F) ℕ UU ℕ)} {k : PUnit → Prog (TpuEff nD τ sig (Elt F) Λ₀ .tc) α}
  {off sz : Fin 2 → Nat} {inb : ∀ a, off a + sz a ≤ S4096x1024.size a}
  {hl₁ hl₃ : (mX).view.LoadsAt (Rect.unit (s := S4096x1024) off sz inb).toLoadRect}
  {hl₂ : (mS).view.LoadsAt (Rect.unit (s := S4096x1024) off sz inb).toLoadRect}
  {hx : ((mX).access (Rect.unit (s := S4096x1024) off sz inb)).Stores Finset.univ}
  {hxs : ((mS).access (Rect.unit (s := S4096x1024) off sz inb)).Stores Finset.univ}
  {hm : (Finset.univ : Finset (Rect.unit (s := S4096x1024) off sz inb).shape.Idx) = Finset.univ ∨ ∀ a, (Rect.unit (s := S4096x1024) off sz inb).stride a = 1}
  (p : Fin 3) (i : Fin 14)

theorem cut_wait {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    (h : cutState m K c nx ns (insert (p, i) waited) own ⊢ wpc c (k ⟨⟩) Q) (hd : (p, i) ∉ waited ∧ ns = nBefore p i := by decide) :
    cutState m K c nx ns waited own ⊢ wpc c (.op (.waitDma2 (rSem p i) src dst hsrc hdst) k) Q := by
  rw [cutState, bigSep_insert' hd.1] at h
  unfold cutState
  iintro ⟨Hg, Hx, Ho, Hown, Hsl, Hpay⟩
  iapply (step_waitRecv m K c ns waited p i hd.1 hd.2 hamt) $$ Hg
  iintro ⟨Hg, Hp⟩
  iapply h
  iframe

theorem cut_xload {R : Rect S4096x1024} {hl : (mX).view.LoadsAt R.toLoadRect} {k : Vec F R.shape .f32 → Prog (TpuEff nD τ sig (Elt F) Λ₀ .tc) α}
    (h : cutState m K c nx ns waited own ⊢ wpc c (k fun jj => Xlev (X m) c nx (R.emb jj)) Q) :
    cutState m K c nx ns waited own ⊢ wpc c (.op (.load mX R.toLoadRect hl) k) Q := by
  unfold cutState at h ⊢
  iintro ⟨Hg, Hx, Ho, Hown, Hsl, Hpay⟩
  iapply (wp_x_load c R (Xlev (X m) c nx)) $$ Hx
  iintro Hx
  iapply h
  iframe

theorem cut_store_add {w : FVec F ⟨2, sz⟩ .f32} {j : Nat} (hj : j < 8) (kk : Fin 3) (hk : nx p j = kk.val)
    (hsz : sz = ![eRows p, 1024]) (hoff : off = ![slab p j, 0])
    (hw : ∀ jj, w jj = addf (Xlev (X m) c nx) (rcv (snd (Pn (X m) p (peer p kk c) kk.val))) ((Rect.unit (s := S4096x1024) off sz inb).emb jj))
    (h : cutState m K c (bump nx p j) ns waited own ⊢ wpc c (k ⟨⟩) Q) :
    cutState m K c nx ns waited own ⊢ wpc c (.op (.store mX (Rect.unit (s := S4096x1024) off sz inb) w Finset.univ hx hm) k) Q := by
  unfold cutState at h ⊢
  iintro ⟨Hg, Hx, Ho, Hown, Hsl, Hpay⟩
  iapply (wp_x_store_add (X m) c p j hj nx kk.val kk.isLt hk off sz hsz hoff w hw) $$ Hx
  iintro Hx
  iapply h
  iframe

theorem cut_add {offr : Fin 2 → Nat} {inbr : ∀ a, offr a + sz a ≤ S3584x1024.size a}
    {hlr : (mR).view.LoadsAt (Rect.unit (s := S3584x1024) offr sz inbr).toLoadRect}
    {pay : Vec F ⟨2, sz⟩ .f32 → Vec F ⟨2, sz⟩ .bf16 → FVec F ⟨2, sz⟩ .f32}
    {j : Nat} (hj : j < 8) (kk : Fin 3) (hk : nx p j = kk.val)
    (hrow : srcRow p c i = slab p j)
    (hsent : sent m p (peer p (stp i) c) i = snd (Pn (X m) p (peer p kk c) kk.val))
    (hsz : sz = ![eRows p, 1024]) (hoff : off = ![slab p j, 0]) (hoffr : offr = ![slot p c i, 0])
    (hpay : ∀ v w jj, pay v w jj = FloatOps.addf (v jj) (FloatOps.extf .f32 bf16_lt_f32 (w jj)))
    (h : cutState m K c (bump nx p j) ns waited own ⊢ wpc c (k ⟨⟩) Q) (hd : i.val < 7 ∧ (p, i) ∈ waited := by decide) :
    cutState m K c nx ns waited own ⊢ wpc c
      (.op (.load mX (Rect.unit (s := S4096x1024) off sz inb).toLoadRect hl₁) fun v₁ =>
       .op (.load mR (Rect.unit (s := S3584x1024) offr sz inbr).toLoadRect hlr) fun v₂ =>
       .op (.load mX (Rect.unit (s := S4096x1024) off sz inb).toLoadRect hl₃) fun _ =>
       .op (.store mX (Rect.unit (s := S4096x1024) off sz inb) (pay v₁ v₂) Finset.univ hx hm) k) Q := by
  unfold cutState at h ⊢
  rw [bigSep_erase' hd.2, recvPay_lt m c p i hd.1, hrow, hsent] at h ⊢
  iintro ⟨Hg, Hx, Ho, Hown, Hsl, ⟨Hs, Hpeer⟩, Hpay⟩
  iapply (wp_add (X m) c p j hj nx kk.val kk.isLt hk (slot p c i) off offr sz hsz hoff hoffr pay hpay) $$ [$Hx $Hs]
  iintro ⟨Hx, Hs⟩
  iapply h
  iframe

theorem cut_round_tail {w : FVec F ⟨2, sz⟩ .bf16} (r : Fin 8) (j : Nat) (hrow : roleRow p r c = slab p j)
    (hsz : sz = ![eRows p, 1024]) (hoff : off = ![slab p j, 0])
    (G : FVec F W .bf16) (hw : ∀ jj, w jj = G ((Rect.unit (s := S4096x1024) off sz inb).emb jj))
    (h : iprop(cutState m K c nx ns waited (own.erase (p, r)) ∗ stgRows c p (slab p j) fullShare G) ⊢ wpc c (k ⟨⟩) Q) (hmem : (p, r) ∈ own := by decide) :
    cutState m K c nx ns waited own ⊢ wpc c
      (.op (.load mS (Rect.unit (s := S4096x1024) off sz inb).toLoadRect hl₂) fun _ =>
       .op (.store mS (Rect.unit (s := S4096x1024) off sz inb) w Finset.univ hxs hm) k) Q := by
  unfold cutState at h ⊢
  rw [bigSep_erase' hmem, hrow]
  iintro ⟨Hg, Hx, Ho, ⟨⟨%f₀, Hst⟩, Hown⟩, Hsl, Hpay⟩
  iapply (wp_stg_load c p (slab p j) fullShare off sz hsz hoff f₀) $$ Hst
  iintro Hst
  iapply (wp_stg_store c p (slab p j) off sz hsz hoff f₀ G w hw) $$ Hst
  iintro Hst
  iapply h
  iframe

theorem cut_round {pay : Vec F ⟨2, sz⟩ .f32 → FVec F ⟨2, sz⟩ .bf16}
    (r : Fin 8) {j : Nat} (hj : j < 8) (hrow : roleRow p r c = slab p j)
    (kk : Nat) (hk : nx p j = kk) (hsz : sz = ![eRows p, 1024]) (hoff : off = ![slab p j, 0])
    (hpay : ∀ v jj, pay v jj = FloatOps.truncf .bf16 bf16_lt_f32 (v jj))
    (h : iprop(cutState m K c nx ns waited (own.erase (p, r)) ∗ stgRows c p (slab p j) fullShare (snd (Pn (X m) p c kk))) ⊢ wpc c (k ⟨⟩) Q) (hmem : (p, r) ∈ own := by decide) :
    cutState m K c nx ns waited own ⊢ wpc c
      (.op (.load mX (Rect.unit (s := S4096x1024) off sz inb).toLoadRect hl₁) fun v =>
       .op (.load mS (Rect.unit (s := S4096x1024) off sz inb).toLoadRect hl₂) fun _ =>
       .op (.store mS (Rect.unit (s := S4096x1024) off sz inb) (pay v) Finset.univ hxs hm) k) Q :=
  cut_xload m (cut_round_tail m p r j hrow hsz hoff _ (round_val (X m) c p j hj nx kk hk off sz hsz hoff pay hpay) h hmem)

theorem cut_send {n : Dev nD} {os od : Fin 2 → Nat} {o s : Nat} {G : FVec F W .bf16}
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    (hn : n = peer p (stp i) c)
    (hsz : sz = ![eRows p, 1024]) (hos : os = ![o, 0]) (hod : od = ![s, 0])
    (ho : o = srcRow p (peer p (stp i) c) i) (hs : s = slot p (peer p (stp i) c) i) (hG : G = sent m p c i)
    (h : cutState m K c nx (ns + 1) waited own ⊢ wpc c (k ⟨⟩) Q) (hd : sendOrder[ns]? = some (p, i) ∧ i.val < 7 := by decide) :
    iprop(cutState m K c nx ns waited own ∗ stgRows c p o fullShare G) ⊢ wpc c
      (.op (.enqueueDma (stgSl os sz inbS hstS) (.remote (Dev.tc n : Thread nD τ) (rsrSl od sz inbD hstD) (.dma (sSem p i)) hsc)
        (.dma (rSem p i)) hsrc hdst hsem) k) Q := by
  subst hn ho hs hG
  unfold cutState at h ⊢
  rw [slots_take hd.1 hd.2]
  iintro ⟨⟨Hg, Hx, Ho, Hown, ⟨Hslot, Hsl⟩, Hpay⟩, Hst⟩
  iapply (step_sendRS m K c ns waited p i hd.1 hd.2 (peer p (stp i) c) rfl os od sz hsz hos hod) $$ [$Hg $Hst $Hslot]
  iintro Hg
  iapply h
  iframe

end Steps

end Cert.KernelIdeal.RsAg

end
-- ==== Proof.KI.BodyB.lean ====
import proofs.«901015_g7700000000001016_dist_rs_then_ag_i_m4096_n1024_v7x_i8_f32_1_alg».proof.Proof.KI.BodyBDefs
import proofs.«901015_g7700000000001016_dist_rs_then_ag_i_m4096_n1024_v7x_i8_f32_1_alg».proof.Proof.KI.CutSteps
import proofs.«901015_g7700000000001016_dist_rs_then_ag_i_m4096_n1024_v7x_i8_f32_1_alg».proof.Proof.KI.Tables
import proofs.«901015_g7700000000001016_dist_rs_then_ag_i_m4096_n1024_v7x_i8_f32_1_alg».proof.Proof.KI.Slabs

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "pay_tac " n:ident : tactic => `(tactic| (intros; simp only [$n:ident, shapeCast_same] <;> rfl))

section Parts
variable (K : CellIx → ℕ) (c : Dev nD)

theorem exec_part14 (v2 v68 v78 v112 v240 : BitVec 32) (v423 : FVec F S176x1024 .f32)
    (Q : (Σ' (_ : BitVec 32), BitVec 32) → sProp 𝕄) (h : ∀ a b, St14 m K c ⊢ Q ⟨a, b⟩) :
    Cut13 m K c v423 ⊢ wpc c (k0_part14 xM hxM oM hoM sM hsM rM hrM cc0_scratch2 cc0_scratch3 c v2 v68 v78 v112 v240 v423) Q := by
  rw [k0_part14_eq_skeleton]
  refine sep_and.trans (pure_elim_right fun hv => ?_)
  refine cut_xload m ?_
  refine cut_store_add m 1 (jS1a_lt 1 c) 0 (nxA_at c 0 1 jS1a 0) rfl (off35_eq c) hv ?_
  refine cut_round m 1 2 (jS1a_lt 1 c) rfl 1 (nxA_at c 1 1 jS1a 1) rfl (off35_eq c) (by pay_tac k0_pay11) ?_
  refine cut_send m 1 4 (dev17_eq c) rfl (off38_eq c) (off37_eq c) (src4 1 c) (slot4 1 c) rfl ?_
  refine cut_wait m 2 0 (slab_credit 2 0 _) ?_
  exact (h _ _).trans (le_wp_ret _ _ _ _ _)

theorem exec_part15 (v2 v112 v122 v130 v455 : BitVec 32)
    (Q : BitVec 32 → sProp 𝕄) (h : ∀ a, St15 m K c ⊢ Q a) :
    St14 m K c ⊢ wpc c (k0_part15 xM hxM oM hoM sM hsM rM hrM cc0_scratch2 cc0_scratch3 c v2 v112 v122 v130 v455) Q := by
  rw [k0_part15_eq_skeleton]
  refine cut_add m 2 0 (jS1a_lt 2 c) 0 (nxA_at c 1 2 jS1a 0) rfl rfl rfl (off39_eq c) (off40_eq c) (by pay_tac k0_pay12) ?_
  refine cut_round m 2 2 (jS1a_lt 2 c) rfl 1 (nxA_at c 2 2 jS1a 1) rfl (off39_eq c) (by pay_tac k0_pay13) ?_
  exact (h _).trans (le_wp_ret _ _ _ _ _)

theorem exec_part16 (v2 v24 v34 v42 v175 : BitVec 32)
    (Q : (Σ' (_ : BitVec 32), BitVec 32) → sProp 𝕄) (h : ∀ a b, St16 m K c ⊢ Q ⟨a, b⟩) :
    St15 m K c ⊢ wpc c (k0_part16 xM hxM oM hoM sM hsM rM hrM cc0_scratch2 cc0_scratch3 c v2 v24 v34 v42 v175) Q := by
  rw [k0_part16_eq_skeleton]
  refine cut_send m 2 4 (dev18_eq c) rfl (off42_eq c) (off41_eq c) (src4 2 c) (slot4 2 c) rfl ?_
  refine cut_wait m 0 1 (slab_credit 0 1 _) ?_
  refine cut_add m 0 1 (jS1b_lt 0 c) 0 (nxA_at c 2 0 jS1b 0) rfl rfl rfl (off43_eq c) (off44_eq c) (by pay_tac k0_pay14) ?_
  refine cut_round m 0 3 (jS1b_lt 0 c) rfl 1 (nxA_at c 3 0 jS1b 1) rfl (off43_eq c) (by pay_tac k0_pay15) ?_
  exact (h _ _).trans (le_wp_ret _ _ _ _ _)

theorem exec_part17 (v68 v78 v86 v214 v525 : BitVec 32)
    (Q : BitVec 32 → sProp 𝕄) (h : ∀ a, St17 m K c ⊢ Q a) :
    St16 m K c ⊢ wpc c (k0_part17 xM hxM oM hoM sM hsM rM hrM cc0_scratch2 cc0_scratch3 c v68 v78 v86 v214 v525) Q := by
  rw [k0_part17_eq_skeleton]
  refine cut_send m 0 5 (dev19_eq c) rfl (off46_eq c) (off45_eq c) (src5 0 c) (slot5 0 c) rfl ?_
  refine cut_wait m 1 1 (slab_credit 1 1 _) ?_
  refine cut_add m 1 1 (jS1b_lt 1 c) 0 (nxA_at c 3 1 jS1b 0) rfl rfl rfl (off47_eq c) (off48_eq c) (by pay_tac k0_pay16) ?_
  refine cut_round m 1 3 (jS1b_lt 1 c) rfl 1 (nxA_at c 4 1 jS1b 1) rfl (off47_eq c) (by pay_tac k0_pay17) ?_
  exact (h _).trans (le_wp_ret _ _ _ _ _)

theorem exec_part18 (v2 v68 v78 v112 v122 v130 v253 c176 : BitVec 32)
    (Q : (Σ' (_ : BitVec 32), BitVec 32) → sProp 𝕄) (h : ∀ a b, St18 m K c ⊢ Q ⟨a, b⟩) :
    St17 m K c ⊢ wpc c (k0_part18 xM hxM oM hoM sM hsM rM hrM cc0_scratch2 cc0_scratch3 c v2 v68 v78 v112 v122 v130 v253 c176) Q := by
  rw [k0_part18_eq_skeleton]
  refine cut_send m 1 5 (dev20_eq c) rfl (off50_eq c) (off49_eq c) (src5 1 c) (slot5 1 c) rfl ?_
  refine cut_wait m 2 1 (slab_credit 2 1 _) ?_
  refine cut_add m 2 1 (jS1b_lt 2 c) 0 (nxA_at c 4 2 jS1b 0) rfl rfl rfl (off51_eq c) (off52_eq c) (by pay_tac k0_pay18) ?_
  exact (h _ _).trans (le_wp_ret _ _ _ _ _)

theorem exec_part19 (v2 v39 v47 v112 v122 v275 v593 : BitVec 32)
    (Q : BitVec 32 → sProp 𝕄) (h : ∀ a, St19 m K c ⊢ Q a) :
    St18 m K c ⊢ wpc c (k0_part19 xM hxM oM hoM sM hsM rM hrM cc0_scratch2 cc0_scratch3 c v2 v39 v47 v112 v122 v275 v593) Q := by
  rw [k0_part19_eq_skeleton]
  refine cut_round m 2 3 (jS1b_lt 2 c) rfl 1 (nxA_at c 5 2 jS1b 1) rfl (off51_eq c) (by pay_tac k0_pay19) ?_
  refine cut_send m 2 5 (dev21_eq c) rfl (off54_eq c) (off53_eq c) (src5 2 c) (slot5 2 c) rfl ?_
  refine cut_wait m 0 2 (slab_credit 0 2 _) ?_
  refine cut_add m 0 2 (jS2_lt 0 c) 0 (nxA_at c 5 0 jS2 0) rfl rfl rfl (off55_eq c) (off56_eq c) (by pay_tac k0_pay20) ?_
  exact (h _).trans (le_wp_ret _ _ _ _ _)

theorem exec_part20 (v2 v39 v54 v396 : BitVec 32)
    (Q : BitVec 32 → sProp 𝕄) (h : ∀ a, St20 m K c ⊢ Q a) :
    St19 m K c ⊢ wpc c (k0_part20 xM hxM oM hoM sM hsM rM hrM cc0_scratch2 cc0_scratch3 c v2 v39 v54 v396) Q := by
  rw [k0_part20_eq_skeleton]
  refine cut_wait m 0 4 (slab_credit 0 4 _) ?_
  refine cut_add m 0 4 (jS2_lt 0 c) 1 (nxA_at c 6 0 jS2 1) rfl rfl rfl (off55_eq c) (off57_eq c) (by pay_tac k0_pay21) ?_
  refine cut_round m 0 1 (jS2_lt 0 c) rfl 2 (nxA_at c 7 0 jS2 2) rfl (off55_eq c) (by pay_tac k0_pay22) ?_
  refine cut_send m 0 6 (dev22_eq c) rfl (off58_eq c) rfl (src6 0 c) (slot6 0 c) rfl ?_
  exact (h _).trans (le_wp_ret _ _ _ _ _)

end Parts

end Cert.KernelIdeal.RsAg

end
-- ==== Proof.KI.BodyB21.lean ====
import proofs.«901015_g7700000000001016_dist_rs_then_ag_i_m4096_n1024_v7x_i8_f32_1_alg».proof.Proof.KI.BodyBDefs
import proofs.«901015_g7700000000001016_dist_rs_then_ag_i_m4096_n1024_v7x_i8_f32_1_alg».proof.Proof.KI.CutSteps
import proofs.«901015_g7700000000001016_dist_rs_then_ag_i_m4096_n1024_v7x_i8_f32_1_alg».proof.Proof.KI.Tables
import proofs.«901015_g7700000000001016_dist_rs_then_ag_i_m4096_n1024_v7x_i8_f32_1_alg».proof.Proof.KI.Slabs

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "pay_tac " n:ident : tactic => `(tactic| (intros; simp only [$n:ident, shapeCast_same] <;> rfl))

section Parts
variable (K : CellIx → ℕ) (c : Dev nD)

theorem exec_part21 (v83 v91 v98 v308 v440 : BitVec 32)
    (Q : FVec F S176x1024 .bf16 → sProp 𝕄) (h : ∀ v693, St21 m K c v693 ⊢ Q v693) :
    St20 m K c ⊢ wpc c (k0_part21 xM hxM oM hoM sM hsM rM hrM cc0_scratch2 cc0_scratch3 c v83 v91 v98 v308 v440) Q := by
  rw [k0_part21_eq_skeleton]
  refine cut_wait m 1 2 (slab_credit 1 2 _) ?_
  refine cut_add m 1 2 (jS2_lt 1 c) 0 (nxA_at c 7 1 jS2 0) rfl rfl rfl (off59_eq c) (off60_eq c) (by pay_tac k0_pay23) ?_
  refine cut_wait m 1 4 (slab_credit 1 4 _) ?_
  refine cut_add m 1 4 (jS2_lt 1 c) 1 (nxA_at c 8 1 jS2 1) rfl rfl rfl (off59_eq c) (off61_eq c) (by pay_tac k0_pay24) ?_
  refine cut_xload m (.trans (?_ : cutAt m K c 9 19 8 6 ⊢ _) ((h _).trans (le_wp_ret _ _ _ _ _)))
  unfold St21
  iintro H
  iframe
  ipureintro
  exact round_val (X m) c 1 (jS2 1 c) (jS2_lt 1 c) (nxA c 9) 2 (nxA_at c 9 1 jS2 2) (k0_off59 c) S176x1024.size rfl (off59_eq c)
    k0_pay25 (by pay_tac k0_pay25)

theorem exec_part22 (v2 v127 v135 v341 v484 : BitVec 32) (v693 : FVec F S176x1024 .bf16)
    (Q : (Σ' (_ : BitVec 32) (_ : BitVec 32), BitVec 32) → sProp 𝕄) (h : ∀ a b d, St22 m K c ⊢ Q ⟨a, b, d⟩) :
    St21 m K c v693 ⊢ wpc c (k0_part22 xM hxM oM hoM sM hsM rM hrM cc0_scratch2 cc0_scratch3 c v2 v127 v135 v341 v484 v693) Q := by
  rw [k0_part22_eq_skeleton]
  refine sep_and.trans (pure_elim_right fun hv => ?_)
  refine cut_round_tail m 1 1 (jS2 1 c) rfl rfl (off59_eq c) (snd (Pn (X m) 1 c 2))
    (fun jj => (show k0_pay26 v693 jj = v693 jj by simp only [k0_pay26, shapeCast_same]).trans (hv jj)) ?_
  refine cut_send m 1 6 (dev23_eq c) rfl (off62_eq c) rfl (src6 1 c) (slot6 1 c) rfl ?_
  refine cut_wait m 2 2 (slab_credit 2 2 _) ?_
  refine cut_add m 2 2 (jS2_lt 2 c) 0 (nxA_at c 9 2 jS2 0) rfl rfl rfl (off63_eq c) (off64_eq c) (by pay_tac k0_pay27) ?_
  exact (h _ _ _).trans (le_wp_ret _ _ _ _ _)

theorem exec_part23 (v2 v127 v142 v286 v722 c0 : BitVec 32)
    (Q : BitVec 32 → sProp 𝕄) (h : ∀ a, St23 m K c ⊢ Q a) :
    St22 m K c ⊢ wpc c (k0_part23 xM hxM oM hoM sM hsM rM hrM cc0_scratch2 cc0_scratch3 c v2 v127 v142 v286 v722 c0) Q := by
  rw [k0_part23_eq_skeleton]
  refine cut_wait m 2 4 (slab_credit 2 4 _) ?_
  refine cut_add m 2 4 (jS2_lt 2 c) 1 (nxA_at c 10 2 jS2 1) rfl rfl rfl (off63_eq c) (off65_eq c) (by pay_tac k0_pay28) ?_
  refine cut_round m 2 1 (jS2_lt 2 c) rfl 2 (nxA_at c 11 2 jS2 2) rfl (off63_eq c) (by pay_tac k0_pay29) ?_
  refine cut_send m 2 6 (dev24_eq c) rfl (off66_eq c) rfl (src6 2 c) (slot6 2 c) rfl ?_
  exact (h _).trans (le_wp_ret _ _ _ _ _)

theorem exec_part24 (v36 v51 v56 v319 v524 : BitVec 32)
    (Q : PUnit → sProp 𝕄) (h : St24 m K c ⊢ Q ⟨⟩) :
    St23 m K c ⊢ wpc c (k0_part24 xM hxM oM hoM sM hsM rM hrM cc0_scratch2 cc0_scratch3 c v36 v51 v56 v319 v524) Q := by
  rw [k0_part24_eq_skeleton]
  refine cut_wait m 0 3 (slab_credit 0 3 _) ?_
  refine cut_add m 0 3 (jK2_lt 0 c) 0 (nxA_at c 11 0 jK2 0) rfl rfl rfl (off67_eq c) (off68_eq c) (by pay_tac k0_pay30) ?_
  refine cut_wait m 0 5 (slab_credit 0 5 _) ?_
  refine cut_add m 0 5 (jK2_lt 0 c) 1 (nxA_at c 12 0 jK2 1) rfl rfl rfl (off67_eq c) (off69_eq c) (by pay_tac k0_pay31) ?_
  exact h.trans (le_wp_ret _ _ _ _ _)

theorem exec_part25 (v80 v95 v100 v124 v352 v564 : BitVec 32)
    (Q : PUnit → sProp 𝕄) (h : St25 m K c ⊢ Q ⟨⟩) :
    St24 m K c ⊢ wpc c (k0_part25 xM hxM oM hoM sM hsM rM hrM cc0_scratch2 cc0_scratch3 c v80 v95 v100 v124 v352 v564) Q := by
  rw [k0_part25_eq_skeleton]
  refine cut_wait m 1 3 (slab_credit 1 3 _) ?_
  refine cut_add m 1 3 (jK2_lt 1 c) 0 (nxA_at c 13 1 jK2 0) rfl rfl rfl (off70_eq c) (off71_eq c) (by pay_tac k0_pay32) ?_
  refine cut_wait m 1 5 (slab_credit 1 5 _) ?_
  refine cut_add m 1 5 (jK2_lt 1 c) 1 (nxA_at c 14 1 jK2 1) rfl rfl rfl (off70_eq c) (off72_eq c) (by pay_tac k0_pay33) ?_
  refine cut_wait m 2 3 (slab_credit 2 3 _) ?_
  exact h.trans (le_wp_ret _ _ _ _ _)

theorem exec_part26 (v36 v124 v139 v144 v604 v651 : BitVec 32)
    (Q : FVec F S176x1024 .f32 → sProp 𝕄) (h : ∀ v852, Mid m K c v852 ⊢ Q v852) :
    St25 m K c ⊢ wpc c (k0_part26 xM hxM oM hoM sM hsM rM hrM cc0_scratch2 cc0_scratch3 c v36 v124 v139 v144 v604 v651) Q := by
  have e : cutAt m K c 17 21 17 8 = cutState m K c (nMid c) 21 waitedMid ownMid := by
    unfold cutAt cutState
    rw [Xlev_nx26 (X m) c, w26_eq, own23_eq]
  rw [k0_part26_eq_skeleton]
  refine cut_add m 2 3 (jK2_lt 2 c) 0 (nxA_at c 15 2 jK2 0) rfl rfl rfl (off73_eq c) (off74_eq c) (by pay_tac k0_pay34) ?_
  refine cut_wait m 2 5 (slab_credit 2 5 _) ?_
  refine cut_add m 2 5 (jK2_lt 2 c) 1 (nxA_at c 16 2 jK2 1) rfl rfl rfl (off73_eq c) (off75_eq c) (by pay_tac k0_pay35) ?_
  refine cut_wait m 0 6 (slab_credit 0 6 _) ?_
  refine cut_xload m (.trans (.trans (Entails.of_eq e) ?_) ((h _).trans (le_wp_ret _ _ _ _ _)))
  unfold Mid
  iintro H
  iframe
  ipureintro
  intro jj
  rw [← Xlev_nx26 (X m) c]
  simp only [k0_pay36, shapeCast_same]
  rfl

end Parts

end Cert.KernelIdeal.RsAg

end
-- ==== Proof.KI.Cut40.lean ====
import proofs.«901015_g7700000000001016_dist_rs_then_ag_i_m4096_n1024_v7x_i8_f32_1_alg».proof.Proof.KI.Mid

noncomputable section

namespace Cert.KernelIdeal.RsAg

open Cert.KernelIdeal Cert.KernelIdeal.Gen Cert.RsAg

open Idealize.ShloMosaic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def agState (K : CellIx → ℕ) (c : Dev nD) (nx : Fin 3 → Nat → Nat) (ns : Nat) (waited : Finset (Fin 3 × Fin 14))
    (done : Fin 3 → Nat → Prop) [∀ p j, Decidable (done p j)] (f₀ : FVec F W .f32)
    (raw : Finset (Fin 3)) (hold : Finset (Fin 3 × Fin 8 × Fin 5)) (slots lent : Finset (Fin 3 × Fin 14)) : sProp 𝕄 :=
  iprop(ghostAt m K c ns waited
    ∗ (xL c ↦{fullShare} Xlev (X m) c nx)
    ∗ (oL c ↦{fullShare} OutAt (X m) c done f₀)
    ∗ (bigSep raw fun p => iprop(∃ f, stgRows (F := F) c p (oK2 p c) fullShare f))
    ∗ (bigSep hold fun t => stgRows c t.1 (roleRow t.1 t.2.1 c) (shOf t.2.2) (Stg (X m) t.1 (roleJ t.1 t.2.1 c)))
    ∗ (bigSep slots fun pi => rsrRows c pi.1 (slot pi.1 c pi.2)
        (reRow (srcRow pi.1 c pi.2) (slot pi.1 c pi.2) (sent m pi.1 (peer pi.1 (stp pi.2) c) pi.2)))
    ∗ (bigSep lent fun pi => stgRows (peer pi.1 (stp pi.2) c) pi.1 (srcRow pi.1 c pi.2) fullShare
        (sent m pi.1 (peer pi.1 (stp pi.2) c) pi.2)))

def Cut40 (K : CellIx → ℕ) (c : Dev nD) (v1271 : FVec F S176x1024 .f32) : sProp 𝕄 :=
  iprop((∃ f₀, agState m K c (nFin c) 42 waited40 (done40 c) f₀ ∅ hold40 slotsAll ∅)
    ∗ ⌜∀ j, v1271 j = rcv (Stg (X m) 1 (jLb 1 c))
        ((Rect.unit (s := S4096x1024) (k0_off84 c) S176x1024.size (k0_off84_inb c)).emb j)⌝)

end Cert.KernelIdeal.RsAg

end
-- ==== Proof.KI.AgLocal.lean ====
import proofs.«901015_g7700000000001016_dist_rs_then_ag_i_m4096_n1024_v7x_i8_f32_1_alg».proof.Proof.KI.Cut40
import proofs.«901015_g7700000000001016_dist_rs_then_ag_i_m4096_n1024_v7x_i8_f32_1_alg».proof.Proof.KI.Slabs
import proofs.«901015_g7700000000001016_dist_rs_then_ag_i_m4096_n1024_v7x_i8_f32_1_alg».proof.Proof.KI.Tables
import proofs.«901015_g7700000000001016_dist_rs_then_ag_i_m4096_n1024_v7x_i8_f32_1_alg».proof.Proof.KI.Basics
import proofs.«901015_g7700000000001016_dist_rs_then_ag_i_m4096_n1024_v7x_i8_f32_1_alg».proof.Proof.Gen.KernelIdeal.Skeleton

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def stA (K : CellIx → ℕ) (c : Dev nD) (nx : Fin 3 → Nat → Nat) (ns : Nat) (waited : Finset (Fin 3 × Fin 14))
    (D : Finset (Fin 3 × Fin 8)) (raw : Finset (Fin 3)) (hold : Finset (Fin 3 × Fin 8 × Fin 5))
    (slots lent : Finset (Fin 3 × Fin 14)) : sProp 𝕄 :=
  iprop(∃ f₀, agState m K c nx ns waited (doneOf D c) f₀ raw hold slots lent)

def St27 (K : CellIx → ℕ) (c : Dev nD) : sProp 𝕄 :=
  stA m K c (n27 c) 23 waitedMid ∅ {1, 2} {(0, 0, 4)} waitedMid l27

def St28 (K : CellIx → ℕ) (c : Dev nD) (v915 : FVec F S176x1024 .bf16) : sProp 𝕄 :=
  iprop(stA m K c (n28 c) 24 w28 d28 {1, 2} ∅ w28 l28
    ∗ ⌜∀ j, v915 j = snd (Xlev (X m) c (n28 c))
        ((Rect.unit (s := S4096x1024) (k0_off70 c) S176x1024.size (k0_off70_inb c)).emb j)⌝)

def St29 (K : CellIx → ℕ) (c : Dev nD) : sProp 𝕄 :=
  stA m K c (n28 c) 26 w28 d28 {2} {(1, 0, 4)} w28 l29

def St30 (K : CellIx → ℕ) (c : Dev nD) : sProp 𝕄 :=
  stA m K c (n30 c) 27 w30 d30 ∅ {(2, 0, 0)} w30 l30

def St31 (K : CellIx → ℕ) (c : Dev nD) : sProp 𝕄 :=
  stA m K c (n30 c) 30 w30 d31 ∅ ∅ w30 l31

def St32 (K : CellIx → ℕ) (c : Dev nD) : sProp 𝕄 :=
  stA m K c (n30 c) 32 w32 d32 ∅ {(0, 1, 4)} w30 l32

def St33 (K : CellIx → ℕ) (c : Dev nD) : sProp 𝕄 :=
  stA m K c (n30 c) 34 w33 d33 ∅ {(0, 1, 4), (1, 1, 4)} w30 l33

def St34 (K : CellIx → ℕ) (c : Dev nD) : sProp 𝕄 :=
  stA m K c (n30 c) 36 w34 d34 ∅ h34 w30 l34

def St35 (K : CellIx → ℕ) (c : Dev nD) : sProp 𝕄 :=
  stA m K c (n30 c) 37 w35 d34 ∅ h35 w30 l35

def St36 (K : CellIx → ℕ) (c : Dev nD) : sProp 𝕄 :=
  stA m K c (n30 c) 38 w36 d36 ∅ h36 w30 l36

def St37 (K : CellIx → ℕ) (c : Dev nD) (v1180 : FVec F S352x1024 .f32) : sProp 𝕄 :=
  iprop(stA m K c (n30 c) 40 w37 d36 ∅ h37 w30 l37
    ∗ ⌜∀ j, v1180 j = Out (X m) c
        ((Rect.unit (s := S4096x1024) (k0_off80 c) S352x1024.size (k0_off80_inb c)).emb j)⌝)

def St38 (K : CellIx → ℕ) (c : Dev nD) : sProp 𝕄 :=
  stA m K c (n30 c) 41 w38 d38 ∅ h38 w30 l38

def St39 (K : CellIx → ℕ) (c : Dev nD) (v1240 : FVec F S176x1024 .f32) : sProp 𝕄 :=
  iprop(stA m K c (n30 c) 42 w39 d39 ∅ h39 w30 ∅
    ∗ ⌜∀ j, v1240 j = Out (X m) c
        ((Rect.unit (s := S4096x1024) (k0_off82 c) S176x1024.size (k0_off82_inb c)).emb j)⌝)

abbrev ax : Fin S4096x1024.rank := ⟨0, by decide⟩

theorem stgRows_def (c : Dev nD) (p : Fin 3) (o : Nat) (q : PosShare TreeShare) (f : FVec F W .bf16) :
    (stgRows c p o q f : sProp 𝕄) = (sL c ↦[rowsSet (S := S4096x1024) ax o (eRows p)]{q} f) := rfl

theorem mem_slabRows {p : Fin 3} {j : Nat} {i : S4096x1024.Idx} :
    i ∈ rowsSet (S := S4096x1024) ax (slab p j) (eRows p) ↔ inSlab p j (i 0).val := mem_rowsSet

theorem unit_set_rows (off sz : Fin 2 → Nat) (inb : ∀ a, off a + sz a ≤ S4096x1024.size a) (o n : Nat)
    (hoff : off = ![o, 0]) (hsz : sz = ![n, 1024]) :
    (Rect.unit (s := S4096x1024) off sz inb).set = rowsSet (S := S4096x1024) ax o n := by
  subst hoff hsz
  exact set_unit_rows _ _ _ rfl rfl

section SlabRect

variable (c : Fin 8) (p : Fin 3) (r : Fin 8) (off sz : Fin 2 → Nat) (inb : ∀ a, off a + sz a ≤ S4096x1024.size a)
  (hoff : off = ![roleRow p r c, 0]) (hsz : sz = ![eRows p, 1024])
include hoff hsz

/-- The rectangle of the slab in role `r` of part `p` is exactly that slab's rows. -/
theorem mem_slabRect {i : S4096x1024.Idx} :
    i ∈ (Rect.unit (s := S4096x1024) off sz inb).set ↔ inSlab p (roleJ p r c) (i 0).val := by
  rw [unit_set_rows off sz inb _ _ hoff hsz, roleRow_eq]; exact mem_slabRows

theorem emb_inSlab (j : (Rect.unit (s := S4096x1024) off sz inb).shape.Idx) :
    inSlab p (roleJ p r c) (((Rect.unit (s := S4096x1024) off sz inb).emb j) 0).val :=
  (mem_slabRect c p r off sz inb hoff hsz).mp ((Rect.unit (s := S4096x1024) off sz inb).toLoadRect.idx_mem j)

end SlabRect

/-- Storing the result's own values on a rectangle: written on `D` becomes written on `D'`, when `D'` is `D` and the rectangle. -/
theorem out_store (c : Fin 8) (D D' : Fin 3 → Nat → Prop) [∀ p j, Decidable (D p j)] [∀ p j, Decidable (D' p j)] (f₀ : FVec F W .f32)
    (R : Rect S4096x1024) (w : R.shape.Idx → Elt F .f32) (hw : ∀ j, w j = Out (X m) c (R.emb j))
    (h : ∀ i : W.Idx, D' (partOf (i 0).val) (slabOf (i 0).val) ↔ D (partOf (i 0).val) (slabOf (i 0).val) ∨ i ∈ R.set) :
    ((View.whole cc0_stg1_0 : View sig .tc _ _ _).slice R).write (Elt F) (OutAt (X m) c D f₀) w Finset.univ = OutAt (X m) c D' f₀ := by
  refine write_whole_eq (b := cc0_stg1_0) R _ _ w (fun j => ?_) fun i hi => ?_
  · rw [hw j]; exact (if_pos ((h _).mpr (.inr (R.toLoadRect.idx_mem j)))).symm
  · exact if_congr ((h i).trans (or_iff_left hi)) rfl rfl

theorem out_store_slab (c : Fin 8) (D : Finset (Fin 3 × Fin 8)) (f₀ : FVec F W .f32) (p : Fin 3) (r : Fin 8)
    (off sz : Fin 2 → Nat) (inb : ∀ a, off a + sz a ≤ S4096x1024.size a)
    (hoff : off = ![roleRow p r c, 0]) (hsz : sz = ![eRows p, 1024])
    (w : (Rect.unit (s := S4096x1024) off sz inb).shape.Idx → Elt F .f32)
    (hw : ∀ j, w j = Out (X m) c ((Rect.unit (s := S4096x1024) off sz inb).emb j)) :
    ((View.whole cc0_stg1_0 : View sig .tc _ _ _).slice (Rect.unit (s := S4096x1024) off sz inb)).write (Elt F)
        (OutAt (X m) c (doneOf D c) f₀) w Finset.univ
      = OutAt (X m) c (doneOf (insert (p, r) D) c) f₀ :=
  out_store m c _ _ f₀ _ w hw fun i => by
    rw [doneOf_insert, part_slab_iff (roleJ_lt p r c), mem_slabRect c p r off sz inb hoff hsz]

theorem out_of_stage (c : Fin 8) (p : Fin 3) (r : Fin 8) (hr : roleJ p r c ≠ jK2 p c)
    (off sz : Fin 2 → Nat) (inb : ∀ a, off a + sz a ≤ S4096x1024.size a)
    (hoff : off = ![roleRow p r c, 0]) (hsz : sz = ![eRows p, 1024]) (j : (Rect.unit (s := S4096x1024) off sz inb).shape.Idx) :
    rcv (Stg (X m) p (roleJ p r c)) ((Rect.unit (s := S4096x1024) off sz inb).emb j)
      = Out (X m) c ((Rect.unit (s := S4096x1024) off sz inb).emb j) :=
  Out_on_other (X m) c _ (roleJ_lt p r c) hr (emb_inSlab c p r off sz inb hoff hsz j)

theorem stage_of_own (c : Fin 8) (p : Fin 3) (i : W.Idx) : snd (P3 (X m) p c) i = Stg (X m) p (jK2 p c) i := by
  unfold Stg; rw [owner_jK2]

/-- Read `a` on `r₁`, read `b` on `r₂` to no use, store a payload of the first reading to `b` on `r₂`: `b` then holds any `G` the stored contents agree with on the rows held. -/
theorem wp_lls (c : Dev nD) {s₁ s₂ : Shape} {e₁ e₂ : EltTy} (a : Memref sig .tc .vmem s₁ e₁) (b : Memref sig .tc .vmem s₂ e₂)
    {r₁ : LoadRect s₁} {r₂ : Rect s₂} {hl₁ hl₂ hx hm S₁ S₂ q f₁ f₂ G}
    (pay : (r₁.shape.Idx → Elt F e₁) → r₂.shape.Idx → Elt F e₂) (h₁ : a.view.setOn r₁.set ⊆ S₁)
    (hG : ∀ i ∈ S₂, (b.access r₂).write (Elt F) f₂ (pay (a.view.readAt (Elt F) r₁ f₁)) Finset.univ i = G i)
    (h₂ : b.view.setOn r₂.toLoadRect.set ⊆ S₂ := by exact Finset.subset_univ _)
    (h₃ : (b.access r₂).setOn Finset.univ ⊆ S₂ := by exact Finset.subset_univ _)
    {α : Type} {Q : α → sProp 𝕄} {k : PUnit → Prog (TpuEff nD τ sig (Elt F) Λ₀ .tc) α} :
    iprop((a.view.loc (Dev.tc c : Thread nD τ) ↦[S₁]{q} f₁) ∗ (b.view.loc (Dev.tc c : Thread nD τ) ↦[S₂]{fullShare} f₂))
      ⊢ iprop((((a.view.loc (Dev.tc c : Thread nD τ) ↦[S₁]{q} f₁) ∗ (b.view.loc (Dev.tc c : Thread nD τ) ↦[S₂]{fullShare} G))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load a r₁ hl₁) fun v => .op (.load b r₂.toLoadRect hl₂) fun _ => .op (.store b r₂ (pay v) Finset.univ hx hm) k) Q) := by
  iintro ⟨H₁, H₂⟩ Hk
  iapply (wp_load Variants.none (Dev.tc c : Thread nD τ) none Set.univ (m := a) h₁) $$ H₁
  iintro H₁
  iapply (wp_load Variants.none (Dev.tc c : Thread nD τ) none Set.univ (m := b) h₂) $$ H₂
  iintro H₂
  iapply (wp_store Variants.none (Dev.tc c : Thread nD τ) none Set.univ (m := b) h₃) $$ H₂
  iintro H₂
  iapply Hk
  ihave H₂ := (Entails.of_eq (pointsTo_congr hG)) $$ H₂
  iframe

section ReadOut

variable (c : Dev nD) (p : Fin 3) (r : Fin 8) (off sz : Fin 2 → Nat) (inb : ∀ a, off a + sz a ≤ S4096x1024.size a)

theorem stage_setOn (hoff : off = ![roleRow p r c, 0]) (hsz : sz = ![eRows p, 1024]) :
    sM.view.setOn (Rect.unit (s := S4096x1024) off sz inb).toLoadRect.set
      ⊆ rowsSet (S := S4096x1024) ax (roleRow p r c) (eRows p) :=
  ((setOn_whole cc0_scratch0 _).trans (unit_set_rows off sz inb _ _ hoff hsz)).le

theorem wp_settle (hr : r ≠ 0) (q : PosShare TreeShare) (D : Finset (Fin 3 × Fin 8)) (f₀ : FVec F W .f32)
    (hoff : off = ![roleRow p r c, 0]) (hsz : sz = ![eRows p, 1024])
    {hl2 : sM.view.LoadsAt (Rect.unit (s := S4096x1024) off sz inb).toLoadRect}
    {hl1 : oM.view.LoadsAt (Rect.unit (s := S4096x1024) off sz inb).toLoadRect}
    {hx : (oM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .bf16) → (Rect.unit (s := S4096x1024) off sz inb).shape.Idx → Elt F .f32)
    (hpay : ∀ v j, pay v j = FloatOps.extf .f32 bf16_lt_f32 (v j))
    {α : Type} {Q : α → sProp 𝕄} {k : PUnit → Prog (TpuEff nD τ sig (Elt F) Λ₀ .tc) α} :
    iprop(stgRows c p (roleRow p r c) q (Stg (X m) p (roleJ p r c)) ∗ (oL c ↦{fullShare} OutAt (X m) c (doneOf D c) f₀))
      ⊢ iprop(((stgRows c p (roleRow p r c) q (Stg (X m) p (roleJ p r c))
              ∗ (oL c ↦{fullShare} OutAt (X m) c (doneOf (insert (p, r) D) c) f₀))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load sM (Rect.unit (s := S4096x1024) off sz inb).toLoadRect hl2) fun v =>
                .op (.load oM (Rect.unit (s := S4096x1024) off sz inb).toLoadRect hl1) fun _ =>
                .op (.store oM (Rect.unit (s := S4096x1024) off sz inb) (pay v) Finset.univ hx hm) k) Q) :=
  wp_lls c sM oM pay (stage_setOn c p r off sz inb hoff hsz) fun i _ => by
    exact congrFun (out_store_slab m c D f₀ p r off sz inb hoff hsz _ fun j =>
      (hpay (sM.view.readAt (Elt F) _ (Stg (X m) p (roleJ p r c))) j).trans (out_of_stage m c p r (roleJ_ne_jK2 p r c hr) off sz inb hoff hsz j)) i

end ReadOut

section Kept

variable (c : Dev nD) (p : Fin 3) (off sz : Fin 2 → Nat) (inb : ∀ a, off a + sz a ≤ S4096x1024.size a)

theorem Xlev_on_kept (n : Fin 3 → Nat → Nat) (hn : n p (jK2 p c) = 3)
    (hoff : off = ![roleRow p 0 c, 0]) (hsz : sz = ![eRows p, 1024]) (j : (Rect.unit (s := S4096x1024) off sz inb).shape.Idx) :
    Xlev (X m) c n ((Rect.unit (s := S4096x1024) off sz inb).emb j) = P3 (X m) p c ((Rect.unit (s := S4096x1024) off sz inb).emb j) := by
  obtain ⟨hp, hs⟩ := (part_slab_iff (jK2_lt p c) _).mpr (emb_inSlab c p 0 off sz inb hoff hsz j)
  show Pn (X m) (partOf _) c (n (partOf _) (slabOf _)) _ = _
  rw [hp, hs, hn]
  rfl

theorem wp_keep (n : Fin 3 → Nat → Nat) (hn : n p (jK2 p c) = 3) (D : Finset (Fin 3 × Fin 8)) (f₀ : FVec F W .f32)
    (hoff : off = ![roleRow p 0 c, 0]) (hsz : sz = ![eRows p, 1024])
    {hl0 : xM.view.LoadsAt (Rect.unit (s := S4096x1024) off sz inb).toLoadRect}
    {hl1 : oM.view.LoadsAt (Rect.unit (s := S4096x1024) off sz inb).toLoadRect}
    {hx : (oM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .f32) → (Rect.unit (s := S4096x1024) off sz inb).shape.Idx → Elt F .f32)
    (hpay : ∀ v j, pay v j = v j)
    {α : Type} {Q : α → sProp 𝕄} {k : PUnit → Prog (TpuEff nD τ sig (Elt F) Λ₀ .tc) α} :
    iprop((xL c ↦{fullShare} Xlev (X m) c n) ∗ (oL c ↦{fullShare} OutAt (X m) c (doneOf D c) f₀))
      ⊢ iprop((((xL c ↦{fullShare} Xlev (X m) c n) ∗ (oL c ↦{fullShare} OutAt (X m) c (doneOf (insert (p, 0) D) c) f₀))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load xM (Rect.unit (s := S4096x1024) off sz inb).toLoadRect hl0) fun v =>
                .op (.load oM (Rect.unit (s := S4096x1024) off sz inb).toLoadRect hl1) fun _ =>
                .op (.store oM (Rect.unit (s := S4096x1024) off sz inb) (pay v) Finset.univ hx hm) k) Q) :=
  wp_lls c xM oM pay (Finset.subset_univ _) fun i _ => by
    exact congrFun (out_store_slab m c D f₀ p 0 off sz inb hoff hsz _ fun j =>
      (hpay (xM.view.readAt (Elt F) _ (Xlev (X m) c n)) j).trans
        ((Xlev_on_kept m c p off sz inb n hn hoff hsz j).trans (Out_on_own (X m) c _ (emb_inSlab c p 0 off sz inb hoff hsz j)))) i

theorem stage_store_setOn (r : Fin 8) (hoff : off = ![roleRow p r c, 0]) (hsz : sz = ![eRows p, 1024]) :
    (sM.access (Rect.unit (s := S4096x1024) off sz inb)).setOn Finset.univ
      ⊆ rowsSet (S := S4096x1024) ax (roleRow p r c) (eRows p) :=
  ((View.set_slice_whole cc0_scratch0 _).trans (unit_set_rows off sz inb _ _ hoff hsz)).le

theorem wp_roundKept (n : Fin 3 → Nat → Nat) (hn : n p (jK2 p c) = 3) (f : FVec F W .bf16)
    (hoff : off = ![roleRow p 0 c, 0]) (hsz : sz = ![eRows p, 1024])
    {hl0 : xM.view.LoadsAt (Rect.unit (s := S4096x1024) off sz inb).toLoadRect}
    {hl2 : sM.view.LoadsAt (Rect.unit (s := S4096x1024) off sz inb).toLoadRect}
    {hx : (sM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .f32) → (Rect.unit (s := S4096x1024) off sz inb).shape.Idx → Elt F .bf16)
    (hpay : ∀ v j, pay v j = FloatOps.truncf .bf16 bf16_lt_f32 (v j))
    {α : Type} {Q : α → sProp 𝕄} {k : PUnit → Prog (TpuEff nD τ sig (Elt F) Λ₀ .tc) α} :
    iprop((xL c ↦{fullShare} Xlev (X m) c n) ∗ stgRows c p (roleRow p 0 c) fullShare f)
      ⊢ iprop((((xL c ↦{fullShare} Xlev (X m) c n) ∗ stgRows c p (roleRow p 0 c) fullShare (Stg (X m) p (roleJ p 0 c)))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load xM (Rect.unit (s := S4096x1024) off sz inb).toLoadRect hl0) fun v =>
                .op (.load sM (Rect.unit (s := S4096x1024) off sz inb).toLoadRect hl2) fun _ =>
                .op (.store sM (Rect.unit (s := S4096x1024) off sz inb) (pay v) Finset.univ hx hm) k) Q) :=
  wp_lls c xM sM pay (Finset.subset_univ _) (fun i hi => by
    rw [← unit_set_rows off sz inb _ _ hoff hsz] at hi
    obtain ⟨j, rfl⟩ := (Rect.unit (s := S4096x1024) off sz inb).toLoadRect.exists_idx_of_mem hi
    exact (write_whole_emb cc0_scratch0 _ _ _ j).trans ((hpay _ j).trans
      ((congrArg (FloatOps.truncf .bf16 bf16_lt_f32) (Xlev_on_kept m c p off sz inb n hn hoff hsz j)).trans (stage_of_own m c p _))))
    (stage_setOn c p 0 off sz inb hoff hsz) (stage_store_setOn c p off sz inb 0 hoff hsz)

end Kept

theorem recvPay_rs' (c : Fin 8) (p : Fin 3) (i : Fin 14) (hi : i.val < 7) :
    recvPay m c p i = iprop(rsrRows c p (slot p c i) (reRow (srcRow p c i) (slot p c i) (sent m p (peer p (stp i) c) i))
      ∗ stgRows (peer p (stp i) c) p (srcRow p c i) fullShare (sent m p (peer p (stp i) c) i)) := by
  unfold recvPay; rw [if_pos hi]

section LastAdd

theorem rsr_setOn (o n : Nat) (offr sz : Fin 2 → Nat) (inbr : ∀ a, offr a + sz a ≤ S3584x1024.size a)
    (hoffr : offr = ![o, 0]) (hsz : sz = ![n, 1024]) :
    rM.view.setOn (Rect.unit (s := S3584x1024) offr sz inbr).toLoadRect.set
      ⊆ rowsSet (S := S3584x1024) ⟨0, by decide⟩ o n := by
  subst hoffr hsz
  exact ((setOn_whole cc0_scratch1 _).trans (rows3584_set inbr)).le

variable (c : Dev nD) (p : Fin 3) (off offr sz : Fin 2 → Nat)
  (inb : ∀ a, off a + sz a ≤ S4096x1024.size a) (inbr : ∀ a, offr a + sz a ≤ S3584x1024.size a)

theorem slot6_read (hoff : off = ![roleRow p 0 c, 0]) (hoffr : offr = ![slot p c 6, 0]) (hsz : sz = ![eRows p, 1024])
    (j : (Rect.unit (s := S3584x1024) offr sz inbr).toLoadRect.shape.Idx) :
    rM.view.readAt (Elt F) (Rect.unit (s := S3584x1024) offr sz inbr).toLoadRect
        (reRow (srcRow p c 6) (slot p c 6) (sent m p (peer p (stp 6) c) 6)) j
      = snd (P2 (X m) p (peer p 2 c)) ((Rect.unit (s := S4096x1024) off sz inb).emb j) := by
  subst hoff hoffr hsz
  exact reRow_emb (sent m p (peer p (stp 6) c) 6) inbr inb j

theorem wp_addLast (n : Fin 3 → Nat → Nat) (hn : n p (jK2 p c) = 2)
    (hoff : off = ![roleRow p 0 c, 0]) (hoffr : offr = ![slot p c 6, 0]) (hsz : sz = ![eRows p, 1024])
    {hlr : rM.view.LoadsAt (Rect.unit (s := S3584x1024) offr sz inbr).toLoadRect}
    {hl0 : xM.view.LoadsAt (Rect.unit (s := S4096x1024) off sz inb).toLoadRect}
    {hx : (xM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (vx : (Rect.unit (s := S4096x1024) off sz inb).shape.Idx → Elt F .f32)
    (hvx : ∀ j, vx j = Xlev (X m) c n ((Rect.unit (s := S4096x1024) off sz inb).emb j))
    (pay : ((Rect.unit (s := S3584x1024) offr sz inbr).toLoadRect.shape.Idx → Elt F .bf16) → (Rect.unit (s := S4096x1024) off sz inb).shape.Idx → Elt F .f32)
    (hpay : ∀ v j, pay v j = FloatOps.addf (vx j) (FloatOps.extf .f32 bf16_lt_f32 (v j)))
    {α : Type} {Q : α → sProp 𝕄} {k : PUnit → Prog (TpuEff nD τ sig (Elt F) Λ₀ .tc) α} :
    iprop(rsrRows c p (slot p c 6) (reRow (srcRow p c 6) (slot p c 6) (sent m p (peer p (stp 6) c) 6)) ∗ (xL c ↦{fullShare} Xlev (X m) c n))
      ⊢ iprop(((rsrRows c p (slot p c 6) (reRow (srcRow p c 6) (slot p c 6) (sent m p (peer p (stp 6) c) 6))
              ∗ (xL c ↦{fullShare} Xlev (X m) c (bump n p (jK2 p c))))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load rM (Rect.unit (s := S3584x1024) offr sz inbr).toLoadRect hlr) fun v =>
                .op (.load xM (Rect.unit (s := S4096x1024) off sz inb).toLoadRect hl0) fun _ =>
                .op (.store xM (Rect.unit (s := S4096x1024) off sz inb) (pay v) Finset.univ hx hm) k) Q) :=
  wp_lls c rM xM pay (rsr_setOn _ _ offr sz inbr hoffr hsz) fun i _ => by
    refine congrFun (write_whole_eq cc0_stg0_0 _ _ _ _ (fun j => ?_) fun i hi =>
      Xlev_bump_out (X m) c n i fun h => hi ((mem_slabRect c p 0 off sz inb hoff hsz).mpr h)) i
    rw [hpay, hvx j, slot6_read m c p off offr sz inb inbr hoff hoffr hsz j]
    exact (Xlev_bump_in (X m) c n _ (emb_inSlab c p 0 off sz inb hoff hsz j) (jK2_lt p c) hn (by decide)).symm

end LastAdd

theorem OutAt_doneOf_empty (c : Fin 8) (f₀ : FVec F W .f32) : OutAt (X m) c (doneOf ∅ c) f₀ = f₀ := by
  funext i
  unfold OutAt
  rw [if_neg]
  rintro ⟨r, hr, -⟩
  exact absurd hr (Finset.notMem_empty _)

theorem Mid_open (K : CellIx → ℕ) (c : Dev nD) (v852 : FVec F S176x1024 .f32) :
    Mid m K c v852 ⊢ iprop(stA m K c (nMid c) 21 waitedMid ∅ {0, 1, 2} ∅ waitedMid waitedMid
      ∗ ⌜∀ j, v852 j = Xlev (X m) c (nMid c)
          ((Rect.unit (s := S4096x1024) (k0_off67 c) S176x1024.size (k0_off67_inb c)).emb j)⌝) := by
  unfold Mid cutState stA agState
  iintro ⟨⟨Hg, Hx, ⟨%f₀, Ho⟩, Hown, -, Hpays⟩, %hv⟩
  isplitl
  swap
  · ipureintro; exact hv
  iexists f₀
  rw [OutAt_doneOf_empty, bigSep_empty]
  ihave Hown := (Entails.of_eq (show (bigSep ownMid fun pr : Fin 3 × Fin 8 =>
        iprop(∃ f, stgRows (F := F) c pr.1 (roleRow pr.1 pr.2 c) fullShare f) : sProp 𝕄)
      = bigSep ({0, 1, 2} : Finset (Fin 3)) fun p => iprop(∃ f, stgRows (F := F) c p (oK2 p c) fullShare f) from by
        rw [ownMid_image, bigSep_image_of_injOn (fun a _ b _ h => (Prod.mk.inj h).1)]; rfl)) $$ Hown
  ihave Hpays := (Entails.of_eq ((bigSep_congr fun pi hpi => recvPay_rs' m c pi.1 pi.2
    ((by decide : ∀ pi ∈ waitedMid, pi.2.val < 7) pi hpi)).trans (bigSep_sep' _ _ _))) $$ Hpays
  icases Hpays with ⟨Hr, Hl⟩
  iframe
  iempintro

section Block

theorem block_rows (p : Fin 3) (c : Fin 8) :
    rowsSet (S := S4096x1024) ax (oS1 p c) (2 * eRows p)
      = rowsSet (S := S4096x1024) ax (oS1a p c) (eRows p) ∪ rowsSet (S := S4096x1024) ax (oS1b p c) (eRows p) := by
  rw [Nat.two_mul, rowsSet_add]
  rcases s1_cases p c with ⟨ha, hb⟩ | ⟨hb, ha⟩
  · rw [ha, hb]
  · rw [ha, hb, Finset.union_comm]

theorem block_disjoint (p : Fin 3) (c : Fin 8) :
    Disjoint (rowsSet (S := S4096x1024) ax (oS1a p c) (eRows p)) (rowsSet (S := S4096x1024) ax (oS1b p c) (eRows p)) := by
  rcases s1_cases p c with ⟨ha, hb⟩ | ⟨hb, ha⟩
  · rw [ha, hb]; exact rowsSet_disjoint (Nat.le_refl _)
  · rw [ha, hb]; exact (rowsSet_disjoint (Nat.le_refl _)).symm

def stgBlock (p : Fin 3) (c : Fin 8) : FVec F W .bf16 :=
  (rowsSet (S := S4096x1024) ax (oS1b p c) (eRows p)).piecewise (Stg (X m) p (jS1b p c)) (Stg (X m) p (jS1a p c))

variable (c : Dev nD) (p : Fin 3) (off sz : Fin 2 → Nat) (inb : ∀ a, off a + sz a ≤ S4096x1024.size a)

theorem block_value (hoff : off = ![oS1 p c, 0]) (hsz : sz = ![2 * eRows p, 1024])
    (j : (Rect.unit (s := S4096x1024) off sz inb).shape.Idx) :
    rcv (stgBlock m p c) ((Rect.unit (s := S4096x1024) off sz inb).emb j)
      = Out (X m) c ((Rect.unit (s := S4096x1024) off sz inb).emb j) := by
  have hm : (Rect.unit (s := S4096x1024) off sz inb).emb j ∈ (Rect.unit (s := S4096x1024) off sz inb).set :=
    (Rect.unit (s := S4096x1024) off sz inb).toLoadRect.idx_mem j
  rw [unit_set_rows off sz inb _ _ hoff hsz, block_rows, Finset.mem_union] at hm
  rw [rcv_apply]
  unfold stgBlock
  by_cases hb : (Rect.unit (s := S4096x1024) off sz inb).emb j ∈ rowsSet (S := S4096x1024) ax (oS1b p c) (eRows p)
  · rw [Finset.piecewise_eq_of_mem _ _ _ hb]
    exact Out_on_other (X m) c _ (jS1b_lt p c) (roleJ_ne_jK2 p 3 c (by decide)) (mem_slabRows.mp hb)
  · rw [Finset.piecewise_eq_of_notMem _ _ _ hb]
    exact Out_on_other (X m) c _ (jS1a_lt p c) (roleJ_ne_jK2 p 2 c (by decide)) (mem_slabRows.mp (hm.resolve_right hb))

theorem wp_blockRead (q : PosShare TreeShare) (hoff : off = ![oS1 p c, 0]) (hsz : sz = ![2 * eRows p, 1024])
    {hl2 : sM.view.LoadsAt (Rect.unit (s := S4096x1024) off sz inb).toLoadRect}
    {α : Type} {Q : α → sProp 𝕄}
    {k : ((Rect.unit (s := S4096x1024) off sz inb).toLoadRect.shape.Idx → Elt F .bf16) → Prog (TpuEff nD τ sig (Elt F) Λ₀ .tc) α} :
    iprop(stgRows c p (oS1a p c) q (Stg (X m) p (jS1a p c)) ∗ stgRows c p (oS1b p c) q (Stg (X m) p (jS1b p c)))
      ⊢ iprop(((stgRows c p (oS1a p c) q (Stg (X m) p (jS1a p c)) ∗ stgRows c p (oS1b p c) q (Stg (X m) p (jS1b p c)))
            -∗ wp frame (wpE (defs₀ (F := F)) Variants.none (Dev.tc c : Thread nD τ) none) Set.univ
                (k (sM.view.readAt (Elt F)
                  (Rect.unit (s := S4096x1024) off sz inb).toLoadRect (stgBlock m p c))) Q)
          -∗ wp frame (wpE (defs₀ (F := F)) Variants.none (Dev.tc c : Thread nD τ) none) Set.univ
              (.op (.load sM (Rect.unit (s := S4096x1024) off sz inb).toLoadRect hl2) k) Q) := by
  unfold stgRows
  iintro ⟨Ha, Hb⟩ Hk
  ihave Hab := (pointsTo_join (ℓ := sL c) (block_disjoint p c)) $$ [Ha Hb]
  · iframe
  iapply (wp_load Variants.none (Dev.tc c : Thread nD τ) none Set.univ (m := sM)
    (Finset.subset_of_eq ((setOn_whole cc0_scratch0 _).trans ((unit_set_rows off sz inb _ _ hoff hsz).trans (block_rows p c))))) $$ Hab
  iintro Hab
  iapply Hk
  ihave Hs := (pointsTo_union (ℓ := sL c) (block_disjoint p c)).1 $$ Hab
  icases Hs with ⟨Ha, Hb⟩
  ihave Ha := (Entails.of_eq (pointsTo_congr (g := Stg (X m) p (jS1a p c)) fun i hi =>
    Finset.piecewise_eq_of_notMem _ _ _ (Finset.disjoint_left.mp (block_disjoint p c) hi))) $$ Ha
  ihave Hb := (Entails.of_eq (pointsTo_congr (g := Stg (X m) p (jS1b p c)) fun i hi => Finset.piecewise_eq_of_mem _ _ _ hi)) $$ Hb
  iframe

theorem out_store_block (D : Finset (Fin 3 × Fin 8)) (f₀ : FVec F W .f32)
    (hoff : off = ![oS1 p c, 0]) (hsz : sz = ![2 * eRows p, 1024])
    (w : (Rect.unit (s := S4096x1024) off sz inb).shape.Idx → Elt F .f32)
    (hw : ∀ j, w j = Out (X m) c ((Rect.unit (s := S4096x1024) off sz inb).emb j)) :
    ((View.whole cc0_stg1_0 : View sig .tc _ _ _).slice (Rect.unit (s := S4096x1024) off sz inb)).write (Elt F)
        (OutAt (X m) c (doneOf D c) f₀) w Finset.univ
      = OutAt (X m) c (doneOf (insert (p, 3) (insert (p, 2) D)) c) f₀ :=
  out_store m c _ _ f₀ _ w hw fun i => by
    rw [doneOf_insert, doneOf_insert, part_slab_iff (roleJ_lt p 2 c), part_slab_iff (roleJ_lt p 3 c), or_assoc,
      unit_set_rows off sz inb _ _ hoff hsz, block_rows, Finset.mem_union]
    exact or_congr_right (or_congr mem_slabRows.symm mem_slabRows.symm)

end Block

end Cert.KernelIdeal.RsAg

end
-- ==== Proof.KI.Parts27.lean ====
import proofs.«901015_g7700000000001016_dist_rs_then_ag_i_m4096_n1024_v7x_i8_f32_1_alg».proof.Proof.KI.AgLocal
import proofs.«901015_g7700000000001016_dist_rs_then_ag_i_m4096_n1024_v7x_i8_f32_1_alg».proof.Proof.KI.Steps

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ UU ℕ

variable (m : (ℓ : Loc nD τ sig) → Buf (Elt F) ℓ)

theorem recvPay_ag (c : Fin 8) (p : Fin 3) (i : Fin 14) (hi : 7 ≤ i.val) :
    recvPay m c p i = stgRows c p (landRow p c i) fullShare (Stg (X m) p (landJ p c i)) := by
  unfold recvPay; rw [if_neg (by omega)]

theorem stgRows_halves (c : Dev nD) (p : Fin 3) (o : Nat) (f : FVec F W .bf16) :
    (stgRows c p o fullShare f : sProp 𝕄) ⊣⊢ iprop(stgRows c p o shL f ∗ stgRows c p o shR f) := by
  unfold stgRows; exact pointsTo_halves

theorem stgRows_thirds (c : Dev nD) (p : Fin 3) (o : Nat) (f : FVec F W .bf16) :
    (stgRows c p o fullShare f : sProp 𝕄) ⊣⊢ iprop(stgRows c p o shL f ∗ stgRows c p o shRL f ∗ stgRows c p o shRR f) := by
  unfold stgRows; exact pointsTo_thirds

-- A step that takes a partner's rows takes them out of the rows in hand.
theorem lent_step (c : Dev nD) (lent : Finset (Fin 3 × Fin 14)) (p : Fin 3) (j : Fin 14) (hj : (p, j) ∈ lent)
    {n : Dev nD} (hn : n = peer p (stp j) c) {G S G' R P : sProp 𝕄}
    (H : iprop(G ∗ S ∗ ∃ f, stgRows (F := F) n p (srcRow p c j) fullShare f) ⊢ iprop((G' -∗ R) -∗ P)) :
    iprop(G ∗ S ∗ bigSep lent fun pi => stgRows (peer pi.1 (stp pi.2) c) pi.1 (srcRow pi.1 c pi.2) fullShare (sent m pi.1 (peer pi.1 (stp pi.2) c) pi.2))
      ⊢ iprop(((G' ∗ bigSep (lent.erase (p, j)) fun pi => stgRows (peer pi.1 (stp pi.2) c) pi.1 (srcRow pi.1 c pi.2) fullShare (sent m pi.1 (peer pi.1 (stp pi.2) c) pi.2)) -∗ R) -∗ P) := by
  subst hn
  rw [bigSep_erase' hj]
  iintro ⟨Hg, Hs, Hd, Hl⟩ Hk
  iapply H $$ [$Hg $Hs Hd]
  · iexists _; iexact Hd
  iintro Hg
  iapply Hk
  iframe

theorem exec_part32 (K : CellIx → ℕ) (c : Dev nD) (v2 v39 v866 c1_i32_725 : BitVec 32)
    {Q : _ → sProp 𝕄}
    (h : ∀ (v1012 v1021 : BitVec 32), St32 m K c ⊢ Q ⟨v1012, v1021⟩) :
    St31 m K c ⊢ wp frame (wpE (defs₀ (F := F)) Variants.none (Dev.tc c : Thread nD τ) none) Set.univ
      (k0_part32 xM hxM oM hoM sM hsM rM hrM cc0_scratch2 cc0_scratch3 c v2 v39 v866 c1_i32_725) Q := by
  rw [k0_part32_eq_skeleton]; unfold k0_part32_skel
  simp only [Prog.lift, Prog.bind_op, Prog.bind_ret, Prog.pure_eq_ret]
  unfold St31 stA agState
  iintro ⟨%f₀, Hg, Hx, Ho, Hraw, Hhold, Hslots, Hlent⟩
  iapply (step_waitRecv m K c 30 w30 0 7 (by decide) (by rfl) (slab_credit 0 7 _)) $$ Hg
  rw [recvPay_ag m c 0 7 (by decide)]
  iintro ⟨Hg, Hpay⟩
  ihave ⟨HL, HRL, HRR⟩ := (stgRows_thirds c 0 _ _).1 $$ Hpay
  iapply (lent_step m c l31 0 4 (by decide) (dev34_eq c) (step_sendAG m K c 30 _ 0 9 (by rfl) (by decide) _ (dev34_eq c)
    _ S176x1024.size (by rfl) (off58_eq c))) $$ [$Hg HL $Hlent]
  · iexact HL
  iintro ⟨Hg, Hlent⟩
  iapply (lent_step m c (l31.erase (0, 4)) 0 2 (by decide) (dev35_eq c) (step_sendAG m K c 31 _ 0 11 (by rfl) (by decide) _ (dev35_eq c)
    _ S176x1024.size (by rfl) (off58_eq c))) $$ [$Hg HRL $Hlent]
  · iexact HRL
  iintro ⟨Hg, Hlent⟩
  iapply (wp_settle m c 0 1 _ S176x1024.size (k0_off55_inb c) (by decide) shRR d31 f₀
    (off55_eq c) (by rfl) k0_pay47 (fun v j => rfl)) $$ [HRR $Ho]
  · iexact HRR
  iintro ⟨HRR, Ho⟩
  rw [wp_ret]
  imodintro
  iapply (h _ _)
  unfold St32 stA agState w32 d32 l32
  iexists f₀
  rw [bigSep_singleton]
  iframe
  iexact HRR

theorem exec_part33 (K : CellIx → ℕ) (c : Dev nD) (v2 v83 v920 : BitVec 32)
    {Q : _ → sProp 𝕄}
    (h : ∀ (v1041 v1050 : BitVec 32), St33 m K c ⊢ Q ⟨v1041, v1050⟩) :
    St32 m K c ⊢ wp frame (wpE (defs₀ (F := F)) Variants.none (Dev.tc c : Thread nD τ) none) Set.univ
      (k0_part33 xM hxM oM hoM sM hsM rM hrM cc0_scratch2 cc0_scratch3 c v2 v83 v920) Q := by
  rw [k0_part33_eq_skeleton]; unfold k0_part33_skel
  simp only [Prog.lift, Prog.bind_op, Prog.bind_ret, Prog.pure_eq_ret]
  unfold St32 stA agState
  iintro ⟨%f₀, Hg, Hx, Ho, Hraw, Hhold, Hslots, Hlent⟩
  iapply (step_waitRecv m K c 32 w32 1 7 (by decide) (by rfl) (slab_credit 1 7 _)) $$ Hg
  rw [recvPay_ag m c 1 7 (by decide)]
  iintro ⟨Hg, Hpay⟩
  ihave ⟨HL, HRL, HRR⟩ := (stgRows_thirds c 1 _ _).1 $$ Hpay
  iapply (lent_step m c l32 1 4 (by decide) (dev36_eq c) (step_sendAG m K c 32 _ 1 9 (by rfl) (by decide) _ (dev36_eq c)
    _ S176x1024.size (by rfl) (off62_eq c))) $$ [$Hg HL $Hlent]
  · iexact HL
  iintro ⟨Hg, Hlent⟩
  iapply (lent_step m c (l32.erase (1, 4)) 1 2 (by decide) (dev37_eq c) (step_sendAG m K c 33 _ 1 11 (by rfl) (by decide) _ (dev37_eq c)
    _ S176x1024.size (by rfl) (off62_eq c))) $$ [$Hg HRL $Hlent]
  · iexact HRL
  iintro ⟨Hg, Hlent⟩
  iapply (wp_settle m c 1 1 _ S176x1024.size (k0_off59_inb c) (by decide) shRR d32 f₀
    (off59_eq c) (by rfl) k0_pay48 (fun v j => rfl)) $$ [HRR $Ho]
  · iexact HRR
  iintro ⟨HRR, Ho⟩
  rw [wp_ret]
  imodintro
  iapply (h _ _)
  unfold St33 stA agState w33 d33 l33
  iexists f₀
  rw [show ({(0, 1, 4), (1, 1, 4)} : Finset (Fin 3 × Fin 8 × Fin 5)) = insert (1, 1, 4) {(0, 1, 4)} from by decide,
    bigSep_insert' (s := {(0, 1, 4)}) (i := (1, 1, 4)) (by decide)]
  iframe
  iexact HRR

theorem exec_part34 (K : CellIx → ℕ) (c : Dev nD) (v2 v127 v974 : BitVec 32)
    {Q : _ → sProp 𝕄}
    (h : ∀ (v1070 v1079 : BitVec 32), St34 m K c ⊢ Q ⟨v1070, v1079⟩) :
    St33 m K c ⊢ wp frame (wpE (defs₀ (F := F)) Variants.none (Dev.tc c : Thread nD τ) none) Set.univ
      (k0_part34 xM hxM oM hoM sM hsM rM hrM cc0_scratch2 cc0_scratch3 c v2 v127 v974) Q := by
  rw [k0_part34_eq_skeleton]; unfold k0_part34_skel
  simp only [Prog.lift, Prog.bind_op, Prog.bind_ret, Prog.pure_eq_ret]
  unfold St33 stA agState
  iintro ⟨%f₀, Hg, Hx, Ho, Hraw, Hhold, Hslots, Hlent⟩
  iapply (step_waitRecv m K c 34 w33 2 7 (by decide) (by rfl) (slab_credit 2 7 _)) $$ Hg
  rw [recvPay_ag m c 2 7 (by decide)]
  iintro ⟨Hg, Hpay⟩
  ihave ⟨HL, HRL, HRR⟩ := (stgRows_thirds c 2 _ _).1 $$ Hpay
  iapply (lent_step m c l33 2 4 (by decide) (dev38_eq c) (step_sendAG m K c 34 _ 2 9 (by rfl) (by decide) _ (dev38_eq c)
    _ S160x1024.size (by rfl) (off66_eq c))) $$ [$Hg HL $Hlent]
  · iexact HL
  iintro ⟨Hg, Hlent⟩
  iapply (lent_step m c (l33.erase (2, 4)) 2 2 (by decide) (dev39_eq c) (step_sendAG m K c 35 _ 2 11 (by rfl) (by decide) _ (dev39_eq c)
    _ S160x1024.size (by rfl) (off66_eq c))) $$ [$Hg HRL $Hlent]
  · iexact HRL
  iintro ⟨Hg, Hlent⟩
  iapply (wp_settle m c 2 1 _ S160x1024.size (k0_off63_inb c) (by decide) shRR d33 f₀
    (off63_eq c) (by rfl) k0_pay49 (fun v j => rfl)) $$ [HRR $Ho]
  · iexact HRR
  iintro ⟨HRR, Ho⟩
  rw [wp_ret]
  imodintro
  iapply (h _ _)
  unfold St34 stA agState w34 d34 l34
  iexists f₀
  rw [show h34 = insert (2, 1, 4) {(0, 1, 4), (1, 1, 4)} from by decide, bigSep_insert' (s := {(0, 1, 4), (1, 1, 4)}) (i := (2, 1, 4)) (by decide)]
  iframe
  iexact HRR

theorem exec_part35 (K : CellIx → ℕ) (c : Dev nD) (v2 v24 v34 v875 v1012 : BitVec 32)
    {Q : _ → sProp 𝕄}
    (h : ∀ (v1103 v1121 : BitVec 32), St35 m K c ⊢ Q ⟨v1103, v1121⟩) :
    St34 m K c ⊢ wp frame (wpE (defs₀ (F := F)) Variants.none (Dev.tc c : Thread nD τ) none) Set.univ
      (k0_part35 xM hxM oM hoM sM hsM rM hrM cc0_scratch2 cc0_scratch3 c v2 v24 v34 v875 v1012) Q := by
  rw [k0_part35_eq_skeleton]; unfold k0_part35_skel
  simp only [Prog.lift, Prog.bind_op, Prog.bind_ret, Prog.pure_eq_ret]
  unfold St34 stA agState
  iintro ⟨%f₀, Hg, Hx, Ho, Hraw, Hhold, Hslots, Hlent⟩
  iapply (step_waitRecv m K c 36 w34 0 8 (by decide) (by rfl) (slab_credit 0 8 _)) $$ Hg
  rw [recvPay_ag m c 0 8 (by decide)]
  iintro ⟨Hg, Hpay⟩
  ihave ⟨HL, HR⟩ := (stgRows_halves c 0 _ _).1 $$ Hpay
  iapply (lent_step m c l34 0 1 (by decide) (dev40_eq c) (step_sendAG m K c 36 _ 0 12 (by rfl) (by decide) _ (dev40_eq c)
    _ S176x1024.size (by rfl) (off46_eq c))) $$ [$Hg HL $Hlent]
  · iexact HL
  iintro ⟨Hg, Hlent⟩
  iapply (step_waitRecv m K c 37 (insert (0, 8) w34) 0 9 (by decide) (by rfl) (slab_credit 0 9 _)) $$ Hg
  rw [recvPay_ag m c 0 9 (by decide)]
  iintro ⟨Hg, Hpay⟩
  rw [wp_ret]
  imodintro
  iapply (h _ _)
  unfold St35 stA agState w35 l35 h35
  iexists f₀
  simp (disch := decide) only [bigSep_insert']
  iframe
  isplitl [Hpay]; · iexact Hpay
  iexact HR

theorem round_pay {s : Shape} (h : s.ShapeCasts s) (v : FVec F s .f32) (j : s.Idx) :
    shapeCast s (truncf .bf16 (shapeCast s v h) bitsLt_bf16_f32) h j = FloatOps.truncf .bf16 bf16_lt_f32 (v j) := by
  rw [shapeCast_same, shapeCast_same]; rfl

theorem exec_part27 (K : CellIx → ℕ) (c : Dev nD) (v2 v36 : BitVec 32) (v852 : FVec F S176x1024 .f32)
    {Q : _ → sProp 𝕄}
    (h : ∀ (v866 v875 v884 : BitVec 32), St27 m K c ⊢ Q ⟨v866, v875, v884⟩) :
    Mid m K c v852 ⊢ wp frame (wpE (defs₀ (F := F)) Variants.none (Dev.tc c : Thread nD τ) none) Set.univ
      (k0_part27 xM hxM oM hoM sM hsM rM hrM cc0_scratch2 cc0_scratch3 c v2 v36 v852) Q := by
  rw [k0_part27_eq_skeleton]; unfold k0_part27_skel
  simp only [Prog.lift, Prog.bind_op, Prog.bind_ret, Prog.pure_eq_ret]
  refine (Mid_open m K c v852).trans ?_
  unfold stA agState
  iintro ⟨⟨%f₀, Hg, Hx, Ho, Hraw, Hhold, Hslots, Hlent⟩, %hv⟩
  ihave ⟨Hslot, Hslots⟩ := (Entails.of_eq (bigSep_erase' (s := waitedMid) (i := (0, 6)) (by decide))) $$ Hslots
  iapply (wp_addLast m c 0 (k0_off67 c) ![1056, 0] S176x1024.size (k0_off67_inb c) inb_S3584x1024_S176x1024_1056_0
    (nMid c) (nMid_kept c 0) (off67_eq c) (by rfl) (by rfl) v852 hv (k0_pay37 v852) (fun v j => rfl)) $$ [Hslot $Hx]
  · iexact Hslot
  iintro ⟨Hslot, Hx⟩
  ihave ⟨⟨%fr, Hk2⟩, Hraw⟩ := (Entails.of_eq (bigSep_erase' (Finset.mem_insert_self (0 : Fin 3) _))) $$ Hraw
  iapply (wp_roundKept m c 0 _ S176x1024.size (k0_off67_inb c) (bump (nMid c) 0 (jK2 0 c)) (n27_kept c) fr (off67_eq c) (by rfl)
    k0_pay38 (fun v j => round_pay _ v j)) $$ [$Hx Hk2]
  · iexact Hk2
  iintro ⟨Hx, Hk2⟩
  ihave ⟨HL, HRL, HRR⟩ := (stgRows_thirds c 0 _ _).1 $$ Hk2
  iapply (lent_step m c waitedMid 0 6 (by decide) (dev25_eq c) (step_sendAG m K c 21 _ 0 7 (by rfl) (by decide) _ (dev25_eq c)
    _ S176x1024.size (by rfl) (off76_eq c))) $$ [$Hg HL $Hlent]
  · iexact HL
  iintro ⟨Hg, Hlent⟩
  iapply (lent_step m c (waitedMid.erase (0, 6)) 0 5 (by decide) (dev26_eq c) (step_sendAG m K c 22 _ 0 8 (by rfl) (by decide) _ (dev26_eq c)
    _ S176x1024.size (by rfl) (off76_eq c))) $$ [$Hg HRL $Hlent]
  · iexact HRL
  iintro ⟨Hg, Hlent⟩
  rw [wp_ret]
  imodintro
  iapply (h _ _ _)
  unfold St27 stA agState l27 n27
  iexists f₀
  rw [show (({0, 1, 2} : Finset (Fin 3)).erase 0) = {1, 2} from by decide, bigSep_singleton,
    bigSep_erase' (s := waitedMid) (i := (0, 6)) (by decide)]
  iframe
  iexact HRR

theorem exec_part28 (K : CellIx → ℕ) (c : Dev nD) (v36 v80 v698 v884 : BitVec 32)
    {Q : _ → sProp 𝕄}
    (h : ∀ (v915 : FVec F S176x1024 .bf16), St28 m K c v915 ⊢ Q v915) :
    St27 m K c ⊢ wp frame (wpE (defs₀ (F := F)) Variants.none (Dev.tc c : Thread nD τ) none) Set.univ
      (k0_part28 xM hxM oM hoM sM hsM rM hrM cc0_scratch2 cc0_scratch3 c v36 v80 v698 v884) Q := by
  rw [k0_part28_eq_skeleton]; unfold k0_part28_skel
  simp only [Prog.lift, Prog.bind_op, Prog.bind_ret, Prog.pure_eq_ret]
  unfold St27 stA agState
  rw [bigSep_singleton]
  iintro ⟨%f₀, Hg, Hx, Ho, Hraw, HRR, Hslots, Hlent⟩
  iapply (lent_step m c l27 0 3 (by decide) (dev27_eq c) (step_sendAG m K c 23 _ 0 10 (by rfl) (by decide) _ (dev27_eq c)
    _ S176x1024.size (by rfl) (off76_eq c))) $$ [$Hg HRR $Hlent]
  · iexact HRR
  iintro ⟨Hg, Hlent⟩
  iapply (wp_keep m c 0 _ S176x1024.size (k0_off67_inb c) (n27 c) (n27_kept c) ∅ f₀ (off67_eq c) (by rfl)
    k0_pay39 (fun v j => congrFun (shapeCast_same v _) j)) $$ [$Hx $Ho]
  iintro ⟨Hx, Ho⟩
  iapply (step_waitRecv m K c 24 waitedMid 1 6 (by decide) (by rfl)
    (dst := rsrSl ![2288, 0] S176x1024.size inb_S3584x1024_S176x1024_2288_0 (fun _ => rfl)) (slab_credit 1 6 _)) $$ Hg
  rw [recvPay_rs' m c 1 6 (by decide)]
  iintro ⟨Hg, Hslot, Hpart⟩
  iapply (wp_load 𝒱₀ (Dev.tc c : Thread nD τ) none Set.univ (m := xM) (Finset.subset_univ _)) $$ Hx
  iintro Hx
  iapply (wp_addLast m c 1 (k0_off70 c) ![2288, 0] S176x1024.size (k0_off70_inb c) inb_S3584x1024_S176x1024_2288_0
    (n27 c) (n27_at1 c) (off70_eq c) (by rfl) (by rfl)
    _ (fun j => rfl) (k0_pay40 _) (fun v j => by
      show FloatOps.addf (shapeCast S176x1024 _ shapeCasts_S176x1024_S176x1024 j) _ = _
      rw [shapeCast_same]
      rfl)) $$ [$Hslot $Hx]
  iintro ⟨Hslot, Hx⟩
  iapply (wp_load 𝒱₀ (Dev.tc c : Thread nD τ) none Set.univ (m := xM) (Finset.subset_univ _)) $$ Hx
  iintro Hx
  rw [wp_ret]
  imodintro
  iapply (h _)
  unfold St28 stA agState w28 l28 n28 d28
  isplitl; swap
  · ipureintro
    intro j
    show truncf .bf16 (shapeCast S176x1024 _ shapeCasts_S176x1024_S176x1024) bitsLt_bf16_f32 j = _
    rw [shapeCast_same]
    rfl
  iexists f₀
  simp (disch := decide) only [bigSep_empty, bigSep_insert']
  iframe
  iempintro

theorem exec_part29 (K : CellIx → ℕ) (c : Dev nD) (v2 : BitVec 32) (v915 : FVec F S176x1024 .bf16)
    {Q : _ → sProp 𝕄}
    (h : ∀ (v920 v929 v938 : BitVec 32), St29 m K c ⊢ Q ⟨v920, v929, v938⟩) :
    St28 m K c v915 ⊢ wp frame (wpE (defs₀ (F := F)) Variants.none (Dev.tc c : Thread nD τ) none) Set.univ
      (k0_part29 xM hxM oM hoM sM hsM rM hrM cc0_scratch2 cc0_scratch3 c v2 v915) Q := by
  rw [k0_part29_eq_skeleton]; unfold k0_part29_skel
  simp only [Prog.lift, Prog.bind_op, Prog.bind_ret, Prog.pure_eq_ret]
  unfold St28 stA agState
  iintro ⟨⟨%f₀, Hg, Hx, Ho, Hraw, Hhold, Hslots, Hlent⟩, %hv⟩
  ihave ⟨⟨%fr, Hk2⟩, Hraw⟩ := (Entails.of_eq (bigSep_erase' (Finset.mem_insert_self (1 : Fin 3) _))) $$ Hraw
  ihave Hk2 := (Entails.of_eq (stgRows_def c 1 (oK2 1 c) fullShare fr)) $$ Hk2
  iapply (wp_load 𝒱₀ (Dev.tc c : Thread nD τ) none Set.univ (m := sM)
    (stage_setOn c 1 0 _ S176x1024.size (k0_off70_inb c) (off70_eq c) (by rfl))) $$ [Hk2]
  · iexact Hk2
  iintro Hk2
  iapply (wp_store 𝒱₀ (Dev.tc c : Thread nD τ) none Set.univ (m := sM)
    (stage_store_setOn c 1 _ S176x1024.size (k0_off70_inb c) 0 (off70_eq c) (by rfl))) $$ [Hk2]
  · iexact Hk2
  iintro Hk2
  ihave Hk2 := (Entails.of_eq (pointsTo_congr (ℓ := sL c) (q := fullShare)
    (I := rowsSet (S := S4096x1024) ax (oK2 1 c) (eRows 1))
    (f := (((sM).access (Rect.unit (s := S4096x1024) _ S176x1024.size (k0_off70_inb c))).write (Elt F) fr (k0_pay42 v915) Finset.univ : Buf (Elt F) (sL c)))
    (g := (Stg (X m) 1 (roleJ 1 0 c) : Buf (Elt F) (sL c))) (fun i hi => by
    rw [← unit_set_rows _ S176x1024.size (k0_off70_inb c) (oK2 1 c) (eRows 1) (off70_eq c) (by rfl)] at hi
    obtain ⟨j, rfl⟩ := (Rect.unit (s := S4096x1024) _ S176x1024.size (k0_off70_inb c)).toLoadRect.exists_idx_of_mem hi
    exact (write_whole_emb cc0_scratch0 _ _ _ j).trans ((congrFun (shapeCast_same v915 _) j).trans ((hv j).trans
      ((congrArg (FloatOps.truncf .bf16 bf16_lt_f32) (Xlev_on_kept m c 1 _ S176x1024.size (k0_off70_inb c) (n28 c) (n28_kept1 c) (off70_eq c) (by rfl) j)).trans
        (stage_of_own m c 1 _))))))) $$ [Hk2]
  · iexact Hk2
  ihave Hk2 := (Entails.of_eq (stgRows_def c 1 (oK2 1 c) fullShare (Stg (X m) 1 (roleJ 1 0 c))).symm) $$ [Hk2]
  · iexact Hk2
  ihave ⟨HL, HRL, HRR⟩ := (stgRows_thirds c 1 _ _).1 $$ Hk2
  iapply (lent_step m c l28 1 6 (by decide) (dev28_eq c) (step_sendAG m K c 24 _ 1 7 (by rfl) (by decide) _ (dev28_eq c)
    _ S176x1024.size (by rfl) (off77_eq c))) $$ [$Hg HL $Hlent]
  · iexact HL
  iintro ⟨Hg, Hlent⟩
  iapply (lent_step m c (l28.erase (1, 6)) 1 5 (by decide) (dev29_eq c) (step_sendAG m K c 25 _ 1 8 (by rfl) (by decide) _ (dev29_eq c)
    _ S176x1024.size (by rfl) (off77_eq c))) $$ [$Hg HRL $Hlent]
  · iexact HRL
  iintro ⟨Hg, Hlent⟩
  rw [wp_ret]
  imodintro
  iapply (h _ _ _)
  unfold St29 stA agState l29
  iexists f₀
  rw [show (({1, 2} : Finset (Fin 3)).erase 1) = {2} from by decide]
  simp only [bigSep_singleton]
  iframe
  iexact HRR

theorem exec_part30 (K : CellIx → ℕ) (c : Dev nD) (v2 v80 v124 v745 : BitVec 32)
    {Q : _ → sProp 𝕄}
    (h : ∀ (v974 : BitVec 32), St30 m K c ⊢ Q v974) :
    St29 m K c ⊢ wp frame (wpE (defs₀ (F := F)) Variants.none (Dev.tc c : Thread nD τ) none) Set.univ
      (k0_part30 xM hxM oM hoM sM hsM rM hrM cc0_scratch2 cc0_scratch3 c v2 v80 v124 v745) Q := by
  rw [k0_part30_eq_skeleton]; unfold k0_part30_skel
  simp only [Prog.lift, Prog.bind_op, Prog.bind_ret, Prog.pure_eq_ret]
  unfold St29 stA agState
  simp only [bigSep_singleton]
  iintro ⟨%f₀, Hg, Hx, Ho, ⟨%fr, Hk2⟩, HRR, Hslots, Hlent⟩
  iapply (lent_step m c l29 1 3 (by decide) (dev30_eq c) (step_sendAG m K c 26 _ 1 10 (by rfl) (by decide) _ (dev30_eq c)
    _ S176x1024.size (by rfl) (off77_eq c))) $$ [$Hg HRR $Hlent]
  · iexact HRR
  iintro ⟨Hg, Hlent⟩
  iapply (wp_keep m c 1 _ S176x1024.size (k0_off70_inb c) (n28 c) (n28_kept1 c) d28 f₀ (off70_eq c) (by rfl)
    k0_pay43 (fun v j => congrFun (shapeCast_same v _) j)) $$ [$Hx $Ho]
  iintro ⟨Hx, Ho⟩
  iapply (step_waitRecv m K c 27 w28 2 6 (by decide) (by rfl)
    (dst := rsrSl ![3424, 0] S160x1024.size inb_S3584x1024_S160x1024_3424_0 (fun _ => rfl)) (slab_credit 2 6 _)) $$ Hg
  rw [recvPay_rs' m c 2 6 (by decide)]
  iintro ⟨Hg, Hslot, Hpart⟩
  iapply (wp_load 𝒱₀ (Dev.tc c : Thread nD τ) none Set.univ (m := xM) (Finset.subset_univ _)) $$ Hx
  iintro Hx
  iapply (wp_addLast m c 2 (k0_off73 c) ![3424, 0] S160x1024.size (k0_off73_inb c) inb_S3584x1024_S160x1024_3424_0
    (n28 c) (n28_at2 c) (off73_eq c) (by rfl) (by rfl)
    _ (fun j => rfl) (k0_pay44 _) (fun v j => by
      show FloatOps.addf (shapeCast S160x1024 _ shapeCasts_S160x1024_S160x1024 j) _ = _
      rw [shapeCast_same]
      rfl)) $$ [$Hslot $Hx]
  iintro ⟨Hslot, Hx⟩
  iapply (wp_roundKept m c 2 _ S160x1024.size (k0_off73_inb c) (bump (n28 c) 2 (jK2 2 c)) (n30_kept2 c) fr (off73_eq c) (by rfl)
    k0_pay45 (fun v j => round_pay _ v j)) $$ [$Hx Hk2]
  · iexact Hk2
  iintro ⟨Hx, Hk2⟩
  rw [wp_ret]
  imodintro
  iapply (h _)
  unfold St30 stA agState n30 w30 d30 l30
  iexists f₀
  simp (disch := decide) only [bigSep_empty, bigSep_singleton, bigSep_insert']
  iframe
  isplitr; · iempintro
  iexact Hk2

theorem exec_part31 (K : CellIx → ℕ) (c : Dev nD) (v2 v124 : BitVec 32)
    {Q : _ → sProp 𝕄}
    (h : ∀ (v983 v992 c1 : BitVec 32), St31 m K c ⊢ Q ⟨v983, v992, c1⟩) :
    St30 m K c ⊢ wp frame (wpE (defs₀ (F := F)) Variants.none (Dev.tc c : Thread nD τ) none) Set.univ
      (k0_part31 xM hxM oM hoM sM hsM rM hrM cc0_scratch2 cc0_scratch3 c v2 v124) Q := by
  rw [k0_part31_eq_skeleton]; unfold k0_part31_skel
  simp only [Prog.lift, Prog.bind_op, Prog.bind_ret, Prog.pure_eq_ret]
  unfold St30 stA agState
  rw [bigSep_singleton]
  iintro ⟨%f₀, Hg, Hx, Ho, Hraw, Hk2, Hslots, Hlent⟩
  ihave ⟨HL, HRL, HRR⟩ := (stgRows_thirds c 2 _ _).1 $$ [Hk2]
  · iexact Hk2
  iapply (lent_step m c l30 2 6 (by decide) (dev31_eq c) (step_sendAG m K c 27 _ 2 7 (by rfl) (by decide) _ (dev31_eq c)
    _ S160x1024.size (by rfl) (off78_eq c))) $$ [$Hg HL $Hlent]
  · iexact HL
  iintro ⟨Hg, Hlent⟩
  iapply (lent_step m c (l30.erase (2, 6)) 2 5 (by decide) (dev32_eq c) (step_sendAG m K c 28 _ 2 8 (by rfl) (by decide) _ (dev32_eq c)
    _ S160x1024.size (by rfl) (off78_eq c))) $$ [$Hg HRL $Hlent]
  · iexact HRL
  iintro ⟨Hg, Hlent⟩
  iapply (lent_step m c ((l30.erase (2, 6)).erase (2, 5)) 2 3 (by decide) (dev33_eq c) (step_sendAG m K c 29 _ 2 10 (by rfl) (by decide) _ (dev33_eq c)
    _ S160x1024.size (by rfl) (off78_eq c))) $$ [$Hg HRR $Hlent]
  · iexact HRR
  iintro ⟨Hg, Hlent⟩
  iapply (wp_keep m c 2 _ S160x1024.size (k0_off73_inb c) (n30 c) (n30_kept2 c) d30 f₀ (off73_eq c) (by rfl)
    k0_pay46 (fun v j => congrFun (shapeCast_same v _) j)) $$ [$Hx $Ho]
  iintro ⟨Hx, Ho⟩
  rw [wp_ret]
  imodintro
  iapply (h _ _ _)
  unfold St31 stA agState d31 l31
  iexists f₀
  simp only [bigSep_empty]
  iframe
  iempintro

end Cert.KernelIdeal.RsAg

end
-- ==== Proof.KI.Parts36.lean ====
import proofs.«901015_g7700000000001016_dist_rs_then_ag_i_m4096_n1024_v7x_i8_f32_1_alg».proof.Proof.KI.Parts27

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ UU ℕ

variable (m : (ℓ : Loc nD τ sig) → Buf (Elt F) ℓ)

theorem exec_part36 (K : CellIx → ℕ) (c : Dev nD) (v2 v34 v68 v78 v929 v1121 : BitVec 32)
    {Q : _ → sProp 𝕄}
    (h : ∀ (v1124 v1148 v1149 c0 : BitVec 32), St36 m K c ⊢ Q ⟨v1124, v1148, v1149, c0⟩) :
    St35 m K c ⊢ wp frame (wpE (defs₀ (F := F)) Variants.none (Dev.tc c : Thread nD τ) none) Set.univ
      (k0_part36 xM hxM oM hoM sM hsM rM hrM cc0_scratch2 cc0_scratch3 c v2 v34 v68 v78 v929 v1121) Q := by
  rw [k0_part36_eq_skeleton]; unfold k0_part36_skel
  simp only [Prog.lift, Prog.bind_op, Prog.bind_ret, Prog.pure_eq_ret]
  unfold St35 stA agState h35
  simp (disch := decide) only [bigSep_insert']
  iintro ⟨%f₀, Hg, Hx, Ho, Hraw, ⟨Ha, HbR, Hhold⟩, Hslots, Hlent⟩
  ihave ⟨HaL, HaR⟩ := (stgRows_halves c 0 _ _).1 $$ [Ha]
  · iexact Ha
  iapply (lent_step m c l35 0 0 (by decide) (dev41_eq c) (step_sendAG m K c 37 _ 0 13 (by rfl) (by decide) _ (dev41_eq c)
    _ S176x1024.size (by rfl) (off34_eq c))) $$ [$Hg HaL $Hlent]
  · iexact HaL
  iintro ⟨Hg, Hlent⟩
  iapply (wp_blockRead m c 0 _ S352x1024.size (k0_off79_inb c) shR (off79_eq c) (by rfl)) $$ [HaR HbR]
  · isplitl [HaR]; · iexact HaR
    iexact HbR
  iintro ⟨HaR, HbR⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 0 _ S352x1024.size (k0_off79_inb c) d34 f₀ (off79_eq c) (by rfl) _ (fun j => block_value m c 0 _ S352x1024.size (k0_off79_inb c) (off79_eq c) (by rfl) j)))) $$ [Ho]
  · iexact Ho
  iapply (step_waitRecv m K c 38 w35 1 8 (by decide) (by rfl) (slab_credit 1 8 _)) $$ Hg
  rw [recvPay_ag m c 1 8 (by decide)]
  iintro ⟨Hg, Hpay⟩
  rw [wp_ret]
  imodintro
  iapply (h _ _ _ _)
  unfold St36 stA agState h36 w36 d36 l36
  iexists f₀
  simp (disch := decide) only [bigSep_insert']
  iframe
  isplitl [Hpay]; · iexact Hpay
  isplitl [HaR]; · iexact HaR
  iexact HbR

theorem exec_part37 (K : CellIx → ℕ) (c : Dev nD) (v2 v68 v78 v1041 v1149 c0_i32_859 : BitVec 32)
    {Q : _ → sProp 𝕄}
    (h : ∀ (v1169 : BitVec 32) (v1180 : FVec F S352x1024 .f32), St37 m K c v1180 ⊢ Q ⟨v1169, v1180⟩) :
    St36 m K c ⊢ wp frame (wpE (defs₀ (F := F)) Variants.none (Dev.tc c : Thread nD τ) none) Set.univ
      (k0_part37 xM hxM oM hoM sM hsM rM hrM cc0_scratch2 cc0_scratch3 c v2 v68 v78 v1041 v1149 c0_i32_859) Q := by
  rw [k0_part37_eq_skeleton]; unfold k0_part37_skel
  simp only [Prog.lift, Prog.bind_op, Prog.bind_ret, Prog.pure_eq_ret]
  unfold St36 stA agState h36
  simp (disch := decide) only [bigSep_insert']
  iintro ⟨%f₀, Hg, Hx, Ho, Hraw, ⟨Hb, Hhold⟩, Hslots, Hlent⟩
  ihave ⟨HbL, HbR⟩ := (stgRows_halves c 1 _ _).1 $$ [Hb]
  · iexact Hb
  iapply (lent_step m c l36 1 1 (by decide) (dev42_eq c) (step_sendAG m K c 38 _ 1 12 (by rfl) (by decide) _ (dev42_eq c)
    _ S176x1024.size (by rfl) (off50_eq c))) $$ [$Hg HbL $Hlent]
  · iexact HbL
  iintro ⟨Hg, Hlent⟩
  iapply (step_waitRecv m K c 39 w36 1 9 (by decide) (by rfl) (slab_credit 1 9 _)) $$ Hg
  rw [recvPay_ag m c 1 9 (by decide)]
  iintro ⟨Hg, Ha⟩
  ihave ⟨HaL, HaR⟩ := (stgRows_halves c 1 _ _).1 $$ Ha
  iapply (lent_step m c (l36.erase (1, 1)) 1 0 (by decide) (dev43_eq c) (step_sendAG m K c 39 _ 1 13 (by rfl) (by decide) _ (dev43_eq c)
    _ S176x1024.size (by rfl) (off38_eq c))) $$ [$Hg HaL $Hlent]
  · iexact HaL
  iintro ⟨Hg, Hlent⟩
  iapply (wp_blockRead m c 1 _ S352x1024.size (k0_off80_inb c) shR (off80_eq c) (by rfl)) $$ [HaR HbR]
  · isplitl [HaR]; · iexact HaR
    iexact HbR
  iintro ⟨HaR, HbR⟩
  rw [wp_ret]
  imodintro
  iapply (h _ _)
  unfold St37 stA agState h37 w37 l37
  isplitl; swap
  · ipureintro
    exact block_value m c 1 _ S352x1024.size (k0_off80_inb c) (off80_eq c) (by rfl)
  iexists f₀
  simp (disch := decide) only [bigSep_insert']
  iframe
  isplitl [HaR]; · iexact HaR
  iexact HbR

theorem exec_part38 (K : CellIx → ℕ) (c : Dev nD) (v2 v112 v122 v983 v1070 : BitVec 32) (v1180 : FVec F S352x1024 .f32)
    {Q : _ → sProp 𝕄}
    (h : ∀ (v1193 v1208 c160 : BitVec 32), St38 m K c ⊢ Q ⟨v1193, v1208, c160⟩) :
    St37 m K c v1180 ⊢ wp frame (wpE (defs₀ (F := F)) Variants.none (Dev.tc c : Thread nD τ) none) Set.univ
      (k0_part38 xM hxM oM hoM sM hsM rM hrM cc0_scratch2 cc0_scratch3 c v2 v112 v122 v983 v1070 v1180) Q := by
  rw [k0_part38_eq_skeleton]; unfold k0_part38_skel
  simp only [Prog.lift, Prog.bind_op, Prog.bind_ret, Prog.pure_eq_ret]
  unfold St37 stA agState
  iintro ⟨⟨%f₀, Hg, Hx, Ho, Hraw, Hhold, Hslots, Hlent⟩, %hv⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 1 _ S352x1024.size (k0_off80_inb c) d36 f₀ (off80_eq c) (by rfl) v1180 hv))) $$ [Ho]
  · iexact Ho
  iapply (step_waitRecv m K c 40 w37 2 8 (by decide) (by rfl) (slab_credit 2 8 _)) $$ Hg
  rw [recvPay_ag m c 2 8 (by decide)]
  iintro ⟨Hg, Hb⟩
  ihave ⟨HbL, HbR⟩ := (stgRows_halves c 2 _ _).1 $$ Hb
  iapply (lent_step m c l37 2 1 (by decide) (dev44_eq c) (step_sendAG m K c 40 _ 2 12 (by rfl) (by decide) _ (dev44_eq c)
    _ S160x1024.size (by rfl) (off54_eq c))) $$ [$Hg HbL $Hlent]
  · iexact HbL
  iintro ⟨Hg, Hlent⟩
  iapply (step_waitRecv m K c 41 (insert (2, 8) w37) 2 9 (by decide) (by rfl) (slab_credit 2 9 _)) $$ Hg
  rw [recvPay_ag m c 2 9 (by decide)]
  iintro ⟨Hg, Ha⟩
  rw [wp_ret]
  imodintro
  iapply (h _ _ _)
  unfold St38 stA agState h38 w38 d38 l38
  iexists f₀
  simp (disch := decide) only [bigSep_insert']
  iframe
  isplitl [Ha]; · iexact Ha
  iexact HbR

theorem exec_part39 (K : CellIx → ℕ) (c : Dev nD) (v2 v21 v24 v29 v112 v122 v884 v1208 c160_i32_913 : BitVec 32)
    {Q : _ → sProp 𝕄}
    (h : ∀ (v1214 : BitVec 32) (v1240 : FVec F S176x1024 .f32), St39 m K c v1240 ⊢ Q ⟨v1214, v1240⟩) :
    St38 m K c ⊢ wp frame (wpE (defs₀ (F := F)) Variants.none (Dev.tc c : Thread nD τ) none) Set.univ
      (k0_part39 xM hxM oM hoM sM hsM rM hrM cc0_scratch2 cc0_scratch3 c v2 v21 v24 v29 v112 v122 v884 v1208 c160_i32_913) Q := by
  rw [k0_part39_eq_skeleton]; unfold k0_part39_skel
  simp only [Prog.lift, Prog.bind_op, Prog.bind_ret, Prog.pure_eq_ret]
  unfold St38 stA agState h38
  simp (disch := decide) only [bigSep_insert']
  iintro ⟨%f₀, Hg, Hx, Ho, Hraw, ⟨Ha, HbR, Hhold⟩, Hslots, Hlent⟩
  ihave ⟨HaL, HaR⟩ := (stgRows_halves c 2 _ _).1 $$ [Ha]
  · iexact Ha
  iapply (lent_step m c l38 2 0 (by decide) (dev45_eq c) (step_sendAG m K c 41 _ 2 13 (by rfl) (by decide) _ (dev45_eq c)
    _ S160x1024.size (by rfl) (off42_eq c))) $$ [$Hg HaL $Hlent]
  · iexact HaL
  iintro ⟨Hg, Hlent⟩
  iapply (wp_blockRead m c 2 _ S320x1024.size (k0_off81_inb c) shR (off81_eq c) (by rfl)) $$ [HaR HbR]
  · isplitl [HaR]; · iexact HaR
    iexact HbR
  iintro ⟨HaR, HbR⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 2 _ S320x1024.size (k0_off81_inb c) d38 f₀ (off81_eq c) (by rfl) _ (fun j => block_value m c 2 _ S320x1024.size (k0_off81_inb c) (off81_eq c) (by rfl) j)))) $$ [Ho]
  · iexact Ho
  iapply (step_waitRecv m K c 42 w38 0 10 (by decide) (by rfl) (slab_credit 0 10 _)) $$ Hg
  rw [recvPay_ag m c 0 10 (by decide)]
  iintro ⟨Hg, Hlb⟩
  ihave Hlb := (Entails.of_eq (stgRows_def c 0 _ fullShare _)) $$ Hlb
  iapply (wp_load 𝒱₀ (Dev.tc c : Thread nD τ) none Set.univ (m := sM)
    (stage_setOn c 0 7 _ S176x1024.size (k0_off82_inb c) (off82_eq c) (by rfl))) $$ [Hlb]
  · iexact Hlb
  iintro Hlb
  ihave Hlb := (Entails.of_eq (stgRows_def c 0 (landRow 0 c 10) fullShare (Stg (X m) 0 (landJ 0 c 10))).symm) $$ [Hlb]
  · iexact Hlb
  rw [wp_ret]
  imodintro
  iapply (h _ _)
  unfold St39 stA agState h39 w39 d39
  isplitl; swap
  · ipureintro
    exact out_of_stage m c 0 7 (roleJ_ne_jK2 0 7 c (by decide)) _ S176x1024.size (k0_off82_inb c) (off82_eq c) (by rfl)
  iexists f₀
  simp (disch := decide) only [bigSep_insert']
  rw [← l38_erase]
  iframe
  isplitl [Hlb]; · iexact Hlb
  isplitl [HaR]; · iexact HaR
  iexact HbR

theorem exec_part40 (K : CellIx → ℕ) (c : Dev nD) (v21 v24 v29 v62 v68 v73 v938 v1021 : BitVec 32) (v1240 : FVec F S176x1024 .f32)
    {Q : _ → sProp 𝕄}
    (h : ∀ (v1271 : FVec F S176x1024 .f32), Cut40 m K c v1271 ⊢ Q v1271) :
    St39 m K c v1240 ⊢ wp frame (wpE (defs₀ (F := F)) Variants.none (Dev.tc c : Thread nD τ) none) Set.univ
      (k0_part40 xM hxM oM hoM sM hsM rM hrM cc0_scratch2 cc0_scratch3 c v21 v24 v29 v62 v68 v73 v938 v1021 v1240) Q := by
  rw [k0_part40_eq_skeleton]; unfold k0_part40_skel
  simp only [Prog.lift, Prog.bind_op, Prog.bind_ret, Prog.pure_eq_ret]
  unfold St39 stA agState
  iintro ⟨⟨%f₀, Hg, Hx, Ho, Hraw, Hhold, Hslots, Hlent⟩, %hv⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_slab m c d39 f₀ 0 7 _ S176x1024.size (k0_off82_inb c) (off82_eq c) (by rfl) v1240 hv))) $$ [Ho]
  · iexact Ho
  iapply (step_waitRecv m K c 42 w39 0 11 (by decide) (by rfl) (slab_credit 0 11 _)) $$ Hg
  rw [recvPay_ag m c 0 11 (by decide)]
  iintro ⟨Hg, Hla⟩
  iapply (wp_settle m c 0 6 _ S176x1024.size (k0_off83_inb c) (by decide) fullShare (insert (0, 7) d39) f₀
    (off83_eq c) (by rfl) k0_pay54 (fun v j => rfl)) $$ [Hla $Ho]
  · iexact Hla
  iintro ⟨Hla, Ho⟩
  iapply (step_waitRecv m K c 42 (insert (0, 11) w39) 1 10 (by decide) (by rfl) (slab_credit 1 10 _)) $$ Hg
  rw [recvPay_ag m c 1 10 (by decide)]
  iintro ⟨Hg, Hlb⟩
  ihave Hlb := (Entails.of_eq (stgRows_def c 1 _ fullShare _)) $$ Hlb
  iapply (wp_load 𝒱₀ (Dev.tc c : Thread nD τ) none Set.univ (m := sM)
    (stage_setOn c 1 7 _ S176x1024.size (k0_off84_inb c) (off84_eq c) (by rfl))) $$ [Hlb]
  · iexact Hlb
  iintro Hlb
  ihave Hlb := (Entails.of_eq (stgRows_def c 1 (landRow 1 c 10) fullShare (Stg (X m) 1 (landJ 1 c 10))).symm) $$ [Hlb]
  · iexact Hlb
  rw [wp_ret]
  imodintro
  iapply (h _)
  unfold Cut40 agState
  isplitl; swap
  · ipureintro
    exact fun j => rfl
  iexists f₀
  rw [← w40_eq, ← h40_eq, ← w30_slots, show Xlev (X m) c (nFin c) = Xlev (X m) c (n30 c) from by
      funext i; unfold Xlev; rw [n30_eq],
    OutAt_congr (X m) c (done40 c) (doneOf d40 c) f₀ (fun p j hj => (d40_iff c p ⟨j, hj⟩).symm)]
  unfold w40 d40
  simp (disch := decide) only [bigSep_insert']
  iframe
  isplitl [Hlb]; · iexact Hlb
  iexact Hla

end Cert.KernelIdeal.RsAg

end
-- ==== Proof.KI.EndD.lean ====
import proofs.«901015_g7700000000001016_dist_rs_then_ag_i_m4096_n1024_v7x_i8_f32_1_alg».proof.Proof.KI.Cut40
import proofs.«901015_g7700000000001016_dist_rs_then_ag_i_m4096_n1024_v7x_i8_f32_1_alg».proof.Proof.KI.Steps
import proofs.«901015_g7700000000001016_dist_rs_then_ag_i_m4096_n1024_v7x_i8_f32_1_alg».proof.Proof.KI.Basics
import proofs.«901015_g7700000000001016_dist_rs_then_ag_i_m4096_n1024_v7x_i8_f32_1_alg».proof.Proof.KI.Tiles
import proofs.«901015_g7700000000001016_dist_rs_then_ag_i_m4096_n1024_v7x_i8_f32_1_alg».proof.Proof.KI.Open

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev holdΦ (c : Dev nD) (t : Fin 3 × Fin 8 × Fin 5) : sProp 𝕄 :=
  stgRows c t.1 (roleRow t.1 t.2.1 c) (shOf t.2.2) (Stg (X m) t.1 (roleJ t.1 t.2.1 c))

abbrev slotΦ (c : Dev nD) (pi : Fin 3 × Fin 14) : sProp 𝕄 :=
  rsrRows c pi.1 (slot pi.1 c pi.2) (reRow (srcRow pi.1 c pi.2) (slot pi.1 c pi.2) (sent m pi.1 (peer pi.1 (stp pi.2) c) pi.2))

/-- The two spellings of the separating conjunction agree. -/
theorem sep_eq (P Q : sProp 𝕄) : BI.sep P Q = iprop(P ∗ Q) := rfl

theorem sendPay_7_hold (c : Dev nD) (p : Fin 3) : sendPay m c p 7 = holdΦ m c (p, 0, 1) := rfl
theorem sendPay_8_hold (c : Dev nD) (p : Fin 3) : sendPay m c p 8 = holdΦ m c (p, 0, 3) := rfl
theorem sendPay_9_hold (c : Dev nD) (p : Fin 3) : sendPay m c p 9 = holdΦ m c (p, 1, 1) := rfl
theorem sendPay_10_hold (c : Dev nD) (p : Fin 3) : sendPay m c p 10 = holdΦ m c (p, 0, 4) := rfl
theorem sendPay_11_hold (c : Dev nD) (p : Fin 3) : sendPay m c p 11 = holdΦ m c (p, 1, 3) := rfl
theorem sendPay_12_hold (c : Dev nD) (p : Fin 3) : sendPay m c p 12 = holdΦ m c (p, 3, 1) := rfl
theorem sendPay_13_hold (c : Dev nD) (p : Fin 3) : sendPay m c p 13 = holdΦ m c (p, 2, 1) := rfl

def endSt (K : CellIx → ℕ) (c : Dev nD) (n : Nat) : sProp 𝕄 :=
  iprop(ghostEnd m K c (swN n)
    ∗ (bigSep (swN n) fun pi => sendPay m c pi.1 pi.2)
    ∗ (xL c ↦{fullShare} Xlev (X m) c (nFin c))
    ∗ (oL c ↦{fullShare} Out (X m) c)
    ∗ (bigSep holdEnd fun t => holdΦ m c t)
    ∗ (bigSep slotsAll fun pi => slotΦ m c pi))

variable {m} in
/-- Wait `14 p + i` on a send cell, beside anything: the copies go part by part, copy by copy. -/
theorem end_wait {K : CellIx → ℕ} {c : Dev nD} (p : Fin 3) (i : Fin 14) {R : sProp 𝕄}
    {sp sp' : Space} {s' : Shape} {e' : EltTy} {src : Memref sig .tc sp' s' e'} {dst : Memref sig .tc sp ⟨2, ![eRows p, 1024]⟩ .bf16}
    {hsrc : src.view.WordExact} {hdst : dst.view.WordExact}
    {α : Type} {Q : α → sProp 𝕄} {k : PUnit → Prog (TpuEff nD τ sig (Elt F) Λ₀ .tc) α}
    (h : iprop(endSt m K c (14 * p.val + i.val + 1) ∗ R) ⊢ wpc c (k ⟨⟩) Q) :
    iprop(endSt m K c (14 * p.val + i.val) ∗ R) ⊢ wpc c (.op (.waitDma2 (sSem p i) src dst hsrc hdst) k) Q := by
  unfold endSt at h ⊢
  rw [swN_succ rfl, bigSep_insert (not_mem_swN rfl), sep_eq] at h
  iintro ⟨⟨Hg, Hpay, H⟩, HR⟩
  iapply (step_waitSend m K c _ p i (not_mem_swN rfl) (slab_credit p i _)) $$ Hg
  iintro ⟨Hg, Hp⟩
  iapply h
  iframe

/-- A program that has ended, against a continuation given as a wand. -/
theorem ret_wand {c : Dev nD} {α : Type} {P : sProp 𝕄} {Post Q : α → sProp 𝕄} (r : α) (h : P ⊢ Post r) :
    iprop(P ∗ ∀ r, Post r -∗ Q r) ⊢ wpc c (.ret r) Q := by
  iintro ⟨H, HQ⟩
  iapply (le_wp_ret _ _)
  iapply HQ
  iapply h $$ H

section Home

variable (c : Dev nD) (p : Fin 3)

theorem slab_thirds (r : Fin 8) :
    iprop(holdΦ m c (p, r, 1) ∗ holdΦ m c (p, r, 3) ∗ holdΦ m c (p, r, 4)) ⊢ holdΦ m c (p, r, 0) :=
  pointsTo_thirds_join (Ix := Unit) (Val := Elt F) (Name := ℕ) (U := UU) (Lvl := ℕ)

theorem slab_halves (r : Fin 8) :
    iprop(holdΦ m c (p, r, 1) ∗ holdΦ m c (p, r, 2)) ⊢ holdΦ m c (p, r, 0) :=
  pointsTo_halves_join (Ix := Unit) (Val := Elt F) (Name := ℕ) (U := UU) (Lvl := ℕ)

theorem part_home :
    iprop((holdΦ m c (p, 1, 4) ∗ holdΦ m c (p, 2, 2) ∗ holdΦ m c (p, 3, 2)
          ∗ holdΦ m c (p, 4, 0) ∗ holdΦ m c (p, 5, 0) ∗ holdΦ m c (p, 6, 0) ∗ holdΦ m c (p, 7, 0))
        ∗ bigSep Finset.univ fun i : Fin 14 => sendPay m c p i)
      ⊢ bigSep Finset.univ fun r : Fin 8 => holdΦ m c (p, r, 0) := by
  rw [bigSep_univ_eq_bigSepL ([0, 1, 2, 3, 4, 5, 6, 7] : List (Fin 8)) (by decide) (by decide),
    bigSep_univ_eq_bigSepL ([0, 1, 2, 3, 4, 5, 6, 7, 8, 9, 10, 11, 12, 13] : List (Fin 14)) (by decide) (by decide)]
  simp only [bigSepL_cons_cons, bigSepL_singleton, sep_eq]
  rw [sendPay_7_hold, sendPay_8_hold, sendPay_9_hold, sendPay_10_hold, sendPay_11_hold, sendPay_12_hold, sendPay_13_hold]
  iintro ⟨⟨H14, H22, H32, H⟩, -, -, -, -, -, -, -, S7, S8, S9, S10, S11, S12, S13⟩
  isplitl [S7 S8 S10]; · iapply (slab_thirds m c p 0); iframe
  isplitl [S9 S11 H14]; · iapply (slab_thirds m c p 1); iframe
  isplitl [S13 H22]; · iapply (slab_halves m c p 2); iframe
  isplitl [S12 H32]; · iapply (slab_halves m c p 3); iframe
  iexact H

end Home

theorem stage_home (c : Dev nD) :
    iprop((bigSep holdEnd fun t => holdΦ m c t) ∗ (bigSep Finset.univ fun pi : Fin 3 × Fin 14 => sendPay m c pi.1 pi.2))
      ⊢ (iprop(∃ f, sL c ↦{fullShare} f) : sProp 𝕄) := by
  refine .trans ?_ (Tiles.stg_whole c fun pr => Stg (X m) pr.1 (roleJ pr.1 pr.2 c))
  rw [bigSep_eq_bigSepL_of_eq
    ([(0, 1, 4), (0, 2, 2), (0, 3, 2), (0, 4, 0), (0, 5, 0), (0, 6, 0), (0, 7, 0),
      (1, 1, 4), (1, 2, 2), (1, 3, 2), (1, 4, 0), (1, 5, 0), (1, 6, 0), (1, 7, 0),
      (2, 1, 4), (2, 2, 2), (2, 3, 2), (2, 4, 0), (2, 5, 0), (2, 6, 0), (2, 7, 0)] : List (Fin 3 × Fin 8 × Fin 5)) (by decide) (by decide)]
  simp only [bigSep_univ_prod, bigSep_univ_eq_bigSepL ([0, 1, 2] : List (Fin 3)) (by decide) (by decide), bigSepL_cons_cons, bigSepL_singleton, sep_eq]
  iintro ⟨⟨A1, A2, A3, A4, A5, A6, A7, B1, B2, B3, B4, B5, B6, B7, C⟩, S0, S1, S2⟩
  isplitl [A1 A2 A3 A4 A5 A6 A7 S0]; · iapply (part_home m c 0); iframe
  isplitl [B1 B2 B3 B4 B5 B6 B7 S1]; · iapply (part_home m c 1); iframe
  iapply (part_home m c 2); iframe

theorem slots_home (c : Dev nD) :
    (bigSep slotsAll fun pi => slotΦ m c pi) ⊢ (iprop(∃ f, rL c ↦{fullShare} f) : sProp 𝕄) :=
  Tiles.rsr_whole c fun pi => reRow (srcRow pi.1 c pi.2) (slot pi.1 c pi.2) (sent m pi.1 (peer pi.1 (stp pi.2) c) pi.2)

theorem Xlev_nFin_eq (c : Dev nD) : Xlev (X m) c (nFin c) = XFin m c := Xlev_nFin_fun (X m) c

theorem end_close (K : CellIx → ℕ) (c : Dev nD) :
    endSt m K c 42 ⊢ (iprop(|={Set.univ}=> bodyPost m ρ c) : sProp 𝕄) := by
  unfold endSt
  rw [swN_all, Xlev_nFin_eq]
  iintro ⟨Hg, Hpay, Hx, Ho, Hh, Hs⟩
  imod (close_all m K c) $$ Hg with ⟨Hsem, HO⟩
  imodintro
  iapply (bodyPost_intro m ρ c)
  unfold Φ₁ scratch
  iframe Hsem HO Hx Ho
  isplitl [Hh Hpay]
  · iapply (stage_home m c); iframe
  iapply (slots_home m c) $$ Hs

end Cert.KernelIdeal.RsAg

end
-- ==== Proof.KI.BodyD.lean ====
import proofs.«901015_g7700000000001016_dist_rs_then_ag_i_m4096_n1024_v7x_i8_f32_1_alg».proof.Proof.KI.Cut40
import proofs.«901015_g7700000000001016_dist_rs_then_ag_i_m4096_n1024_v7x_i8_f32_1_alg».proof.Proof.KI.Steps
import proofs.«901015_g7700000000001016_dist_rs_then_ag_i_m4096_n1024_v7x_i8_f32_1_alg».proof.Proof.KI.Slabs
import proofs.«901015_g7700000000001016_dist_rs_then_ag_i_m4096_n1024_v7x_i8_f32_1_alg».proof.Proof.KI.EndD

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem mem_rows_slab (p : Fin 3) (j : Nat) (i : W.Idx) :
    i ∈ rowsSet (S := S4096x1024) ⟨0, by decide⟩ (slab p j) (eRows p) ↔ inSlab p j (i 0).val := by
  rw [mem_rowsSet]; rfl

section Local

variable (c : Dev nD)

theorem stg_load (p : Fin 3) (o : Nat) (q : PosShare TreeShare) (f : FVec F W .bf16)
    (off sz : Fin 2 → Nat) (hoff : off = ![o, 0]) (hsz : sz = ![eRows p, 1024])
    {inb : ∀ a, off a + sz a ≤ S4096x1024.size a}
    {hl : (sM).view.LoadsAt (Rect.unit (s := S4096x1024) off sz inb).toLoadRect}
    {α : Type} {Q : α → sProp 𝕄} {k : Vec F ⟨2, sz⟩ .bf16 → Prog (TpuEff nD τ sig (Elt F) Λ₀ .tc) α} :
    stgRows c p o q f ⊢ iprop((stgRows c p o q f -∗ wpc c (k fun jj => f ((Rect.unit (s := S4096x1024) off sz inb).emb jj)) Q)
      -∗ wpc c (.op (.load sM (Rect.unit (s := S4096x1024) off sz inb).toLoadRect hl) k) Q) := by
  subst hoff hsz
  unfold stgRows
  exact wp_load Variants.none (Dev.tc c : Thread nD τ) none Set.univ (m := sM) (S := rowsSet (S := S4096x1024) ⟨0, by decide⟩ o (eRows p))
    fun i hi => (congrArg (i ∈ ·) (rows4096_set inb)).mp ((congrArg (i ∈ ·) (setOn_whole cc0_scratch0 _)).mp hi)

theorem out_store_core (p : Fin 3) (j : Nat) (hj : j < 8) (hne : j ≠ jK2 p c)
    (done : Fin 3 → Nat → Prop) [∀ p j, Decidable (done p j)] (f₀ : FVec F W .f32)
    (off sz : Fin 2 → Nat) (hoff : off = ![slab p j, 0]) (hsz : sz = ![eRows p, 1024])
    {inb : ∀ a, off a + sz a ≤ S4096x1024.size a}
    {hx : ((oM).access (Rect.unit (s := S4096x1024) off sz inb)).Stores Finset.univ}
    {hm : (Finset.univ : Finset (Rect.unit (s := S4096x1024) off sz inb).shape.Idx) = Finset.univ
      ∨ ∀ a, (Rect.unit (s := S4096x1024) off sz inb).stride a = 1}
    (w : FVec F ⟨2, sz⟩ .f32)
    (hw : ∀ jj, w jj = rcv (Stg (X m) p j) ((Rect.unit (s := S4096x1024) off sz inb).emb jj))
    {α : Type} {Q : α → sProp 𝕄} {k : PUnit → Prog (TpuEff nD τ sig (Elt F) Λ₀ .tc) α} :
    (oL c ↦{fullShare} OutAt (X m) c done f₀ : sProp 𝕄)
      ⊢ iprop(((oL c ↦{fullShare} OutAt (X m) c (doneAdd done p j) f₀) -∗ wpc c (k ⟨⟩) Q)
          -∗ wpc c (.op (.store oM (Rect.unit (s := S4096x1024) off sz inb) w Finset.univ hx hm) k) Q) := by
  subst hoff hsz
  have hG : ((oM).access (Rect.unit (s := S4096x1024) ![slab p j, 0] ![eRows p, 1024] inb)).write
      (Elt F) (OutAt (X m) c done f₀) w Finset.univ = OutAt (X m) c (doneAdd done p j) f₀ := by
    refine OutAt_store (X m) c done f₀ hj (rcv (Stg (X m) p j)) _ (fun i hi => Out_on_other (X m) c i hj hne hi)
      (fun i hi => ?_) (fun i hi => ?_)
    · have hi' : i ∈ (Rect.unit (s := S4096x1024) ![slab p j, 0] ![eRows p, 1024] inb).set := by
        rw [rows4096_set]; exact (mem_rows_slab p j i).mpr hi
      obtain ⟨jj, rfl⟩ := (Rect.unit (s := S4096x1024) ![slab p j, 0] ![eRows p, 1024] inb).exists_idx_of_mem hi'
      exact (write_whole_emb (Val := Elt F) cc0_stg1_0 (Rect.unit (s := S4096x1024) ![slab p j, 0] ![eRows p, 1024] inb) (OutAt (X m) c done f₀) w jj).trans (hw jj)
    · refine write_whole_of_not_mem (Val := Elt F) cc0_stg1_0 (Rect.unit (s := S4096x1024) ![slab p j, 0] ![eRows p, 1024] inb) (OutAt (X m) c done f₀) w (fun hi' => hi ?_)
      rw [rows4096_set] at hi'; exact (mem_rows_slab p j i).mp hi'
  have h := wp_store (Ix := Unit) (Name := ℕ) (U := UU) (Lvl := ℕ) (defs := defs₀ (F := F)) (Γ := PendingWaitsCtx.empty) (Q := Q) (k := k) Variants.none (Dev.tc c : Thread nD τ) none Set.univ (m := oM)
    (r := Rect.unit (s := S4096x1024) ![slab p j, 0] ![eRows p, 1024] inb) (w := w) (Mk := Finset.univ) (hx := hx) (hm := hm)
    (S := Finset.univ) (f := OutAt (X m) c done f₀) (Finset.subset_univ _)
  rw [hG] at h
  exact h

end Local

def gSt (K : CellIx → ℕ) (c : Dev nD) (waited : Finset (Fin 3 × Fin 14)) (done : Fin 3 → Nat → Prop)
    [∀ p j, Decidable (done p j)] (hold : Finset (Fin 3 × Fin 8 × Fin 5)) : sProp 𝕄 :=
  iprop(∃ f₀, agState m K c (nFin c) 42 waited done f₀ ∅ hold slotsAll ∅)

section Steps

variable {m} {K : CellIx → ℕ} {c : Dev nD} {waited : Finset (Fin 3 × Fin 14)} {done : Fin 3 → Nat → Prop}
  [∀ p j, Decidable (done p j)] {hold : Finset (Fin 3 × Fin 8 × Fin 5)}

theorem pure_l {φ : Prop} {P R G : sProp 𝕄} (h : φ → iprop(P ∗ R) ⊢ G) : iprop((P ∗ ⌜φ⌝) ∗ R) ⊢ G := by
  iintro ⟨⟨H, %hφ⟩, HR⟩
  iapply (h hφ)
  iframe

theorem pure_r {φ : Prop} {P : sProp 𝕄} (hφ : φ) : P ⊢ iprop(P ∗ ⌜φ⌝) := by
  iintro H
  iframe
  ipureintro
  exact hφ

/-- The wait for landing `i` of part `p`: what landed stays beside the state. -/
theorem g_wait (p : Fin 3) (i : Fin 14) {R : sProp 𝕄} {α : Type} {Q : α → sProp 𝕄}
    {sp sp' : Space} {s' : Shape} {e' : EltTy} {src : Memref sig .tc sp' s' e'} {dst : Memref sig .tc sp ⟨2, ![eRows p, 1024]⟩ .bf16}
    {hsrc : src.view.WordExact} {hdst : dst.view.WordExact} {k : PUnit → Prog (TpuEff nD τ sig (Elt F) Λ₀ .tc) α}
    (h : iprop((gSt m K c (insert (p, i) waited) done hold ∗ recvPay m c p i) ∗ R) ⊢ wpc c (k ⟨⟩) Q)
    (hw : (p, i) ∉ waited := by decide) (hns : 42 = nBefore p i := by decide) :
    iprop(gSt m K c waited done hold ∗ R) ⊢ wpc c (.op (.waitDma2 (rSem p i) src dst hsrc hdst) k) Q := by
  unfold gSt agState at h ⊢
  iintro ⟨⟨%f₀, Hg, H⟩, HR⟩
  iapply (step_waitRecv m K c 42 waited p i hw hns (slab_credit p i _)) $$ Hg
  iintro ⟨Hg, Hp⟩
  iapply h
  iframe HR Hp
  iexists f₀
  iframe

/-- The load of slab `t` just landed: it joins the slabs in hand. -/
theorem g_stg (t : Fin 3 × Fin 8 × Fin 5) {off sz : Fin 2 → Nat} (hoff : off = ![roleRow t.1 t.2.1 c, 0]) (hsz : sz = ![eRows t.1, 1024])
    {inb : ∀ a, off a + sz a ≤ S4096x1024.size a} {hl : (sM).view.LoadsAt (Rect.unit (s := S4096x1024) off sz inb).toLoadRect}
    {R : sProp 𝕄} {α : Type} {Q : α → sProp 𝕄} {k : Vec F ⟨2, sz⟩ .bf16 → Prog (TpuEff nD τ sig (Elt F) Λ₀ .tc) α}
    (h : iprop(gSt m K c waited done (insert t hold) ∗ R)
      ⊢ wpc c (k fun jj => Stg (X m) t.1 (roleJ t.1 t.2.1 c) ((Rect.unit (s := S4096x1024) off sz inb).emb jj)) Q)
    (ht : t ∉ hold := by decide) :
    iprop((gSt m K c waited done hold ∗ holdΦ m c t) ∗ R)
      ⊢ wpc c (.op (.load sM (Rect.unit (s := S4096x1024) off sz inb).toLoadRect hl) k) Q := by
  unfold gSt agState at h ⊢
  rw [bigSep_insert ht, sep_eq] at h
  iintro ⟨⟨⟨%f₀, Hg, Hx, Ho, Hr, Hh, H⟩, Ht⟩, HR⟩
  iapply (stg_load c t.1 _ _ _ off sz hoff hsz) $$ Ht
  iintro Ht
  iapply h
  iframe HR
  iexists f₀
  iframe

/-- The store of slab `t`'s total, widened, into the result (after the load the program makes of the same place). -/
theorem g_out (t : Fin 3 × Fin 8 × Fin 5) {off sz : Fin 2 → Nat} (hoff : off = ![slab t.1 (roleJ t.1 t.2.1 c), 0])
    (hsz : sz = ![eRows t.1, 1024]) {inb : ∀ a, off a + sz a ≤ S4096x1024.size a} {w : FVec F ⟨2, sz⟩ .f32}
    (hw : ∀ jj, w jj = rcv (Stg (X m) t.1 (roleJ t.1 t.2.1 c)) ((Rect.unit (s := S4096x1024) off sz inb).emb jj))
    {hl : (oM).view.LoadsAt (Rect.unit (s := S4096x1024) off sz inb).toLoadRect}
    {hx : ((oM).access (Rect.unit (s := S4096x1024) off sz inb)).Stores Finset.univ}
    {hm : (Finset.univ : Finset (Rect.unit (s := S4096x1024) off sz inb).shape.Idx) = Finset.univ
      ∨ ∀ a, (Rect.unit (s := S4096x1024) off sz inb).stride a = 1}
    {R : sProp 𝕄} {α : Type} {Q : α → sProp 𝕄} {k : PUnit → Prog (TpuEff nD τ sig (Elt F) Λ₀ .tc) α}
    (h : iprop(gSt m K c waited (doneAdd done t.1 (roleJ t.1 t.2.1 c)) hold ∗ R) ⊢ wpc c (k ⟨⟩) Q)
    (hr : t.2.1 ≠ 0 := by decide) :
    iprop(gSt m K c waited done hold ∗ R)
      ⊢ wpc c (.op (.load oM (Rect.unit (s := S4096x1024) off sz inb).toLoadRect hl) fun _ =>
          .op (.store oM (Rect.unit (s := S4096x1024) off sz inb) w Finset.univ hx hm) k) Q := by
  unfold gSt agState at h ⊢
  iintro ⟨⟨%f₀, Hg, Hx, Ho, H⟩, HR⟩
  iapply (wp_load Variants.none (Dev.tc c : Thread nD τ) none Set.univ (m := oM) (Finset.subset_univ _)) $$ Ho
  iintro Ho
  iapply (out_store_core m c t.1 _ (roleJ_lt _ _ _) (roleJ_ne_jK2 _ _ _ hr) done f₀ off sz hoff hsz w hw) $$ Ho
  iintro Ho
  iapply h
  iframe HR
  iexists f₀
  iframe

/-- Every landing waited for and every slab written: the state the waits on the send cells start from. -/
theorem g_end {R G : sProp 𝕄} (hd : ∀ p j, j < 8 → done p j) (h : iprop(endSt m K c 0 ∗ R) ⊢ G)
    (hw : waited = Finset.univ := by decide) (hh : hold = holdEnd := by decide) :
    iprop(gSt m K c waited done hold ∗ R) ⊢ G := by
  subst hw hh
  unfold gSt agState
  iintro ⟨⟨%f₀, Hg, Hx, Ho, -, Hh, Hs, -⟩, HR⟩
  rw [OutAt_of_all (X m) c done f₀ hd]
  iapply h
  unfold endSt
  rw [swN_zero, bigSep_empty]
  ihave Hg := (ghostEnd_of_ghostAt m K c) $$ Hg
  iframe
  iempintro

end Steps

def St41 (K : CellIx → ℕ) (c : Dev nD) (r : FVec F S160x1024 .f32) : sProp 𝕄 :=
  iprop(gSt m K c gw2 (gd2 c) gh2
    ∗ ⌜∀ j, r j = rcv (Stg (X m) 2 (jLb 2 c))
        ((Rect.unit (s := S4096x1024) (k0_off86 c) S160x1024.size (k0_off86_inb c)).emb j)⌝)

def St42 (K : CellIx → ℕ) (c : Dev nD) (r : Σ' (_ : BitVec 32), Vec F S176x1024 .bf16) : sProp 𝕄 :=
  iprop(gSt m K c gw4 (gd4 c) gh4
    ∗ ⌜∀ j, r.2 j = Stg (X m) 0 (jFb 0 c)
        ((Rect.unit (s := S4096x1024) (k0_off88 c) S176x1024.size (k0_off88_inb c)).emb j)⌝)

def St43 (K : CellIx → ℕ) (c : Dev nD) : sProp 𝕄 :=
  iprop(gSt m K c gw6 (gd6 c) gh5 ∗ recvPay m c 1 12)

def St44 (K : CellIx → ℕ) (c : Dev nD) : sProp 𝕄 :=
  iprop(gSt m K c gw8 (gd8 c) gh7 ∗ recvPay m c 2 12)

theorem exec_part41 (K : CellIx → ℕ) (c : Dev nD) (v62 v68 v73 v109 v112 v117 v992 v1050 : BitVec 32)
    (v1271 : FVec F S176x1024 .f32) (Q : FVec F S160x1024 .f32 → sProp 𝕄) :
    iprop(Cut40 m K c v1271 ∗ (∀ r, St41 m K c r -∗ Q r))
      ⊢ wp frame (wpE (defs₀ (F := F)) 𝒱₀ (Dev.tc c : Thread nD τ) none) Set.univ (k0_part41 (F := F) xM hxM oM hoM sM hsM rM hrM cc0_scratch2 cc0_scratch3 c v62 v68 v73 v109 v112 v117 v992 v1050 v1271) Q := by
  rw [k0_part41_eq_skeleton]
  unfold k0_part41_skel Cut40
  exact pure_l fun hv => g_out (1, 7, 0) (off84_eq c) rfl hv <| g_wait 1 11 <| g_stg (1, 6, 0) (off85_eq c) rfl <|
    g_out (1, 6, 0) (off85_eq c) rfl (fun _ => rfl) <| g_wait 2 10 <| g_stg (2, 7, 0) (off86_eq c) rfl <|
    ret_wand _ (pure_r fun _ => rfl)

theorem exec_part42 (K : CellIx → ℕ) (c : Dev nD) (v21 v24 v29 v109 v112 v117 v1079 v1103 : BitVec 32)
    (v1302 : FVec F S160x1024 .f32) (Q : (Σ' (_ : BitVec 32), Vec F S176x1024 .bf16) → sProp 𝕄) :
    iprop(St41 m K c v1302 ∗ (∀ r, St42 m K c r -∗ Q r))
      ⊢ wp frame (wpE (defs₀ (F := F)) 𝒱₀ (Dev.tc c : Thread nD τ) none) Set.univ (k0_part42 (F := F) xM hxM oM hoM sM hsM rM hrM cc0_scratch2 cc0_scratch3 c v21 v24 v29 v109 v112 v117 v1079 v1103 v1302) Q := by
  rw [k0_part42_eq_skeleton]
  unfold k0_part42_skel St41
  exact pure_l fun hv => g_out (2, 7, 0) (off86_eq c) rfl hv <| g_wait 2 11 <| g_stg (2, 6, 0) (off87_eq c) rfl <|
    g_out (2, 6, 0) (off87_eq c) rfl (fun _ => rfl) <| g_wait 0 12 <| g_stg (0, 5, 0) (off88_eq c) rfl <|
    ret_wand _ (pure_r fun _ => rfl)

theorem exec_part43 (K : CellIx → ℕ) (c : Dev nD) (v21 v24 v29 v62 v68 v73 v1124 v1148 v1331 : BitVec 32)
    (v1333 : Vec F S176x1024 .bf16) (Q : (Σ' (_ : BitVec 32), BitVec 32) → sProp 𝕄) :
    iprop(St42 m K c ⟨v1331, v1333⟩ ∗ (∀ r, St43 m K c -∗ Q r))
      ⊢ wp frame (wpE (defs₀ (F := F)) 𝒱₀ (Dev.tc c : Thread nD τ) none) Set.univ (k0_part43 (F := F) xM hxM oM hoM sM hsM rM hrM cc0_scratch2 cc0_scratch3 c v21 v24 v29 v62 v68 v73 v1124 v1148 v1331 v1333) Q := by
  rw [k0_part43_eq_skeleton]
  unfold k0_part43_skel St42
  exact pure_l fun hv => g_out (0, 5, 0) (off88_eq c) rfl (fun jj => congrArg (FloatOps.extf .f32 bf16_lt_f32) (hv jj)) <|
    g_wait 0 13 <| g_stg (0, 4, 0) (off89_eq c) rfl <| g_out (0, 4, 0) (off89_eq c) rfl (fun _ => rfl) <| g_wait 1 12 <|
    ret_wand _ .rfl

theorem exec_part44 (K : CellIx → ℕ) (c : Dev nD) (v62 v68 v73 v109 v1169 v1193 v1362 v1363 : BitVec 32)
    (Q : (Σ' (_ : BitVec 32), BitVec 32) → sProp 𝕄) :
    iprop(St43 m K c ∗ (∀ r, St44 m K c -∗ Q r))
      ⊢ wp frame (wpE (defs₀ (F := F)) 𝒱₀ (Dev.tc c : Thread nD τ) none) Set.univ (k0_part44 (F := F) xM hxM oM hoM sM hsM rM hrM cc0_scratch2 cc0_scratch3 c v62 v68 v73 v109 v1169 v1193 v1362 v1363) Q := by
  rw [k0_part44_eq_skeleton]
  unfold k0_part44_skel St43
  exact g_stg (1, 5, 0) (off90_eq c) rfl <| g_out (1, 5, 0) (off90_eq c) rfl (fun _ => rfl) <| g_wait 1 13 <|
    g_stg (1, 4, 0) (off91_eq c) rfl <| g_out (1, 4, 0) (off91_eq c) rfl (fun _ => rfl) <| g_wait 2 12 <| ret_wand _ .rfl

theorem exec_part45 (K : CellIx → ℕ) (c : Dev nD) (v109 v112 v117 v1214 v1393 c320 : BitVec 32) (Q : PUnit → sProp 𝕄) :
    iprop(St44 m K c ∗ (∀ r, endSt m K c 1 -∗ Q r))
      ⊢ wp frame (wpE (defs₀ (F := F)) 𝒱₀ (Dev.tc c : Thread nD τ) none) Set.univ (k0_part45 (F := F) xM hxM oM hoM sM hsM rM hrM cc0_scratch2 cc0_scratch3 c v109 v112 v117 v1214 v1393 c320) Q := by
  rw [k0_part45_eq_skeleton]
  unfold k0_part45_skel St44
  exact g_stg (2, 5, 0) (off92_eq c) rfl <| g_out (2, 5, 0) (off92_eq c) rfl (fun _ => rfl) <| g_wait 2 13 <|
    g_stg (2, 4, 0) (off93_eq c) rfl <| g_out (2, 4, 0) (off93_eq c) rfl (fun _ => rfl) <| g_end (d10_all c) <|
    end_wait 0 0 <| ret_wand _ .rfl

theorem exec_part46 (K : CellIx → ℕ) (c : Dev nD) (Q : PUnit → sProp 𝕄) :
    iprop(endSt m K c 1 ∗ (∀ r, endSt m K c 6 -∗ Q r))
      ⊢ wp frame (wpE (defs₀ (F := F)) 𝒱₀ (Dev.tc c : Thread nD τ) none) Set.univ (k0_part46 (F := F) xM hxM oM hoM sM hsM rM hrM cc0_scratch2 cc0_scratch3 c) Q := by
  rw [k0_part46_eq_skeleton]
  unfold k0_part46_skel
  exact end_wait 0 1 <| end_wait 0 2 <| end_wait 0 3 <| end_wait 0 4 <| end_wait 0 5 <| ret_wand _ .rfl

theorem exec_part47 (K : CellIx → ℕ) (c : Dev nD) (Q : PUnit → sProp 𝕄) :
    iprop(endSt m K c 6 ∗ (∀ r, endSt m K c 11 -∗ Q r))
      ⊢ wp frame (wpE (defs₀ (F := F)) 𝒱₀ (Dev.tc c : Thread nD τ) none) Set.univ (k0_part47 (F := F) xM hxM oM hoM sM hsM rM hrM cc0_scratch2 cc0_scratch3 c) Q := by
  rw [k0_part47_eq_skeleton]
  unfold k0_part47_skel
  exact end_wait 0 6 <| end_wait 0 7 <| end_wait 0 8 <| end_wait 0 9 <| end_wait 0 10 <| ret_wand _ .rfl

theorem exec_part48 (K : CellIx → ℕ) (c : Dev nD) (Q : PUnit → sProp 𝕄) :
    iprop(endSt m K c 11 ∗ (∀ r, endSt m K c 16 -∗ Q r))
      ⊢ wp frame (wpE (defs₀ (F := F)) 𝒱₀ (Dev.tc c : Thread nD τ) none) Set.univ (k0_part48 (F := F) xM hxM oM hoM sM hsM rM hrM cc0_scratch2 cc0_scratch3 c) Q := by
  rw [k0_part48_eq_skeleton]
  unfold k0_part48_skel
  exact end_wait 0 11 <| end_wait 0 12 <| end_wait 0 13 <| end_wait 1 0 <| end_wait 1 1 <| ret_wand _ .rfl

theorem exec_part49 (K : CellIx → ℕ) (c : Dev nD) (Q : PUnit → sProp 𝕄) :
    iprop(endSt m K c 16 ∗ (∀ r, endSt m K c 21 -∗ Q r))
      ⊢ wp frame (wpE (defs₀ (F := F)) 𝒱₀ (Dev.tc c : Thread nD τ) none) Set.univ (k0_part49 (F := F) xM hxM oM hoM sM hsM rM hrM cc0_scratch2 cc0_scratch3 c) Q := by
  rw [k0_part49_eq_skeleton]
  unfold k0_part49_skel
  exact end_wait 1 2 <| end_wait 1 3 <| end_wait 1 4 <| end_wait 1 5 <| end_wait 1 6 <| ret_wand _ .rfl

theorem exec_part50 (K : CellIx → ℕ) (c : Dev nD) (Q : PUnit → sProp 𝕄) :
    iprop(endSt m K c 21 ∗ (∀ r, endSt m K c 26 -∗ Q r))
      ⊢ wp frame (wpE (defs₀ (F := F)) 𝒱₀ (Dev.tc c : Thread nD τ) none) Set.univ (k0_part50 (F := F) xM hxM oM hoM sM hsM rM hrM cc0_scratch2 cc0_scratch3 c) Q := by
  rw [k0_part50_eq_skeleton]
  unfold k0_part50_skel
  exact end_wait 1 7 <| end_wait 1 8 <| end_wait 1 9 <| end_wait 1 10 <| end_wait 1 11 <| ret_wand _ .rfl

theorem exec_part51 (K : CellIx → ℕ) (c : Dev nD) (Q : PUnit → sProp 𝕄) :
    iprop(endSt m K c 26 ∗ (∀ r, endSt m K c 31 -∗ Q r))
      ⊢ wp frame (wpE (defs₀ (F := F)) 𝒱₀ (Dev.tc c : Thread nD τ) none) Set.univ (k0_part51 (F := F) xM hxM oM hoM sM hsM rM hrM cc0_scratch2 cc0_scratch3 c) Q := by
  rw [k0_part51_eq_skeleton]
  unfold k0_part51_skel
  exact end_wait 1 12 <| end_wait 1 13 <| end_wait 2 0 <| end_wait 2 1 <| end_wait 2 2 <| ret_wand _ .rfl

theorem exec_part52 (K : CellIx → ℕ) (c : Dev nD) (Q : PUnit → sProp 𝕄) :
    iprop(endSt m K c 31 ∗ (∀ r, endSt m K c 35 -∗ Q r))
      ⊢ wp frame (wpE (defs₀ (F := F)) 𝒱₀ (Dev.tc c : Thread nD τ) none) Set.univ (k0_part52 (F := F) xM hxM oM hoM sM hsM rM hrM cc0_scratch2 cc0_scratch3 c) Q := by
  rw [k0_part52_eq_skeleton]
  unfold k0_part52_skel
  exact end_wait 2 3 <| end_wait 2 4 <| end_wait 2 5 <| end_wait 2 6 <| ret_wand _ .rfl

theorem exec_part53 (K : CellIx → ℕ) (c : Dev nD) (Q : PUnit → sProp 𝕄) :
    iprop(endSt m K c 35 ∗ (∀ r, endSt m K c 40 -∗ Q r))
      ⊢ wp frame (wpE (defs₀ (F := F)) 𝒱₀ (Dev.tc c : Thread nD τ) none) Set.univ (k0_part53 (F := F) xM hxM oM hoM sM hsM rM hrM cc0_scratch2 cc0_scratch3 c) Q := by
  rw [k0_part53_eq_skeleton]
  unfold k0_part53_skel
  exact end_wait 2 7 <| end_wait 2 8 <| end_wait 2 9 <| end_wait 2 10 <| end_wait 2 11 <| ret_wand _ .rfl

def tail54 (d0 : Dev nD) : Prog (TpuEff nD τ sig (Elt F) Λ₀ .tc) (Dev nD) := do
  let v1580 : DmaSems sig S1x1 := cc0_scratch2.slice (Rect.unit (s := S3x14) ![2, 12] S1x1.size inb_S3x14_S1x1_2_12)
  let v1581 : DmaSems sig S_ := v1580.squeeze S_ squeezes_S1x1_S_
  let v1582 : Memref sig .tc .vmem S160x1024 .bf16 := sM.slice (Rect.unit (s := S4096x1024) (k0_off54 d0) S160x1024.size (k0_off54_inb d0)) (fun _ => rfl)
  let v1583 : Memref sig .tc .vmem S160x1024 .bf16 := sM.slice (Rect.unit (s := S4096x1024) (k0_off54 d0) S160x1024.size (k0_off54_inb d0)) (fun _ => rfl)
  Prog.lift (.waitDma2 v1581.sem v1583 v1582 (hsM.wordExact_slice rfl _ (k0_off54_wordsbf16 d0)) (hsM.wordExact_slice rfl _ (k0_off54_wordsbf16 d0)))
  pure d0

def tailBody (d0 : Dev nD) : Prog (TpuEff nD τ sig (Elt F) Λ₀ .tc) PUnit := do
  let v1584 : DmaSems sig S1x1 := cc0_scratch2.slice (Rect.unit (s := S3x14) ![2, 13] S1x1.size inb_S3x14_S1x1_2_13)
  let v1585 : DmaSems sig S_ := v1584.squeeze S_ squeezes_S1x1_S_
  let v1586 : Memref sig .tc .vmem S160x1024 .bf16 := sM.slice (Rect.unit (s := S4096x1024) (k0_off42 d0) S160x1024.size (k0_off42_inb d0)) (fun _ => rfl)
  let v1587 : Memref sig .tc .vmem S160x1024 .bf16 := sM.slice (Rect.unit (s := S4096x1024) (k0_off42 d0) S160x1024.size (k0_off42_inb d0)) (fun _ => rfl)
  Prog.lift (.waitDma2 v1585.sem v1587 v1586 (hsM.wordExact_slice rfl _ (k0_off42_wordsbf16 d0)) (hsM.wordExact_slice rfl _ (k0_off42_wordsbf16 d0)))
  pure ⟨⟩

theorem exec_tail54 (K : CellIx → ℕ) (c : Dev nD) (Q : Dev nD → sProp 𝕄) :
    iprop(endSt m K c 40 ∗ (∀ r, (⌜r = c⌝ ∗ endSt m K c 41) -∗ Q r))
      ⊢ wp frame (wpE (defs₀ (F := F)) 𝒱₀ (Dev.tc c : Thread nD τ) none) Set.univ (tail54 (F := F) c) Q := by
  unfold tail54
  refine end_wait 2 12 <| ret_wand _ ?_
  iintro H
  iframe
  ipureintro
  rfl

theorem exec_tailBody (K : CellIx → ℕ) (c : Dev nD) (Q : PUnit → sProp 𝕄) :
    iprop(endSt m K c 41 ∗ (bodyPost m ρ c -∗ Q ⟨⟩))
      ⊢ wp frame (wpE (defs₀ (F := F)) 𝒱₀ (Dev.tc c : Thread nD τ) none) Set.univ (tailBody (F := F) c) Q := by
  unfold tailBody
  refine end_wait 2 13 ?_
  iintro ⟨H, HQ⟩
  imod (end_close m ρ K c) $$ H with H
  iapply (le_wp_ret _ _)
  iapply HQ $$ H

end Cert.KernelIdeal.RsAg

end
-- ==== Proof.KI.Body.lean ====
/-
  The body of one device, whole: the per-part theorems composed along the root sequence of the printed body, then the
  two waits after it. Each step binds the part's theorem into the rest of the sequence; the state after a part is the
  state before the next.
-/
import proofs.«901015_g7700000000001016_dist_rs_then_ag_i_m4096_n1024_v7x_i8_f32_1_alg».proof.Proof.KI.Open
import proofs.«901015_g7700000000001016_dist_rs_then_ag_i_m4096_n1024_v7x_i8_f32_1_alg».proof.Proof.KI.Part1
import proofs.«901015_g7700000000001016_dist_rs_then_ag_i_m4096_n1024_v7x_i8_f32_1_alg».proof.Proof.KI.PartsPure
import proofs.«901015_g7700000000001016_dist_rs_then_ag_i_m4096_n1024_v7x_i8_f32_1_alg».proof.Proof.KI.PartsA
import proofs.«901015_g7700000000001016_dist_rs_then_ag_i_m4096_n1024_v7x_i8_f32_1_alg».proof.Proof.KI.PartsA9
import proofs.«901015_g7700000000001016_dist_rs_then_ag_i_m4096_n1024_v7x_i8_f32_1_alg».proof.Proof.KI.BodyB
import proofs.«901015_g7700000000001016_dist_rs_then_ag_i_m4096_n1024_v7x_i8_f32_1_alg».proof.Proof.KI.BodyB21
import proofs.«901015_g7700000000001016_dist_rs_then_ag_i_m4096_n1024_v7x_i8_f32_1_alg».proof.Proof.KI.Parts27
import proofs.«901015_g7700000000001016_dist_rs_then_ag_i_m4096_n1024_v7x_i8_f32_1_alg».proof.Proof.KI.Parts36
import proofs.«901015_g7700000000001016_dist_rs_then_ag_i_m4096_n1024_v7x_i8_f32_1_alg».proof.Proof.KI.BodyD
import proofs.«901015_g7700000000001016_dist_rs_then_ag_i_m4096_n1024_v7x_i8_f32_1_alg».proof.Proof.Gen.KernelIdeal.Skeleton

set_option maxRecDepth 65536

noncomputable section

namespace Cert.KernelIdeal.RsAg

open Cert.KernelIdeal Cert.KernelIdeal.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A part's theorem stated with its continuation as a wand, used with the continuation as an entailment. -/
theorem of_wand {β : Type} {Pre : sProp 𝕄} {Post Q : β → sProp 𝕄} {R : sProp 𝕄}
    (hw : iprop(Pre ∗ (∀ r, Post r -∗ Q r)) ⊢ R) (h : ∀ r, Post r ⊢ Q r) : Pre ⊢ R := by
  iintro H
  iapply hw
  isplitl [H]; · iexact H
  iintro %r Hr
  iapply (h r) $$ Hr

set_option maxHeartbeats 6400000 in
/-- The root sequence of the body: from what the body starts with to what its last wait but one leaves. -/
theorem sound_part54 (K : CellIx → ℕ) (c : Dev nD) (Q : Dev nD → sProp 𝕄)
    (hQ : ∀ r, iprop(⌜r = c⌝ ∗ endSt m K c 41) ⊢ Q r) :
    St0 m K c ⊢ wp frame (wpE (defs₀ (F := F)) 𝒱₀ (Dev.tc c : Thread nD τ) none) Set.univ
      (k0_part54 (F := F) xM hxM oM hoM sM hsM rM hrM cc0_scratch2 cc0_scratch3) Q := by
  rw [k0_part54_eq_skeleton]
  unfold k0_part54_skel
  -- part 1
  rw [wp_bind]
  refine exec_part1 m K c _ (fun v2 v18 v21 v24 v25 c0_i32_20 => ?_)
  try dsimp only
  -- part 2
  rw [wp_bind]
  refine exec_part2 c _ v2 v18 v21 v24 v25 c0_i32_20 _ (fun ⟨v29, v34, v36, v39, v42, v47, v51, v54, v56, v58, c0_i32_45⟩ => ?_)
  try dsimp only
  -- part 3
  rw [wp_bind]
  refine exec_part3 c _ v2 v58 c0_i32_45 _ (fun ⟨v62, v68, v73, v78, v80, v83, v86, v91, c352_i32_70⟩ => ?_)
  try dsimp only
  -- part 4
  rw [wp_bind]
  refine exec_part4 c _ v2 v62 v68 c352_i32_70 _ (fun ⟨v95, v98, v100, v109, v112, v117, v119, v122, v124⟩ => ?_)
  try dsimp only
  -- part 5
  rw [wp_bind]
  refine exec_part5 m K c v21 v24 v29 v109 v112 v119 _ (fun ⟨v127, v130, v135, v139, v142, v144, v147, v159⟩ => ?_)
  try dsimp only
  -- part 6
  rw [wp_bind]
  refine exec_part6 m K c v2 v24 v42 v62 v73 v147 v159 _ (fun v162 v175 v186 v190 v192 => ?_)
  try dsimp only
  -- part 7
  rw [wp_bind]
  refine exec_part7 m K c v2 v68 v86 v109 v186 v190 v192 _ (fun ⟨v201, v214, v223, c320_i32_164⟩ => ?_)
  try dsimp only
  -- part 8
  rw [wp_bind]
  refine exec_part8 m K c v2 v112 v117 v130 v223 c320_i32_164 _ (fun ⟨v240, v253⟩ => ?_)
  try dsimp only
  -- part 9
  rw [wp_bind]
  refine exec_part9 m K c v2 v21 v24 v29 _ (fun ⟨v275, v286⟩ => ?_)
  try dsimp only
  -- part 10
  rw [wp_bind]
  refine exec_part10 m K c v2 v62 v68 v73 _ (fun ⟨v308, v319⟩ => ?_)
  try dsimp only
  -- part 11
  rw [wp_bind]
  refine exec_part11 m K c v2 v109 v112 v117 _ (fun ⟨v341, v352⟩ => ?_)
  try dsimp only
  -- part 12
  rw [wp_bind]
  refine exec_part12 m K c v24 v34 v42 v162 _ (fun v392 => ?_)
  try dsimp only
  -- part 13
  rw [wp_bind]
  refine exec_part13 m K c v2 v24 v34 v68 v78 v86 v201 v392 _ (fun v396 v423 => ?_)
  try dsimp only
  -- part 14
  rw [wp_bind]
  refine exec_part14 m K c v2 v68 v78 v112 v240 v423 _ (fun v440 v455 => ?_)
  try dsimp only
  -- part 15
  rw [wp_bind]
  refine exec_part15 m K c v2 v112 v122 v130 v455 _ (fun v484 => ?_)
  try dsimp only
  -- part 16
  rw [wp_bind]
  refine exec_part16 m K c v2 v24 v34 v42 v175 _ (fun v524 v525 => ?_)
  try dsimp only
  -- part 17
  rw [wp_bind]
  refine exec_part17 m K c v68 v78 v86 v214 v525 _ (fun c176_i32_394 => ?_)
  try dsimp only
  -- part 18
  rw [wp_bind]
  refine exec_part18 m K c v2 v68 v78 v112 v122 v130 v253 c176_i32_394 _ (fun v564 v593 => ?_)
  try dsimp only
  -- part 19
  rw [wp_bind]
  refine exec_part19 m K c v2 v39 v47 v112 v122 v275 v593 _ (fun v604 => ?_)
  try dsimp only
  -- part 20
  rw [wp_bind]
  refine exec_part20 m K c v2 v39 v54 v396 _ (fun v651 => ?_)
  try dsimp only
  -- part 21
  rw [wp_bind]
  refine exec_part21 m K c v83 v91 v98 v308 v440 _ (fun v693 => ?_)
  try dsimp only
  -- part 22
  rw [wp_bind]
  refine exec_part22 m K c v2 v127 v135 v341 v484 v693 _ (fun v698 v722 c0_i32_511 => ?_)
  try dsimp only
  -- part 23
  rw [wp_bind]
  refine exec_part23 m K c v2 v127 v142 v286 v722 c0_i32_511 _ (fun v745 => ?_)
  try dsimp only
  -- part 24
  rw [wp_bind]
  refine exec_part24 m K c v36 v51 v56 v319 v524 _ ?_
  try dsimp only
  -- part 25
  rw [wp_bind]
  refine exec_part25 m K c v80 v95 v100 v124 v352 v564 _ ?_
  try dsimp only
  -- part 26
  rw [wp_bind]
  refine exec_part26 m K c v36 v124 v139 v144 v604 v651 _ (fun v852 => ?_)
  try dsimp only
  -- part 27
  rw [wp_bind]
  refine exec_part27 m K c v2 v36 v852 (h := fun v866 v875 v884 => ?_)
  try dsimp only
  -- part 28
  rw [wp_bind]
  refine exec_part28 m K c v36 v80 v698 v884 (h := fun v915 => ?_)
  try dsimp only
  -- part 29
  rw [wp_bind]
  refine exec_part29 m K c v2 v915 (h := fun v920 v929 v938 => ?_)
  try dsimp only
  -- part 30
  rw [wp_bind]
  refine exec_part30 m K c v2 v80 v124 v745 (h := fun v974 => ?_)
  try dsimp only
  -- part 31
  rw [wp_bind]
  refine exec_part31 m K c v2 v124 (h := fun v983 v992 c1_i32_725 => ?_)
  try dsimp only
  -- part 32
  rw [wp_bind]
  refine exec_part32 m K c v2 v39 v866 c1_i32_725 (h := fun v1012 v1021 => ?_)
  try dsimp only
  -- part 33
  rw [wp_bind]
  refine exec_part33 m K c v2 v83 v920 (h := fun v1041 v1050 => ?_)
  try dsimp only
  -- part 34
  rw [wp_bind]
  refine exec_part34 m K c v2 v127 v974 (h := fun v1070 v1079 => ?_)
  try dsimp only
  -- part 35
  rw [wp_bind]
  refine exec_part35 m K c v2 v24 v34 v875 v1012 (h := fun v1103 v1121 => ?_)
  try dsimp only
  -- part 36
  rw [wp_bind]
  refine exec_part36 m K c v2 v34 v68 v78 v929 v1121 (h := fun v1124 v1148 v1149 c0_i32_859 => ?_)
  try dsimp only
  -- part 37
  rw [wp_bind]
  refine exec_part37 m K c v2 v68 v78 v1041 v1149 c0_i32_859 (h := fun v1169 v1180 => ?_)
  try dsimp only
  -- part 38
  rw [wp_bind]
  refine exec_part38 m K c v2 v112 v122 v983 v1070 v1180 (h := fun v1193 v1208 c160_i32_913 => ?_)
  try dsimp only
  -- part 39
  rw [wp_bind]
  refine exec_part39 m K c v2 v21 v24 v29 v112 v122 v884 v1208 c160_i32_913 (h := fun v1214 v1240 => ?_)
  try dsimp only
  -- part 40
  rw [wp_bind]
  refine exec_part40 m K c v21 v24 v29 v62 v68 v73 v938 v1021 v1240 (h := fun v1271 => ?_)
  try dsimp only
  -- part 41
  rw [wp_bind]
  refine of_wand (exec_part41 m K c v62 v68 v73 v109 v112 v117 v992 v1050 v1271 _) (fun v1302 => ?_)
  try dsimp only
  -- part 42
  rw [wp_bind]
  refine of_wand (exec_part42 m K c v21 v24 v29 v109 v112 v117 v1079 v1103 v1302 _) (fun ⟨v1331, v1333⟩ => ?_)
  try dsimp only
  -- part 43
  rw [wp_bind]
  refine of_wand (exec_part43 m K c v21 v24 v29 v62 v68 v73 v1124 v1148 v1331 v1333 _) (fun ⟨v1362, v1363⟩ => ?_)
  try dsimp only
  -- part 44
  rw [wp_bind]
  refine of_wand (exec_part44 m K c v62 v68 v73 v109 v1169 v1193 v1362 v1363 _) (fun ⟨v1393, c320_i32_1065⟩ => ?_)
  try dsimp only
  -- part 45
  rw [wp_bind]
  refine of_wand (exec_part45 m K c v109 v112 v117 v1214 v1393 c320_i32_1065 _) (fun _ => ?_)
  try dsimp only
  -- part 46
  rw [wp_bind]
  refine of_wand (exec_part46 m K c _) (fun _ => ?_)
  try dsimp only
  -- part 47
  rw [wp_bind]
  refine of_wand (exec_part47 m K c _) (fun _ => ?_)
  try dsimp only
  -- part 48
  rw [wp_bind]
  refine of_wand (exec_part48 m K c _) (fun _ => ?_)
  try dsimp only
  -- part 49
  rw [wp_bind]
  refine of_wand (exec_part49 m K c _) (fun _ => ?_)
  try dsimp only
  -- part 50
  rw [wp_bind]
  refine of_wand (exec_part50 m K c _) (fun _ => ?_)
  try dsimp only
  -- part 51
  rw [wp_bind]
  refine of_wand (exec_part51 m K c _) (fun _ => ?_)
  try dsimp only
  -- part 52
  rw [wp_bind]
  refine of_wand (exec_part52 m K c _) (fun _ => ?_)
  try dsimp only
  -- part 53
  rw [wp_bind]
  refine of_wand (exec_part53 m K c _) (fun _ => ?_)
  try dsimp only
  -- the wait after the last part
  exact of_wand (exec_tail54 m K c Q) hQ

set_option maxHeartbeats 1600000 in
/-- One device's body, from the body's precondition to its postcondition. -/
theorem body_run (K : CellIx → ℕ) (c : Dev nD) :
    bodyPre m ρ K c ⊢ wp frame (wpE (defs₀ (F := F)) 𝒱₀ (Dev.tc c : Thread nD τ) none) Set.univ
      (cc0_body (F := F) xM hxM oM hoM sM hsM rM hrM cc0_scratch2 cc0_scratch3) (fun _ => bodyPost m ρ c) := by
  rw [cc0_body_eq_skeleton]
  unfold cc0_body_skel
  rw [wp_bind]
  refine (bodyPre_open m ρ K c).trans (sound_part54 m K c _ (fun r => ?_))
  dsimp only
  iintro ⟨%hr, H⟩
  subst hr
  iapply (exec_tailBody m ρ K r _)
  isplitl [H]; · iexact H
  iintro Hp
  iexact Hp

/-- The same against any continuation. -/
theorem sound_body (K : CellIx → ℕ) (c : Dev nD) (Kt : PUnit → sProp 𝕄) :
    iprop(bodyPre m ρ K c ∗ (bodyPost m ρ c -∗ Kt ⟨⟩))
      ⊢ wp frame (wpE (defs₀ (F := F)) 𝒱₀ (Dev.tc c : Thread nD τ) none) Set.univ
          (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨Hpre, Hk⟩
  iapply (wp_wand_r _ _ _ (Q := fun _ => bodyPost m ρ c))
  isplitl [Hpre]
  · iapply (body_run m ρ K c) $$ Hpre
  · iintro %a Hp
    iapply Hk $$ Hp

/-- info: 'Cert.KernelIdeal.RsAg.sound_body' depends on axioms: [propext, Classical.choice, Quot.sound] -/
#guard_msgs in #print axioms sound_body

end Cert.KernelIdeal.RsAg

end
-- ==== Proof.KI.Run.lean ====
import proofs.«901015_g7700000000001016_dist_rs_then_ag_i_m4096_n1024_v7x_i8_f32_1_alg».proof.Proof.KI.Launch
import proofs.«901015_g7700000000001016_dist_rs_then_ag_i_m4096_n1024_v7x_i8_f32_1_alg».proof.Proof.KI.Body

noncomputable section

namespace Cert.KernelIdeal.RsAg

open Idealize.ShloMosaic Idealize.SL.Sem Cert.KernelIdeal Cert.KernelIdeal.Gen

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = Cert.RsAg.Out (fun d : Fin 8 => m ((Dev.tc d : Thread nD τ).loc main_arg0)) c
      ∧ r.2.mem ((c.tc : Thread nD τ).loc main_arg0) = m ((c.tc : Thread nD τ).loc main_arg0)) :=
  run_of m ρ (fun K c Kt => sound_body m ρ K c Kt)

end Cert.KernelIdeal.RsAg

end
-- ==== Proof.K.Sched.lean ====
import proofs.«901015_g7700000000001016_dist_rs_then_ag_i_m4096_n1024_v7x_i8_f32_1_alg».proof.Proof.Gen.Kernel
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.Common
import Idealize.ShloMosaic.Lib.Pipeline.Launch
import Idealize.ShloMosaic.Lib.Pipeline.Kit
import Idealize.ShloMosaic.Lib.Tactic

noncomputable section

namespace Cert.Kernel.RsAg

open Cert.Kernel Cert.Kernel.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def X (d : Fin 8) : FVec F W .f32 := m ((Dev.tc d : Thread nD τ).loc main_arg0)

abbrev xL (c : Dev nD) : Loc nD τ sig := (Dev.tc c : Thread nD τ).loc cc0_stg0_0
abbrev oL (c : Dev nD) : Loc nD τ sig := (Dev.tc c : Thread nD τ).loc cc0_stg1_0
abbrev sL (c : Dev nD) : Loc nD τ sig := (Dev.tc c : Thread nD τ).loc cc0_scratch0
abbrev rL (c : Dev nD) : Loc nD τ sig := (Dev.tc c : Thread nD τ).loc cc0_scratch1

def stgRows (c : Dev nD) (p : Fin 3) (o : Nat) (q : PosShare TreeShare) (f : FVec F W .bf16) : sProp 𝕄 :=
  sL c ↦[rowsSet (S := S4096x1024) ⟨0, by decide⟩ o (eRows p)]{q} f
def rsrRows (c : Dev nD) (p : Fin 3) (o : Nat) (f : FVec F WR .bf16) : sProp 𝕄 :=
  rL c ↦[rowsSet (S := S3584x1024) ⟨0, by decide⟩ o (eRows p)]{fullShare} f

abbrev barS : Sem sig := (SemArray.scalar (sig.barrier 0 rfl) : Sems sig S_).sem
def sSem (p : Fin 3) (i : Fin 14) : DmaSem sig :=
  ⟨2 + 14 * p.val + i.val, by have hp := p.isLt; have hi := i.isLt; have h : sig.nDmaSem = 86 := (by decide); omega⟩
def rSem (p : Fin 3) (i : Fin 14) : DmaSem sig :=
  ⟨44 + 14 * p.val + i.val, by have hp := p.isLt; have hi := i.isLt; have h : sig.nDmaSem = 86 := (by decide); omega⟩

abbrev barCell (c : Dev nD) : GSem nD τ sig := ((Dev.tc c : Thread nD τ), .reg barS)
abbrev sendCell (c : Dev nD) (p : Fin 3) (i : Fin 14) : GSem nD τ sig := ((Dev.tc c : Thread nD τ), .dma (sSem p i))
abbrev recvCell (c : Dev nD) (p : Fin 3) (i : Fin 14) : GSem nD τ sig := ((Dev.tc c : Thread nD τ), .dma (rSem p i))

def semPart (s : DmaSem sig) : Fin 3 := ⟨((s.val - 2) % 42) / 14, by omega⟩
def semCopy (s : DmaSem sig) : Fin 14 := ⟨((s.val - 2) % 42) % 14, by omega⟩
def semIsRecv (s : DmaSem sig) : Bool := decide (44 ≤ s.val)

theorem semPart_sSem : ∀ (p : Fin 3) (i : Fin 14), semPart (sSem p i) = p := by decide
theorem semCopy_sSem : ∀ (p : Fin 3) (i : Fin 14), semCopy (sSem p i) = i := by decide
theorem semPart_rSem : ∀ (p : Fin 3) (i : Fin 14), semPart (rSem p i) = p := by decide
theorem semCopy_rSem : ∀ (p : Fin 3) (i : Fin 14), semCopy (rSem p i) = i := by decide
theorem semIsRecv_sSem : ∀ (p : Fin 3) (i : Fin 14), semIsRecv (sSem p i) = false := by decide
theorem semIsRecv_rSem : ∀ (p : Fin 3) (i : Fin 14), semIsRecv (rSem p i) = true := by decide

theorem inb0_r176 : ∀ a, (![0, 0] : Fin 2 → Nat) a + S176x1024.size a ≤ S3584x1024.size a := by decide
theorem inb0_r160 : ∀ a, (![0, 0] : Fin 2 → Nat) a + S160x1024.size a ≤ S3584x1024.size a := by decide
theorem inb0_s176 : ∀ a, (![0, 0] : Fin 2 → Nat) a + S176x1024.size a ≤ S4096x1024.size a := by decide
theorem inb0_s160 : ∀ a, (![0, 0] : Fin 2 → Nat) a + S160x1024.size a ≤ S4096x1024.size a := by decide

def cr176r : ℕ := ((Memref.whole cc0_scratch1 : Memref sig .tc .vmem S3584x1024 .bf16).slice (Rect.unit (s := S3584x1024) ![0, 0] S176x1024.size inb0_r176) (fun _ => rfl)).view.dmaCredit
def cr160r : ℕ := ((Memref.whole cc0_scratch1 : Memref sig .tc .vmem S3584x1024 .bf16).slice (Rect.unit (s := S3584x1024) ![0, 0] S160x1024.size inb0_r160) (fun _ => rfl)).view.dmaCredit
def cr176s : ℕ := ((Memref.whole cc0_scratch0 : Memref sig .tc .vmem S4096x1024 .bf16).slice (Rect.unit (s := S4096x1024) ![0, 0] S176x1024.size inb0_s176) (fun _ => rfl)).view.dmaCredit
def cr160s : ℕ := ((Memref.whole cc0_scratch0 : Memref sig .tc .vmem S4096x1024 .bf16).slice (Rect.unit (s := S4096x1024) ![0, 0] S160x1024.size inb0_s160) (fun _ => rfl)).view.dmaCredit
def amt (p : Fin 3) (i : Fin 14) : ℕ :=
  if i.val < 7 then (if p.val < 2 then cr176r else cr160r) else (if p.val < 2 then cr176s else cr160s)

theorem amt_pos (p : Fin 3) (i : Fin 14) : 0 < amt p i := by
  unfold amt cr176r cr160r cr176s cr160s; split <;> split <;> exact View.dmaCredit_pos _ (by decide)

def sent (p : Fin 3) (d : Fin 8) (i : Fin 14) : FVec F W .bf16 :=
  if i.val < 4 then snd (X m d) else if i.val < 6 then snd (P1 (X m) p d) else snd (P2 (X m) p d)

def recvPay (c : Fin 8) (p : Fin 3) (i : Fin 14) : sProp 𝕄 :=
  if i.val < 7 then
    iprop(rsrRows c p (slot p c i) (reRow (srcRow p c i) (slot p c i) (sent m p (peer p (stp i) c) i))
      ∗ stgRows (peer p (stp i) c) p (srcRow p c i) fullShare (sent m p (peer p (stp i) c) i))
  else stgRows c p (landRow p c i) fullShare (Stg (X m) p (landJ p c i))

def sendPay (c : Fin 8) (p : Fin 3) (i : Fin 14) : sProp 𝕄 :=
  if i.val < 7 then iprop(emp) else stgRows c p (gSrcRow p c i) (gShare i) (Stg (X m) p (gSrcJ p c i))

def slotsOf (d : Fin 8) (p k' : Fin 3) : sProp 𝕄 :=
  if k'.val = 0 then iprop((∃ f, rsrRows d p (rFa p d) f) ∗ (∃ f, rsrRows d p (rFb p d) f) ∗ (∃ f, rsrRows d p (rS2₀ p d) f) ∗ (∃ f, rsrRows d p (rK2₀ p d) f))
  else if k'.val = 1 then iprop((∃ f, rsrRows d p (rS2₁ p d) f) ∗ (∃ f, rsrRows d p (rK2₁ p d) f))
  else iprop(∃ f, rsrRows d p (rK2₂ p d) f)

def barPay (c : Fin 8) (k : Fin 3) : sProp 𝕄 :=
  iprop(slotsOf (flip (barMask k) c) 0 (stepOf k 0) ∗ slotsOf (flip (barMask k) c) 1 (stepOf k 1) ∗ slotsOf (flip (barMask k) c) 2 (stepOf k 2))

def sched : Rounds.Schedule (GSem nD τ sig) (Fin 3) 𝕄 where
  duties g r :=
    if r = 0 ∧ g.1.2 = .tc then
      (match g.2 with
        | .reg s => if s = barS then Finset.univ else ∅
        | .dma s => if 2 ≤ s.val then {0} else ∅)
    else ∅
  unitless _ := False
  amount g _ _ := match g.2 with
    | .reg _ => 1
    | .dma s => amt (semPart s) (semCopy s)
  payload g _ d := match g.2 with
    | .reg _ => barPay g.1.1 d
    | .dma s => if semIsRecv s then recvPay m g.1.1 (semPart s) (semCopy s) else sendPay m g.1.1 (semPart s) (semCopy s)
  amount_pos g _ _ _ := by
    cases hg : g.2 with
    | reg s => simp only [hg]; exact Nat.one_pos
    | dma s => simp only [hg]; exact amt_pos _ _

instance sched_payload_storable (g : GSem nD τ sig) (r : ℕ) (d : Fin 3) :
    BI.Storable (upEmb : UEmb _ 𝕄) ((sched (F := F) m).payload g r d) := by
  show BI.Storable upEmb (match g.2 with
    | .reg _ => barPay g.1.1 d
    | .dma s => if semIsRecv s then recvPay m g.1.1 (semPart s) (semCopy s) else sendPay m g.1.1 (semPart s) (semCopy s))
  unfold barPay slotsOf recvPay sendPay stgRows rsrRows
  (repeat' split) <;> infer_instance

end Cert.Kernel.RsAg

end
-- ==== Proof.K.Credit.lean ====
import proofs.«901015_g7700000000001016_dist_rs_then_ag_i_m4096_n1024_v7x_i8_f32_1_alg».proof.Proof.K.Sched
import Idealize.ShloMosaic.Lib.Pipeline.Launch

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

def flipE (j : Fin 3) : Dev nD ≃ Dev nD := ⟨Cert.RsAg.flip (barMask j), Cert.RsAg.flip (barMask j), flip_flip j, flip_flip j⟩
def peerE (p k : Fin 3) : Dev nD ≃ Dev nD := ⟨peer p k, peer p k, peer_peer p k, peer_peer p k⟩

def ownCredit (c : Dev nD) : CellTallies nD τ sig Unit :=
  tallyAt (barCell c) () 3 + ∑ x : Fin 3 × Fin 14, tallyAt (recvCell c x.1 x.2) () (amt x.1 x.2)

theorem sumDues_eq_sum (ds : List (GSem nD τ sig × Nat)) :
    sumDues ds = (ds.map fun d => (tallyAt d.1 () d.2 : CellTallies nD τ sig Unit)).sum := by
  induction ds with
  | nil => rfl
  | cons d ds ih => rw [sumDues_cons, ih, List.map_cons, List.sum_cons, add_comm]

theorem O₀_eq (c : Dev nD) :
    O₀ barS rSem amt c = (tallyAt (barCell (Cert.RsAg.flip (barMask 0) c)) () 1 + (tallyAt (barCell (Cert.RsAg.flip (barMask 1) c)) () 1
        + (tallyAt (barCell (Cert.RsAg.flip (barMask 2) c)) () 1
          + ∑ x : Fin 3 × Fin 14, (tallyAt (recvCell (peer x.1 (stp x.2) c) x.1 x.2) () (amt x.1 x.2) : CellTallies nD τ sig Unit)))) := by
  unfold O₀ owedAfter
  rw [List.drop_zero, sumDues_eq_sum]
  unfold dues
  rw [List.map_cons, List.map_cons, List.map_cons, List.sum_cons, List.sum_cons, List.sum_cons, List.map_map]
  have hu : (Finset.univ : Finset (Fin 3 × Fin 14)) = sendOrder.toFinset :=
    (Finset.eq_univ_iff_forall.mpr fun x => List.mem_toFinset.mpr (mem_sendOrder x)).symm
  rw [hu, List.sum_toFinset _ sendOrder_nodup]
  rfl

theorem sum_O₀ : (∑ d : Dev nD, O₀ barS rSem amt d) = ∑ d : Dev nD, ownCredit d := by
  have hb (j : Fin 3) : (∑ d : Dev nD, (tallyAt (barCell (Cert.RsAg.flip (barMask j) d)) () 1 : CellTallies nD τ sig Unit))
      = ∑ d : Dev nD, tallyAt (barCell d) () 1 :=
    Equiv.sum_comp (flipE j) fun d => (tallyAt (barCell d) () 1 : CellTallies nD τ sig Unit)
  have hs (x : Fin 3 × Fin 14) : (∑ d : Dev nD, (tallyAt (recvCell (peer x.1 (stp x.2) d) x.1 x.2) () (amt x.1 x.2) : CellTallies nD τ sig Unit))
      = ∑ d : Dev nD, tallyAt (recvCell d x.1 x.2) () (amt x.1 x.2) :=
    Equiv.sum_comp (peerE x.1 (stp x.2)) fun d => (tallyAt (recvCell d x.1 x.2) () (amt x.1 x.2) : CellTallies nD τ sig Unit)
  simp only [O₀_eq, ownCredit, Finset.sum_add_distrib]
  rw [hb 0, hb 1, hb 2, Finset.sum_comm, Finset.sum_congr rfl (fun x _ => hs x), Finset.sum_comm,
    ← add_assoc, ← add_assoc, ← Finset.sum_add_distrib, ← Finset.sum_add_distrib]
  congr 1
  refine Finset.sum_congr rfl fun d _ => ?_
  rw [tallyAt_add, tallyAt_add]

theorem ownCredit_core (d : Dev nD) (g : GSem nD τ sig) (h : ownCredit d g ≠ 0) : g.1 = (d.tc : Thread nD τ) := by
  by_contra hne
  apply h
  unfold ownCredit
  rw [Pi.add_apply, Finset.sum_apply, tallyAt_ne_cell (fun hg => hne (by rw [hg])),
    Finset.sum_eq_zero (fun x _ => tallyAt_ne_cell (fun hg => hne (by rw [hg])) _ _), add_zero]

section Credit

variable {Val : EltTy → Type} {Name : Type} [DecidableEq Name] {U : Type} [URA U]

local notation "𝕄" => MT nD τ sig Unit Val Name U Nat

theorem launchCred_O₀ (c : Dev nD) :
    (Pipeline.launchCred (O₀ barS rSem amt) c : sProp 𝕄)
      ⊢ iprop(cred (tallyAt (barCell c) () 3) ∗ bigSep Finset.univ fun x : Fin 3 × Fin 14 => cred (tallyAt (recvCell c x.1 x.2) () (amt x.1 x.2))) := by
  rw [Pipeline.launchCred_of_sum (O₀ barS rSem amt) ownCredit sum_O₀ ownCredit_core c]
  unfold ownCredit
  refine (cred_add _ _).1.trans (sep_mono_right ?_)
  rw [Pipeline.cred_finsetSum]

end Credit

end Cert.Kernel.RsAg

end
-- ==== Proof.K.Inv.lean ====
import proofs.«901015_g7700000000001016_dist_rs_then_ag_i_m4096_n1024_v7x_i8_f32_1_alg».proof.Proof.K.Sched
import proofs.«901015_g7700000000001016_dist_rs_then_ag_i_m4096_n1024_v7x_i8_f32_1_alg».proof.Proof.Gen.Kernel.Launch

noncomputable section

namespace Cert.Kernel.RsAg

open Cert.Kernel Cert.Kernel.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev CellIx : Type := Dev nD × Option (Bool × Fin 3 × Fin 14)
def kcell (ck : CellIx) : GSem nD τ sig := match ck.2 with
  | none => barCell ck.1
  | some (false, p, i) => sendCell ck.1 p i
  | some (true, p, i) => recvCell ck.1 p i

def records (K : CellIx → ℕ) : sProp 𝕄 :=
  iprop((bigSep Finset.univ fun ck : CellIx => cellInv ER (sched m) (K ck) (kcell ck))
    ∗ bigSep Finset.univ fun ck : CellIx => reached ER (kcell ck) 0)

instance records_persistent (K : CellIx → ℕ) : BI.Persistent (records m K) := by unfold records; infer_instance

def payToks (c : Dev nD) : sProp 𝕄 :=
  iprop((bigSep Finset.univ fun k : Fin 3 => dutyTok ER (barCell (flip (barMask k) c)) 0 k)
    ∗ bigSep Finset.univ fun pi : Fin 3 × Fin 14 =>
        iprop(dutyTok ER (sendCell c pi.1 pi.2) 0 0 ∗ dutyTok ER (recvCell (peer pi.1 (stp pi.2) c) pi.1 pi.2) 0 0))

def positions (c : Dev nD) : sProp 𝕄 :=
  iprop(atPos ER (barCell c) 0 ∅ 0
    ∗ bigSep Finset.univ fun pi : Fin 3 × Fin 14 =>
        iprop(atPos ER (sendCell c pi.1 pi.2) 0 ∅ 0 ∗ atPos ER (recvCell c pi.1 pi.2) 0 ∅ 0))

def creds (c : Dev nD) : sProp 𝕄 :=
  iprop(cred (tallyAt (barCell c) () 3)
    ∗ bigSep Finset.univ fun pi : Fin 3 × Fin 14 => cred (tallyAt (recvCell c pi.1 pi.2) () (amt pi.1 pi.2)))

def ghost (K : CellIx → ℕ) (c : Dev nD) : sProp 𝕄 := iprop(records m K ∗ positions c ∗ payToks c)

def start (c : Dev nD) : sProp 𝕄 := iprop((∃ K, ghost m K c) ∗ creds c ∗ levAts L lv)

def scratch (c : Dev nD) : sProp 𝕄 := iprop((∃ f, sL c ↦{fullShare} f) ∗ (∃ f, rL c ↦{fullShare} f))

def Φ₀ (c : Dev nD) : sProp 𝕄 := iprop(start m c ∗ scratch c)
def Φ₁ (c : Dev nD) : sProp 𝕄 :=
  iprop(scratch c ∗ bigSep Finset.univ fun pi : Fin 3 × Fin 14 =>
    iprop(semVal (sendCell c pi.1 pi.2) 0 ∗ semVal (recvCell c pi.1 pi.2) 0))

def XFin (c : Fin 8) : FVec F W .f32 := fun i =>
  let p := partOf (i 0).val
  let j := slabOf (i 0).val
  if j = jK2 p c then P3 (X m) p c i else if j = jS2 p c then P2 (X m) p c i
  else if j = jS1a p c ∨ j = jS1b p c then P1 (X m) p c i else X m c i

def dats (_ : Fin 1) (c : Dev nD) : Dat τ (Elt F) Unit ℕ UU ℕ cfg0 c where
  A w := (s₀ m ρ).mem ((cfg0.win w).arr.view.loc (Dev.tc c : Thread nD τ))
  after w _ := match w with
    | ⟨0, _⟩ => XFin m c
    | ⟨1, _⟩ => Out (X m) c
  Φ t := match t with
    | ⟨0, _⟩ => Φ₀ m c
    | ⟨_ + 1, _⟩ => Φ₁ c
  q _ := fullShare
  owed t := match t with
    | ⟨0, _⟩ => O₀ barS rSem amt c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (Y : b.ty.Contents (Elt F)) : sProp 𝕄 :=
  iprop(∃ f : Buf (Elt F) ((Dev.tc c : Thread nD τ).loc b), ⌜f = Y⌝ ∗ (((Dev.tc c : Thread nD τ).loc b) ↦{fullShare} f))

def bodyPre (K : CellIx → ℕ) (c : Dev nD) : sProp 𝕄 :=
  iprop((ghost m K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (XFin m c) ∗ stg c cc0_stg1_0 (Out (X m) c))

end Cert.Kernel.RsAg

end
-- ==== Proof.K.Launch.lean ====
import proofs.«901015_g7700000000001016_dist_rs_then_ag_i_m4096_n1024_v7x_i8_f32_1_alg».proof.Proof.K.Sched
import proofs.«901015_g7700000000001016_dist_rs_then_ag_i_m4096_n1024_v7x_i8_f32_1_alg».proof.Proof.K.Credit
import proofs.«901015_g7700000000001016_dist_rs_then_ag_i_m4096_n1024_v7x_i8_f32_1_alg».proof.Proof.K.Inv
import proofs.«901015_g7700000000001016_dist_rs_then_ag_i_m4096_n1024_v7x_i8_f32_1_alg».proof.Proof.Gen.Kernel.Launch
import proofs.«901015_g7700000000001016_dist_rs_then_ag_i_m4096_n1024_v7x_i8_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ownSem : Bool × Fin 3 × Fin 14 → SemLoc sig
  | (false, p, i) => .dma (sSem p i)
  | (true, p, i) => .dma (rSem p i)

theorem ownSem_injective : Function.Injective ownSem := by
  rintro ⟨b, p, i⟩ ⟨b', p', i'⟩ h
  have hp := p.isLt; have hi := i.isLt; have hp' := p'.isLt; have hi' := i'.isLt
  cases b <;> cases b' <;> have hv := congrArg Fin.val (SemLoc.dma.inj h) <;> simp only [sSem, rSem] at hv <;>
    first | omega | (obtain rfl : p = p' := Fin.ext (by omega); obtain rfl : i = i' := Fin.ext (by omega); rfl)

theorem ownSem_facts : Pipeline.OwnSemFacts cfg0.spec ownSem where
  isScoped := by decide
  inj := ownSem_injective
  disj := by decide

def csem : Option (Bool × Fin 3 × Fin 14) → SemLoc sig
  | none => .reg barS
  | some k => ownSem k

theorem kcell_none (c : Dev nD) : kcell (c, none) = barCell c := rfl
theorem kcell_some (c : Dev nD) (k : Bool × Fin 3 × Fin 14) : kcell (c, some k) = ((Dev.tc c : Thread nD τ), ownSem k) := by
  obtain ⟨b, p, i⟩ := k; cases b <;> rfl
theorem kcell_eq (ck : CellIx) : kcell ck = ((Dev.tc ck.1 : Thread nD τ), csem ck.2) := by
  obtain ⟨c, o⟩ := ck
  rcases o with _ | k
  · rfl
  · exact kcell_some c k

theorem csem_injective : Function.Injective csem := by
  rintro (_ | k) (_ | k') h
  · rfl
  · obtain ⟨b, p, i⟩ := k'; cases b <;> first | cases h | exact absurd h (by simp [csem, ownSem])
  · obtain ⟨b, p, i⟩ := k; cases b <;> first | cases h | exact absurd h (by simp [csem, ownSem])
  · exact congrArg some (ownSem_injective h)

theorem kcell_injective : Function.Injective kcell := by
  intro ck ck' h
  rw [kcell_eq, kcell_eq] at h
  have h1 : ck.1 = ck'.1 := congrArg (fun g : GSem nD τ sig => g.1.1) h
  have h2 : ck.2 = ck'.2 := csem_injective (congrArg Prod.snd h)
  exact Prod.ext h1 h2

def ringCells : Finset (GSem nD τ sig) := Finset.univ.map ⟨kcell, kcell_injective⟩

abbrev TokIx : Type := Dev nD × (Fin 3 ⊕ (Bool × Fin 3 × Fin 14))
def tokOf (t : TokIx) : GSem nD τ sig × ℕ × Fin 3 :=
  (kcell (t.1, t.2.elim (fun _ => none) some), 0, t.2.elim id fun _ => 0)

theorem tokOf_injective : Function.Injective tokOf := by
  rintro ⟨c, s⟩ ⟨c', s'⟩ h
  have h1 := kcell_injective (congrArg (fun x : GSem nD τ sig × ℕ × Fin 3 => x.1) h)
  have h2 : s.elim id (fun _ => 0) = s'.elim id fun _ => 0 := congrArg (fun x : GSem nD τ sig × ℕ × Fin 3 => x.2.2) h
  rcases s with k | b <;> rcases s' with k' | b' <;> cases h1
  · cases (h2 : k = k'); rfl
  · rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def ownToks (c : Dev nD) : sProp 𝕄 :=
  iprop((bigSep Finset.univ fun k : Fin 3 => dutyTok ER (barCell c) 0 k)
    ∗ bigSep Finset.univ fun b : Bool × Fin 3 × Fin 14 => dutyTok ER (kcell (c, some b)) 0 0)

def G (c : Dev nD) : sProp 𝕄 :=
  iprop((bigSep Finset.univ fun o : Option (Bool × Fin 3 × Fin 14) => roundState ER (sched m) (kcell (c, o)) 0)
    ∗ (bigSep Finset.univ fun o : Option (Bool × Fin 3 × Fin 14) => iprop(atPos ER (kcell (c, o)) 0 ∅ 0 ∗ reached ER (kcell (c, o)) 0))
    ∗ ownToks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun o : Option (Bool × Fin 3 × Fin 14) => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum]; rfl
  have h := Rounds.fund ER (sched m) ringCells ringToks
  rw [hX, hX, hX, hT] at h
  unfold G; simp only [bigSep_sep']
  iintro HX
  imod h $$ HX with ⟨Hst, Hr, Hat, Htok⟩
  imodintro
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_pairs (c : Dev nD) :
    (Pipeline.ownSems0 (Ix := Unit) (Name := ℕ) (U := UU) (Lvl := ℕ) (Val := Elt F) (τ := τ) ownSem c : sProp 𝕄)
      = bigSep Finset.univ fun pi : Fin 3 × Fin 14 => iprop(semVal (sendCell c pi.1 pi.2) 0 ∗ semVal (recvCell c pi.1 pi.2) 0) := by
  unfold Pipeline.ownSems0
  rw [bigSep_univ_prod (fun k : Bool × (Fin 3 × Fin 14) => (semVal ((Dev.tc c : Thread nD τ), ownSem k) 0 : sProp 𝕄)), bigSep_univ_bool, ← bigSep_sep']
  rfl

theorem sems0_eq (c : Dev nD) :
    iprop(Pipeline.ownSems0 (Ix := Unit) (Name := ℕ) (U := UU) (Lvl := ℕ) (Val := Elt F) (τ := τ) ownSem c ∗ unscopedSems0 c)
      ⊢ (bigSep Finset.univ fun o : Option (Bool × Fin 3 × Fin 14) => semVal (kcell (c, o)) 0 : sProp 𝕄) := by
  rw [unscopedSems0_eq, bigSep_univ_option]
  simp only [kcell_some, kcell_none]
  unfold Pipeline.ownSems0
  iintro ⟨HO, HB⟩
  isplitl [HB] <;> iassumption

def GI (c : Dev nD) : sProp 𝕄 :=
  iprop((bigSep Finset.univ fun o : Option (Bool × Fin 3 × Fin 14) => iprop(∃ κ : ℕ, cellInv ER (sched m) κ (kcell (c, o))))
    ∗ (bigSep Finset.univ fun o : Option (Bool × Fin 3 × Fin 14) => iprop(atPos ER (kcell (c, o)) 0 ∅ 0 ∗ reached ER (kcell (c, o)) 0))
    ∗ ownToks c)

theorem core_alloc (c : Dev nD) :
    iprop(Pipeline.ownSems0 (Ix := Unit) (Name := ℕ) (U := UU) (Lvl := ℕ) (Val := Elt F) (τ := τ) ownSem c ∗ unscopedSems0 c ∗ G m c)
      ⊢ |={Set.univ}=> GI m c := by
  unfold G GI
  iintro ⟨Hos, Hus, Hst, Hat, Htok⟩
  ihave Hv := (sems0_eq (F := F) c) $$ [$]
  imod (show iprop((bigSep Finset.univ fun o : Option (Bool × Fin 3 × Fin 14) => semVal (kcell (c, o)) 0)
        ∗ bigSep Finset.univ fun o : Option (Bool × Fin 3 × Fin 14) => roundState ER (sched m) (kcell (c, o)) 0)
      ⊢ (|={Set.univ}=> bigSep Finset.univ fun o : Option (Bool × Fin 3 × Fin 14) => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [$] with Hinv
  imodintro
  iframe

theorem positions_eq (c : Dev nD) :
    (bigSep Finset.univ fun o : Option (Bool × Fin 3 × Fin 14) => (atPos ER (kcell (c, o)) 0 ∅ 0 : sProp 𝕄)) = positions c := by
  unfold positions
  rw [bigSep_univ_option, bigSep_univ_prod (fun k : Bool × (Fin 3 × Fin 14) => (atPos ER (kcell (c, some k)) 0 ∅ 0 : sProp 𝕄)), bigSep_univ_bool, ← bigSep_sep']
  rfl

theorem bigSep_univ_reindex {A B : Type} [Fintype A] [DecidableEq A] [Fintype B] [DecidableEq B] (σ : B → A ≃ A) (Φ : A → B → sProp 𝕄) :
    (bigSep Finset.univ fun a => bigSep Finset.univ fun b => Φ a b) = bigSep Finset.univ fun a => bigSep Finset.univ fun b => Φ (σ b a) b :=
  (bigSep_univ_comm Φ).trans ((bigSep_congr fun b _ => bigSep_univ_equiv (σ b) fun a => Φ a b).trans (bigSep_univ_comm fun b a => Φ (σ b a) b))

theorem toks_around : (bigSep Finset.univ fun c : Dev nD => (ownToks c : sProp 𝕄)) ⊢ bigSep Finset.univ fun c : Dev nD => payToks c := by
  have hK (c : Dev nD) : (bigSep Finset.univ fun b : Bool × Fin 3 × Fin 14 => (dutyTok ER (kcell (c, some b)) 0 0 : sProp 𝕄))
      = iprop((bigSep Finset.univ fun pi : Fin 3 × Fin 14 => dutyTok ER (sendCell c pi.1 pi.2) 0 0)
          ∗ bigSep Finset.univ fun pi : Fin 3 × Fin 14 => dutyTok ER (recvCell c pi.1 pi.2) 0 0) := by
    rw [bigSep_univ_prod (fun k : Bool × (Fin 3 × Fin 14) => (dutyTok ER (kcell (c, some k)) 0 0 : sProp 𝕄)), bigSep_univ_bool]
    rfl
  unfold ownToks payToks
  simp only [hK, bigSep_sep']
  rw [bigSep_univ_reindex flipE fun c k => dutyTok ER (barCell c) 0 k,
    bigSep_univ_reindex (fun pi : Fin 3 × Fin 14 => peerE pi.1 (stp pi.2)) fun c pi => dutyTok ER (recvCell c pi.1 pi.2) 0 0]
  rfl

theorem regroup : (bigSep Finset.univ fun c : Dev nD => GI m c) ⊢ bigSep Finset.univ (G' m) := by
  unfold GI
  rw [bigSep_sep', bigSep_sep', ← bigSep_univ_prod (fun ck : CellIx => iprop(∃ κ : ℕ, cellInv ER (sched m) κ (kcell ck))),
    bigSep_congr (s := Finset.univ) (fun (c : Dev nD) _ => bigSep_sep' Finset.univ
      (fun o : Option (Bool × Fin 3 × Fin 14) => (atPos ER (kcell (c, o)) 0 ∅ 0 : sProp 𝕄)) (fun o => reached ER (kcell (c, o)) 0)),
    bigSep_sep', ← bigSep_univ_prod (fun ck : CellIx => (reached ER (kcell ck) 0 : sProp 𝕄)),
    bigSep_congr (s := Finset.univ) (fun (c : Dev nD) _ => positions_eq (F := F) c)]
  iintro ⟨HI, ⟨Hat, #HR⟩, Htok⟩
  ihave HK := (BI.bigSep_exists_pi Finset.univ (fun (ck : CellIx) (κ : ℕ) => (cellInv ER (sched m) κ (kcell ck) : sProp 𝕄))) $$ HI
  icases HK with ⟨%K, #HI⟩
  ihave Htk := (toks_around (F := F)) $$ Htok
  iapply (bigSep_with_persistent (R := records m K) (Ψ := G' m) fun c _ => by unfold G' ghost; iintro H; iexists K; iexact H)
  unfold records
  rw [bigSep_sep']
  iframe # ∗

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low barS rSem amt (fun _ _ => rfl) c _ (by fin_cases w <;> fin_cases s <;> decide) 0
    · rw [show (dats m ρ 0 c).owed ⟨_ + 1, ht⟩ = 0 from rfl, MayWait_zero]; iintro -; iempintro

def SoundBody : Prop :=
  ∀ (K : CellIx → ℕ) (c : Dev nD) (Kt : PUnit → sProp 𝕄),
    iprop(bodyPre m ρ K c ∗ (bodyPost m ρ c -∗ Kt ⟨⟩))
      ⊢ wp frame (wpE (defs₀ (F := F)) 𝒱₀ (Dev.tc c) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt

theorem owns_whole_eq (c : Dev nD) (b : Ref sig .tc) (Y : b.ty.Contents (Elt F)) :
    (owns (Ix := Unit) (Name := ℕ) (U := UU) (Lvl := ℕ) (Dev.tc c : Thread nD τ) (Memref.whole b) fullShare Y : sProp 𝕄)
      = iprop(∃ f : Buf (Elt F) ((Dev.tc c : Thread nD τ).loc b), ⌜f = Y⌝ ∗ (((Dev.tc c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (hb : SoundBody m ρ) (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (Dev.tc c) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hcr, Hlev⟩, Hscr⟩, Ho, Hx, Hout⟩
  iapply (hb K c fun _ => bodyPost m ρ c)
  unfold bodyPre
  iframe
  iintro H; iexact H

def finalA (c : Dev nD) (w : Fin cfg0.W) : Buf (Elt F) ((cfg0.win w).arr.view.loc (Dev.tc c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (Dev.tc c : Thread nD τ)) = finalA m ρ c w

theorem run_main (hb : SoundBody m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := fun c => (body_obligation m ρ hb c).loose) (hne := block_pos0) (harr := arr_whole0) (hstage := stage_whole0) (hshare := fun _ _ => by unfold Dat.share; split <;> rfl)
    (hdistinct := winFacts0.arr_inj)
    (O₀ := O₀ barS rSem amt) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := ((bigSep_mono fun c _ => core_alloc m c).trans (bigSep_fupd _ _)).trans (BI.fupd_mono (regroup m)))
    (hA := fun _ _ => rfl) (hpf := fun _ k => k.elim0)
    (X := start m) (Y := fun _ => iprop(emp)) (Z := fun _ => iprop(emp))
    (hX := fun c => by
      iintro ⟨-, Hlev, Hcr, -, HG⟩
      ihave Hc := (launchCred_O₀ (Val := Elt F) (Name := ℕ) (U := UU) c) $$ Hcr
      imodintro
      unfold start G' creds
      iframe)
    (hin := fun c => by
      rw [show (dats m ρ 0 c).Φ 0 = Φ₀ m c from rfl, scopedRest0_eq]
      unfold Φ₀ scratch
      iintro ⟨Hs, -, Hsc⟩
      iframe)
    (hout := fun c => by
      rw [show (dats m ρ 0 c).Φ (Fin.last cfg0.N) = Φ₁ c from rfl, scopedRest0_eq, ownSems0_pairs]
      unfold Φ₁ scratch
      iintro ⟨Hsc, Hz⟩
      iframe)
    (QY := fun _ _ => True)
    (hY := fun c s' => by
      iintro ⟨-, -, HSI⟩
      imodintro
      isplitr; · ipureintro; trivial
      iexact HSI)
    (hQ := fun _ h c w => (h c).1 w)

theorem out_off (t : Fin cfg0.N) : (fun a => (win0_1.index t) a * main_v1.ty.shape.size a) = fun _ => 0 := by
  obtain rfl := fin_N t
  exact funext fun a => by fin_cases a <;> decide

theorem finalA_o (c : Dev nD) : finalA m ρ c (1 : Fin 2) = Out (X m) c :=
  (dats (F := F) m ρ 0 c).arrAt_eq_of_cover (1 : Fin 2) (Out (X m) c)
    (fun t _ => by
      show (cfg0.win (1 : Fin 2)).cut (grid0.coords t) (Out (X m) c) = _
      exact (Memref.read_access_unit_zero (Elt F) main_v1 (out_off t) (fun a => by rw [congrFun (out_off t) a]; simp) (Out (X m) c)).symm)
    (fun i => ⟨t₀, flush0_1 t₀, by
      show i ∈ ((View.whole main_v1).slice (win0_1.rect t₀)).set
      rw [View.set_slice_whole]
      exact View.mem_set_unit_zero (out_off t₀) (fun a => by rw [congrFun (out_off t₀) a]; simp) i⟩)

theorem run_of (hb : SoundBody m ρ) :
    θ_run (defs (F := F)) (onTc (τ := τ) (main (F := F))) ⟨m, fun _ => 0, ρ⟩ (fun r => ∀ c : Dev nD,
      r.2.mem ((c.tc : Thread nD τ).loc main_v1) = Cert.RsAg.Out (fun d : Fin 8 => m ((Dev.tc d : Thread nD τ).loc main_arg0)) c
      ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans ((dats (F := F) m ρ 0 c).arrAt_in (0 : Fin 2) rfl _)⟩) (run_main m ρ hb)

end Cert.Kernel.RsAg

end
-- ==== Proof.K.Open.lean ====
import proofs.«901015_g7700000000001016_dist_rs_then_ag_i_m4096_n1024_v7x_i8_f32_1_alg».proof.Proof.K.Inv
import Idealize.ShloMosaic.Lib.Pipeline.Value

set_option maxRecDepth 16384

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

theorem in_off (t : Fin cfg0.N) : (fun a => (win0_0.index t) a * main_arg0.ty.shape.size a) = fun _ => 0 := by
  obtain rfl := fin_N t
  exact funext fun a => by fin_cases a <;> decide

theorem before_x (c : Dev nD) (d) : (dats m ρ 0 c).before (0 : Fin 2) t₀ d = X m c := by
  unfold Dat.before
  rw [if_pos (fetch_0 t₀)]
  show (dats m ρ 0 c).blockOf (0 : Fin 2) t₀ = _
  unfold Dat.blockOf
  exact Memref.read_access_unit_zero (Elt F) main_arg0 (in_off t₀) (fun a => by rw [congrFun (in_off t₀) a]; simp) _

def St0 (K : CellIx → ℕ) (c : Dev nD) : sProp 𝕄 :=
  iprop(ghost m K c ∗ creds c ∗ levAts L lv ∗ scratch c
    ∗ (∃ W, owes (Dev.tc c : Thread nD τ) (O₀ barS rSem amt c) W)
    ∗ (xL c ↦{fullShare} X m c) ∗ (∃ f, oL c ↦{fullShare} f))

theorem bodyPre_open (K : CellIx → ℕ) (c : Dev nD) : bodyPre m ρ K c ⊢ St0 m K c := by
  unfold bodyPre St0
  iintro ⟨⟨Hg, Hc, Hl, Hs⟩, Ho, ⟨%d0, %g0, %hg0, Hx⟩, ⟨%d1, %g1, %hg1, Hout⟩⟩
  have hx : g0 = X m c := hg0.trans (before_x m ρ c d0)
  subst hx
  unfold Dat.owesAt Pipeline.owesWithin
  icases Ho with ⟨%W, %hW, HO⟩
  rw [show (dats m ρ 0 c).owed t₀.castSucc = O₀ barS rSem amt c from rfl]
  iframe
  isplitl [HO]; · iexists W; iexact HO
  iexists g1; iexact Hout

theorem bodyPost_intro (c : Dev nD) :
    iprop(Φ₁ c ∗ (∃ W, owes (Dev.tc c : Thread nD τ) 0 W) ∗ (xL c ↦{fullShare} XFin m c) ∗ (oL c ↦{fullShare} Out (X m) c))
      ⊢ bodyPost m ρ c := by
  unfold bodyPost Dat.owesAt Pipeline.owesWithin
  rw [show (dats m ρ 0 c).owed t₀.succ = 0 from rfl]
  iintro ⟨HΦ, ⟨%W, HO⟩, Hx, Hout⟩
  iframe
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.RsAg

end
-- ==== Proof.K.Mid.lean ====
import proofs.«901015_g7700000000001016_dist_rs_then_ag_i_m4096_n1024_v7x_i8_f32_1_alg».proof.Proof.K.Inv
import proofs.«901015_g7700000000001016_dist_rs_then_ag_i_m4096_n1024_v7x_i8_f32_1_alg».proof.Proof.Accum

noncomputable section

namespace Cert.Kernel.RsAg

open Cert.Kernel Cert.Kernel.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def ghostAt (K : CellIx → ℕ) (c : Dev nD) (ns : Nat) (waited : Finset (Fin 3 × Fin 14)) : sProp 𝕄 :=
  iprop(records m K
    ∗ atPos ER (barCell c) 1 ∅ 0
    ∗ (bigSep Finset.univ fun pi : Fin 3 × Fin 14 => atPos ER (recvCell c pi.1 pi.2) (if pi ∈ waited then 1 else 0) ∅ 0)
    ∗ (bigSep Finset.univ fun pi : Fin 3 × Fin 14 => atPos ER (sendCell c pi.1 pi.2) 0 ∅ 0)
    ∗ (bigSep (started ns) fun pi => cred (tallyAt (sendCell c pi.1 pi.2) () (amt pi.1 pi.2)))
    ∗ (bigSep (Finset.univ \ waited) fun pi => cred (tallyAt (recvCell c pi.1 pi.2) () (amt pi.1 pi.2)))
    ∗ (bigSep (Finset.univ \ started ns) fun pi =>
        iprop(dutyTok ER (sendCell c pi.1 pi.2) 0 0 ∗ dutyTok ER (recvCell (peer pi.1 (stp pi.2) c) pi.1 pi.2) 0 0))
    ∗ (∃ W, owes (Dev.tc c : Thread nD τ) (owedAfter barS rSem amt c (3 + ns)) W)
    ∗ levAts L lv)

def cutState (K : CellIx → ℕ) (c : Dev nD) (nx : Fin 3 → Nat → Nat) (ns : Nat)
    (waited : Finset (Fin 3 × Fin 14)) (own : Finset (Fin 3 × Fin 8)) : sProp 𝕄 :=
  iprop(ghostAt m K c ns waited
    ∗ (xL c ↦{fullShare} Xlev (X m) c nx)
    ∗ (∃ f, oL c ↦{fullShare} f)
    ∗ (bigSep own fun pr => iprop(∃ f, stgRows (F := F) c pr.1 (roleRow pr.1 pr.2 c) fullShare f))
    ∗ (bigSep ((Finset.univ \ started ns).filter fun pi => pi.2.val < 7) fun pi =>
        iprop(∃ f, rsrRows (F := F) (peer pi.1 (stp pi.2) c) pi.1 (slot pi.1 (peer pi.1 (stp pi.2) c) pi.2) f))
    ∗ (bigSep waited fun pi => recvPay m c pi.1 pi.2))

def Cut13 (K : CellIx → ℕ) (c : Dev nD) (v423 : FVec F S176x1024 .f32) : sProp 𝕄 :=
  iprop(cutState m K c (nx13 c) 13 waited13 own13
    ∗ ⌜∀ j, v423 j = addf (Xlev (X m) c (nx13 c)) (rcv (snd (X m (peer 1 0 c))))
        ((Rect.unit (s := S4096x1024) (k0_off35 c) S176x1024.size (k0_off35_inb c)).emb j)⌝)

def Mid (K : CellIx → ℕ) (c : Dev nD) (v852 : FVec F S176x1024 .f32) : sProp 𝕄 :=
  iprop(cutState m K c (nMid c) 21 waitedMid ownMid
    ∗ ⌜∀ j, v852 j = Xlev (X m) c (nMid c)
        ((Rect.unit (s := S4096x1024) (k0_off67 c) S176x1024.size (k0_off67_inb c)).emb j)⌝)

end Cert.Kernel.RsAg

end
-- ==== Proof.K.SchedTables.lean ====
import proofs.«901015_g7700000000001016_dist_rs_then_ag_i_m4096_n1024_v7x_i8_f32_1_alg».proof.Proof.K.Sched

noncomputable section

namespace Cert.Kernel.RsAg

open Cert.Kernel Cert.Kernel.Gen Cert.RsAg

open Idealize.ShloMosaic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Cells
variable (c : Dev nD) (p : Fin 3) (i : Fin 14)

theorem sSem_val : (sSem p i).val = 2 + 14 * p.val + i.val := rfl
theorem rSem_val : (rSem p i).val = 44 + 14 * p.val + i.val := rfl

@[sl_rounds] theorem duties_bar : (sched (F := F) m).duties (barCell c) 0 = Finset.univ := by
  dsimp only [sched]; rw [if_pos ⟨rfl, rfl⟩, if_pos rfl]

@[sl_rounds] theorem duties_send : (sched (F := F) m).duties (sendCell c p i) 0 = {0} := by
  dsimp only [sched]; rw [if_pos ⟨rfl, rfl⟩, if_pos (by rw [sSem_val]; omega)]

@[sl_rounds] theorem duties_recv : (sched (F := F) m).duties (recvCell c p i) 0 = {0} := by
  dsimp only [sched]; rw [if_pos ⟨rfl, rfl⟩, if_pos (by rw [rSem_val]; omega)]

theorem duties_later (g : GSem nD τ sig) : ∀ r, 1 ≤ r → (sched (F := F) m).duties g r = ∅ :=
  fun r hr => by dsimp only [sched]; rw [if_neg fun h => absurd h.1 (by omega)]

@[sl_rounds] theorem amount_bar (d : Fin 3) : (sched (F := F) m).amount (barCell c) 0 d = 1 := rfl

@[sl_rounds] theorem amount_send (d : Fin 3) : (sched (F := F) m).amount (sendCell c p i) 0 d = amt p i := by
  show amt (semPart (sSem p i)) (semCopy (sSem p i)) = amt p i
  rw [semPart_sSem, semCopy_sSem]

@[sl_rounds] theorem amount_recv (d : Fin 3) : (sched (F := F) m).amount (recvCell c p i) 0 d = amt p i := by
  show amt (semPart (rSem p i)) (semCopy (rSem p i)) = amt p i
  rw [semPart_rSem, semCopy_rSem]

@[sl_rounds] theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]

@[sl_rounds] theorem expect_send : (sched (F := F) m).expect (sendCell c p i) 0 = amt p i := by
  unfold Schedule.expect Schedule.amountOf; rw [duties_send, Finset.sum_singleton, amount_send]

@[sl_rounds] theorem expect_recv : (sched (F := F) m).expect (recvCell c p i) 0 = amt p i := by
  unfold Schedule.expect Schedule.amountOf; rw [duties_recv, Finset.sum_singleton, amount_recv]

@[sl_rounds] theorem payload_bar (k : Fin 3) : (sched (F := F) m).payload (barCell c) 0 k = barPay c k := rfl

@[sl_rounds] theorem payload_send (d : Fin 3) : (sched (F := F) m).payload (sendCell c p i) 0 d = sendPay m c p i := by
  show (if semIsRecv (sSem p i) then recvPay m c (semPart (sSem p i)) (semCopy (sSem p i))
    else sendPay m c (semPart (sSem p i)) (semCopy (sSem p i))) = sendPay m c p i
  rw [semIsRecv_sSem, semPart_sSem, semCopy_sSem]; rfl

@[sl_rounds] theorem payload_recv (d : Fin 3) : (sched (F := F) m).payload (recvCell c p i) 0 d = recvPay m c p i := by
  show (if semIsRecv (rSem p i) then recvPay m c (semPart (rSem p i)) (semCopy (rSem p i))
    else sendPay m c (semPart (rSem p i)) (semCopy (rSem p i))) = recvPay m c p i
  rw [semIsRecv_rSem, semPart_rSem, semCopy_rSem]; rfl

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]
  rfl

theorem rest_send : bigSep ((sched (F := F) m).duties (sendCell c p i) 0 \ ∅) (fun d => (sched (F := F) m).payload (sendCell c p i) 0 d)
    = sendPay m c p i := by
  rw [Finset.sdiff_empty, duties_send, bigSep_singleton, payload_send]

theorem rest_recv : bigSep ((sched (F := F) m).duties (recvCell c p i) 0 \ ∅) (fun d => (sched (F := F) m).payload (recvCell c p i) 0 d)
    = recvPay m c p i := by
  rw [Finset.sdiff_empty, duties_recv, bigSep_singleton, payload_recv]

end Cells

theorem recvPay_0 (c : Fin 8) (p : Fin 3) : recvPay (F := F) m c p 0
    = iprop(rsrRows c p (rFa p c) (reRow (oS1a p c) (rFa p c) (snd (X m (peer p 0 c)))) ∗ stgRows (peer p 0 c) p (oS1a p c) fullShare (snd (X m (peer p 0 c)))) := rfl

theorem slotsOf_0 (d : Fin 8) (p : Fin 3) : slotsOf (F := F) d p 0
    = iprop((∃ f, rsrRows d p (rFa p d) f) ∗ (∃ f, rsrRows d p (rFb p d) f) ∗ (∃ f, rsrRows d p (rS2₀ p d) f) ∗ (∃ f, rsrRows d p (rK2₀ p d) f)) := rfl
theorem slotsOf_1 (d : Fin 8) (p : Fin 3) : slotsOf (F := F) d p 1
    = iprop((∃ f, rsrRows d p (rS2₁ p d) f) ∗ (∃ f, rsrRows d p (rK2₁ p d) f)) := rfl
theorem slotsOf_2 (d : Fin 8) (p : Fin 3) : slotsOf (F := F) d p 2 = iprop(∃ f, rsrRows d p (rK2₂ p d) f) := rfl

end Cert.Kernel.RsAg

end
-- ==== Proof.K.Tables.lean ====
import proofs.«901015_g7700000000001016_dist_rs_then_ag_i_m4096_n1024_v7x_i8_f32_1_alg».proof.Proof.Gen.Kernel
import proofs.«901015_g7700000000001016_dist_rs_then_ag_i_m4096_n1024_v7x_i8_f32_1_alg».proof.Proof.Layout

set_option Elab.async false

namespace Cert.Kernel.RsAg

open Idealize.ShloMosaic Cert.Kernel Cert.Kernel.Gen Cert.RsAg

theorem dev1_eq : ∀ c : Dev nD, (⟨k0_dev1 c, k0_dev1_lt c⟩ : Dev nD) = flip 1 c := by decide +kernel
theorem dev2_eq : ∀ c : Dev nD, (⟨k0_dev2 c, k0_dev2_lt c⟩ : Dev nD) = flip 3 c := by decide +kernel
theorem dev3_eq : ∀ c : Dev nD, (⟨k0_dev3 c, k0_dev3_lt c⟩ : Dev nD) = flip 4 c := by decide +kernel

theorem dev4_eq : ∀ c : Dev nD, (⟨k0_dev4 c, k0_dev4_lt c⟩ : Dev nD) = peer 0 0 c := by decide +kernel
theorem dev5_eq : ∀ c : Dev nD, (⟨k0_dev5 c, k0_dev5_lt c⟩ : Dev nD) = peer 0 0 c := by decide +kernel
theorem dev6_eq : ∀ c : Dev nD, (⟨k0_dev6 c, k0_dev6_lt c⟩ : Dev nD) = peer 1 0 c := by decide +kernel
theorem dev7_eq : ∀ c : Dev nD, (⟨k0_dev7 c, k0_dev7_lt c⟩ : Dev nD) = peer 1 0 c := by decide +kernel
theorem dev8_eq : ∀ c : Dev nD, (⟨k0_dev8 c, k0_dev8_lt c⟩ : Dev nD) = peer 2 0 c := by decide +kernel
theorem dev9_eq : ∀ c : Dev nD, (⟨k0_dev9 c, k0_dev9_lt c⟩ : Dev nD) = peer 2 0 c := by decide +kernel

theorem dev10_eq : ∀ c : Dev nD, (⟨k0_dev10 c, k0_dev10_lt c⟩ : Dev nD) = peer 0 0 c := by decide +kernel
theorem dev11_eq : ∀ c : Dev nD, (⟨k0_dev11 c, k0_dev11_lt c⟩ : Dev nD) = peer 0 0 c := by decide +kernel
theorem dev12_eq : ∀ c : Dev nD, (⟨k0_dev12 c, k0_dev12_lt c⟩ : Dev nD) = peer 1 0 c := by decide +kernel
theorem dev13_eq : ∀ c : Dev nD, (⟨k0_dev13 c, k0_dev13_lt c⟩ : Dev nD) = peer 1 0 c := by decide +kernel
theorem dev14_eq : ∀ c : Dev nD, (⟨k0_dev14 c, k0_dev14_lt c⟩ : Dev nD) = peer 2 0 c := by decide +kernel
theorem dev15_eq : ∀ c : Dev nD, (⟨k0_dev15 c, k0_dev15_lt c⟩ : Dev nD) = peer 2 0 c := by decide +kernel

theorem dev16_eq : ∀ c : Dev nD, (⟨k0_dev16 c, k0_dev16_lt c⟩ : Dev nD) = peer 0 1 c := by decide +kernel
theorem dev17_eq : ∀ c : Dev nD, (⟨k0_dev17 c, k0_dev17_lt c⟩ : Dev nD) = peer 1 1 c := by decide +kernel
theorem dev18_eq : ∀ c : Dev nD, (⟨k0_dev18 c, k0_dev18_lt c⟩ : Dev nD) = peer 2 1 c := by decide +kernel
theorem dev19_eq : ∀ c : Dev nD, (⟨k0_dev19 c, k0_dev19_lt c⟩ : Dev nD) = peer 0 1 c := by decide +kernel
theorem dev20_eq : ∀ c : Dev nD, (⟨k0_dev20 c, k0_dev20_lt c⟩ : Dev nD) = peer 1 1 c := by decide +kernel
theorem dev21_eq : ∀ c : Dev nD, (⟨k0_dev21 c, k0_dev21_lt c⟩ : Dev nD) = peer 2 1 c := by decide +kernel

theorem dev22_eq : ∀ c : Dev nD, (⟨k0_dev22 c, k0_dev22_lt c⟩ : Dev nD) = peer 0 2 c := by decide +kernel
theorem dev23_eq : ∀ c : Dev nD, (⟨k0_dev23 c, k0_dev23_lt c⟩ : Dev nD) = peer 1 2 c := by decide +kernel
theorem dev24_eq : ∀ c : Dev nD, (⟨k0_dev24 c, k0_dev24_lt c⟩ : Dev nD) = peer 2 2 c := by decide +kernel

theorem dev25_eq : ∀ c : Dev nD, (⟨k0_dev25 c, k0_dev25_lt c⟩ : Dev nD) = peer 0 2 c := by decide +kernel
theorem dev26_eq : ∀ c : Dev nD, (⟨k0_dev26 c, k0_dev26_lt c⟩ : Dev nD) = peer 0 1 c := by decide +kernel
theorem dev27_eq : ∀ c : Dev nD, (⟨k0_dev27 c, k0_dev27_lt c⟩ : Dev nD) = peer 0 0 c := by decide +kernel
theorem dev28_eq : ∀ c : Dev nD, (⟨k0_dev28 c, k0_dev28_lt c⟩ : Dev nD) = peer 1 2 c := by decide +kernel
theorem dev29_eq : ∀ c : Dev nD, (⟨k0_dev29 c, k0_dev29_lt c⟩ : Dev nD) = peer 1 1 c := by decide +kernel
theorem dev30_eq : ∀ c : Dev nD, (⟨k0_dev30 c, k0_dev30_lt c⟩ : Dev nD) = peer 1 0 c := by decide +kernel
theorem dev31_eq : ∀ c : Dev nD, (⟨k0_dev31 c, k0_dev31_lt c⟩ : Dev nD) = peer 2 2 c := by decide +kernel
theorem dev32_eq : ∀ c : Dev nD, (⟨k0_dev32 c, k0_dev32_lt c⟩ : Dev nD) = peer 2 1 c := by decide +kernel
theorem dev33_eq : ∀ c : Dev nD, (⟨k0_dev33 c, k0_dev33_lt c⟩ : Dev nD) = peer 2 0 c := by decide +kernel

theorem dev34_eq : ∀ c : Dev nD, (⟨k0_dev34 c, k0_dev34_lt c⟩ : Dev nD) = peer 0 1 c := by decide +kernel
theorem dev35_eq : ∀ c : Dev nD, (⟨k0_dev35 c, k0_dev35_lt c⟩ : Dev nD) = peer 0 0 c := by decide +kernel
theorem dev36_eq : ∀ c : Dev nD, (⟨k0_dev36 c, k0_dev36_lt c⟩ : Dev nD) = peer 1 1 c := by decide +kernel
theorem dev37_eq : ∀ c : Dev nD, (⟨k0_dev37 c, k0_dev37_lt c⟩ : Dev nD) = peer 1 0 c := by decide +kernel
theorem dev38_eq : ∀ c : Dev nD, (⟨k0_dev38 c, k0_dev38_lt c⟩ : Dev nD) = peer 2 1 c := by decide +kernel
theorem dev39_eq : ∀ c : Dev nD, (⟨k0_dev39 c, k0_dev39_lt c⟩ : Dev nD) = peer 2 0 c := by decide +kernel

theorem dev40_eq : ∀ c : Dev nD, (⟨k0_dev40 c, k0_dev40_lt c⟩ : Dev nD) = peer 0 0 c := by decide +kernel
theorem dev41_eq : ∀ c : Dev nD, (⟨k0_dev41 c, k0_dev41_lt c⟩ : Dev nD) = peer 0 0 c := by decide +kernel
theorem dev42_eq : ∀ c : Dev nD, (⟨k0_dev42 c, k0_dev42_lt c⟩ : Dev nD) = peer 1 0 c := by decide +kernel
theorem dev43_eq : ∀ c : Dev nD, (⟨k0_dev43 c, k0_dev43_lt c⟩ : Dev nD) = peer 1 0 c := by decide +kernel
theorem dev44_eq : ∀ c : Dev nD, (⟨k0_dev44 c, k0_dev44_lt c⟩ : Dev nD) = peer 2 0 c := by decide +kernel
theorem dev45_eq : ∀ c : Dev nD, (⟨k0_dev45 c, k0_dev45_lt c⟩ : Dev nD) = peer 2 0 c := by decide +kernel

theorem off1_eq : ∀ c : Dev nD, k0_off1 c = ![oFwd 0 c, 0] := by decide +kernel
theorem off2_eq : ∀ c : Dev nD, k0_off2 c = ![rFa 0 c, 0] := by decide +kernel
theorem off3_eq : ∀ c : Dev nD, k0_off3 c = ![oFa 0 c, 0] := by decide +kernel
theorem off4_eq : ∀ c : Dev nD, k0_off4 c = ![rFb 0 c, 0] := by decide +kernel
theorem off5_eq : ∀ c : Dev nD, k0_off5 c = ![oFb 0 c, 0] := by decide +kernel
theorem off6_eq : ∀ c : Dev nD, k0_off6 c = ![oFwd 1 c, 0] := by decide +kernel
theorem off7_eq : ∀ c : Dev nD, k0_off7 c = ![rFa 1 c, 0] := by decide +kernel
theorem off8_eq : ∀ c : Dev nD, k0_off8 c = ![oFa 1 c, 0] := by decide +kernel
theorem off9_eq : ∀ c : Dev nD, k0_off9 c = ![rFb 1 c, 0] := by decide +kernel
theorem off10_eq : ∀ c : Dev nD, k0_off10 c = ![oFb 1 c, 0] := by decide +kernel
theorem off11_eq : ∀ c : Dev nD, k0_off11 c = ![oFwd 2 c, 0] := by decide +kernel
theorem off12_eq : ∀ c : Dev nD, k0_off12 c = ![rFa 2 c, 0] := by decide +kernel
theorem off13_eq : ∀ c : Dev nD, k0_off13 c = ![oFa 2 c, 0] := by decide +kernel
theorem off14_eq : ∀ c : Dev nD, k0_off14 c = ![rFb 2 c, 0] := by decide +kernel
theorem off15_eq : ∀ c : Dev nD, k0_off15 c = ![oFb 2 c, 0] := by decide +kernel

theorem off16_eq : ∀ c : Dev nD, k0_off16 c = ![oLate 0 c, 0] := by decide +kernel
theorem off17_eq : ∀ c : Dev nD, k0_off17 c = ![rS2₀ 0 c, 0] := by decide +kernel
theorem off18_eq : ∀ c : Dev nD, k0_off18 c = ![oLa 0 c, 0] := by decide +kernel
theorem off19_eq : ∀ c : Dev nD, k0_off19 c = ![rK2₀ 0 c, 0] := by decide +kernel
theorem off20_eq : ∀ c : Dev nD, k0_off20 c = ![oLb 0 c, 0] := by decide +kernel
theorem off21_eq : ∀ c : Dev nD, k0_off21 c = ![oLate 1 c, 0] := by decide +kernel
theorem off22_eq : ∀ c : Dev nD, k0_off22 c = ![rS2₀ 1 c, 0] := by decide +kernel
theorem off23_eq : ∀ c : Dev nD, k0_off23 c = ![oLa 1 c, 0] := by decide +kernel
theorem off24_eq : ∀ c : Dev nD, k0_off24 c = ![rK2₀ 1 c, 0] := by decide +kernel
theorem off25_eq : ∀ c : Dev nD, k0_off25 c = ![oLb 1 c, 0] := by decide +kernel
theorem off26_eq : ∀ c : Dev nD, k0_off26 c = ![oLate 2 c, 0] := by decide +kernel
theorem off27_eq : ∀ c : Dev nD, k0_off27 c = ![rS2₀ 2 c, 0] := by decide +kernel
theorem off28_eq : ∀ c : Dev nD, k0_off28 c = ![oLa 2 c, 0] := by decide +kernel
theorem off29_eq : ∀ c : Dev nD, k0_off29 c = ![rK2₀ 2 c, 0] := by decide +kernel
theorem off30_eq : ∀ c : Dev nD, k0_off30 c = ![oLb 2 c, 0] := by decide +kernel

theorem off31_eq : ∀ c : Dev nD, k0_off31 c = ![oS1a 0 c, 0] := by decide +kernel
theorem off32_eq : ∀ c : Dev nD, k0_off32 c = ![rFa 0 c, 0] := by decide +kernel
theorem off33_eq : ∀ c : Dev nD, k0_off33 c = ![rS2₁ 0 c, 0] := by decide +kernel
theorem off34_eq : ∀ c : Dev nD, k0_off34 c = ![oS1a 0 c, 0] := by decide +kernel
theorem off35_eq : ∀ c : Dev nD, k0_off35 c = ![oS1a 1 c, 0] := by decide +kernel
theorem off36_eq : ∀ c : Dev nD, k0_off36 c = ![rFa 1 c, 0] := by decide +kernel
theorem off37_eq : ∀ c : Dev nD, k0_off37 c = ![rS2₁ 1 c, 0] := by decide +kernel
theorem off38_eq : ∀ c : Dev nD, k0_off38 c = ![oS1a 1 c, 0] := by decide +kernel
theorem off39_eq : ∀ c : Dev nD, k0_off39 c = ![oS1a 2 c, 0] := by decide +kernel
theorem off40_eq : ∀ c : Dev nD, k0_off40 c = ![rFa 2 c, 0] := by decide +kernel
theorem off41_eq : ∀ c : Dev nD, k0_off41 c = ![rS2₁ 2 c, 0] := by decide +kernel
theorem off42_eq : ∀ c : Dev nD, k0_off42 c = ![oS1a 2 c, 0] := by decide +kernel

theorem off43_eq : ∀ c : Dev nD, k0_off43 c = ![oS1b 0 c, 0] := by decide +kernel
theorem off44_eq : ∀ c : Dev nD, k0_off44 c = ![rFb 0 c, 0] := by decide +kernel
theorem off45_eq : ∀ c : Dev nD, k0_off45 c = ![rK2₁ 0 c, 0] := by decide +kernel
theorem off46_eq : ∀ c : Dev nD, k0_off46 c = ![oS1b 0 c, 0] := by decide +kernel
theorem off47_eq : ∀ c : Dev nD, k0_off47 c = ![oS1b 1 c, 0] := by decide +kernel
theorem off48_eq : ∀ c : Dev nD, k0_off48 c = ![rFb 1 c, 0] := by decide +kernel
theorem off49_eq : ∀ c : Dev nD, k0_off49 c = ![rK2₁ 1 c, 0] := by decide +kernel
theorem off50_eq : ∀ c : Dev nD, k0_off50 c = ![oS1b 1 c, 0] := by decide +kernel
theorem off51_eq : ∀ c : Dev nD, k0_off51 c = ![oS1b 2 c, 0] := by decide +kernel
theorem off52_eq : ∀ c : Dev nD, k0_off52 c = ![rFb 2 c, 0] := by decide +kernel
theorem off53_eq : ∀ c : Dev nD, k0_off53 c = ![rK2₁ 2 c, 0] := by decide +kernel
theorem off54_eq : ∀ c : Dev nD, k0_off54 c = ![oS1b 2 c, 0] := by decide +kernel

theorem off55_eq : ∀ c : Dev nD, k0_off55 c = ![oS2 0 c, 0] := by decide +kernel
theorem off56_eq : ∀ c : Dev nD, k0_off56 c = ![rS2₀ 0 c, 0] := by decide +kernel
theorem off57_eq : ∀ c : Dev nD, k0_off57 c = ![rS2₁ 0 c, 0] := by decide +kernel
theorem off58_eq : ∀ c : Dev nD, k0_off58 c = ![oS2 0 c, 0] := by decide +kernel
theorem off59_eq : ∀ c : Dev nD, k0_off59 c = ![oS2 1 c, 0] := by decide +kernel
theorem off60_eq : ∀ c : Dev nD, k0_off60 c = ![rS2₀ 1 c, 0] := by decide +kernel
theorem off61_eq : ∀ c : Dev nD, k0_off61 c = ![rS2₁ 1 c, 0] := by decide +kernel
theorem off62_eq : ∀ c : Dev nD, k0_off62 c = ![oS2 1 c, 0] := by decide +kernel
theorem off63_eq : ∀ c : Dev nD, k0_off63 c = ![oS2 2 c, 0] := by decide +kernel
theorem off64_eq : ∀ c : Dev nD, k0_off64 c = ![rS2₀ 2 c, 0] := by decide +kernel
theorem off65_eq : ∀ c : Dev nD, k0_off65 c = ![rS2₁ 2 c, 0] := by decide +kernel
theorem off66_eq : ∀ c : Dev nD, k0_off66 c = ![oS2 2 c, 0] := by decide +kernel

theorem off67_eq : ∀ c : Dev nD, k0_off67 c = ![oK2 0 c, 0] := by decide +kernel
theorem off68_eq : ∀ c : Dev nD, k0_off68 c = ![rK2₀ 0 c, 0] := by decide +kernel
theorem off69_eq : ∀ c : Dev nD, k0_off69 c = ![rK2₁ 0 c, 0] := by decide +kernel
theorem off70_eq : ∀ c : Dev nD, k0_off70 c = ![oK2 1 c, 0] := by decide +kernel
theorem off71_eq : ∀ c : Dev nD, k0_off71 c = ![rK2₀ 1 c, 0] := by decide +kernel
theorem off72_eq : ∀ c : Dev nD, k0_off72 c = ![rK2₁ 1 c, 0] := by decide +kernel
theorem off73_eq : ∀ c : Dev nD, k0_off73 c = ![oK2 2 c, 0] := by decide +kernel
theorem off74_eq : ∀ c : Dev nD, k0_off74 c = ![rK2₀ 2 c, 0] := by decide +kernel
theorem off75_eq : ∀ c : Dev nD, k0_off75 c = ![rK2₁ 2 c, 0] := by decide +kernel
theorem off76_eq : ∀ c : Dev nD, k0_off76 c = ![oK2 0 c, 0] := by decide +kernel
theorem off77_eq : ∀ c : Dev nD, k0_off77 c = ![oK2 1 c, 0] := by decide +kernel
theorem off78_eq : ∀ c : Dev nD, k0_off78 c = ![oK2 2 c, 0] := by decide +kernel

theorem off79_eq : ∀ c : Dev nD, k0_off79 c = ![oS1 0 c, 0] := by decide +kernel
theorem off80_eq : ∀ c : Dev nD, k0_off80 c = ![oS1 1 c, 0] := by decide +kernel
theorem off81_eq : ∀ c : Dev nD, k0_off81 c = ![oS1 2 c, 0] := by decide +kernel

theorem off82_eq : ∀ c : Dev nD, k0_off82 c = ![oLb 0 c, 0] := by decide +kernel
theorem off83_eq : ∀ c : Dev nD, k0_off83 c = ![oLa 0 c, 0] := by decide +kernel
theorem off84_eq : ∀ c : Dev nD, k0_off84 c = ![oLb 1 c, 0] := by decide +kernel
theorem off85_eq : ∀ c : Dev nD, k0_off85 c = ![oLa 1 c, 0] := by decide +kernel
theorem off86_eq : ∀ c : Dev nD, k0_off86 c = ![oLb 2 c, 0] := by decide +kernel
theorem off87_eq : ∀ c : Dev nD, k0_off87 c = ![oLa 2 c, 0] := by decide +kernel
theorem off88_eq : ∀ c : Dev nD, k0_off88 c = ![oFb 0 c, 0] := by decide +kernel
theorem off89_eq : ∀ c : Dev nD, k0_off89 c = ![oFa 0 c, 0] := by decide +kernel
theorem off90_eq : ∀ c : Dev nD, k0_off90 c = ![oFb 1 c, 0] := by decide +kernel
theorem off91_eq : ∀ c : Dev nD, k0_off91 c = ![oFa 1 c, 0] := by decide +kernel
theorem off92_eq : ∀ c : Dev nD, k0_off92 c = ![oFb 2 c, 0] := by decide +kernel
theorem off93_eq : ∀ c : Dev nD, k0_off93 c = ![oFa 2 c, 0] := by decide +kernel

end Cert.Kernel.RsAg
-- ==== Proof.K.Remote.lean ====
import proofs.«901015_g7700000000001016_dist_rs_then_ag_i_m4096_n1024_v7x_i8_f32_1_alg».proof.Proof.Gen.Kernel.Skeleton
import proofs.«901015_g7700000000001016_dist_rs_then_ag_i_m4096_n1024_v7x_i8_f32_1_alg».proof.Proof.K.SchedTables
import proofs.«901015_g7700000000001016_dist_rs_then_ag_i_m4096_n1024_v7x_i8_f32_1_alg».proof.Proof.K.Tables

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev stgSl (o sz : Fin 2 → Nat) (inb : ∀ a, o a + sz a ≤ S4096x1024.size a)
    (hst : ∀ a, (Rect.unit (s := S4096x1024) o sz inb).stride a = 1) :
    Memref sig .tc .vmem (Rect.unit (s := S4096x1024) o sz inb).shape .bf16 :=
  (Memref.whole cc0_scratch0 : Memref sig .tc .vmem S4096x1024 .bf16).slice (Rect.unit (s := S4096x1024) o sz inb) hst

abbrev rsrSl (o sz : Fin 2 → Nat) (inb : ∀ a, o a + sz a ≤ S3584x1024.size a)
    (hst : ∀ a, (Rect.unit (s := S3584x1024) o sz inb).stride a = 1) :
    Memref sig .tc .vmem (Rect.unit (s := S3584x1024) o sz inb).shape .bf16 :=
  (Memref.whole cc0_scratch1 : Memref sig .tc .vmem S3584x1024 .bf16).slice (Rect.unit (s := S3584x1024) o sz inb) hst

theorem amt_eq : ∀ (p : Fin 3) (i : Fin 14), amt p i = RefSig.tileCredit ⟨2, ![eRows p, 1024]⟩ .bf16 := by decide +kernel

theorem slab_credit (p : Fin 3) (i : Fin 14) {sp : Space} (v : View sig .tc sp ⟨2, ![eRows p, 1024]⟩ .bf16) :
    v.dmaCredit = amt p i :=
  (rfl : v.dmaCredit = RefSig.tileCredit ⟨2, ![eRows p, 1024]⟩ .bf16).trans (amt_eq p i).symm

theorem pay_sendRS (c : Dev nD) (p : Fin 3) (i : Fin 14) (hi : i.val < 7) : (emp : sProp 𝕄) ⊢ sendPay m c p i := by
  unfold sendPay; rw [if_pos hi]

theorem wp_barSignal (c n : Dev nD) (k' : Fin 3) (hn : n = flip (barMask k') c)
    {α : Type} {Q : α → sProp 𝕄} {k : PUnit → Prog (TpuEff nD τ sig (Elt F) Λ₀ .tc) α}
    (κ : ℕ) (O₀ O : CellTallies nD τ sig Unit) (hO : O₀ = O + tallyAt (barCell n) () 1) (W : Waits sig Unit) :
    iprop(cellInv ER (sched m) κ (barCell n) ∗ owes (Dev.tc c : Thread nD τ) O₀ W ∗ dutyTok ER (barCell n) 0 k'
        ∗ barPay (F := F) n k' ∗ reached ER (barCell n) 0)
      ⊢ iprop((owes (Dev.tc c : Thread nD τ) O W
              -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.semSignal (Dev.tc n : Thread nD τ) barS 1) k) Q) := by
  subst hn
  exact Rounds.wp_signal Variants.none ER (sched m) (Dev.tc c : Thread nD τ) none
    (dst := (Dev.tc (flip (barMask k') c) : Thread nD τ)) (sem := barS) (r := 0) (d := k') (κ := κ)
    (by rw [duties_bar]; exact Finset.mem_univ _) (amount_bar m (flip (barMask k') c) k') () O hO (W := W)

theorem wp_barWait (c : Dev nD)
    {α : Type} {Q : α → sProp 𝕄} {k : PUnit → Prog (TpuEff nD τ sig (Elt F) Λ₀ .tc) α}
    (κ : ℕ) (O : CellTallies nD τ sig Unit) (W : Waits sig Unit) :
    iprop(cellInv ER (sched m) κ (barCell c) ∗ cred (tallyAt (barCell c) () 3)
        ∗ owes (Dev.tc c : Thread nD τ) O W ∗ MayWait (Dev.tc c : Thread nD τ) (.reg barS) () O
        ∗ atPos ER (barCell c) 0 ∅ 0)
      ⊢ iprop(((owes (Dev.tc c : Thread nD τ) O (insert (SemLoc.reg barS, ()) W)
              ∗ atPos ER (barCell c) 1 ∅ 0 ∗ reached ER (barCell c) 1
              ∗ barPay (F := F) c 0 ∗ barPay (F := F) c 1 ∗ barPay (F := F) c 2)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.semWait barS 3) k) Q) := by
  have h := Rounds.wp_wait_rest_token (defs := defs₀ (F := F)) (Γ := .empty) Variants.none ER (sched m) (Dev.tc c : Thread nD τ) none
    (w := .semWait barS 3) (sm := .reg barS) (k' := 3) (Es := Set.univ) (κ := κ)
    (wpE_semWait_eq Variants.none (Dev.tc c : Thread nD τ) none Set.univ)
    (Set.mem_univ _) (k := k) (Q := Q) () (O := O) (W := W) (R := 0) (m := 0) (T := ∅)
    (by rw [expect_bar])
  rw [rest_bar] at h
  exact h

end Cert.Kernel.RsAg

end
-- ==== Proof.K.Slabs.lean ====
import proofs.«901015_g7700000000001016_dist_rs_then_ag_i_m4096_n1024_v7x_i8_f32_1_alg».proof.Proof.Gen.Kernel
import proofs.«901015_g7700000000001016_dist_rs_then_ag_i_m4096_n1024_v7x_i8_f32_1_alg».proof.Proof.Gen.Kernel.Skeleton
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.K.Sched

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Whole

variable {sig' : RefSig} {κ : Kind} (b : Ref sig' κ) {Val : EltTy → Type}

theorem write_whole_eq_on (r : Rect b.ty.shape) (f G : b.ty.Contents Val) (w : r.shape.Idx → Val b.ty.elt)
    (hw : ∀ j, w j = G (r.emb j)) :
    ∀ i ∈ r.set, ((View.whole b : View sig' κ _ _ _).slice r).write Val f w Finset.univ i = G i := by
  intro i hi
  obtain ⟨j, rfl⟩ := r.exists_idx_of_mem hi
  exact (write_whole_emb b r f w j).trans (hw j)

end Whole

section Contents

variable {sig' : RefSig} {κ : Kind} (b : Ref sig' κ) {Val : EltTy → Type}

theorem write_whole_eq (r : Rect b.ty.shape) (f G : b.ty.Contents Val) (w : r.shape.Idx → Val b.ty.elt)
    (hw : ∀ j, w j = G (r.emb j)) (hG : ∀ i, i ∉ r.set → G i = f i) :
    ((View.whole b : View sig' κ _ _ _).slice r).write Val f w Finset.univ = G := by
  funext i
  by_cases hi : i ∈ r.set
  · exact write_whole_eq_on b r f G w hw i hi
  · rw [write_whole_of_not_mem b r f w hi, hG i hi]

end Contents

theorem mkW_emb {n o : Nat} (inb : ∀ a, (![o, 0] : Fin 2 → Nat) a + (![n, 1024] : Fin 2 → Nat) a ≤ S4096x1024.size a)
    (j : Shape.Idx ⟨2, ![n, 1024]⟩) (h₀ : o + (j 0).val < 4096) (h₁ : (j 1).val < 1024) :
    mkW ⟨o + (j 0).val, h₀⟩ ⟨(j 1).val, h₁⟩ = (Rect.unit (s := S4096x1024) ![o, 0] ![n, 1024] inb).emb j := by
  funext a
  apply Fin.ext
  match a with
  | ⟨0, _⟩ => show o + (j 0).val = o + 1 * (j 0).val; omega
  | ⟨1, _⟩ => show (j 1).val = 0 + 1 * (j 1).val; omega

theorem reRow_emb {e : FTy} {n o slot : Nat} (f : FVec F W e)
    (inbr : ∀ a, (![slot, 0] : Fin 2 → Nat) a + (![n, 1024] : Fin 2 → Nat) a ≤ S3584x1024.size a)
    (inbx : ∀ a, (![o, 0] : Fin 2 → Nat) a + (![n, 1024] : Fin 2 → Nat) a ≤ S4096x1024.size a)
    (j : Shape.Idx ⟨2, ![n, 1024]⟩) :
    reRow o slot f ((Rect.unit (s := S3584x1024) ![slot, 0] ![n, 1024] inbr).emb j)
      = f ((Rect.unit (s := S4096x1024) ![o, 0] ![n, 1024] inbx).emb j) := by
  have hj0 : (j 0).val < n := (j 0).isLt
  have hj1 : (j 1).val < 1024 := (j 1).isLt
  have hx0 : o + n ≤ 4096 := inbx 0
  have h₀ : o + (j 0).val < 4096 := by omega
  rw [← mkW_emb inbx j h₀ hj1]
  unfold reRow
  congr 1
  have e0 : (((Rect.unit (s := S3584x1024) ![slot, 0] ![n, 1024] inbr).emb j) ⟨0, by decide⟩).val = slot + 1 * (j 0).val := rfl
  have e1 : (((Rect.unit (s := S3584x1024) ![slot, 0] ![n, 1024] inbr).emb j) ⟨1, by decide⟩).val = 0 + 1 * (j 1).val := rfl
  congr 1
  · apply Fin.ext
    show (_ - slot + o) % 4096 = o + (j 0).val
    rw [e0, Nat.mod_eq_of_lt (by omega)]; omega
  · apply Fin.ext
    show _ % 1024 = (j 1).val
    rw [e1, Nat.mod_eq_of_lt (by omega)]; omega

theorem rcv_apply (v : FVec F W .bf16) (i : W.Idx) : rcv v i = FloatOps.extf .f32 bf16_lt_f32 (v i) := rfl

abbrev xM : Memref sig .tc .vmem S4096x1024 .f32 := Memref.whole cc0_stg0_0
abbrev oM : Memref sig .tc .vmem S4096x1024 .f32 := Memref.whole cc0_stg1_0
abbrev sM : Memref sig .tc .vmem S4096x1024 .bf16 := Memref.whole cc0_scratch0
abbrev rM : Memref sig .tc .vmem S3584x1024 .bf16 := Memref.whole cc0_scratch1
theorem hxM : (xM).IsWhole := Memref.isWhole_whole _
theorem hoM : (oM).IsWhole := Memref.isWhole_whole _
theorem hsM : (sM).IsWhole := Memref.isWhole_whole _
theorem hrM : (rM).IsWhole := Memref.isWhole_whole _

theorem rows4096_set {n o : Nat} (inb : ∀ a, (![o, 0] : Fin 2 → Nat) a + (![n, 1024] : Fin 2 → Nat) a ≤ S4096x1024.size a) :
    (Rect.unit (s := S4096x1024) ![o, 0] ![n, 1024] inb).set = rowsSet (S := S4096x1024) ⟨0, by decide⟩ o n :=
  set_unit_rows (d := ![4096, 1024]) ![o, 0] ![n, 1024] inb rfl rfl

theorem rows3584_set {n o : Nat} (inb : ∀ a, (![o, 0] : Fin 2 → Nat) a + (![n, 1024] : Fin 2 → Nat) a ≤ S3584x1024.size a) :
    (Rect.unit (s := S3584x1024) ![o, 0] ![n, 1024] inb).set = rowsSet (S := S3584x1024) ⟨0, by decide⟩ o n :=
  set_unit_rows (d := ![3584, 1024]) ![o, 0] ![n, 1024] inb rfl rfl

section Steps

variable {Ix : Type} [DecidableEq Ix] {Name : Type} [DecidableEq Name] {U : Type} [URA U] {Lvl : Type} [Preorder Lvl] {Λ : Labels}
variable {defs : Defs nD τ sig (Elt F) Λ} (𝒱 : Variants) (c : Dev nD) (bd : Option 𝒱.V) {Γ : PendingWaitsCtx sig Ix} (E : Set Name)
variable {α : Type} {Q : α → sProp (MT nD τ sig Ix (Elt F) Name U Lvl)}

local notation "𝕄'" => MT nD τ sig Ix (Elt F) Name U Lvl

theorem wp_load_stage {n o : Nat} {off : Fin 2 → Nat} (hoff : off = ![o, 0])
    {inb : ∀ a, off a + (![n, 1024] : Fin 2 → Nat) a ≤ S4096x1024.size a}
    {hl : (sM).view.LoadsAt (Rect.unit (s := S4096x1024) off ![n, 1024] inb).toLoadRect}
    {k : ((Rect.unit (s := S4096x1024) off ![n, 1024] inb).toLoadRect.shape.Idx → Elt F .bf16) → Prog (TpuEff nD τ sig (Elt F) Λ .tc) α}
    {I : Finset (Idx (sL c))} {q : PosShare TreeShare} {f : Buf (Elt F) (sL c)}
    (hI : rowsSet (S := S4096x1024) ⟨0, by decide⟩ o n ⊆ I) :
    (sL c ↦[I]{q} f : sProp 𝕄')
      ⊢ iprop(((sL c ↦[I]{q} f) -∗ wp frame (wpE' defs 𝒱 (Dev.tc c : Thread nD τ) bd Γ) E
            (k ((sM).view.readAt (Elt F) (Rect.unit (s := S4096x1024) off ![n, 1024] inb).toLoadRect f)) Q)
        -∗ wp frame (wpE' defs 𝒱 (Dev.tc c : Thread nD τ) bd Γ) E
            (.op (.load sM (Rect.unit (s := S4096x1024) off ![n, 1024] inb).toLoadRect hl) k) Q) := by
  subst hoff
  refine wp_load 𝒱 (Dev.tc c : Thread nD τ) bd E (m := sM) ?_
  intro i hi
  have h := setOn_whole cc0_scratch0 (Rect.unit (s := S4096x1024) ![o, 0] ![n, 1024] inb).set
  have hi' : i ∈ (Rect.unit (s := S4096x1024) ![o, 0] ![n, 1024] inb).set := (congrArg (fun s => i ∈ s) h).mp hi
  exact hI ((congrArg (fun s => i ∈ s) (rows4096_set inb)).mp hi')

theorem wp_store_stage {n o : Nat} {off : Fin 2 → Nat} (hoff : off = ![o, 0])
    {inb : ∀ a, off a + (![n, 1024] : Fin 2 → Nat) a ≤ S4096x1024.size a}
    {w : (Rect.unit (s := S4096x1024) off ![n, 1024] inb).shape.Idx → Elt F .bf16}
    {hx : ((sM).access (Rect.unit (s := S4096x1024) off ![n, 1024] inb)).Stores Finset.univ}
    {hm : (Finset.univ : Finset (Rect.unit (s := S4096x1024) off ![n, 1024] inb).shape.Idx) = Finset.univ
      ∨ ∀ a, (Rect.unit (s := S4096x1024) off ![n, 1024] inb).stride a = 1}
    {k : PUnit.{1} → Prog (TpuEff nD τ sig (Elt F) Λ .tc) α}
    {I : Finset (Idx (sL c))} {f : Buf (Elt F) (sL c)}
    (hI : rowsSet (S := S4096x1024) ⟨0, by decide⟩ o n ⊆ I) :
    (sL c ↦[I]{fullShare} f : sProp 𝕄')
      ⊢ iprop(((sL c ↦[I]{fullShare} (((sM).access (Rect.unit (s := S4096x1024) off ![n, 1024] inb)).write (Elt F) f w Finset.univ))
            -∗ wp frame (wpE' defs 𝒱 (Dev.tc c : Thread nD τ) bd Γ) E (k ⟨⟩) Q)
        -∗ wp frame (wpE' defs 𝒱 (Dev.tc c : Thread nD τ) bd Γ) E
            (.op (.store sM (Rect.unit (s := S4096x1024) off ![n, 1024] inb) w Finset.univ hx hm) k) Q) := by
  subst hoff
  refine wp_store (defs := defs) (Γ := Γ) (Q := Q) (k := k) 𝒱 (Dev.tc c : Thread nD τ) bd E (m := sM)
    (r := Rect.unit (s := S4096x1024) ![o, 0] ![n, 1024] inb) (w := w) (Mk := Finset.univ) (hx := hx) (hm := hm)
    (S := I) (f := f) ?_
  intro i hi
  have h := View.set_slice_whole cc0_scratch0 (Rect.unit (s := S4096x1024) ![o, 0] ![n, 1024] inb)
  have hi' : i ∈ (Rect.unit (s := S4096x1024) ![o, 0] ![n, 1024] inb).set := (congrArg (fun s => i ∈ s) h).mp hi
  exact hI ((congrArg (fun s => i ∈ s) (rows4096_set inb)).mp hi')

theorem stage_rows_write {n o : Nat} {off : Fin 2 → Nat} (hoff : off = ![o, 0])
    (inb : ∀ a, off a + (![n, 1024] : Fin 2 → Nat) a ≤ S4096x1024.size a)
    (f G : Buf (Elt F) (sL c)) (w : (Rect.unit (s := S4096x1024) off ![n, 1024] inb).shape.Idx → Elt F .bf16)
    (hw : ∀ j, w j = G ((Rect.unit (s := S4096x1024) off ![n, 1024] inb).emb j)) {q : PosShare TreeShare} :
    (sL c ↦[rowsSet (S := S4096x1024) ⟨0, by decide⟩ o n]{q}
        (((sM).access (Rect.unit (s := S4096x1024) off ![n, 1024] inb)).write (Elt F) f w Finset.univ) : sProp 𝕄')
      = (sL c ↦[rowsSet (S := S4096x1024) ⟨0, by decide⟩ o n]{q} G) := by
  subst hoff
  exact pointsTo_congr fun i hi =>
    write_whole_eq_on cc0_scratch0 (Rect.unit (s := S4096x1024) ![o, 0] ![n, 1024] inb) f G w hw i
      ((congrArg (fun s => i ∈ s) (rows4096_set inb)).mpr hi)

end Steps

end Cert.Kernel.RsAg

end
-- ==== Proof.K.RemoteSend.lean ====
import proofs.«901015_g7700000000001016_dist_rs_then_ag_i_m4096_n1024_v7x_i8_f32_1_alg».proof.Proof.K.Remote
import proofs.«901015_g7700000000001016_dist_rs_then_ag_i_m4096_n1024_v7x_i8_f32_1_alg».proof.Proof.K.Slabs

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem stgSl_set (r n : Nat) (inb : ∀ a, (![r, 0] : Fin 2 → Nat) a + (![n, 1024] : Fin 2 → Nat) a ≤ S4096x1024.size a)
    (hst : ∀ a, (Rect.unit (s := S4096x1024) ![r, 0] ![n, 1024] inb).stride a = 1) :
    (stgSl ![r, 0] ![n, 1024] inb hst).view.set = rowsSet (S := S4096x1024) ⟨0, by decide⟩ r n :=
  (View.set_slice_whole cc0_scratch0 (Rect.unit (s := S4096x1024) ![r, 0] ![n, 1024] inb)).trans (rows4096_set inb)

theorem rsrSl_set (r n : Nat) (inb : ∀ a, (![r, 0] : Fin 2 → Nat) a + (![n, 1024] : Fin 2 → Nat) a ≤ S3584x1024.size a)
    (hst : ∀ a, (Rect.unit (s := S3584x1024) ![r, 0] ![n, 1024] inb).stride a = 1) :
    (rsrSl ![r, 0] ![n, 1024] inb hst).view.set = rowsSet (S := S3584x1024) ⟨0, by decide⟩ r n :=
  (View.set_slice_whole cc0_scratch1 (Rect.unit (s := S3584x1024) ![r, 0] ![n, 1024] inb)).trans (rows3584_set inb)

theorem landed_stg (r n : Nat) (fs fd : FVec F W .bf16)
    {inbS inbD : ∀ a, (![r, 0] : Fin 2 → Nat) a + (![n, 1024] : Fin 2 → Nat) a ≤ S4096x1024.size a}
    {hstS : ∀ a, (Rect.unit (s := S4096x1024) ![r, 0] ![n, 1024] inbS).stride a = 1}
    {hstD : ∀ a, (Rect.unit (s := S4096x1024) ![r, 0] ![n, 1024] inbD).stride a = 1} :
    ∀ x ∈ rowsSet (S := S4096x1024) ⟨0, by decide⟩ r n,
      (stgSl ![r, 0] ![n, 1024] inbD hstD).view.write (Elt F) fd
          ((stgSl ![r, 0] ![n, 1024] inbS hstS).view.read (Elt F) fs) Finset.univ x = fs x := by
  intro x hx
  have hx' : x ∈ (Rect.unit (s := S4096x1024) ![r, 0] ![n, 1024] inbD).set := by
    rw [rows4096_set inbD]; exact hx
  exact write_whole_eq_on (Val := Elt F) cc0_scratch0 (Rect.unit (s := S4096x1024) ![r, 0] ![n, 1024] inbD) fd fs _ (fun j => rfl) x hx'

theorem landed_rsr (src sl n : Nat) (fs : FVec F W .bf16) (fd : FVec F WR .bf16)
    {inbS : ∀ a, (![src, 0] : Fin 2 → Nat) a + (![n, 1024] : Fin 2 → Nat) a ≤ S4096x1024.size a}
    {inbD : ∀ a, (![sl, 0] : Fin 2 → Nat) a + (![n, 1024] : Fin 2 → Nat) a ≤ S3584x1024.size a}
    {hstS : ∀ a, (Rect.unit (s := S4096x1024) ![src, 0] ![n, 1024] inbS).stride a = 1}
    {hstD : ∀ a, (Rect.unit (s := S3584x1024) ![sl, 0] ![n, 1024] inbD).stride a = 1} :
    ∀ x ∈ rowsSet (S := S3584x1024) ⟨0, by decide⟩ sl n,
      (rsrSl ![sl, 0] ![n, 1024] inbD hstD).view.write (Elt F) fd
          ((stgSl ![src, 0] ![n, 1024] inbS hstS).view.read (Elt F) fs) Finset.univ x = reRow src sl fs x := by
  intro x hx
  have hx' : x ∈ (Rect.unit (s := S3584x1024) ![sl, 0] ![n, 1024] inbD).set := by
    rw [rows3584_set inbD]; exact hx
  exact write_whole_eq_on (Val := Elt F) cc0_scratch1 (Rect.unit (s := S3584x1024) ![sl, 0] ![n, 1024] inbD) fd (reRow src sl fs) _
    (fun j => (reRow_emb fs inbD inbS j).symm) x hx'

theorem pay_recvRS (c : Dev nD) (p : Fin 3) (i : Fin 14) (hi : i.val < 7) (f : FVec F WR .bf16)
    {inbS : ∀ a, (![srcRow p (peer p (stp i) c) i, 0] : Fin 2 → Nat) a + (![eRows p, 1024] : Fin 2 → Nat) a ≤ S4096x1024.size a}
    {inbD : ∀ a, (![slot p (peer p (stp i) c) i, 0] : Fin 2 → Nat) a + (![eRows p, 1024] : Fin 2 → Nat) a ≤ S3584x1024.size a}
    {hstS : ∀ a, (Rect.unit (s := S4096x1024) ![srcRow p (peer p (stp i) c) i, 0] ![eRows p, 1024] inbS).stride a = 1}
    {hstD : ∀ a, (Rect.unit (s := S3584x1024) ![slot p (peer p (stp i) c) i, 0] ![eRows p, 1024] inbD).stride a = 1} :
    iprop((rL (peer p (stp i) c) ↦[(rsrSl ![slot p (peer p (stp i) c) i, 0] ![eRows p, 1024] inbD hstD).view.set]{fullShare}
          ((rsrSl ![slot p (peer p (stp i) c) i, 0] ![eRows p, 1024] inbD hstD).view.write (Elt F) f
            ((stgSl ![srcRow p (peer p (stp i) c) i, 0] ![eRows p, 1024] inbS hstS).view.read (Elt F) (sent m p c i)) Finset.univ))
        ∗ (sL c ↦[(stgSl ![srcRow p (peer p (stp i) c) i, 0] ![eRows p, 1024] inbS hstS).view.set]{fullShare} (sent m p c i)))
      ⊢ recvPay m (peer p (stp i) c) p i := by
  unfold recvPay rsrRows stgRows
  rw [if_pos hi, peer_peer, rsrSl_set, stgSl_set,
    pointsTo_congr (ℓ := rL (peer p (stp i) c))
      (landed_rsr (srcRow p (peer p (stp i) c) i) (slot p (peer p (stp i) c) i) (eRows p) (sent m p c i) f)]

theorem pay_sendAG (c : Dev nD) (p : Fin 3) (i : Fin 14) (hi : 7 ≤ i.val)
    {inbS : ∀ a, (![gSrcRow p c i, 0] : Fin 2 → Nat) a + (![eRows p, 1024] : Fin 2 → Nat) a ≤ S4096x1024.size a}
    {hstS : ∀ a, (Rect.unit (s := S4096x1024) ![gSrcRow p c i, 0] ![eRows p, 1024] inbS).stride a = 1} :
    (sL c ↦[(stgSl ![gSrcRow p c i, 0] ![eRows p, 1024] inbS hstS).view.set]{gShare i} (Stg (X m) p (gSrcJ p c i)) : sProp 𝕄)
      ⊢ sendPay m c p i := by
  unfold sendPay stgRows
  rw [if_neg (Nat.not_lt.2 hi), stgSl_set]

theorem pay_recvAG (c : Dev nD) (p : Fin 3) (i : Fin 14) (hi : 7 ≤ i.val) (f : FVec F W .bf16)
    {inbS inbD : ∀ a, (![gSrcRow p c i, 0] : Fin 2 → Nat) a + (![eRows p, 1024] : Fin 2 → Nat) a ≤ S4096x1024.size a}
    {hstS : ∀ a, (Rect.unit (s := S4096x1024) ![gSrcRow p c i, 0] ![eRows p, 1024] inbS).stride a = 1}
    {hstD : ∀ a, (Rect.unit (s := S4096x1024) ![gSrcRow p c i, 0] ![eRows p, 1024] inbD).stride a = 1} :
    (sL (peer p (stp i) c) ↦[(stgSl ![gSrcRow p c i, 0] ![eRows p, 1024] inbD hstD).view.set]{fullShare}
        ((stgSl ![gSrcRow p c i, 0] ![eRows p, 1024] inbD hstD).view.write (Elt F) f
          ((stgSl ![gSrcRow p c i, 0] ![eRows p, 1024] inbS hstS).view.read (Elt F) (Stg (X m) p (gSrcJ p c i))) Finset.univ) : sProp 𝕄)
      ⊢ recvPay m (peer p (stp i) c) p i := by
  unfold recvPay stgRows
  rw [if_neg (Nat.not_lt.2 hi), landRow_peer p i c hi, landJ_peer p i c hi, stgSl_set,
    pointsTo_congr (ℓ := sL (peer p (stp i) c)) (landed_stg (gSrcRow p c i) (eRows p) (Stg (X m) p (gSrcJ p c i)) f)]

end Cert.Kernel.RsAg

end
-- ==== Proof.K.Steps.lean ====
import proofs.«901015_g7700000000001016_dist_rs_then_ag_i_m4096_n1024_v7x_i8_f32_1_alg».proof.Proof.K.Mid
import proofs.«901015_g7700000000001016_dist_rs_then_ag_i_m4096_n1024_v7x_i8_f32_1_alg».proof.Proof.K.Remote
import proofs.«901015_g7700000000001016_dist_rs_then_ag_i_m4096_n1024_v7x_i8_f32_1_alg».proof.Proof.K.RemoteSend

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev wpc (c : Dev nD) {α : Type} (e : Prog (TpuEff nD τ sig (Elt F) Λ₀ .tc) α) (Q : α → sProp 𝕄) : sProp 𝕄 :=
  wp frame (wpE (defs₀ (F := F)) Variants.none (Dev.tc c : Thread nD τ) none) Set.univ e Q

theorem owedAfter_send (c : Dev nD) {ns : Nat} {p : Fin 3} {i : Fin 14} (h : sendOrder[ns]? = some (p, i)) :
    owedAfter barS rSem amt c (3 + ns)
      = owedAfter barS rSem amt c (3 + (ns + 1)) + tallyAt (recvCell (peer p (stp i) c) p i) () (amt p i) := by
  obtain ⟨hl, he⟩ := List.getElem?_eq_some_iff.mp h
  unfold owedAfter
  rw [dues_drop_sends, dues_drop_sends, List.drop_eq_getElem_cons hl, he]
  rfl

theorem hrS : ∀ (p : Fin 3) (i : Fin 14), (rSem p i).val = 44 + 14 * p.val + i.val := fun _ _ => rfl

theorem records_cellInv (K : CellIx → ℕ) (ck : CellIx) : records m K ⊢ cellInv ER (sched m) (K ck) (kcell ck) :=
  sep_elim_left.trans ((Entails.of_eq (bigSep_univ_at _ ck)).trans sep_elim_left)

theorem records_reached (K : CellIx → ℕ) (ck : CellIx) : records m K ⊢ (reached ER (kcell ck) 0 : sProp 𝕄) :=
  sep_elim_right.trans ((Entails.of_eq (bigSep_univ_at _ ck)).trans sep_elim_left)

theorem step_waitRecv (K : CellIx → ℕ) (c : Dev nD) (ns : Nat) (waited : Finset (Fin 3 × Fin 14)) (p : Fin 3) (i : Fin 14)
    (hw : (p, i) ∉ waited) (hns : ns = nBefore p i)
    {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    {α : Type} {Q : α → sProp 𝕄} {k : PUnit → Prog (TpuEff nD τ sig (Elt F) Λ₀ .tc) α} :
    ghostAt m K c ns waited
      ⊢ iprop(((ghostAt m K c ns (insert (p, i) waited) ∗ recvPay m c p i)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.waitDma2 (rSem p i) src dst hsrc hdst) k) Q) := by
  subst hns
  unfold ghostAt
  rw [bigSep_compl_take hw]
  iintro ⟨#Hrec, Hbar, Hrp, Hsp, Hsc, ⟨Hcr, Hrc⟩, Htok, ⟨%W, Ho⟩, #Hlev⟩ Hk
  ihave #Hinv := (records_cellInv m K (c, some (true, p, i))) $$ Hrec
  ihave ⟨Hat, Hrp⟩ := (bigSep_mark hw fun pi n => atPos ER (recvCell c pi.1 pi.2) n ∅ 0) $$ Hrp
  ihave #Hmw := (mayWait_recv (Val := Elt F) (Name := ℕ) (U := UU) barS rSem amt hrS c p i) $$ Hlev
  dsimp only [kcell]
  iapply (Rounds.wp_wait_rest_token (defs := defs₀ (F := F)) (Γ := .empty) Variants.none ER (sched m) (Dev.tc c : Thread nD τ) none
    (w := .waitDma2 (rSem p i) src dst hsrc hdst) (sm := .dma (rSem p i)) (k' := amt p i) (Es := Set.univ)
    (fun K => by rw [← hamt]; exact wpE_waitDma2_eq Variants.none (Dev.tc c : Thread nD τ) none Set.univ K)
    (Set.mem_univ _) () (W := W) (R := 0) (m := 0) (T := ∅) (by rw [expect_recv, Nat.zero_add])) $$ [$]
  rw [rest_recv]
  iintro ⟨Ho, Hat, -, Hpay⟩
  iapply Hk
  iframe # ∗
  isplitl [Hrp Hat]; · iapply Hrp $$ Hat
  iexists _; iexact Ho

theorem step_sendAG (K : CellIx → ℕ) (c : Dev nD) (ns : Nat) (waited : Finset (Fin 3 × Fin 14)) (p : Fin 3) (i : Fin 14)
    (hns : sendOrder[ns]? = some (p, i)) (hi : 7 ≤ i.val) (n : Dev nD) (hn : n = peer p (stp i) c)
    (os sz : Fin 2 → Nat) (hsz : sz = ![eRows p, 1024]) (hos : os = ![gSrcRow p c i, 0])
    {inbS inbD : ∀ a, os a + sz a ≤ S4096x1024.size a}
    {hstS : ∀ a, (Rect.unit (s := S4096x1024) os sz inbS).stride a = 1}
    {hstD : ∀ a, (Rect.unit (s := S4096x1024) os sz inbD).stride a = 1}
    {hsc : (stgSl os sz inbD hstD).view.ref.isScScratch = false}
    {hsrc : (stgSl os sz inbS hstS).view.WordExact} {hdst : (stgSl os sz inbD hstD).view.WordExact}
    {hsem : DmaTarget.Typed .vmem (.dma (rSem p i)) (.remote (Dev.tc n : Thread nD τ) (stgSl os sz inbD hstD) (.dma (sSem p i)) hsc)}
    {α : Type} {Q : α → sProp 𝕄} {k : PUnit → Prog (TpuEff nD τ sig (Elt F) Λ₀ .tc) α} :
    iprop(ghostAt m K c ns waited
        ∗ stgRows c p (gSrcRow p c i) (gShare i) (Stg (X m) p (gSrcJ p c i)) ∗ (∃ f, stgRows (F := F) n p (gSrcRow p c i) fullShare f))
      ⊢ iprop((ghostAt m K c (ns + 1) waited
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.enqueueDma (stgSl os sz inbS hstS) (.remote (Dev.tc n : Thread nD τ) (stgSl os sz inbD hstD) (.dma (sSem p i)) hsc)
                (.dma (rSem p i)) hsrc hdst hsem) k) Q) := by
  subst hn hos hsz
  unfold ghostAt stgRows
  rw [started_succ hns, bigSep_compl_take (not_mem_started hns), bigSep_insert' (not_mem_started hns),
    ← stgSl_set (gSrcRow p c i) (eRows p) inbS hstS]
  iintro ⟨⟨#Hrec, Hbar, Hrp, Hsp, Hsc, Hrc, ⟨⟨Ht1, Ht2⟩, Htok⟩, ⟨%W, Ho⟩, #Hlev⟩, Hsrc, ⟨%f, Hdst⟩⟩ Hk
  ihave #Hi1 := (records_cellInv m K (c, some (false, p, i))) $$ Hrec
  ihave #Hi2 := (records_cellInv m K (peer p (stp i) c, some (true, p, i))) $$ Hrec
  ihave #Hr1 := (records_reached m K (c, some (false, p, i))) $$ Hrec
  ihave #Hr2 := (records_reached m K (peer p (stp i) c, some (true, p, i))) $$ Hrec
  dsimp only [kcell]
  iapply (Rounds.wp_send_pointsTo Variants.none ER (sched m) (Dev.tc c : Thread nD τ) none
    (hsc := hsc) (hsrc := hsrc) (hdst := hdst) (hsem := hsem) (r₁ := 0) (r₂ := 0) (d₁ := 0) (d₂ := 0) (fd := f)
    (by rw [duties_send]; exact Finset.mem_singleton_self _) (by rw [duties_recv]; exact Finset.mem_singleton_self _)
    () () (amt p i) (slab_credit p i _) (amount_send m c p i 0) (amount_recv m (peer p (stp i) c) p i 0) _ (owedAfter_send c hns) (W := W)
    (by rw [payload_send]; exact pay_sendAG m c p i hi)
    (by rw [payload_recv]; exact pay_recvAG m c p i hi f)) $$ [$]
  iintro ⟨Hcr, Ho⟩
  iapply Hk
  iframe # ∗
  iexists _; iexact Ho

theorem step_sendRS (K : CellIx → ℕ) (c : Dev nD) (ns : Nat) (waited : Finset (Fin 3 × Fin 14)) (p : Fin 3) (i : Fin 14)
    (hns : sendOrder[ns]? = some (p, i)) (hi : i.val < 7) (n : Dev nD) (hn : n = peer p (stp i) c)
    (os od sz : Fin 2 → Nat) (hsz : sz = ![eRows p, 1024]) (hos : os = ![srcRow p n i, 0]) (hod : od = ![slot p n i, 0])
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    {α : Type} {Q : α → sProp 𝕄} {k : PUnit → Prog (TpuEff nD τ sig (Elt F) Λ₀ .tc) α} :
    iprop(ghostAt m K c ns waited
        ∗ stgRows c p (srcRow p n i) fullShare (sent m p c i) ∗ (∃ f, rsrRows (F := F) n p (slot p n i) f))
      ⊢ iprop((ghostAt m K c (ns + 1) waited
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.enqueueDma (stgSl os sz inbS hstS) (.remote (Dev.tc n : Thread nD τ) (rsrSl od sz inbD hstD) (.dma (sSem p i)) hsc)
                (.dma (rSem p i)) hsrc hdst hsem) k) Q) := by
  subst hn hos hod hsz
  unfold ghostAt stgRows rsrRows
  rw [started_succ hns, bigSep_compl_take (not_mem_started hns), bigSep_insert' (not_mem_started hns),
    ← stgSl_set (srcRow p (peer p (stp i) c) i) (eRows p) inbS hstS, ← rsrSl_set (slot p (peer p (stp i) c) i) (eRows p) inbD hstD]
  iintro ⟨⟨#Hrec, Hbar, Hrp, Hsp, Hsc, Hrc, ⟨⟨Ht1, Ht2⟩, Htok⟩, ⟨%W, Ho⟩, #Hlev⟩, Hsrc, ⟨%f, Hdst⟩⟩ Hk
  ihave #Hi1 := (records_cellInv m K (c, some (false, p, i))) $$ Hrec
  ihave #Hi2 := (records_cellInv m K (peer p (stp i) c, some (true, p, i))) $$ Hrec
  ihave #Hr1 := (records_reached m K (c, some (false, p, i))) $$ Hrec
  ihave #Hr2 := (records_reached m K (peer p (stp i) c, some (true, p, i))) $$ Hrec
  dsimp only [kcell]
  iapply (Rounds.wp_send_landing_pointsTo Variants.none ER (sched m) (Dev.tc c : Thread nD τ) none
    (hsc := hsc) (hsrc := hsrc) (hdst := hdst) (hsem := hsem) (r₁ := 0) (r₂ := 0) (d₁ := 0) (d₂ := 0) (fd := f)
    (by rw [duties_send]; exact Finset.mem_singleton_self _) (by rw [duties_recv]; exact Finset.mem_singleton_self _)
    () () (amt p i) (slab_credit p i _) (amount_send m c p i 0) (amount_recv m (peer p (stp i) c) p i 0) _ (owedAfter_send c hns) (W := W)
    (by rw [payload_send]; exact pay_sendRS m c p i hi)
    (by rw [payload_recv]; exact pay_recvRS m c p i hi f)) $$ [$]
  iintro ⟨Hcr, Ho⟩
  iapply Hk
  iframe # ∗
  iexists _; iexact Ho

def ghostEnd (K : CellIx → ℕ) (c : Dev nD) (sw : Finset (Fin 3 × Fin 14)) : sProp 𝕄 :=
  iprop(records m K
    ∗ (bigSep Finset.univ fun pi : Fin 3 × Fin 14 => atPos ER (recvCell c pi.1 pi.2) 1 ∅ 0)
    ∗ (bigSep Finset.univ fun pi : Fin 3 × Fin 14 => atPos ER (sendCell c pi.1 pi.2) (if pi ∈ sw then 1 else 0) ∅ 0)
    ∗ (bigSep (Finset.univ \ sw) fun pi => cred (tallyAt (sendCell c pi.1 pi.2) () (amt pi.1 pi.2)))
    ∗ (∃ W, owes (Dev.tc c : Thread nD τ) 0 W))

theorem ghostEnd_of_ghostAt (K : CellIx → ℕ) (c : Dev nD) : ghostAt m K c 42 Finset.univ ⊢ ghostEnd m K c ∅ := by
  unfold ghostAt ghostEnd
  rw [show owedAfter barS rSem amt c (3 + 42) = 0 from owedAfter_all barS rSem amt c 45 (Nat.le_refl 45)]
  simp only [Finset.mem_univ, if_true, Finset.notMem_empty, if_false, started_all, Finset.sdiff_empty]
  iintro ⟨#Hrec, -, Hrp, Hsp, Hsc, -, -, Ho, -⟩
  iframe # ∗

theorem step_waitSend (K : CellIx → ℕ) (c : Dev nD) (sw : Finset (Fin 3 × Fin 14)) (p : Fin 3) (i : Fin 14)
    (hw : (p, i) ∉ sw)
    {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    {α : Type} {Q : α → sProp 𝕄} {k : PUnit → Prog (TpuEff nD τ sig (Elt F) Λ₀ .tc) α} :
    ghostEnd m K c sw
      ⊢ iprop(((ghostEnd m K c (insert (p, i) sw) ∗ sendPay m c p i)
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.waitDma2 (sSem p i) src dst hsrc hdst) k) Q) := by
  unfold ghostEnd
  rw [bigSep_compl_take hw]
  iintro ⟨#Hrec, Hrp, Hsp, ⟨Hcr, Hsc⟩, ⟨%W, Ho⟩⟩ Hk
  ihave #Hinv := (records_cellInv m K (c, some (false, p, i))) $$ Hrec
  ihave ⟨Hat, Hsp⟩ := (bigSep_mark hw fun pi n => atPos ER (sendCell c pi.1 pi.2) n ∅ 0) $$ Hsp
  dsimp only [kcell]
  iapply (Rounds.wp_wait_rest_token (defs := defs₀ (F := F)) (Γ := .empty) Variants.none ER (sched m) (Dev.tc c : Thread nD τ) none
    (w := .waitDma2 (sSem p i) src dst hsrc hdst) (sm := .dma (sSem p i)) (k' := amt p i) (Es := Set.univ)
    (fun K => by rw [← hamt]; exact wpE_waitDma2_eq Variants.none (Dev.tc c : Thread nD τ) none Set.univ K)
    (Set.mem_univ _) () (O := 0) (W := W) (R := 0) (m := 0) (T := ∅) (by rw [expect_send, Nat.zero_add])) $$ [Hcr Ho Hat]
  · rw [MayWait_zero]; iframe # ∗; iempintro
  rw [rest_send]
  iintro ⟨Ho, Hat, -, Hpay⟩
  iapply Hk
  iframe # ∗
  isplitl [Hsp Hat]; · iapply Hsp $$ Hat
  iexists _; iexact Ho

theorem close_cell (K : CellIx → ℕ) (ck : CellIx) :
    iprop(records m K ∗ atPos ER (kcell ck) 1 ∅ 0) ⊢ (iprop(|={Set.univ}=> semVal (kcell ck) 0) : sProp 𝕄) := by
  iintro ⟨#Hr, Hat⟩
  ihave #Hinv := (records_cellInv m K ck) $$ Hr
  iapply (cell_close ER (sched m) (Set.mem_univ (K ck)) (fun h => h) (duties_later m (kcell ck))) $$ [$]

theorem close_pair (K : CellIx → ℕ) (c : Dev nD) (pi : Fin 3 × Fin 14) :
    iprop(records m K ∗ (atPos ER (sendCell c pi.1 pi.2) 1 ∅ 0 ∗ atPos ER (recvCell c pi.1 pi.2) 1 ∅ 0))
      ⊢ (iprop(|={Set.univ}=> (semVal (sendCell c pi.1 pi.2) 0 ∗ semVal (recvCell c pi.1 pi.2) 0)) : sProp 𝕄) := by
  iintro ⟨#Hr, Hs, Hv⟩
  ihave H1 := (close_cell m K (c, some (false, pi.1, pi.2))) $$ [Hs]
  · iframe #; iexact Hs
  ihave H2 := (close_cell m K (c, some (true, pi.1, pi.2))) $$ [Hv]
  · iframe #; iexact Hv
  imod H1
  imod H2
  imodintro
  dsimp only [kcell]
  iframe

theorem close_all (K : CellIx → ℕ) (c : Dev nD) :
    ghostEnd m K c Finset.univ
      ⊢ iprop(|={Set.univ}=> ((bigSep Finset.univ fun pi : Fin 3 × Fin 14 =>
            iprop(semVal (sendCell c pi.1 pi.2) 0 ∗ semVal (recvCell c pi.1 pi.2) 0)) ∗ ∃ W, owes (Dev.tc c : Thread nD τ) 0 W)) := by
  unfold ghostEnd
  simp only [Finset.mem_univ, if_true]
  iintro ⟨#Hrec, Hrp, Hsp, -, Ho⟩
  ihave Hcl := ((bigSep_with_persistent (S := Finset.univ) (R := records m K) (fun pi _ => close_pair m K c pi)).trans
    (bigSep_fupd Finset.univ _)) $$ [Hsp Hrp]
  · rw [bigSep_sep']; iframe # ∗
  imod Hcl
  imodintro
  iframe

end Cert.Kernel.RsAg

end
-- ==== Proof.K.Basics.lean ====
import proofs.«901015_g7700000000001016_dist_rs_then_ag_i_m4096_n1024_v7x_i8_f32_1_alg».proof.Proof.Gen.Kernel
import proofs.«901015_g7700000000001016_dist_rs_then_ag_i_m4096_n1024_v7x_i8_f32_1_alg».proof.Proof.Gen.Kernel.Skeleton
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.K.Sched

noncomputable section

namespace Cert.Kernel.RsAg

open Cert.Kernel Cert.Kernel.Gen Cert.RsAg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Shares

variable {Ix : Type} [DecidableEq Ix] {Val : EltTy → Type} {Name : Type} [DecidableEq Name] {U : Type} [URA U] {Lvl : Type}
variable {ℓ : Loc nD τ sig} {I : Finset (Idx ℓ)} {f : Buf Val ℓ}

local notation "𝕄" => MT nD τ sig Ix Val Name U Lvl

theorem pointsTo_halves :
    (ℓ ↦[I]{fullShare} f : sProp 𝕄) ⊣⊢ iprop((ℓ ↦[I]{shL} f) ∗ ℓ ↦[I]{shR} f) :=
  pointsTo_share (PosShare.mem_left_op_right fullShare)

theorem pointsTo_right_halves :
    (ℓ ↦[I]{shR} f : sProp 𝕄) ⊣⊢ iprop((ℓ ↦[I]{shRL} f) ∗ ℓ ↦[I]{shRR} f) :=
  pointsTo_share (PosShare.mem_left_op_right fullShare.right)

theorem pointsTo_thirds :
    (ℓ ↦[I]{fullShare} f : sProp 𝕄) ⊣⊢ iprop((ℓ ↦[I]{shL} f) ∗ (ℓ ↦[I]{shRL} f) ∗ ℓ ↦[I]{shRR} f) :=
  ⟨pointsTo_halves.1.trans (sep_mono_right pointsTo_right_halves.1),
   (sep_mono_right pointsTo_right_halves.2).trans pointsTo_halves.2⟩

theorem pointsTo_halves_join : iprop((ℓ ↦[I]{shL} f) ∗ ℓ ↦[I]{shR} f) ⊢ (ℓ ↦[I]{fullShare} f : sProp 𝕄) := pointsTo_halves.2
theorem pointsTo_thirds_join :
    iprop((ℓ ↦[I]{shL} f) ∗ (ℓ ↦[I]{shRL} f) ∗ ℓ ↦[I]{shRR} f) ⊢ (ℓ ↦[I]{fullShare} f : sProp 𝕄) := pointsTo_thirds.2

end Shares

namespace Cover

abbrev ax0 : Fin S4096x1024.rank := ⟨0, by decide⟩

abbrev slabRows (pj : Fin 3 × Fin 8) : Finset S4096x1024.Idx := rowsSet (S := S4096x1024) ax0 (slab pj.1 pj.2.val) (eRows pj.1)

theorem slabRows_disjoint (pj pj' : Fin 3 × Fin 8) (h : pj ≠ pj') : Disjoint (slabRows pj) (slabRows pj') := by
  rw [Finset.disjoint_left]
  intro i h₁ h₂
  rw [mem_rowsSet] at h₁ h₂
  exact h (Prod.ext ((partOf_of_inSlab pj.2.isLt h₁).symm.trans (partOf_of_inSlab pj'.2.isLt h₂))
    (Fin.ext ((slabOf_of_inSlab pj.2.isLt h₁).symm.trans (slabOf_of_inSlab pj'.2.isLt h₂))))

theorem slabRows_cover : (Finset.univ : Finset (Fin 3 × Fin 8)).biUnion slabRows = Finset.univ := by
  ext i
  simp only [Finset.mem_biUnion, Finset.mem_univ, true_and, iff_true]
  have hr : (i ax0).val < 4096 := (i ax0).isLt
  exact ⟨(partOf (i ax0).val, ⟨slabOf (i ax0).val, slabOf_lt hr⟩), mem_rowsSet.mpr (inSlab_partOf_slabOf hr)⟩

end Cover

end Cert.Kernel.RsAg

end
-- ==== Proof.K.Cuts.lean ====
import proofs.«901015_g7700000000001016_dist_rs_then_ag_i_m4096_n1024_v7x_i8_f32_1_alg».proof.Proof.K.Basics
import proofs.«901015_g7700000000001016_dist_rs_then_ag_i_m4096_n1024_v7x_i8_f32_1_alg».proof.Proof.K.Slabs

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem slab_as_role (c : Dev nD) (pr : Fin 3 × Fin 8) (f : Buf (Elt F) (sL c)) :
    (sL c ↦[(Cover.slabRows (sroleE c pr) : Finset (Idx (sL c)))]{fullShare} f : sProp 𝕄)
      ⊢ iprop(∃ g, stgRows (F := F) c pr.1 (roleRow pr.1 pr.2 c) fullShare g) := by
  iintro H
  iexists f
  unfold stgRows
  rw [sroleRow_eq pr.1 pr.2 c]
  iexact H

theorem stage_cut (c : Dev nD) (f : Buf (Elt F) (sL c)) :
    (sL c ↦{fullShare} f : sProp 𝕄)
      ⊢ bigSep Finset.univ fun pr : Fin 3 × Fin 8 =>
          iprop(∃ g, stgRows (F := F) c pr.1 (roleRow pr.1 pr.2 c) fullShare g) := by
  have hc : (Finset.univ : Finset (Idx (sL c)))
      = (Finset.univ : Finset (Fin 3 × Fin 8)).biUnion (Cover.slabRows : Fin 3 × Fin 8 → Finset (Idx (sL c))) :=
    Cover.slabRows_cover.symm
  have h1 : (sL c ↦{fullShare} f : sProp 𝕄)
      = bigSep (Finset.univ : Finset (Fin 3 × Fin 8))
          fun pj => (sL c ↦[(Cover.slabRows pj : Finset (Idx (sL c)))]{fullShare} f : sProp 𝕄) :=
    (congrArg (fun S => (sL c ↦[S]{fullShare} f : sProp 𝕄)) hc).trans
      (pointsTo_biUnion (ℓ := sL c) (q := fullShare) (f := f) (Finset.univ : Finset (Fin 3 × Fin 8))
        (Cover.slabRows : Fin 3 × Fin 8 → Finset (Idx (sL c))) (fun t _ t' _ h => Cover.slabRows_disjoint t t' h))
  rw [h1, bigSep_univ_equiv (sroleE c)]
  exact bigSep_mono fun pr _ => slab_as_role c pr f

section Block

theorem block_split (c : Dev nD) {o oa ob E : Nat} (h : (oa = o ∧ ob = o + E) ∨ (ob = o ∧ oa = o + E))
    (f : Buf (Elt F) (sL c)) {q : PosShare TreeShare} :
    (sL c ↦[rowsSet (S := S4096x1024) ⟨0, by decide⟩ o (E + E)]{q} f : sProp 𝕄)
      ⊣⊢ iprop((sL c ↦[rowsSet (S := S4096x1024) ⟨0, by decide⟩ oa E]{q} f)
          ∗ (sL c ↦[rowsSet (S := S4096x1024) ⟨0, by decide⟩ ob E]{q} f)) := by
  rw [rowsSet_add o E E]
  rcases h with ⟨rfl, rfl⟩ | ⟨rfl, rfl⟩
  · exact pointsTo_union (rowsSet_disjoint (Nat.le_refl _))
  · exact ⟨(pointsTo_union (rowsSet_disjoint (Nat.le_refl _))).1.trans sep_comm.1,
      sep_comm.1.trans (pointsTo_union (rowsSet_disjoint (Nat.le_refl _))).2⟩

theorem block_join (c : Dev nD) {o oa ob E : Nat} (h : (oa = o ∧ ob = o + E) ∨ (ob = o ∧ oa = o + E)) :
    iprop((∃ f, (sL c ↦[rowsSet (S := S4096x1024) ⟨0, by decide⟩ oa E]{fullShare} f : sProp 𝕄))
        ∗ (∃ g, (sL c ↦[rowsSet (S := S4096x1024) ⟨0, by decide⟩ ob E]{fullShare} g : sProp 𝕄)))
      ⊢ iprop(∃ b, (sL c ↦[rowsSet (S := S4096x1024) ⟨0, by decide⟩ o (E + E)]{fullShare} b : sProp 𝕄)) := by
  rw [rowsSet_add o E E]
  iintro ⟨⟨%f, Hf⟩, ⟨%g, Hg⟩⟩
  rcases h with ⟨rfl, rfl⟩ | ⟨rfl, rfl⟩
  all_goals
    iexists _
    iapply (pointsTo_join (rowsSet_disjoint (Nat.le_refl _)))
    iframe

end Block

end Cert.Kernel.RsAg

end
-- ==== Proof.K.Tiles.lean ====
import proofs.«901015_g7700000000001016_dist_rs_then_ag_i_m4096_n1024_v7x_i8_f32_1_alg».proof.Proof.K.Sched

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

namespace Tiles

open Cert.RsAg.Tiles

abbrev ax : Fin S4096x1024.rank := ⟨0, by decide⟩
abbrev rax : Fin S3584x1024.rank := ⟨0, by decide⟩

abbrev slotRows (c : Fin 8) (pi : Fin 3 × Fin 14) : Finset S3584x1024.Idx :=
  rowsSet (S := S3584x1024) rax (slot pi.1 c pi.2) (eRows pi.1)

theorem slotRows_disjoint (c : Fin 8) (pi : Fin 3 × Fin 14) (hpi : pi ∈ red) (pi' : Fin 3 × Fin 14) (hpi' : pi' ∈ red)
    (h : pi ≠ pi') : Disjoint (slotRows c pi) (slotRows c pi') := by
  rcases slots_apart c pi.1 pi'.1 pi.2 pi'.2 (mem_red.mp hpi) (mem_red.mp hpi') h with h' | h'
  · exact rowsSet_disjoint h'
  · exact (rowsSet_disjoint h').symm

theorem slotRows_cover (c : Fin 8) : red.biUnion (slotRows c) = Finset.univ := by
  ext x
  simp only [Finset.mem_biUnion, Finset.mem_univ, iff_true]
  obtain ⟨p, j, hlo, hhi⟩ := rrow_cases (x rax).val (x rax).isLt
  obtain ⟨i, hi, hs⟩ := slots_onto c p j
  exact ⟨(p, i), mem_red.mpr hi, mem_rowsSet.mpr ⟨by rw [hs]; exact hlo, by rw [hs]; exact hhi⟩⟩

theorem rsr_whole (c : Dev nD) (g : Fin 3 × Fin 14 → FVec F WR .bf16) :
    bigSep red (fun pi => rsrRows (F := F) c pi.1 (slot pi.1 c pi.2) (g pi)) ⊢ (iprop(∃ f, rL c ↦{fullShare} f) : sProp 𝕄) := by
  have h := pointsTo_biUnion_join (Ix := Unit) (Val := Elt F) (Name := ℕ) (U := UU) (Lvl := ℕ) (ℓ := rL c) (q := fullShare)
    red (fun pi => (slotRows c pi : Finset (Idx (rL c)))) (fun pi => (g pi : Buf (Elt F) (rL c))) (g (0, 0))
    (fun t ht t' ht' hne => slotRows_disjoint c t ht t' ht' hne)
  rw [slotRows_cover] at h
  refine h.trans ?_
  iintro ⟨%f, -, H⟩
  iexists f
  iexact H

abbrev roleRows (c : Fin 8) (pr : Fin 3 × Fin 8) : Finset S4096x1024.Idx :=
  rowsSet (S := S4096x1024) ax (rRow pr.1 pr.2 c) (eRows pr.1)

theorem roleRows_disjoint (c : Fin 8) (pr pr' : Fin 3 × Fin 8) (h : pr ≠ pr') : Disjoint (roleRows c pr) (roleRows c pr') := by
  rcases roles_apart c pr.1 pr'.1 pr.2 pr'.2 h with h' | h'
  · exact rowsSet_disjoint h'
  · exact (rowsSet_disjoint h').symm

theorem roleRows_cover (c : Fin 8) : (Finset.univ : Finset (Fin 3 × Fin 8)).biUnion (roleRows c) = Finset.univ := by
  ext x
  simp only [Finset.mem_biUnion, Finset.mem_univ, true_and, iff_true]
  obtain ⟨p, j, hlo, hhi⟩ := row_cases (x ax).val (x ax).isLt
  obtain ⟨r, hs⟩ := roles_onto c p j
  exact ⟨(p, r), mem_rowsSet.mpr ⟨by rw [hs]; exact hlo, by rw [hs]; exact hhi⟩⟩

theorem stg_whole (c : Dev nD) (g : Fin 3 × Fin 8 → FVec F W .bf16) :
    bigSep Finset.univ (fun pr : Fin 3 × Fin 8 => stgRows (F := F) c pr.1 (rRow pr.1 pr.2 c) fullShare (g pr))
      ⊢ (iprop(∃ f, sL c ↦{fullShare} f) : sProp 𝕄) := by
  have h := pointsTo_biUnion_join (Ix := Unit) (Val := Elt F) (Name := ℕ) (U := UU) (Lvl := ℕ) (ℓ := sL c) (q := fullShare)
    (Finset.univ : Finset (Fin 3 × Fin 8)) (fun pr => (roleRows c pr : Finset (Idx (sL c)))) (fun pr => (g pr : Buf (Elt F) (sL c))) (g (0, 0))
    (fun t _ t' _ hne => roleRows_disjoint c t t' hne)
  rw [roleRows_cover] at h
  refine h.trans ?_
  iintro ⟨%f, -, H⟩
  iexists f
  iexact H

end Tiles

end Cert.Kernel.RsAg

end
-- ==== Proof.K.RsrCut.lean ====
import proofs.«901015_g7700000000001016_dist_rs_then_ag_i_m4096_n1024_v7x_i8_f32_1_alg».proof.Proof.K.Sched
import proofs.«901015_g7700000000001016_dist_rs_then_ag_i_m4096_n1024_v7x_i8_f32_1_alg».proof.Proof.K.Tiles
import proofs.«901015_g7700000000001016_dist_rs_then_ag_i_m4096_n1024_v7x_i8_f32_1_alg».proof.Proof.K.Slabs
import proofs.«901015_g7700000000001016_dist_rs_then_ag_i_m4096_n1024_v7x_i8_f32_1_alg».proof.Proof.K.SchedTables

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev rsrSlotRows (c : Fin 8) (pr : Fin 3 × Fin 7) : Finset S3584x1024.Idx :=
  rowsSet (S := S3584x1024) ⟨0, by decide⟩ (slotR pr.1 c pr.2) (eRows pr.1)

theorem rsrSlotRows_disjoint (c : Fin 8) (pr pr' : Fin 3 × Fin 7) (h : pr ≠ pr') : Disjoint (rsrSlotRows c pr) (rsrSlotRows c pr') := by
  rcases slotR_sep c pr.1 pr.2 pr'.1 pr'.2 h with h' | h'
  · exact rowsSet_disjoint h'
  · exact (rowsSet_disjoint h').symm

theorem rsrSlotRows_cover (c : Fin 8) : (Finset.univ : Finset (Fin 3 × Fin 7)).biUnion (rsrSlotRows c) = Finset.univ := by
  ext i
  simp only [Finset.mem_biUnion, Finset.mem_univ, true_and, iff_true]
  obtain ⟨p, s, lo, hi⟩ := Tiles.rrow_cases _ (i (⟨0, by decide⟩ : Fin S3584x1024.rank)).isLt
  obtain ⟨r, e⟩ := slotR_pos c p s
  exact ⟨(p, r), mem_rowsSet.mpr ⟨by rw [e]; exact lo, by rw [e]; exact hi⟩⟩

theorem rsr_cut (c : Dev nD) (f : Buf (Elt F) (rL c)) :
    (rL c ↦{fullShare} f : sProp 𝕄)
      = bigSep (Finset.univ : Finset (Fin 3 × Fin 7))
          fun pr => (rL c ↦[(rsrSlotRows c pr : Finset (Idx (rL c)))]{fullShare} f : sProp 𝕄) := by
  have hc : (Finset.univ : Finset (Idx (rL c)))
      = (Finset.univ : Finset (Fin 3 × Fin 7)).biUnion (rsrSlotRows c : Fin 3 × Fin 7 → Finset (Idx (rL c))) :=
    (rsrSlotRows_cover c).symm
  exact (congrArg (fun S => (rL c ↦[S]{fullShare} f : sProp 𝕄)) hc).trans
    (pointsTo_biUnion (ℓ := rL c) (q := fullShare) (f := f) (Finset.univ : Finset (Fin 3 × Fin 7))
      (rsrSlotRows c : Fin 3 × Fin 7 → Finset (Idx (rL c))) (fun t _ t' _ h => rsrSlotRows_disjoint c t t' h))

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slots_of_part (c : Dev nD) (p : Fin 3) (f : Buf (Elt F) (rL c)) :
    (bigSep (Finset.univ : Finset (Fin 7)) fun r => (rL c ↦[(rsrSlotRows c (p, r) : Finset (Idx (rL c)))]{fullShare} f : sProp 𝕄))
      ⊢ iprop(slotsOf (F := F) c p 0 ∗ slotsOf (F := F) c p 1 ∗ slotsOf (F := F) c p 2) := by
  rw [bigSep_fin7, slotsOf_0, slotsOf_1, slotsOf_2]
  unfold rsrRows
  iintro ⟨H0, H1, H2, H3, H4, H5, H6⟩
  isplitl [H0 H1 H2 H3]
  · isplitl [H0]; · iexists f; iexact H0
    isplitl [H1]; · iexists f; iexact H1
    isplitl [H2]; · iexists f; iexact H2
    iexists f; iexact H3
  isplitl [H4 H5]
  · isplitl [H4]; · iexists f; iexact H4
    iexists f; iexact H5
  iexists f; iexact H6

theorem barPay_flip (k : Fin 3) (c : Fin 8) : barPay (F := F) (Cert.RsAg.flip (barMask k) c) k
    = iprop(slotsOf (F := F) c 0 (stepOf k 0) ∗ slotsOf (F := F) c 1 (stepOf k 1) ∗ slotsOf (F := F) c 2 (stepOf k 2)) := by
  unfold barPay; rw [flipM_flipM k c]

theorem rsr_parts (c : Dev nD) (f : Buf (Elt F) (rL c)) :
    (rL c ↦{fullShare} f : sProp 𝕄)
      ⊢ iprop((bigSep (Finset.univ : Finset (Fin 7)) fun r => (rL c ↦[(rsrSlotRows c (0, r) : Finset (Idx (rL c)))]{fullShare} f : sProp 𝕄))
          ∗ (bigSep (Finset.univ : Finset (Fin 7)) fun r => (rL c ↦[(rsrSlotRows c (1, r) : Finset (Idx (rL c)))]{fullShare} f : sProp 𝕄))
          ∗ (bigSep (Finset.univ : Finset (Fin 7)) fun r => (rL c ↦[(rsrSlotRows c (2, r) : Finset (Idx (rL c)))]{fullShare} f : sProp 𝕄))) := by
  rw [rsr_cut c f, bigSep_univ_prod, bigSep_fin3]

theorem regroup9 (A0 A1 A2 B0 B1 B2 C0 C1 C2 : sProp 𝕄) :
    iprop((A0 ∗ A1 ∗ A2) ∗ (B0 ∗ B1 ∗ B2) ∗ (C0 ∗ C1 ∗ C2)) ⊢ iprop((A0 ∗ B2 ∗ C1) ∗ (A1 ∗ B0 ∗ C2) ∗ (A2 ∗ B1 ∗ C0)) := by
  iintro ⟨⟨HA0, HA1, HA2⟩, ⟨HB0, HB1, HB2⟩, ⟨HC0, HC1, HC2⟩⟩
  iframe

theorem rsr_to_barPays (c : Dev nD) (f : Buf (Elt F) (rL c)) :
    (rL c ↦{fullShare} f : sProp 𝕄)
      ⊢ iprop(barPay (F := F) (Cert.RsAg.flip (barMask 0) c) 0 ∗ barPay (F := F) (Cert.RsAg.flip (barMask 1) c) 1
          ∗ barPay (F := F) (Cert.RsAg.flip (barMask 2) c) 2) := by
  rw [barPay_flip, barPay_flip, barPay_flip]
  exact (rsr_parts (F := F) c f).trans
    ((BI.sep_mono (slots_of_part (F := F) c 0 f) (BI.sep_mono (slots_of_part (F := F) c 1 f) (slots_of_part (F := F) c 2 f))).trans
      (regroup9 _ _ _ _ _ _ _ _ _))

end Cert.Kernel.RsAg

end
-- ==== Proof.K.Part1Cut.lean ====
import proofs.«901015_g7700000000001016_dist_rs_then_ag_i_m4096_n1024_v7x_i8_f32_1_alg».proof.Proof.K.Open
import proofs.«901015_g7700000000001016_dist_rs_then_ag_i_m4096_n1024_v7x_i8_f32_1_alg».proof.Proof.K.Steps
import proofs.«901015_g7700000000001016_dist_rs_then_ag_i_m4096_n1024_v7x_i8_f32_1_alg».proof.Proof.K.Cuts
import proofs.«901015_g7700000000001016_dist_rs_then_ag_i_m4096_n1024_v7x_i8_f32_1_alg».proof.Proof.K.RsrCut

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-- The 21 reduction copies, grouped by the neighbour whose barrier signal brings their slot. -/
theorem unsent_regroup (Φ : Fin 3 × Fin 14 → sProp 𝕄) :
    iprop(((Φ (0, 0) ∗ Φ (0, 1) ∗ Φ (0, 2) ∗ Φ (0, 3)) ∗ Φ (1, 6) ∗ (Φ (2, 4) ∗ Φ (2, 5)))
        ∗ ((Φ (0, 4) ∗ Φ (0, 5)) ∗ (Φ (1, 0) ∗ Φ (1, 1) ∗ Φ (1, 2) ∗ Φ (1, 3)) ∗ Φ (2, 6))
        ∗ (Φ (0, 6) ∗ (Φ (1, 4) ∗ Φ (1, 5)) ∗ (Φ (2, 0) ∗ Φ (2, 1) ∗ Φ (2, 2) ∗ Φ (2, 3))))
      ⊢ bigSep (Finset.univ.filter fun pi : Fin 3 × Fin 14 => pi.2.val < 7) Φ := by
  rw [bigSep_eq_bigSepL_of_eq [(0, 0), (0, 1), (0, 2), (0, 3), (1, 6), (2, 4), (2, 5), (0, 4), (0, 5), (1, 0), (1, 1), (1, 2),
    (1, 3), (2, 6), (0, 6), (1, 4), (1, 5), (2, 0), (2, 1), (2, 2), (2, 3)] (by decide +kernel) (by decide)]
  simp only [bigSepL_cons_cons, bigSepL_singleton, show ∀ P R : sProp 𝕄, BI.sep P R = iprop(P ∗ R) from fun _ _ => rfl]
  iintro ⟨⟨⟨H00, H01, H02, H03⟩, H16, H24, H25⟩, ⟨⟨H04, H05⟩, ⟨H10, H11, H12, H13⟩, H26⟩, H06, ⟨H14, H15⟩, H20, H21, H22, H23⟩
  iframe

theorem exec_part1_cut
    (Q : (Σ' (d0 : Dev nD) (v2 : BitVec 32) (v18 : BitVec 32) (v21 : BitVec 32) (v24 : BitVec 32) (v25 : BitVec 32), BitVec 32) → sProp 𝕄)
    (h : ∀ v2 v18 v21 v24 v25 z, cutState m K c (fun _ _ => 0) 0 ∅ Finset.univ ⊢ Q ⟨c, v2, v18, v21, v24, v25, z⟩) :
    St0 m K c ⊢ wp frame (wpE (defs₀ (F := F)) 𝒱₀ (Dev.tc c : Thread nD τ) none) Set.univ
      (k0_part1 (F := F) xM hxM oM hoM sM hsM rM hrM cc0_scratch2 cc0_scratch3) Q := by
  have e : (fun pi : Fin 3 × Fin 14 =>
        (atPos ER (recvCell c pi.1 pi.2) (if pi ∈ (∅ : Finset (Fin 3 × Fin 14)) then 1 else 0) ∅ 0 : sProp 𝕄))
      = fun pi => atPos ER (recvCell c pi.1 pi.2) 0 ∅ 0 :=
    funext fun pi => by rw [if_neg (Finset.notMem_empty pi)]
  have hci : ∀ d, records m K ⊢ cellInv ER (sched m) (K (d, none)) (barCell d) := fun d => records_cellInv m K (d, none)
  have hre : ∀ d, records m K ⊢ (reached ER (barCell d) 0 : sProp 𝕄) := fun d => records_reached m K (d, none)
  have hps : iprop(barPay (F := F) c 0 ∗ barPay (F := F) c 1 ∗ barPay (F := F) c 2) ⊢ _ := unsent_regroup fun pi =>
    iprop(∃ f, rsrRows (F := F) (peer pi.1 (stp pi.2) c) pi.1 (slot pi.1 (peer pi.1 (stp pi.2) c) pi.2) f)
  rw [k0_part1_eq_skeleton]
  unfold k0_part1_skel
  simp only [semSignalWord, semWaitWord, Prog.lift, Prog.bind_op, Prog.bind_ret, Prog.pure_eq_ret, wp_deviceId]
  rw [dev1_eq c, dev2_eq c, dev3_eq c]
  unfold St0 ghost positions payToks creds scratch
  rw [bigSep_fin3, bigSep_sep' Finset.univ (fun pi : Fin 3 × Fin 14 => (atPos ER (sendCell c pi.1 pi.2) 0 ∅ 0 : sProp 𝕄))
    (fun pi : Fin 3 × Fin 14 => (atPos ER (recvCell c pi.1 pi.2) 0 ∅ 0 : sProp 𝕄))]
  iintro ⟨⟨#Hrec, ⟨Hbp, Hsp, Hrp⟩, ⟨⟨Hbt0, Hbt1, Hbt2⟩, Htok⟩⟩, ⟨Hbc, Hrc⟩, #Hlev, ⟨⟨%fs, Hs⟩, ⟨%fr, Hr⟩⟩, ⟨%W, HO⟩, Hx, Hout⟩
  icases (rsr_to_barPays (F := F) c fr) $$ Hr with ⟨Hp0, Hp1, Hp2⟩
  ihave #Hi0 := (hci (Cert.RsAg.flip (barMask 0) c)) $$ Hrec
  ihave #Hr0 := (hre (Cert.RsAg.flip (barMask 0) c)) $$ Hrec
  iapply (wp_barSignal m c _ 0 rfl _ (O₀ barS rSem amt c) (owedAfter barS rSem amt c 1)
    (owedAfter_succ barS rSem amt c 0 (by rw [dues_length]; decide)) W) $$ [$]
  iintro HO
  ihave #Hi1 := (hci (Cert.RsAg.flip (barMask 1) c)) $$ Hrec
  ihave #Hr1 := (hre (Cert.RsAg.flip (barMask 1) c)) $$ Hrec
  iapply (wp_barSignal m c _ 1 rfl _ (owedAfter barS rSem amt c 1) (owedAfter barS rSem amt c 2)
    (owedAfter_succ barS rSem amt c 1 (by rw [dues_length]; decide)) W) $$ [$]
  iintro HO
  ihave #Hi2 := (hci (Cert.RsAg.flip (barMask 2) c)) $$ Hrec
  ihave #Hr2 := (hre (Cert.RsAg.flip (barMask 2) c)) $$ Hrec
  iapply (wp_barSignal m c _ 2 rfl _ (owedAfter barS rSem amt c 2) (owedAfter barS rSem amt c 3)
    (owedAfter_succ barS rSem amt c 2 (by rw [dues_length]; decide)) W) $$ [$]
  iintro HO
  ihave #Hic := (hci c) $$ Hrec
  ihave Hmw := (mayWait_bar (Val := Elt F) (Name := ℕ) (U := UU) barS rSem amt hrS c) $$ Hlev
  iapply (wp_barWait m c _ (owedAfter barS rSem amt c 3) W) $$ [$]
  iintro ⟨HO, Hbp, -, Hq⟩
  iapply (le_wp_ret _ _)
  iapply (h _ _ _ _ _ _)
  unfold cutState ghostAt
  rw [e, show started 0 = ∅ by decide, Finset.sdiff_empty, bigSep_empty, bigSep_empty, Xlev_zero]
  ihave Hcut := (stage_cut (F := F) c fs) $$ Hs
  ihave Hslots := hps $$ Hq
  iframe # ∗
  isplitl
  · isplitr
    · iempintro
    iexists _
    iexact HO
  iempintro

end Cert.Kernel.RsAg

end
-- ==== Proof.K.Local.lean ====
import proofs.«901015_g7700000000001016_dist_rs_then_ag_i_m4096_n1024_v7x_i8_f32_1_alg».proof.Proof.Gen.Kernel.Skeleton
import proofs.«901015_g7700000000001016_dist_rs_then_ag_i_m4096_n1024_v7x_i8_f32_1_alg».proof.Proof.K.Sched
import proofs.«901015_g7700000000001016_dist_rs_then_ag_i_m4096_n1024_v7x_i8_f32_1_alg».proof.Proof.K.Slabs
import proofs.«901015_g7700000000001016_dist_rs_then_ag_i_m4096_n1024_v7x_i8_f32_1_alg».proof.Proof.Accum

noncomputable section

namespace Cert.Kernel.RsAg

open Cert.Kernel Cert.Kernel.Gen Cert.RsAg

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
abbrev mX : Memref sig .tc .vmem S4096x1024 .f32 := Memref.whole cc0_stg0_0
abbrev mS : Memref sig .tc .vmem S4096x1024 .bf16 := Memref.whole cc0_scratch0
abbrev mR : Memref sig .tc .vmem S3584x1024 .bf16 := Memref.whole cc0_scratch1

theorem mem_rows_inSlab (p : Fin 3) (j : Nat) (i : W.Idx) :
    i ∈ rowsSet (S := S4096x1024) ⟨0, by decide⟩ (slab p j) (eRows p) ↔ inSlab p j (i 0).val :=
  mem_rowsSet

section Steps

variable (Xv : Fin 8 → FVec F W .f32) (c : Dev nD)

theorem wp_x_load (R : Rect S4096x1024) {hl : (mX).view.LoadsAt R.toLoadRect}
    (f : FVec F W .f32) {α : Type} {Q : α → sProp 𝕄} {k : Vec F R.shape .f32 → Prog (TpuEff nD τ sig (Elt F) Λ₀ .tc) α} :
    (xL c ↦{fullShare} f : sProp 𝕄)
      ⊢ iprop(((xL c ↦{fullShare} f) -∗ wp frame (wpE (defs₀ (F := F)) Variants.none (Dev.tc c : Thread nD τ) none) Set.univ (k fun jj => f (R.emb jj)) Q)
          -∗ wp frame (wpE (defs₀ (F := F)) Variants.none (Dev.tc c : Thread nD τ) none) Set.univ (.op (.load mX R.toLoadRect hl) k) Q) :=
  wp_load Variants.none (Dev.tc c : Thread nD τ) none Set.univ (m := mX) (Finset.subset_univ _)

theorem wp_x_store_add (p : Fin 3) (j : Nat) (hj : j < 8) (nx : Fin 3 → Nat → Nat) (kk : Nat) (hk3 : kk < 3) (hk : nx p j = kk)
    (off sz : Fin 2 → Nat) (hsz : sz = ![eRows p, 1024]) (hoff : off = ![slab p j, 0])
    {inb : ∀ a, off a + sz a ≤ S4096x1024.size a}
    {hx : ((mX).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (w : FVec F ⟨2, sz⟩ .f32)
    (hw : ∀ jj, w jj = addf (Xlev Xv c nx) (rcv (snd (Pn Xv p (peer p ⟨kk, hk3⟩ c) kk))) ((Rect.unit (s := S4096x1024) off sz inb).emb jj))
    {α : Type} {Q : α → sProp 𝕄} {k : PUnit → Prog (TpuEff nD τ sig (Elt F) Λ₀ .tc) α} :
    (xL c ↦{fullShare} Xlev Xv c nx : sProp 𝕄)
      ⊢ iprop(((xL c ↦{fullShare} Xlev Xv c (bump nx p j)) -∗ wp frame (wpE (defs₀ (F := F)) Variants.none (Dev.tc c : Thread nD τ) none) Set.univ (k ⟨⟩) Q)
          -∗ wp frame (wpE (defs₀ (F := F)) Variants.none (Dev.tc c : Thread nD τ) none) Set.univ (.op (.store mX (Rect.unit (s := S4096x1024) off sz inb) w Finset.univ hx hm) k) Q) := by
  subst hsz hoff
  have h := wp_store (defs := defs₀ (F := F)) (Γ := .empty) (Q := Q) (k := k) Variants.none (Dev.tc c : Thread nD τ) none Set.univ (m := mX)
    (w := w) (hx := hx) (hm := hm) (f := Xlev Xv c nx) (Finset.subset_univ _)
  rwa [write_whole_eq (Val := Elt F) cc0_stg0_0 (Rect.unit (s := S4096x1024) _ _ inb) (Xlev Xv c nx) (Xlev Xv c (bump nx p j)) w
    (fun jj => (hw jj).trans (Xlev_bump_in Xv c nx _ ((mem_rows_inSlab p j _).mp
      (rows4096_set inb ▸ (Rect.unit (s := S4096x1024) _ _ inb).toLoadRect.idx_mem jj)) hj hk hk3).symm)
    fun i hi => Xlev_bump_out Xv c nx i fun h => hi (rows4096_set inb ▸ (mem_rows_inSlab p j i).mpr h)] at h

theorem wp_slot_load (p : Fin 3) (s : Nat) (offr sz : Fin 2 → Nat) (hsz : sz = ![eRows p, 1024]) (hoffr : offr = ![s, 0])
    {inbr : ∀ a, offr a + sz a ≤ S3584x1024.size a} {hl : (mR).view.LoadsAt (Rect.unit (s := S3584x1024) offr sz inbr).toLoadRect}
    (g : FVec F WR .bf16) {α : Type} {Q : α → sProp 𝕄} {k : Vec F ⟨2, sz⟩ .bf16 → Prog (TpuEff nD τ sig (Elt F) Λ₀ .tc) α} :
    (rsrRows c p s g : sProp 𝕄)
      ⊢ iprop((rsrRows c p s g -∗ wp frame (wpE (defs₀ (F := F)) Variants.none (Dev.tc c : Thread nD τ) none) Set.univ (k fun jj => g ((Rect.unit (s := S3584x1024) offr sz inbr).emb jj)) Q)
          -∗ wp frame (wpE (defs₀ (F := F)) Variants.none (Dev.tc c : Thread nD τ) none) Set.univ (.op (.load mR (Rect.unit (s := S3584x1024) offr sz inbr).toLoadRect hl) k) Q) := by
  subst hsz hoffr
  exact wp_load Variants.none (Dev.tc c : Thread nD τ) none Set.univ (m := mR) ((setOn_whole cc0_scratch1 _).trans (rows3584_set inbr)).le

theorem wp_stg_load (p : Fin 3) (o : Nat) (q : PosShare TreeShare) (off sz : Fin 2 → Nat) (hsz : sz = ![eRows p, 1024]) (hoff : off = ![o, 0])
    {inb : ∀ a, off a + sz a ≤ S4096x1024.size a} {hl : (mS).view.LoadsAt (Rect.unit (s := S4096x1024) off sz inb).toLoadRect}
    (f : FVec F W .bf16) {α : Type} {Q : α → sProp 𝕄} {k : Vec F ⟨2, sz⟩ .bf16 → Prog (TpuEff nD τ sig (Elt F) Λ₀ .tc) α} :
    (stgRows c p o q f : sProp 𝕄)
      ⊢ iprop((stgRows c p o q f -∗ wp frame (wpE (defs₀ (F := F)) Variants.none (Dev.tc c : Thread nD τ) none) Set.univ (k fun jj => f ((Rect.unit (s := S4096x1024) off sz inb).emb jj)) Q)
          -∗ wp frame (wpE (defs₀ (F := F)) Variants.none (Dev.tc c : Thread nD τ) none) Set.univ (.op (.load mS (Rect.unit (s := S4096x1024) off sz inb).toLoadRect hl) k) Q) := by
  subst hsz
  exact wp_load_stage Variants.none c none Set.univ hoff (Finset.Subset.refl _)

theorem wp_stg_store (p : Fin 3) (o : Nat) (off sz : Fin 2 → Nat) (hsz : sz = ![eRows p, 1024]) (hoff : off = ![o, 0])
    {inb : ∀ a, off a + sz a ≤ S4096x1024.size a}
    {hx : ((mS).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (f G : FVec F W .bf16) (w : FVec F ⟨2, sz⟩ .bf16) (hw : ∀ jj, w jj = G ((Rect.unit (s := S4096x1024) off sz inb).emb jj))
    {α : Type} {Q : α → sProp 𝕄} {k : PUnit → Prog (TpuEff nD τ sig (Elt F) Λ₀ .tc) α} :
    (stgRows c p o fullShare f : sProp 𝕄)
      ⊢ iprop((stgRows c p o fullShare G -∗ wp frame (wpE (defs₀ (F := F)) Variants.none (Dev.tc c : Thread nD τ) none) Set.univ (k ⟨⟩) Q)
          -∗ wp frame (wpE (defs₀ (F := F)) Variants.none (Dev.tc c : Thread nD τ) none) Set.univ (.op (.store mS (Rect.unit (s := S4096x1024) off sz inb) w Finset.univ hx hm) k) Q) := by
  subst hsz
  have h := wp_store_stage (defs := defs₀ (F := F)) (Γ := .empty) (Q := Q) (k := k) (w := w) (hx := hx) (hm := hm) (f := f)
    Variants.none c none Set.univ hoff (Finset.Subset.refl _)
  rwa [stage_rows_write c hoff inb f G w hw] at h

theorem add_val (p : Fin 3) (j : Nat) (nx : Fin 3 → Nat → Nat) (G' : FVec F W .bf16) (s : Nat)
    (off offr sz : Fin 2 → Nat) (hsz : sz = ![eRows p, 1024]) (hoff : off = ![slab p j, 0]) (hoffr : offr = ![s, 0])
    {inb : ∀ a, off a + sz a ≤ S4096x1024.size a} {inbr : ∀ a, offr a + sz a ≤ S3584x1024.size a}
    (pay : Vec F ⟨2, sz⟩ .f32 → Vec F ⟨2, sz⟩ .bf16 → FVec F ⟨2, sz⟩ .f32)
    (hpay : ∀ v w jj, pay v w jj = FloatOps.addf (v jj) (FloatOps.extf .f32 bf16_lt_f32 (w jj))) :
    ∀ jj, pay (fun jj => Xlev Xv c nx ((Rect.unit (s := S4096x1024) off sz inb).emb jj)) (fun jj => reRow (slab p j) s G' ((Rect.unit (s := S3584x1024) offr sz inbr).emb jj)) jj
      = addf (Xlev Xv c nx) (rcv G') ((Rect.unit (s := S4096x1024) off sz inb).emb jj) := by
  subst hsz hoff hoffr
  intro jj
  rw [hpay, reRow_emb G' inbr inb jj]
  rfl

theorem round_val (p : Fin 3) (j : Nat) (hj : j < 8) (nx : Fin 3 → Nat → Nat) (kk : Nat) (hk : nx p j = kk)
    (off sz : Fin 2 → Nat) (hsz : sz = ![eRows p, 1024]) (hoff : off = ![slab p j, 0])
    {inb : ∀ a, off a + sz a ≤ S4096x1024.size a}
    (pay : Vec F ⟨2, sz⟩ .f32 → FVec F ⟨2, sz⟩ .bf16)
    (hpay : ∀ v jj, pay v jj = FloatOps.truncf .bf16 bf16_lt_f32 (v jj)) :
    ∀ jj, pay (fun jj => Xlev Xv c nx ((Rect.unit (s := S4096x1024) off sz inb).emb jj)) jj = snd (Pn Xv p c kk) ((Rect.unit (s := S4096x1024) off sz inb).emb jj) := by
  subst hsz hoff
  intro jj
  rw [hpay, Xlev_in Xv c nx _ hj ((mem_rows_inSlab p j _).mp (rows4096_set inb ▸ (Rect.unit (s := S4096x1024) _ _ inb).toLoadRect.idx_mem jj)), hk]
  rfl

theorem wp_add (p : Fin 3) (j : Nat) (hj : j < 8) (nx : Fin 3 → Nat → Nat) (kk : Nat) (hk3 : kk < 3) (hk : nx p j = kk) (s : Nat)
    (off offr sz : Fin 2 → Nat) (hsz : sz = ![eRows p, 1024]) (hoff : off = ![slab p j, 0]) (hoffr : offr = ![s, 0])
    {inb : ∀ a, off a + sz a ≤ S4096x1024.size a} {inbr : ∀ a, offr a + sz a ≤ S3584x1024.size a}
    {hl₁ hl₃ : (mX).view.LoadsAt (Rect.unit (s := S4096x1024) off sz inb).toLoadRect} {hl₂ : (mR).view.LoadsAt (Rect.unit (s := S3584x1024) offr sz inbr).toLoadRect}
    {hx : ((mX).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : Vec F ⟨2, sz⟩ .f32 → Vec F ⟨2, sz⟩ .bf16 → FVec F ⟨2, sz⟩ .f32)
    (hpay : ∀ v w jj, pay v w jj = FloatOps.addf (v jj) (FloatOps.extf .f32 bf16_lt_f32 (w jj)))
    {α : Type} {Q : α → sProp 𝕄} {k : PUnit → Prog (TpuEff nD τ sig (Elt F) Λ₀ .tc) α} :
    iprop((xL c ↦{fullShare} Xlev Xv c nx) ∗ rsrRows c p s (reRow (slab p j) s (snd (Pn Xv p (peer p ⟨kk, hk3⟩ c) kk))))
      ⊢ iprop((((xL c ↦{fullShare} Xlev Xv c (bump nx p j))
              ∗ rsrRows c p s (reRow (slab p j) s (snd (Pn Xv p (peer p ⟨kk, hk3⟩ c) kk)))) -∗ wp frame (wpE (defs₀ (F := F)) Variants.none (Dev.tc c : Thread nD τ) none) Set.univ (k ⟨⟩) Q)
          -∗ wp frame (wpE (defs₀ (F := F)) Variants.none (Dev.tc c : Thread nD τ) none) Set.univ
            (.op (.load mX (Rect.unit (s := S4096x1024) off sz inb).toLoadRect hl₁) fun v₁ =>
             .op (.load mR (Rect.unit (s := S3584x1024) offr sz inbr).toLoadRect hl₂) fun v₂ =>
             .op (.load mX (Rect.unit (s := S4096x1024) off sz inb).toLoadRect hl₃) fun _ =>
             .op (.store mX (Rect.unit (s := S4096x1024) off sz inb) (pay v₁ v₂) Finset.univ hx hm) k) Q) := by
  iintro ⟨Hx, Hs⟩ Hk
  iapply (wp_x_load c (Rect.unit (s := S4096x1024) off sz inb) (Xlev Xv c nx)) $$ Hx
  iintro Hx
  iapply (wp_slot_load c p s offr sz hsz hoffr _) $$ Hs
  iintro Hs
  iapply (wp_x_load c (Rect.unit (s := S4096x1024) off sz inb) (Xlev Xv c nx)) $$ Hx
  iintro Hx
  iapply (wp_x_store_add Xv c p j hj nx kk hk3 hk off sz hsz hoff _
    (add_val Xv c p j nx _ s off offr sz hsz hoff hoffr pay hpay)) $$ Hx
  iintro Hx
  iapply Hk
  iframe

theorem wp_round (p : Fin 3) (j : Nat) (hj : j < 8) (nx : Fin 3 → Nat → Nat) (kk : Nat) (hk : nx p j = kk)
    (off sz : Fin 2 → Nat) (hsz : sz = ![eRows p, 1024]) (hoff : off = ![slab p j, 0])
    {inb : ∀ a, off a + sz a ≤ S4096x1024.size a}
    {hl₁ : (mX).view.LoadsAt (Rect.unit (s := S4096x1024) off sz inb).toLoadRect} {hl₂ : (mS).view.LoadsAt (Rect.unit (s := S4096x1024) off sz inb).toLoadRect}
    {hx : ((mS).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : Vec F ⟨2, sz⟩ .f32 → FVec F ⟨2, sz⟩ .bf16)
    (hpay : ∀ v jj, pay v jj = FloatOps.truncf .bf16 bf16_lt_f32 (v jj))
    (f₀ : FVec F W .bf16) {α : Type} {Q : α → sProp 𝕄} {k : PUnit → Prog (TpuEff nD τ sig (Elt F) Λ₀ .tc) α} :
    iprop((xL c ↦{fullShare} Xlev Xv c nx) ∗ stgRows c p (slab p j) fullShare f₀)
      ⊢ iprop((((xL c ↦{fullShare} Xlev Xv c nx) ∗ stgRows c p (slab p j) fullShare (snd (Pn Xv p c kk))) -∗ wp frame (wpE (defs₀ (F := F)) Variants.none (Dev.tc c : Thread nD τ) none) Set.univ (k ⟨⟩) Q)
          -∗ wp frame (wpE (defs₀ (F := F)) Variants.none (Dev.tc c : Thread nD τ) none) Set.univ
            (.op (.load mX (Rect.unit (s := S4096x1024) off sz inb).toLoadRect hl₁) fun v =>
             .op (.load mS (Rect.unit (s := S4096x1024) off sz inb).toLoadRect hl₂) fun _ =>
             .op (.store mS (Rect.unit (s := S4096x1024) off sz inb) (pay v) Finset.univ hx hm) k) Q) := by
  iintro ⟨Hx, Hs⟩ Hk
  iapply (wp_x_load c (Rect.unit (s := S4096x1024) off sz inb) (Xlev Xv c nx)) $$ Hx
  iintro Hx
  iapply (wp_stg_load c p (slab p j) fullShare off sz hsz hoff f₀) $$ Hs
  iintro Hs
  iapply (wp_stg_store c p (slab p j) off sz hsz hoff f₀ _ _ (round_val Xv c p j hj nx kk hk off sz hsz hoff pay hpay)) $$ Hs
  iintro Hs
  iapply Hk
  iframe

end Steps

end Cert.Kernel.RsAg

end
-- ==== Proof.K.PartsA.lean ====
import proofs.«901015_g7700000000001016_dist_rs_then_ag_i_m4096_n1024_v7x_i8_f32_1_alg».proof.Proof.K.Mid
import proofs.«901015_g7700000000001016_dist_rs_then_ag_i_m4096_n1024_v7x_i8_f32_1_alg».proof.Proof.K.Cuts
import proofs.«901015_g7700000000001016_dist_rs_then_ag_i_m4096_n1024_v7x_i8_f32_1_alg».proof.Proof.K.Slabs
import proofs.«901015_g7700000000001016_dist_rs_then_ag_i_m4096_n1024_v7x_i8_f32_1_alg».proof.Proof.K.Tables
import proofs.«901015_g7700000000001016_dist_rs_then_ag_i_m4096_n1024_v7x_i8_f32_1_alg».proof.Proof.K.Steps
import proofs.«901015_g7700000000001016_dist_rs_then_ag_i_m4096_n1024_v7x_i8_f32_1_alg».proof.Proof.K.Local
import proofs.«901015_g7700000000001016_dist_rs_then_ag_i_m4096_n1024_v7x_i8_f32_1_alg».proof.Proof.K.SchedTables
import proofs.«901015_g7700000000001016_dist_rs_then_ag_i_m4096_n1024_v7x_i8_f32_1_alg».proof.Proof.Gen.Kernel.Skeleton

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

def StA (nx : Fin 3 → Nat → Nat) (ns : Nat)
    (waited : Finset (Fin 3 × Fin 14)) (own held : Finset (Fin 3 × Fin 8)) : sProp 𝕄 :=
  iprop(cutState m K c nx ns waited own
    ∗ bigSep held fun pr : Fin 3 × Fin 8 =>
        stgRows (F := F) c pr.1 (roleRow pr.1 pr.2 c) fullShare (snd (Xlev (X m) c nx)))

/-- The role, on the sender, of the slab that reduction copy `i` reads. -/
theorem srcRow_sender : ∀ (p : Fin 3) (c : Fin 8) (i : Fin 14), i.val < 7 →
    srcRow p (peer p (stp i) c) i = roleRow p (sendRole i) c := by decide +kernel

theorem slot_sender : ∀ (p : Fin 3) (c : Fin 8) (i : Fin 14), i.val < 7 →
    slot p (peer p (stp i) c) i = slot p c i := by decide +kernel

/-- Starting the next reduction copy gives its rounded slab and the partner's slot to the landing. -/
theorem sendRS_A {nx : Fin 3 → Nat → Nat} {ns : Nat} {waited : Finset (Fin 3 × Fin 14)}
    {own held : Finset (Fin 3 × Fin 8)} (held' : Finset (Fin 3 × Fin 8)) (p : Fin 3) (i : Fin 14)
    {n : Dev nD} (hn : n = peer p (stp i) c)
    {os od sz : Fin 2 → Nat} (hos : os = ![roleRow p (sendRole i) c, 0]) (hod : od = ![slot p c i, 0])
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    {α : Type} {Q : α → sProp 𝕄} {k : PUnit → Prog (TpuEff nD τ sig (Elt F) Λ₀ .tc) α}
    (hk : StA m K c nx (ns + 1) waited own held' ⊢ wp frame (wpE (defs₀ (F := F)) 𝒱₀ (Dev.tc c : Thread nD τ) none) Set.univ (k ⟨⟩) Q)
    (hsz : sz = ![eRows p, 1024] := by rfl)
    (hns : sendOrder[ns]? = some (p, i) := by decide) (hi : i.val < 7 := by decide)
    (hh : (p, sendRole i) ∈ held ∧ held.erase (p, sendRole i) = held' := by decide)
    (hval : ∀ x ∈ rowsSet (S := S4096x1024) ⟨0, by decide⟩ (roleRow p (sendRole i) c) (eRows p),
      snd (Xlev (X m) c nx) x = sent m p c i x := by exact fun _ _ => rfl) :
    StA m K c nx ns waited own held
      ⊢ wp frame (wpE (defs₀ (F := F)) 𝒱₀ (Dev.tc c : Thread nD τ) none) Set.univ
          (.op (.enqueueDma (stgSl os sz inbS hstS) (.remote (Dev.tc n : Thread nD τ) (rsrSl od sz inbD hstD) (.dma (sSem p i)) hsc)
            (.dma (rSem p i)) hsrc hdst hsem) k) Q := by
  subst hn
  obtain ⟨hheld, rfl⟩ := hh
  have hmem : (p, i) ∈ (Finset.univ \ started ns).filter fun q : Fin 3 × Fin 14 => q.2.val < 7 :=
    Finset.mem_filter.mpr ⟨Finset.mem_sdiff.mpr ⟨Finset.mem_univ _, not_mem_started hns⟩, hi⟩
  unfold StA cutState
  rw [bigSep_erase' hheld, bigSep_erase' hmem]
  iintro ⟨⟨Hg, Hx, Hout, Hown, ⟨Hslot, Hslots⟩, Hrp⟩, ⟨Hsrc, Hheld⟩⟩
  iapply (step_sendRS m K c ns waited p i hns hi (peer p (stp i) c) rfl os od sz hsz
    (hos.trans (by rw [srcRow_sender p c i hi])) (hod.trans (by rw [slot_sender p c i hi]))) $$ [Hg Hsrc Hslot]
  · rw [srcRow_sender p c i hi]
    unfold stgRows
    iframe Hg Hslot
    iapply (Entails.of_eq (pointsTo_congr hval)) $$ Hsrc
  iintro Hg
  iapply hk
  unfold StA cutState
  rw [unsent_succ hns]
  iframe

/-- Loads of the rows of two adjacent slabs, from the block and from its rounded copy, change nothing. -/
theorem loadBlock_A {nx : Fin 3 → Nat → Nat} {ns : Nat} {waited : Finset (Fin 3 × Fin 14)}
    {own held : Finset (Fin 3 × Fin 8)} (p : Fin 3) (ra rb : Fin 8) {o : Nat}
    (hadj : (roleRow p ra c = o ∧ roleRow p rb c = o + eRows p) ∨ (roleRow p rb c = o ∧ roleRow p ra c = o + eRows p))
    {off sz : Fin 2 → Nat} (hoff : off = ![o, 0])
    {inb : ∀ a, off a + sz a ≤ S4096x1024.size a}
    {hl1 : (xM).view.LoadsAt (Rect.unit (s := S4096x1024) off sz inb).toLoadRect} {hl2 : (sM).view.LoadsAt (Rect.unit (s := S4096x1024) off sz inb).toLoadRect}
    {α : Type} {Q : α → sProp 𝕄}
    {k : ((Rect.unit (s := S4096x1024) off sz inb).toLoadRect.shape.Idx → Elt F .f32) → ((Rect.unit (s := S4096x1024) off sz inb).toLoadRect.shape.Idx → Elt F .bf16) → Prog (TpuEff nD τ sig (Elt F) Λ₀ .tc) α}
    (hk : ∀ w, StA m K c nx ns waited own held
      ⊢ wp frame (wpE (defs₀ (F := F)) 𝒱₀ (Dev.tc c : Thread nD τ) none) Set.univ (k ((xM).view.readAt (Elt F) (Rect.unit (s := S4096x1024) off sz inb).toLoadRect (Xlev (X m) c nx)) w) Q)
    (hsz : sz = ![eRows p + eRows p, 1024] := by rfl) (hab : (p, ra) ≠ (p, rb) := by decide)
    (hsub : ({(p, ra), (p, rb)} : Finset (Fin 3 × Fin 8)) ⊆ own := by decide) :
    StA m K c nx ns waited own held
      ⊢ wp frame (wpE (defs₀ (F := F)) 𝒱₀ (Dev.tc c : Thread nD τ) none) Set.univ
          (.op (.load xM (Rect.unit (s := S4096x1024) off sz inb).toLoadRect hl1) fun v => .op (.load sM (Rect.unit (s := S4096x1024) off sz inb).toLoadRect hl2) (k v)) Q := by
  subst hsz
  unfold StA cutState stgRows
  rw [SparseCore.bigSep_sdiff_split' hsub, bigSep_insert' (Finset.notMem_singleton.mpr hab), bigSep_singleton]
  iintro ⟨⟨Hg, Hx, Hout, ⟨Hab, Hown⟩, Hslots, Hrp⟩, Hheld⟩
  icases (block_join (F := F) c hadj) $$ Hab with ⟨%g, Hblk⟩
  iapply (wp_load 𝒱₀ (Dev.tc c : Thread nD τ) none Set.univ (m := xM) (Finset.subset_univ _)) $$ Hx; iintro Hx
  iapply (wp_load_stage 𝒱₀ c none Set.univ hoff (Finset.Subset.refl _)) $$ Hblk; iintro Hblk
  icases (block_split (F := F) c hadj g).1 $$ Hblk with ⟨Ha, Hb⟩
  iapply (hk _)
  unfold StA cutState stgRows
  rw [SparseCore.bigSep_sdiff_split' hsub, bigSep_insert' (Finset.notMem_singleton.mpr hab), bigSep_singleton]
  iframe
  isplitl [Ha] <;> iexists g <;> iassumption

/-- Storing the rounded rows of two adjacent slabs moves them from the slabs held unrounded to those held rounded. -/
theorem storeBlock_A {nx : Fin 3 → Nat → Nat} {ns : Nat} {waited : Finset (Fin 3 × Fin 14)}
    {own held : Finset (Fin 3 × Fin 8)} (held' : Finset (Fin 3 × Fin 8)) (p : Fin 3) (ra rb : Fin 8) {o : Nat}
    (hadj : (roleRow p ra c = o ∧ roleRow p rb c = o + eRows p) ∨ (roleRow p rb c = o ∧ roleRow p ra c = o + eRows p))
    {off sz : Fin 2 → Nat} (hoff : off = ![o, 0])
    {inb : ∀ a, off a + sz a ≤ S4096x1024.size a}
    {w : (Rect.unit (s := S4096x1024) off sz inb).shape.Idx → Elt F .bf16}
    {hx : ((sM).access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    {α : Type} {Q : α → sProp 𝕄} {k : PUnit.{1} → Prog (TpuEff nD τ sig (Elt F) Λ₀ .tc) α}
    (hk : StA m K c nx ns waited (own \ {(p, ra), (p, rb)}) held' ⊢ wp frame (wpE (defs₀ (F := F)) 𝒱₀ (Dev.tc c : Thread nD τ) none) Set.univ (k ⟨⟩) Q)
    (hw : ∀ j, w j = snd (Xlev (X m) c nx) ((Rect.unit (s := S4096x1024) off sz inb).emb j) := by exact congrFun (trunc_cast _ _ _ _))
    (hsz : sz = ![eRows p + eRows p, 1024] := by rfl) (hab : (p, ra) ≠ (p, rb) := by decide)
    (hsub : ({(p, ra), (p, rb)} : Finset (Fin 3 × Fin 8)) ⊆ own := by decide)
    (hh : (p, rb) ∉ held ∧ (p, ra) ∉ insert (p, rb) held ∧ insert (p, ra) (insert (p, rb) held) = held' := by decide) :
    StA m K c nx ns waited own held
      ⊢ wp frame (wpE (defs₀ (F := F)) 𝒱₀ (Dev.tc c : Thread nD τ) none) Set.univ (.op (.store sM (Rect.unit (s := S4096x1024) off sz inb) w Finset.univ hx hm) k) Q := by
  subst hsz
  obtain ⟨hnb, hna, rfl⟩ := hh
  unfold StA cutState stgRows
  rw [SparseCore.bigSep_sdiff_split' hsub, bigSep_insert' (Finset.notMem_singleton.mpr hab), bigSep_singleton]
  iintro ⟨⟨Hg, Hx, Hout, ⟨Hab, Hown⟩, Hslots, Hrp⟩, Hheld⟩
  icases (block_join (F := F) c hadj) $$ Hab with ⟨%g, Hblk⟩
  iapply (wp_store_stage 𝒱₀ c none Set.univ hoff (Finset.Subset.refl _)) $$ Hblk; iintro Hblk
  icases (Entails.of_eq (stage_rows_write c hoff inb g (snd (Xlev (X m) c nx)) _ hw)) $$ Hblk with Hblk
  icases (block_split (F := F) c hadj (snd (Xlev (X m) c nx))).1 $$ Hblk with ⟨Ha, Hb⟩
  iapply hk
  unfold StA cutState stgRows
  rw [bigSep_insert' hna, bigSep_insert' hnb]
  iframe

theorem exec_part5 (v21 v24 v29 v109 v112 v119 : BitVec 32)
    (Q : (Σ' (v127 : BitVec 32) (v130 : BitVec 32) (v135 : BitVec 32) (v139 : BitVec 32) (v142 : BitVec 32) (v144 : BitVec 32) (v147 : BitVec 32), BitVec 32) → sProp 𝕄)
    (h : ∀ b, StA m K c nx0 0 ∅ own5 {(0, 4), (0, 5)} ⊢ Q b) :
    StA m K c nx0 0 ∅ Finset.univ ∅
      ⊢ wp frame (wpE (defs₀ (F := F)) 𝒱₀ (Dev.tc c : Thread nD τ) none) Set.univ (k0_part5 (F := F) xM hxM oM hoM sM hsM rM hrM cc0_scratch2 cc0_scratch3 c v21 v24 v29 v109 v112 v119) Q := by
  rw [k0_part5_eq_skeleton]
  unfold k0_part5_skel
  refine loadBlock_A m K c 0 4 5 (fwd_rows 0 c) (off1_eq c) fun _ => ?_
  exact storeBlock_A m K c _ 0 4 5 (fwd_rows 0 c) (off1_eq c) ((h _).trans (le_wp_ret _ _ _ _ _))

theorem of_pure_right {P R : sProp 𝕄} {φ : Prop} (h : φ → P ⊢ R) : iprop(P ∗ ⌜φ⌝) ⊢ R := by
  iintro ⟨H, %hφ⟩
  iapply (h hφ) $$ H

theorem exec_part6 (v2 v24 v42 v62 v73 v147 v159 : BitVec 32)
    (Q : (Σ' (v162 : BitVec 32) (v175 : BitVec 32) (v186 : BitVec 32) (v190 : FVec F S352x1024 .bf16), Vec F S352x1024 .bf16) → sProp 𝕄)
    (h : ∀ v162 v175 v186 v190 v192,
      iprop(StA m K c nx0 2 ∅ own5 ∅
        ∗ ⌜∀ j, v190 j = snd (Xlev (X m) c nx0) ((Rect.unit (s := S4096x1024) (k0_off6 c) S352x1024.size (k0_off6_inb c)).emb j)⌝)
      ⊢ Q ⟨v162, v175, v186, v190, v192⟩) :
    StA m K c nx0 0 ∅ own5 {(0, 4), (0, 5)}
      ⊢ wp frame (wpE (defs₀ (F := F)) 𝒱₀ (Dev.tc c : Thread nD τ) none) Set.univ (k0_part6 (F := F) xM hxM oM hoM sM hsM rM hrM cc0_scratch2 cc0_scratch3 c v2 v24 v42 v62 v73 v147 v159) Q := by
  rw [k0_part6_eq_skeleton]
  unfold k0_part6_skel
  refine sendRS_A m K c {(0, 5)} 0 0 (dev4_eq c) (off3_eq c) (off2_eq c) ?_
  refine sendRS_A m K c ∅ 0 1 (dev5_eq c) (off5_eq c) (off4_eq c) ?_
  refine loadBlock_A m K c 1 4 5 (fwd_rows 1 c) (off6_eq c) fun _ => ?_
  iintro H
  iapply (le_wp_ret _ _)
  iapply (h _ _ _ _ _)
  iframe H
  ipureintro
  intro j
  unfold k0_pay2
  simp only [shapeCast_same]
  rfl

theorem exec_part7 (v2 v68 v86 v109 v186 : BitVec 32)
    (v190 : FVec F S352x1024 .bf16) (v192 : Vec F S352x1024 .bf16)
    (Q : (Σ' (v201 : BitVec 32) (v214 : BitVec 32) (v223 : BitVec 32), BitVec 32) → sProp 𝕄)
    (h : ∀ b, StA m K c nx0 4 ∅ own7 ∅ ⊢ Q b) :
    iprop(StA m K c nx0 2 ∅ own5 ∅
        ∗ ⌜∀ j, v190 j = snd (Xlev (X m) c nx0) ((Rect.unit (s := S4096x1024) (k0_off6 c) S352x1024.size (k0_off6_inb c)).emb j)⌝)
      ⊢ wp frame (wpE (defs₀ (F := F)) 𝒱₀ (Dev.tc c : Thread nD τ) none) Set.univ (k0_part7 (F := F) xM hxM oM hoM sM hsM rM hrM cc0_scratch2 cc0_scratch3 c v2 v68 v86 v109 v186 v190 v192) Q := by
  refine of_pure_right fun hv => ?_
  rw [k0_part7_eq_skeleton]
  unfold k0_part7_skel
  refine storeBlock_A m K c {(1, 4), (1, 5)} 1 4 5 (fwd_rows 1 c) (off6_eq c) ?_
    fun j => (congrFun (shapeCast_same _ _) j).trans (hv j)
  refine sendRS_A m K c {(1, 5)} 1 0 (dev6_eq c) (off8_eq c) (off7_eq c) ?_
  refine sendRS_A m K c ∅ 1 1 (dev7_eq c) (off10_eq c) (off9_eq c) ?_
  exact (h _).trans (le_wp_ret _ _ _ _ _)

theorem exec_part8 (v2 v112 v117 v130 v223 z : BitVec 32)
    (Q : (Σ' (v240 : BitVec 32), BitVec 32) → sProp 𝕄)
    (h : ∀ b, StA m K c nx0 5 ∅ own8 {(2, 5)} ⊢ Q b) :
    StA m K c nx0 4 ∅ own7 ∅
      ⊢ wp frame (wpE (defs₀ (F := F)) 𝒱₀ (Dev.tc c : Thread nD τ) none) Set.univ (k0_part8 (F := F) xM hxM oM hoM sM hsM rM hrM cc0_scratch2 cc0_scratch3 c v2 v112 v117 v130 v223 z) Q := by
  rw [k0_part8_eq_skeleton]
  unfold k0_part8_skel
  refine loadBlock_A m K c 2 4 5 (fwd_rows 2 c) (off11_eq c) fun _ => ?_
  refine storeBlock_A m K c {(2, 4), (2, 5)} 2 4 5 (fwd_rows 2 c) (off11_eq c) ?_
  refine sendRS_A m K c {(2, 5)} 2 0 (dev8_eq c) (off13_eq c) (off12_eq c) ?_
  exact (h _).trans (le_wp_ret _ _ _ _ _)

end Cert.Kernel.RsAg

end
-- ==== Proof.K.Part1.lean ====
import proofs.«901015_g7700000000001016_dist_rs_then_ag_i_m4096_n1024_v7x_i8_f32_1_alg».proof.Proof.K.Part1Cut
import proofs.«901015_g7700000000001016_dist_rs_then_ag_i_m4096_n1024_v7x_i8_f32_1_alg».proof.Proof.K.PartsA

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

theorem exec_part1
    (Q : (Σ' (d0 : Dev nD) (v2 : BitVec 32) (v18 : BitVec 32) (v21 : BitVec 32) (v24 : BitVec 32) (v25 : BitVec 32), BitVec 32) → sProp 𝕄)
    (h : ∀ v2 v18 v21 v24 v25 z, StA m K c nx0 0 ∅ Finset.univ ∅ ⊢ Q ⟨c, v2, v18, v21, v24, v25, z⟩) :
    St0 m K c ⊢ wp frame (wpE (defs₀ (F := F)) 𝒱₀ (Dev.tc c : Thread nD τ) none) Set.univ
      (k0_part1 (F := F) xM hxM oM hoM sM hsM rM hrM cc0_scratch2 cc0_scratch3) Q :=
  exec_part1_cut m K c Q fun v2 v18 v21 v24 v25 z =>
    .trans (by unfold StA; rw [bigSep_empty]; exact Laws.sep_emp.2) (h v2 v18 v21 v24 v25 z)

end Cert.Kernel.RsAg

end
-- ==== Proof.K.PartsPure.lean ====
import proofs.«901015_g7700000000001016_dist_rs_then_ag_i_m4096_n1024_v7x_i8_f32_1_alg».proof.Proof.K.Mid
import proofs.«901015_g7700000000001016_dist_rs_then_ag_i_m4096_n1024_v7x_i8_f32_1_alg».proof.Proof.Gen.Kernel.Skeleton
import proofs.«901015_g7700000000001016_dist_rs_then_ag_i_m4096_n1024_v7x_i8_f32_1_alg».proof.Proof.K.Slabs

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem exec_part2 (c : Dev nD) (P : sProp 𝕄) (v2 v18 v21 v24 v25 z : BitVec 32)
    (Q : (Σ' (v29 : BitVec 32) (v34 : BitVec 32) (v36 : BitVec 32) (v39 : BitVec 32) (v42 : BitVec 32) (v47 : BitVec 32) (v51 : BitVec 32) (v54 : BitVec 32) (v56 : BitVec 32) (v58 : BitVec 32), BitVec 32) → sProp 𝕄)
    (h : ∀ b, P ⊢ Q b) :
    P ⊢ wp frame (wpE (defs₀ (F := F)) 𝒱₀ (Dev.tc c : Thread nD τ) none) Set.univ (k0_part2 (F := F) xM hxM oM hoM sM hsM rM hrM cc0_scratch2 cc0_scratch3 v2 v18 v21 v24 v25 z) Q := by
  rw [k0_part2_eq_skeleton]
  exact (h _).trans (le_wp_ret _ _ _ _ _)

theorem exec_part3 (c : Dev nD) (P : sProp 𝕄) (v2 v58 z : BitVec 32)
    (Q : (Σ' (v62 : BitVec 32) (v68 : BitVec 32) (v73 : BitVec 32) (v78 : BitVec 32) (v80 : BitVec 32) (v83 : BitVec 32) (v86 : BitVec 32) (v91 : BitVec 32), BitVec 32) → sProp 𝕄)
    (h : ∀ b, P ⊢ Q b) :
    P ⊢ wp frame (wpE (defs₀ (F := F)) 𝒱₀ (Dev.tc c : Thread nD τ) none) Set.univ (k0_part3 (F := F) xM hxM oM hoM sM hsM rM hrM cc0_scratch2 cc0_scratch3 v2 v58 z) Q := by
  rw [k0_part3_eq_skeleton]
  exact (h _).trans (le_wp_ret _ _ _ _ _)

theorem exec_part4 (c : Dev nD) (P : sProp 𝕄) (v2 v62 v68 z : BitVec 32)
    (Q : (Σ' (v95 : BitVec 32) (v98 : BitVec 32) (v100 : BitVec 32) (v109 : BitVec 32) (v112 : BitVec 32) (v117 : BitVec 32) (v119 : BitVec 32) (v122 : BitVec 32), BitVec 32) → sProp 𝕄)
    (h : ∀ b, P ⊢ Q b) :
    P ⊢ wp frame (wpE (defs₀ (F := F)) 𝒱₀ (Dev.tc c : Thread nD τ) none) Set.univ (k0_part4 (F := F) xM hxM oM hoM sM hsM rM hrM cc0_scratch2 cc0_scratch3 v2 v62 v68 z) Q := by
  rw [k0_part4_eq_skeleton]
  exact (h _).trans (le_wp_ret _ _ _ _ _)

end Cert.Kernel.RsAg

end
-- ==== Proof.K.PartsA9.lean ====
import proofs.«901015_g7700000000001016_dist_rs_then_ag_i_m4096_n1024_v7x_i8_f32_1_alg».proof.Proof.K.PartsA

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

theorem exec_part9 (v2 v21 v24 v29 : BitVec 32)
    (Q : (Σ' (v275 : BitVec 32), BitVec 32) → sProp 𝕄)
    (h : ∀ b, StA m K c nx0 7 ∅ own9 {(0, 7)} ⊢ Q b) :
    StA m K c nx0 5 ∅ own8 {(2, 5)}
      ⊢ wp frame (wpE (defs₀ (F := F)) 𝒱₀ (Dev.tc c : Thread nD τ) none) Set.univ (k0_part9 (F := F) xM hxM oM hoM sM hsM rM hrM cc0_scratch2 cc0_scratch3 c v2 v21 v24 v29) Q := by
  rw [k0_part9_eq_skeleton]
  unfold k0_part9_skel
  refine sendRS_A m K c ∅ 2 1 (dev9_eq c) (off15_eq c) (off14_eq c) ?_
  refine loadBlock_A m K c 0 6 7 (late_rows 0 c) (off16_eq c) fun _ => ?_
  refine storeBlock_A m K c {(0, 6), (0, 7)} 0 6 7 (late_rows 0 c) (off16_eq c) ?_
  refine sendRS_A m K c {(0, 7)} 0 2 (dev10_eq c) (off18_eq c) (off17_eq c) ?_
  exact (h _).trans (le_wp_ret _ _ _ _ _)

theorem exec_part10 (v2 v62 v68 v73 : BitVec 32)
    (Q : (Σ' (v308 : BitVec 32), BitVec 32) → sProp 𝕄)
    (h : ∀ b, StA m K c nx0 9 ∅ own10 {(1, 7)} ⊢ Q b) :
    StA m K c nx0 7 ∅ own9 {(0, 7)}
      ⊢ wp frame (wpE (defs₀ (F := F)) 𝒱₀ (Dev.tc c : Thread nD τ) none) Set.univ (k0_part10 (F := F) xM hxM oM hoM sM hsM rM hrM cc0_scratch2 cc0_scratch3 c v2 v62 v68 v73) Q := by
  rw [k0_part10_eq_skeleton]
  unfold k0_part10_skel
  refine sendRS_A m K c ∅ 0 3 (dev11_eq c) (off20_eq c) (off19_eq c) ?_
  refine loadBlock_A m K c 1 6 7 (late_rows 1 c) (off21_eq c) fun _ => ?_
  refine storeBlock_A m K c {(1, 6), (1, 7)} 1 6 7 (late_rows 1 c) (off21_eq c) ?_
  refine sendRS_A m K c {(1, 7)} 1 2 (dev12_eq c) (off23_eq c) (off22_eq c) ?_
  exact (h _).trans (le_wp_ret _ _ _ _ _)

theorem exec_part11 (v2 v109 v112 v117 : BitVec 32)
    (Q : (Σ' (v341 : BitVec 32), BitVec 32) → sProp 𝕄)
    (h : ∀ b, StA m K c nx0 11 ∅ own11 {(2, 7)} ⊢ Q b) :
    StA m K c nx0 9 ∅ own10 {(1, 7)}
      ⊢ wp frame (wpE (defs₀ (F := F)) 𝒱₀ (Dev.tc c : Thread nD τ) none) Set.univ (k0_part11 (F := F) xM hxM oM hoM sM hsM rM hrM cc0_scratch2 cc0_scratch3 c v2 v109 v112 v117) Q := by
  rw [k0_part11_eq_skeleton]
  unfold k0_part11_skel
  refine sendRS_A m K c ∅ 1 3 (dev13_eq c) (off25_eq c) (off24_eq c) ?_
  refine loadBlock_A m K c 2 6 7 (late_rows 2 c) (off26_eq c) fun _ => ?_
  refine storeBlock_A m K c {(2, 6), (2, 7)} 2 6 7 (late_rows 2 c) (off26_eq c) ?_
  refine sendRS_A m K c {(2, 7)} 2 2 (dev14_eq c) (off28_eq c) (off27_eq c) ?_
  exact (h _).trans (le_wp_ret _ _ _ _ _)

theorem pay8_apply (v : Vec F S176x1024 .f32) (w : Vec F S176x1024 .bf16) (j : S176x1024.Idx) :
    k0_pay8 v w j = FloatOps.addf (v j) (FloatOps.extf .f32 bf16_lt_f32 (w j)) := by
  unfold k0_pay8
  simp only [shapeCast_same]
  rfl

theorem pay10_apply (v : Vec F S176x1024 .f32) (w : Vec F S176x1024 .bf16) (j : S176x1024.Idx) :
    k0_pay10 v w j = FloatOps.addf (v j) (FloatOps.extf .f32 bf16_lt_f32 (w j)) := by
  unfold k0_pay10
  simp only [shapeCast_same]
  rfl

theorem sent4_rows (c : Fin 8) :
    ∀ x ∈ rowsSet (S := S4096x1024) ⟨0, by decide⟩ (roleRow 0 (sendRole 4) c) (eRows 0),
      snd (Xlev (X m) c (nx13 c)) x = sent m 0 c 4 x := by
  intro x hx
  have hin : inSlab 0 (jS1a 0 c) (x 0).val := (mem_rows_inSlab 0 (jS1a 0 c) x).mp hx
  show FloatOps.truncf .bf16 bf16_lt_f32 (Xlev (X m) c (nx13 c) x) = FloatOps.truncf .bf16 bf16_lt_f32 (P1 (X m) 0 c x)
  rw [Xlev_in (X m) c (nx13 c) x (jS1a_lt 0 c) hin, show nx13 c 0 (jS1a 0 c) = 1 from bump_same _ _ _]
  rfl

theorem exec_part12 (v24 v34 v42 v162 : BitVec 32)
    (Q : (FVec F S176x1024 .bf16) → sProp 𝕄)
    (h : ∀ v392,
      iprop(StA m K c (nx13 c) 12 {(0, 0)} own11 ∅
        ∗ ⌜∀ j, v392 j = snd (Xlev (X m) c (nx13 c)) ((Rect.unit (s := S4096x1024) (k0_off31 c) S176x1024.size (k0_off31_inb c)).emb j)⌝)
      ⊢ Q v392) :
    StA m K c nx0 11 ∅ own11 {(2, 7)}
      ⊢ wp frame (wpE (defs₀ (F := F)) 𝒱₀ (Dev.tc c : Thread nD τ) none) Set.univ (k0_part12 (F := F) xM hxM oM hoM sM hsM rM hrM cc0_scratch2 cc0_scratch3 c v24 v34 v42 v162) Q := by
  rw [k0_part12_eq_skeleton]
  unfold k0_part12_skel
  refine sendRS_A m K c ∅ 2 3 (dev15_eq c) (off30_eq c) (off29_eq c) ?_
  unfold StA cutState
  rw [bigSep_erase' (s := own11) (i := ((0 : Fin 3), (2 : Fin 8))) (by decide)]
  iintro ⟨⟨Hg, Hx, Hout, ⟨⟨%g, Hs⟩, Hown⟩, Hslots, Hrp⟩, He⟩
  iapply (step_waitRecv m K c 12 ∅ 0 0 (by decide) (by decide) (by rfl)) $$ Hg
  rw [insert_empty_eq, recvPay_0]
  iintro ⟨Hg, Hslot, Hpeer⟩
  iapply (wp_add (X m) c 0 (jS1a 0 c) (jS1a_lt 0 c) nx0 0 (by decide) rfl (rFa 0 c) (k0_off31 c) (k0_off32 c) S176x1024.size rfl
    (off31_eq c) (off32_eq c) k0_pay8 pay8_apply) $$ [$Hx Hslot]
  · iexact Hslot
  iintro ⟨Hx, Hslot⟩
  iapply (wp_x_load c (Rect.unit (s := S4096x1024) (k0_off31 c) S176x1024.size (k0_off31_inb c)) _) $$ Hx; iintro Hx
  iapply (wp_stg_load c 0 (roleRow 0 2 c) fullShare (k0_off31 c) S176x1024.size rfl (off31_eq c) g) $$ Hs; iintro Hs
  iapply (le_wp_ret _ _)
  iapply (h _)
  unfold StA cutState nx13
  rw [bigSep_erase' (s := own11) (i := ((0 : Fin 3), (2 : Fin 8))) (by decide), bigSep_singleton, recvPay_0]
  iframe
  isplitl [Hs Hslot He]
  · isplitl [Hs Hslot]
    · isplitl [Hs]
      · iexists g
        iexact Hs
      iexact Hslot
    iexact He
  ipureintro
  exact congrFun (trunc_cast _ _ _ _)

theorem exec_part13 (v2 v24 v34 v68 v78 v86 v201 : BitVec 32) (v392 : FVec F S176x1024 .bf16)
    (Q : (Σ' (v396 : BitVec 32), FVec F S176x1024 .f32) → sProp 𝕄)
    (h : ∀ v396 v423, Cut13 m K c v423 ⊢ Q ⟨v396, v423⟩) :
    iprop(StA m K c (nx13 c) 12 {(0, 0)} own11 ∅
        ∗ ⌜∀ j, v392 j = snd (Xlev (X m) c (nx13 c)) ((Rect.unit (s := S4096x1024) (k0_off31 c) S176x1024.size (k0_off31_inb c)).emb j)⌝)
      ⊢ wp frame (wpE (defs₀ (F := F)) 𝒱₀ (Dev.tc c : Thread nD τ) none) Set.univ (k0_part13 (F := F) xM hxM oM hoM sM hsM rM hrM cc0_scratch2 cc0_scratch3 c v2 v24 v34 v68 v78 v86 v201 v392) Q := by
  refine of_pure_right fun hv => ?_
  rw [k0_part13_eq_skeleton]
  unfold k0_part13_skel StA cutState
  rw [bigSep_erase' (s := own11) (i := ((0 : Fin 3), (2 : Fin 8))) (by decide)]
  iintro ⟨⟨Hg, Hx, Hout, ⟨⟨%g, Hs⟩, Hown⟩, Hslots, Hrp⟩, He⟩
  iapply (wp_stg_store c 0 (roleRow 0 2 c) (k0_off31 c) S176x1024.size rfl (off31_eq c) g (snd (Xlev (X m) c (nx13 c))) v392 hv) $$ Hs; iintro Hs
  iapply (sendRS_A (ns := 12) (waited := {(0, 0)}) (held := {((0 : Fin 3), (2 : Fin 8))}) (own := own11.erase ((0 : Fin 3), (2 : Fin 8))) m K c ∅ 0 4 (dev16_eq c) (off34_eq c) (off33_eq c) ?_
    (hval := sent4_rows m c))
  swap
  · unfold StA cutState
    rw [bigSep_singleton (i := ((0 : Fin 3), (2 : Fin 8)))]
    iframe
  unfold StA cutState
  iintro ⟨⟨Hg, Hx, Hout, Hown, Hslots, Hrp⟩, -⟩
  iapply (step_waitRecv m K c 13 {(0, 0)} 1 0 (by decide) (by decide) (by rfl)) $$ Hg
  rw [recvPay_0]
  iintro ⟨Hg, Hslot, Hpeer⟩
  iapply (wp_x_load c (Rect.unit (s := S4096x1024) (k0_off35 c) S176x1024.size (k0_off35_inb c)) _) $$ Hx; iintro Hx
  iapply (wp_slot_load c 1 (rFa 1 c) (k0_off36 c) S176x1024.size rfl (off36_eq c) _) $$ Hslot; iintro Hslot
  iapply (le_wp_ret _ _)
  iapply (h _ _)
  unfold Cut13 cutState
  rw [show waited13 = insert ((1 : Fin 3), (0 : Fin 14)) {(0, 0)} by decide, show own13 = own11.erase ((0 : Fin 3), (2 : Fin 8)) by decide,
    bigSep_insert' (by decide), recvPay_0 m c 1]
  iframe
  ipureintro
  exact add_val (X m) c 1 (jS1a 1 c) (nx13 c) (snd (X m (peer 1 0 c))) (rFa 1 c) (k0_off35 c) (k0_off36 c) S176x1024.size rfl
    (off35_eq c) (off36_eq c) k0_pay10 pay10_apply

end Cert.Kernel.RsAg

end
-- ==== Proof.K.BodyBDefs.lean ====
import proofs.«901015_g7700000000001016_dist_rs_then_ag_i_m4096_n1024_v7x_i8_f32_1_alg».proof.Proof.K.Mid

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section States
variable (K : CellIx → ℕ) (c : Dev nD)

/-- The cut state after `nb` additions, `ns` copies started, `nw` waits and `no` roundings. -/
abbrev cutAt (nb ns nw no : Nat) : sProp 𝕄 := cutState m K c (nxA c nb) ns (wA nw) (ownA no)

abbrev St14 : sProp 𝕄 := cutAt m K c 1 14 1 1
abbrev St15 : sProp 𝕄 := iprop(cutAt m K c 2 14 1 2 ∗ stgRows c 2 (slab 2 (jS1a 2 c)) fullShare (snd (Pn (X m) 2 c 1)))
abbrev St16 : sProp 𝕄 := iprop(cutAt m K c 3 15 2 3 ∗ stgRows c 0 (slab 0 (jS1b 0 c)) fullShare (snd (Pn (X m) 0 c 1)))
abbrev St17 : sProp 𝕄 := iprop(cutAt m K c 4 16 3 4 ∗ stgRows c 1 (slab 1 (jS1b 1 c)) fullShare (snd (Pn (X m) 1 c 1)))
abbrev St18 : sProp 𝕄 := cutAt m K c 5 17 4 4
abbrev St19 : sProp 𝕄 := cutAt m K c 6 18 5 5
abbrev St20 : sProp 𝕄 := cutAt m K c 7 19 6 6
abbrev St21 (v693 : FVec F S176x1024 .bf16) : sProp 𝕄 :=
  iprop(cutAt m K c 9 19 8 6
    ∗ ⌜∀ jj, v693 jj = snd (Pn (X m) 1 c 2) ((Rect.unit (s := S4096x1024) (k0_off59 c) S176x1024.size (k0_off59_inb c)).emb jj)⌝)
abbrev St22 : sProp 𝕄 := cutAt m K c 10 20 9 7
abbrev St23 : sProp 𝕄 := cutAt m K c 11 21 10 8
abbrev St24 : sProp 𝕄 := cutAt m K c 13 21 12 8
abbrev St25 : sProp 𝕄 := cutAt m K c 15 21 15 8

end States

end Cert.Kernel.RsAg

end
-- ==== Proof.K.CutSteps.lean ====
import proofs.«901015_g7700000000001016_dist_rs_then_ag_i_m4096_n1024_v7x_i8_f32_1_alg».proof.Proof.K.Mid
import proofs.«901015_g7700000000001016_dist_rs_then_ag_i_m4096_n1024_v7x_i8_f32_1_alg».proof.Proof.K.Steps
import proofs.«901015_g7700000000001016_dist_rs_then_ag_i_m4096_n1024_v7x_i8_f32_1_alg».proof.Proof.K.Local

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem recvPay_lt (c : Fin 8) (p : Fin 3) (i : Fin 14) (hi : i.val < 7) :
    recvPay m c p i = iprop(rsrRows c p (slot p c i) (reRow (srcRow p c i) (slot p c i) (sent m p (peer p (stp i) c) i))
      ∗ stgRows (peer p (stp i) c) p (srcRow p c i) fullShare (sent m p (peer p (stp i) c) i)) := if_pos hi

/-- A product over the copies not started, the factor of the copy started next set apart. -/
theorem slots_take {ns : Nat} {p : Fin 3} {i : Fin 14} (h : sendOrder[ns]? = some (p, i)) (hi : i.val < 7) (Φ : Fin 3 × Fin 14 → sProp 𝕄) :
    bigSep ((Finset.univ \ started ns).filter fun pi => pi.2.val < 7) Φ
      = iprop(Φ (p, i) ∗ bigSep ((Finset.univ \ started (ns + 1)).filter fun pi => pi.2.val < 7) Φ) := by
  rw [started_succ h, Finset.sdiff_insert, Finset.filter_erase]
  exact bigSep_erase (Finset.mem_filter.mpr ⟨Finset.mem_sdiff.mpr ⟨Finset.mem_univ _, not_mem_started h⟩, hi⟩)

section Steps

variable {K : CellIx → ℕ} {c : Dev nD} {nx : Fin 3 → Nat → Nat} {ns : Nat} {waited : Finset (Fin 3 × Fin 14)}
  {own : Finset (Fin 3 × Fin 8)} {α : Type} {Q : α → sProp (MT nD τ sig Unit (Elt F) ℕ UU ℕ)} {k : PUnit → Prog (TpuEff nD τ sig (Elt F) Λ₀ .tc) α}
  {off sz : Fin 2 → Nat} {inb : ∀ a, off a + sz a ≤ S4096x1024.size a}
  {hl₁ hl₃ : (mX).view.LoadsAt (Rect.unit (s := S4096x1024) off sz inb).toLoadRect}
  {hl₂ : (mS).view.LoadsAt (Rect.unit (s := S4096x1024) off sz inb).toLoadRect}
  {hx : ((mX).access (Rect.unit (s := S4096x1024) off sz inb)).Stores Finset.univ}
  {hxs : ((mS).access (Rect.unit (s := S4096x1024) off sz inb)).Stores Finset.univ}
  {hm : (Finset.univ : Finset (Rect.unit (s := S4096x1024) off sz inb).shape.Idx) = Finset.univ ∨ ∀ a, (Rect.unit (s := S4096x1024) off sz inb).stride a = 1}
  (p : Fin 3) (i : Fin 14)

theorem cut_wait {κd : Kind} {sp sp' : Space} {s s' : Shape} {e e' : EltTy} {src : Memref sig .tc sp' s' e'} {dst : Memref sig κd sp s e}
    {hsrc : src.view.WordExact} {hdst : dst.view.WordExact} (hamt : dst.view.dmaCredit = amt p i)
    (h : cutState m K c nx ns (insert (p, i) waited) own ⊢ wpc c (k ⟨⟩) Q) (hd : (p, i) ∉ waited ∧ ns = nBefore p i := by decide) :
    cutState m K c nx ns waited own ⊢ wpc c (.op (.waitDma2 (rSem p i) src dst hsrc hdst) k) Q := by
  rw [cutState, bigSep_insert' hd.1] at h
  unfold cutState
  iintro ⟨Hg, Hx, Ho, Hown, Hsl, Hpay⟩
  iapply (step_waitRecv m K c ns waited p i hd.1 hd.2 hamt) $$ Hg
  iintro ⟨Hg, Hp⟩
  iapply h
  iframe

theorem cut_xload {R : Rect S4096x1024} {hl : (mX).view.LoadsAt R.toLoadRect} {k : Vec F R.shape .f32 → Prog (TpuEff nD τ sig (Elt F) Λ₀ .tc) α}
    (h : cutState m K c nx ns waited own ⊢ wpc c (k fun jj => Xlev (X m) c nx (R.emb jj)) Q) :
    cutState m K c nx ns waited own ⊢ wpc c (.op (.load mX R.toLoadRect hl) k) Q := by
  unfold cutState at h ⊢
  iintro ⟨Hg, Hx, Ho, Hown, Hsl, Hpay⟩
  iapply (wp_x_load c R (Xlev (X m) c nx)) $$ Hx
  iintro Hx
  iapply h
  iframe

theorem cut_store_add {w : FVec F ⟨2, sz⟩ .f32} {j : Nat} (hj : j < 8) (kk : Fin 3) (hk : nx p j = kk.val)
    (hsz : sz = ![eRows p, 1024]) (hoff : off = ![slab p j, 0])
    (hw : ∀ jj, w jj = addf (Xlev (X m) c nx) (rcv (snd (Pn (X m) p (peer p kk c) kk.val))) ((Rect.unit (s := S4096x1024) off sz inb).emb jj))
    (h : cutState m K c (bump nx p j) ns waited own ⊢ wpc c (k ⟨⟩) Q) :
    cutState m K c nx ns waited own ⊢ wpc c (.op (.store mX (Rect.unit (s := S4096x1024) off sz inb) w Finset.univ hx hm) k) Q := by
  unfold cutState at h ⊢
  iintro ⟨Hg, Hx, Ho, Hown, Hsl, Hpay⟩
  iapply (wp_x_store_add (X m) c p j hj nx kk.val kk.isLt hk off sz hsz hoff w hw) $$ Hx
  iintro Hx
  iapply h
  iframe

theorem cut_add {offr : Fin 2 → Nat} {inbr : ∀ a, offr a + sz a ≤ S3584x1024.size a}
    {hlr : (mR).view.LoadsAt (Rect.unit (s := S3584x1024) offr sz inbr).toLoadRect}
    {pay : Vec F ⟨2, sz⟩ .f32 → Vec F ⟨2, sz⟩ .bf16 → FVec F ⟨2, sz⟩ .f32}
    {j : Nat} (hj : j < 8) (kk : Fin 3) (hk : nx p j = kk.val)
    (hrow : srcRow p c i = slab p j)
    (hsent : sent m p (peer p (stp i) c) i = snd (Pn (X m) p (peer p kk c) kk.val))
    (hsz : sz = ![eRows p, 1024]) (hoff : off = ![slab p j, 0]) (hoffr : offr = ![slot p c i, 0])
    (hpay : ∀ v w jj, pay v w jj = FloatOps.addf (v jj) (FloatOps.extf .f32 bf16_lt_f32 (w jj)))
    (h : cutState m K c (bump nx p j) ns waited own ⊢ wpc c (k ⟨⟩) Q) (hd : i.val < 7 ∧ (p, i) ∈ waited := by decide) :
    cutState m K c nx ns waited own ⊢ wpc c
      (.op (.load mX (Rect.unit (s := S4096x1024) off sz inb).toLoadRect hl₁) fun v₁ =>
       .op (.load mR (Rect.unit (s := S3584x1024) offr sz inbr).toLoadRect hlr) fun v₂ =>
       .op (.load mX (Rect.unit (s := S4096x1024) off sz inb).toLoadRect hl₃) fun _ =>
       .op (.store mX (Rect.unit (s := S4096x1024) off sz inb) (pay v₁ v₂) Finset.univ hx hm) k) Q := by
  unfold cutState at h ⊢
  rw [bigSep_erase' hd.2, recvPay_lt m c p i hd.1, hrow, hsent] at h ⊢
  iintro ⟨Hg, Hx, Ho, Hown, Hsl, ⟨Hs, Hpeer⟩, Hpay⟩
  iapply (wp_add (X m) c p j hj nx kk.val kk.isLt hk (slot p c i) off offr sz hsz hoff hoffr pay hpay) $$ [$Hx $Hs]
  iintro ⟨Hx, Hs⟩
  iapply h
  iframe

theorem cut_round_tail {w : FVec F ⟨2, sz⟩ .bf16} (r : Fin 8) (j : Nat) (hrow : roleRow p r c = slab p j)
    (hsz : sz = ![eRows p, 1024]) (hoff : off = ![slab p j, 0])
    (G : FVec F W .bf16) (hw : ∀ jj, w jj = G ((Rect.unit (s := S4096x1024) off sz inb).emb jj))
    (h : iprop(cutState m K c nx ns waited (own.erase (p, r)) ∗ stgRows c p (slab p j) fullShare G) ⊢ wpc c (k ⟨⟩) Q) (hmem : (p, r) ∈ own := by decide) :
    cutState m K c nx ns waited own ⊢ wpc c
      (.op (.load mS (Rect.unit (s := S4096x1024) off sz inb).toLoadRect hl₂) fun _ =>
       .op (.store mS (Rect.unit (s := S4096x1024) off sz inb) w Finset.univ hxs hm) k) Q := by
  unfold cutState at h ⊢
  rw [bigSep_erase' hmem, hrow]
  iintro ⟨Hg, Hx, Ho, ⟨⟨%f₀, Hst⟩, Hown⟩, Hsl, Hpay⟩
  iapply (wp_stg_load c p (slab p j) fullShare off sz hsz hoff f₀) $$ Hst
  iintro Hst
  iapply (wp_stg_store c p (slab p j) off sz hsz hoff f₀ G w hw) $$ Hst
  iintro Hst
  iapply h
  iframe

theorem cut_round {pay : Vec F ⟨2, sz⟩ .f32 → FVec F ⟨2, sz⟩ .bf16}
    (r : Fin 8) {j : Nat} (hj : j < 8) (hrow : roleRow p r c = slab p j)
    (kk : Nat) (hk : nx p j = kk) (hsz : sz = ![eRows p, 1024]) (hoff : off = ![slab p j, 0])
    (hpay : ∀ v jj, pay v jj = FloatOps.truncf .bf16 bf16_lt_f32 (v jj))
    (h : iprop(cutState m K c nx ns waited (own.erase (p, r)) ∗ stgRows c p (slab p j) fullShare (snd (Pn (X m) p c kk))) ⊢ wpc c (k ⟨⟩) Q) (hmem : (p, r) ∈ own := by decide) :
    cutState m K c nx ns waited own ⊢ wpc c
      (.op (.load mX (Rect.unit (s := S4096x1024) off sz inb).toLoadRect hl₁) fun v =>
       .op (.load mS (Rect.unit (s := S4096x1024) off sz inb).toLoadRect hl₂) fun _ =>
       .op (.store mS (Rect.unit (s := S4096x1024) off sz inb) (pay v) Finset.univ hxs hm) k) Q :=
  cut_xload m (cut_round_tail m p r j hrow hsz hoff _ (round_val (X m) c p j hj nx kk hk off sz hsz hoff pay hpay) h hmem)

theorem cut_send {n : Dev nD} {os od : Fin 2 → Nat} {o s : Nat} {G : FVec F W .bf16}
    {inbS : ∀ a, os a + sz a ≤ S4096x1024.size a} {inbD : ∀ a, od a + sz a ≤ S3584x1024.size a}
    {hstS : ∀ a, (Rect.unit (s := S4096x1024) os sz inbS).stride a = 1}
    {hstD : ∀ a, (Rect.unit (s := S3584x1024) od sz inbD).stride a = 1}
    {hsc : (rsrSl od sz inbD hstD).view.ref.isScScratch = false}
    {hsrc : (stgSl os sz inbS hstS).view.WordExact} {hdst : (rsrSl od sz inbD hstD).view.WordExact}
    {hsem : DmaTarget.Typed .vmem (.dma (rSem p i)) (.remote (Dev.tc n : Thread nD τ) (rsrSl od sz inbD hstD) (.dma (sSem p i)) hsc)}
    (hn : n = peer p (stp i) c)
    (hsz : sz = ![eRows p, 1024]) (hos : os = ![o, 0]) (hod : od = ![s, 0])
    (ho : o = srcRow p (peer p (stp i) c) i) (hs : s = slot p (peer p (stp i) c) i) (hG : G = sent m p c i)
    (h : cutState m K c nx (ns + 1) waited own ⊢ wpc c (k ⟨⟩) Q) (hd : sendOrder[ns]? = some (p, i) ∧ i.val < 7 := by decide) :
    iprop(cutState m K c nx ns waited own ∗ stgRows c p o fullShare G) ⊢ wpc c
      (.op (.enqueueDma (stgSl os sz inbS hstS) (.remote (Dev.tc n : Thread nD τ) (rsrSl od sz inbD hstD) (.dma (sSem p i)) hsc)
        (.dma (rSem p i)) hsrc hdst hsem) k) Q := by
  subst hn ho hs hG
  unfold cutState at h ⊢
  rw [slots_take hd.1 hd.2]
  iintro ⟨⟨Hg, Hx, Ho, Hown, ⟨Hslot, Hsl⟩, Hpay⟩, Hst⟩
  iapply (step_sendRS m K c ns waited p i hd.1 hd.2 (peer p (stp i) c) rfl os od sz hsz hos hod) $$ [$Hg $Hst $Hslot]
  iintro Hg
  iapply h
  iframe

end Steps

end Cert.Kernel.RsAg

end
-- ==== Proof.K.BodyB.lean ====
import proofs.«901015_g7700000000001016_dist_rs_then_ag_i_m4096_n1024_v7x_i8_f32_1_alg».proof.Proof.K.BodyBDefs
import proofs.«901015_g7700000000001016_dist_rs_then_ag_i_m4096_n1024_v7x_i8_f32_1_alg».proof.Proof.K.CutSteps
import proofs.«901015_g7700000000001016_dist_rs_then_ag_i_m4096_n1024_v7x_i8_f32_1_alg».proof.Proof.K.Tables
import proofs.«901015_g7700000000001016_dist_rs_then_ag_i_m4096_n1024_v7x_i8_f32_1_alg».proof.Proof.K.Slabs

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "pay_tac " n:ident : tactic => `(tactic| (intros; simp only [$n:ident, shapeCast_same] <;> rfl))

section Parts
variable (K : CellIx → ℕ) (c : Dev nD)

theorem exec_part14 (v2 v68 v78 v112 v240 : BitVec 32) (v423 : FVec F S176x1024 .f32)
    (Q : (Σ' (_ : BitVec 32), BitVec 32) → sProp 𝕄) (h : ∀ a b, St14 m K c ⊢ Q ⟨a, b⟩) :
    Cut13 m K c v423 ⊢ wpc c (k0_part14 xM hxM oM hoM sM hsM rM hrM cc0_scratch2 cc0_scratch3 c v2 v68 v78 v112 v240 v423) Q := by
  rw [k0_part14_eq_skeleton]
  refine sep_and.trans (pure_elim_right fun hv => ?_)
  refine cut_xload m ?_
  refine cut_store_add m 1 (jS1a_lt 1 c) 0 (nxA_at c 0 1 jS1a 0) rfl (off35_eq c) hv ?_
  refine cut_round m 1 2 (jS1a_lt 1 c) rfl 1 (nxA_at c 1 1 jS1a 1) rfl (off35_eq c) (by pay_tac k0_pay11) ?_
  refine cut_send m 1 4 (dev17_eq c) rfl (off38_eq c) (off37_eq c) (src4 1 c) (slot4 1 c) rfl ?_
  refine cut_wait m 2 0 (slab_credit 2 0 _) ?_
  exact (h _ _).trans (le_wp_ret _ _ _ _ _)

theorem exec_part15 (v2 v112 v122 v130 v455 : BitVec 32)
    (Q : BitVec 32 → sProp 𝕄) (h : ∀ a, St15 m K c ⊢ Q a) :
    St14 m K c ⊢ wpc c (k0_part15 xM hxM oM hoM sM hsM rM hrM cc0_scratch2 cc0_scratch3 c v2 v112 v122 v130 v455) Q := by
  rw [k0_part15_eq_skeleton]
  refine cut_add m 2 0 (jS1a_lt 2 c) 0 (nxA_at c 1 2 jS1a 0) rfl rfl rfl (off39_eq c) (off40_eq c) (by pay_tac k0_pay12) ?_
  refine cut_round m 2 2 (jS1a_lt 2 c) rfl 1 (nxA_at c 2 2 jS1a 1) rfl (off39_eq c) (by pay_tac k0_pay13) ?_
  exact (h _).trans (le_wp_ret _ _ _ _ _)

theorem exec_part16 (v2 v24 v34 v42 v175 : BitVec 32)
    (Q : (Σ' (_ : BitVec 32), BitVec 32) → sProp 𝕄) (h : ∀ a b, St16 m K c ⊢ Q ⟨a, b⟩) :
    St15 m K c ⊢ wpc c (k0_part16 xM hxM oM hoM sM hsM rM hrM cc0_scratch2 cc0_scratch3 c v2 v24 v34 v42 v175) Q := by
  rw [k0_part16_eq_skeleton]
  refine cut_send m 2 4 (dev18_eq c) rfl (off42_eq c) (off41_eq c) (src4 2 c) (slot4 2 c) rfl ?_
  refine cut_wait m 0 1 (slab_credit 0 1 _) ?_
  refine cut_add m 0 1 (jS1b_lt 0 c) 0 (nxA_at c 2 0 jS1b 0) rfl rfl rfl (off43_eq c) (off44_eq c) (by pay_tac k0_pay14) ?_
  refine cut_round m 0 3 (jS1b_lt 0 c) rfl 1 (nxA_at c 3 0 jS1b 1) rfl (off43_eq c) (by pay_tac k0_pay15) ?_
  exact (h _ _).trans (le_wp_ret _ _ _ _ _)

theorem exec_part17 (v68 v78 v86 v214 v525 : BitVec 32)
    (Q : BitVec 32 → sProp 𝕄) (h : ∀ a, St17 m K c ⊢ Q a) :
    St16 m K c ⊢ wpc c (k0_part17 xM hxM oM hoM sM hsM rM hrM cc0_scratch2 cc0_scratch3 c v68 v78 v86 v214 v525) Q := by
  rw [k0_part17_eq_skeleton]
  refine cut_send m 0 5 (dev19_eq c) rfl (off46_eq c) (off45_eq c) (src5 0 c) (slot5 0 c) rfl ?_
  refine cut_wait m 1 1 (slab_credit 1 1 _) ?_
  refine cut_add m 1 1 (jS1b_lt 1 c) 0 (nxA_at c 3 1 jS1b 0) rfl rfl rfl (off47_eq c) (off48_eq c) (by pay_tac k0_pay16) ?_
  refine cut_round m 1 3 (jS1b_lt 1 c) rfl 1 (nxA_at c 4 1 jS1b 1) rfl (off47_eq c) (by pay_tac k0_pay17) ?_
  exact (h _).trans (le_wp_ret _ _ _ _ _)

theorem exec_part18 (v2 v68 v78 v112 v122 v130 v253 c176 : BitVec 32)
    (Q : (Σ' (_ : BitVec 32), BitVec 32) → sProp 𝕄) (h : ∀ a b, St18 m K c ⊢ Q ⟨a, b⟩) :
    St17 m K c ⊢ wpc c (k0_part18 xM hxM oM hoM sM hsM rM hrM cc0_scratch2 cc0_scratch3 c v2 v68 v78 v112 v122 v130 v253 c176) Q := by
  rw [k0_part18_eq_skeleton]
  refine cut_send m 1 5 (dev20_eq c) rfl (off50_eq c) (off49_eq c) (src5 1 c) (slot5 1 c) rfl ?_
  refine cut_wait m 2 1 (slab_credit 2 1 _) ?_
  refine cut_add m 2 1 (jS1b_lt 2 c) 0 (nxA_at c 4 2 jS1b 0) rfl rfl rfl (off51_eq c) (off52_eq c) (by pay_tac k0_pay18) ?_
  exact (h _ _).trans (le_wp_ret _ _ _ _ _)

theorem exec_part19 (v2 v39 v47 v112 v122 v275 v593 : BitVec 32)
    (Q : BitVec 32 → sProp 𝕄) (h : ∀ a, St19 m K c ⊢ Q a) :
    St18 m K c ⊢ wpc c (k0_part19 xM hxM oM hoM sM hsM rM hrM cc0_scratch2 cc0_scratch3 c v2 v39 v47 v112 v122 v275 v593) Q := by
  rw [k0_part19_eq_skeleton]
  refine cut_round m 2 3 (jS1b_lt 2 c) rfl 1 (nxA_at c 5 2 jS1b 1) rfl (off51_eq c) (by pay_tac k0_pay19) ?_
  refine cut_send m 2 5 (dev21_eq c) rfl (off54_eq c) (off53_eq c) (src5 2 c) (slot5 2 c) rfl ?_
  refine cut_wait m 0 2 (slab_credit 0 2 _) ?_
  refine cut_add m 0 2 (jS2_lt 0 c) 0 (nxA_at c 5 0 jS2 0) rfl rfl rfl (off55_eq c) (off56_eq c) (by pay_tac k0_pay20) ?_
  exact (h _).trans (le_wp_ret _ _ _ _ _)

theorem exec_part20 (v2 v39 v54 v396 : BitVec 32)
    (Q : BitVec 32 → sProp 𝕄) (h : ∀ a, St20 m K c ⊢ Q a) :
    St19 m K c ⊢ wpc c (k0_part20 xM hxM oM hoM sM hsM rM hrM cc0_scratch2 cc0_scratch3 c v2 v39 v54 v396) Q := by
  rw [k0_part20_eq_skeleton]
  refine cut_wait m 0 4 (slab_credit 0 4 _) ?_
  refine cut_add m 0 4 (jS2_lt 0 c) 1 (nxA_at c 6 0 jS2 1) rfl rfl rfl (off55_eq c) (off57_eq c) (by pay_tac k0_pay21) ?_
  refine cut_round m 0 1 (jS2_lt 0 c) rfl 2 (nxA_at c 7 0 jS2 2) rfl (off55_eq c) (by pay_tac k0_pay22) ?_
  refine cut_send m 0 6 (dev22_eq c) rfl (off58_eq c) rfl (src6 0 c) (slot6 0 c) rfl ?_
  exact (h _).trans (le_wp_ret _ _ _ _ _)

end Parts

end Cert.Kernel.RsAg

end
-- ==== Proof.K.BodyB21.lean ====
import proofs.«901015_g7700000000001016_dist_rs_then_ag_i_m4096_n1024_v7x_i8_f32_1_alg».proof.Proof.K.BodyBDefs
import proofs.«901015_g7700000000001016_dist_rs_then_ag_i_m4096_n1024_v7x_i8_f32_1_alg».proof.Proof.K.CutSteps
import proofs.«901015_g7700000000001016_dist_rs_then_ag_i_m4096_n1024_v7x_i8_f32_1_alg».proof.Proof.K.Tables
import proofs.«901015_g7700000000001016_dist_rs_then_ag_i_m4096_n1024_v7x_i8_f32_1_alg».proof.Proof.K.Slabs

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "pay_tac " n:ident : tactic => `(tactic| (intros; simp only [$n:ident, shapeCast_same] <;> rfl))

section Parts
variable (K : CellIx → ℕ) (c : Dev nD)

theorem exec_part21 (v83 v91 v98 v308 v440 : BitVec 32)
    (Q : FVec F S176x1024 .bf16 → sProp 𝕄) (h : ∀ v693, St21 m K c v693 ⊢ Q v693) :
    St20 m K c ⊢ wpc c (k0_part21 xM hxM oM hoM sM hsM rM hrM cc0_scratch2 cc0_scratch3 c v83 v91 v98 v308 v440) Q := by
  rw [k0_part21_eq_skeleton]
  refine cut_wait m 1 2 (slab_credit 1 2 _) ?_
  refine cut_add m 1 2 (jS2_lt 1 c) 0 (nxA_at c 7 1 jS2 0) rfl rfl rfl (off59_eq c) (off60_eq c) (by pay_tac k0_pay23) ?_
  refine cut_wait m 1 4 (slab_credit 1 4 _) ?_
  refine cut_add m 1 4 (jS2_lt 1 c) 1 (nxA_at c 8 1 jS2 1) rfl rfl rfl (off59_eq c) (off61_eq c) (by pay_tac k0_pay24) ?_
  refine cut_xload m (.trans (?_ : cutAt m K c 9 19 8 6 ⊢ _) ((h _).trans (le_wp_ret _ _ _ _ _)))
  unfold St21
  iintro H
  iframe
  ipureintro
  exact round_val (X m) c 1 (jS2 1 c) (jS2_lt 1 c) (nxA c 9) 2 (nxA_at c 9 1 jS2 2) (k0_off59 c) S176x1024.size rfl (off59_eq c)
    k0_pay25 (by pay_tac k0_pay25)

theorem exec_part22 (v2 v127 v135 v341 v484 : BitVec 32) (v693 : FVec F S176x1024 .bf16)
    (Q : (Σ' (_ : BitVec 32) (_ : BitVec 32), BitVec 32) → sProp 𝕄) (h : ∀ a b d, St22 m K c ⊢ Q ⟨a, b, d⟩) :
    St21 m K c v693 ⊢ wpc c (k0_part22 xM hxM oM hoM sM hsM rM hrM cc0_scratch2 cc0_scratch3 c v2 v127 v135 v341 v484 v693) Q := by
  rw [k0_part22_eq_skeleton]
  refine sep_and.trans (pure_elim_right fun hv => ?_)
  refine cut_round_tail m 1 1 (jS2 1 c) rfl rfl (off59_eq c) (snd (Pn (X m) 1 c 2))
    (fun jj => (show k0_pay26 v693 jj = v693 jj by simp only [k0_pay26, shapeCast_same]).trans (hv jj)) ?_
  refine cut_send m 1 6 (dev23_eq c) rfl (off62_eq c) rfl (src6 1 c) (slot6 1 c) rfl ?_
  refine cut_wait m 2 2 (slab_credit 2 2 _) ?_
  refine cut_add m 2 2 (jS2_lt 2 c) 0 (nxA_at c 9 2 jS2 0) rfl rfl rfl (off63_eq c) (off64_eq c) (by pay_tac k0_pay27) ?_
  exact (h _ _ _).trans (le_wp_ret _ _ _ _ _)

theorem exec_part23 (v2 v127 v142 v286 v722 c0 : BitVec 32)
    (Q : BitVec 32 → sProp 𝕄) (h : ∀ a, St23 m K c ⊢ Q a) :
    St22 m K c ⊢ wpc c (k0_part23 xM hxM oM hoM sM hsM rM hrM cc0_scratch2 cc0_scratch3 c v2 v127 v142 v286 v722 c0) Q := by
  rw [k0_part23_eq_skeleton]
  refine cut_wait m 2 4 (slab_credit 2 4 _) ?_
  refine cut_add m 2 4 (jS2_lt 2 c) 1 (nxA_at c 10 2 jS2 1) rfl rfl rfl (off63_eq c) (off65_eq c) (by pay_tac k0_pay28) ?_
  refine cut_round m 2 1 (jS2_lt 2 c) rfl 2 (nxA_at c 11 2 jS2 2) rfl (off63_eq c) (by pay_tac k0_pay29) ?_
  refine cut_send m 2 6 (dev24_eq c) rfl (off66_eq c) rfl (src6 2 c) (slot6 2 c) rfl ?_
  exact (h _).trans (le_wp_ret _ _ _ _ _)

theorem exec_part24 (v36 v51 v56 v319 v524 : BitVec 32)
    (Q : PUnit → sProp 𝕄) (h : St24 m K c ⊢ Q ⟨⟩) :
    St23 m K c ⊢ wpc c (k0_part24 xM hxM oM hoM sM hsM rM hrM cc0_scratch2 cc0_scratch3 c v36 v51 v56 v319 v524) Q := by
  rw [k0_part24_eq_skeleton]
  refine cut_wait m 0 3 (slab_credit 0 3 _) ?_
  refine cut_add m 0 3 (jK2_lt 0 c) 0 (nxA_at c 11 0 jK2 0) rfl rfl rfl (off67_eq c) (off68_eq c) (by pay_tac k0_pay30) ?_
  refine cut_wait m 0 5 (slab_credit 0 5 _) ?_
  refine cut_add m 0 5 (jK2_lt 0 c) 1 (nxA_at c 12 0 jK2 1) rfl rfl rfl (off67_eq c) (off69_eq c) (by pay_tac k0_pay31) ?_
  exact h.trans (le_wp_ret _ _ _ _ _)

theorem exec_part25 (v80 v95 v100 v124 v352 v564 : BitVec 32)
    (Q : PUnit → sProp 𝕄) (h : St25 m K c ⊢ Q ⟨⟩) :
    St24 m K c ⊢ wpc c (k0_part25 xM hxM oM hoM sM hsM rM hrM cc0_scratch2 cc0_scratch3 c v80 v95 v100 v124 v352 v564) Q := by
  rw [k0_part25_eq_skeleton]
  refine cut_wait m 1 3 (slab_credit 1 3 _) ?_
  refine cut_add m 1 3 (jK2_lt 1 c) 0 (nxA_at c 13 1 jK2 0) rfl rfl rfl (off70_eq c) (off71_eq c) (by pay_tac k0_pay32) ?_
  refine cut_wait m 1 5 (slab_credit 1 5 _) ?_
  refine cut_add m 1 5 (jK2_lt 1 c) 1 (nxA_at c 14 1 jK2 1) rfl rfl rfl (off70_eq c) (off72_eq c) (by pay_tac k0_pay33) ?_
  refine cut_wait m 2 3 (slab_credit 2 3 _) ?_
  exact h.trans (le_wp_ret _ _ _ _ _)

theorem exec_part26 (v36 v124 v139 v144 v604 v651 : BitVec 32)
    (Q : FVec F S176x1024 .f32 → sProp 𝕄) (h : ∀ v852, Mid m K c v852 ⊢ Q v852) :
    St25 m K c ⊢ wpc c (k0_part26 xM hxM oM hoM sM hsM rM hrM cc0_scratch2 cc0_scratch3 c v36 v124 v139 v144 v604 v651) Q := by
  have e : cutAt m K c 17 21 17 8 = cutState m K c (nMid c) 21 waitedMid ownMid := by
    unfold cutAt cutState
    rw [Xlev_nx26 (X m) c, w26_eq, own23_eq]
  rw [k0_part26_eq_skeleton]
  refine cut_add m 2 3 (jK2_lt 2 c) 0 (nxA_at c 15 2 jK2 0) rfl rfl rfl (off73_eq c) (off74_eq c) (by pay_tac k0_pay34) ?_
  refine cut_wait m 2 5 (slab_credit 2 5 _) ?_
  refine cut_add m 2 5 (jK2_lt 2 c) 1 (nxA_at c 16 2 jK2 1) rfl rfl rfl (off73_eq c) (off75_eq c) (by pay_tac k0_pay35) ?_
  refine cut_wait m 0 6 (slab_credit 0 6 _) ?_
  refine cut_xload m (.trans (.trans (Entails.of_eq e) ?_) ((h _).trans (le_wp_ret _ _ _ _ _)))
  unfold Mid
  iintro H
  iframe
  ipureintro
  intro jj
  rw [← Xlev_nx26 (X m) c]
  simp only [k0_pay36, shapeCast_same]
  rfl

end Parts

end Cert.Kernel.RsAg

end
-- ==== Proof.K.Cut40.lean ====
import proofs.«901015_g7700000000001016_dist_rs_then_ag_i_m4096_n1024_v7x_i8_f32_1_alg».proof.Proof.K.Mid

noncomputable section

namespace Cert.Kernel.RsAg

open Cert.Kernel Cert.Kernel.Gen Cert.RsAg

open Idealize.ShloMosaic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def agState (K : CellIx → ℕ) (c : Dev nD) (nx : Fin 3 → Nat → Nat) (ns : Nat) (waited : Finset (Fin 3 × Fin 14))
    (done : Fin 3 → Nat → Prop) [∀ p j, Decidable (done p j)] (f₀ : FVec F W .f32)
    (raw : Finset (Fin 3)) (hold : Finset (Fin 3 × Fin 8 × Fin 5)) (slots lent : Finset (Fin 3 × Fin 14)) : sProp 𝕄 :=
  iprop(ghostAt m K c ns waited
    ∗ (xL c ↦{fullShare} Xlev (X m) c nx)
    ∗ (oL c ↦{fullShare} OutAt (X m) c done f₀)
    ∗ (bigSep raw fun p => iprop(∃ f, stgRows (F := F) c p (oK2 p c) fullShare f))
    ∗ (bigSep hold fun t => stgRows c t.1 (roleRow t.1 t.2.1 c) (shOf t.2.2) (Stg (X m) t.1 (roleJ t.1 t.2.1 c)))
    ∗ (bigSep slots fun pi => rsrRows c pi.1 (slot pi.1 c pi.2)
        (reRow (srcRow pi.1 c pi.2) (slot pi.1 c pi.2) (sent m pi.1 (peer pi.1 (stp pi.2) c) pi.2)))
    ∗ (bigSep lent fun pi => stgRows (peer pi.1 (stp pi.2) c) pi.1 (srcRow pi.1 c pi.2) fullShare
        (sent m pi.1 (peer pi.1 (stp pi.2) c) pi.2)))

def Cut40 (K : CellIx → ℕ) (c : Dev nD) (v1271 : FVec F S176x1024 .f32) : sProp 𝕄 :=
  iprop((∃ f₀, agState m K c (nFin c) 42 waited40 (done40 c) f₀ ∅ hold40 slotsAll ∅)
    ∗ ⌜∀ j, v1271 j = rcv (Stg (X m) 1 (jLb 1 c))
        ((Rect.unit (s := S4096x1024) (k0_off84 c) S176x1024.size (k0_off84_inb c)).emb j)⌝)

end Cert.Kernel.RsAg

end
-- ==== Proof.K.AgLocal.lean ====
import proofs.«901015_g7700000000001016_dist_rs_then_ag_i_m4096_n1024_v7x_i8_f32_1_alg».proof.Proof.K.Cut40
import proofs.«901015_g7700000000001016_dist_rs_then_ag_i_m4096_n1024_v7x_i8_f32_1_alg».proof.Proof.K.Slabs
import proofs.«901015_g7700000000001016_dist_rs_then_ag_i_m4096_n1024_v7x_i8_f32_1_alg».proof.Proof.K.Tables
import proofs.«901015_g7700000000001016_dist_rs_then_ag_i_m4096_n1024_v7x_i8_f32_1_alg».proof.Proof.K.Basics
import proofs.«901015_g7700000000001016_dist_rs_then_ag_i_m4096_n1024_v7x_i8_f32_1_alg».proof.Proof.Gen.Kernel.Skeleton

noncomputable section

namespace Cert.Kernel.RsAg

open Cert.Kernel Cert.Kernel.Gen Cert.RsAg

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def stA (K : CellIx → ℕ) (c : Dev nD) (nx : Fin 3 → Nat → Nat) (ns : Nat) (waited : Finset (Fin 3 × Fin 14))
    (D : Finset (Fin 3 × Fin 8)) (raw : Finset (Fin 3)) (hold : Finset (Fin 3 × Fin 8 × Fin 5))
    (slots lent : Finset (Fin 3 × Fin 14)) : sProp 𝕄 :=
  iprop(∃ f₀, agState m K c nx ns waited (doneOf D c) f₀ raw hold slots lent)

def St27 (K : CellIx → ℕ) (c : Dev nD) : sProp 𝕄 :=
  stA m K c (n27 c) 23 waitedMid ∅ {1, 2} {(0, 0, 4)} waitedMid l27

def St28 (K : CellIx → ℕ) (c : Dev nD) (v915 : FVec F S176x1024 .bf16) : sProp 𝕄 :=
  iprop(stA m K c (n28 c) 24 w28 d28 {1, 2} ∅ w28 l28
    ∗ ⌜∀ j, v915 j = snd (Xlev (X m) c (n28 c))
        ((Rect.unit (s := S4096x1024) (k0_off70 c) S176x1024.size (k0_off70_inb c)).emb j)⌝)

def St29 (K : CellIx → ℕ) (c : Dev nD) : sProp 𝕄 :=
  stA m K c (n28 c) 26 w28 d28 {2} {(1, 0, 4)} w28 l29

def St30 (K : CellIx → ℕ) (c : Dev nD) : sProp 𝕄 :=
  stA m K c (n30 c) 27 w30 d30 ∅ {(2, 0, 0)} w30 l30

def St31 (K : CellIx → ℕ) (c : Dev nD) : sProp 𝕄 :=
  stA m K c (n30 c) 30 w30 d31 ∅ ∅ w30 l31

def St32 (K : CellIx → ℕ) (c : Dev nD) : sProp 𝕄 :=
  stA m K c (n30 c) 32 w32 d32 ∅ {(0, 1, 4)} w30 l32

def St33 (K : CellIx → ℕ) (c : Dev nD) : sProp 𝕄 :=
  stA m K c (n30 c) 34 w33 d33 ∅ {(0, 1, 4), (1, 1, 4)} w30 l33

def St34 (K : CellIx → ℕ) (c : Dev nD) : sProp 𝕄 :=
  stA m K c (n30 c) 36 w34 d34 ∅ h34 w30 l34

def St35 (K : CellIx → ℕ) (c : Dev nD) : sProp 𝕄 :=
  stA m K c (n30 c) 37 w35 d34 ∅ h35 w30 l35

def St36 (K : CellIx → ℕ) (c : Dev nD) : sProp 𝕄 :=
  stA m K c (n30 c) 38 w36 d36 ∅ h36 w30 l36

def St37 (K : CellIx → ℕ) (c : Dev nD) (v1180 : FVec F S352x1024 .f32) : sProp 𝕄 :=
  iprop(stA m K c (n30 c) 40 w37 d36 ∅ h37 w30 l37
    ∗ ⌜∀ j, v1180 j = Out (X m) c
        ((Rect.unit (s := S4096x1024) (k0_off80 c) S352x1024.size (k0_off80_inb c)).emb j)⌝)

def St38 (K : CellIx → ℕ) (c : Dev nD) : sProp 𝕄 :=
  stA m K c (n30 c) 41 w38 d38 ∅ h38 w30 l38

def St39 (K : CellIx → ℕ) (c : Dev nD) (v1240 : FVec F S176x1024 .f32) : sProp 𝕄 :=
  iprop(stA m K c (n30 c) 42 w39 d39 ∅ h39 w30 ∅
    ∗ ⌜∀ j, v1240 j = Out (X m) c
        ((Rect.unit (s := S4096x1024) (k0_off82 c) S176x1024.size (k0_off82_inb c)).emb j)⌝)

abbrev ax : Fin S4096x1024.rank := ⟨0, by decide⟩

theorem stgRows_def (c : Dev nD) (p : Fin 3) (o : Nat) (q : PosShare TreeShare) (f : FVec F W .bf16) :
    (stgRows c p o q f : sProp 𝕄) = (sL c ↦[rowsSet (S := S4096x1024) ax o (eRows p)]{q} f) := rfl

theorem mem_slabRows {p : Fin 3} {j : Nat} {i : S4096x1024.Idx} :
    i ∈ rowsSet (S := S4096x1024) ax (slab p j) (eRows p) ↔ inSlab p j (i 0).val := mem_rowsSet

theorem unit_set_rows (off sz : Fin 2 → Nat) (inb : ∀ a, off a + sz a ≤ S4096x1024.size a) (o n : Nat)
    (hoff : off = ![o, 0]) (hsz : sz = ![n, 1024]) :
    (Rect.unit (s := S4096x1024) off sz inb).set = rowsSet (S := S4096x1024) ax o n := by
  subst hoff hsz
  exact set_unit_rows _ _ _ rfl rfl

section SlabRect

variable (c : Fin 8) (p : Fin 3) (r : Fin 8) (off sz : Fin 2 → Nat) (inb : ∀ a, off a + sz a ≤ S4096x1024.size a)
  (hoff : off = ![roleRow p r c, 0]) (hsz : sz = ![eRows p, 1024])
include hoff hsz

/-- The rectangle of the slab in role `r` of part `p` is exactly that slab's rows. -/
theorem mem_slabRect {i : S4096x1024.Idx} :
    i ∈ (Rect.unit (s := S4096x1024) off sz inb).set ↔ inSlab p (roleJ p r c) (i 0).val := by
  rw [unit_set_rows off sz inb _ _ hoff hsz, roleRow_eq]; exact mem_slabRows

theorem emb_inSlab (j : (Rect.unit (s := S4096x1024) off sz inb).shape.Idx) :
    inSlab p (roleJ p r c) (((Rect.unit (s := S4096x1024) off sz inb).emb j) 0).val :=
  (mem_slabRect c p r off sz inb hoff hsz).mp ((Rect.unit (s := S4096x1024) off sz inb).toLoadRect.idx_mem j)

end SlabRect

/-- Storing the result's own values on a rectangle: written on `D` becomes written on `D'`, when `D'` is `D` and the rectangle. -/
theorem out_store (c : Fin 8) (D D' : Fin 3 → Nat → Prop) [∀ p j, Decidable (D p j)] [∀ p j, Decidable (D' p j)] (f₀ : FVec F W .f32)
    (R : Rect S4096x1024) (w : R.shape.Idx → Elt F .f32) (hw : ∀ j, w j = Out (X m) c (R.emb j))
    (h : ∀ i : W.Idx, D' (partOf (i 0).val) (slabOf (i 0).val) ↔ D (partOf (i 0).val) (slabOf (i 0).val) ∨ i ∈ R.set) :
    ((View.whole cc0_stg1_0 : View sig .tc _ _ _).slice R).write (Elt F) (OutAt (X m) c D f₀) w Finset.univ = OutAt (X m) c D' f₀ := by
  refine write_whole_eq (b := cc0_stg1_0) R _ _ w (fun j => ?_) fun i hi => ?_
  · rw [hw j]; exact (if_pos ((h _).mpr (.inr (R.toLoadRect.idx_mem j)))).symm
  · exact if_congr ((h i).trans (or_iff_left hi)) rfl rfl

theorem out_store_slab (c : Fin 8) (D : Finset (Fin 3 × Fin 8)) (f₀ : FVec F W .f32) (p : Fin 3) (r : Fin 8)
    (off sz : Fin 2 → Nat) (inb : ∀ a, off a + sz a ≤ S4096x1024.size a)
    (hoff : off = ![roleRow p r c, 0]) (hsz : sz = ![eRows p, 1024])
    (w : (Rect.unit (s := S4096x1024) off sz inb).shape.Idx → Elt F .f32)
    (hw : ∀ j, w j = Out (X m) c ((Rect.unit (s := S4096x1024) off sz inb).emb j)) :
    ((View.whole cc0_stg1_0 : View sig .tc _ _ _).slice (Rect.unit (s := S4096x1024) off sz inb)).write (Elt F)
        (OutAt (X m) c (doneOf D c) f₀) w Finset.univ
      = OutAt (X m) c (doneOf (insert (p, r) D) c) f₀ :=
  out_store m c _ _ f₀ _ w hw fun i => by
    rw [doneOf_insert, part_slab_iff (roleJ_lt p r c), mem_slabRect c p r off sz inb hoff hsz]

theorem out_of_stage (c : Fin 8) (p : Fin 3) (r : Fin 8) (hr : roleJ p r c ≠ jK2 p c)
    (off sz : Fin 2 → Nat) (inb : ∀ a, off a + sz a ≤ S4096x1024.size a)
    (hoff : off = ![roleRow p r c, 0]) (hsz : sz = ![eRows p, 1024]) (j : (Rect.unit (s := S4096x1024) off sz inb).shape.Idx) :
    rcv (Stg (X m) p (roleJ p r c)) ((Rect.unit (s := S4096x1024) off sz inb).emb j)
      = Out (X m) c ((Rect.unit (s := S4096x1024) off sz inb).emb j) :=
  Out_on_other (X m) c _ (roleJ_lt p r c) hr (emb_inSlab c p r off sz inb hoff hsz j)

theorem stage_of_own (c : Fin 8) (p : Fin 3) (i : W.Idx) : snd (P3 (X m) p c) i = Stg (X m) p (jK2 p c) i := by
  unfold Stg; rw [owner_jK2]

/-- Read `a` on `r₁`, read `b` on `r₂` to no use, store a payload of the first reading to `b` on `r₂`: `b` then holds any `G` the stored contents agree with on the rows held. -/
theorem wp_lls (c : Dev nD) {s₁ s₂ : Shape} {e₁ e₂ : EltTy} (a : Memref sig .tc .vmem s₁ e₁) (b : Memref sig .tc .vmem s₂ e₂)
    {r₁ : LoadRect s₁} {r₂ : Rect s₂} {hl₁ hl₂ hx hm S₁ S₂ q f₁ f₂ G}
    (pay : (r₁.shape.Idx → Elt F e₁) → r₂.shape.Idx → Elt F e₂) (h₁ : a.view.setOn r₁.set ⊆ S₁)
    (hG : ∀ i ∈ S₂, (b.access r₂).write (Elt F) f₂ (pay (a.view.readAt (Elt F) r₁ f₁)) Finset.univ i = G i)
    (h₂ : b.view.setOn r₂.toLoadRect.set ⊆ S₂ := by exact Finset.subset_univ _)
    (h₃ : (b.access r₂).setOn Finset.univ ⊆ S₂ := by exact Finset.subset_univ _)
    {α : Type} {Q : α → sProp 𝕄} {k : PUnit → Prog (TpuEff nD τ sig (Elt F) Λ₀ .tc) α} :
    iprop((a.view.loc (Dev.tc c : Thread nD τ) ↦[S₁]{q} f₁) ∗ (b.view.loc (Dev.tc c : Thread nD τ) ↦[S₂]{fullShare} f₂))
      ⊢ iprop((((a.view.loc (Dev.tc c : Thread nD τ) ↦[S₁]{q} f₁) ∗ (b.view.loc (Dev.tc c : Thread nD τ) ↦[S₂]{fullShare} G))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load a r₁ hl₁) fun v => .op (.load b r₂.toLoadRect hl₂) fun _ => .op (.store b r₂ (pay v) Finset.univ hx hm) k) Q) := by
  iintro ⟨H₁, H₂⟩ Hk
  iapply (wp_load Variants.none (Dev.tc c : Thread nD τ) none Set.univ (m := a) h₁) $$ H₁
  iintro H₁
  iapply (wp_load Variants.none (Dev.tc c : Thread nD τ) none Set.univ (m := b) h₂) $$ H₂
  iintro H₂
  iapply (wp_store Variants.none (Dev.tc c : Thread nD τ) none Set.univ (m := b) h₃) $$ H₂
  iintro H₂
  iapply Hk
  ihave H₂ := (Entails.of_eq (pointsTo_congr hG)) $$ H₂
  iframe

section ReadOut

variable (c : Dev nD) (p : Fin 3) (r : Fin 8) (off sz : Fin 2 → Nat) (inb : ∀ a, off a + sz a ≤ S4096x1024.size a)

theorem stage_setOn (hoff : off = ![roleRow p r c, 0]) (hsz : sz = ![eRows p, 1024]) :
    sM.view.setOn (Rect.unit (s := S4096x1024) off sz inb).toLoadRect.set
      ⊆ rowsSet (S := S4096x1024) ax (roleRow p r c) (eRows p) :=
  ((setOn_whole cc0_scratch0 _).trans (unit_set_rows off sz inb _ _ hoff hsz)).le

theorem wp_settle (hr : r ≠ 0) (q : PosShare TreeShare) (D : Finset (Fin 3 × Fin 8)) (f₀ : FVec F W .f32)
    (hoff : off = ![roleRow p r c, 0]) (hsz : sz = ![eRows p, 1024])
    {hl2 : sM.view.LoadsAt (Rect.unit (s := S4096x1024) off sz inb).toLoadRect}
    {hl1 : oM.view.LoadsAt (Rect.unit (s := S4096x1024) off sz inb).toLoadRect}
    {hx : (oM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .bf16) → (Rect.unit (s := S4096x1024) off sz inb).shape.Idx → Elt F .f32)
    (hpay : ∀ v j, pay v j = FloatOps.extf .f32 bf16_lt_f32 (v j))
    {α : Type} {Q : α → sProp 𝕄} {k : PUnit → Prog (TpuEff nD τ sig (Elt F) Λ₀ .tc) α} :
    iprop(stgRows c p (roleRow p r c) q (Stg (X m) p (roleJ p r c)) ∗ (oL c ↦{fullShare} OutAt (X m) c (doneOf D c) f₀))
      ⊢ iprop(((stgRows c p (roleRow p r c) q (Stg (X m) p (roleJ p r c))
              ∗ (oL c ↦{fullShare} OutAt (X m) c (doneOf (insert (p, r) D) c) f₀))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load sM (Rect.unit (s := S4096x1024) off sz inb).toLoadRect hl2) fun v =>
                .op (.load oM (Rect.unit (s := S4096x1024) off sz inb).toLoadRect hl1) fun _ =>
                .op (.store oM (Rect.unit (s := S4096x1024) off sz inb) (pay v) Finset.univ hx hm) k) Q) :=
  wp_lls c sM oM pay (stage_setOn c p r off sz inb hoff hsz) fun i _ => by
    exact congrFun (out_store_slab m c D f₀ p r off sz inb hoff hsz _ fun j =>
      (hpay (sM.view.readAt (Elt F) _ (Stg (X m) p (roleJ p r c))) j).trans (out_of_stage m c p r (roleJ_ne_jK2 p r c hr) off sz inb hoff hsz j)) i

end ReadOut

section Kept

variable (c : Dev nD) (p : Fin 3) (off sz : Fin 2 → Nat) (inb : ∀ a, off a + sz a ≤ S4096x1024.size a)

theorem Xlev_on_kept (n : Fin 3 → Nat → Nat) (hn : n p (jK2 p c) = 3)
    (hoff : off = ![roleRow p 0 c, 0]) (hsz : sz = ![eRows p, 1024]) (j : (Rect.unit (s := S4096x1024) off sz inb).shape.Idx) :
    Xlev (X m) c n ((Rect.unit (s := S4096x1024) off sz inb).emb j) = P3 (X m) p c ((Rect.unit (s := S4096x1024) off sz inb).emb j) := by
  obtain ⟨hp, hs⟩ := (part_slab_iff (jK2_lt p c) _).mpr (emb_inSlab c p 0 off sz inb hoff hsz j)
  show Pn (X m) (partOf _) c (n (partOf _) (slabOf _)) _ = _
  rw [hp, hs, hn]
  rfl

theorem wp_keep (n : Fin 3 → Nat → Nat) (hn : n p (jK2 p c) = 3) (D : Finset (Fin 3 × Fin 8)) (f₀ : FVec F W .f32)
    (hoff : off = ![roleRow p 0 c, 0]) (hsz : sz = ![eRows p, 1024])
    {hl0 : xM.view.LoadsAt (Rect.unit (s := S4096x1024) off sz inb).toLoadRect}
    {hl1 : oM.view.LoadsAt (Rect.unit (s := S4096x1024) off sz inb).toLoadRect}
    {hx : (oM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .f32) → (Rect.unit (s := S4096x1024) off sz inb).shape.Idx → Elt F .f32)
    (hpay : ∀ v j, pay v j = v j)
    {α : Type} {Q : α → sProp 𝕄} {k : PUnit → Prog (TpuEff nD τ sig (Elt F) Λ₀ .tc) α} :
    iprop((xL c ↦{fullShare} Xlev (X m) c n) ∗ (oL c ↦{fullShare} OutAt (X m) c (doneOf D c) f₀))
      ⊢ iprop((((xL c ↦{fullShare} Xlev (X m) c n) ∗ (oL c ↦{fullShare} OutAt (X m) c (doneOf (insert (p, 0) D) c) f₀))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load xM (Rect.unit (s := S4096x1024) off sz inb).toLoadRect hl0) fun v =>
                .op (.load oM (Rect.unit (s := S4096x1024) off sz inb).toLoadRect hl1) fun _ =>
                .op (.store oM (Rect.unit (s := S4096x1024) off sz inb) (pay v) Finset.univ hx hm) k) Q) :=
  wp_lls c xM oM pay (Finset.subset_univ _) fun i _ => by
    exact congrFun (out_store_slab m c D f₀ p 0 off sz inb hoff hsz _ fun j =>
      (hpay (xM.view.readAt (Elt F) _ (Xlev (X m) c n)) j).trans
        ((Xlev_on_kept m c p off sz inb n hn hoff hsz j).trans (Out_on_own (X m) c _ (emb_inSlab c p 0 off sz inb hoff hsz j)))) i

theorem stage_store_setOn (r : Fin 8) (hoff : off = ![roleRow p r c, 0]) (hsz : sz = ![eRows p, 1024]) :
    (sM.access (Rect.unit (s := S4096x1024) off sz inb)).setOn Finset.univ
      ⊆ rowsSet (S := S4096x1024) ax (roleRow p r c) (eRows p) :=
  ((View.set_slice_whole cc0_scratch0 _).trans (unit_set_rows off sz inb _ _ hoff hsz)).le

theorem wp_roundKept (n : Fin 3 → Nat → Nat) (hn : n p (jK2 p c) = 3) (f : FVec F W .bf16)
    (hoff : off = ![roleRow p 0 c, 0]) (hsz : sz = ![eRows p, 1024])
    {hl0 : xM.view.LoadsAt (Rect.unit (s := S4096x1024) off sz inb).toLoadRect}
    {hl2 : sM.view.LoadsAt (Rect.unit (s := S4096x1024) off sz inb).toLoadRect}
    {hx : (sM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (pay : ((Rect.unit (s := S4096x1024) off sz inb).toLoadRect.shape.Idx → Elt F .f32) → (Rect.unit (s := S4096x1024) off sz inb).shape.Idx → Elt F .bf16)
    (hpay : ∀ v j, pay v j = FloatOps.truncf .bf16 bf16_lt_f32 (v j))
    {α : Type} {Q : α → sProp 𝕄} {k : PUnit → Prog (TpuEff nD τ sig (Elt F) Λ₀ .tc) α} :
    iprop((xL c ↦{fullShare} Xlev (X m) c n) ∗ stgRows c p (roleRow p 0 c) fullShare f)
      ⊢ iprop((((xL c ↦{fullShare} Xlev (X m) c n) ∗ stgRows c p (roleRow p 0 c) fullShare (Stg (X m) p (roleJ p 0 c)))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load xM (Rect.unit (s := S4096x1024) off sz inb).toLoadRect hl0) fun v =>
                .op (.load sM (Rect.unit (s := S4096x1024) off sz inb).toLoadRect hl2) fun _ =>
                .op (.store sM (Rect.unit (s := S4096x1024) off sz inb) (pay v) Finset.univ hx hm) k) Q) :=
  wp_lls c xM sM pay (Finset.subset_univ _) (fun i hi => by
    rw [← unit_set_rows off sz inb _ _ hoff hsz] at hi
    obtain ⟨j, rfl⟩ := (Rect.unit (s := S4096x1024) off sz inb).toLoadRect.exists_idx_of_mem hi
    exact (write_whole_emb cc0_scratch0 _ _ _ j).trans ((hpay _ j).trans
      ((congrArg (FloatOps.truncf .bf16 bf16_lt_f32) (Xlev_on_kept m c p off sz inb n hn hoff hsz j)).trans (stage_of_own m c p _))))
    (stage_setOn c p 0 off sz inb hoff hsz) (stage_store_setOn c p off sz inb 0 hoff hsz)

end Kept

theorem recvPay_rs' (c : Fin 8) (p : Fin 3) (i : Fin 14) (hi : i.val < 7) :
    recvPay m c p i = iprop(rsrRows c p (slot p c i) (reRow (srcRow p c i) (slot p c i) (sent m p (peer p (stp i) c) i))
      ∗ stgRows (peer p (stp i) c) p (srcRow p c i) fullShare (sent m p (peer p (stp i) c) i)) := by
  unfold recvPay; rw [if_pos hi]

section LastAdd

theorem rsr_setOn (o n : Nat) (offr sz : Fin 2 → Nat) (inbr : ∀ a, offr a + sz a ≤ S3584x1024.size a)
    (hoffr : offr = ![o, 0]) (hsz : sz = ![n, 1024]) :
    rM.view.setOn (Rect.unit (s := S3584x1024) offr sz inbr).toLoadRect.set
      ⊆ rowsSet (S := S3584x1024) ⟨0, by decide⟩ o n := by
  subst hoffr hsz
  exact ((setOn_whole cc0_scratch1 _).trans (rows3584_set inbr)).le

variable (c : Dev nD) (p : Fin 3) (off offr sz : Fin 2 → Nat)
  (inb : ∀ a, off a + sz a ≤ S4096x1024.size a) (inbr : ∀ a, offr a + sz a ≤ S3584x1024.size a)

theorem slot6_read (hoff : off = ![roleRow p 0 c, 0]) (hoffr : offr = ![slot p c 6, 0]) (hsz : sz = ![eRows p, 1024])
    (j : (Rect.unit (s := S3584x1024) offr sz inbr).toLoadRect.shape.Idx) :
    rM.view.readAt (Elt F) (Rect.unit (s := S3584x1024) offr sz inbr).toLoadRect
        (reRow (srcRow p c 6) (slot p c 6) (sent m p (peer p (stp 6) c) 6)) j
      = snd (P2 (X m) p (peer p 2 c)) ((Rect.unit (s := S4096x1024) off sz inb).emb j) := by
  subst hoff hoffr hsz
  exact reRow_emb (sent m p (peer p (stp 6) c) 6) inbr inb j

theorem wp_addLast (n : Fin 3 → Nat → Nat) (hn : n p (jK2 p c) = 2)
    (hoff : off = ![roleRow p 0 c, 0]) (hoffr : offr = ![slot p c 6, 0]) (hsz : sz = ![eRows p, 1024])
    {hlr : rM.view.LoadsAt (Rect.unit (s := S3584x1024) offr sz inbr).toLoadRect}
    {hl0 : xM.view.LoadsAt (Rect.unit (s := S4096x1024) off sz inb).toLoadRect}
    {hx : (xM.access (Rect.unit (s := S4096x1024) off sz inb)).Stores Finset.univ}
    {hm : (Finset.univ : Finset (Rect.unit (s := S4096x1024) off sz inb).shape.Idx) = Finset.univ ∨ ∀ a, (Rect.unit (s := S4096x1024) off sz inb).stride a = 1}
    (vx : (Rect.unit (s := S4096x1024) off sz inb).shape.Idx → Elt F .f32)
    (hvx : ∀ j, vx j = Xlev (X m) c n ((Rect.unit (s := S4096x1024) off sz inb).emb j))
    (pay : ((Rect.unit (s := S3584x1024) offr sz inbr).toLoadRect.shape.Idx → Elt F .bf16) → (Rect.unit (s := S4096x1024) off sz inb).shape.Idx → Elt F .f32)
    (hpay : ∀ v j, pay v j = FloatOps.addf (vx j) (FloatOps.extf .f32 bf16_lt_f32 (v j)))
    {α : Type} {Q : α → sProp 𝕄} {k : PUnit → Prog (TpuEff nD τ sig (Elt F) Λ₀ .tc) α} :
    iprop(rsrRows c p (slot p c 6) (reRow (srcRow p c 6) (slot p c 6) (sent m p (peer p (stp 6) c) 6)) ∗ (xL c ↦{fullShare} Xlev (X m) c n))
      ⊢ iprop(((rsrRows c p (slot p c 6) (reRow (srcRow p c 6) (slot p c 6) (sent m p (peer p (stp 6) c) 6))
              ∗ (xL c ↦{fullShare} Xlev (X m) c (bump n p (jK2 p c))))
            -∗ wp frame (wpE (defs₀ (F := F)) Variants.none (Dev.tc c : Thread nD τ) none) Set.univ (k ⟨⟩) Q)
          -∗ wp frame (wpE (defs₀ (F := F)) Variants.none (Dev.tc c : Thread nD τ) none) Set.univ
              (.op (.load rM (Rect.unit (s := S3584x1024) offr sz inbr).toLoadRect hlr) fun v =>
                .op (.load xM (Rect.unit (s := S4096x1024) off sz inb).toLoadRect hl0) fun _ =>
                .op (.store xM (Rect.unit (s := S4096x1024) off sz inb) (pay v) Finset.univ hx hm) k) Q) :=
  wp_lls c rM xM pay (rsr_setOn _ _ offr sz inbr hoffr hsz) fun i _ => by
    refine congrFun (write_whole_eq cc0_stg0_0 _ _ _ _ (fun j => ?_) fun i hi =>
      Xlev_bump_out (X m) c n i fun h => hi ((mem_slabRect c p 0 off sz inb hoff hsz).mpr h)) i
    rw [hpay, hvx j, slot6_read m c p off offr sz inb inbr hoff hoffr hsz j]
    exact (Xlev_bump_in (X m) c n _ (emb_inSlab c p 0 off sz inb hoff hsz j) (jK2_lt p c) hn (by decide)).symm

end LastAdd

theorem OutAt_doneOf_empty (c : Fin 8) (f₀ : FVec F W .f32) : OutAt (X m) c (doneOf ∅ c) f₀ = f₀ := by
  funext i
  unfold OutAt
  rw [if_neg]
  rintro ⟨r, hr, -⟩
  exact absurd hr (Finset.notMem_empty _)

theorem Mid_open (K : CellIx → ℕ) (c : Dev nD) (v852 : FVec F S176x1024 .f32) :
    Mid m K c v852 ⊢ iprop(stA m K c (nMid c) 21 waitedMid ∅ {0, 1, 2} ∅ waitedMid waitedMid
      ∗ ⌜∀ j, v852 j = Xlev (X m) c (nMid c)
          ((Rect.unit (s := S4096x1024) (k0_off67 c) S176x1024.size (k0_off67_inb c)).emb j)⌝) := by
  unfold Mid cutState stA agState
  iintro ⟨⟨Hg, Hx, ⟨%f₀, Ho⟩, Hown, -, Hpays⟩, %hv⟩
  isplitl
  swap
  · ipureintro; exact hv
  iexists f₀
  rw [OutAt_doneOf_empty, bigSep_empty]
  ihave Hown := (Entails.of_eq (show (bigSep ownMid fun pr : Fin 3 × Fin 8 =>
        iprop(∃ f, stgRows (F := F) c pr.1 (roleRow pr.1 pr.2 c) fullShare f) : sProp 𝕄)
      = bigSep ({0, 1, 2} : Finset (Fin 3)) fun p => iprop(∃ f, stgRows (F := F) c p (oK2 p c) fullShare f) from by
        rw [ownMid_image, bigSep_image_of_injOn (fun a _ b _ h => (Prod.mk.inj h).1)]; rfl)) $$ Hown
  ihave Hpays := (Entails.of_eq ((bigSep_congr fun pi hpi => recvPay_rs' m c pi.1 pi.2
    ((by decide : ∀ pi ∈ waitedMid, pi.2.val < 7) pi hpi)).trans (bigSep_sep' _ _ _))) $$ Hpays
  icases Hpays with ⟨Hr, Hl⟩
  iframe
  iempintro

section Block

theorem block_rows (p : Fin 3) (c : Fin 8) :
    rowsSet (S := S4096x1024) ax (oS1 p c) (2 * eRows p)
      = rowsSet (S := S4096x1024) ax (oS1a p c) (eRows p) ∪ rowsSet (S := S4096x1024) ax (oS1b p c) (eRows p) := by
  rw [Nat.two_mul, rowsSet_add]
  rcases s1_cases p c with ⟨ha, hb⟩ | ⟨hb, ha⟩
  · rw [ha, hb]
  · rw [ha, hb, Finset.union_comm]

theorem block_disjoint (p : Fin 3) (c : Fin 8) :
    Disjoint (rowsSet (S := S4096x1024) ax (oS1a p c) (eRows p)) (rowsSet (S := S4096x1024) ax (oS1b p c) (eRows p)) := by
  rcases s1_cases p c with ⟨ha, hb⟩ | ⟨hb, ha⟩
  · rw [ha, hb]; exact rowsSet_disjoint (Nat.le_refl _)
  · rw [ha, hb]; exact (rowsSet_disjoint (Nat.le_refl _)).symm

def stgBlock (p : Fin 3) (c : Fin 8) : FVec F W .bf16 :=
  (rowsSet (S := S4096x1024) ax (oS1b p c) (eRows p)).piecewise (Stg (X m) p (jS1b p c)) (Stg (X m) p (jS1a p c))

variable (c : Dev nD) (p : Fin 3) (off sz : Fin 2 → Nat) (inb : ∀ a, off a + sz a ≤ S4096x1024.size a)

theorem block_value (hoff : off = ![oS1 p c, 0]) (hsz : sz = ![2 * eRows p, 1024])
    (j : (Rect.unit (s := S4096x1024) off sz inb).shape.Idx) :
    rcv (stgBlock m p c) ((Rect.unit (s := S4096x1024) off sz inb).emb j)
      = Out (X m) c ((Rect.unit (s := S4096x1024) off sz inb).emb j) := by
  have hm : (Rect.unit (s := S4096x1024) off sz inb).emb j ∈ (Rect.unit (s := S4096x1024) off sz inb).set :=
    (Rect.unit (s := S4096x1024) off sz inb).toLoadRect.idx_mem j
  rw [unit_set_rows off sz inb _ _ hoff hsz, block_rows, Finset.mem_union] at hm
  rw [rcv_apply]
  unfold stgBlock
  by_cases hb : (Rect.unit (s := S4096x1024) off sz inb).emb j ∈ rowsSet (S := S4096x1024) ax (oS1b p c) (eRows p)
  · rw [Finset.piecewise_eq_of_mem _ _ _ hb]
    exact Out_on_other (X m) c _ (jS1b_lt p c) (roleJ_ne_jK2 p 3 c (by decide)) (mem_slabRows.mp hb)
  · rw [Finset.piecewise_eq_of_notMem _ _ _ hb]
    exact Out_on_other (X m) c _ (jS1a_lt p c) (roleJ_ne_jK2 p 2 c (by decide)) (mem_slabRows.mp (hm.resolve_right hb))

theorem wp_blockRead (q : PosShare TreeShare) (hoff : off = ![oS1 p c, 0]) (hsz : sz = ![2 * eRows p, 1024])
    {hl2 : sM.view.LoadsAt (Rect.unit (s := S4096x1024) off sz inb).toLoadRect}
    {α : Type} {Q : α → sProp 𝕄}
    {k : ((Rect.unit (s := S4096x1024) off sz inb).toLoadRect.shape.Idx → Elt F .bf16) → Prog (TpuEff nD τ sig (Elt F) Λ₀ .tc) α} :
    iprop(stgRows c p (oS1a p c) q (Stg (X m) p (jS1a p c)) ∗ stgRows c p (oS1b p c) q (Stg (X m) p (jS1b p c)))
      ⊢ iprop(((stgRows c p (oS1a p c) q (Stg (X m) p (jS1a p c)) ∗ stgRows c p (oS1b p c) q (Stg (X m) p (jS1b p c)))
            -∗ wp frame (wpE (defs₀ (F := F)) Variants.none (Dev.tc c : Thread nD τ) none) Set.univ
                (k (sM.view.readAt (Elt F)
                  (Rect.unit (s := S4096x1024) off sz inb).toLoadRect (stgBlock m p c))) Q)
          -∗ wp frame (wpE (defs₀ (F := F)) Variants.none (Dev.tc c : Thread nD τ) none) Set.univ
              (.op (.load sM (Rect.unit (s := S4096x1024) off sz inb).toLoadRect hl2) k) Q) := by
  unfold stgRows
  iintro ⟨Ha, Hb⟩ Hk
  ihave Hab := (pointsTo_join (ℓ := sL c) (block_disjoint p c)) $$ [Ha Hb]
  · iframe
  iapply (wp_load Variants.none (Dev.tc c : Thread nD τ) none Set.univ (m := sM)
    (Finset.subset_of_eq ((setOn_whole cc0_scratch0 _).trans ((unit_set_rows off sz inb _ _ hoff hsz).trans (block_rows p c))))) $$ Hab
  iintro Hab
  iapply Hk
  ihave Hs := (pointsTo_union (ℓ := sL c) (block_disjoint p c)).1 $$ Hab
  icases Hs with ⟨Ha, Hb⟩
  ihave Ha := (Entails.of_eq (pointsTo_congr (g := Stg (X m) p (jS1a p c)) fun i hi =>
    Finset.piecewise_eq_of_notMem _ _ _ (Finset.disjoint_left.mp (block_disjoint p c) hi))) $$ Ha
  ihave Hb := (Entails.of_eq (pointsTo_congr (g := Stg (X m) p (jS1b p c)) fun i hi => Finset.piecewise_eq_of_mem _ _ _ hi)) $$ Hb
  iframe

theorem out_store_block (D : Finset (Fin 3 × Fin 8)) (f₀ : FVec F W .f32)
    (hoff : off = ![oS1 p c, 0]) (hsz : sz = ![2 * eRows p, 1024])
    (w : (Rect.unit (s := S4096x1024) off sz inb).shape.Idx → Elt F .f32)
    (hw : ∀ j, w j = Out (X m) c ((Rect.unit (s := S4096x1024) off sz inb).emb j)) :
    ((View.whole cc0_stg1_0 : View sig .tc _ _ _).slice (Rect.unit (s := S4096x1024) off sz inb)).write (Elt F)
        (OutAt (X m) c (doneOf D c) f₀) w Finset.univ
      = OutAt (X m) c (doneOf (insert (p, 3) (insert (p, 2) D)) c) f₀ :=
  out_store m c _ _ f₀ _ w hw fun i => by
    rw [doneOf_insert, doneOf_insert, part_slab_iff (roleJ_lt p 2 c), part_slab_iff (roleJ_lt p 3 c), or_assoc,
      unit_set_rows off sz inb _ _ hoff hsz, block_rows, Finset.mem_union]
    exact or_congr_right (or_congr mem_slabRows.symm mem_slabRows.symm)

end Block

end Cert.Kernel.RsAg

end
-- ==== Proof.K.Parts27.lean ====
import proofs.«901015_g7700000000001016_dist_rs_then_ag_i_m4096_n1024_v7x_i8_f32_1_alg».proof.Proof.K.AgLocal
import proofs.«901015_g7700000000001016_dist_rs_then_ag_i_m4096_n1024_v7x_i8_f32_1_alg».proof.Proof.K.Steps

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ UU ℕ

variable (m : (ℓ : Loc nD τ sig) → Buf (Elt F) ℓ)

theorem recvPay_ag (c : Fin 8) (p : Fin 3) (i : Fin 14) (hi : 7 ≤ i.val) :
    recvPay m c p i = stgRows c p (landRow p c i) fullShare (Stg (X m) p (landJ p c i)) := by
  unfold recvPay; rw [if_neg (by omega)]

theorem stgRows_halves (c : Dev nD) (p : Fin 3) (o : Nat) (f : FVec F W .bf16) :
    (stgRows c p o fullShare f : sProp 𝕄) ⊣⊢ iprop(stgRows c p o shL f ∗ stgRows c p o shR f) := by
  unfold stgRows; exact pointsTo_halves

theorem stgRows_thirds (c : Dev nD) (p : Fin 3) (o : Nat) (f : FVec F W .bf16) :
    (stgRows c p o fullShare f : sProp 𝕄) ⊣⊢ iprop(stgRows c p o shL f ∗ stgRows c p o shRL f ∗ stgRows c p o shRR f) := by
  unfold stgRows; exact pointsTo_thirds

-- A step that takes a partner's rows takes them out of the rows in hand.
theorem lent_step (c : Dev nD) (lent : Finset (Fin 3 × Fin 14)) (p : Fin 3) (j : Fin 14) (hj : (p, j) ∈ lent)
    {n : Dev nD} (hn : n = peer p (stp j) c) {G S G' R P : sProp 𝕄}
    (H : iprop(G ∗ S ∗ ∃ f, stgRows (F := F) n p (srcRow p c j) fullShare f) ⊢ iprop((G' -∗ R) -∗ P)) :
    iprop(G ∗ S ∗ bigSep lent fun pi => stgRows (peer pi.1 (stp pi.2) c) pi.1 (srcRow pi.1 c pi.2) fullShare (sent m pi.1 (peer pi.1 (stp pi.2) c) pi.2))
      ⊢ iprop(((G' ∗ bigSep (lent.erase (p, j)) fun pi => stgRows (peer pi.1 (stp pi.2) c) pi.1 (srcRow pi.1 c pi.2) fullShare (sent m pi.1 (peer pi.1 (stp pi.2) c) pi.2)) -∗ R) -∗ P) := by
  subst hn
  rw [bigSep_erase' hj]
  iintro ⟨Hg, Hs, Hd, Hl⟩ Hk
  iapply H $$ [$Hg $Hs Hd]
  · iexists _; iexact Hd
  iintro Hg
  iapply Hk
  iframe

theorem exec_part32 (K : CellIx → ℕ) (c : Dev nD) (v2 v39 v866 c1_i32_725 : BitVec 32)
    {Q : _ → sProp 𝕄}
    (h : ∀ (v1012 v1021 : BitVec 32), St32 m K c ⊢ Q ⟨v1012, v1021⟩) :
    St31 m K c ⊢ wp frame (wpE (defs₀ (F := F)) Variants.none (Dev.tc c : Thread nD τ) none) Set.univ
      (k0_part32 xM hxM oM hoM sM hsM rM hrM cc0_scratch2 cc0_scratch3 c v2 v39 v866 c1_i32_725) Q := by
  rw [k0_part32_eq_skeleton]; unfold k0_part32_skel
  simp only [Prog.lift, Prog.bind_op, Prog.bind_ret, Prog.pure_eq_ret]
  unfold St31 stA agState
  iintro ⟨%f₀, Hg, Hx, Ho, Hraw, Hhold, Hslots, Hlent⟩
  iapply (step_waitRecv m K c 30 w30 0 7 (by decide) (by rfl) (slab_credit 0 7 _)) $$ Hg
  rw [recvPay_ag m c 0 7 (by decide)]
  iintro ⟨Hg, Hpay⟩
  ihave ⟨HL, HRL, HRR⟩ := (stgRows_thirds c 0 _ _).1 $$ Hpay
  iapply (lent_step m c l31 0 4 (by decide) (dev34_eq c) (step_sendAG m K c 30 _ 0 9 (by rfl) (by decide) _ (dev34_eq c)
    _ S176x1024.size (by rfl) (off58_eq c))) $$ [$Hg HL $Hlent]
  · iexact HL
  iintro ⟨Hg, Hlent⟩
  iapply (lent_step m c (l31.erase (0, 4)) 0 2 (by decide) (dev35_eq c) (step_sendAG m K c 31 _ 0 11 (by rfl) (by decide) _ (dev35_eq c)
    _ S176x1024.size (by rfl) (off58_eq c))) $$ [$Hg HRL $Hlent]
  · iexact HRL
  iintro ⟨Hg, Hlent⟩
  iapply (wp_settle m c 0 1 _ S176x1024.size (k0_off55_inb c) (by decide) shRR d31 f₀
    (off55_eq c) (by rfl) k0_pay47 (fun v j => rfl)) $$ [HRR $Ho]
  · iexact HRR
  iintro ⟨HRR, Ho⟩
  rw [wp_ret]
  imodintro
  iapply (h _ _)
  unfold St32 stA agState w32 d32 l32
  iexists f₀
  rw [bigSep_singleton]
  iframe
  iexact HRR

theorem exec_part33 (K : CellIx → ℕ) (c : Dev nD) (v2 v83 v920 : BitVec 32)
    {Q : _ → sProp 𝕄}
    (h : ∀ (v1041 v1050 : BitVec 32), St33 m K c ⊢ Q ⟨v1041, v1050⟩) :
    St32 m K c ⊢ wp frame (wpE (defs₀ (F := F)) Variants.none (Dev.tc c : Thread nD τ) none) Set.univ
      (k0_part33 xM hxM oM hoM sM hsM rM hrM cc0_scratch2 cc0_scratch3 c v2 v83 v920) Q := by
  rw [k0_part33_eq_skeleton]; unfold k0_part33_skel
  simp only [Prog.lift, Prog.bind_op, Prog.bind_ret, Prog.pure_eq_ret]
  unfold St32 stA agState
  iintro ⟨%f₀, Hg, Hx, Ho, Hraw, Hhold, Hslots, Hlent⟩
  iapply (step_waitRecv m K c 32 w32 1 7 (by decide) (by rfl) (slab_credit 1 7 _)) $$ Hg
  rw [recvPay_ag m c 1 7 (by decide)]
  iintro ⟨Hg, Hpay⟩
  ihave ⟨HL, HRL, HRR⟩ := (stgRows_thirds c 1 _ _).1 $$ Hpay
  iapply (lent_step m c l32 1 4 (by decide) (dev36_eq c) (step_sendAG m K c 32 _ 1 9 (by rfl) (by decide) _ (dev36_eq c)
    _ S176x1024.size (by rfl) (off62_eq c))) $$ [$Hg HL $Hlent]
  · iexact HL
  iintro ⟨Hg, Hlent⟩
  iapply (lent_step m c (l32.erase (1, 4)) 1 2 (by decide) (dev37_eq c) (step_sendAG m K c 33 _ 1 11 (by rfl) (by decide) _ (dev37_eq c)
    _ S176x1024.size (by rfl) (off62_eq c))) $$ [$Hg HRL $Hlent]
  · iexact HRL
  iintro ⟨Hg, Hlent⟩
  iapply (wp_settle m c 1 1 _ S176x1024.size (k0_off59_inb c) (by decide) shRR d32 f₀
    (off59_eq c) (by rfl) k0_pay48 (fun v j => rfl)) $$ [HRR $Ho]
  · iexact HRR
  iintro ⟨HRR, Ho⟩
  rw [wp_ret]
  imodintro
  iapply (h _ _)
  unfold St33 stA agState w33 d33 l33
  iexists f₀
  rw [show ({(0, 1, 4), (1, 1, 4)} : Finset (Fin 3 × Fin 8 × Fin 5)) = insert (1, 1, 4) {(0, 1, 4)} from by decide,
    bigSep_insert' (s := {(0, 1, 4)}) (i := (1, 1, 4)) (by decide)]
  iframe
  iexact HRR

theorem exec_part34 (K : CellIx → ℕ) (c : Dev nD) (v2 v127 v974 : BitVec 32)
    {Q : _ → sProp 𝕄}
    (h : ∀ (v1070 v1079 : BitVec 32), St34 m K c ⊢ Q ⟨v1070, v1079⟩) :
    St33 m K c ⊢ wp frame (wpE (defs₀ (F := F)) Variants.none (Dev.tc c : Thread nD τ) none) Set.univ
      (k0_part34 xM hxM oM hoM sM hsM rM hrM cc0_scratch2 cc0_scratch3 c v2 v127 v974) Q := by
  rw [k0_part34_eq_skeleton]; unfold k0_part34_skel
  simp only [Prog.lift, Prog.bind_op, Prog.bind_ret, Prog.pure_eq_ret]
  unfold St33 stA agState
  iintro ⟨%f₀, Hg, Hx, Ho, Hraw, Hhold, Hslots, Hlent⟩
  iapply (step_waitRecv m K c 34 w33 2 7 (by decide) (by rfl) (slab_credit 2 7 _)) $$ Hg
  rw [recvPay_ag m c 2 7 (by decide)]
  iintro ⟨Hg, Hpay⟩
  ihave ⟨HL, HRL, HRR⟩ := (stgRows_thirds c 2 _ _).1 $$ Hpay
  iapply (lent_step m c l33 2 4 (by decide) (dev38_eq c) (step_sendAG m K c 34 _ 2 9 (by rfl) (by decide) _ (dev38_eq c)
    _ S160x1024.size (by rfl) (off66_eq c))) $$ [$Hg HL $Hlent]
  · iexact HL
  iintro ⟨Hg, Hlent⟩
  iapply (lent_step m c (l33.erase (2, 4)) 2 2 (by decide) (dev39_eq c) (step_sendAG m K c 35 _ 2 11 (by rfl) (by decide) _ (dev39_eq c)
    _ S160x1024.size (by rfl) (off66_eq c))) $$ [$Hg HRL $Hlent]
  · iexact HRL
  iintro ⟨Hg, Hlent⟩
  iapply (wp_settle m c 2 1 _ S160x1024.size (k0_off63_inb c) (by decide) shRR d33 f₀
    (off63_eq c) (by rfl) k0_pay49 (fun v j => rfl)) $$ [HRR $Ho]
  · iexact HRR
  iintro ⟨HRR, Ho⟩
  rw [wp_ret]
  imodintro
  iapply (h _ _)
  unfold St34 stA agState w34 d34 l34
  iexists f₀
  rw [show h34 = insert (2, 1, 4) {(0, 1, 4), (1, 1, 4)} from by decide, bigSep_insert' (s := {(0, 1, 4), (1, 1, 4)}) (i := (2, 1, 4)) (by decide)]
  iframe
  iexact HRR

theorem exec_part35 (K : CellIx → ℕ) (c : Dev nD) (v2 v24 v34 v875 v1012 : BitVec 32)
    {Q : _ → sProp 𝕄}
    (h : ∀ (v1103 v1121 : BitVec 32), St35 m K c ⊢ Q ⟨v1103, v1121⟩) :
    St34 m K c ⊢ wp frame (wpE (defs₀ (F := F)) Variants.none (Dev.tc c : Thread nD τ) none) Set.univ
      (k0_part35 xM hxM oM hoM sM hsM rM hrM cc0_scratch2 cc0_scratch3 c v2 v24 v34 v875 v1012) Q := by
  rw [k0_part35_eq_skeleton]; unfold k0_part35_skel
  simp only [Prog.lift, Prog.bind_op, Prog.bind_ret, Prog.pure_eq_ret]
  unfold St34 stA agState
  iintro ⟨%f₀, Hg, Hx, Ho, Hraw, Hhold, Hslots, Hlent⟩
  iapply (step_waitRecv m K c 36 w34 0 8 (by decide) (by rfl) (slab_credit 0 8 _)) $$ Hg
  rw [recvPay_ag m c 0 8 (by decide)]
  iintro ⟨Hg, Hpay⟩
  ihave ⟨HL, HR⟩ := (stgRows_halves c 0 _ _).1 $$ Hpay
  iapply (lent_step m c l34 0 1 (by decide) (dev40_eq c) (step_sendAG m K c 36 _ 0 12 (by rfl) (by decide) _ (dev40_eq c)
    _ S176x1024.size (by rfl) (off46_eq c))) $$ [$Hg HL $Hlent]
  · iexact HL
  iintro ⟨Hg, Hlent⟩
  iapply (step_waitRecv m K c 37 (insert (0, 8) w34) 0 9 (by decide) (by rfl) (slab_credit 0 9 _)) $$ Hg
  rw [recvPay_ag m c 0 9 (by decide)]
  iintro ⟨Hg, Hpay⟩
  rw [wp_ret]
  imodintro
  iapply (h _ _)
  unfold St35 stA agState w35 l35 h35
  iexists f₀
  simp (disch := decide) only [bigSep_insert']
  iframe
  isplitl [Hpay]; · iexact Hpay
  iexact HR

theorem round_pay {s : Shape} (h : s.ShapeCasts s) (v : FVec F s .f32) (j : s.Idx) :
    shapeCast s (truncf .bf16 (shapeCast s v h) bitsLt_bf16_f32) h j = FloatOps.truncf .bf16 bf16_lt_f32 (v j) := by
  rw [shapeCast_same, shapeCast_same]; rfl

theorem exec_part27 (K : CellIx → ℕ) (c : Dev nD) (v2 v36 : BitVec 32) (v852 : FVec F S176x1024 .f32)
    {Q : _ → sProp 𝕄}
    (h : ∀ (v866 v875 v884 : BitVec 32), St27 m K c ⊢ Q ⟨v866, v875, v884⟩) :
    Mid m K c v852 ⊢ wp frame (wpE (defs₀ (F := F)) Variants.none (Dev.tc c : Thread nD τ) none) Set.univ
      (k0_part27 xM hxM oM hoM sM hsM rM hrM cc0_scratch2 cc0_scratch3 c v2 v36 v852) Q := by
  rw [k0_part27_eq_skeleton]; unfold k0_part27_skel
  simp only [Prog.lift, Prog.bind_op, Prog.bind_ret, Prog.pure_eq_ret]
  refine (Mid_open m K c v852).trans ?_
  unfold stA agState
  iintro ⟨⟨%f₀, Hg, Hx, Ho, Hraw, Hhold, Hslots, Hlent⟩, %hv⟩
  ihave ⟨Hslot, Hslots⟩ := (Entails.of_eq (bigSep_erase' (s := waitedMid) (i := (0, 6)) (by decide))) $$ Hslots
  iapply (wp_addLast m c 0 (k0_off67 c) ![1056, 0] S176x1024.size (k0_off67_inb c) inb_S3584x1024_S176x1024_1056_0
    (nMid c) (nMid_kept c 0) (off67_eq c) (by rfl) (by rfl) v852 hv (k0_pay37 v852) (fun v j => rfl)) $$ [Hslot $Hx]
  · iexact Hslot
  iintro ⟨Hslot, Hx⟩
  ihave ⟨⟨%fr, Hk2⟩, Hraw⟩ := (Entails.of_eq (bigSep_erase' (Finset.mem_insert_self (0 : Fin 3) _))) $$ Hraw
  iapply (wp_roundKept m c 0 _ S176x1024.size (k0_off67_inb c) (bump (nMid c) 0 (jK2 0 c)) (n27_kept c) fr (off67_eq c) (by rfl)
    k0_pay38 (fun v j => round_pay _ v j)) $$ [$Hx Hk2]
  · iexact Hk2
  iintro ⟨Hx, Hk2⟩
  ihave ⟨HL, HRL, HRR⟩ := (stgRows_thirds c 0 _ _).1 $$ Hk2
  iapply (lent_step m c waitedMid 0 6 (by decide) (dev25_eq c) (step_sendAG m K c 21 _ 0 7 (by rfl) (by decide) _ (dev25_eq c)
    _ S176x1024.size (by rfl) (off76_eq c))) $$ [$Hg HL $Hlent]
  · iexact HL
  iintro ⟨Hg, Hlent⟩
  iapply (lent_step m c (waitedMid.erase (0, 6)) 0 5 (by decide) (dev26_eq c) (step_sendAG m K c 22 _ 0 8 (by rfl) (by decide) _ (dev26_eq c)
    _ S176x1024.size (by rfl) (off76_eq c))) $$ [$Hg HRL $Hlent]
  · iexact HRL
  iintro ⟨Hg, Hlent⟩
  rw [wp_ret]
  imodintro
  iapply (h _ _ _)
  unfold St27 stA agState l27 n27
  iexists f₀
  rw [show (({0, 1, 2} : Finset (Fin 3)).erase 0) = {1, 2} from by decide, bigSep_singleton,
    bigSep_erase' (s := waitedMid) (i := (0, 6)) (by decide)]
  iframe
  iexact HRR

theorem exec_part28 (K : CellIx → ℕ) (c : Dev nD) (v36 v80 v698 v884 : BitVec 32)
    {Q : _ → sProp 𝕄}
    (h : ∀ (v915 : FVec F S176x1024 .bf16), St28 m K c v915 ⊢ Q v915) :
    St27 m K c ⊢ wp frame (wpE (defs₀ (F := F)) Variants.none (Dev.tc c : Thread nD τ) none) Set.univ
      (k0_part28 xM hxM oM hoM sM hsM rM hrM cc0_scratch2 cc0_scratch3 c v36 v80 v698 v884) Q := by
  rw [k0_part28_eq_skeleton]; unfold k0_part28_skel
  simp only [Prog.lift, Prog.bind_op, Prog.bind_ret, Prog.pure_eq_ret]
  unfold St27 stA agState
  rw [bigSep_singleton]
  iintro ⟨%f₀, Hg, Hx, Ho, Hraw, HRR, Hslots, Hlent⟩
  iapply (lent_step m c l27 0 3 (by decide) (dev27_eq c) (step_sendAG m K c 23 _ 0 10 (by rfl) (by decide) _ (dev27_eq c)
    _ S176x1024.size (by rfl) (off76_eq c))) $$ [$Hg HRR $Hlent]
  · iexact HRR
  iintro ⟨Hg, Hlent⟩
  iapply (wp_keep m c 0 _ S176x1024.size (k0_off67_inb c) (n27 c) (n27_kept c) ∅ f₀ (off67_eq c) (by rfl)
    k0_pay39 (fun v j => congrFun (shapeCast_same v _) j)) $$ [$Hx $Ho]
  iintro ⟨Hx, Ho⟩
  iapply (step_waitRecv m K c 24 waitedMid 1 6 (by decide) (by rfl)
    (dst := rsrSl ![2288, 0] S176x1024.size inb_S3584x1024_S176x1024_2288_0 (fun _ => rfl)) (slab_credit 1 6 _)) $$ Hg
  rw [recvPay_rs' m c 1 6 (by decide)]
  iintro ⟨Hg, Hslot, Hpart⟩
  iapply (wp_load 𝒱₀ (Dev.tc c : Thread nD τ) none Set.univ (m := xM) (Finset.subset_univ _)) $$ Hx
  iintro Hx
  iapply (wp_addLast m c 1 (k0_off70 c) ![2288, 0] S176x1024.size (k0_off70_inb c) inb_S3584x1024_S176x1024_2288_0
    (n27 c) (n27_at1 c) (off70_eq c) (by rfl) (by rfl)
    _ (fun j => rfl) (k0_pay40 _) (fun v j => by
      show FloatOps.addf (shapeCast S176x1024 _ shapeCasts_S176x1024_S176x1024 j) _ = _
      rw [shapeCast_same]
      rfl)) $$ [$Hslot $Hx]
  iintro ⟨Hslot, Hx⟩
  iapply (wp_load 𝒱₀ (Dev.tc c : Thread nD τ) none Set.univ (m := xM) (Finset.subset_univ _)) $$ Hx
  iintro Hx
  rw [wp_ret]
  imodintro
  iapply (h _)
  unfold St28 stA agState w28 l28 n28 d28
  isplitl; swap
  · ipureintro
    intro j
    show truncf .bf16 (shapeCast S176x1024 _ shapeCasts_S176x1024_S176x1024) bitsLt_bf16_f32 j = _
    rw [shapeCast_same]
    rfl
  iexists f₀
  simp (disch := decide) only [bigSep_empty, bigSep_insert']
  iframe
  iempintro

theorem exec_part29 (K : CellIx → ℕ) (c : Dev nD) (v2 : BitVec 32) (v915 : FVec F S176x1024 .bf16)
    {Q : _ → sProp 𝕄}
    (h : ∀ (v920 v929 v938 : BitVec 32), St29 m K c ⊢ Q ⟨v920, v929, v938⟩) :
    St28 m K c v915 ⊢ wp frame (wpE (defs₀ (F := F)) Variants.none (Dev.tc c : Thread nD τ) none) Set.univ
      (k0_part29 xM hxM oM hoM sM hsM rM hrM cc0_scratch2 cc0_scratch3 c v2 v915) Q := by
  rw [k0_part29_eq_skeleton]; unfold k0_part29_skel
  simp only [Prog.lift, Prog.bind_op, Prog.bind_ret, Prog.pure_eq_ret]
  unfold St28 stA agState
  iintro ⟨⟨%f₀, Hg, Hx, Ho, Hraw, Hhold, Hslots, Hlent⟩, %hv⟩
  ihave ⟨⟨%fr, Hk2⟩, Hraw⟩ := (Entails.of_eq (bigSep_erase' (Finset.mem_insert_self (1 : Fin 3) _))) $$ Hraw
  ihave Hk2 := (Entails.of_eq (stgRows_def c 1 (oK2 1 c) fullShare fr)) $$ Hk2
  iapply (wp_load 𝒱₀ (Dev.tc c : Thread nD τ) none Set.univ (m := sM)
    (stage_setOn c 1 0 _ S176x1024.size (k0_off70_inb c) (off70_eq c) (by rfl))) $$ [Hk2]
  · iexact Hk2
  iintro Hk2
  iapply (wp_store 𝒱₀ (Dev.tc c : Thread nD τ) none Set.univ (m := sM)
    (stage_store_setOn c 1 _ S176x1024.size (k0_off70_inb c) 0 (off70_eq c) (by rfl))) $$ [Hk2]
  · iexact Hk2
  iintro Hk2
  ihave Hk2 := (Entails.of_eq (pointsTo_congr (ℓ := sL c) (q := fullShare)
    (I := rowsSet (S := S4096x1024) ax (oK2 1 c) (eRows 1))
    (f := (((sM).access (Rect.unit (s := S4096x1024) _ S176x1024.size (k0_off70_inb c))).write (Elt F) fr (k0_pay42 v915) Finset.univ : Buf (Elt F) (sL c)))
    (g := (Stg (X m) 1 (roleJ 1 0 c) : Buf (Elt F) (sL c))) (fun i hi => by
    rw [← unit_set_rows _ S176x1024.size (k0_off70_inb c) (oK2 1 c) (eRows 1) (off70_eq c) (by rfl)] at hi
    obtain ⟨j, rfl⟩ := (Rect.unit (s := S4096x1024) _ S176x1024.size (k0_off70_inb c)).toLoadRect.exists_idx_of_mem hi
    exact (write_whole_emb cc0_scratch0 _ _ _ j).trans ((congrFun (shapeCast_same v915 _) j).trans ((hv j).trans
      ((congrArg (FloatOps.truncf .bf16 bf16_lt_f32) (Xlev_on_kept m c 1 _ S176x1024.size (k0_off70_inb c) (n28 c) (n28_kept1 c) (off70_eq c) (by rfl) j)).trans
        (stage_of_own m c 1 _))))))) $$ [Hk2]
  · iexact Hk2
  ihave Hk2 := (Entails.of_eq (stgRows_def c 1 (oK2 1 c) fullShare (Stg (X m) 1 (roleJ 1 0 c))).symm) $$ [Hk2]
  · iexact Hk2
  ihave ⟨HL, HRL, HRR⟩ := (stgRows_thirds c 1 _ _).1 $$ Hk2
  iapply (lent_step m c l28 1 6 (by decide) (dev28_eq c) (step_sendAG m K c 24 _ 1 7 (by rfl) (by decide) _ (dev28_eq c)
    _ S176x1024.size (by rfl) (off77_eq c))) $$ [$Hg HL $Hlent]
  · iexact HL
  iintro ⟨Hg, Hlent⟩
  iapply (lent_step m c (l28.erase (1, 6)) 1 5 (by decide) (dev29_eq c) (step_sendAG m K c 25 _ 1 8 (by rfl) (by decide) _ (dev29_eq c)
    _ S176x1024.size (by rfl) (off77_eq c))) $$ [$Hg HRL $Hlent]
  · iexact HRL
  iintro ⟨Hg, Hlent⟩
  rw [wp_ret]
  imodintro
  iapply (h _ _ _)
  unfold St29 stA agState l29
  iexists f₀
  rw [show (({1, 2} : Finset (Fin 3)).erase 1) = {2} from by decide]
  simp only [bigSep_singleton]
  iframe
  iexact HRR

theorem exec_part30 (K : CellIx → ℕ) (c : Dev nD) (v2 v80 v124 v745 : BitVec 32)
    {Q : _ → sProp 𝕄}
    (h : ∀ (v974 : BitVec 32), St30 m K c ⊢ Q v974) :
    St29 m K c ⊢ wp frame (wpE (defs₀ (F := F)) Variants.none (Dev.tc c : Thread nD τ) none) Set.univ
      (k0_part30 xM hxM oM hoM sM hsM rM hrM cc0_scratch2 cc0_scratch3 c v2 v80 v124 v745) Q := by
  rw [k0_part30_eq_skeleton]; unfold k0_part30_skel
  simp only [Prog.lift, Prog.bind_op, Prog.bind_ret, Prog.pure_eq_ret]
  unfold St29 stA agState
  simp only [bigSep_singleton]
  iintro ⟨%f₀, Hg, Hx, Ho, ⟨%fr, Hk2⟩, HRR, Hslots, Hlent⟩
  iapply (lent_step m c l29 1 3 (by decide) (dev30_eq c) (step_sendAG m K c 26 _ 1 10 (by rfl) (by decide) _ (dev30_eq c)
    _ S176x1024.size (by rfl) (off77_eq c))) $$ [$Hg HRR $Hlent]
  · iexact HRR
  iintro ⟨Hg, Hlent⟩
  iapply (wp_keep m c 1 _ S176x1024.size (k0_off70_inb c) (n28 c) (n28_kept1 c) d28 f₀ (off70_eq c) (by rfl)
    k0_pay43 (fun v j => congrFun (shapeCast_same v _) j)) $$ [$Hx $Ho]
  iintro ⟨Hx, Ho⟩
  iapply (step_waitRecv m K c 27 w28 2 6 (by decide) (by rfl)
    (dst := rsrSl ![3424, 0] S160x1024.size inb_S3584x1024_S160x1024_3424_0 (fun _ => rfl)) (slab_credit 2 6 _)) $$ Hg
  rw [recvPay_rs' m c 2 6 (by decide)]
  iintro ⟨Hg, Hslot, Hpart⟩
  iapply (wp_load 𝒱₀ (Dev.tc c : Thread nD τ) none Set.univ (m := xM) (Finset.subset_univ _)) $$ Hx
  iintro Hx
  iapply (wp_addLast m c 2 (k0_off73 c) ![3424, 0] S160x1024.size (k0_off73_inb c) inb_S3584x1024_S160x1024_3424_0
    (n28 c) (n28_at2 c) (off73_eq c) (by rfl) (by rfl)
    _ (fun j => rfl) (k0_pay44 _) (fun v j => by
      show FloatOps.addf (shapeCast S160x1024 _ shapeCasts_S160x1024_S160x1024 j) _ = _
      rw [shapeCast_same]
      rfl)) $$ [$Hslot $Hx]
  iintro ⟨Hslot, Hx⟩
  iapply (wp_roundKept m c 2 _ S160x1024.size (k0_off73_inb c) (bump (n28 c) 2 (jK2 2 c)) (n30_kept2 c) fr (off73_eq c) (by rfl)
    k0_pay45 (fun v j => round_pay _ v j)) $$ [$Hx Hk2]
  · iexact Hk2
  iintro ⟨Hx, Hk2⟩
  rw [wp_ret]
  imodintro
  iapply (h _)
  unfold St30 stA agState n30 w30 d30 l30
  iexists f₀
  simp (disch := decide) only [bigSep_empty, bigSep_singleton, bigSep_insert']
  iframe
  isplitr; · iempintro
  iexact Hk2

theorem exec_part31 (K : CellIx → ℕ) (c : Dev nD) (v2 v124 : BitVec 32)
    {Q : _ → sProp 𝕄}
    (h : ∀ (v983 v992 c1 : BitVec 32), St31 m K c ⊢ Q ⟨v983, v992, c1⟩) :
    St30 m K c ⊢ wp frame (wpE (defs₀ (F := F)) Variants.none (Dev.tc c : Thread nD τ) none) Set.univ
      (k0_part31 xM hxM oM hoM sM hsM rM hrM cc0_scratch2 cc0_scratch3 c v2 v124) Q := by
  rw [k0_part31_eq_skeleton]; unfold k0_part31_skel
  simp only [Prog.lift, Prog.bind_op, Prog.bind_ret, Prog.pure_eq_ret]
  unfold St30 stA agState
  rw [bigSep_singleton]
  iintro ⟨%f₀, Hg, Hx, Ho, Hraw, Hk2, Hslots, Hlent⟩
  ihave ⟨HL, HRL, HRR⟩ := (stgRows_thirds c 2 _ _).1 $$ [Hk2]
  · iexact Hk2
  iapply (lent_step m c l30 2 6 (by decide) (dev31_eq c) (step_sendAG m K c 27 _ 2 7 (by rfl) (by decide) _ (dev31_eq c)
    _ S160x1024.size (by rfl) (off78_eq c))) $$ [$Hg HL $Hlent]
  · iexact HL
  iintro ⟨Hg, Hlent⟩
  iapply (lent_step m c (l30.erase (2, 6)) 2 5 (by decide) (dev32_eq c) (step_sendAG m K c 28 _ 2 8 (by rfl) (by decide) _ (dev32_eq c)
    _ S160x1024.size (by rfl) (off78_eq c))) $$ [$Hg HRL $Hlent]
  · iexact HRL
  iintro ⟨Hg, Hlent⟩
  iapply (lent_step m c ((l30.erase (2, 6)).erase (2, 5)) 2 3 (by decide) (dev33_eq c) (step_sendAG m K c 29 _ 2 10 (by rfl) (by decide) _ (dev33_eq c)
    _ S160x1024.size (by rfl) (off78_eq c))) $$ [$Hg HRR $Hlent]
  · iexact HRR
  iintro ⟨Hg, Hlent⟩
  iapply (wp_keep m c 2 _ S160x1024.size (k0_off73_inb c) (n30 c) (n30_kept2 c) d30 f₀ (off73_eq c) (by rfl)
    k0_pay46 (fun v j => congrFun (shapeCast_same v _) j)) $$ [$Hx $Ho]
  iintro ⟨Hx, Ho⟩
  rw [wp_ret]
  imodintro
  iapply (h _ _ _)
  unfold St31 stA agState d31 l31
  iexists f₀
  simp only [bigSep_empty]
  iframe
  iempintro

end Cert.Kernel.RsAg

end
-- ==== Proof.K.Parts36.lean ====
import proofs.«901015_g7700000000001016_dist_rs_then_ag_i_m4096_n1024_v7x_i8_f32_1_alg».proof.Proof.K.Parts27

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ UU ℕ

variable (m : (ℓ : Loc nD τ sig) → Buf (Elt F) ℓ)

theorem exec_part36 (K : CellIx → ℕ) (c : Dev nD) (v2 v34 v68 v78 v929 v1121 : BitVec 32)
    {Q : _ → sProp 𝕄}
    (h : ∀ (v1124 v1148 v1149 c0 : BitVec 32), St36 m K c ⊢ Q ⟨v1124, v1148, v1149, c0⟩) :
    St35 m K c ⊢ wp frame (wpE (defs₀ (F := F)) Variants.none (Dev.tc c : Thread nD τ) none) Set.univ
      (k0_part36 xM hxM oM hoM sM hsM rM hrM cc0_scratch2 cc0_scratch3 c v2 v34 v68 v78 v929 v1121) Q := by
  rw [k0_part36_eq_skeleton]; unfold k0_part36_skel
  simp only [Prog.lift, Prog.bind_op, Prog.bind_ret, Prog.pure_eq_ret]
  unfold St35 stA agState h35
  simp (disch := decide) only [bigSep_insert']
  iintro ⟨%f₀, Hg, Hx, Ho, Hraw, ⟨Ha, HbR, Hhold⟩, Hslots, Hlent⟩
  ihave ⟨HaL, HaR⟩ := (stgRows_halves c 0 _ _).1 $$ [Ha]
  · iexact Ha
  iapply (lent_step m c l35 0 0 (by decide) (dev41_eq c) (step_sendAG m K c 37 _ 0 13 (by rfl) (by decide) _ (dev41_eq c)
    _ S176x1024.size (by rfl) (off34_eq c))) $$ [$Hg HaL $Hlent]
  · iexact HaL
  iintro ⟨Hg, Hlent⟩
  iapply (wp_blockRead m c 0 _ S352x1024.size (k0_off79_inb c) shR (off79_eq c) (by rfl)) $$ [HaR HbR]
  · isplitl [HaR]; · iexact HaR
    iexact HbR
  iintro ⟨HaR, HbR⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 0 _ S352x1024.size (k0_off79_inb c) d34 f₀ (off79_eq c) (by rfl) _ (fun j => block_value m c 0 _ S352x1024.size (k0_off79_inb c) (off79_eq c) (by rfl) j)))) $$ [Ho]
  · iexact Ho
  iapply (step_waitRecv m K c 38 w35 1 8 (by decide) (by rfl) (slab_credit 1 8 _)) $$ Hg
  rw [recvPay_ag m c 1 8 (by decide)]
  iintro ⟨Hg, Hpay⟩
  rw [wp_ret]
  imodintro
  iapply (h _ _ _ _)
  unfold St36 stA agState h36 w36 d36 l36
  iexists f₀
  simp (disch := decide) only [bigSep_insert']
  iframe
  isplitl [Hpay]; · iexact Hpay
  isplitl [HaR]; · iexact HaR
  iexact HbR

theorem exec_part37 (K : CellIx → ℕ) (c : Dev nD) (v2 v68 v78 v1041 v1149 c0_i32_859 : BitVec 32)
    {Q : _ → sProp 𝕄}
    (h : ∀ (v1169 : BitVec 32) (v1180 : FVec F S352x1024 .f32), St37 m K c v1180 ⊢ Q ⟨v1169, v1180⟩) :
    St36 m K c ⊢ wp frame (wpE (defs₀ (F := F)) Variants.none (Dev.tc c : Thread nD τ) none) Set.univ
      (k0_part37 xM hxM oM hoM sM hsM rM hrM cc0_scratch2 cc0_scratch3 c v2 v68 v78 v1041 v1149 c0_i32_859) Q := by
  rw [k0_part37_eq_skeleton]; unfold k0_part37_skel
  simp only [Prog.lift, Prog.bind_op, Prog.bind_ret, Prog.pure_eq_ret]
  unfold St36 stA agState h36
  simp (disch := decide) only [bigSep_insert']
  iintro ⟨%f₀, Hg, Hx, Ho, Hraw, ⟨Hb, Hhold⟩, Hslots, Hlent⟩
  ihave ⟨HbL, HbR⟩ := (stgRows_halves c 1 _ _).1 $$ [Hb]
  · iexact Hb
  iapply (lent_step m c l36 1 1 (by decide) (dev42_eq c) (step_sendAG m K c 38 _ 1 12 (by rfl) (by decide) _ (dev42_eq c)
    _ S176x1024.size (by rfl) (off50_eq c))) $$ [$Hg HbL $Hlent]
  · iexact HbL
  iintro ⟨Hg, Hlent⟩
  iapply (step_waitRecv m K c 39 w36 1 9 (by decide) (by rfl) (slab_credit 1 9 _)) $$ Hg
  rw [recvPay_ag m c 1 9 (by decide)]
  iintro ⟨Hg, Ha⟩
  ihave ⟨HaL, HaR⟩ := (stgRows_halves c 1 _ _).1 $$ Ha
  iapply (lent_step m c (l36.erase (1, 1)) 1 0 (by decide) (dev43_eq c) (step_sendAG m K c 39 _ 1 13 (by rfl) (by decide) _ (dev43_eq c)
    _ S176x1024.size (by rfl) (off38_eq c))) $$ [$Hg HaL $Hlent]
  · iexact HaL
  iintro ⟨Hg, Hlent⟩
  iapply (wp_blockRead m c 1 _ S352x1024.size (k0_off80_inb c) shR (off80_eq c) (by rfl)) $$ [HaR HbR]
  · isplitl [HaR]; · iexact HaR
    iexact HbR
  iintro ⟨HaR, HbR⟩
  rw [wp_ret]
  imodintro
  iapply (h _ _)
  unfold St37 stA agState h37 w37 l37
  isplitl; swap
  · ipureintro
    exact block_value m c 1 _ S352x1024.size (k0_off80_inb c) (off80_eq c) (by rfl)
  iexists f₀
  simp (disch := decide) only [bigSep_insert']
  iframe
  isplitl [HaR]; · iexact HaR
  iexact HbR

theorem exec_part38 (K : CellIx → ℕ) (c : Dev nD) (v2 v112 v122 v983 v1070 : BitVec 32) (v1180 : FVec F S352x1024 .f32)
    {Q : _ → sProp 𝕄}
    (h : ∀ (v1193 v1208 c160 : BitVec 32), St38 m K c ⊢ Q ⟨v1193, v1208, c160⟩) :
    St37 m K c v1180 ⊢ wp frame (wpE (defs₀ (F := F)) Variants.none (Dev.tc c : Thread nD τ) none) Set.univ
      (k0_part38 xM hxM oM hoM sM hsM rM hrM cc0_scratch2 cc0_scratch3 c v2 v112 v122 v983 v1070 v1180) Q := by
  rw [k0_part38_eq_skeleton]; unfold k0_part38_skel
  simp only [Prog.lift, Prog.bind_op, Prog.bind_ret, Prog.pure_eq_ret]
  unfold St37 stA agState
  iintro ⟨⟨%f₀, Hg, Hx, Ho, Hraw, Hhold, Hslots, Hlent⟩, %hv⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 1 _ S352x1024.size (k0_off80_inb c) d36 f₀ (off80_eq c) (by rfl) v1180 hv))) $$ [Ho]
  · iexact Ho
  iapply (step_waitRecv m K c 40 w37 2 8 (by decide) (by rfl) (slab_credit 2 8 _)) $$ Hg
  rw [recvPay_ag m c 2 8 (by decide)]
  iintro ⟨Hg, Hb⟩
  ihave ⟨HbL, HbR⟩ := (stgRows_halves c 2 _ _).1 $$ Hb
  iapply (lent_step m c l37 2 1 (by decide) (dev44_eq c) (step_sendAG m K c 40 _ 2 12 (by rfl) (by decide) _ (dev44_eq c)
    _ S160x1024.size (by rfl) (off54_eq c))) $$ [$Hg HbL $Hlent]
  · iexact HbL
  iintro ⟨Hg, Hlent⟩
  iapply (step_waitRecv m K c 41 (insert (2, 8) w37) 2 9 (by decide) (by rfl) (slab_credit 2 9 _)) $$ Hg
  rw [recvPay_ag m c 2 9 (by decide)]
  iintro ⟨Hg, Ha⟩
  rw [wp_ret]
  imodintro
  iapply (h _ _ _)
  unfold St38 stA agState h38 w38 d38 l38
  iexists f₀
  simp (disch := decide) only [bigSep_insert']
  iframe
  isplitl [Ha]; · iexact Ha
  iexact HbR

theorem exec_part39 (K : CellIx → ℕ) (c : Dev nD) (v2 v21 v24 v29 v112 v122 v884 v1208 c160_i32_913 : BitVec 32)
    {Q : _ → sProp 𝕄}
    (h : ∀ (v1214 : BitVec 32) (v1240 : FVec F S176x1024 .f32), St39 m K c v1240 ⊢ Q ⟨v1214, v1240⟩) :
    St38 m K c ⊢ wp frame (wpE (defs₀ (F := F)) Variants.none (Dev.tc c : Thread nD τ) none) Set.univ
      (k0_part39 xM hxM oM hoM sM hsM rM hrM cc0_scratch2 cc0_scratch3 c v2 v21 v24 v29 v112 v122 v884 v1208 c160_i32_913) Q := by
  rw [k0_part39_eq_skeleton]; unfold k0_part39_skel
  simp only [Prog.lift, Prog.bind_op, Prog.bind_ret, Prog.pure_eq_ret]
  unfold St38 stA agState h38
  simp (disch := decide) only [bigSep_insert']
  iintro ⟨%f₀, Hg, Hx, Ho, Hraw, ⟨Ha, HbR, Hhold⟩, Hslots, Hlent⟩
  ihave ⟨HaL, HaR⟩ := (stgRows_halves c 2 _ _).1 $$ [Ha]
  · iexact Ha
  iapply (lent_step m c l38 2 0 (by decide) (dev45_eq c) (step_sendAG m K c 41 _ 2 13 (by rfl) (by decide) _ (dev45_eq c)
    _ S160x1024.size (by rfl) (off42_eq c))) $$ [$Hg HaL $Hlent]
  · iexact HaL
  iintro ⟨Hg, Hlent⟩
  iapply (wp_blockRead m c 2 _ S320x1024.size (k0_off81_inb c) shR (off81_eq c) (by rfl)) $$ [HaR HbR]
  · isplitl [HaR]; · iexact HaR
    iexact HbR
  iintro ⟨HaR, HbR⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_block m c 2 _ S320x1024.size (k0_off81_inb c) d38 f₀ (off81_eq c) (by rfl) _ (fun j => block_value m c 2 _ S320x1024.size (k0_off81_inb c) (off81_eq c) (by rfl) j)))) $$ [Ho]
  · iexact Ho
  iapply (step_waitRecv m K c 42 w38 0 10 (by decide) (by rfl) (slab_credit 0 10 _)) $$ Hg
  rw [recvPay_ag m c 0 10 (by decide)]
  iintro ⟨Hg, Hlb⟩
  ihave Hlb := (Entails.of_eq (stgRows_def c 0 _ fullShare _)) $$ Hlb
  iapply (wp_load 𝒱₀ (Dev.tc c : Thread nD τ) none Set.univ (m := sM)
    (stage_setOn c 0 7 _ S176x1024.size (k0_off82_inb c) (off82_eq c) (by rfl))) $$ [Hlb]
  · iexact Hlb
  iintro Hlb
  ihave Hlb := (Entails.of_eq (stgRows_def c 0 (landRow 0 c 10) fullShare (Stg (X m) 0 (landJ 0 c 10))).symm) $$ [Hlb]
  · iexact Hlb
  rw [wp_ret]
  imodintro
  iapply (h _ _)
  unfold St39 stA agState h39 w39 d39
  isplitl; swap
  · ipureintro
    exact out_of_stage m c 0 7 (roleJ_ne_jK2 0 7 c (by decide)) _ S176x1024.size (k0_off82_inb c) (off82_eq c) (by rfl)
  iexists f₀
  simp (disch := decide) only [bigSep_insert']
  rw [← l38_erase]
  iframe
  isplitl [Hlb]; · iexact Hlb
  isplitl [HaR]; · iexact HaR
  iexact HbR

theorem exec_part40 (K : CellIx → ℕ) (c : Dev nD) (v21 v24 v29 v62 v68 v73 v938 v1021 : BitVec 32) (v1240 : FVec F S176x1024 .f32)
    {Q : _ → sProp 𝕄}
    (h : ∀ (v1271 : FVec F S176x1024 .f32), Cut40 m K c v1271 ⊢ Q v1271) :
    St39 m K c v1240 ⊢ wp frame (wpE (defs₀ (F := F)) Variants.none (Dev.tc c : Thread nD τ) none) Set.univ
      (k0_part40 xM hxM oM hoM sM hsM rM hrM cc0_scratch2 cc0_scratch3 c v21 v24 v29 v62 v68 v73 v938 v1021 v1240) Q := by
  rw [k0_part40_eq_skeleton]; unfold k0_part40_skel
  simp only [Prog.lift, Prog.bind_op, Prog.bind_ret, Prog.pure_eq_ret]
  unfold St39 stA agState
  iintro ⟨⟨%f₀, Hg, Hx, Ho, Hraw, Hhold, Hslots, Hlent⟩, %hv⟩
  iapply (wp_load 𝒱₀ (Dev.tc c : Thread nD τ) none Set.univ (m := oM) (Finset.subset_univ _)) $$ Ho
  iintro Ho
  iapply (wp_store 𝒱₀ (Dev.tc c : Thread nD τ) none Set.univ (m := oM) (Finset.subset_univ _)) $$ [Ho]
  · iexact Ho
  iintro Ho
  ihave Ho := (Entails.of_eq (congrArg (fun g => (oL c ↦{fullShare} g : sProp 𝕄))
    (out_store_slab m c d39 f₀ 0 7 _ S176x1024.size (k0_off82_inb c) (off82_eq c) (by rfl) v1240 hv))) $$ [Ho]
  · iexact Ho
  iapply (step_waitRecv m K c 42 w39 0 11 (by decide) (by rfl) (slab_credit 0 11 _)) $$ Hg
  rw [recvPay_ag m c 0 11 (by decide)]
  iintro ⟨Hg, Hla⟩
  iapply (wp_settle m c 0 6 _ S176x1024.size (k0_off83_inb c) (by decide) fullShare (insert (0, 7) d39) f₀
    (off83_eq c) (by rfl) k0_pay54 (fun v j => rfl)) $$ [Hla $Ho]
  · iexact Hla
  iintro ⟨Hla, Ho⟩
  iapply (step_waitRecv m K c 42 (insert (0, 11) w39) 1 10 (by decide) (by rfl) (slab_credit 1 10 _)) $$ Hg
  rw [recvPay_ag m c 1 10 (by decide)]
  iintro ⟨Hg, Hlb⟩
  ihave Hlb := (Entails.of_eq (stgRows_def c 1 _ fullShare _)) $$ Hlb
  iapply (wp_load 𝒱₀ (Dev.tc c : Thread nD τ) none Set.univ (m := sM)
    (stage_setOn c 1 7 _ S176x1024.size (k0_off84_inb c) (off84_eq c) (by rfl))) $$ [Hlb]
  · iexact Hlb
  iintro Hlb
  ihave Hlb := (Entails.of_eq (stgRows_def c 1 (landRow 1 c 10) fullShare (Stg (X m) 1 (landJ 1 c 10))).symm) $$ [Hlb]
  · iexact Hlb
  rw [wp_ret]
  imodintro
  iapply (h _)
  unfold Cut40 agState
  isplitl; swap
  · ipureintro
    exact fun j => rfl
  iexists f₀
  rw [← w40_eq, ← h40_eq, ← w30_slots, show Xlev (X m) c (nFin c) = Xlev (X m) c (n30 c) from by
      funext i; unfold Xlev; rw [n30_eq],
    OutAt_congr (X m) c (done40 c) (doneOf d40 c) f₀ (fun p j hj => (d40_iff c p ⟨j, hj⟩).symm)]
  unfold w40 d40
  simp (disch := decide) only [bigSep_insert']
  iframe
  isplitl [Hlb]; · iexact Hlb
  iexact Hla

end Cert.Kernel.RsAg

end
-- ==== Proof.K.EndD.lean ====
import proofs.«901015_g7700000000001016_dist_rs_then_ag_i_m4096_n1024_v7x_i8_f32_1_alg».proof.Proof.K.Cut40
import proofs.«901015_g7700000000001016_dist_rs_then_ag_i_m4096_n1024_v7x_i8_f32_1_alg».proof.Proof.K.Steps
import proofs.«901015_g7700000000001016_dist_rs_then_ag_i_m4096_n1024_v7x_i8_f32_1_alg».proof.Proof.K.Basics
import proofs.«901015_g7700000000001016_dist_rs_then_ag_i_m4096_n1024_v7x_i8_f32_1_alg».proof.Proof.K.Tiles
import proofs.«901015_g7700000000001016_dist_rs_then_ag_i_m4096_n1024_v7x_i8_f32_1_alg».proof.Proof.K.Open

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev holdΦ (c : Dev nD) (t : Fin 3 × Fin 8 × Fin 5) : sProp 𝕄 :=
  stgRows c t.1 (roleRow t.1 t.2.1 c) (shOf t.2.2) (Stg (X m) t.1 (roleJ t.1 t.2.1 c))

abbrev slotΦ (c : Dev nD) (pi : Fin 3 × Fin 14) : sProp 𝕄 :=
  rsrRows c pi.1 (slot pi.1 c pi.2) (reRow (srcRow pi.1 c pi.2) (slot pi.1 c pi.2) (sent m pi.1 (peer pi.1 (stp pi.2) c) pi.2))

/-- The two spellings of the separating conjunction agree. -/
theorem sep_eq (P Q : sProp 𝕄) : BI.sep P Q = iprop(P ∗ Q) := rfl

theorem sendPay_7_hold (c : Dev nD) (p : Fin 3) : sendPay m c p 7 = holdΦ m c (p, 0, 1) := rfl
theorem sendPay_8_hold (c : Dev nD) (p : Fin 3) : sendPay m c p 8 = holdΦ m c (p, 0, 3) := rfl
theorem sendPay_9_hold (c : Dev nD) (p : Fin 3) : sendPay m c p 9 = holdΦ m c (p, 1, 1) := rfl
theorem sendPay_10_hold (c : Dev nD) (p : Fin 3) : sendPay m c p 10 = holdΦ m c (p, 0, 4) := rfl
theorem sendPay_11_hold (c : Dev nD) (p : Fin 3) : sendPay m c p 11 = holdΦ m c (p, 1, 3) := rfl
theorem sendPay_12_hold (c : Dev nD) (p : Fin 3) : sendPay m c p 12 = holdΦ m c (p, 3, 1) := rfl
theorem sendPay_13_hold (c : Dev nD) (p : Fin 3) : sendPay m c p 13 = holdΦ m c (p, 2, 1) := rfl

def endSt (K : CellIx → ℕ) (c : Dev nD) (n : Nat) : sProp 𝕄 :=
  iprop(ghostEnd m K c (swN n)
    ∗ (bigSep (swN n) fun pi => sendPay m c pi.1 pi.2)
    ∗ (xL c ↦{fullShare} Xlev (X m) c (nFin c))
    ∗ (oL c ↦{fullShare} Out (X m) c)
    ∗ (bigSep holdEnd fun t => holdΦ m c t)
    ∗ (bigSep slotsAll fun pi => slotΦ m c pi))

variable {m} in
/-- Wait `14 p + i` on a send cell, beside anything: the copies go part by part, copy by copy. -/
theorem end_wait {K : CellIx → ℕ} {c : Dev nD} (p : Fin 3) (i : Fin 14) {R : sProp 𝕄}
    {sp sp' : Space} {s' : Shape} {e' : EltTy} {src : Memref sig .tc sp' s' e'} {dst : Memref sig .tc sp ⟨2, ![eRows p, 1024]⟩ .bf16}
    {hsrc : src.view.WordExact} {hdst : dst.view.WordExact}
    {α : Type} {Q : α → sProp 𝕄} {k : PUnit → Prog (TpuEff nD τ sig (Elt F) Λ₀ .tc) α}
    (h : iprop(endSt m K c (14 * p.val + i.val + 1) ∗ R) ⊢ wpc c (k ⟨⟩) Q) :
    iprop(endSt m K c (14 * p.val + i.val) ∗ R) ⊢ wpc c (.op (.waitDma2 (sSem p i) src dst hsrc hdst) k) Q := by
  unfold endSt at h ⊢
  rw [swN_succ rfl, bigSep_insert (not_mem_swN rfl), sep_eq] at h
  iintro ⟨⟨Hg, Hpay, H⟩, HR⟩
  iapply (step_waitSend m K c _ p i (not_mem_swN rfl) (slab_credit p i _)) $$ Hg
  iintro ⟨Hg, Hp⟩
  iapply h
  iframe

/-- A program that has ended, against a continuation given as a wand. -/
theorem ret_wand {c : Dev nD} {α : Type} {P : sProp 𝕄} {Post Q : α → sProp 𝕄} (r : α) (h : P ⊢ Post r) :
    iprop(P ∗ ∀ r, Post r -∗ Q r) ⊢ wpc c (.ret r) Q := by
  iintro ⟨H, HQ⟩
  iapply (le_wp_ret _ _)
  iapply HQ
  iapply h $$ H

section Home

variable (c : Dev nD) (p : Fin 3)

theorem slab_thirds (r : Fin 8) :
    iprop(holdΦ m c (p, r, 1) ∗ holdΦ m c (p, r, 3) ∗ holdΦ m c (p, r, 4)) ⊢ holdΦ m c (p, r, 0) :=
  pointsTo_thirds_join (Ix := Unit) (Val := Elt F) (Name := ℕ) (U := UU) (Lvl := ℕ)

theorem slab_halves (r : Fin 8) :
    iprop(holdΦ m c (p, r, 1) ∗ holdΦ m c (p, r, 2)) ⊢ holdΦ m c (p, r, 0) :=
  pointsTo_halves_join (Ix := Unit) (Val := Elt F) (Name := ℕ) (U := UU) (Lvl := ℕ)

theorem part_home :
    iprop((holdΦ m c (p, 1, 4) ∗ holdΦ m c (p, 2, 2) ∗ holdΦ m c (p, 3, 2)
          ∗ holdΦ m c (p, 4, 0) ∗ holdΦ m c (p, 5, 0) ∗ holdΦ m c (p, 6, 0) ∗ holdΦ m c (p, 7, 0))
        ∗ bigSep Finset.univ fun i : Fin 14 => sendPay m c p i)
      ⊢ bigSep Finset.univ fun r : Fin 8 => holdΦ m c (p, r, 0) := by
  rw [bigSep_univ_eq_bigSepL ([0, 1, 2, 3, 4, 5, 6, 7] : List (Fin 8)) (by decide) (by decide),
    bigSep_univ_eq_bigSepL ([0, 1, 2, 3, 4, 5, 6, 7, 8, 9, 10, 11, 12, 13] : List (Fin 14)) (by decide) (by decide)]
  simp only [bigSepL_cons_cons, bigSepL_singleton, sep_eq]
  rw [sendPay_7_hold, sendPay_8_hold, sendPay_9_hold, sendPay_10_hold, sendPay_11_hold, sendPay_12_hold, sendPay_13_hold]
  iintro ⟨⟨H14, H22, H32, H⟩, -, -, -, -, -, -, -, S7, S8, S9, S10, S11, S12, S13⟩
  isplitl [S7 S8 S10]; · iapply (slab_thirds m c p 0); iframe
  isplitl [S9 S11 H14]; · iapply (slab_thirds m c p 1); iframe
  isplitl [S13 H22]; · iapply (slab_halves m c p 2); iframe
  isplitl [S12 H32]; · iapply (slab_halves m c p 3); iframe
  iexact H

end Home

theorem stage_home (c : Dev nD) :
    iprop((bigSep holdEnd fun t => holdΦ m c t) ∗ (bigSep Finset.univ fun pi : Fin 3 × Fin 14 => sendPay m c pi.1 pi.2))
      ⊢ (iprop(∃ f, sL c ↦{fullShare} f) : sProp 𝕄) := by
  refine .trans ?_ (Tiles.stg_whole c fun pr => Stg (X m) pr.1 (roleJ pr.1 pr.2 c))
  rw [bigSep_eq_bigSepL_of_eq
    ([(0, 1, 4), (0, 2, 2), (0, 3, 2), (0, 4, 0), (0, 5, 0), (0, 6, 0), (0, 7, 0),
      (1, 1, 4), (1, 2, 2), (1, 3, 2), (1, 4, 0), (1, 5, 0), (1, 6, 0), (1, 7, 0),
      (2, 1, 4), (2, 2, 2), (2, 3, 2), (2, 4, 0), (2, 5, 0), (2, 6, 0), (2, 7, 0)] : List (Fin 3 × Fin 8 × Fin 5)) (by decide) (by decide)]
  simp only [bigSep_univ_prod, bigSep_univ_eq_bigSepL ([0, 1, 2] : List (Fin 3)) (by decide) (by decide), bigSepL_cons_cons, bigSepL_singleton, sep_eq]
  iintro ⟨⟨A1, A2, A3, A4, A5, A6, A7, B1, B2, B3, B4, B5, B6, B7, C⟩, S0, S1, S2⟩
  isplitl [A1 A2 A3 A4 A5 A6 A7 S0]; · iapply (part_home m c 0); iframe
  isplitl [B1 B2 B3 B4 B5 B6 B7 S1]; · iapply (part_home m c 1); iframe
  iapply (part_home m c 2); iframe

theorem slots_home (c : Dev nD) :
    (bigSep slotsAll fun pi => slotΦ m c pi) ⊢ (iprop(∃ f, rL c ↦{fullShare} f) : sProp 𝕄) :=
  Tiles.rsr_whole c fun pi => reRow (srcRow pi.1 c pi.2) (slot pi.1 c pi.2) (sent m pi.1 (peer pi.1 (stp pi.2) c) pi.2)

theorem Xlev_nFin_eq (c : Dev nD) : Xlev (X m) c (nFin c) = XFin m c := Xlev_nFin_fun (X m) c

theorem end_close (K : CellIx → ℕ) (c : Dev nD) :
    endSt m K c 42 ⊢ (iprop(|={Set.univ}=> bodyPost m ρ c) : sProp 𝕄) := by
  unfold endSt
  rw [swN_all, Xlev_nFin_eq]
  iintro ⟨Hg, Hpay, Hx, Ho, Hh, Hs⟩
  imod (close_all m K c) $$ Hg with ⟨Hsem, HO⟩
  imodintro
  iapply (bodyPost_intro m ρ c)
  unfold Φ₁ scratch
  iframe Hsem HO Hx Ho
  isplitl [Hh Hpay]
  · iapply (stage_home m c); iframe
  iapply (slots_home m c) $$ Hs

end Cert.Kernel.RsAg

end
-- ==== Proof.K.BodyD.lean ====
import proofs.«901015_g7700000000001016_dist_rs_then_ag_i_m4096_n1024_v7x_i8_f32_1_alg».proof.Proof.K.Cut40
import proofs.«901015_g7700000000001016_dist_rs_then_ag_i_m4096_n1024_v7x_i8_f32_1_alg».proof.Proof.K.Steps
import proofs.«901015_g7700000000001016_dist_rs_then_ag_i_m4096_n1024_v7x_i8_f32_1_alg».proof.Proof.K.Slabs
import proofs.«901015_g7700000000001016_dist_rs_then_ag_i_m4096_n1024_v7x_i8_f32_1_alg».proof.Proof.K.EndD

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem mem_rows_slab (p : Fin 3) (j : Nat) (i : W.Idx) :
    i ∈ rowsSet (S := S4096x1024) ⟨0, by decide⟩ (slab p j) (eRows p) ↔ inSlab p j (i 0).val := by
  rw [mem_rowsSet]; rfl

section Local

variable (c : Dev nD)

theorem stg_load (p : Fin 3) (o : Nat) (q : PosShare TreeShare) (f : FVec F W .bf16)
    (off sz : Fin 2 → Nat) (hoff : off = ![o, 0]) (hsz : sz = ![eRows p, 1024])
    {inb : ∀ a, off a + sz a ≤ S4096x1024.size a}
    {hl : (sM).view.LoadsAt (Rect.unit (s := S4096x1024) off sz inb).toLoadRect}
    {α : Type} {Q : α → sProp 𝕄} {k : Vec F ⟨2, sz⟩ .bf16 → Prog (TpuEff nD τ sig (Elt F) Λ₀ .tc) α} :
    stgRows c p o q f ⊢ iprop((stgRows c p o q f -∗ wpc c (k fun jj => f ((Rect.unit (s := S4096x1024) off sz inb).emb jj)) Q)
      -∗ wpc c (.op (.load sM (Rect.unit (s := S4096x1024) off sz inb).toLoadRect hl) k) Q) := by
  subst hoff hsz
  unfold stgRows
  exact wp_load Variants.none (Dev.tc c : Thread nD τ) none Set.univ (m := sM) (S := rowsSet (S := S4096x1024) ⟨0, by decide⟩ o (eRows p))
    fun i hi => (congrArg (i ∈ ·) (rows4096_set inb)).mp ((congrArg (i ∈ ·) (setOn_whole cc0_scratch0 _)).mp hi)

theorem out_store_core (p : Fin 3) (j : Nat) (hj : j < 8) (hne : j ≠ jK2 p c)
    (done : Fin 3 → Nat → Prop) [∀ p j, Decidable (done p j)] (f₀ : FVec F W .f32)
    (off sz : Fin 2 → Nat) (hoff : off = ![slab p j, 0]) (hsz : sz = ![eRows p, 1024])
    {inb : ∀ a, off a + sz a ≤ S4096x1024.size a}
    {hx : ((oM).access (Rect.unit (s := S4096x1024) off sz inb)).Stores Finset.univ}
    {hm : (Finset.univ : Finset (Rect.unit (s := S4096x1024) off sz inb).shape.Idx) = Finset.univ
      ∨ ∀ a, (Rect.unit (s := S4096x1024) off sz inb).stride a = 1}
    (w : FVec F ⟨2, sz⟩ .f32)
    (hw : ∀ jj, w jj = rcv (Stg (X m) p j) ((Rect.unit (s := S4096x1024) off sz inb).emb jj))
    {α : Type} {Q : α → sProp 𝕄} {k : PUnit → Prog (TpuEff nD τ sig (Elt F) Λ₀ .tc) α} :
    (oL c ↦{fullShare} OutAt (X m) c done f₀ : sProp 𝕄)
      ⊢ iprop(((oL c ↦{fullShare} OutAt (X m) c (doneAdd done p j) f₀) -∗ wpc c (k ⟨⟩) Q)
          -∗ wpc c (.op (.store oM (Rect.unit (s := S4096x1024) off sz inb) w Finset.univ hx hm) k) Q) := by
  subst hoff hsz
  have hG : ((oM).access (Rect.unit (s := S4096x1024) ![slab p j, 0] ![eRows p, 1024] inb)).write
      (Elt F) (OutAt (X m) c done f₀) w Finset.univ = OutAt (X m) c (doneAdd done p j) f₀ := by
    refine OutAt_store (X m) c done f₀ hj (rcv (Stg (X m) p j)) _ (fun i hi => Out_on_other (X m) c i hj hne hi)
      (fun i hi => ?_) (fun i hi => ?_)
    · have hi' : i ∈ (Rect.unit (s := S4096x1024) ![slab p j, 0] ![eRows p, 1024] inb).set := by
        rw [rows4096_set]; exact (mem_rows_slab p j i).mpr hi
      obtain ⟨jj, rfl⟩ := (Rect.unit (s := S4096x1024) ![slab p j, 0] ![eRows p, 1024] inb).exists_idx_of_mem hi'
      exact (write_whole_emb (Val := Elt F) cc0_stg1_0 (Rect.unit (s := S4096x1024) ![slab p j, 0] ![eRows p, 1024] inb) (OutAt (X m) c done f₀) w jj).trans (hw jj)
    · refine write_whole_of_not_mem (Val := Elt F) cc0_stg1_0 (Rect.unit (s := S4096x1024) ![slab p j, 0] ![eRows p, 1024] inb) (OutAt (X m) c done f₀) w (fun hi' => hi ?_)
      rw [rows4096_set] at hi'; exact (mem_rows_slab p j i).mp hi'
  have h := wp_store (Ix := Unit) (Name := ℕ) (U := UU) (Lvl := ℕ) (defs := defs₀ (F := F)) (Γ := PendingWaitsCtx.empty) (Q := Q) (k := k) Variants.none (Dev.tc c : Thread nD τ) none Set.univ (m := oM)
    (r := Rect.unit (s := S4096x1024) ![slab p j, 0] ![eRows p, 1024] inb) (w := w) (Mk := Finset.univ) (hx := hx) (hm := hm)
    (S := Finset.univ) (f := OutAt (X m) c done f₀) (Finset.subset_univ _)
  rw [hG] at h
  exact h

end Local

def gSt (K : CellIx → ℕ) (c : Dev nD) (waited : Finset (Fin 3 × Fin 14)) (done : Fin 3 → Nat → Prop)
    [∀ p j, Decidable (done p j)] (hold : Finset (Fin 3 × Fin 8 × Fin 5)) : sProp 𝕄 :=
  iprop(∃ f₀, agState m K c (nFin c) 42 waited done f₀ ∅ hold slotsAll ∅)

section Steps

variable {m} {K : CellIx → ℕ} {c : Dev nD} {waited : Finset (Fin 3 × Fin 14)} {done : Fin 3 → Nat → Prop}
  [∀ p j, Decidable (done p j)] {hold : Finset (Fin 3 × Fin 8 × Fin 5)}

theorem pure_l {φ : Prop} {P R G : sProp 𝕄} (h : φ → iprop(P ∗ R) ⊢ G) : iprop((P ∗ ⌜φ⌝) ∗ R) ⊢ G := by
  iintro ⟨⟨H, %hφ⟩, HR⟩
  iapply (h hφ)
  iframe

theorem pure_r {φ : Prop} {P : sProp 𝕄} (hφ : φ) : P ⊢ iprop(P ∗ ⌜φ⌝) := by
  iintro H
  iframe
  ipureintro
  exact hφ

/-- The wait for landing `i` of part `p`: what landed stays beside the state. -/
theorem g_wait (p : Fin 3) (i : Fin 14) {R : sProp 𝕄} {α : Type} {Q : α → sProp 𝕄}
    {sp sp' : Space} {s' : Shape} {e' : EltTy} {src : Memref sig .tc sp' s' e'} {dst : Memref sig .tc sp ⟨2, ![eRows p, 1024]⟩ .bf16}
    {hsrc : src.view.WordExact} {hdst : dst.view.WordExact} {k : PUnit → Prog (TpuEff nD τ sig (Elt F) Λ₀ .tc) α}
    (h : iprop((gSt m K c (insert (p, i) waited) done hold ∗ recvPay m c p i) ∗ R) ⊢ wpc c (k ⟨⟩) Q)
    (hw : (p, i) ∉ waited := by decide) (hns : 42 = nBefore p i := by decide) :
    iprop(gSt m K c waited done hold ∗ R) ⊢ wpc c (.op (.waitDma2 (rSem p i) src dst hsrc hdst) k) Q := by
  unfold gSt agState at h ⊢
  iintro ⟨⟨%f₀, Hg, H⟩, HR⟩
  iapply (step_waitRecv m K c 42 waited p i hw hns (slab_credit p i _)) $$ Hg
  iintro ⟨Hg, Hp⟩
  iapply h
  iframe HR Hp
  iexists f₀
  iframe

/-- The load of slab `t` just landed: it joins the slabs in hand. -/
theorem g_stg (t : Fin 3 × Fin 8 × Fin 5) {off sz : Fin 2 → Nat} (hoff : off = ![roleRow t.1 t.2.1 c, 0]) (hsz : sz = ![eRows t.1, 1024])
    {inb : ∀ a, off a + sz a ≤ S4096x1024.size a} {hl : (sM).view.LoadsAt (Rect.unit (s := S4096x1024) off sz inb).toLoadRect}
    {R : sProp 𝕄} {α : Type} {Q : α → sProp 𝕄} {k : Vec F ⟨2, sz⟩ .bf16 → Prog (TpuEff nD τ sig (Elt F) Λ₀ .tc) α}
    (h : iprop(gSt m K c waited done (insert t hold) ∗ R)
      ⊢ wpc c (k fun jj => Stg (X m) t.1 (roleJ t.1 t.2.1 c) ((Rect.unit (s := S4096x1024) off sz inb).emb jj)) Q)
    (ht : t ∉ hold := by decide) :
    iprop((gSt m K c waited done hold ∗ holdΦ m c t) ∗ R)
      ⊢ wpc c (.op (.load sM (Rect.unit (s := S4096x1024) off sz inb).toLoadRect hl) k) Q := by
  unfold gSt agState at h ⊢
  rw [bigSep_insert ht, sep_eq] at h
  iintro ⟨⟨⟨%f₀, Hg, Hx, Ho, Hr, Hh, H⟩, Ht⟩, HR⟩
  iapply (stg_load c t.1 _ _ _ off sz hoff hsz) $$ Ht
  iintro Ht
  iapply h
  iframe HR
  iexists f₀
  iframe

/-- The store of slab `t`'s total, widened, into the result (after the load the program makes of the same place). -/
theorem g_out (t : Fin 3 × Fin 8 × Fin 5) {off sz : Fin 2 → Nat} (hoff : off = ![slab t.1 (roleJ t.1 t.2.1 c), 0])
    (hsz : sz = ![eRows t.1, 1024]) {inb : ∀ a, off a + sz a ≤ S4096x1024.size a} {w : FVec F ⟨2, sz⟩ .f32}
    (hw : ∀ jj, w jj = rcv (Stg (X m) t.1 (roleJ t.1 t.2.1 c)) ((Rect.unit (s := S4096x1024) off sz inb).emb jj))
    {hl : (oM).view.LoadsAt (Rect.unit (s := S4096x1024) off sz inb).toLoadRect}
    {hx : ((oM).access (Rect.unit (s := S4096x1024) off sz inb)).Stores Finset.univ}
    {hm : (Finset.univ : Finset (Rect.unit (s := S4096x1024) off sz inb).shape.Idx) = Finset.univ
      ∨ ∀ a, (Rect.unit (s := S4096x1024) off sz inb).stride a = 1}
    {R : sProp 𝕄} {α : Type} {Q : α → sProp 𝕄} {k : PUnit → Prog (TpuEff nD τ sig (Elt F) Λ₀ .tc) α}
    (h : iprop(gSt m K c waited (doneAdd done t.1 (roleJ t.1 t.2.1 c)) hold ∗ R) ⊢ wpc c (k ⟨⟩) Q)
    (hr : t.2.1 ≠ 0 := by decide) :
    iprop(gSt m K c waited done hold ∗ R)
      ⊢ wpc c (.op (.load oM (Rect.unit (s := S4096x1024) off sz inb).toLoadRect hl) fun _ =>
          .op (.store oM (Rect.unit (s := S4096x1024) off sz inb) w Finset.univ hx hm) k) Q := by
  unfold gSt agState at h ⊢
  iintro ⟨⟨%f₀, Hg, Hx, Ho, H⟩, HR⟩
  iapply (wp_load Variants.none (Dev.tc c : Thread nD τ) none Set.univ (m := oM) (Finset.subset_univ _)) $$ Ho
  iintro Ho
  iapply (out_store_core m c t.1 _ (roleJ_lt _ _ _) (roleJ_ne_jK2 _ _ _ hr) done f₀ off sz hoff hsz w hw) $$ Ho
  iintro Ho
  iapply h
  iframe HR
  iexists f₀
  iframe

/-- Every landing waited for and every slab written: the state the waits on the send cells start from. -/
theorem g_end {R G : sProp 𝕄} (hd : ∀ p j, j < 8 → done p j) (h : iprop(endSt m K c 0 ∗ R) ⊢ G)
    (hw : waited = Finset.univ := by decide) (hh : hold = holdEnd := by decide) :
    iprop(gSt m K c waited done hold ∗ R) ⊢ G := by
  subst hw hh
  unfold gSt agState
  iintro ⟨⟨%f₀, Hg, Hx, Ho, -, Hh, Hs, -⟩, HR⟩
  rw [OutAt_of_all (X m) c done f₀ hd]
  iapply h
  unfold endSt
  rw [swN_zero, bigSep_empty]
  ihave Hg := (ghostEnd_of_ghostAt m K c) $$ Hg
  iframe
  iempintro

end Steps

def St41 (K : CellIx → ℕ) (c : Dev nD) (r : FVec F S160x1024 .f32) : sProp 𝕄 :=
  iprop(gSt m K c gw2 (gd2 c) gh2
    ∗ ⌜∀ j, r j = rcv (Stg (X m) 2 (jLb 2 c))
        ((Rect.unit (s := S4096x1024) (k0_off86 c) S160x1024.size (k0_off86_inb c)).emb j)⌝)

def St42 (K : CellIx → ℕ) (c : Dev nD) (r : Σ' (_ : BitVec 32), Vec F S176x1024 .bf16) : sProp 𝕄 :=
  iprop(gSt m K c gw4 (gd4 c) gh4
    ∗ ⌜∀ j, r.2 j = Stg (X m) 0 (jFb 0 c)
        ((Rect.unit (s := S4096x1024) (k0_off88 c) S176x1024.size (k0_off88_inb c)).emb j)⌝)

def St43 (K : CellIx → ℕ) (c : Dev nD) : sProp 𝕄 :=
  iprop(gSt m K c gw6 (gd6 c) gh5 ∗ recvPay m c 1 12)

def St44 (K : CellIx → ℕ) (c : Dev nD) : sProp 𝕄 :=
  iprop(gSt m K c gw8 (gd8 c) gh7 ∗ recvPay m c 2 12)

theorem exec_part41 (K : CellIx → ℕ) (c : Dev nD) (v62 v68 v73 v109 v112 v117 v992 v1050 : BitVec 32)
    (v1271 : FVec F S176x1024 .f32) (Q : FVec F S160x1024 .f32 → sProp 𝕄) :
    iprop(Cut40 m K c v1271 ∗ (∀ r, St41 m K c r -∗ Q r))
      ⊢ wp frame (wpE (defs₀ (F := F)) 𝒱₀ (Dev.tc c : Thread nD τ) none) Set.univ (k0_part41 (F := F) xM hxM oM hoM sM hsM rM hrM cc0_scratch2 cc0_scratch3 c v62 v68 v73 v109 v112 v117 v992 v1050 v1271) Q := by
  rw [k0_part41_eq_skeleton]
  unfold k0_part41_skel Cut40
  exact pure_l fun hv => g_out (1, 7, 0) (off84_eq c) rfl hv <| g_wait 1 11 <| g_stg (1, 6, 0) (off85_eq c) rfl <|
    g_out (1, 6, 0) (off85_eq c) rfl (fun _ => rfl) <| g_wait 2 10 <| g_stg (2, 7, 0) (off86_eq c) rfl <|
    ret_wand _ (pure_r fun _ => rfl)

theorem exec_part42 (K : CellIx → ℕ) (c : Dev nD) (v21 v24 v29 v109 v112 v117 v1079 v1103 : BitVec 32)
    (v1302 : FVec F S160x1024 .f32) (Q : (Σ' (_ : BitVec 32), Vec F S176x1024 .bf16) → sProp 𝕄) :
    iprop(St41 m K c v1302 ∗ (∀ r, St42 m K c r -∗ Q r))
      ⊢ wp frame (wpE (defs₀ (F := F)) 𝒱₀ (Dev.tc c : Thread nD τ) none) Set.univ (k0_part42 (F := F) xM hxM oM hoM sM hsM rM hrM cc0_scratch2 cc0_scratch3 c v21 v24 v29 v109 v112 v117 v1079 v1103 v1302) Q := by
  rw [k0_part42_eq_skeleton]
  unfold k0_part42_skel St41
  exact pure_l fun hv => g_out (2, 7, 0) (off86_eq c) rfl hv <| g_wait 2 11 <| g_stg (2, 6, 0) (off87_eq c) rfl <|
    g_out (2, 6, 0) (off87_eq c) rfl (fun _ => rfl) <| g_wait 0 12 <| g_stg (0, 5, 0) (off88_eq c) rfl <|
    ret_wand _ (pure_r fun _ => rfl)

theorem exec_part43 (K : CellIx → ℕ) (c : Dev nD) (v21 v24 v29 v62 v68 v73 v1124 v1148 v1331 : BitVec 32)
    (v1333 : Vec F S176x1024 .bf16) (Q : (Σ' (_ : BitVec 32), BitVec 32) → sProp 𝕄) :
    iprop(St42 m K c ⟨v1331, v1333⟩ ∗ (∀ r, St43 m K c -∗ Q r))
      ⊢ wp frame (wpE (defs₀ (F := F)) 𝒱₀ (Dev.tc c : Thread nD τ) none) Set.univ (k0_part43 (F := F) xM hxM oM hoM sM hsM rM hrM cc0_scratch2 cc0_scratch3 c v21 v24 v29 v62 v68 v73 v1124 v1148 v1331 v1333) Q := by
  rw [k0_part43_eq_skeleton]
  unfold k0_part43_skel St42
  exact pure_l fun hv => g_out (0, 5, 0) (off88_eq c) rfl (fun jj => congrArg (FloatOps.extf .f32 bf16_lt_f32) (hv jj)) <|
    g_wait 0 13 <| g_stg (0, 4, 0) (off89_eq c) rfl <| g_out (0, 4, 0) (off89_eq c) rfl (fun _ => rfl) <| g_wait 1 12 <|
    ret_wand _ .rfl

theorem exec_part44 (K : CellIx → ℕ) (c : Dev nD) (v62 v68 v73 v109 v1169 v1193 v1362 v1363 : BitVec 32)
    (Q : (Σ' (_ : BitVec 32), BitVec 32) → sProp 𝕄) :
    iprop(St43 m K c ∗ (∀ r, St44 m K c -∗ Q r))
      ⊢ wp frame (wpE (defs₀ (F := F)) 𝒱₀ (Dev.tc c : Thread nD τ) none) Set.univ (k0_part44 (F := F) xM hxM oM hoM sM hsM rM hrM cc0_scratch2 cc0_scratch3 c v62 v68 v73 v109 v1169 v1193 v1362 v1363) Q := by
  rw [k0_part44_eq_skeleton]
  unfold k0_part44_skel St43
  exact g_stg (1, 5, 0) (off90_eq c) rfl <| g_out (1, 5, 0) (off90_eq c) rfl (fun _ => rfl) <| g_wait 1 13 <|
    g_stg (1, 4, 0) (off91_eq c) rfl <| g_out (1, 4, 0) (off91_eq c) rfl (fun _ => rfl) <| g_wait 2 12 <| ret_wand _ .rfl

theorem exec_part45 (K : CellIx → ℕ) (c : Dev nD) (v109 v112 v117 v1214 v1393 c320 : BitVec 32) (Q : PUnit → sProp 𝕄) :
    iprop(St44 m K c ∗ (∀ r, endSt m K c 1 -∗ Q r))
      ⊢ wp frame (wpE (defs₀ (F := F)) 𝒱₀ (Dev.tc c : Thread nD τ) none) Set.univ (k0_part45 (F := F) xM hxM oM hoM sM hsM rM hrM cc0_scratch2 cc0_scratch3 c v109 v112 v117 v1214 v1393 c320) Q := by
  rw [k0_part45_eq_skeleton]
  unfold k0_part45_skel St44
  exact g_stg (2, 5, 0) (off92_eq c) rfl <| g_out (2, 5, 0) (off92_eq c) rfl (fun _ => rfl) <| g_wait 2 13 <|
    g_stg (2, 4, 0) (off93_eq c) rfl <| g_out (2, 4, 0) (off93_eq c) rfl (fun _ => rfl) <| g_end (d10_all c) <|
    end_wait 0 0 <| ret_wand _ .rfl

theorem exec_part46 (K : CellIx → ℕ) (c : Dev nD) (Q : PUnit → sProp 𝕄) :
    iprop(endSt m K c 1 ∗ (∀ r, endSt m K c 6 -∗ Q r))
      ⊢ wp frame (wpE (defs₀ (F := F)) 𝒱₀ (Dev.tc c : Thread nD τ) none) Set.univ (k0_part46 (F := F) xM hxM oM hoM sM hsM rM hrM cc0_scratch2 cc0_scratch3 c) Q := by
  rw [k0_part46_eq_skeleton]
  unfold k0_part46_skel
  exact end_wait 0 1 <| end_wait 0 2 <| end_wait 0 3 <| end_wait 0 4 <| end_wait 0 5 <| ret_wand _ .rfl

theorem exec_part47 (K : CellIx → ℕ) (c : Dev nD) (Q : PUnit → sProp 𝕄) :
    iprop(endSt m K c 6 ∗ (∀ r, endSt m K c 11 -∗ Q r))
      ⊢ wp frame (wpE (defs₀ (F := F)) 𝒱₀ (Dev.tc c : Thread nD τ) none) Set.univ (k0_part47 (F := F) xM hxM oM hoM sM hsM rM hrM cc0_scratch2 cc0_scratch3 c) Q := by
  rw [k0_part47_eq_skeleton]
  unfold k0_part47_skel
  exact end_wait 0 6 <| end_wait 0 7 <| end_wait 0 8 <| end_wait 0 9 <| end_wait 0 10 <| ret_wand _ .rfl

theorem exec_part48 (K : CellIx → ℕ) (c : Dev nD) (Q : PUnit → sProp 𝕄) :
    iprop(endSt m K c 11 ∗ (∀ r, endSt m K c 16 -∗ Q r))
      ⊢ wp frame (wpE (defs₀ (F := F)) 𝒱₀ (Dev.tc c : Thread nD τ) none) Set.univ (k0_part48 (F := F) xM hxM oM hoM sM hsM rM hrM cc0_scratch2 cc0_scratch3 c) Q := by
  rw [k0_part48_eq_skeleton]
  unfold k0_part48_skel
  exact end_wait 0 11 <| end_wait 0 12 <| end_wait 0 13 <| end_wait 1 0 <| end_wait 1 1 <| ret_wand _ .rfl

theorem exec_part49 (K : CellIx → ℕ) (c : Dev nD) (Q : PUnit → sProp 𝕄) :
    iprop(endSt m K c 16 ∗ (∀ r, endSt m K c 21 -∗ Q r))
      ⊢ wp frame (wpE (defs₀ (F := F)) 𝒱₀ (Dev.tc c : Thread nD τ) none) Set.univ (k0_part49 (F := F) xM hxM oM hoM sM hsM rM hrM cc0_scratch2 cc0_scratch3 c) Q := by
  rw [k0_part49_eq_skeleton]
  unfold k0_part49_skel
  exact end_wait 1 2 <| end_wait 1 3 <| end_wait 1 4 <| end_wait 1 5 <| end_wait 1 6 <| ret_wand _ .rfl

theorem exec_part50 (K : CellIx → ℕ) (c : Dev nD) (Q : PUnit → sProp 𝕄) :
    iprop(endSt m K c 21 ∗ (∀ r, endSt m K c 26 -∗ Q r))
      ⊢ wp frame (wpE (defs₀ (F := F)) 𝒱₀ (Dev.tc c : Thread nD τ) none) Set.univ (k0_part50 (F := F) xM hxM oM hoM sM hsM rM hrM cc0_scratch2 cc0_scratch3 c) Q := by
  rw [k0_part50_eq_skeleton]
  unfold k0_part50_skel
  exact end_wait 1 7 <| end_wait 1 8 <| end_wait 1 9 <| end_wait 1 10 <| end_wait 1 11 <| ret_wand _ .rfl

theorem exec_part51 (K : CellIx → ℕ) (c : Dev nD) (Q : PUnit → sProp 𝕄) :
    iprop(endSt m K c 26 ∗ (∀ r, endSt m K c 31 -∗ Q r))
      ⊢ wp frame (wpE (defs₀ (F := F)) 𝒱₀ (Dev.tc c : Thread nD τ) none) Set.univ (k0_part51 (F := F) xM hxM oM hoM sM hsM rM hrM cc0_scratch2 cc0_scratch3 c) Q := by
  rw [k0_part51_eq_skeleton]
  unfold k0_part51_skel
  exact end_wait 1 12 <| end_wait 1 13 <| end_wait 2 0 <| end_wait 2 1 <| end_wait 2 2 <| ret_wand _ .rfl

theorem exec_part52 (K : CellIx → ℕ) (c : Dev nD) (Q : PUnit → sProp 𝕄) :
    iprop(endSt m K c 31 ∗ (∀ r, endSt m K c 35 -∗ Q r))
      ⊢ wp frame (wpE (defs₀ (F := F)) 𝒱₀ (Dev.tc c : Thread nD τ) none) Set.univ (k0_part52 (F := F) xM hxM oM hoM sM hsM rM hrM cc0_scratch2 cc0_scratch3 c) Q := by
  rw [k0_part52_eq_skeleton]
  unfold k0_part52_skel
  exact end_wait 2 3 <| end_wait 2 4 <| end_wait 2 5 <| end_wait 2 6 <| ret_wand _ .rfl

theorem exec_part53 (K : CellIx → ℕ) (c : Dev nD) (Q : PUnit → sProp 𝕄) :
    iprop(endSt m K c 35 ∗ (∀ r, endSt m K c 40 -∗ Q r))
      ⊢ wp frame (wpE (defs₀ (F := F)) 𝒱₀ (Dev.tc c : Thread nD τ) none) Set.univ (k0_part53 (F := F) xM hxM oM hoM sM hsM rM hrM cc0_scratch2 cc0_scratch3 c) Q := by
  rw [k0_part53_eq_skeleton]
  unfold k0_part53_skel
  exact end_wait 2 7 <| end_wait 2 8 <| end_wait 2 9 <| end_wait 2 10 <| end_wait 2 11 <| ret_wand _ .rfl

def tail54 (d0 : Dev nD) : Prog (TpuEff nD τ sig (Elt F) Λ₀ .tc) (Dev nD) := do
  let v1580 : DmaSems sig S1x1 := cc0_scratch2.slice (Rect.unit (s := S3x14) ![2, 12] S1x1.size inb_S3x14_S1x1_2_12)
  let v1581 : DmaSems sig S_ := v1580.squeeze S_ squeezes_S1x1_S_
  let v1582 : Memref sig .tc .vmem S160x1024 .bf16 := sM.slice (Rect.unit (s := S4096x1024) (k0_off54 d0) S160x1024.size (k0_off54_inb d0)) (fun _ => rfl)
  let v1583 : Memref sig .tc .vmem S160x1024 .bf16 := sM.slice (Rect.unit (s := S4096x1024) (k0_off54 d0) S160x1024.size (k0_off54_inb d0)) (fun _ => rfl)
  Prog.lift (.waitDma2 v1581.sem v1583 v1582 (hsM.wordExact_slice rfl _ (k0_off54_wordsbf16 d0)) (hsM.wordExact_slice rfl _ (k0_off54_wordsbf16 d0)))
  pure d0

def tailBody (d0 : Dev nD) : Prog (TpuEff nD τ sig (Elt F) Λ₀ .tc) PUnit := do
  let v1584 : DmaSems sig S1x1 := cc0_scratch2.slice (Rect.unit (s := S3x14) ![2, 13] S1x1.size inb_S3x14_S1x1_2_13)
  let v1585 : DmaSems sig S_ := v1584.squeeze S_ squeezes_S1x1_S_
  let v1586 : Memref sig .tc .vmem S160x1024 .bf16 := sM.slice (Rect.unit (s := S4096x1024) (k0_off42 d0) S160x1024.size (k0_off42_inb d0)) (fun _ => rfl)
  let v1587 : Memref sig .tc .vmem S160x1024 .bf16 := sM.slice (Rect.unit (s := S4096x1024) (k0_off42 d0) S160x1024.size (k0_off42_inb d0)) (fun _ => rfl)
  Prog.lift (.waitDma2 v1585.sem v1587 v1586 (hsM.wordExact_slice rfl _ (k0_off42_wordsbf16 d0)) (hsM.wordExact_slice rfl _ (k0_off42_wordsbf16 d0)))
  pure ⟨⟩

theorem exec_tail54 (K : CellIx → ℕ) (c : Dev nD) (Q : Dev nD → sProp 𝕄) :
    iprop(endSt m K c 40 ∗ (∀ r, (⌜r = c⌝ ∗ endSt m K c 41) -∗ Q r))
      ⊢ wp frame (wpE (defs₀ (F := F)) 𝒱₀ (Dev.tc c : Thread nD τ) none) Set.univ (tail54 (F := F) c) Q := by
  unfold tail54
  refine end_wait 2 12 <| ret_wand _ ?_
  iintro H
  iframe
  ipureintro
  rfl

theorem exec_tailBody (K : CellIx → ℕ) (c : Dev nD) (Q : PUnit → sProp 𝕄) :
    iprop(endSt m K c 41 ∗ (bodyPost m ρ c -∗ Q ⟨⟩))
      ⊢ wp frame (wpE (defs₀ (F := F)) 𝒱₀ (Dev.tc c : Thread nD τ) none) Set.univ (tailBody (F := F) c) Q := by
  unfold tailBody
  refine end_wait 2 13 ?_
  iintro ⟨H, HQ⟩
  imod (end_close m ρ K c) $$ H with H
  iapply (le_wp_ret _ _)
  iapply HQ $$ H

end Cert.Kernel.RsAg

end
-- ==== Proof.K.Body.lean ====
/-
  The body of one device, whole: the per-part theorems composed along the root sequence of the printed body, then the
  two waits after it. Each step binds the part's theorem into the rest of the sequence; the state after a part is the
  state before the next.
-/
import proofs.«901015_g7700000000001016_dist_rs_then_ag_i_m4096_n1024_v7x_i8_f32_1_alg».proof.Proof.K.Open
import proofs.«901015_g7700000000001016_dist_rs_then_ag_i_m4096_n1024_v7x_i8_f32_1_alg».proof.Proof.K.Part1
import proofs.«901015_g7700000000001016_dist_rs_then_ag_i_m4096_n1024_v7x_i8_f32_1_alg».proof.Proof.K.PartsPure
import proofs.«901015_g7700000000001016_dist_rs_then_ag_i_m4096_n1024_v7x_i8_f32_1_alg».proof.Proof.K.PartsA
import proofs.«901015_g7700000000001016_dist_rs_then_ag_i_m4096_n1024_v7x_i8_f32_1_alg».proof.Proof.K.PartsA9
import proofs.«901015_g7700000000001016_dist_rs_then_ag_i_m4096_n1024_v7x_i8_f32_1_alg».proof.Proof.K.BodyB
import proofs.«901015_g7700000000001016_dist_rs_then_ag_i_m4096_n1024_v7x_i8_f32_1_alg».proof.Proof.K.BodyB21
import proofs.«901015_g7700000000001016_dist_rs_then_ag_i_m4096_n1024_v7x_i8_f32_1_alg».proof.Proof.K.Parts27
import proofs.«901015_g7700000000001016_dist_rs_then_ag_i_m4096_n1024_v7x_i8_f32_1_alg».proof.Proof.K.Parts36
import proofs.«901015_g7700000000001016_dist_rs_then_ag_i_m4096_n1024_v7x_i8_f32_1_alg».proof.Proof.K.BodyD
import proofs.«901015_g7700000000001016_dist_rs_then_ag_i_m4096_n1024_v7x_i8_f32_1_alg».proof.Proof.Gen.Kernel.Skeleton

set_option maxRecDepth 65536

noncomputable section

namespace Cert.Kernel.RsAg

open Cert.Kernel Cert.Kernel.Gen Cert.RsAg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A part's theorem stated with its continuation as a wand, used with the continuation as an entailment. -/
theorem of_wand {β : Type} {Pre : sProp 𝕄} {Post Q : β → sProp 𝕄} {R : sProp 𝕄}
    (hw : iprop(Pre ∗ (∀ r, Post r -∗ Q r)) ⊢ R) (h : ∀ r, Post r ⊢ Q r) : Pre ⊢ R := by
  iintro H
  iapply hw
  isplitl [H]; · iexact H
  iintro %r Hr
  iapply (h r) $$ Hr

set_option maxHeartbeats 6400000 in
/-- The root sequence of the body: from what the body starts with to what its last wait but one leaves. -/
theorem sound_part54 (K : CellIx → ℕ) (c : Dev nD) (Q : Dev nD → sProp 𝕄)
    (hQ : ∀ r, iprop(⌜r = c⌝ ∗ endSt m K c 41) ⊢ Q r) :
    St0 m K c ⊢ wp frame (wpE (defs₀ (F := F)) 𝒱₀ (Dev.tc c : Thread nD τ) none) Set.univ
      (k0_part54 (F := F) xM hxM oM hoM sM hsM rM hrM cc0_scratch2 cc0_scratch3) Q := by
  rw [k0_part54_eq_skeleton]
  unfold k0_part54_skel
  -- part 1
  rw [wp_bind]
  refine exec_part1 m K c _ (fun v2 v18 v21 v24 v25 c0_i32_20 => ?_)
  try dsimp only
  -- part 2
  rw [wp_bind]
  refine exec_part2 c _ v2 v18 v21 v24 v25 c0_i32_20 _ (fun ⟨v29, v34, v36, v39, v42, v47, v51, v54, v56, v58, c0_i32_45⟩ => ?_)
  try dsimp only
  -- part 3
  rw [wp_bind]
  refine exec_part3 c _ v2 v58 c0_i32_45 _ (fun ⟨v62, v68, v73, v78, v80, v83, v86, v91, c352_i32_70⟩ => ?_)
  try dsimp only
  -- part 4
  rw [wp_bind]
  refine exec_part4 c _ v2 v62 v68 c352_i32_70 _ (fun ⟨v95, v98, v100, v109, v112, v117, v119, v122, v124⟩ => ?_)
  try dsimp only
  -- part 5
  rw [wp_bind]
  refine exec_part5 m K c v21 v24 v29 v109 v112 v119 _ (fun ⟨v127, v130, v135, v139, v142, v144, v147, v159⟩ => ?_)
  try dsimp only
  -- part 6
  rw [wp_bind]
  refine exec_part6 m K c v2 v24 v42 v62 v73 v147 v159 _ (fun v162 v175 v186 v190 v192 => ?_)
  try dsimp only
  -- part 7
  rw [wp_bind]
  refine exec_part7 m K c v2 v68 v86 v109 v186 v190 v192 _ (fun ⟨v201, v214, v223, c320_i32_164⟩ => ?_)
  try dsimp only
  -- part 8
  rw [wp_bind]
  refine exec_part8 m K c v2 v112 v117 v130 v223 c320_i32_164 _ (fun ⟨v240, v253⟩ => ?_)
  try dsimp only
  -- part 9
  rw [wp_bind]
  refine exec_part9 m K c v2 v21 v24 v29 _ (fun ⟨v275, v286⟩ => ?_)
  try dsimp only
  -- part 10
  rw [wp_bind]
  refine exec_part10 m K c v2 v62 v68 v73 _ (fun ⟨v308, v319⟩ => ?_)
  try dsimp only
  -- part 11
  rw [wp_bind]
  refine exec_part11 m K c v2 v109 v112 v117 _ (fun ⟨v341, v352⟩ => ?_)
  try dsimp only
  -- part 12
  rw [wp_bind]
  refine exec_part12 m K c v24 v34 v42 v162 _ (fun v392 => ?_)
  try dsimp only
  -- part 13
  rw [wp_bind]
  refine exec_part13 m K c v2 v24 v34 v68 v78 v86 v201 v392 _ (fun v396 v423 => ?_)
  try dsimp only
  -- part 14
  rw [wp_bind]
  refine exec_part14 m K c v2 v68 v78 v112 v240 v423 _ (fun v440 v455 => ?_)
  try dsimp only
  -- part 15
  rw [wp_bind]
  refine exec_part15 m K c v2 v112 v122 v130 v455 _ (fun v484 => ?_)
  try dsimp only
  -- part 16
  rw [wp_bind]
  refine exec_part16 m K c v2 v24 v34 v42 v175 _ (fun v524 v525 => ?_)
  try dsimp only
  -- part 17
  rw [wp_bind]
  refine exec_part17 m K c v68 v78 v86 v214 v525 _ (fun c176_i32_394 => ?_)
  try dsimp only
  -- part 18
  rw [wp_bind]
  refine exec_part18 m K c v2 v68 v78 v112 v122 v130 v253 c176_i32_394 _ (fun v564 v593 => ?_)
  try dsimp only
  -- part 19
  rw [wp_bind]
  refine exec_part19 m K c v2 v39 v47 v112 v122 v275 v593 _ (fun v604 => ?_)
  try dsimp only
  -- part 20
  rw [wp_bind]
  refine exec_part20 m K c v2 v39 v54 v396 _ (fun v651 => ?_)
  try dsimp only
  -- part 21
  rw [wp_bind]
  refine exec_part21 m K c v83 v91 v98 v308 v440 _ (fun v693 => ?_)
  try dsimp only
  -- part 22
  rw [wp_bind]
  refine exec_part22 m K c v2 v127 v135 v341 v484 v693 _ (fun v698 v722 c0_i32_511 => ?_)
  try dsimp only
  -- part 23
  rw [wp_bind]
  refine exec_part23 m K c v2 v127 v142 v286 v722 c0_i32_511 _ (fun v745 => ?_)
  try dsimp only
  -- part 24
  rw [wp_bind]
  refine exec_part24 m K c v36 v51 v56 v319 v524 _ ?_
  try dsimp only
  -- part 25
  rw [wp_bind]
  refine exec_part25 m K c v80 v95 v100 v124 v352 v564 _ ?_
  try dsimp only
  -- part 26
  rw [wp_bind]
  refine exec_part26 m K c v36 v124 v139 v144 v604 v651 _ (fun v852 => ?_)
  try dsimp only
  -- part 27
  rw [wp_bind]
  refine exec_part27 m K c v2 v36 v852 (h := fun v866 v875 v884 => ?_)
  try dsimp only
  -- part 28
  rw [wp_bind]
  refine exec_part28 m K c v36 v80 v698 v884 (h := fun v915 => ?_)
  try dsimp only
  -- part 29
  rw [wp_bind]
  refine exec_part29 m K c v2 v915 (h := fun v920 v929 v938 => ?_)
  try dsimp only
  -- part 30
  rw [wp_bind]
  refine exec_part30 m K c v2 v80 v124 v745 (h := fun v974 => ?_)
  try dsimp only
  -- part 31
  rw [wp_bind]
  refine exec_part31 m K c v2 v124 (h := fun v983 v992 c1_i32_725 => ?_)
  try dsimp only
  -- part 32
  rw [wp_bind]
  refine exec_part32 m K c v2 v39 v866 c1_i32_725 (h := fun v1012 v1021 => ?_)
  try dsimp only
  -- part 33
  rw [wp_bind]
  refine exec_part33 m K c v2 v83 v920 (h := fun v1041 v1050 => ?_)
  try dsimp only
  -- part 34
  rw [wp_bind]
  refine exec_part34 m K c v2 v127 v974 (h := fun v1070 v1079 => ?_)
  try dsimp only
  -- part 35
  rw [wp_bind]
  refine exec_part35 m K c v2 v24 v34 v875 v1012 (h := fun v1103 v1121 => ?_)
  try dsimp only
  -- part 36
  rw [wp_bind]
  refine exec_part36 m K c v2 v34 v68 v78 v929 v1121 (h := fun v1124 v1148 v1149 c0_i32_859 => ?_)
  try dsimp only
  -- part 37
  rw [wp_bind]
  refine exec_part37 m K c v2 v68 v78 v1041 v1149 c0_i32_859 (h := fun v1169 v1180 => ?_)
  try dsimp only
  -- part 38
  rw [wp_bind]
  refine exec_part38 m K c v2 v112 v122 v983 v1070 v1180 (h := fun v1193 v1208 c160_i32_913 => ?_)
  try dsimp only
  -- part 39
  rw [wp_bind]
  refine exec_part39 m K c v2 v21 v24 v29 v112 v122 v884 v1208 c160_i32_913 (h := fun v1214 v1240 => ?_)
  try dsimp only
  -- part 40
  rw [wp_bind]
  refine exec_part40 m K c v21 v24 v29 v62 v68 v73 v938 v1021 v1240 (h := fun v1271 => ?_)
  try dsimp only
  -- part 41
  rw [wp_bind]
  refine of_wand (exec_part41 m K c v62 v68 v73 v109 v112 v117 v992 v1050 v1271 _) (fun v1302 => ?_)
  try dsimp only
  -- part 42
  rw [wp_bind]
  refine of_wand (exec_part42 m K c v21 v24 v29 v109 v112 v117 v1079 v1103 v1302 _) (fun ⟨v1331, v1333⟩ => ?_)
  try dsimp only
  -- part 43
  rw [wp_bind]
  refine of_wand (exec_part43 m K c v21 v24 v29 v62 v68 v73 v1124 v1148 v1331 v1333 _) (fun ⟨v1362, v1363⟩ => ?_)
  try dsimp only
  -- part 44
  rw [wp_bind]
  refine of_wand (exec_part44 m K c v62 v68 v73 v109 v1169 v1193 v1362 v1363 _) (fun ⟨v1393, c320_i32_1065⟩ => ?_)
  try dsimp only
  -- part 45
  rw [wp_bind]
  refine of_wand (exec_part45 m K c v109 v112 v117 v1214 v1393 c320_i32_1065 _) (fun _ => ?_)
  try dsimp only
  -- part 46
  rw [wp_bind]
  refine of_wand (exec_part46 m K c _) (fun _ => ?_)
  try dsimp only
  -- part 47
  rw [wp_bind]
  refine of_wand (exec_part47 m K c _) (fun _ => ?_)
  try dsimp only
  -- part 48
  rw [wp_bind]
  refine of_wand (exec_part48 m K c _) (fun _ => ?_)
  try dsimp only
  -- part 49
  rw [wp_bind]
  refine of_wand (exec_part49 m K c _) (fun _ => ?_)
  try dsimp only
  -- part 50
  rw [wp_bind]
  refine of_wand (exec_part50 m K c _) (fun _ => ?_)
  try dsimp only
  -- part 51
  rw [wp_bind]
  refine of_wand (exec_part51 m K c _) (fun _ => ?_)
  try dsimp only
  -- part 52
  rw [wp_bind]
  refine of_wand (exec_part52 m K c _) (fun _ => ?_)
  try dsimp only
  -- part 53
  rw [wp_bind]
  refine of_wand (exec_part53 m K c _) (fun _ => ?_)
  try dsimp only
  -- the wait after the last part
  exact of_wand (exec_tail54 m K c Q) hQ

set_option maxHeartbeats 1600000 in
/-- One device's body, from the body's precondition to its postcondition. -/
theorem body_run (K : CellIx → ℕ) (c : Dev nD) :
    bodyPre m ρ K c ⊢ wp frame (wpE (defs₀ (F := F)) 𝒱₀ (Dev.tc c : Thread nD τ) none) Set.univ
      (cc0_body (F := F) xM hxM oM hoM sM hsM rM hrM cc0_scratch2 cc0_scratch3) (fun _ => bodyPost m ρ c) := by
  rw [cc0_body_eq_skeleton]
  unfold cc0_body_skel
  rw [wp_bind]
  refine (bodyPre_open m ρ K c).trans (sound_part54 m K c _ (fun r => ?_))
  dsimp only
  iintro ⟨%hr, H⟩
  subst hr
  iapply (exec_tailBody m ρ K r _)
  isplitl [H]; · iexact H
  iintro Hp
  iexact Hp

/-- The same against any continuation. -/
theorem sound_body (K : CellIx → ℕ) (c : Dev nD) (Kt : PUnit → sProp 𝕄) :
    iprop(bodyPre m ρ K c ∗ (bodyPost m ρ c -∗ Kt ⟨⟩))
      ⊢ wp frame (wpE (defs₀ (F := F)) 𝒱₀ (Dev.tc c : Thread nD τ) none) Set.univ
          (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨Hpre, Hk⟩
  iapply (wp_wand_r _ _ _ (Q := fun _ => bodyPost m ρ c))
  isplitl [Hpre]
  · iapply (body_run m ρ K c) $$ Hpre
  · iintro %a Hp
    iapply Hk $$ Hp

/-- info: 'Cert.Kernel.RsAg.sound_body' depends on axioms: [propext, Classical.choice, Quot.sound] -/
#guard_msgs in #print axioms sound_body

end Cert.Kernel.RsAg

end
-- ==== Proof.K.Run.lean ====
import proofs.«901015_g7700000000001016_dist_rs_then_ag_i_m4096_n1024_v7x_i8_f32_1_alg».proof.Proof.K.Launch
import proofs.«901015_g7700000000001016_dist_rs_then_ag_i_m4096_n1024_v7x_i8_f32_1_alg».proof.Proof.K.Body

noncomputable section

namespace Cert.Kernel.RsAg

open Idealize.ShloMosaic Idealize.SL.Sem Cert.Kernel Cert.Kernel.Gen

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = Cert.RsAg.Out (fun d : Fin 8 => m ((Dev.tc d : Thread nD τ).loc main_arg0)) c
      ∧ r.2.mem ((c.tc : Thread nD τ).loc main_arg0) = m ((c.tc : Thread nD τ).loc main_arg0)) :=
  run_of m ρ (fun K c Kt => sound_body m ρ K c Kt)

end Cert.Kernel.RsAg

end
-- ==== Proof.Claims.lean ====
import proofs.«901015_g7700000000001016_dist_rs_then_ag_i_m4096_n1024_v7x_i8_f32_1_alg».proof.Defs
import proofs.«901015_g7700000000001016_dist_rs_then_ag_i_m4096_n1024_v7x_i8_f32_1_alg».proof.Proof.Spec
import proofs.«901015_g7700000000001016_dist_rs_then_ag_i_m4096_n1024_v7x_i8_f32_1_alg».proof.Proof.RefValue
import proofs.«901015_g7700000000001016_dist_rs_then_ag_i_m4096_n1024_v7x_i8_f32_1_alg».proof.Proof.Gen.Kernel
import proofs.«901015_g7700000000001016_dist_rs_then_ag_i_m4096_n1024_v7x_i8_f32_1_alg».proof.Proof.Gen.KernelIdeal
import proofs.«901015_g7700000000001016_dist_rs_then_ag_i_m4096_n1024_v7x_i8_f32_1_alg».proof.Proof.Gen.ReferenceIdeal
import proofs.«901015_g7700000000001016_dist_rs_then_ag_i_m4096_n1024_v7x_i8_f32_1_alg».proof.Proof.Gen.Pre_finite_inputs_Kernel
import proofs.«901015_g7700000000001016_dist_rs_then_ag_i_m4096_n1024_v7x_i8_f32_1_alg».proof.Proof.Gen.Pre_finite_inputs_ReferenceIdeal
import proofs.«901015_g7700000000001016_dist_rs_then_ag_i_m4096_n1024_v7x_i8_f32_1_alg».proof.Proof.KI.Run
import proofs.«901015_g7700000000001016_dist_rs_then_ag_i_m4096_n1024_v7x_i8_f32_1_alg».proof.Proof.K.Run

noncomputable section

namespace Cert.RsAg.Claims

open Idealize.ShloMosaic Idealize.SL.Sem

theorem frame_Kernel : Cert.frame_Kernel := fun m g _ =>
  (θ_run (Cert.Kernel.defs (F := Bits)) _ _).mono (fun _ h c => (h c).2) (Cert.Kernel.RsAg.run (F := Bits) m g)

theorem frame_KernelIdeal : Cert.frame_KernelIdeal := fun m g _ =>
  (θ_run (Cert.KernelIdeal.defs (F := Ideal)) _ _).mono (fun _ h c => (h c).2) (Cert.KernelIdeal.RsAg.run (F := Ideal) m g)

theorem frame_ReferenceIdeal : Cert.frame_ReferenceIdeal := fun m g _ =>
  (θ_run (Cert.ReferenceIdeal.defs (F := Ideal)) _ _).mono (fun _ h c => (h c).2) (Cert.ReferenceIdeal.Value.run (F := Ideal) m g)

theorem preserves_Kernel_KernelIdeal : Cert.preserves_Kernel_KernelIdeal := trivial

theorem algebraic_KernelIdeal_ReferenceIdeal : Cert.algebraic_KernelIdeal_ReferenceIdeal := by
  intro m g m' g' _ hagree
  refine ⟨Ref.refVal (m' (((0 : Dev Cert.ReferenceIdeal.nD).tc : Thread Cert.ReferenceIdeal.nD Cert.ReferenceIdeal.τ).loc Cert.ReferenceIdeal.main_arg0)), ?_, Ref.ref_run m' g'⟩
  refine (θ_run (Cert.KernelIdeal.defs (F := Ideal)) _ _).mono (fun r h c => ⟨(h c).1.trans ?_, (h c).2⟩)
    (Cert.KernelIdeal.RsAg.run (F := Ideal) m g)
  rw [Ref.Out_ideal]
  funext i
  unfold Ref.refVal
  exact Finset.sum_congr rfl fun d _ => congrFun (hagree d) i

end Cert.RsAg.Claims

end
-- ==== Proof.lean ====
import proofs.«901015_g7700000000001016_dist_rs_then_ag_i_m4096_n1024_v7x_i8_f32_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.RsAg.Claims.frame_Kernel, Cert.RsAg.Claims.frame_KernelIdeal, Cert.RsAg.Claims.frame_ReferenceIdeal,
    Cert.RsAg.Claims.preserves_Kernel_KernelIdeal, Cert.RsAg.Claims.algebraic_KernelIdeal_ReferenceIdeal⟩

end Cert.Proof

end
